-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v344)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v344) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v403) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x44 : Shape := ⟨2, ![32768, 44]⟩
abbrev S32768x8 : Shape := ⟨2, ![32768, 8]⟩
abbrev S524288x1 : Shape := ⟨2, ![524288, 1]⟩
abbrev S44x128 : Shape := ⟨2, ![44, 128]⟩
abbrev S128 : Shape := ⟨1, ![128]⟩
abbrev S8x128 : Shape := ⟨2, ![8, 128]⟩
abbrev S1x128 : Shape := ⟨2, ![1, 128]⟩
abbrev S3x128x128 : Shape := ⟨3, ![3, 128, 128]⟩
abbrev S3x128 : Shape := ⟨2, ![3, 128]⟩
abbrev S3x128x256 : Shape := ⟨3, ![3, 128, 256]⟩
abbrev S3x256 : Shape := ⟨2, ![3, 256]⟩
abbrev S3x256x128 : Shape := ⟨3, ![3, 256, 128]⟩
abbrev S524288 : Shape := ⟨1, ![524288]⟩
abbrev S_ : Shape := ⟨0, ![]⟩

class Facts : Prop where
  bcast_S_S32768x44 : S_.BroadcastsInDim S32768x44 (![] : Fin 0 → Fin S32768x44.rank)
  reducesTo_S32768x44_S_d0_1 : S32768x44.ReducesTo [0, 1] S_
  h_S_ : 0 < S_.numel
  bcast_S_S32768x8 : S_.BroadcastsInDim S32768x8 (![] : Fin 0 → Fin S32768x8.rank)
  reducesTo_S32768x8_S_d0_1 : S32768x8.ReducesTo [0, 1] S_
  bcast_S_S524288x1 : S_.BroadcastsInDim S524288x1 (![] : Fin 0 → Fin S524288x1.rank)
  reducesTo_S524288x1_S_d0_1 : S524288x1.ReducesTo [0, 1] S_
  bcast_S_S44x128 : S_.BroadcastsInDim S44x128 (![] : Fin 0 → Fin S44x128.rank)
  reducesTo_S44x128_S_d0_1 : S44x128.ReducesTo [0, 1] S_
  bcast_S_S128 : S_.BroadcastsInDim S128 (![] : Fin 0 → Fin S128.rank)
  reducesTo_S128_S_d0 : S128.ReducesTo [0] S_
  bcast_S_S8x128 : S_.BroadcastsInDim S8x128 (![] : Fin 0 → Fin S8x128.rank)
  reducesTo_S8x128_S_d0_1 : S8x128.ReducesTo [0, 1] S_
  bcast_S_S1x128 : S_.BroadcastsInDim S1x128 (![] : Fin 0 → Fin S1x128.rank)
  reducesTo_S1x128_S_d0_1 : S1x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x256 : S_.BroadcastsInDim S3x128x256 (![] : Fin 0 → Fin S3x128x256.rank)
  reducesTo_S3x128x256_S_d0_1_2 : S3x128x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x128 : S_.BroadcastsInDim S3x256x128 (![] : Fin 0 → Fin S3x256x128.rank)
  reducesTo_S3x256x128_S_d0_1_2 : S3x256x128.ReducesTo [0, 1, 2] S_

variable [Facts]

def fn_part6 {F : FTy → Type} [FloatOps F] (main_arg21 : FVec F S3x128 .f32) (main_arg22 : FVec F S3x128 .f32) (main_v98 : IVec S_ 1) (main_v101 : IVec S3x128 1) (main_c_39 : IVec S_ 1) : IVec S_ 1 :=
  let main_v102 : IVec S_ 1 := (fun x v => Host.reduce IntOp.andi x v reducesTo_S3x128_S_d0_1 h_S_) main_v101 main_c_39
  let main_v103 : IVec S_ 1 := andi main_v98 main_v102
  let main_v104 : FVec F S3x128 .f32 := Host.absf main_arg21
  let main_cst_40 : FVec F S_ .f32 := constant S_ .f32 0x7F800000#32
  let main_v105 : FVec F S3x128 .f32 := broadcastInDim S3x128 ![] bcast_S_S3x128 main_cst_40
  let main_v106 : IVec S3x128 1 := cmpf .olt main_v104 main_v105
  let main_c_41 : IVec S_ 1 := constantI S_ 1 1#1
  let main_v107 : IVec S_ 1 := (fun x v => Host.reduce IntOp.andi x v reducesTo_S3x128_S_d0_1 h_S_) main_v106 main_c_41
  let main_v108 : IVec S_ 1 := andi main_v103 main_v107
  let main_v109 : FVec F S3x128 .f32 := Host.absf main_arg22
  let main_cst_42 : FVec F S_ .f32 := constant S_ .f32 0x7F800000#32
  let main_v110 : FVec F S3x128 .f32 := broadcastInDim S3x128 ![] bcast_S_S3x128 main_cst_42
  let main_v111 : IVec S3x128 1 := cmpf .olt main_v109 main_v110
  let main_c_43 : IVec S_ 1 := constantI S_ 1 1#1
  let main_v112 : IVec S_ 1 := (fun x v => Host.reduce IntOp.andi x v reducesTo_S3x128_S_d0_1 h_S_) main_v111 main_c_43
  let main_v113 : IVec S_ 1 := andi main_v108 main_v112
  main_v113

def fn_part5 {F : FTy → Type} [FloatOps F] (main_arg18 : FVec F S3x256 .f32) (main_arg19 : FVec F S3x256x128 .f32) (main_arg20 : FVec F S3x128 .f32) (main_arg21 : FVec F S3x128 .f32) (main_arg22 : FVec F S3x128 .f32) (main_v83 : IVec S_ 1) (main_v84 : FVec F S3x128x256 .f32) (main_cst_32 : FVec F S_ .f32) : IVec S_ 1 :=
  let main_v85 : FVec F S3x128x256 .f32 := broadcastInDim S3x128x256 ![] bcast_S_S3x128x256 main_cst_32
  let main_v86 : IVec S3x128x256 1 := cmpf .olt main_v84 main_v85
  let main_c_33 : IVec S_ 1 := constantI S_ 1 1#1
  let main_v87 : IVec S_ 1 := (fun x v => Host.reduce IntOp.andi x v reducesTo_S3x128x256_S_d0_1_2 h_S_) main_v86 main_c_33
  let main_v88 : IVec S_ 1 := andi main_v83 main_v87
  let main_v89 : FVec F S3x256 .f32 := Host.absf main_arg18
  let main_cst_34 : FVec F S_ .f32 := constant S_ .f32 0x7F800000#32
  let main_v90 : FVec F S3x256 .f32 := broadcastInDim S3x256 ![] bcast_S_S3x256 main_cst_34
  let main_v91 : IVec S3x256 1 := cmpf .olt main_v89 main_v90
  let main_c_35 : IVec S_ 1 := constantI S_ 1 1#1
  let main_v92 : IVec S_ 1 := (fun x v => Host.reduce IntOp.andi x v reducesTo_S3x256_S_d0_1 h_S_) main_v91 main_c_35
  let main_v93 : IVec S_ 1 := andi main_v88 main_v92
  let main_v94 : FVec F S3x256x128 .f32 := Host.absf main_arg19
  let main_cst_36 : FVec F S_ .f32 := constant S_ .f32 0x7F800000#32
  let main_v95 : FVec F S3x256x128 .f32 := broadcastInDim S3x256x128 ![] bcast_S_S3x256x128 main_cst_36
  let main_v96 : IVec S3x256x128 1 := cmpf .olt main_v94 main_v95
  let main_c_37 : IVec S_ 1 := constantI S_ 1 1#1
  let main_v97 : IVec S_ 1 := (fun x v => Host.reduce IntOp.andi x v reducesTo_S3x256x128_S_d0_1_2 h_S_) main_v96 main_c_37
  let main_v98 : IVec S_ 1 := andi main_v93 main_v97
  let main_v99 : FVec F S3x128 .f32 := Host.absf main_arg20
  let main_cst_38 : FVec F S_ .f32 := constant S_ .f32 0x7F800000#32
  let main_v100 : FVec F S3x128 .f32 := broadcastInDim S3x128 ![] bcast_S_S3x128 main_cst_38
  let main_v101 : IVec S3x128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S3x128 .f32) (main_arg15 : FVec F S3x128 .f32) (main_arg16 : FVec F S3x128 .f32) (main_arg17 : FVec F S3x128x256 .f32) (main_arg18 : FVec F S3x256 .f32) (main_arg19 : FVec F S3x256x128 .f32) (main_arg20 : FVec F S3x128 .f32) (main_arg21 : FVec F S3x128 .f32) (main_arg22 : FVec F S3x128 .f32) (main_v63 : IVec S_ 1) (main_v67 : IVec S_ 1) : IVec S_ 1 :=
  let main_v68 : IVec S_ 1 := andi main_v63 main_v67
  let main_v69 : FVec F S3x128 .f32 := Host.absf main_arg14
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128 .f32 := Host.absf main_arg15
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S3x128 .f32 := Host.absf main_arg16
  let main_cst_30 : FVec F S_ .f32 := constant S_ .f32 0x7F800000#32
  let main_v80 : FVec F S3x128 .f32 := broadcastInDim S3x128 ![] bcast_S_S3x128 main_cst_30
  let main_v81 : IVec S3x128 1 := cmpf .olt main_v79 main_v80
  let main_c_31 : IVec S_ 1 := constantI S_ 1 1#1
  let main_v82 : IVec S_ 1 := (fun x v => Host.reduce IntOp.andi x v reducesTo_S3x128_S_d0_1 h_S_) main_v81 main_c_31
  let main_v83 : IVec S_ 1 := andi main_v78 main_v82
  let main_v84 : FVec F S3x128x256 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S3x128x128 .f32) (main_arg12 : FVec F S3x128x128 .f32) (main_arg13 : FVec F S3x128x128 .f32) (main_arg14 : FVec F S3x128 .f32) (main_arg15 : FVec F S3x128 .f32) (main_arg16 : FVec F S3x128 .f32) (main_arg17 : FVec F S3x128x256 .f32) (main_arg18 : FVec F S3x256 .f32) (main_arg19 : FVec F S3x256x128 .f32) (main_arg20 : FVec F S3x128 .f32) (main_arg21 : FVec F S3x128 .f32) (main_arg22 : FVec F S3x128 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S3x128x128 .f32 := Host.absf main_arg11
  let main_cst_20 : FVec F S_ .f32 := constant S_ .f32 0x7F800000#32
  let main_v55 : FVec F S3x128x128 .f32 := broadcastInDim S3x128x128 ![] bcast_S_S3x128x128 main_cst_20
  let main_v56 : IVec S3x128x128 1 := cmpf .olt main_v54 main_v55
  let main_c_21 : IVec S_ 1 := constantI S_ 1 1#1
  let main_v57 : IVec S_ 1 := (fun x v => Host.reduce IntOp.andi x v reducesTo_S3x128x128_S_d0_1_2 h_S_) main_v56 main_c_21
  let main_v58 : IVec S_ 1 := andi main_v53 main_v57
  let main_v59 : FVec F S3x128x128 .f32 := Host.absf main_arg12
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128x128 .f32 := Host.absf main_arg13
  let main_cst_24 : FVec F S_ .f32 := constant S_ .f32 0x7F800000#32
  let main_v65 : FVec F S3x128x128 .f32 := broadcastInDim S3x128x128 ![] bcast_S_S3x128x128 main_cst_24
  let main_v66 : IVec S3x128x128 1 := cmpf .olt main_v64 main_v65
  let main_c_25 : IVec S_ 1 := constantI S_ 1 1#1
  let main_v67 : IVec S_ 1 := (fun x v => Host.reduce IntOp.andi x v reducesTo_S3x128x128_S_d0_1_2 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S1x128 .f32) (main_arg8 : FVec F S128 .f32) (main_arg9 : FVec F S3x128x128 .f32) (main_arg10 : FVec F S3x128x128 .f32) (main_arg11 : FVec F S3x128x128 .f32) (main_arg12 : FVec F S3x128x128 .f32) (main_arg13 : FVec F S3x128x128 .f32) (main_arg14 : FVec F S3x128 .f32) (main_arg15 : FVec F S3x128 .f32) (main_arg16 : FVec F S3x128 .f32) (main_arg17 : FVec F S3x128x256 .f32) (main_arg18 : FVec F S3x256 .f32) (main_arg19 : FVec F S3x256x128 .f32) (main_arg20 : FVec F S3x128 .f32) (main_arg21 : FVec F S3x128 .f32) (main_arg22 : FVec F S3x128 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S3x128x128 .f32 := Host.absf main_arg9
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S3x128x128 .f32 := Host.absf main_arg10
  let main_cst_18 : FVec F S_ .f32 := constant S_ .f32 0x7F800000#32
  let main_v50 : FVec F S3x128x128 .f32 := broadcastInDim S3x128x128 ![] bcast_S_S3x128x128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128 .f32) (main_arg5 : FVec F S8x128 .f32) (main_arg6 : FVec F S128 .f32) (main_arg7 : FVec F S1x128 .f32) (main_arg8 : FVec F S128 .f32) (main_arg9 : FVec F S3x128x128 .f32) (main_arg10 : FVec F S3x128x128 .f32) (main_arg11 : FVec F S3x128x128 .f32) (main_arg12 : FVec F S3x128x128 .f32) (main_arg13 : FVec F S3x128x128 .f32) (main_arg14 : FVec F S3x128 .f32) (main_arg15 : FVec F S3x128 .f32) (main_arg16 : FVec F S3x128 .f32) (main_arg17 : FVec F S3x128x256 .f32) (main_arg18 : FVec F S3x256 .f32) (main_arg19 : FVec F S3x256x128 .f32) (main_arg20 : FVec F S3x128 .f32) (main_arg21 : FVec F S3x128 .f32) (main_arg22 : FVec F S3x128 .f32) (main_v13 : IVec S_ 1) (main_v16 : IVec S44x128 1) : IVec S_ 1 :=
  let main_c_5 : IVec S_ 1 := constantI S_ 1 1#1
  let main_v17 : IVec S_ 1 := (fun x v => Host.reduce IntOp.andi x v reducesTo_S44x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S32768x44 .f32) (main_arg1 : FVec F S32768x8 .f32) (main_arg2 : FVec F S524288x1 .f32) (main_arg3 : FVec F S44x128 .f32) (main_arg4 : FVec F S128 .f32) (main_arg5 : FVec F S8x128 .f32) (main_arg6 : FVec F S128 .f32) (main_arg7 : FVec F S1x128 .f32) (main_arg8 : FVec F S128 .f32) (main_arg9 : FVec F S3x128x128 .f32) (main_arg10 : FVec F S3x128x128 .f32) (main_arg11 : FVec F S3x128x128 .f32) (main_arg12 : FVec F S3x128x128 .f32) (main_arg13 : FVec F S3x128x128 .f32) (main_arg14 : FVec F S3x128 .f32) (main_arg15 : FVec F S3x128 .f32) (main_arg16 : FVec F S3x128 .f32) (main_arg17 : FVec F S3x128x256 .f32) (main_arg18 : FVec F S3x256 .f32) (main_arg19 : FVec F S3x256x128 .f32) (main_arg20 : FVec F S3x128 .f32) (main_arg21 : FVec F S3x128 .f32) (main_arg22 : FVec F S3x128 .f32) (main_arg23 : IVec S524288 32) (main_arg24 : IVec S524288 32) : IVec S_ 1 :=
  let main_v0 : FVec F S32768x44 .f32 := Host.absf main_arg0
  let main_cst : FVec F S_ .f32 := constant S_ .f32 0x7F800000#32
  let main_v1 : FVec F S32768x44 .f32 := broadcastInDim S32768x44 ![] bcast_S_S32768x44 main_cst
  let main_v2 : IVec S32768x44 1 := cmpf .olt main_v0 main_v1
  let main_c : IVec S_ 1 := constantI S_ 1 1#1
  let main_v3 : IVec S_ 1 := (fun x v => Host.reduce IntOp.andi x v reducesTo_S32768x44_S_d0_1 h_S_) main_v2 main_c
  let main_v4 : FVec F S32768x8 .f32 := Host.absf main_arg1
  let main_cst_0 : FVec F S_ .f32 := constant S_ .f32 0x7F800000#32
  let main_v5 : FVec F S32768x8 .f32 := broadcastInDim S32768x8 ![] bcast_S_S32768x8 main_cst_0
  let main_v6 : IVec S32768x8 1 := cmpf .olt main_v4 main_v5
  let main_c_1 : IVec S_ 1 := constantI S_ 1 1#1
  let main_v7 : IVec S_ 1 := (fun x v => Host.reduce IntOp.andi x v reducesTo_S32768x8_S_d0_1 h_S_) main_v6 main_c_1
  let main_v8 : IVec S_ 1 := andi main_v3 main_v7
  let main_v9 : FVec F S524288x1 .f32 := Host.absf main_arg2
  let main_cst_2 : FVec F S_ .f32 := constant S_ .f32 0x7F800000#32
  let main_v10 : FVec F S524288x1 .f32 := broadcastInDim S524288x1 ![] bcast_S_S524288x1 main_cst_2
  let main_v11 : IVec S524288x1 1 := cmpf .olt main_v9 main_v10
  let main_c_3 : IVec S_ 1 := constantI S_ 1 1#1
  let main_v12 : IVec S_ 1 := (fun x v => Host.reduce IntOp.andi x v reducesTo_S524288x1_S_d0_1 h_S_) main_v11 main_c_3
  let main_v13 : IVec S_ 1 := andi main_v8 main_v12
  let main_v14 : FVec F S44x128 .f32 := Host.absf main_arg3
  let main_cst_4 : FVec F S_ .f32 := constant S_ .f32 0x7F800000#32
  let main_v15 : FVec F S44x128 .f32 := broadcastInDim S44x128 ![] bcast_S_S44x128 main_cst_4
  let main_v16 : IVec S44x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S32768x44 : Shape := ⟨2, ![32768, 44]⟩
abbrev S32768x8 : Shape := ⟨2, ![32768, 8]⟩
abbrev S524288x1 : Shape := ⟨2, ![524288, 1]⟩
abbrev S44x128 : Shape := ⟨2, ![44, 128]⟩
abbrev S128 : Shape := ⟨1, ![128]⟩
abbrev S8x128 : Shape := ⟨2, ![8, 128]⟩
abbrev S1x128 : Shape := ⟨2, ![1, 128]⟩
abbrev S3x128x128 : Shape := ⟨3, ![3, 128, 128]⟩
abbrev S3x128 : Shape := ⟨2, ![3, 128]⟩
abbrev S3x128x256 : Shape := ⟨3, ![3, 128, 256]⟩
abbrev S3x256 : Shape := ⟨2, ![3, 256]⟩
abbrev S3x256x128 : Shape := ⟨3, ![3, 256, 128]⟩
abbrev S524288 : Shape := ⟨1, ![524288]⟩
abbrev S32768x52 : Shape := ⟨2, ![32768, 52]⟩
abbrev S52x128 : Shape := ⟨2, ![52, 128]⟩
abbrev S32768x128 : Shape := ⟨2, ![32768, 128]⟩
abbrev S8192x52 : Shape := ⟨2, ![8192, 52]⟩
abbrev S8192x128 : Shape := ⟨2, ![8192, 128]⟩
abbrev S524288x128 : Shape := ⟨2, ![524288, 128]⟩
abbrev S_ : Shape := ⟨0, ![]⟩
abbrev S1x384 : Shape := ⟨2, ![1, 384]⟩
abbrev S1x128x128 : Shape := ⟨3, ![1, 128, 128]⟩
abbrev S128x128 : Shape := ⟨2, ![128, 128]⟩
abbrev S128x384 : Shape := ⟨2, ![128, 384]⟩
abbrev S32768x384 : Shape := ⟨2, ![32768, 384]⟩
abbrev S4096x128 : Shape := ⟨2, ![4096, 128]⟩
abbrev S4096x384 : Shape := ⟨2, ![4096, 384]⟩
abbrev S4096x32 : Shape := ⟨2, ![4096, 32]⟩
abbrev S4096 : Shape := ⟨1, ![4096]⟩
abbrev S4096x1 : Shape := ⟨2, ![4096, 1]⟩
abbrev S4096x4 : Shape := ⟨2, ![4096, 4]⟩
abbrev S32768 : Shape := ⟨1, ![32768]⟩
abbrev S32768x1 : Shape := ⟨2, ![32768, 1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S32768x256 : Shape := ⟨2, ![32768, 256]⟩
abbrev S4096x256 : Shape := ⟨2, ![4096, 256]⟩
abbrev S1x256x128 : Shape := ⟨3, ![1, 256, 128]⟩
abbrev S256x128 : Shape := ⟨2, ![256, 128]⟩

abbrev nBuf : Space → Nat
  | .hbm => 566
  | .vmem => 132
  | .smem => 0
  | _ => 0

abbrev hbmTy0_0 (i : Nat) : BufTy := match i % 128 with
  | 0 => ⟨S32768x44, .f32⟩
  | 1 => ⟨S32768x8, .f32⟩
  | 2 => ⟨S524288x1, .f32⟩
  | 3 => ⟨S44x128, .f32⟩
  | 4 => ⟨S128, .f32⟩
  | 5 => ⟨S8x128, .f32⟩
  | 6 => ⟨S128, .f32⟩
  | 7 => ⟨S1x128, .f32⟩
  | 8 => ⟨S128, .f32⟩
  | 9 => ⟨S3x128x128, .f32⟩
  | 10 => ⟨S3x128x128, .f32⟩
  | 11 => ⟨S3x128x128, .f32⟩
  | 12 => ⟨S3x128x128, .f32⟩
  | 13 => ⟨S3x128x128, .f32⟩
  | 14 => ⟨S3x128, .f32⟩
  | 15 => ⟨S3x128, .f32⟩
  | 16 => ⟨S3x128, .f32⟩
  | 17 => ⟨S3x128x256, .f32⟩
  | 18 => ⟨S3x256, .f32⟩
  | 19 => ⟨S3x256x128, .f32⟩
  | 20 => ⟨S3x128, .f32⟩
  | 21 => ⟨S3x128, .f32⟩
  | 22 => ⟨S3x128, .f32⟩
  | 23 => ⟨S524288, .i32⟩
  | 24 => ⟨S524288, .i32⟩
  | 25 => ⟨S32768x52, .f32⟩
  | 26 => ⟨S52x128, .f32⟩
  | 27 => ⟨S128, .f32⟩
  | 28 => ⟨S1x128, .f32⟩
  | 29 => ⟨S32768x128, .f32⟩
  | 30 => ⟨S524288x128, .f32⟩
  | 31 => ⟨S1x128, .f32⟩
  | 32 => ⟨S524288x128, .f32⟩
  | 33 => ⟨S524288x128, .f32⟩
  | 34 => ⟨S_, .f32⟩
  | 35 => ⟨S1x384, .f32⟩
  | 36 => ⟨S_, .f32⟩
  | 37 => ⟨S1x128, .f32⟩
  | 38 => ⟨S1x128x128, .f32⟩
  | 39 => ⟨S128x128, .f32⟩
  | 40 => ⟨S1x128x128, .f32⟩
  | 41 => ⟨S128x128, .f32⟩
  | 42 => ⟨S1x128x128, .f32⟩
  | 43 => ⟨S128x128, .f32⟩
  | 44 => ⟨S128x384, .f32⟩
  | 45 => ⟨S32768x384, .f32⟩
  | 46 => ⟨S32768x128, .f32⟩
  | 47 => ⟨S32768x128, .f32⟩
  | 48 => ⟨S32768x128, .f32⟩
  | 49 => ⟨S1x128x128, .f32⟩
  | 50 => ⟨S128x128, .f32⟩
  | 51 => ⟨S524288x128, .f32⟩
  | 52 => ⟨S_, .i32⟩
  | 53 => ⟨S524288, .i32⟩
  | 54 => ⟨S524288, .i1⟩
  | 55 => ⟨S_, .i32⟩
  | 56 => ⟨S524288, .i32⟩
  | 57 => ⟨S524288, .i32⟩
  | 58 => ⟨S524288, .i32⟩
  | 59 => ⟨S524288x1, .i32⟩
  | 60 => ⟨S524288x128, .f32⟩
  | 61 => ⟨S_, .i32⟩
  | 62 => ⟨S524288, .i32⟩
  | 63 => ⟨S524288, .i1⟩
  | 64 => ⟨S_, .i32⟩
  | 65 => ⟨S524288, .i32⟩
  | 66 => ⟨S524288, .i32⟩
  | 67 => ⟨S524288, .i32⟩
  | 68 => ⟨S524288x1, .i32⟩
  | 69 => ⟨S524288x128, .f32⟩
  | 70 => ⟨S_, .i32⟩
  | 71 => ⟨S524288, .i32⟩
  | 72 => ⟨S524288, .i1⟩
  | 73 => ⟨S_, .i32⟩
  | 74 => ⟨S524288, .i32⟩
  | 75 => ⟨S524288, .i32⟩
  | 76 => ⟨S524288, .i32⟩
  | 77 => ⟨S524288x1, .i32⟩
  | 78 => ⟨S524288x128, .f32⟩
  | 79 => ⟨S524288x128, .f32⟩
  | 80 => ⟨S524288x128, .f32⟩
  | 81 => ⟨S_, .f32⟩
  | 82 => ⟨S32768x128, .f32⟩
  | 83 => ⟨S524288x1, .i32⟩
  | 84 => ⟨S32768x128, .f32⟩
  | 85 => ⟨S_, .f32⟩
  | 86 => ⟨S32768x128, .f32⟩
  | 87 => ⟨S32768x128, .f32⟩
  | 88 => ⟨S_, .f32⟩
  | 89 => ⟨S32768x128, .f32⟩
  | 90 => ⟨S524288x1, .i32⟩
  | 91 => ⟨S32768x128, .f32⟩
  | 92 => ⟨S32768x128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S32768x128, .f32⟩
  | 99 => ⟨S32768x128, .f32⟩
  | 100 => ⟨S1x128, .f32⟩
  | 101 => ⟨S128, .f32⟩
  | 102 => ⟨S1x128, .f32⟩
  | 103 => ⟨S128, .f32⟩
  | 104 => ⟨S_, .f32⟩
  | 105 => ⟨S32768, .f32⟩
  | 106 => ⟨S32768x1, .f32⟩
  | 107 => ⟨S_, .f32⟩
  | 108 => ⟨S32768x1, .f32⟩
  | 109 => ⟨S32768x1, .f32⟩
  | 110 => ⟨S_, .i32⟩
  | 111 => ⟨S_, .f32⟩
  | 112 => ⟨S32768, .f32⟩
  | 113 => ⟨S32768x1, .f32⟩
  | 114 => ⟨S_, .f32⟩
  | 115 => ⟨S32768x1, .f32⟩
  | 116 => ⟨S32768x1, .f32⟩
  | 117 => ⟨S32768x128, .f32⟩
  | 118 => ⟨S32768x128, .f32⟩
  | 119 => ⟨S32768x128, .f32⟩
  | 120 => ⟨S_, .f32⟩
  | 121 => ⟨S_, .f32⟩
  | 122 => ⟨S_, .f32⟩
  | 123 => ⟨S_, .f32⟩
  | 124 => ⟨S32768, .f32⟩
  | 125 => ⟨S32768x1, .f32⟩
  | 126 => ⟨S32768x1, .f32⟩
  | 127 => ⟨S32768x1, .f32⟩
  | _ => ⟨S32768x44, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S32768x1, .f32⟩
  | 5 => ⟨S32768x1, .f32⟩
  | 6 => ⟨S32768x128, .f32⟩
  | 7 => ⟨S32768x128, .f32⟩
  | 8 => ⟨S_, .f32⟩
  | 9 => ⟨S32768x1, .f32⟩
  | 10 => ⟨S32768x1, .f32⟩
  | 11 => ⟨S32768x1, .f32⟩
  | 12 => ⟨S32768x128, .f32⟩
  | 13 => ⟨S32768x128, .f32⟩
  | 14 => ⟨S1x128, .f32⟩
  | 15 => ⟨S32768x128, .f32⟩
  | 16 => ⟨S32768x128, .f32⟩
  | 17 => ⟨S1x128, .f32⟩
  | 18 => ⟨S32768x128, .f32⟩
  | 19 => ⟨S32768x128, .f32⟩
  | 20 => ⟨S1x128x256, .f32⟩
  | 21 => ⟨S128x256, .f32⟩
  | 22 => ⟨S1x256, .f32⟩
  | 23 => ⟨S256, .f32⟩
  | 24 => ⟨S1x256, .f32⟩
  | 25 => ⟨S32768x256, .f32⟩
  | 26 => ⟨S_, .f32⟩
  | 27 => ⟨S32768x256, .f32⟩
  | 28 => ⟨S32768x256, .f32⟩
  | 29 => ⟨S1x256x128, .f32⟩
  | 30 => ⟨S256x128, .f32⟩
  | 31 => ⟨S1x128, .f32⟩
  | 32 => ⟨S128, .f32⟩
  | 33 => ⟨S1x128, .f32⟩
  | 34 => ⟨S32768x128, .f32⟩
  | 35 => ⟨S32768x128, .f32⟩
  | 36 => ⟨S1x128, .f32⟩
  | 37 => ⟨S128, .f32⟩
  | 38 => ⟨S1x128, .f32⟩
  | 39 => ⟨S128, .f32⟩
  | 40 => ⟨S_, .f32⟩
  | 41 => ⟨S32768, .f32⟩
  | 42 => ⟨S32768x1, .f32⟩
  | 43 => ⟨S_, .f32⟩
  | 44 => ⟨S32768x1, .f32⟩
  | 45 => ⟨S32768x1, .f32⟩
  | 46 => ⟨S_, .i32⟩
  | 47 => ⟨S_, .f32⟩
  | 48 => ⟨S32768, .f32⟩
  | 49 => ⟨S32768x1, .f32⟩
  | 50 => ⟨S_, .f32⟩
  | 51 => ⟨S32768x1, .f32⟩
  | 52 => ⟨S32768x1, .f32⟩
  | 53 => ⟨S32768x128, .f32⟩
  | 54 => ⟨S32768x128, .f32⟩
  | 55 => ⟨S32768x128, .f32⟩
  | 56 => ⟨S_, .f32⟩
  | 57 => ⟨S_, .f32⟩
  | 58 => ⟨S_, .f32⟩
  | 59 => ⟨S_, .f32⟩
  | 60 => ⟨S32768, .f32⟩
  | 61 => ⟨S32768x1, .f32⟩
  | 62 => ⟨S32768x1, .f32⟩
  | 63 => ⟨S32768x1, .f32⟩
  | 64 => ⟨S_, .f32⟩
  | 65 => ⟨S_, .i1⟩
  | 66 => ⟨S_, .f32⟩
  | 67 => ⟨S_, .f32⟩
  | 68 => ⟨S32768x1, .f32⟩
  | 69 => ⟨S32768x1, .f32⟩
  | 70 => ⟨S32768x128, .f32⟩
  | 71 => ⟨S32768x128, .f32⟩
  | 72 => ⟨S_, .f32⟩
  | 73 => ⟨S32768x1, .f32⟩
  | 74 => ⟨S32768x1, .f32⟩
  | 75 => ⟨S32768x1, .f32⟩
  | 76 => ⟨S32768x128, .f32⟩
  | 77 => ⟨S32768x128, .f32⟩
  | 78 => ⟨S1x128, .f32⟩
  | 79 => ⟨S32768x128, .f32⟩
  | 80 => ⟨S32768x128, .f32⟩
  | 81 => ⟨S1x128, .f32⟩
  | 82 => ⟨S32768x128, .f32⟩
  | 83 => ⟨S32768x128, .f32⟩
  | 84 => ⟨S1x128x128, .f32⟩
  | 85 => ⟨S128x128, .f32⟩
  | 86 => ⟨S1x128x128, .f32⟩
  | 87 => ⟨S128x128, .f32⟩
  | 88 => ⟨S1x128x128, .f32⟩
  | 89 => ⟨S128x128, .f32⟩
  | 90 => ⟨S128x384, .f32⟩
  | 91 => ⟨S32768x384, .f32⟩
  | 92 => ⟨S32768x128, .f32⟩
  | 93 => ⟨S32768x128, .f32⟩
  | 94 => ⟨S32768x128, .f32⟩
  | 95 => ⟨S1x128x128, .f32⟩
  | 96 => ⟨S128x128, .f32⟩
  | 97 => ⟨S524288x128, .f32⟩
  | 98 => ⟨S_, .i32⟩
  | 99 => ⟨S524288, .i32⟩
  | 100 => ⟨S524288, .i1⟩
  | 101 => ⟨S_, .i32⟩
  | 102 => ⟨S524288, .i32⟩
  | 103 => ⟨S524288, .i32⟩
  | 104 => ⟨S524288, .i32⟩
  | 105 => ⟨S524288x1, .i32⟩
  | 106 => ⟨S524288x128, .f32⟩
  | 107 => ⟨S_, .i32⟩
  | 108 => ⟨S524288, .i32⟩
  | 109 => ⟨S524288, .i1⟩
  | 110 => ⟨S_, .i32⟩
  | 111 => ⟨S524288, .i32⟩
  | 112 => ⟨S524288, .i32⟩
  | 113 => ⟨S524288, .i32⟩
  | 114 => ⟨S524288x1, .i32⟩
  | 115 => ⟨S524288x128, .f32⟩
  | 116 => ⟨S_, .i32⟩
  | 117 => ⟨S524288, .i32⟩
  | 118 => ⟨S524288, .i1⟩
  | 119 => ⟨S_, .i32⟩
  | 120 => ⟨S524288, .i32⟩
  | 121 => ⟨S524288, .i32⟩
  | 122 => ⟨S524288, .i32⟩
  | 123 => ⟨S524288x1, .i32⟩
  | 124 => ⟨S524288x128, .f32⟩
  | 125 => ⟨S524288x128, .f32⟩
  | 126 => ⟨S524288x128, .f32⟩
  | 127 => ⟨S_, .f32⟩
  | _ => ⟨S32768x44, .f32⟩

abbrev hbmTy0_2 (i : Nat) : BufTy := match i % 128 with
  | 0 => ⟨S32768x128, .f32⟩
  | 1 => ⟨S524288x1, .i32⟩
  | 2 => ⟨S32768x128, .f32⟩
  | 3 => ⟨S_, .f32⟩
  | 4 => ⟨S32768x128, .f32⟩
  | 5 => ⟨S32768x128, .f32⟩
  | 6 => ⟨S_, .f32⟩
  | 7 => ⟨S32768x128, .f32⟩
  | 8 => ⟨S524288x1, .i32⟩
  | 9 => ⟨S32768x128, .f32⟩
  | 10 => ⟨S32768x128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S32768x128, .f32⟩
  | 17 => ⟨S32768x128, .f32⟩
  | 18 => ⟨S1x128, .f32⟩
  | 19 => ⟨S128, .f32⟩
  | 20 => ⟨S1x128, .f32⟩
  | 21 => ⟨S128, .f32⟩
  | 22 => ⟨S_, .f32⟩
  | 23 => ⟨S32768, .f32⟩
  | 24 => ⟨S32768x1, .f32⟩
  | 25 => ⟨S_, .f32⟩
  | 26 => ⟨S32768x1, .f32⟩
  | 27 => ⟨S32768x1, .f32⟩
  | 28 => ⟨S_, .i32⟩
  | 29 => ⟨S_, .f32⟩
  | 30 => ⟨S32768, .f32⟩
  | 31 => ⟨S32768x1, .f32⟩
  | 32 => ⟨S_, .f32⟩
  | 33 => ⟨S32768x1, .f32⟩
  | 34 => ⟨S32768x1, .f32⟩
  | 35 => ⟨S32768x128, .f32⟩
  | 36 => ⟨S32768x128, .f32⟩
  | 37 => ⟨S32768x128, .f32⟩
  | 38 => ⟨S_, .f32⟩
  | 39 => ⟨S_, .f32⟩
  | 40 => ⟨S_, .f32⟩
  | 41 => ⟨S_, .f32⟩
  | 42 => ⟨S32768, .f32⟩
  | 43 => ⟨S32768x1, .f32⟩
  | 44 => ⟨S32768x1, .f32⟩
  | 45 => ⟨S32768x1, .f32⟩
  | 46 => ⟨S_, .f32⟩
  | 47 => ⟨S_, .i1⟩
  | 48 => ⟨S_, .f32⟩
  | 49 => ⟨S_, .f32⟩
  | 50 => ⟨S32768x1, .f32⟩
  | 51 => ⟨S32768x1, .f32⟩
  | 52 => ⟨S32768x128, .f32⟩
  | 53 => ⟨S32768x128, .f32⟩
  | 54 => ⟨S_, .f32⟩
  | 55 => ⟨S32768x1, .f32⟩
  | 56 => ⟨S32768x1, .f32⟩
  | 57 => ⟨S32768x1, .f32⟩
  | 58 => ⟨S32768x128, .f32⟩
  | 59 => ⟨S32768x128, .f32⟩
  | 60 => ⟨S1x128, .f32⟩
  | 61 => ⟨S32768x128, .f32⟩
  | 62 => ⟨S32768x128, .f32⟩
  | 63 => ⟨S1x128, .f32⟩
  | 64 => ⟨S32768x128, .f32⟩
  | 65 => ⟨S32768x128, .f32⟩
  | 66 => ⟨S1x128x256, .f32⟩
  | 67 => ⟨S128x256, .f32⟩
  | 68 => ⟨S1x256, .f32⟩
  | 69 => ⟨S256, .f32⟩
  | 70 => ⟨S1x256, .f32⟩
  | 71 => ⟨S32768x256, .f32⟩
  | 72 => ⟨S_, .f32⟩
  | 73 => ⟨S32768x256, .f32⟩
  | 74 => ⟨S32768x256, .f32⟩
  | 75 => ⟨S1x256x128, .f32⟩
  | 76 => ⟨S256x128, .f32⟩
  | 77 => ⟨S1x128, .f32⟩
  | 78 => ⟨S128, .f32⟩
  | 79 => ⟨S1x128, .f32⟩
  | 80 => ⟨S32768x128, .f32⟩
  | 81 => ⟨S32768x128, .f32⟩
  | 82 => ⟨S1x128, .f32⟩
  | 83 => ⟨S128, .f32⟩
  | 84 => ⟨S1x128, .f32⟩
  | 85 => ⟨S128, .f32⟩
  | 86 => ⟨S_, .f32⟩
  | 87 => ⟨S32768, .f32⟩
  | 88 => ⟨S32768x1, .f32⟩
  | 89 => ⟨S_, .f32⟩
  | 90 => ⟨S32768x1, .f32⟩
  | 91 => ⟨S32768x1, .f32⟩
  | 92 => ⟨S_, .i32⟩
  | 93 => ⟨S_, .f32⟩
  | 94 => ⟨S32768, .f32⟩
  | 95 => ⟨S32768x1, .f32⟩
  | 96 => ⟨S_, .f32⟩
  | 97 => ⟨S32768x1, .f32⟩
  | 98 => ⟨S32768x1, .f32⟩
  | 99 => ⟨S32768x128, .f32⟩
  | 100 => ⟨S32768x128, .f32⟩
  | 101 => ⟨S32768x128, .f32⟩
  | 102 => ⟨S_, .f32⟩
  | 103 => ⟨S_, .f32⟩
  | 104 => ⟨S_, .f32⟩
  | 105 => ⟨S_, .f32⟩
  | 106 => ⟨S32768, .f32⟩
  | 107 => ⟨S32768x1, .f32⟩
  | 108 => ⟨S32768x1, .f32⟩
  | 109 => ⟨S32768x1, .f32⟩
  | 110 => ⟨S_, .f32⟩
  | 111 => ⟨S_, .i1⟩
  | 112 => ⟨S_, .f32⟩
  | 113 => ⟨S_, .f32⟩
  | 114 => ⟨S32768x1, .f32⟩
  | 115 => ⟨S32768x1, .f32⟩
  | 116 => ⟨S32768x128, .f32⟩
  | 117 => ⟨S32768x128, .f32⟩
  | 118 => ⟨S_, .f32⟩
  | 119 => ⟨S32768x1, .f32⟩
  | 120 => ⟨S32768x1, .f32⟩
  | 121 => ⟨S32768x1, .f32⟩
  | 122 => ⟨S32768x128, .f32⟩
  | 123 => ⟨S32768x128, .f32⟩
  | 124 => ⟨S1x128, .f32⟩
  | 125 => ⟨S32768x128, .f32⟩
  | 126 => ⟨S32768x128, .f32⟩
  | 127 => ⟨S1x128, .f32⟩
  | _ => ⟨S32768x44, .f32⟩

abbrev hbmTy0_3 (i : Nat) : BufTy := match i % 128 with
  | 0 => ⟨S32768x128, .f32⟩
  | 1 => ⟨S32768x128, .f32⟩
  | 2 => ⟨S1x128x128, .f32⟩
  | 3 => ⟨S128x128, .f32⟩
  | 4 => ⟨S1x128x128, .f32⟩
  | 5 => ⟨S128x128, .f32⟩
  | 6 => ⟨S1x128x128, .f32⟩
  | 7 => ⟨S128x128, .f32⟩
  | 8 => ⟨S128x384, .f32⟩
  | 9 => ⟨S32768x384, .f32⟩
  | 10 => ⟨S32768x128, .f32⟩
  | 11 => ⟨S32768x128, .f32⟩
  | 12 => ⟨S32768x128, .f32⟩
  | 13 => ⟨S1x128x128, .f32⟩
  | 14 => ⟨S128x128, .f32⟩
  | 15 => ⟨S524288x128, .f32⟩
  | 16 => ⟨S_, .i32⟩
  | 17 => ⟨S524288, .i32⟩
  | 18 => ⟨S524288, .i1⟩
  | 19 => ⟨S_, .i32⟩
  | 20 => ⟨S524288, .i32⟩
  | 21 => ⟨S524288, .i32⟩
  | 22 => ⟨S524288, .i32⟩
  | 23 => ⟨S524288x1, .i32⟩
  | 24 => ⟨S524288x128, .f32⟩
  | 25 => ⟨S_, .i32⟩
  | 26 => ⟨S524288, .i32⟩
  | 27 => ⟨S524288, .i1⟩
  | 28 => ⟨S_, .i32⟩
  | 29 => ⟨S524288, .i32⟩
  | 30 => ⟨S524288, .i32⟩
  | 31 => ⟨S524288, .i32⟩
  | 32 => ⟨S524288x1, .i32⟩
  | 33 => ⟨S524288x128, .f32⟩
  | 34 => ⟨S_, .i32⟩
  | 35 => ⟨S524288, .i32⟩
  | 36 => ⟨S524288, .i1⟩
  | 37 => ⟨S_, .i32⟩
  | 38 => ⟨S524288, .i32⟩
  | 39 => ⟨S524288, .i32⟩
  | 40 => ⟨S524288, .i32⟩
  | 41 => ⟨S524288x1, .i32⟩
  | 42 => ⟨S524288x128, .f32⟩
  | 43 => ⟨S524288x128, .f32⟩
  | 44 => ⟨S524288x128, .f32⟩
  | 45 => ⟨S_, .f32⟩
  | 46 => ⟨S32768x128, .f32⟩
  | 47 => ⟨S524288x1, .i32⟩
  | 48 => ⟨S32768x128, .f32⟩
  | 49 => ⟨S_, .f32⟩
  | 50 => ⟨S32768x128, .f32⟩
  | 51 => ⟨S32768x128, .f32⟩
  | 52 => ⟨S_, .f32⟩
  | 53 => ⟨S32768x128, .f32⟩
  | 54 => ⟨S524288x1, .i32⟩
  | 55 => ⟨S32768x128, .f32⟩
  | 56 => ⟨S32768x128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S32768x128, .f32⟩
  | 63 => ⟨S32768x128, .f32⟩
  | 64 => ⟨S1x128, .f32⟩
  | 65 => ⟨S128, .f32⟩
  | 66 => ⟨S1x128, .f32⟩
  | 67 => ⟨S128, .f32⟩
  | 68 => ⟨S_, .f32⟩
  | 69 => ⟨S32768, .f32⟩
  | 70 => ⟨S32768x1, .f32⟩
  | 71 => ⟨S_, .f32⟩
  | 72 => ⟨S32768x1, .f32⟩
  | 73 => ⟨S32768x1, .f32⟩
  | 74 => ⟨S_, .i32⟩
  | 75 => ⟨S_, .f32⟩
  | 76 => ⟨S32768, .f32⟩
  | 77 => ⟨S32768x1, .f32⟩
  | 78 => ⟨S_, .f32⟩
  | 79 => ⟨S32768x1, .f32⟩
  | 80 => ⟨S32768x1, .f32⟩
  | 81 => ⟨S32768x128, .f32⟩
  | 82 => ⟨S32768x128, .f32⟩
  | 83 => ⟨S32768x128, .f32⟩
  | 84 => ⟨S_, .f32⟩
  | 85 => ⟨S_, .f32⟩
  | 86 => ⟨S_, .f32⟩
  | 87 => ⟨S_, .f32⟩
  | 88 => ⟨S32768, .f32⟩
  | 89 => ⟨S32768x1, .f32⟩
  | 90 => ⟨S32768x1, .f32⟩
  | 91 => ⟨S32768x1, .f32⟩
  | 92 => ⟨S_, .f32⟩
  | 93 => ⟨S_, .i1⟩
  | 94 => ⟨S_, .f32⟩
  | 95 => ⟨S_, .f32⟩
  | 96 => ⟨S32768x1, .f32⟩
  | 97 => ⟨S32768x1, .f32⟩
  | 98 => ⟨S32768x128, .f32⟩
  | 99 => ⟨S32768x128, .f32⟩
  | 100 => ⟨S_, .f32⟩
  | 101 => ⟨S32768x1, .f32⟩
  | 102 => ⟨S32768x1, .f32⟩
  | 103 => ⟨S32768x1, .f32⟩
  | 104 => ⟨S32768x128, .f32⟩
  | 105 => ⟨S32768x128, .f32⟩
  | 106 => ⟨S1x128, .f32⟩
  | 107 => ⟨S32768x128, .f32⟩
  | 108 => ⟨S32768x128, .f32⟩
  | 109 => ⟨S1x128, .f32⟩
  | 110 => ⟨S32768x128, .f32⟩
  | 111 => ⟨S32768x128, .f32⟩
  | 112 => ⟨S1x128x256, .f32⟩
  | 113 => ⟨S128x256, .f32⟩
  | 114 => ⟨S1x256, .f32⟩
  | 115 => ⟨S256, .f32⟩
  | 116 => ⟨S1x256, .f32⟩
  | 117 => ⟨S32768x256, .f32⟩
  | 118 => ⟨S_, .f32⟩
  | 119 => ⟨S32768x256, .f32⟩
  | 120 => ⟨S32768x256, .f32⟩
  | 121 => ⟨S1x256x128, .f32⟩
  | 122 => ⟨S256x128, .f32⟩
  | 123 => ⟨S1x128, .f32⟩
  | 124 => ⟨S128, .f32⟩
  | 125 => ⟨S1x128, .f32⟩
  | 126 => ⟨S32768x128, .f32⟩
  | 127 => ⟨S32768x128, .f32⟩
  | _ => ⟨S32768x44, .f32⟩

abbrev hbmTy0_4 (i : Nat) : BufTy := match i % 128 with
  | 0 => ⟨S1x128, .f32⟩
  | 1 => ⟨S128, .f32⟩
  | 2 => ⟨S1x128, .f32⟩
  | 3 => ⟨S128, .f32⟩
  | 4 => ⟨S_, .f32⟩
  | 5 => ⟨S32768, .f32⟩
  | 6 => ⟨S32768x1, .f32⟩
  | 7 => ⟨S_, .f32⟩
  | 8 => ⟨S32768x1, .f32⟩
  | 9 => ⟨S32768x1, .f32⟩
  | 10 => ⟨S_, .i32⟩
  | 11 => ⟨S_, .f32⟩
  | 12 => ⟨S32768, .f32⟩
  | 13 => ⟨S32768x1, .f32⟩
  | 14 => ⟨S_, .f32⟩
  | 15 => ⟨S32768x1, .f32⟩
  | 16 => ⟨S32768x1, .f32⟩
  | 17 => ⟨S32768x128, .f32⟩
  | 18 => ⟨S32768x128, .f32⟩
  | 19 => ⟨S32768x128, .f32⟩
  | 20 => ⟨S_, .f32⟩
  | 21 => ⟨S_, .f32⟩
  | 22 => ⟨S_, .f32⟩
  | 23 => ⟨S_, .f32⟩
  | 24 => ⟨S32768, .f32⟩
  | 25 => ⟨S32768x1, .f32⟩
  | 26 => ⟨S32768x1, .f32⟩
  | 27 => ⟨S32768x1, .f32⟩
  | 28 => ⟨S_, .f32⟩
  | 29 => ⟨S_, .i1⟩
  | 30 => ⟨S_, .f32⟩
  | 31 => ⟨S_, .f32⟩
  | 32 => ⟨S32768x1, .f32⟩
  | 33 => ⟨S32768x1, .f32⟩
  | 34 => ⟨S32768x128, .f32⟩
  | 35 => ⟨S32768x128, .f32⟩
  | 36 => ⟨S_, .f32⟩
  | 37 => ⟨S32768x1, .f32⟩
  | 38 => ⟨S32768x1, .f32⟩
  | 39 => ⟨S32768x1, .f32⟩
  | 40 => ⟨S32768x128, .f32⟩
  | 41 => ⟨S32768x128, .f32⟩
  | 42 => ⟨S1x128, .f32⟩
  | 43 => ⟨S32768x128, .f32⟩
  | 44 => ⟨S32768x128, .f32⟩
  | 45 => ⟨S1x128, .f32⟩
  | 46 => ⟨S32768x128, .f32⟩
  | 47 => ⟨S32768x128, .f32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | _ => ⟨S32768x44, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32768x44, .f32⟩

abbrev vmemTy0_0 (i : Nat) : BufTy := match i % 128 with
  | 0 => ⟨S8192x52, .f32⟩
  | 1 => ⟨S8192x52, .f32⟩
  | 2 => ⟨S52x128, .f32⟩
  | 3 => ⟨S1x128, .f32⟩
  | 4 => ⟨S8192x128, .f32⟩
  | 5 => ⟨S8192x128, .f32⟩
  | 6 => ⟨S4096x128, .f32⟩
  | 7 => ⟨S4096x128, .f32⟩
  | 8 => ⟨S128x384, .f32⟩
  | 9 => ⟨S1x384, .f32⟩
  | 10 => ⟨S4096x384, .f32⟩
  | 11 => ⟨S4096x384, .f32⟩
  | 12 => ⟨S8192x128, .f32⟩
  | 13 => ⟨S8192x128, .f32⟩
  | 14 => ⟨S128x128, .f32⟩
  | 15 => ⟨S1x128, .f32⟩
  | 16 => ⟨S8192x128, .f32⟩
  | 17 => ⟨S8192x128, .f32⟩
  | 18 => ⟨S4096x128, .f32⟩
  | 19 => ⟨S4096x128, .f32⟩
  | 20 => ⟨S4096x128, .f32⟩
  | 21 => ⟨S4096x128, .f32⟩
  | 22 => ⟨S4096x128, .f32⟩
  | 23 => ⟨S4096x128, .f32⟩
  | 24 => ⟨S4096x128, .f32⟩
  | 25 => ⟨S4096x128, .f32⟩
  | 26 => ⟨S4096x128, .f32⟩
  | 27 => ⟨S4096x128, .f32⟩
  | 28 => ⟨S4096x128, .f32⟩
  | 29 => ⟨S4096x128, .f32⟩
  | 30 => ⟨S8192x128, .f32⟩
  | 31 => ⟨S8192x128, .f32⟩
  | 32 => ⟨S128x128, .f32⟩
  | 33 => ⟨S1x128, .f32⟩
  | 34 => ⟨S8192x128, .f32⟩
  | 35 => ⟨S8192x128, .f32⟩
  | 36 => ⟨S4096x128, .f32⟩
  | 37 => ⟨S4096x128, .f32⟩
  | 38 => ⟨S128x256, .f32⟩
  | 39 => ⟨S1x256, .f32⟩
  | 40 => ⟨S4096x256, .f32⟩
  | 41 => ⟨S4096x256, .f32⟩
  | 42 => ⟨S4096x256, .f32⟩
  | 43 => ⟨S4096x256, .f32⟩
  | 44 => ⟨S256x128, .f32⟩
  | 45 => ⟨S1x128, .f32⟩
  | 46 => ⟨S4096x128, .f32⟩
  | 47 => ⟨S4096x128, .f32⟩
  | 48 => ⟨S4096x128, .f32⟩
  | 49 => ⟨S4096x128, .f32⟩
  | 50 => ⟨S128x384, .f32⟩
  | 51 => ⟨S1x384, .f32⟩
  | 52 => ⟨S4096x384, .f32⟩
  | 53 => ⟨S4096x384, .f32⟩
  | 54 => ⟨S8192x128, .f32⟩
  | 55 => ⟨S8192x128, .f32⟩
  | 56 => ⟨S128x128, .f32⟩
  | 57 => ⟨S1x128, .f32⟩
  | 58 => ⟨S8192x128, .f32⟩
  | 59 => ⟨S8192x128, .f32⟩
  | 60 => ⟨S4096x128, .f32⟩
  | 61 => ⟨S4096x128, .f32⟩
  | 62 => ⟨S4096x128, .f32⟩
  | 63 => ⟨S4096x128, .f32⟩
  | 64 => ⟨S4096x128, .f32⟩
  | 65 => ⟨S4096x128, .f32⟩
  | 66 => ⟨S4096x128, .f32⟩
  | 67 => ⟨S4096x128, .f32⟩
  | 68 => ⟨S4096x128, .f32⟩
  | 69 => ⟨S4096x128, .f32⟩
  | 70 => ⟨S4096x128, .f32⟩
  | 71 => ⟨S4096x128, .f32⟩
  | 72 => ⟨S8192x128, .f32⟩
  | 73 => ⟨S8192x128, .f32⟩
  | 74 => ⟨S128x128, .f32⟩
  | 75 => ⟨S1x128, .f32⟩
  | 76 => ⟨S8192x128, .f32⟩
  | 77 => ⟨S8192x128, .f32⟩
  | 78 => ⟨S4096x128, .f32⟩
  | 79 => ⟨S4096x128, .f32⟩
  | 80 => ⟨S128x256, .f32⟩
  | 81 => ⟨S1x256, .f32⟩
  | 82 => ⟨S4096x256, .f32⟩
  | 83 => ⟨S4096x256, .f32⟩
  | 84 => ⟨S4096x256, .f32⟩
  | 85 => ⟨S4096x256, .f32⟩
  | 86 => ⟨S256x128, .f32⟩
  | 87 => ⟨S1x128, .f32⟩
  | 88 => ⟨S4096x128, .f32⟩
  | 89 => ⟨S4096x128, .f32⟩
  | 90 => ⟨S4096x128, .f32⟩
  | 91 => ⟨S4096x128, .f32⟩
  | 92 => ⟨S128x384, .f32⟩
  | 93 => ⟨S1x384, .f32⟩
  | 94 => ⟨S4096x384, .f32⟩
  | 95 => ⟨S4096x384, .f32⟩
  | 96 => ⟨S8192x128, .f32⟩
  | 97 => ⟨S8192x128, .f32⟩
  | 98 => ⟨S128x128, .f32⟩
  | 99 => ⟨S1x128, .f32⟩
  | 100 => ⟨S8192x128, .f32⟩
  | 101 => ⟨S8192x128, .f32⟩
  | 102 => ⟨S4096x128, .f32⟩
  | 103 => ⟨S4096x128, .f32⟩
  | 104 => ⟨S4096x128, .f32⟩
  | 105 => ⟨S4096x128, .f32⟩
  | 106 => ⟨S4096x128, .f32⟩
  | 107 => ⟨S4096x128, .f32⟩
  | 108 => ⟨S4096x128, .f32⟩
  | 109 => ⟨S4096x128, .f32⟩
  | 110 => ⟨S4096x128, .f32⟩
  | 111 => ⟨S4096x128, .f32⟩
  | 112 => ⟨S4096x128, .f32⟩
  | 113 => ⟨S4096x128, .f32⟩
  | 114 => ⟨S8192x128, .f32⟩
  | 115 => ⟨S8192x128, .f32⟩
  | 116 => ⟨S128x128, .f32⟩
  | 117 => ⟨S1x128, .f32⟩
  | 118 => ⟨S8192x128, .f32⟩
  | 119 => ⟨S8192x128, .f32⟩
  | 120 => ⟨S4096x128, .f32⟩
  | 121 => ⟨S4096x128, .f32⟩
  | 122 => ⟨S128x256, .f32⟩
  | 123 => ⟨S1x256, .f32⟩
  | 124 => ⟨S4096x256, .f32⟩
  | 125 => ⟨S4096x256, .f32⟩
  | 126 => ⟨S4096x256, .f32⟩
  | 127 => ⟨S4096x256, .f32⟩
  | _ => ⟨S32768x44, .f32⟩

abbrev vmemTy0_1 (i : Nat) : BufTy := match i % 128 with
  | 0 => ⟨S256x128, .f32⟩
  | 1 => ⟨S1x128, .f32⟩
  | 2 => ⟨S4096x128, .f32⟩
  | 3 => ⟨S4096x128, .f32⟩
  | _ => ⟨S32768x44, .f32⟩

abbrev vmemTy (i : Nat) : BufTy := match i / 128 with
  | 0 => vmemTy0_0 i
  | 1 => vmemTy0_1 i
  | _ => ⟨S32768x44, .f32⟩

abbrev bufTy : (tb : Table) → Fin (tcTables nBuf tb) → BufTy
  | .hbm, ⟨i, _⟩ => hbmTy i
  | .local _ .vmem, ⟨i, _⟩ => vmemTy i
  | _, _ => ⟨S32768x44, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c : Ref sig .tc := ⟨.hbm, 52, rfl⟩
abbrev main_v25 : Ref sig .tc := ⟨.hbm, 53, rfl⟩
abbrev main_v26 : Ref sig .tc := ⟨.hbm, 54, rfl⟩
abbrev main_c_1 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_2 : Ref sig .tc := ⟨.hbm, 61, rfl⟩
abbrev main_v32 : Ref sig .tc := ⟨.hbm, 62, rfl⟩
abbrev main_v33 : Ref sig .tc := ⟨.hbm, 63, rfl⟩
abbrev main_c_3 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_4 : Ref sig .tc := ⟨.hbm, 70, rfl⟩
abbrev main_v39 : Ref sig .tc := ⟨.hbm, 71, rfl⟩
abbrev main_v40 : Ref sig .tc := ⟨.hbm, 72, rfl⟩
abbrev main_c_5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46_0 : Ref sig .tc := ⟨.hbm, 79, rfl⟩
abbrev main_v46_1 : Ref sig .tc := ⟨.hbm, 80, rfl⟩
abbrev main_cst_6 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_7 : Ref sig .tc := ⟨.hbm, 85, rfl⟩
abbrev main_v50 : Ref sig .tc := ⟨.hbm, 86, rfl⟩
abbrev main_v51 : Ref sig .tc := ⟨.hbm, 87, rfl⟩
abbrev main_cst_8 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_9 : Ref sig .tc := ⟨.hbm, 104, rfl⟩
abbrev main_v67 : Ref sig .tc := ⟨.hbm, 105, rfl⟩
abbrev main_v68 : Ref sig .tc := ⟨.hbm, 106, rfl⟩
abbrev main_cst_10 : Ref sig .tc := ⟨.hbm, 107, rfl⟩
abbrev main_v69 : Ref sig .tc := ⟨.hbm, 108, rfl⟩
abbrev main_v70 : Ref sig .tc := ⟨.hbm, 109, rfl⟩
abbrev main_c_11 : Ref sig .tc := ⟨.hbm, 110, rfl⟩
abbrev main_call0_cst : Ref sig .tc := ⟨.hbm, 111, rfl⟩
abbrev main_call0_v0 : Ref sig .tc := ⟨.hbm, 112, rfl⟩
abbrev main_call0_v1 : Ref sig .tc := ⟨.hbm, 113, rfl⟩
abbrev main_call0_cst_0 : Ref sig .tc := ⟨.hbm, 114, rfl⟩
abbrev main_call0_v2 : Ref sig .tc := ⟨.hbm, 115, rfl⟩
abbrev main_call0_v3 : Ref sig .tc := ⟨.hbm, 116, rfl⟩
abbrev main_call0_v4 : Ref sig .tc := ⟨.hbm, 117, rfl⟩
abbrev main_call0_v5 : Ref sig .tc := ⟨.hbm, 118, rfl⟩
abbrev main_call0_v6 : Ref sig .tc := ⟨.hbm, 119, rfl⟩
abbrev main_call0_v7 : Ref sig .tc := ⟨.hbm, 120, rfl⟩
abbrev main_call0_cst_1 : Ref sig .tc := ⟨.hbm, 121, rfl⟩
abbrev main_call0_v8 : Ref sig .tc := ⟨.hbm, 122, rfl⟩
abbrev main_call0_cst_2 : Ref sig .tc := ⟨.hbm, 123, rfl⟩
abbrev main_call0_v9 : Ref sig .tc := ⟨.hbm, 124, rfl⟩
abbrev main_call0_v10 : Ref sig .tc := ⟨.hbm, 125, rfl⟩
abbrev main_call0_v11 : Ref sig .tc := ⟨.hbm, 126, rfl⟩
abbrev main_call0_v12 : Ref sig .tc := ⟨.hbm, 127, rfl⟩
abbrev main_call0_cst_3 : Ref sig .tc := ⟨.hbm, 128, rfl⟩
abbrev main_call0_v13 : Ref sig .tc := ⟨.hbm, 129, rfl⟩
abbrev main_call0_cst_4 : Ref sig .tc := ⟨.hbm, 130, rfl⟩
abbrev main_call0_call0_v0 : Ref sig .tc := ⟨.hbm, 131, rfl⟩
abbrev main_call0_call0_v1 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_12 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_call1_cst : Ref sig .tc := ⟨.hbm, 154, rfl⟩
abbrev main_call1_v0 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_cst_13 : Ref sig .tc := ⟨.hbm, 168, rfl⟩
abbrev main_v103 : Ref sig .tc := ⟨.hbm, 169, rfl⟩
abbrev main_v104 : Ref sig .tc := ⟨.hbm, 170, rfl⟩
abbrev main_cst_14 : Ref sig .tc := ⟨.hbm, 171, rfl⟩
abbrev main_v105 : Ref sig .tc := ⟨.hbm, 172, rfl⟩
abbrev main_v106 : Ref sig .tc := ⟨.hbm, 173, rfl⟩
abbrev main_c_15 : Ref sig .tc := ⟨.hbm, 174, rfl⟩
abbrev main_call2_cst : Ref sig .tc := ⟨.hbm, 175, rfl⟩
abbrev main_call2_v0 : Ref sig .tc := ⟨.hbm, 176, rfl⟩
abbrev main_call2_v1 : Ref sig .tc := ⟨.hbm, 177, rfl⟩
abbrev main_call2_cst_0 : Ref sig .tc := ⟨.hbm, 178, rfl⟩
abbrev main_call2_v2 : Ref sig .tc := ⟨.hbm, 179, rfl⟩
abbrev main_call2_v3 : Ref sig .tc := ⟨.hbm, 180, rfl⟩
abbrev main_call2_v4 : Ref sig .tc := ⟨.hbm, 181, rfl⟩
abbrev main_call2_v5 : Ref sig .tc := ⟨.hbm, 182, rfl⟩
abbrev main_call2_v6 : Ref sig .tc := ⟨.hbm, 183, rfl⟩
abbrev main_call2_v7 : Ref sig .tc := ⟨.hbm, 184, rfl⟩
abbrev main_call2_cst_1 : Ref sig .tc := ⟨.hbm, 185, rfl⟩
abbrev main_call2_v8 : Ref sig .tc := ⟨.hbm, 186, rfl⟩
abbrev main_call2_cst_2 : Ref sig .tc := ⟨.hbm, 187, rfl⟩
abbrev main_call2_v9 : Ref sig .tc := ⟨.hbm, 188, rfl⟩
abbrev main_call2_v10 : Ref sig .tc := ⟨.hbm, 189, rfl⟩
abbrev main_call2_v11 : Ref sig .tc := ⟨.hbm, 190, rfl⟩
abbrev main_call2_v12 : Ref sig .tc := ⟨.hbm, 191, rfl⟩
abbrev main_call2_cst_3 : Ref sig .tc := ⟨.hbm, 192, rfl⟩
abbrev main_call2_v13 : Ref sig .tc := ⟨.hbm, 193, rfl⟩
abbrev main_call2_cst_4 : Ref sig .tc := ⟨.hbm, 194, rfl⟩
abbrev main_call2_call0_v0 : Ref sig .tc := ⟨.hbm, 195, rfl⟩
abbrev main_call2_call0_v1 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_cst_16 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_c_17 : Ref sig .tc := ⟨.hbm, 226, rfl⟩
abbrev main_v135 : Ref sig .tc := ⟨.hbm, 227, rfl⟩
abbrev main_v136 : Ref sig .tc := ⟨.hbm, 228, rfl⟩
abbrev main_c_18 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_c_19 : Ref sig .tc := ⟨.hbm, 235, rfl⟩
abbrev main_v142 : Ref sig .tc := ⟨.hbm, 236, rfl⟩
abbrev main_v143 : Ref sig .tc := ⟨.hbm, 237, rfl⟩
abbrev main_c_20 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_c_21 : Ref sig .tc := ⟨.hbm, 244, rfl⟩
abbrev main_v149 : Ref sig .tc := ⟨.hbm, 245, rfl⟩
abbrev main_v150 : Ref sig .tc := ⟨.hbm, 246, rfl⟩
abbrev main_c_22 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156_0 : Ref sig .tc := ⟨.hbm, 253, rfl⟩
abbrev main_v156_1 : Ref sig .tc := ⟨.hbm, 254, rfl⟩
abbrev main_cst_23 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_cst_24 : Ref sig .tc := ⟨.hbm, 259, rfl⟩
abbrev main_v160 : Ref sig .tc := ⟨.hbm, 260, rfl⟩
abbrev main_v161 : Ref sig .tc := ⟨.hbm, 261, rfl⟩
abbrev main_cst_25 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_cst_26 : Ref sig .tc := ⟨.hbm, 278, rfl⟩
abbrev main_v177 : Ref sig .tc := ⟨.hbm, 279, rfl⟩
abbrev main_v178 : Ref sig .tc := ⟨.hbm, 280, rfl⟩
abbrev main_cst_27 : Ref sig .tc := ⟨.hbm, 281, rfl⟩
abbrev main_v179 : Ref sig .tc := ⟨.hbm, 282, rfl⟩
abbrev main_v180 : Ref sig .tc := ⟨.hbm, 283, rfl⟩
abbrev main_c_28 : Ref sig .tc := ⟨.hbm, 284, rfl⟩
abbrev main_call3_cst : Ref sig .tc := ⟨.hbm, 285, rfl⟩
abbrev main_call3_v0 : Ref sig .tc := ⟨.hbm, 286, rfl⟩
abbrev main_call3_v1 : Ref sig .tc := ⟨.hbm, 287, rfl⟩
abbrev main_call3_cst_0 : Ref sig .tc := ⟨.hbm, 288, rfl⟩
abbrev main_call3_v2 : Ref sig .tc := ⟨.hbm, 289, rfl⟩
abbrev main_call3_v3 : Ref sig .tc := ⟨.hbm, 290, rfl⟩
abbrev main_call3_v4 : Ref sig .tc := ⟨.hbm, 291, rfl⟩
abbrev main_call3_v5 : Ref sig .tc := ⟨.hbm, 292, rfl⟩
abbrev main_call3_v6 : Ref sig .tc := ⟨.hbm, 293, rfl⟩
abbrev main_call3_v7 : Ref sig .tc := ⟨.hbm, 294, rfl⟩
abbrev main_call3_cst_1 : Ref sig .tc := ⟨.hbm, 295, rfl⟩
abbrev main_call3_v8 : Ref sig .tc := ⟨.hbm, 296, rfl⟩
abbrev main_call3_cst_2 : Ref sig .tc := ⟨.hbm, 297, rfl⟩
abbrev main_call3_v9 : Ref sig .tc := ⟨.hbm, 298, rfl⟩
abbrev main_call3_v10 : Ref sig .tc := ⟨.hbm, 299, rfl⟩
abbrev main_call3_v11 : Ref sig .tc := ⟨.hbm, 300, rfl⟩
abbrev main_call3_v12 : Ref sig .tc := ⟨.hbm, 301, rfl⟩
abbrev main_call3_cst_3 : Ref sig .tc := ⟨.hbm, 302, rfl⟩
abbrev main_call3_v13 : Ref sig .tc := ⟨.hbm, 303, rfl⟩
abbrev main_call3_cst_4 : Ref sig .tc := ⟨.hbm, 304, rfl⟩
abbrev main_call3_call0_v0 : Ref sig .tc := ⟨.hbm, 305, rfl⟩
abbrev main_call3_call0_v1 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩
abbrev main_cst_29 : Ref sig .tc := ⟨.hbm, 310, rfl⟩
abbrev main_v184 : Ref sig .tc := ⟨.hbm, 311, rfl⟩
abbrev main_v185 : Ref sig .tc := ⟨.hbm, 312, rfl⟩
abbrev main_v186 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_call4_cst : Ref sig .tc := ⟨.hbm, 328, rfl⟩
abbrev main_call4_v0 : Ref sig .tc := ⟨.hbm, 329, rfl⟩
abbrev main_v201 : Ref sig .tc := ⟨.hbm, 330, rfl⟩
abbrev main_v202 : Ref sig .tc := ⟨.hbm, 331, rfl⟩
abbrev main_v203 : Ref sig .tc := ⟨.hbm, 332, rfl⟩
abbrev main_v204 : Ref sig .tc := ⟨.hbm, 333, rfl⟩
abbrev main_v205 : Ref sig .tc := ⟨.hbm, 334, rfl⟩
abbrev main_v206 : Ref sig .tc := ⟨.hbm, 335, rfl⟩
abbrev main_v207 : Ref sig .tc := ⟨.hbm, 336, rfl⟩
abbrev main_v208 : Ref sig .tc := ⟨.hbm, 337, rfl⟩
abbrev main_v209 : Ref sig .tc := ⟨.hbm, 338, rfl⟩
abbrev main_v210 : Ref sig .tc := ⟨.hbm, 339, rfl⟩
abbrev main_v211 : Ref sig .tc := ⟨.hbm, 340, rfl⟩
abbrev main_v212 : Ref sig .tc := ⟨.hbm, 341, rfl⟩
abbrev main_cst_30 : Ref sig .tc := ⟨.hbm, 342, rfl⟩
abbrev main_v213 : Ref sig .tc := ⟨.hbm, 343, rfl⟩
abbrev main_v214 : Ref sig .tc := ⟨.hbm, 344, rfl⟩
abbrev main_cst_31 : Ref sig .tc := ⟨.hbm, 345, rfl⟩
abbrev main_v215 : Ref sig .tc := ⟨.hbm, 346, rfl⟩
abbrev main_v216 : Ref sig .tc := ⟨.hbm, 347, rfl⟩
abbrev main_c_32 : Ref sig .tc := ⟨.hbm, 348, rfl⟩
abbrev main_call5_cst : Ref sig .tc := ⟨.hbm, 349, rfl⟩
abbrev main_call5_v0 : Ref sig .tc := ⟨.hbm, 350, rfl⟩
abbrev main_call5_v1 : Ref sig .tc := ⟨.hbm, 351, rfl⟩
abbrev main_call5_cst_0 : Ref sig .tc := ⟨.hbm, 352, rfl⟩
abbrev main_call5_v2 : Ref sig .tc := ⟨.hbm, 353, rfl⟩
abbrev main_call5_v3 : Ref sig .tc := ⟨.hbm, 354, rfl⟩
abbrev main_call5_v4 : Ref sig .tc := ⟨.hbm, 355, rfl⟩
abbrev main_call5_v5 : Ref sig .tc := ⟨.hbm, 356, rfl⟩
abbrev main_call5_v6 : Ref sig .tc := ⟨.hbm, 357, rfl⟩
abbrev main_call5_v7 : Ref sig .tc := ⟨.hbm, 358, rfl⟩
abbrev main_call5_cst_1 : Ref sig .tc := ⟨.hbm, 359, rfl⟩
abbrev main_call5_v8 : Ref sig .tc := ⟨.hbm, 360, rfl⟩
abbrev main_call5_cst_2 : Ref sig .tc := ⟨.hbm, 361, rfl⟩
abbrev main_call5_v9 : Ref sig .tc := ⟨.hbm, 362, rfl⟩
abbrev main_call5_v10 : Ref sig .tc := ⟨.hbm, 363, rfl⟩
abbrev main_call5_v11 : Ref sig .tc := ⟨.hbm, 364, rfl⟩
abbrev main_call5_v12 : Ref sig .tc := ⟨.hbm, 365, rfl⟩
abbrev main_call5_cst_3 : Ref sig .tc := ⟨.hbm, 366, rfl⟩
abbrev main_call5_v13 : Ref sig .tc := ⟨.hbm, 367, rfl⟩
abbrev main_call5_cst_4 : Ref sig .tc := ⟨.hbm, 368, rfl⟩
abbrev main_call5_call0_v0 : Ref sig .tc := ⟨.hbm, 369, rfl⟩
abbrev main_call5_call0_v1 : Ref sig .tc := ⟨.hbm, 370, rfl⟩
abbrev main_v217 : Ref sig .tc := ⟨.hbm, 371, rfl⟩
abbrev main_v218 : Ref sig .tc := ⟨.hbm, 372, rfl⟩
abbrev main_v219 : Ref sig .tc := ⟨.hbm, 373, rfl⟩
abbrev main_cst_33 : Ref sig .tc := ⟨.hbm, 374, rfl⟩
abbrev main_v220 : Ref sig .tc := ⟨.hbm, 375, rfl⟩
abbrev main_v221 : Ref sig .tc := ⟨.hbm, 376, rfl⟩
abbrev main_v222 : Ref sig .tc := ⟨.hbm, 377, rfl⟩
abbrev main_v223 : Ref sig .tc := ⟨.hbm, 378, rfl⟩
abbrev main_v224 : Ref sig .tc := ⟨.hbm, 379, rfl⟩
abbrev main_v225 : Ref sig .tc := ⟨.hbm, 380, rfl⟩
abbrev main_v226 : Ref sig .tc := ⟨.hbm, 381, rfl⟩
abbrev main_v227 : Ref sig .tc := ⟨.hbm, 382, rfl⟩
abbrev main_v228 : Ref sig .tc := ⟨.hbm, 383, rfl⟩
abbrev main_v229 : Ref sig .tc := ⟨.hbm, 384, rfl⟩
abbrev main_v230 : Ref sig .tc := ⟨.hbm, 385, rfl⟩
abbrev main_v231 : Ref sig .tc := ⟨.hbm, 386, rfl⟩
abbrev main_v232 : Ref sig .tc := ⟨.hbm, 387, rfl⟩
abbrev main_v233 : Ref sig .tc := ⟨.hbm, 388, rfl⟩
abbrev main_v234 : Ref sig .tc := ⟨.hbm, 389, rfl⟩
abbrev main_v235 : Ref sig .tc := ⟨.hbm, 390, rfl⟩
abbrev main_v236 : Ref sig .tc := ⟨.hbm, 391, rfl⟩
abbrev main_v237 : Ref sig .tc := ⟨.hbm, 392, rfl⟩
abbrev main_v238 : Ref sig .tc := ⟨.hbm, 393, rfl⟩
abbrev main_v239 : Ref sig .tc := ⟨.hbm, 394, rfl⟩
abbrev main_v240 : Ref sig .tc := ⟨.hbm, 395, rfl⟩
abbrev main_v241 : Ref sig .tc := ⟨.hbm, 396, rfl⟩
abbrev main_v242 : Ref sig .tc := ⟨.hbm, 397, rfl⟩
abbrev main_v243 : Ref sig .tc := ⟨.hbm, 398, rfl⟩
abbrev main_v244 : Ref sig .tc := ⟨.hbm, 399, rfl⟩
abbrev main_c_34 : Ref sig .tc := ⟨.hbm, 400, rfl⟩
abbrev main_v245 : Ref sig .tc := ⟨.hbm, 401, rfl⟩
abbrev main_v246 : Ref sig .tc := ⟨.hbm, 402, rfl⟩
abbrev main_c_35 : Ref sig .tc := ⟨.hbm, 403, rfl⟩
abbrev main_v247 : Ref sig .tc := ⟨.hbm, 404, rfl⟩
abbrev main_v248 : Ref sig .tc := ⟨.hbm, 405, rfl⟩
abbrev main_v249 : Ref sig .tc := ⟨.hbm, 406, rfl⟩
abbrev main_v250 : Ref sig .tc := ⟨.hbm, 407, rfl⟩
abbrev main_v251 : Ref sig .tc := ⟨.hbm, 408, rfl⟩
abbrev main_c_36 : Ref sig .tc := ⟨.hbm, 409, rfl⟩
abbrev main_v252 : Ref sig .tc := ⟨.hbm, 410, rfl⟩
abbrev main_v253 : Ref sig .tc := ⟨.hbm, 411, rfl⟩
abbrev main_c_37 : Ref sig .tc := ⟨.hbm, 412, rfl⟩
abbrev main_v254 : Ref sig .tc := ⟨.hbm, 413, rfl⟩
abbrev main_v255 : Ref sig .tc := ⟨.hbm, 414, rfl⟩
abbrev main_v256 : Ref sig .tc := ⟨.hbm, 415, rfl⟩
abbrev main_v257 : Ref sig .tc := ⟨.hbm, 416, rfl⟩
abbrev main_v258 : Ref sig .tc := ⟨.hbm, 417, rfl⟩
abbrev main_c_38 : Ref sig .tc := ⟨.hbm, 418, rfl⟩
abbrev main_v259 : Ref sig .tc := ⟨.hbm, 419, rfl⟩
abbrev main_v260 : Ref sig .tc := ⟨.hbm, 420, rfl⟩
abbrev main_c_39 : Ref sig .tc := ⟨.hbm, 421, rfl⟩
abbrev main_v261 : Ref sig .tc := ⟨.hbm, 422, rfl⟩
abbrev main_v262 : Ref sig .tc := ⟨.hbm, 423, rfl⟩
abbrev main_v263 : Ref sig .tc := ⟨.hbm, 424, rfl⟩
abbrev main_v264 : Ref sig .tc := ⟨.hbm, 425, rfl⟩
abbrev main_v265 : Ref sig .tc := ⟨.hbm, 426, rfl⟩
abbrev main_v266_0 : Ref sig .tc := ⟨.hbm, 427, rfl⟩
abbrev main_v266_1 : Ref sig .tc := ⟨.hbm, 428, rfl⟩
abbrev main_cst_40 : Ref sig .tc := ⟨.hbm, 429, rfl⟩
abbrev main_v267 : Ref sig .tc := ⟨.hbm, 430, rfl⟩
abbrev main_v268 : Ref sig .tc := ⟨.hbm, 431, rfl⟩
abbrev main_v269 : Ref sig .tc := ⟨.hbm, 432, rfl⟩
abbrev main_cst_41 : Ref sig .tc := ⟨.hbm, 433, rfl⟩
abbrev main_v270 : Ref sig .tc := ⟨.hbm, 434, rfl⟩
abbrev main_v271 : Ref sig .tc := ⟨.hbm, 435, rfl⟩
abbrev main_cst_42 : Ref sig .tc := ⟨.hbm, 436, rfl⟩
abbrev main_v272 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩
abbrev main_v276 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_v280 : Ref sig .tc := ⟨.hbm, 445, rfl⟩
abbrev main_v281 : Ref sig .tc := ⟨.hbm, 446, rfl⟩
abbrev main_v282 : Ref sig .tc := ⟨.hbm, 447, rfl⟩
abbrev main_v283 : Ref sig .tc := ⟨.hbm, 448, rfl⟩
abbrev main_v284 : Ref sig .tc := ⟨.hbm, 449, rfl⟩
abbrev main_v285 : Ref sig .tc := ⟨.hbm, 450, rfl⟩
abbrev main_v286 : Ref sig .tc := ⟨.hbm, 451, rfl⟩
abbrev main_cst_43 : Ref sig .tc := ⟨.hbm, 452, rfl⟩
abbrev main_v287 : Ref sig .tc := ⟨.hbm, 453, rfl⟩
abbrev main_v288 : Ref sig .tc := ⟨.hbm, 454, rfl⟩
abbrev main_cst_44 : Ref sig .tc := ⟨.hbm, 455, rfl⟩
abbrev main_v289 : Ref sig .tc := ⟨.hbm, 456, rfl⟩
abbrev main_v290 : Ref sig .tc := ⟨.hbm, 457, rfl⟩
abbrev main_c_45 : Ref sig .tc := ⟨.hbm, 458, rfl⟩
abbrev main_call6_cst : Ref sig .tc := ⟨.hbm, 459, rfl⟩
abbrev main_call6_v0 : Ref sig .tc := ⟨.hbm, 460, rfl⟩
abbrev main_call6_v1 : Ref sig .tc := ⟨.hbm, 461, rfl⟩
abbrev main_call6_cst_0 : Ref sig .tc := ⟨.hbm, 462, rfl⟩
abbrev main_call6_v2 : Ref sig .tc := ⟨.hbm, 463, rfl⟩
abbrev main_call6_v3 : Ref sig .tc := ⟨.hbm, 464, rfl⟩
abbrev main_call6_v4 : Ref sig .tc := ⟨.hbm, 465, rfl⟩
abbrev main_call6_v5 : Ref sig .tc := ⟨.hbm, 466, rfl⟩
abbrev main_call6_v6 : Ref sig .tc := ⟨.hbm, 467, rfl⟩
abbrev main_call6_v7 : Ref sig .tc := ⟨.hbm, 468, rfl⟩
abbrev main_call6_cst_1 : Ref sig .tc := ⟨.hbm, 469, rfl⟩
abbrev main_call6_v8 : Ref sig .tc := ⟨.hbm, 470, rfl⟩
abbrev main_call6_cst_2 : Ref sig .tc := ⟨.hbm, 471, rfl⟩
abbrev main_call6_v9 : Ref sig .tc := ⟨.hbm, 472, rfl⟩
abbrev main_call6_v10 : Ref sig .tc := ⟨.hbm, 473, rfl⟩
abbrev main_call6_v11 : Ref sig .tc := ⟨.hbm, 474, rfl⟩
abbrev main_call6_v12 : Ref sig .tc := ⟨.hbm, 475, rfl⟩
abbrev main_call6_cst_3 : Ref sig .tc := ⟨.hbm, 476, rfl⟩
abbrev main_call6_v13 : Ref sig .tc := ⟨.hbm, 477, rfl⟩
abbrev main_call6_cst_4 : Ref sig .tc := ⟨.hbm, 478, rfl⟩
abbrev main_call6_call0_v0 : Ref sig .tc := ⟨.hbm, 479, rfl⟩
abbrev main_call6_call0_v1 : Ref sig .tc := ⟨.hbm, 480, rfl⟩
abbrev main_v291 : Ref sig .tc := ⟨.hbm, 481, rfl⟩
abbrev main_v292 : Ref sig .tc := ⟨.hbm, 482, rfl⟩
abbrev main_v293 : Ref sig .tc := ⟨.hbm, 483, rfl⟩
abbrev main_cst_46 : Ref sig .tc := ⟨.hbm, 484, rfl⟩
abbrev main_v294 : Ref sig .tc := ⟨.hbm, 485, rfl⟩
abbrev main_v295 : Ref sig .tc := ⟨.hbm, 486, rfl⟩
abbrev main_v296 : Ref sig .tc := ⟨.hbm, 487, rfl⟩
abbrev main_v297 : Ref sig .tc := ⟨.hbm, 488, rfl⟩
abbrev main_v298 : Ref sig .tc := ⟨.hbm, 489, rfl⟩
abbrev main_v299 : Ref sig .tc := ⟨.hbm, 490, rfl⟩
abbrev main_v300 : Ref sig .tc := ⟨.hbm, 491, rfl⟩
abbrev main_v301 : Ref sig .tc := ⟨.hbm, 492, rfl⟩
abbrev main_v302 : Ref sig .tc := ⟨.hbm, 493, rfl⟩
abbrev main_v303 : Ref sig .tc := ⟨.hbm, 494, rfl⟩
abbrev main_v304 : Ref sig .tc := ⟨.hbm, 495, rfl⟩
abbrev main_v305 : Ref sig .tc := ⟨.hbm, 496, rfl⟩
abbrev main_v306 : Ref sig .tc := ⟨.hbm, 497, rfl⟩
abbrev main_v307 : Ref sig .tc := ⟨.hbm, 498, rfl⟩
abbrev main_v308 : Ref sig .tc := ⟨.hbm, 499, rfl⟩
abbrev main_v309 : Ref sig .tc := ⟨.hbm, 500, rfl⟩
abbrev main_v310 : Ref sig .tc := ⟨.hbm, 501, rfl⟩
abbrev main_call7_cst : Ref sig .tc := ⟨.hbm, 502, rfl⟩
abbrev main_call7_v0 : Ref sig .tc := ⟨.hbm, 503, rfl⟩
abbrev main_v311 : Ref sig .tc := ⟨.hbm, 504, rfl⟩
abbrev main_v312 : Ref sig .tc := ⟨.hbm, 505, rfl⟩
abbrev main_v313 : Ref sig .tc := ⟨.hbm, 506, rfl⟩
abbrev main_v314 : Ref sig .tc := ⟨.hbm, 507, rfl⟩
abbrev main_v315 : Ref sig .tc := ⟨.hbm, 508, rfl⟩
abbrev main_v316 : Ref sig .tc := ⟨.hbm, 509, rfl⟩
abbrev main_v317 : Ref sig .tc := ⟨.hbm, 510, rfl⟩
abbrev main_v318 : Ref sig .tc := ⟨.hbm, 511, rfl⟩
abbrev main_v319 : Ref sig .tc := ⟨.hbm, 512, rfl⟩
abbrev main_v320 : Ref sig .tc := ⟨.hbm, 513, rfl⟩
abbrev main_v321 : Ref sig .tc := ⟨.hbm, 514, rfl⟩
abbrev main_v322 : Ref sig .tc := ⟨.hbm, 515, rfl⟩
abbrev main_cst_47 : Ref sig .tc := ⟨.hbm, 516, rfl⟩
abbrev main_v323 : Ref sig .tc := ⟨.hbm, 517, rfl⟩
abbrev main_v324 : Ref sig .tc := ⟨.hbm, 518, rfl⟩
abbrev main_cst_48 : Ref sig .tc := ⟨.hbm, 519, rfl⟩
abbrev main_v325 : Ref sig .tc := ⟨.hbm, 520, rfl⟩
abbrev main_v326 : Ref sig .tc := ⟨.hbm, 521, rfl⟩
abbrev main_c_49 : Ref sig .tc := ⟨.hbm, 522, rfl⟩
abbrev main_call8_cst : Ref sig .tc := ⟨.hbm, 523, rfl⟩
abbrev main_call8_v0 : Ref sig .tc := ⟨.hbm, 524, rfl⟩
abbrev main_call8_v1 : Ref sig .tc := ⟨.hbm, 525, rfl⟩
abbrev main_call8_cst_0 : Ref sig .tc := ⟨.hbm, 526, rfl⟩
abbrev main_call8_v2 : Ref sig .tc := ⟨.hbm, 527, rfl⟩
abbrev main_call8_v3 : Ref sig .tc := ⟨.hbm, 528, rfl⟩
abbrev main_call8_v4 : Ref sig .tc := ⟨.hbm, 529, rfl⟩
abbrev main_call8_v5 : Ref sig .tc := ⟨.hbm, 530, rfl⟩
abbrev main_call8_v6 : Ref sig .tc := ⟨.hbm, 531, rfl⟩
abbrev main_call8_v7 : Ref sig .tc := ⟨.hbm, 532, rfl⟩
abbrev main_call8_cst_1 : Ref sig .tc := ⟨.hbm, 533, rfl⟩
abbrev main_call8_v8 : Ref sig .tc := ⟨.hbm, 534, rfl⟩
abbrev main_call8_cst_2 : Ref sig .tc := ⟨.hbm, 535, rfl⟩
abbrev main_call8_v9 : Ref sig .tc := ⟨.hbm, 536, rfl⟩
abbrev main_call8_v10 : Ref sig .tc := ⟨.hbm, 537, rfl⟩
abbrev main_call8_v11 : Ref sig .tc := ⟨.hbm, 538, rfl⟩
abbrev main_call8_v12 : Ref sig .tc := ⟨.hbm, 539, rfl⟩
abbrev main_call8_cst_3 : Ref sig .tc := ⟨.hbm, 540, rfl⟩
abbrev main_call8_v13 : Ref sig .tc := ⟨.hbm, 541, rfl⟩
abbrev main_call8_cst_4 : Ref sig .tc := ⟨.hbm, 542, rfl⟩
abbrev main_call8_call0_v0 : Ref sig .tc := ⟨.hbm, 543, rfl⟩
abbrev main_call8_call0_v1 : Ref sig .tc := ⟨.hbm, 544, rfl⟩
abbrev main_v327 : Ref sig .tc := ⟨.hbm, 545, rfl⟩
abbrev main_v328 : Ref sig .tc := ⟨.hbm, 546, rfl⟩
abbrev main_v329 : Ref sig .tc := ⟨.hbm, 547, rfl⟩
abbrev main_cst_50 : Ref sig .tc := ⟨.hbm, 548, rfl⟩
abbrev main_v330 : Ref sig .tc := ⟨.hbm, 549, rfl⟩
abbrev main_v331 : Ref sig .tc := ⟨.hbm, 550, rfl⟩
abbrev main_v332 : Ref sig .tc := ⟨.hbm, 551, rfl⟩
abbrev main_v333 : Ref sig .tc := ⟨.hbm, 552, rfl⟩
abbrev main_v334 : Ref sig .tc := ⟨.hbm, 553, rfl⟩
abbrev main_v335 : Ref sig .tc := ⟨.hbm, 554, rfl⟩
abbrev main_v336 : Ref sig .tc := ⟨.hbm, 555, rfl⟩
abbrev main_v337 : Ref sig .tc := ⟨.hbm, 556, rfl⟩
abbrev main_v338 : Ref sig .tc := ⟨.hbm, 557, rfl⟩
abbrev main_v339 : Ref sig .tc := ⟨.hbm, 558, rfl⟩
abbrev main_v340 : Ref sig .tc := ⟨.hbm, 559, rfl⟩
abbrev main_cst_51 : Ref sig .tc := ⟨.hbm, 560, rfl⟩
abbrev main_v341 : Ref sig .tc := ⟨.hbm, 561, rfl⟩
abbrev main_v342 : Ref sig .tc := ⟨.hbm, 562, rfl⟩
abbrev main_cst_52 : Ref sig .tc := ⟨.hbm, 563, rfl⟩
abbrev main_v343 : Ref sig .tc := ⟨.hbm, 564, rfl⟩
abbrev main_v344 : Ref sig .tc := ⟨.hbm, 565, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg3_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg1_1 : Ref sig .tc := ⟨.vmem, 63, rfl⟩
abbrev cc9_stg2_0 : Ref sig .tc := ⟨.vmem, 64, rfl⟩
abbrev cc9_stg2_1 : Ref sig .tc := ⟨.vmem, 65, rfl⟩
abbrev cc9_stg3_0 : Ref sig .tc := ⟨.vmem, 66, rfl⟩
abbrev cc9_stg3_1 : Ref sig .tc := ⟨.vmem, 67, rfl⟩
abbrev cc9_stg4_0 : Ref sig .tc := ⟨.vmem, 68, rfl⟩
abbrev cc9_stg4_1 : Ref sig .tc := ⟨.vmem, 69, rfl⟩
abbrev cc9_stg5_0 : Ref sig .tc := ⟨.vmem, 70, rfl⟩
abbrev cc9_stg5_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg2_0 : Ref sig .tc := ⟨.vmem, 75, rfl⟩
abbrev cc10_stg3_0 : Ref sig .tc := ⟨.vmem, 76, rfl⟩
abbrev cc10_stg3_1 : Ref sig .tc := ⟨.vmem, 77, rfl⟩
abbrev cc11_stg0_0 : Ref sig .tc := ⟨.vmem, 78, rfl⟩
abbrev cc11_stg0_1 : Ref sig .tc := ⟨.vmem, 79, rfl⟩
abbrev cc11_stg1_0 : Ref sig .tc := ⟨.vmem, 80, rfl⟩
abbrev cc11_stg2_0 : Ref sig .tc := ⟨.vmem, 81, rfl⟩
abbrev cc11_stg3_0 : Ref sig .tc := ⟨.vmem, 82, rfl⟩
abbrev cc11_stg3_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg2_0 : Ref sig .tc := ⟨.vmem, 87, rfl⟩
abbrev cc12_stg3_0 : Ref sig .tc := ⟨.vmem, 88, rfl⟩
abbrev cc12_stg3_1 : Ref sig .tc := ⟨.vmem, 89, rfl⟩
abbrev cc13_stg0_0 : Ref sig .tc := ⟨.vmem, 90, rfl⟩
abbrev cc13_stg0_1 : Ref sig .tc := ⟨.vmem, 91, rfl⟩
abbrev cc13_stg1_0 : Ref sig .tc := ⟨.vmem, 92, rfl⟩
abbrev cc13_stg2_0 : Ref sig .tc := ⟨.vmem, 93, rfl⟩
abbrev cc13_stg3_0 : Ref sig .tc := ⟨.vmem, 94, rfl⟩
abbrev cc13_stg3_1 : Ref sig .tc := ⟨.vmem, 95, rfl⟩
abbrev cc14_stg0_0 : Ref sig .tc := ⟨.vmem, 96, rfl⟩
abbrev cc14_stg0_1 : Ref sig .tc := ⟨.vmem, 97, rfl⟩
abbrev cc14_stg1_0 : Ref sig .tc := ⟨.vmem, 98, rfl⟩
abbrev cc14_stg2_0 : Ref sig .tc := ⟨.vmem, 99, rfl⟩
abbrev cc14_stg3_0 : Ref sig .tc := ⟨.vmem, 100, rfl⟩
abbrev cc14_stg3_1 : Ref sig .tc := ⟨.vmem, 101, rfl⟩
abbrev cc15_stg0_0 : Ref sig .tc := ⟨.vmem, 102, rfl⟩
abbrev cc15_stg0_1 : Ref sig .tc := ⟨.vmem, 103, rfl⟩
abbrev cc15_stg1_0 : Ref sig .tc := ⟨.vmem, 104, rfl⟩
abbrev cc15_stg1_1 : Ref sig .tc := ⟨.vmem, 105, rfl⟩
abbrev cc15_stg2_0 : Ref sig .tc := ⟨.vmem, 106, rfl⟩
abbrev cc15_stg2_1 : Ref sig .tc := ⟨.vmem, 107, rfl⟩
abbrev cc15_stg3_0 : Ref sig .tc := ⟨.vmem, 108, rfl⟩
abbrev cc15_stg3_1 : Ref sig .tc := ⟨.vmem, 109, rfl⟩
abbrev cc15_stg4_0 : Ref sig .tc := ⟨.vmem, 110, rfl⟩
abbrev cc15_stg4_1 : Ref sig .tc := ⟨.vmem, 111, rfl⟩
abbrev cc15_stg5_0 : Ref sig .tc := ⟨.vmem, 112, rfl⟩
abbrev cc15_stg5_1 : Ref sig .tc := ⟨.vmem, 113, rfl⟩
abbrev cc16_stg0_0 : Ref sig .tc := ⟨.vmem, 114, rfl⟩
abbrev cc16_stg0_1 : Ref sig .tc := ⟨.vmem, 115, rfl⟩
abbrev cc16_stg1_0 : Ref sig .tc := ⟨.vmem, 116, rfl⟩
abbrev cc16_stg2_0 : Ref sig .tc := ⟨.vmem, 117, rfl⟩
abbrev cc16_stg3_0 : Ref sig .tc := ⟨.vmem, 118, rfl⟩
abbrev cc16_stg3_1 : Ref sig .tc := ⟨.vmem, 119, rfl⟩
abbrev cc17_stg0_0 : Ref sig .tc := ⟨.vmem, 120, rfl⟩
abbrev cc17_stg0_1 : Ref sig .tc := ⟨.vmem, 121, rfl⟩
abbrev cc17_stg1_0 : Ref sig .tc := ⟨.vmem, 122, rfl⟩
abbrev cc17_stg2_0 : Ref sig .tc := ⟨.vmem, 123, rfl⟩
abbrev cc17_stg3_0 : Ref sig .tc := ⟨.vmem, 124, rfl⟩
abbrev cc17_stg3_1 : Ref sig .tc := ⟨.vmem, 125, rfl⟩
abbrev cc18_stg0_0 : Ref sig .tc := ⟨.vmem, 126, rfl⟩
abbrev cc18_stg0_1 : Ref sig .tc := ⟨.vmem, 127, rfl⟩
abbrev cc18_stg1_0 : Ref sig .tc := ⟨.vmem, 128, rfl⟩
abbrev cc18_stg2_0 : Ref sig .tc := ⟨.vmem, 129, rfl⟩
abbrev cc18_stg3_0 : Ref sig .tc := ⟨.vmem, 130, rfl⟩
abbrev cc18_stg3_1 : Ref sig .tc := ⟨.vmem, 131, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem3_0 : DmaSem sig := 58
abbrev cc8_sem3_1 : DmaSem sig := 59
abbrev cc9_sem0_0 : DmaSem sig := 60
abbrev cc9_sem0_1 : DmaSem sig := 61
abbrev cc9_sem1_0 : DmaSem sig := 62
abbrev cc9_sem1_1 : DmaSem sig := 63
abbrev cc9_sem2_0 : DmaSem sig := 64
abbrev cc9_sem2_1 : DmaSem sig := 65
abbrev cc9_sem3_0 : DmaSem sig := 66
abbrev cc9_sem3_1 : DmaSem sig := 67
abbrev cc9_sem4_0 : DmaSem sig := 68
abbrev cc9_sem4_1 : DmaSem sig := 69
abbrev cc9_sem5_0 : DmaSem sig := 70
abbrev cc9_sem5_1 : DmaSem sig := 71
abbrev cc10_sem0_0 : DmaSem sig := 72
abbrev cc10_sem0_1 : DmaSem sig := 73
abbrev cc10_sem1_0 : DmaSem sig := 74
abbrev cc10_sem2_0 : DmaSem sig := 75
abbrev cc10_sem3_0 : DmaSem sig := 76
abbrev cc10_sem3_1 : DmaSem sig := 77
abbrev cc11_sem0_0 : DmaSem sig := 78
abbrev cc11_sem0_1 : DmaSem sig := 79
abbrev cc11_sem1_0 : DmaSem sig := 80
abbrev cc11_sem2_0 : DmaSem sig := 81
abbrev cc11_sem3_0 : DmaSem sig := 82
abbrev cc11_sem3_1 : DmaSem sig := 83
abbrev cc12_sem0_0 : DmaSem sig := 84
abbrev cc12_sem0_1 : DmaSem sig := 85
abbrev cc12_sem1_0 : DmaSem sig := 86
abbrev cc12_sem2_0 : DmaSem sig := 87
abbrev cc12_sem3_0 : DmaSem sig := 88
abbrev cc12_sem3_1 : DmaSem sig := 89
abbrev cc13_sem0_0 : DmaSem sig := 90
abbrev cc13_sem0_1 : DmaSem sig := 91
abbrev cc13_sem1_0 : DmaSem sig := 92
abbrev cc13_sem2_0 : DmaSem sig := 93
abbrev cc13_sem3_0 : DmaSem sig := 94
abbrev cc13_sem3_1 : DmaSem sig := 95
abbrev cc14_sem0_0 : DmaSem sig := 96
abbrev cc14_sem0_1 : DmaSem sig := 97
abbrev cc14_sem1_0 : DmaSem sig := 98
abbrev cc14_sem2_0 : DmaSem sig := 99
abbrev cc14_sem3_0 : DmaSem sig := 100
abbrev cc14_sem3_1 : DmaSem sig := 101
abbrev cc15_sem0_0 : DmaSem sig := 102
abbrev cc15_sem0_1 : DmaSem sig := 103
abbrev cc15_sem1_0 : DmaSem sig := 104
abbrev cc15_sem1_1 : DmaSem sig := 105
abbrev cc15_sem2_0 : DmaSem sig := 106
abbrev cc15_sem2_1 : DmaSem sig := 107
abbrev cc15_sem3_0 : DmaSem sig := 108
abbrev cc15_sem3_1 : DmaSem sig := 109
abbrev cc15_sem4_0 : DmaSem sig := 110
abbrev cc15_sem4_1 : DmaSem sig := 111
abbrev cc15_sem5_0 : DmaSem sig := 112
abbrev cc15_sem5_1 : DmaSem sig := 113
abbrev cc16_sem0_0 : DmaSem sig := 114
abbrev cc16_sem0_1 : DmaSem sig := 115
abbrev cc16_sem1_0 : DmaSem sig := 116
abbrev cc16_sem2_0 : DmaSem sig := 117
abbrev cc16_sem3_0 : DmaSem sig := 118
abbrev cc16_sem3_1 : DmaSem sig := 119
abbrev cc17_sem0_0 : DmaSem sig := 120
abbrev cc17_sem0_1 : DmaSem sig := 121
abbrev cc17_sem1_0 : DmaSem sig := 122
abbrev cc17_sem2_0 : DmaSem sig := 123
abbrev cc17_sem3_0 : DmaSem sig := 124
abbrev cc17_sem3_1 : DmaSem sig := 125
abbrev cc18_sem0_0 : DmaSem sig := 126
abbrev cc18_sem0_1 : DmaSem sig := 127
abbrev cc18_sem1_0 : DmaSem sig := 128
abbrev cc18_sem2_0 : DmaSem sig := 129
abbrev cc18_sem3_0 : DmaSem sig := 130
abbrev cc18_sem3_1 : DmaSem sig := 131

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x52 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S52x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4096x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8192x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4096x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4096x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4096x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x384 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x384 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4096x384 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![64], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8192x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S8192x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![128], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4096x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4096x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S4096x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S4096x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S4096x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8192x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S8192x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4096x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S4096x256 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4096x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S256x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S4096x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![8], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4096x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x384 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x384 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S4096x384 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![64], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S8192x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S8192x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![128], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S4096x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S4096x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S4096x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 2 → Memref sig .tc .vmem S4096x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev stage15_4 : Fin 2 → Memref sig .tc .vmem S4096x128 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev stage15_5 : Fin 2 → Memref sig .tc .vmem S4096x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![4], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S8192x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S128x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S8192x128 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![8], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S4096x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S128x256 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x256 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S4096x256 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![8], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S4096x256 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S256x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S4096x128 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

class Facts₀ : Prop where
  concatenates_S32768x44_S32768x8_S32768x52_d1 : Shape.Concatenates [S32768x44, S32768x8] S32768x52 1
  concatenates_S44x128_S8x128_S52x128_d0 : Shape.Concatenates [S44x128, S8x128] S52x128 0
  shapeCasts_S128_S1x128 : S128.ShapeCasts S1x128
  inb_S8192x52_S8192x52_0_0 : ∀ a, (![0, 0] : Fin 2 → Nat) a + S8192x52.size a ≤ S8192x52.size a
  h_S8192x52 : 0 < S8192x52.numel
  shapeCasts_S8192x52_S8192x52 : S8192x52.ShapeCasts S8192x52
  bitsLt_bf16_f32 : FTy.bits .bf16 < FTy.bits .f32
  inb_S52x128_S52x128_0_0 : ∀ a, (![0, 0] : Fin 2 → Nat) a + S52x128.size a ≤ S52x128.size a
  h_S52x128 : 0 < S52x128.numel
  shapeCasts_S52x128_S52x128 : S52x128.ShapeCasts S52x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S1x384 : S_.BroadcastsInDim S1x384 (![] : Fin 0 → Fin S1x384.rank)
  bcast_S_S1x128 : S_.BroadcastsInDim S1x128 (![] : Fin 0 → Fin S1x128.rank)
  slices_S3x128x128_S1x128x128_0_0_0 : S3x128x128.Slices ![0, 0, 0] S1x128x128
  shapeCasts_S1x128x128_S128x128 : S1x128x128.ShapeCasts S128x128
  concatenates_S128x128_S128x128_S128x128_S128x384_d1 : Shape.Concatenates [S128x128, S128x128, S128x128] S128x384 1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  inb_S4096x384_S4096x384_0_0 : ∀ a, (![0, 0] : Fin 2 → Nat) a + S4096x384.size a ≤ S4096x384.size a
  h_S4096x384 : 0 < S4096x384.numel
  slices_S32768x384_S32768x128_0_0 : S32768x384.Slices ![0, 0] S32768x128
  slices_S32768x384_S32768x128_0_128 : S32768x384.Slices ![0, 128] S32768x128
  slices_S32768x384_S32768x128_0_256 : S32768x384.Slices ![0, 256] S32768x128
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S524288 : S_.BroadcastsInDim S524288 (![] : Fin 0 → Fin S524288.rank)
  bcast_S524288_S524288x1_0 : S524288.BroadcastsInDim S524288x1 (![0] : Fin 1 → Fin S524288x1.rank)
  slices_S4096x128_o0_0_S4096x32 : S4096x128.Slices ![0, 0] S4096x32
  reduces_S4096x32_S4096 : S4096x32.Reduces [1] S4096
  shapeCasts_S4096_S4096x1 : S4096.ShapeCasts S4096x1
  slices_S4096x128_o0_32_S4096x32 : S4096x128.Slices ![0, 32] S4096x32
  slices_S4096x128_o0_64_S4096x32 : S4096x128.Slices ![0, 64] S4096x32
  slices_S4096x128_o0_96_S4096x32 : S4096x128.Slices ![0, 96] S4096x32
  concatenates_S4096x1_S4096x1_S4096x1_S4096x1_S4096x4_d1 : Shape.Concatenates [S4096x1, S4096x1, S4096x1, S4096x1] S4096x4 1
  slices_S4096x4_o0_0_S4096x1 : S4096x4.Slices ![0, 0] S4096x1
  shapeCasts_S4096x1_S4096x1 : S4096x1.ShapeCasts S4096x1
  broadcasts_S4096x1_S4096x32 : S4096x1.Broadcasts S4096x32
  slices_S4096x4_o0_1_S4096x1 : S4096x4.Slices ![0, 1] S4096x1
  slices_S4096x4_o0_2_S4096x1 : S4096x4.Slices ![0, 2] S4096x1
  slices_S4096x4_o0_3_S4096x1 : S4096x4.Slices ![0, 3] S4096x1
  concatenates_S4096x32_S4096x32_S4096x32_S4096x32_S4096x128_d1 : Shape.Concatenates [S4096x32, S4096x32, S4096x32, S4096x32] S4096x128 1
  bcast_S_S32768x128 : S_.BroadcastsInDim S32768x128 (![] : Fin 0 → Fin S32768x128.rank)
  slices_S3x128_S1x128_0_0 : S3x128.Slices ![0, 0] S1x128
  shapeCasts_S1x128_S128 : S1x128.ShapeCasts S128
  reducesTo_S32768x128_S32768_d1 : S32768x128.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x128_0_1 : S32768x1.BroadcastsInDim S32768x128 (![0, 1] : Fin 2 → Fin S32768x128.rank)
  bcast_S1x128_S32768x128_0_1 : S1x128.BroadcastsInDim S32768x128 (![0, 1] : Fin 2 → Fin S32768x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  shapeCasts_S256_S1x256 : S256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  bcast_S_S32768x256 : S_.BroadcastsInDim S32768x256 (![] : Fin 0 → Fin S32768x256.rank)
  slices_S3x256x128_S1x256x128_0_0_0 : S3x256x128.Slices ![0, 0, 0] S1x256x128
  shapeCasts_S1x256x128_S256x128 : S1x256x128.ShapeCasts S256x128
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S4096x128 : S1x128.Broadcasts S4096x128
  slices_S3x128x128_S1x128x128_1_0_0 : S3x128x128.Slices ![1, 0, 0] S1x128x128
  slices_S3x128_S1x128_1_0 : S3x128.Slices ![1, 0] S1x128
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x128x128_S1x128x128_2_0_0 : S3x128x128.Slices ![2, 0, 0] S1x128x128
  slices_S3x128_S1x128_2_0 : S3x128.Slices ![2, 0] S1x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  reducesTo_S32768x128_S128_d0 : S32768x128.ReducesTo [0] S128
  dot_S8192x52_S52x128_S8192x128_1_0_0_1_n_n_wf : DotDims.WF S8192x52 S52x128 S8192x128 [1] [0] [0] [1] [] []
  dot_S524288x1_S1x128_S524288x128_1_0_0_1_n_n_wf : DotDims.WF S524288x1 S1x128 S524288x128 [1] [0] [0] [1] [] []
  dot_S4096x128_S128x384_S4096x384_1_0_0_1_n_n_wf : DotDims.WF S4096x128 S128x384 S4096x384 [1] [0] [0] [1] [] []
  dot_S8192x128_S128x128_S8192x128_1_0_0_1_n_n_wf : DotDims.WF S8192x128 S128x128 S8192x128 [1] [0] [0] [1] [] []
  gather_S32768x128_S524288x1_S524288x128_1_0_n_n_0_1_1128_wf : GatherDims.WF S32768x128 S524288x1 S524288x128 [1] [0] [] [0] [] 1 ![1, 128]
  scatter_S32768x128_S524288x1_S524288x128_1_0_0_1_wf : ScatterDims.WF S32768x128 S524288x1 S524288x128 [1] [0] [0] 1
  dot_S4096x128_S128x256_S4096x256_1_0_0_1_n_n_wf : DotDims.WF S4096x128 S128x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x52.size a ≤ S32768x52.size a
  hwx0_0 : ∀ i : grid0.Coords, EltTy.bits .f32 = 32 ∨ (Rect.block (s := S32768x52) S8192x52.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S52x128.size a ≤ S52x128.size a
  hwx0_1 : ∀ i : grid0.Coords, EltTy.bits .f32 = 32 ∨ (Rect.block (s := S52x128) S52x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S32768x128.size a
  hwx0_3 : ∀ i : grid0.Coords, EltTy.bits .f32 = 32 ∨ (Rect.block (s := S32768x128) S8192x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S32768x128.size a
  hwx1_0 : ∀ i : grid1.Coords, EltTy.bits .f32 = 32 ∨ (Rect.block (s := S32768x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x384.size a ≤ S128x384.size a
  hwx1_1 : ∀ i : grid1.Coords, EltTy.bits .f32 = 32 ∨ (Rect.block (s := S128x384) S128x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x384.size a ≤ S32768x384.size a
  hwx1_3 : ∀ i : grid1.Coords, EltTy.bits .f32 = 32 ∨ (Rect.block (s := S32768x384) S4096x384.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S524288x128.size a
  hwx2_0 : ∀ i : grid2.Coords, EltTy.bits .f32 = 32 ∨ (Rect.block (s := S524288x128) S8192x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x128.size a ≤ S524288x128.size a
  hwx2_3 : ∀ i : grid2.Coords, EltTy.bits .f32 = 32 ∨ (Rect.block (s := S524288x128) S8192x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S524288x128.size a
  hwx3_0 : ∀ i : grid3.Coords, EltTy.bits .f32 = 32 ∨ (Rect.block (s := S524288x128) S4096x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S524288x128.size a
  hwx3_1 : ∀ i : grid3.Coords, EltTy.bits .f32 = 32 ∨ (Rect.block (s := S524288x128) S4096x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S524288x128.size a
  hwx3_2 : ∀ i : grid3.Coords, EltTy.bits .f32 = 32 ∨ (Rect.block (s := S524288x128) S4096x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x128.size a ≤ S524288x128.size a
  hwx3_3 : ∀ i : grid3.Coords, EltTy.bits .f32 = 32 ∨ (Rect.block (s := S524288x128) S4096x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x128.size a ≤ S524288x128.size a
  hwx3_4 : ∀ i : grid3.Coords, EltTy.bits .f32 = 32 ∨ (Rect.block (s := S524288x128) S4096x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x128.size a ≤ S524288x128.size a
  hwx3_5 : ∀ i : grid3.Coords, EltTy.bits .f32 = 32 ∨ (Rect.block (s := S524288x128) S4096x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S32768x128.size a
  hwx4_0 : ∀ i : grid4.Coords, EltTy.bits .f32 = 32 ∨ (Rect.block (s := S32768x128) S8192x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x128.size a ≤ S32768x128.size a
  hwx4_3 : ∀ i : grid4.Coords, EltTy.bits .f32 = 32 ∨ (Rect.block (s := S32768x128) S8192x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x128.size a ≤ S32768x128.size a
  hwx5_0 : ∀ i : grid5.Coords, EltTy.bits .f32 = 32 ∨ (Rect.block (s := S32768x128) S4096x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x256.size a ≤ S128x256.size a
  hwx5_1 : ∀ i : grid5.Coords, EltTy.bits .f32 = 32 ∨ (Rect.block (s := S128x256) S128x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x256.size a ≤ S32768x256.size a
  hwx5_3 : ∀ i : grid5.Coords, EltTy.bits .f32 = 32 ∨ (Rect.block (s := S32768x256) S4096x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x256.size a ≤ S32768x256.size a
  hwx6_0 : ∀ i : grid6.Coords, EltTy.bits .f32 = 32 ∨ (Rect.block (s := S32768x256) S4096x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4096x128.size a ≤ S32768x128.size a
  hwx6_3 : ∀ i : grid6.Coords, EltTy.bits .f32 = 32 ∨ (Rect.block (s := S32768x128) S4096x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x128.size a ≤ S32768x128.size a
  hwx7_0 : ∀ i : grid7.Coords, EltTy.bits .f32 = 32 ∨ (Rect.block (s := S32768x128) S4096x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x384.size a ≤ S128x384.size a
  hwx7_1 : ∀ i : grid7.Coords, EltTy.bits .f32 = 32 ∨ (Rect.block (s := S128x384) S128x384.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x384.size a ≤ S1x384.size a
  hwx7_2 : ∀ i : grid7.Coords, EltTy.bits .f32 = 32 ∨ (Rect.block (s := S1x384) S1x384.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4096x384.size a ≤ S32768x384.size a
  hwx7_3 : ∀ i : grid7.Coords, EltTy.bits .f32 = 32 ∨ (Rect.block (s := S32768x384) S4096x384.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8192x128.size a ≤ S524288x128.size a
  hwx8_0 : ∀ i : grid8.Coords, EltTy.bits .f32 = 32 ∨ (Rect.block (s := S524288x128) S8192x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S8192x128.size a ≤ S524288x128.size a
  hwx8_3 : ∀ i : grid8.Coords, EltTy.bits .f32 = 32 ∨ (Rect.block (s := S524288x128) S8192x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x128.size a ≤ S524288x128.size a
  hwx9_0 : ∀ i : grid9.Coords, EltTy.bits .f32 = 32 ∨ (Rect.block (s := S524288x128) S4096x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4096x128.size a ≤ S524288x128.size a
  hwx9_1 : ∀ i : grid9.Coords, EltTy.bits .f32 = 32 ∨ (Rect.block (s := S524288x128) S4096x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4096x128.size a ≤ S524288x128.size a
  hwx9_2 : ∀ i : grid9.Coords, EltTy.bits .f32 = 32 ∨ (Rect.block (s := S524288x128) S4096x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4096x128.size a ≤ S524288x128.size a
  hwx9_3 : ∀ i : grid9.Coords, EltTy.bits .f32 = 32 ∨ (Rect.block (s := S524288x128) S4096x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4096x128.size a ≤ S524288x128.size a
  hwx9_4 : ∀ i : grid9.Coords, EltTy.bits .f32 = 32 ∨ (Rect.block (s := S524288x128) S4096x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S4096x128.size a ≤ S524288x128.size a
  hwx9_5 : ∀ i : grid9.Coords, EltTy.bits .f32 = 32 ∨ (Rect.block (s := S524288x128) S4096x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8192x128.size a ≤ S32768x128.size a
  hwx10_0 : ∀ i : grid10.Coords, EltTy.bits .f32 = 32 ∨ (Rect.block (s := S32768x128) S8192x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S8192x128.size a ≤ S32768x128.size a
  hwx10_3 : ∀ i : grid10.Coords, EltTy.bits .f32 = 32 ∨ (Rect.block (s := S32768x128) S8192x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4096x128.size a ≤ S32768x128.size a
  hwx11_0 : ∀ i : grid11.Coords, EltTy.bits .f32 = 32 ∨ (Rect.block (s := S32768x128) S4096x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x256.size a ≤ S128x256.size a
  hwx11_1 : ∀ i : grid11.Coords, EltTy.bits .f32 = 32 ∨ (Rect.block (s := S128x256) S128x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S4096x256.size a ≤ S32768x256.size a
  hwx11_3 : ∀ i : grid11.Coords, EltTy.bits .f32 = 32 ∨ (Rect.block (s := S32768x256) S4096x256.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4096x256.size a ≤ S32768x256.size a
  hwx12_0 : ∀ i : grid12.Coords, EltTy.bits .f32 = 32 ∨ (Rect.block (s := S32768x256) S4096x256.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S256x128.size a ≤ S256x128.size a
  hwx12_1 : ∀ i : grid12.Coords, EltTy.bits .f32 = 32 ∨ (Rect.block (s := S256x128) S256x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S4096x128.size a ≤ S32768x128.size a
  hwx12_3 : ∀ i : grid12.Coords, EltTy.bits .f32 = 32 ∨ (Rect.block (s := S32768x128) S4096x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4096x128.size a ≤ S32768x128.size a
  hwx13_0 : ∀ i : grid13.Coords, EltTy.bits .f32 = 32 ∨ (Rect.block (s := S32768x128) S4096x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x384.size a ≤ S128x384.size a
  hwx13_1 : ∀ i : grid13.Coords, EltTy.bits .f32 = 32 ∨ (Rect.block (s := S128x384) S128x384.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x384.size a ≤ S1x384.size a
  hwx13_2 : ∀ i : grid13.Coords, EltTy.bits .f32 = 32 ∨ (Rect.block (s := S1x384) S1x384.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S4096x384.size a ≤ S32768x384.size a
  hwx13_3 : ∀ i : grid13.Coords, EltTy.bits .f32 = 32 ∨ (Rect.block (s := S32768x384) S4096x384.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S8192x128.size a ≤ S524288x128.size a
  hwx14_0 : ∀ i : grid14.Coords, EltTy.bits .f32 = 32 ∨ (Rect.block (s := S524288x128) S8192x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S8192x128.size a ≤ S524288x128.size a
  hwx14_3 : ∀ i : grid14.Coords, EltTy.bits .f32 = 32 ∨ (Rect.block (s := S524288x128) S8192x128.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S4096x128.size a ≤ S524288x128.size a
  hwx15_0 : ∀ i : grid15.Coords, EltTy.bits .f32 = 32 ∨ (Rect.block (s := S524288x128) S4096x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S4096x128.size a ≤ S524288x128.size a
  hwx15_1 : ∀ i : grid15.Coords, EltTy.bits .f32 = 32 ∨ (Rect.block (s := S524288x128) S4096x128.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S4096x128.size a ≤ S524288x128.size a
  hwx15_2 : ∀ i : grid15.Coords, EltTy.bits .f32 = 32 ∨ (Rect.block (s := S524288x128) S4096x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S4096x128.size a ≤ S524288x128.size a
  hwx15_3 : ∀ i : grid15.Coords, EltTy.bits .f32 = 32 ∨ (Rect.block (s := S524288x128) S4096x128.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S4096x128.size a ≤ S524288x128.size a
  hwx15_4 : ∀ i : grid15.Coords, EltTy.bits .f32 = 32 ∨ (Rect.block (s := S524288x128) S4096x128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S4096x128.size a ≤ S524288x128.size a
  hwx15_5 : ∀ i : grid15.Coords, EltTy.bits .f32 = 32 ∨ (Rect.block (s := S524288x128) S4096x128.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S8192x128.size a ≤ S32768x128.size a
  hwx16_0 : ∀ i : grid16.Coords, EltTy.bits .f32 = 32 ∨ (Rect.block (s := S32768x128) S8192x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x128.size a ≤ S128x128.size a
  hwx16_1 : ∀ i : grid16.Coords, EltTy.bits .f32 = 32 ∨ (Rect.block (s := S128x128) S128x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S8192x128.size a ≤ S32768x128.size a
  hwx16_3 : ∀ i : grid16.Coords, EltTy.bits .f32 = 32 ∨ (Rect.block (s := S32768x128) S8192x128.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S4096x128.size a ≤ S32768x128.size a
  hwx17_0 : ∀ i : grid17.Coords, EltTy.bits .f32 = 32 ∨ (Rect.block (s := S32768x128) S4096x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S128x256.size a ≤ S128x256.size a
  hwx17_1 : ∀ i : grid17.Coords, EltTy.bits .f32 = 32 ∨ (Rect.block (s := S128x256) S128x256.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x256.size a ≤ S1x256.size a
  hwx17_2 : ∀ i : grid17.Coords, EltTy.bits .f32 = 32 ∨ (Rect.block (s := S1x256) S1x256.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S4096x256.size a ≤ S32768x256.size a
  hwx17_3 : ∀ i : grid17.Coords, EltTy.bits .f32 = 32 ∨ (Rect.block (s := S32768x256) S4096x256.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S4096x256.size a ≤ S32768x256.size a
  hwx18_0 : ∀ i : grid18.Coords, EltTy.bits .f32 = 32 ∨ (Rect.block (s := S32768x256) S4096x256.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S256x128.size a ≤ S256x128.size a
  hwx18_1 : ∀ i : grid18.Coords, EltTy.bits .f32 = 32 ∨ (Rect.block (s := S256x128) S256x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x128.size a ≤ S1x128.size a
  hwx18_2 : ∀ i : grid18.Coords, EltTy.bits .f32 = 32 ∨ (Rect.block (s := S1x128) S1x128.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S4096x128.size a ≤ S32768x128.size a
  hwx18_3 : ∀ i : grid18.Coords, EltTy.bits .f32 = 32 ∨ (Rect.block (s := S32768x128) S4096x128.size (cc18_transform_3 i) (hinb18_3 i)).WholeWords (EltTy.packing .f32)

variable [Facts₀]

def dot_S8192x52_S52x128_S8192x128_1_0_0_1_n_n : DotDims S8192x52 S52x128 S8192x128 where
  lhsContracting := [1]
  rhsContracting := [0]
  lhsNonContracting := [0]
  rhsNonContracting := [1]
  lhsBatch := []
  rhsBatch := []
  wf := dot_S8192x52_S52x128_S8192x128_1_0_0_1_n_n_wf
def dot_S524288x1_S1x128_S524288x128_1_0_0_1_n_n : DotDims S524288x1 S1x128 S524288x128 where
  lhsContracting := [1]
  rhsContracting := [0]
  lhsNonContracting := [0]
  rhsNonContracting := [1]
  lhsBatch := []
  rhsBatch := []
  wf := dot_S524288x1_S1x128_S524288x128_1_0_0_1_n_n_wf
def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v0) S8192x52.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S52x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S128x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S4096x384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S8192x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v31) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S4096x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v24) S4096x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v46_0) S4096x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v46_1) S4096x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55) S8192x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S8192x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v84) S4096x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S128x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S4096x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v91) S4096x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v93) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v97) S4096x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v120) S4096x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v127) S128x384.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v9) S1x384.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v128) S4096x384.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v8) S8192x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v133) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v10) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v134) S8192x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v141) S4096x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v148) S4096x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v155) S4096x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v134) S4096x128.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v156_0) S4096x128.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v156_1) S4096x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v165) S8192x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v167) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v170) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v171) S8192x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v194) S4096x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v196) S128x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v199) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v200) S4096x256.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v201) S4096x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v203) S256x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v206) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v207) S4096x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v230) S4096x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v237) S128x384.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v9) S1x384.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v238) S4096x384.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v8) S8192x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v243) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v10) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v244) S8192x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v251) S4096x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v258) S4096x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v265) S4096x128.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v244) S4096x128.size cc15_transform_3 reads15_3 false false 2 stage15_3 sem15_3
    hrank15 hreads15_3 hinb15_3 nbuf15_3 (Memref.isWhole_whole _) hwx15_3 hstage15_3

abbrev win15_4 : Pipeline.Window sig grid15 :=
  Pipeline.Window.ofSpec (Memref.whole main_v266_0) S4096x128.size cc15_transform_4 reads15_4 true false 2 stage15_4 sem15_4
    hrank15 hreads15_4 hinb15_4 nbuf15_4 (Memref.isWhole_whole _) hwx15_4 hstage15_4

abbrev win15_5 : Pipeline.Window sig grid15 :=
  Pipeline.Window.ofSpec (Memref.whole main_v266_1) S4096x128.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v275) S8192x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v277) S128x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v280) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v281) S8192x128.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v304) S4096x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v306) S128x256.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v309) S1x256.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v310) S4096x256.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v311) S4096x256.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v313) S256x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v316) S1x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v317) S4096x128.size cc18_transform_3 reads18_3 true false 2 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

class Facts : Prop extends Facts₀ where

variable [Facts]
-- ==== ReferenceIdeal.lean ====
abbrev S32768x44 : Shape := ⟨2, ![32768, 44]⟩
abbrev S32768x8 : Shape := ⟨2, ![32768, 8]⟩
abbrev S524288x1 : Shape := ⟨2, ![524288, 1]⟩
abbrev S44x128 : Shape := ⟨2, ![44, 128]⟩
abbrev S128 : Shape := ⟨1, ![128]⟩
abbrev S8x128 : Shape := ⟨2, ![8, 128]⟩
abbrev S1x128 : Shape := ⟨2, ![1, 128]⟩
abbrev S3x128x128 : Shape := ⟨3, ![3, 128, 128]⟩
abbrev S3x128 : Shape := ⟨2, ![3, 128]⟩
abbrev S3x128x256 : Shape := ⟨3, ![3, 128, 256]⟩
abbrev S3x256 : Shape := ⟨2, ![3, 256]⟩
abbrev S3x256x128 : Shape := ⟨3, ![3, 256, 128]⟩
abbrev S524288 : Shape := ⟨1, ![524288]⟩
abbrev S32768x128 : Shape := ⟨2, ![32768, 128]⟩
abbrev S524288x128 : Shape := ⟨2, ![524288, 128]⟩
abbrev S1x128x128 : Shape := ⟨3, ![1, 128, 128]⟩
abbrev S128x128 : Shape := ⟨2, ![128, 128]⟩
abbrev S32768x4x32 : Shape := ⟨3, ![32768, 4, 32]⟩
abbrev S524288x4x32 : Shape := ⟨3, ![524288, 4, 32]⟩
abbrev S_ : Shape := ⟨0, ![]⟩
abbrev S524288x4 : Shape := ⟨2, ![524288, 4]⟩
abbrev S524288x4x1 : Shape := ⟨3, ![524288, 4, 1]⟩
abbrev S32768 : Shape := ⟨1, ![32768]⟩
abbrev S32768x1 : Shape := ⟨2, ![32768, 1]⟩
abbrev S1x128x256 : Shape := ⟨3, ![1, 128, 256]⟩
abbrev S128x256 : Shape := ⟨2, ![128, 256]⟩
abbrev S32768x256 : Shape := ⟨2, ![32768, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩

abbrev nBuf : Space → Nat
  | .hbm => 629
  | .vmem => 0
  | .smem => 0
  | _ => 0

abbrev hbmTy0_0 (i : Nat) : BufTy := match i % 128 with
  | 0 => ⟨S32768x44, .f32⟩
  | 1 => ⟨S32768x8, .f32⟩
  | 2 => ⟨S524288x1, .f32⟩
  | 3 => ⟨S44x128, .f32⟩
  | 4 => ⟨S128, .f32⟩
  | 5 => ⟨S8x128, .f32⟩
  | 6 => ⟨S128, .f32⟩
  | 7 => ⟨S1x128, .f32⟩
  | 8 => ⟨S128, .f32⟩
  | 9 => ⟨S3x128x128, .f32⟩
  | 10 => ⟨S3x128x128, .f32⟩
  | 11 => ⟨S3x128x128, .f32⟩
  | 12 => ⟨S3x128x128, .f32⟩
  | 13 => ⟨S3x128x128, .f32⟩
  | 14 => ⟨S3x128, .f32⟩
  | 15 => ⟨S3x128, .f32⟩
  | 16 => ⟨S3x128, .f32⟩
  | 17 => ⟨S3x128x256, .f32⟩
  | 18 => ⟨S3x256, .f32⟩
  | 19 => ⟨S3x256x128, .f32⟩
  | 20 => ⟨S3x128, .f32⟩
  | 21 => ⟨S3x128, .f32⟩
  | 22 => ⟨S3x128, .f32⟩
  | 23 => ⟨S524288, .i32⟩
  | 24 => ⟨S524288, .i32⟩
  | 25 => ⟨S32768x128, .f32⟩
  | 26 => ⟨S1x128, .f32⟩
  | 27 => ⟨S32768x128, .f32⟩
  | 28 => ⟨S32768x128, .f32⟩
  | 29 => ⟨S32768x128, .f32⟩
  | 30 => ⟨S32768x128, .f32⟩
  | 31 => ⟨S1x128, .f32⟩
  | 32 => ⟨S32768x128, .f32⟩
  | 33 => ⟨S32768x128, .f32⟩
  | 34 => ⟨S524288x128, .f32⟩
  | 35 => ⟨S1x128, .f32⟩
  | 36 => ⟨S524288x128, .f32⟩
  | 37 => ⟨S524288x128, .f32⟩
  | 38 => ⟨S1x128x128, .f32⟩
  | 39 => ⟨S128x128, .f32⟩
  | 40 => ⟨S32768x128, .f32⟩
  | 41 => ⟨S32768x4x32, .f32⟩
  | 42 => ⟨S1x128x128, .f32⟩
  | 43 => ⟨S128x128, .f32⟩
  | 44 => ⟨S32768x128, .f32⟩
  | 45 => ⟨S32768x4x32, .f32⟩
  | 46 => ⟨S1x128x128, .f32⟩
  | 47 => ⟨S128x128, .f32⟩
  | 48 => ⟨S32768x128, .f32⟩
  | 49 => ⟨S32768x4x32, .f32⟩
  | 50 => ⟨S1x128x128, .f32⟩
  | 51 => ⟨S128x128, .f32⟩
  | 52 => ⟨S524288x128, .f32⟩
  | 53 => ⟨S524288x4x32, .f32⟩
  | 54 => ⟨S_, .i32⟩
  | 55 => ⟨S524288, .i32⟩
  | 56 => ⟨S524288, .i1⟩
  | 57 => ⟨S_, .i32⟩
  | 58 => ⟨S524288, .i32⟩
  | 59 => ⟨S524288, .i32⟩
  | 60 => ⟨S524288, .i32⟩
  | 61 => ⟨S524288x1, .i32⟩
  | 62 => ⟨S524288x4x32, .f32⟩
  | 63 => ⟨S_, .i32⟩
  | 64 => ⟨S524288, .i32⟩
  | 65 => ⟨S524288, .i1⟩
  | 66 => ⟨S_, .i32⟩
  | 67 => ⟨S524288, .i32⟩
  | 68 => ⟨S524288, .i32⟩
  | 69 => ⟨S524288, .i32⟩
  | 70 => ⟨S524288x1, .i32⟩
  | 71 => ⟨S524288x4x32, .f32⟩
  | 72 => ⟨S524288x4x32, .f32⟩
  | 73 => ⟨S_, .f32⟩
  | 74 => ⟨S524288x4, .f32⟩
  | 75 => ⟨S524288x4x1, .f32⟩
  | 76 => ⟨S_, .f32⟩
  | 77 => ⟨S524288x4x1, .f32⟩
  | 78 => ⟨S524288x4x1, .f32⟩
  | 79 => ⟨S_, .f32⟩
  | 80 => ⟨S524288x4x32, .f32⟩
  | 81 => ⟨S524288x4x32, .f32⟩
  | 82 => ⟨S524288x4x32, .f32⟩
  | 83 => ⟨S524288x4x32, .f32⟩
  | 84 => ⟨S524288x4x32, .f32⟩
  | 85 => ⟨S_, .f32⟩
  | 86 => ⟨S32768x4x32, .f32⟩
  | 87 => ⟨S524288x1, .i32⟩
  | 88 => ⟨S32768x4x32, .f32⟩
  | 89 => ⟨S_, .f32⟩
  | 90 => ⟨S32768x4x32, .f32⟩
  | 91 => ⟨S32768x4x32, .f32⟩
  | 92 => ⟨S_, .i32⟩
  | 93 => ⟨S524288, .i32⟩
  | 94 => ⟨S524288, .i1⟩
  | 95 => ⟨S_, .i32⟩
  | 96 => ⟨S524288, .i32⟩
  | 97 => ⟨S524288, .i32⟩
  | 98 => ⟨S524288, .i32⟩
  | 99 => ⟨S524288x1, .i32⟩
  | 100 => ⟨S524288x4x32, .f32⟩
  | 101 => ⟨S524288x4x32, .f32⟩
  | 102 => ⟨S_, .f32⟩
  | 103 => ⟨S32768x4x32, .f32⟩
  | 104 => ⟨S524288x1, .i32⟩
  | 105 => ⟨S32768x4x32, .f32⟩
  | 106 => ⟨S32768x4x32, .f32⟩
  | 107 => ⟨S32768x128, .f32⟩
  | 108 => ⟨S1x128x128, .f32⟩
  | 109 => ⟨S128x128, .f32⟩
  | 110 => ⟨S32768x128, .f32⟩
  | 111 => ⟨S32768x128, .f32⟩
  | 112 => ⟨S1x128, .f32⟩
  | 113 => ⟨S128, .f32⟩
  | 114 => ⟨S1x128, .f32⟩
  | 115 => ⟨S32768x128, .f32⟩
  | 116 => ⟨S32768x128, .f32⟩
  | 117 => ⟨S1x128, .f32⟩
  | 118 => ⟨S128, .f32⟩
  | 119 => ⟨S1x128, .f32⟩
  | 120 => ⟨S128, .f32⟩
  | 121 => ⟨S_, .f32⟩
  | 122 => ⟨S32768, .f32⟩
  | 123 => ⟨S32768x1, .f32⟩
  | 124 => ⟨S_, .f32⟩
  | 125 => ⟨S32768x1, .f32⟩
  | 126 => ⟨S32768x1, .f32⟩
  | 127 => ⟨S_, .i32⟩
  | _ => ⟨S32768x44, .f32⟩

abbrev hbmTy0_1 (i : Nat) : BufTy := match i % 128 with
  | 0 => ⟨S_, .f32⟩
  | 1 => ⟨S32768, .f32⟩
  | 2 => ⟨S32768x1, .f32⟩
  | 3 => ⟨S_, .f32⟩
  | 4 => ⟨S32768x1, .f32⟩
  | 5 => ⟨S32768x1, .f32⟩
  | 6 => ⟨S32768x128, .f32⟩
  | 7 => ⟨S32768x128, .f32⟩
  | 8 => ⟨S32768x128, .f32⟩
  | 9 => ⟨S_, .f32⟩
  | 10 => ⟨S_, .f32⟩
  | 11 => ⟨S_, .f32⟩
  | 12 => ⟨S_, .f32⟩
  | 13 => ⟨S32768, .f32⟩
  | 14 => ⟨S32768x1, .f32⟩
  | 15 => ⟨S32768x1, .f32⟩
  | 16 => ⟨S32768x1, .f32⟩
  | 17 => ⟨S_, .f32⟩
  | 18 => ⟨S_, .i1⟩
  | 19 => ⟨S_, .f32⟩
  | 20 => ⟨S_, .f32⟩
  | 21 => ⟨S32768x1, .f32⟩
  | 22 => ⟨S32768x1, .f32⟩
  | 23 => ⟨S32768x128, .f32⟩
  | 24 => ⟨S32768x128, .f32⟩
  | 25 => ⟨S_, .f32⟩
  | 26 => ⟨S32768x1, .f32⟩
  | 27 => ⟨S32768x1, .f32⟩
  | 28 => ⟨S32768x1, .f32⟩
  | 29 => ⟨S32768x128, .f32⟩
  | 30 => ⟨S32768x128, .f32⟩
  | 31 => ⟨S1x128, .f32⟩
  | 32 => ⟨S32768x128, .f32⟩
  | 33 => ⟨S32768x128, .f32⟩
  | 34 => ⟨S1x128, .f32⟩
  | 35 => ⟨S32768x128, .f32⟩
  | 36 => ⟨S32768x128, .f32⟩
  | 37 => ⟨S1x128x256, .f32⟩
  | 38 => ⟨S128x256, .f32⟩
  | 39 => ⟨S32768x256, .f32⟩
  | 40 => ⟨S1x256, .f32⟩
  | 41 => ⟨S256, .f32⟩
  | 42 => ⟨S1x256, .f32⟩
  | 43 => ⟨S32768x256, .f32⟩
  | 44 => ⟨S32768x256, .f32⟩
  | 45 => ⟨S_, .f32⟩
  | 46 => ⟨S32768x256, .f32⟩
  | 47 => ⟨S32768x256, .f32⟩
  | 48 => ⟨S1x256x128, .f32⟩
  | 49 => ⟨S256x128, .f32⟩
  | 50 => ⟨S32768x128, .f32⟩
  | 51 => ⟨S1x128, .f32⟩
  | 52 => ⟨S128, .f32⟩
  | 53 => ⟨S1x128, .f32⟩
  | 54 => ⟨S32768x128, .f32⟩
  | 55 => ⟨S32768x128, .f32⟩
  | 56 => ⟨S32768x128, .f32⟩
  | 57 => ⟨S1x128, .f32⟩
  | 58 => ⟨S128, .f32⟩
  | 59 => ⟨S1x128, .f32⟩
  | 60 => ⟨S128, .f32⟩
  | 61 => ⟨S_, .f32⟩
  | 62 => ⟨S32768, .f32⟩
  | 63 => ⟨S32768x1, .f32⟩
  | 64 => ⟨S_, .f32⟩
  | 65 => ⟨S32768x1, .f32⟩
  | 66 => ⟨S32768x1, .f32⟩
  | 67 => ⟨S_, .i32⟩
  | 68 => ⟨S_, .f32⟩
  | 69 => ⟨S32768, .f32⟩
  | 70 => ⟨S32768x1, .f32⟩
  | 71 => ⟨S_, .f32⟩
  | 72 => ⟨S32768x1, .f32⟩
  | 73 => ⟨S32768x1, .f32⟩
  | 74 => ⟨S32768x128, .f32⟩
  | 75 => ⟨S32768x128, .f32⟩
  | 76 => ⟨S32768x128, .f32⟩
  | 77 => ⟨S_, .f32⟩
  | 78 => ⟨S_, .f32⟩
  | 79 => ⟨S_, .f32⟩
  | 80 => ⟨S_, .f32⟩
  | 81 => ⟨S32768, .f32⟩
  | 82 => ⟨S32768x1, .f32⟩
  | 83 => ⟨S32768x1, .f32⟩
  | 84 => ⟨S32768x1, .f32⟩
  | 85 => ⟨S_, .f32⟩
  | 86 => ⟨S_, .i1⟩
  | 87 => ⟨S_, .f32⟩
  | 88 => ⟨S_, .f32⟩
  | 89 => ⟨S32768x1, .f32⟩
  | 90 => ⟨S32768x1, .f32⟩
  | 91 => ⟨S32768x128, .f32⟩
  | 92 => ⟨S32768x128, .f32⟩
  | 93 => ⟨S_, .f32⟩
  | 94 => ⟨S32768x1, .f32⟩
  | 95 => ⟨S32768x1, .f32⟩
  | 96 => ⟨S32768x1, .f32⟩
  | 97 => ⟨S32768x128, .f32⟩
  | 98 => ⟨S32768x128, .f32⟩
  | 99 => ⟨S1x128, .f32⟩
  | 100 => ⟨S32768x128, .f32⟩
  | 101 => ⟨S32768x128, .f32⟩
  | 102 => ⟨S1x128, .f32⟩
  | 103 => ⟨S32768x128, .f32⟩
  | 104 => ⟨S32768x128, .f32⟩
  | 105 => ⟨S1x128x128, .f32⟩
  | 106 => ⟨S128x128, .f32⟩
  | 107 => ⟨S32768x128, .f32⟩
  | 108 => ⟨S32768x4x32, .f32⟩
  | 109 => ⟨S1x128x128, .f32⟩
  | 110 => ⟨S128x128, .f32⟩
  | 111 => ⟨S32768x128, .f32⟩
  | 112 => ⟨S32768x4x32, .f32⟩
  | 113 => ⟨S1x128x128, .f32⟩
  | 114 => ⟨S128x128, .f32⟩
  | 115 => ⟨S32768x128, .f32⟩
  | 116 => ⟨S32768x4x32, .f32⟩
  | 117 => ⟨S1x128x128, .f32⟩
  | 118 => ⟨S128x128, .f32⟩
  | 119 => ⟨S524288x128, .f32⟩
  | 120 => ⟨S524288x4x32, .f32⟩
  | 121 => ⟨S_, .i32⟩
  | 122 => ⟨S524288, .i32⟩
  | 123 => ⟨S524288, .i1⟩
  | 124 => ⟨S_, .i32⟩
  | 125 => ⟨S524288, .i32⟩
  | 126 => ⟨S524288, .i32⟩
  | 127 => ⟨S524288, .i32⟩
  | _ => ⟨S32768x44, .f32⟩

abbrev hbmTy0_2 (i : Nat) : BufTy := match i % 128 with
  | 0 => ⟨S524288x1, .i32⟩
  | 1 => ⟨S524288x4x32, .f32⟩
  | 2 => ⟨S_, .i32⟩
  | 3 => ⟨S524288, .i32⟩
  | 4 => ⟨S524288, .i1⟩
  | 5 => ⟨S_, .i32⟩
  | 6 => ⟨S524288, .i32⟩
  | 7 => ⟨S524288, .i32⟩
  | 8 => ⟨S524288, .i32⟩
  | 9 => ⟨S524288x1, .i32⟩
  | 10 => ⟨S524288x4x32, .f32⟩
  | 11 => ⟨S524288x4x32, .f32⟩
  | 12 => ⟨S_, .f32⟩
  | 13 => ⟨S524288x4, .f32⟩
  | 14 => ⟨S524288x4x1, .f32⟩
  | 15 => ⟨S_, .f32⟩
  | 16 => ⟨S524288x4x1, .f32⟩
  | 17 => ⟨S524288x4x1, .f32⟩
  | 18 => ⟨S_, .f32⟩
  | 19 => ⟨S524288x4x32, .f32⟩
  | 20 => ⟨S524288x4x32, .f32⟩
  | 21 => ⟨S524288x4x32, .f32⟩
  | 22 => ⟨S524288x4x32, .f32⟩
  | 23 => ⟨S524288x4x32, .f32⟩
  | 24 => ⟨S_, .f32⟩
  | 25 => ⟨S32768x4x32, .f32⟩
  | 26 => ⟨S524288x1, .i32⟩
  | 27 => ⟨S32768x4x32, .f32⟩
  | 28 => ⟨S_, .f32⟩
  | 29 => ⟨S32768x4x32, .f32⟩
  | 30 => ⟨S32768x4x32, .f32⟩
  | 31 => ⟨S_, .i32⟩
  | 32 => ⟨S524288, .i32⟩
  | 33 => ⟨S524288, .i1⟩
  | 34 => ⟨S_, .i32⟩
  | 35 => ⟨S524288, .i32⟩
  | 36 => ⟨S524288, .i32⟩
  | 37 => ⟨S524288, .i32⟩
  | 38 => ⟨S524288x1, .i32⟩
  | 39 => ⟨S524288x4x32, .f32⟩
  | 40 => ⟨S524288x4x32, .f32⟩
  | 41 => ⟨S_, .f32⟩
  | 42 => ⟨S32768x4x32, .f32⟩
  | 43 => ⟨S524288x1, .i32⟩
  | 44 => ⟨S32768x4x32, .f32⟩
  | 45 => ⟨S32768x4x32, .f32⟩
  | 46 => ⟨S32768x128, .f32⟩
  | 47 => ⟨S1x128x128, .f32⟩
  | 48 => ⟨S128x128, .f32⟩
  | 49 => ⟨S32768x128, .f32⟩
  | 50 => ⟨S32768x128, .f32⟩
  | 51 => ⟨S1x128, .f32⟩
  | 52 => ⟨S128, .f32⟩
  | 53 => ⟨S1x128, .f32⟩
  | 54 => ⟨S32768x128, .f32⟩
  | 55 => ⟨S32768x128, .f32⟩
  | 56 => ⟨S1x128, .f32⟩
  | 57 => ⟨S128, .f32⟩
  | 58 => ⟨S1x128, .f32⟩
  | 59 => ⟨S128, .f32⟩
  | 60 => ⟨S_, .f32⟩
  | 61 => ⟨S32768, .f32⟩
  | 62 => ⟨S32768x1, .f32⟩
  | 63 => ⟨S_, .f32⟩
  | 64 => ⟨S32768x1, .f32⟩
  | 65 => ⟨S32768x1, .f32⟩
  | 66 => ⟨S_, .i32⟩
  | 67 => ⟨S_, .f32⟩
  | 68 => ⟨S32768, .f32⟩
  | 69 => ⟨S32768x1, .f32⟩
  | 70 => ⟨S_, .f32⟩
  | 71 => ⟨S32768x1, .f32⟩
  | 72 => ⟨S32768x1, .f32⟩
  | 73 => ⟨S32768x128, .f32⟩
  | 74 => ⟨S32768x128, .f32⟩
  | 75 => ⟨S32768x128, .f32⟩
  | 76 => ⟨S_, .f32⟩
  | 77 => ⟨S_, .f32⟩
  | 78 => ⟨S_, .f32⟩
  | 79 => ⟨S_, .f32⟩
  | 80 => ⟨S32768, .f32⟩
  | 81 => ⟨S32768x1, .f32⟩
  | 82 => ⟨S32768x1, .f32⟩
  | 83 => ⟨S32768x1, .f32⟩
  | 84 => ⟨S_, .f32⟩
  | 85 => ⟨S_, .i1⟩
  | 86 => ⟨S_, .f32⟩
  | 87 => ⟨S_, .f32⟩
  | 88 => ⟨S32768x1, .f32⟩
  | 89 => ⟨S32768x1, .f32⟩
  | 90 => ⟨S32768x128, .f32⟩
  | 91 => ⟨S32768x128, .f32⟩
  | 92 => ⟨S_, .f32⟩
  | 93 => ⟨S32768x1, .f32⟩
  | 94 => ⟨S32768x1, .f32⟩
  | 95 => ⟨S32768x1, .f32⟩
  | 96 => ⟨S32768x128, .f32⟩
  | 97 => ⟨S32768x128, .f32⟩
  | 98 => ⟨S1x128, .f32⟩
  | 99 => ⟨S32768x128, .f32⟩
  | 100 => ⟨S32768x128, .f32⟩
  | 101 => ⟨S1x128, .f32⟩
  | 102 => ⟨S32768x128, .f32⟩
  | 103 => ⟨S32768x128, .f32⟩
  | 104 => ⟨S1x128x256, .f32⟩
  | 105 => ⟨S128x256, .f32⟩
  | 106 => ⟨S32768x256, .f32⟩
  | 107 => ⟨S1x256, .f32⟩
  | 108 => ⟨S256, .f32⟩
  | 109 => ⟨S1x256, .f32⟩
  | 110 => ⟨S32768x256, .f32⟩
  | 111 => ⟨S32768x256, .f32⟩
  | 112 => ⟨S_, .f32⟩
  | 113 => ⟨S32768x256, .f32⟩
  | 114 => ⟨S32768x256, .f32⟩
  | 115 => ⟨S1x256x128, .f32⟩
  | 116 => ⟨S256x128, .f32⟩
  | 117 => ⟨S32768x128, .f32⟩
  | 118 => ⟨S1x128, .f32⟩
  | 119 => ⟨S128, .f32⟩
  | 120 => ⟨S1x128, .f32⟩
  | 121 => ⟨S32768x128, .f32⟩
  | 122 => ⟨S32768x128, .f32⟩
  | 123 => ⟨S32768x128, .f32⟩
  | 124 => ⟨S1x128, .f32⟩
  | 125 => ⟨S128, .f32⟩
  | 126 => ⟨S1x128, .f32⟩
  | 127 => ⟨S128, .f32⟩
  | _ => ⟨S32768x44, .f32⟩

abbrev hbmTy0_3 (i : Nat) : BufTy := match i % 128 with
  | 0 => ⟨S_, .f32⟩
  | 1 => ⟨S32768, .f32⟩
  | 2 => ⟨S32768x1, .f32⟩
  | 3 => ⟨S_, .f32⟩
  | 4 => ⟨S32768x1, .f32⟩
  | 5 => ⟨S32768x1, .f32⟩
  | 6 => ⟨S_, .i32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S32768x128, .f32⟩
  | 14 => ⟨S32768x128, .f32⟩
  | 15 => ⟨S32768x128, .f32⟩
  | 16 => ⟨S_, .f32⟩
  | 17 => ⟨S_, .f32⟩
  | 18 => ⟨S_, .f32⟩
  | 19 => ⟨S_, .f32⟩
  | 20 => ⟨S32768, .f32⟩
  | 21 => ⟨S32768x1, .f32⟩
  | 22 => ⟨S32768x1, .f32⟩
  | 23 => ⟨S32768x1, .f32⟩
  | 24 => ⟨S_, .f32⟩
  | 25 => ⟨S_, .i1⟩
  | 26 => ⟨S_, .f32⟩
  | 27 => ⟨S_, .f32⟩
  | 28 => ⟨S32768x1, .f32⟩
  | 29 => ⟨S32768x1, .f32⟩
  | 30 => ⟨S32768x128, .f32⟩
  | 31 => ⟨S32768x128, .f32⟩
  | 32 => ⟨S_, .f32⟩
  | 33 => ⟨S32768x1, .f32⟩
  | 34 => ⟨S32768x1, .f32⟩
  | 35 => ⟨S32768x1, .f32⟩
  | 36 => ⟨S32768x128, .f32⟩
  | 37 => ⟨S32768x128, .f32⟩
  | 38 => ⟨S1x128, .f32⟩
  | 39 => ⟨S32768x128, .f32⟩
  | 40 => ⟨S32768x128, .f32⟩
  | 41 => ⟨S1x128, .f32⟩
  | 42 => ⟨S32768x128, .f32⟩
  | 43 => ⟨S32768x128, .f32⟩
  | 44 => ⟨S1x128x128, .f32⟩
  | 45 => ⟨S128x128, .f32⟩
  | 46 => ⟨S32768x128, .f32⟩
  | 47 => ⟨S32768x4x32, .f32⟩
  | 48 => ⟨S1x128x128, .f32⟩
  | 49 => ⟨S128x128, .f32⟩
  | 50 => ⟨S32768x128, .f32⟩
  | 51 => ⟨S32768x4x32, .f32⟩
  | 52 => ⟨S1x128x128, .f32⟩
  | 53 => ⟨S128x128, .f32⟩
  | 54 => ⟨S32768x128, .f32⟩
  | 55 => ⟨S32768x4x32, .f32⟩
  | 56 => ⟨S1x128x128, .f32⟩
  | 57 => ⟨S128x128, .f32⟩
  | 58 => ⟨S524288x128, .f32⟩
  | 59 => ⟨S524288x4x32, .f32⟩
  | 60 => ⟨S_, .i32⟩
  | 61 => ⟨S524288, .i32⟩
  | 62 => ⟨S524288, .i1⟩
  | 63 => ⟨S_, .i32⟩
  | 64 => ⟨S524288, .i32⟩
  | 65 => ⟨S524288, .i32⟩
  | 66 => ⟨S524288, .i32⟩
  | 67 => ⟨S524288x1, .i32⟩
  | 68 => ⟨S524288x4x32, .f32⟩
  | 69 => ⟨S_, .i32⟩
  | 70 => ⟨S524288, .i32⟩
  | 71 => ⟨S524288, .i1⟩
  | 72 => ⟨S_, .i32⟩
  | 73 => ⟨S524288, .i32⟩
  | 74 => ⟨S524288, .i32⟩
  | 75 => ⟨S524288, .i32⟩
  | 76 => ⟨S524288x1, .i32⟩
  | 77 => ⟨S524288x4x32, .f32⟩
  | 78 => ⟨S524288x4x32, .f32⟩
  | 79 => ⟨S_, .f32⟩
  | 80 => ⟨S524288x4, .f32⟩
  | 81 => ⟨S524288x4x1, .f32⟩
  | 82 => ⟨S_, .f32⟩
  | 83 => ⟨S524288x4x1, .f32⟩
  | 84 => ⟨S524288x4x1, .f32⟩
  | 85 => ⟨S_, .f32⟩
  | 86 => ⟨S524288x4x32, .f32⟩
  | 87 => ⟨S524288x4x32, .f32⟩
  | 88 => ⟨S524288x4x32, .f32⟩
  | 89 => ⟨S524288x4x32, .f32⟩
  | 90 => ⟨S524288x4x32, .f32⟩
  | 91 => ⟨S_, .f32⟩
  | 92 => ⟨S32768x4x32, .f32⟩
  | 93 => ⟨S524288x1, .i32⟩
  | 94 => ⟨S32768x4x32, .f32⟩
  | 95 => ⟨S_, .f32⟩
  | 96 => ⟨S32768x4x32, .f32⟩
  | 97 => ⟨S32768x4x32, .f32⟩
  | 98 => ⟨S_, .i32⟩
  | 99 => ⟨S524288, .i32⟩
  | 100 => ⟨S524288, .i1⟩
  | 101 => ⟨S_, .i32⟩
  | 102 => ⟨S524288, .i32⟩
  | 103 => ⟨S524288, .i32⟩
  | 104 => ⟨S524288, .i32⟩
  | 105 => ⟨S524288x1, .i32⟩
  | 106 => ⟨S524288x4x32, .f32⟩
  | 107 => ⟨S524288x4x32, .f32⟩
  | 108 => ⟨S_, .f32⟩
  | 109 => ⟨S32768x4x32, .f32⟩
  | 110 => ⟨S524288x1, .i32⟩
  | 111 => ⟨S32768x4x32, .f32⟩
  | 112 => ⟨S32768x4x32, .f32⟩
  | 113 => ⟨S32768x128, .f32⟩
  | 114 => ⟨S1x128x128, .f32⟩
  | 115 => ⟨S128x128, .f32⟩
  | 116 => ⟨S32768x128, .f32⟩
  | 117 => ⟨S32768x128, .f32⟩
  | 118 => ⟨S1x128, .f32⟩
  | 119 => ⟨S128, .f32⟩
  | 120 => ⟨S1x128, .f32⟩
  | 121 => ⟨S32768x128, .f32⟩
  | 122 => ⟨S32768x128, .f32⟩
  | 123 => ⟨S1x128, .f32⟩
  | 124 => ⟨S128, .f32⟩
  | 125 => ⟨S1x128, .f32⟩
  | 126 => ⟨S128, .f32⟩
  | 127 => ⟨S_, .f32⟩
  | _ => ⟨S32768x44, .f32⟩

abbrev hbmTy0_4 (i : Nat) : BufTy := match i % 128 with
  | 0 => ⟨S32768, .f32⟩
  | 1 => ⟨S32768x1, .f32⟩
  | 2 => ⟨S_, .f32⟩
  | 3 => ⟨S32768x1, .f32⟩
  | 4 => ⟨S32768x1, .f32⟩
  | 5 => ⟨S_, .i32⟩
  | 6 => ⟨S_, .f32⟩
  | 7 => ⟨S32768, .f32⟩
  | 8 => ⟨S32768x1, .f32⟩
  | 9 => ⟨S_, .f32⟩
  | 10 => ⟨S32768x1, .f32⟩
  | 11 => ⟨S32768x1, .f32⟩
  | 12 => ⟨S32768x128, .f32⟩
  | 13 => ⟨S32768x128, .f32⟩
  | 14 => ⟨S32768x128, .f32⟩
  | 15 => ⟨S_, .f32⟩
  | 16 => ⟨S_, .f32⟩
  | 17 => ⟨S_, .f32⟩
  | 18 => ⟨S_, .f32⟩
  | 19 => ⟨S32768, .f32⟩
  | 20 => ⟨S32768x1, .f32⟩
  | 21 => ⟨S32768x1, .f32⟩
  | 22 => ⟨S32768x1, .f32⟩
  | 23 => ⟨S_, .f32⟩
  | 24 => ⟨S_, .i1⟩
  | 25 => ⟨S_, .f32⟩
  | 26 => ⟨S_, .f32⟩
  | 27 => ⟨S32768x1, .f32⟩
  | 28 => ⟨S32768x1, .f32⟩
  | 29 => ⟨S32768x128, .f32⟩
  | 30 => ⟨S32768x128, .f32⟩
  | 31 => ⟨S_, .f32⟩
  | 32 => ⟨S32768x1, .f32⟩
  | 33 => ⟨S32768x1, .f32⟩
  | 34 => ⟨S32768x1, .f32⟩
  | 35 => ⟨S32768x128, .f32⟩
  | 36 => ⟨S32768x128, .f32⟩
  | 37 => ⟨S1x128, .f32⟩
  | 38 => ⟨S32768x128, .f32⟩
  | 39 => ⟨S32768x128, .f32⟩
  | 40 => ⟨S1x128, .f32⟩
  | 41 => ⟨S32768x128, .f32⟩
  | 42 => ⟨S32768x128, .f32⟩
  | 43 => ⟨S1x128x256, .f32⟩
  | 44 => ⟨S128x256, .f32⟩
  | 45 => ⟨S32768x256, .f32⟩
  | 46 => ⟨S1x256, .f32⟩
  | 47 => ⟨S256, .f32⟩
  | 48 => ⟨S1x256, .f32⟩
  | 49 => ⟨S32768x256, .f32⟩
  | 50 => ⟨S32768x256, .f32⟩
  | 51 => ⟨S_, .f32⟩
  | 52 => ⟨S32768x256, .f32⟩
  | 53 => ⟨S32768x256, .f32⟩
  | 54 => ⟨S1x256x128, .f32⟩
  | 55 => ⟨S256x128, .f32⟩
  | 56 => ⟨S32768x128, .f32⟩
  | 57 => ⟨S1x128, .f32⟩
  | 58 => ⟨S128, .f32⟩
  | 59 => ⟨S1x128, .f32⟩
  | 60 => ⟨S32768x128, .f32⟩
  | 61 => ⟨S32768x128, .f32⟩
  | 62 => ⟨S32768x128, .f32⟩
  | 63 => ⟨S1x128, .f32⟩
  | 64 => ⟨S128, .f32⟩
  | 65 => ⟨S1x128, .f32⟩
  | 66 => ⟨S128, .f32⟩
  | 67 => ⟨S_, .f32⟩
  | 68 => ⟨S32768, .f32⟩
  | 69 => ⟨S32768x1, .f32⟩
  | 70 => ⟨S_, .f32⟩
  | 71 => ⟨S32768x1, .f32⟩
  | 72 => ⟨S32768x1, .f32⟩
  | 73 => ⟨S_, .i32⟩
  | 74 => ⟨S_, .f32⟩
  | 75 => ⟨S32768, .f32⟩
  | 76 => ⟨S32768x1, .f32⟩
  | 77 => ⟨S_, .f32⟩
  | 78 => ⟨S32768x1, .f32⟩
  | 79 => ⟨S32768x1, .f32⟩
  | 80 => ⟨S32768x128, .f32⟩
  | 81 => ⟨S32768x128, .f32⟩
  | 82 => ⟨S32768x128, .f32⟩
  | 83 => ⟨S_, .f32⟩
  | 84 => ⟨S_, .f32⟩
  | 85 => ⟨S_, .f32⟩
  | 86 => ⟨S_, .f32⟩
  | 87 => ⟨S32768, .f32⟩
  | 88 => ⟨S32768x1, .f32⟩
  | 89 => ⟨S32768x1, .f32⟩
  | 90 => ⟨S32768x1, .f32⟩
  | 91 => ⟨S_, .f32⟩
  | 92 => ⟨S_, .i1⟩
  | 93 => ⟨S_, .f32⟩
  | 94 => ⟨S_, .f32⟩
  | 95 => ⟨S32768x1, .f32⟩
  | 96 => ⟨S32768x1, .f32⟩
  | 97 => ⟨S32768x128, .f32⟩
  | 98 => ⟨S32768x128, .f32⟩
  | 99 => ⟨S_, .f32⟩
  | 100 => ⟨S32768x1, .f32⟩
  | 101 => ⟨S32768x1, .f32⟩
  | 102 => ⟨S32768x1, .f32⟩
  | 103 => ⟨S32768x128, .f32⟩
  | 104 => ⟨S32768x128, .f32⟩
  | 105 => ⟨S1x128, .f32⟩
  | 106 => ⟨S32768x128, .f32⟩
  | 107 => ⟨S32768x128, .f32⟩
  | 108 => ⟨S1x128, .f32⟩
  | 109 => ⟨S32768x128, .f32⟩
  | 110 => ⟨S32768x128, .f32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | _ => ⟨S32768x44, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32768x44, .f32⟩

abbrev bufTy : (tb : Table) → Fin (tcTables nBuf tb) → BufTy
  | .hbm, ⟨i, _⟩ => hbmTy i
  | _, _ => ⟨S32768x44, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c : Ref sig .tc := ⟨.hbm, 54, rfl⟩
abbrev main_v29 : Ref sig .tc := ⟨.hbm, 55, rfl⟩
abbrev main_v30 : Ref sig .tc := ⟨.hbm, 56, rfl⟩
abbrev main_c_0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_1 : Ref sig .tc := ⟨.hbm, 63, rfl⟩
abbrev main_v36 : Ref sig .tc := ⟨.hbm, 64, rfl⟩
abbrev main_v37 : Ref sig .tc := ⟨.hbm, 65, rfl⟩
abbrev main_c_2 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst : Ref sig .tc := ⟨.hbm, 73, rfl⟩
abbrev main_v44 : Ref sig .tc := ⟨.hbm, 74, rfl⟩
abbrev main_v45 : Ref sig .tc := ⟨.hbm, 75, rfl⟩
abbrev main_cst_3 : Ref sig .tc := ⟨.hbm, 76, rfl⟩
abbrev main_v46 : Ref sig .tc := ⟨.hbm, 77, rfl⟩
abbrev main_v47 : Ref sig .tc := ⟨.hbm, 78, rfl⟩
abbrev main_cst_4 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_5 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_6 : Ref sig .tc := ⟨.hbm, 89, rfl⟩
abbrev main_v56 : Ref sig .tc := ⟨.hbm, 90, rfl⟩
abbrev main_v57 : Ref sig .tc := ⟨.hbm, 91, rfl⟩
abbrev main_c_7 : Ref sig .tc := ⟨.hbm, 92, rfl⟩
abbrev main_v58 : Ref sig .tc := ⟨.hbm, 93, rfl⟩
abbrev main_v59 : Ref sig .tc := ⟨.hbm, 94, rfl⟩
abbrev main_c_8 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_9 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_10 : Ref sig .tc := ⟨.hbm, 121, rfl⟩
abbrev main_v84 : Ref sig .tc := ⟨.hbm, 122, rfl⟩
abbrev main_v85 : Ref sig .tc := ⟨.hbm, 123, rfl⟩
abbrev main_cst_11 : Ref sig .tc := ⟨.hbm, 124, rfl⟩
abbrev main_v86 : Ref sig .tc := ⟨.hbm, 125, rfl⟩
abbrev main_v87 : Ref sig .tc := ⟨.hbm, 126, rfl⟩
abbrev main_c_12 : Ref sig .tc := ⟨.hbm, 127, rfl⟩
abbrev main_call0_cst : Ref sig .tc := ⟨.hbm, 128, rfl⟩
abbrev main_call0_v0 : Ref sig .tc := ⟨.hbm, 129, rfl⟩
abbrev main_call0_v1 : Ref sig .tc := ⟨.hbm, 130, rfl⟩
abbrev main_call0_cst_0 : Ref sig .tc := ⟨.hbm, 131, rfl⟩
abbrev main_call0_v2 : Ref sig .tc := ⟨.hbm, 132, rfl⟩
abbrev main_call0_v3 : Ref sig .tc := ⟨.hbm, 133, rfl⟩
abbrev main_call0_v4 : Ref sig .tc := ⟨.hbm, 134, rfl⟩
abbrev main_call0_v5 : Ref sig .tc := ⟨.hbm, 135, rfl⟩
abbrev main_call0_v6 : Ref sig .tc := ⟨.hbm, 136, rfl⟩
abbrev main_call0_v7 : Ref sig .tc := ⟨.hbm, 137, rfl⟩
abbrev main_call0_cst_1 : Ref sig .tc := ⟨.hbm, 138, rfl⟩
abbrev main_call0_v8 : Ref sig .tc := ⟨.hbm, 139, rfl⟩
abbrev main_call0_cst_2 : Ref sig .tc := ⟨.hbm, 140, rfl⟩
abbrev main_call0_v9 : Ref sig .tc := ⟨.hbm, 141, rfl⟩
abbrev main_call0_v10 : Ref sig .tc := ⟨.hbm, 142, rfl⟩
abbrev main_call0_v11 : Ref sig .tc := ⟨.hbm, 143, rfl⟩
abbrev main_call0_v12 : Ref sig .tc := ⟨.hbm, 144, rfl⟩
abbrev main_call0_cst_3 : Ref sig .tc := ⟨.hbm, 145, rfl⟩
abbrev main_call0_v13 : Ref sig .tc := ⟨.hbm, 146, rfl⟩
abbrev main_call0_cst_4 : Ref sig .tc := ⟨.hbm, 147, rfl⟩
abbrev main_call0_call0_v0 : Ref sig .tc := ⟨.hbm, 148, rfl⟩
abbrev main_call0_call0_v1 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_13 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_call1_cst : Ref sig .tc := ⟨.hbm, 173, rfl⟩
abbrev main_call1_v0 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_cst_14 : Ref sig .tc := ⟨.hbm, 189, rfl⟩
abbrev main_v124 : Ref sig .tc := ⟨.hbm, 190, rfl⟩
abbrev main_v125 : Ref sig .tc := ⟨.hbm, 191, rfl⟩
abbrev main_cst_15 : Ref sig .tc := ⟨.hbm, 192, rfl⟩
abbrev main_v126 : Ref sig .tc := ⟨.hbm, 193, rfl⟩
abbrev main_v127 : Ref sig .tc := ⟨.hbm, 194, rfl⟩
abbrev main_c_16 : Ref sig .tc := ⟨.hbm, 195, rfl⟩
abbrev main_call2_cst : Ref sig .tc := ⟨.hbm, 196, rfl⟩
abbrev main_call2_v0 : Ref sig .tc := ⟨.hbm, 197, rfl⟩
abbrev main_call2_v1 : Ref sig .tc := ⟨.hbm, 198, rfl⟩
abbrev main_call2_cst_0 : Ref sig .tc := ⟨.hbm, 199, rfl⟩
abbrev main_call2_v2 : Ref sig .tc := ⟨.hbm, 200, rfl⟩
abbrev main_call2_v3 : Ref sig .tc := ⟨.hbm, 201, rfl⟩
abbrev main_call2_v4 : Ref sig .tc := ⟨.hbm, 202, rfl⟩
abbrev main_call2_v5 : Ref sig .tc := ⟨.hbm, 203, rfl⟩
abbrev main_call2_v6 : Ref sig .tc := ⟨.hbm, 204, rfl⟩
abbrev main_call2_v7 : Ref sig .tc := ⟨.hbm, 205, rfl⟩
abbrev main_call2_cst_1 : Ref sig .tc := ⟨.hbm, 206, rfl⟩
abbrev main_call2_v8 : Ref sig .tc := ⟨.hbm, 207, rfl⟩
abbrev main_call2_cst_2 : Ref sig .tc := ⟨.hbm, 208, rfl⟩
abbrev main_call2_v9 : Ref sig .tc := ⟨.hbm, 209, rfl⟩
abbrev main_call2_v10 : Ref sig .tc := ⟨.hbm, 210, rfl⟩
abbrev main_call2_v11 : Ref sig .tc := ⟨.hbm, 211, rfl⟩
abbrev main_call2_v12 : Ref sig .tc := ⟨.hbm, 212, rfl⟩
abbrev main_call2_cst_3 : Ref sig .tc := ⟨.hbm, 213, rfl⟩
abbrev main_call2_v13 : Ref sig .tc := ⟨.hbm, 214, rfl⟩
abbrev main_call2_cst_4 : Ref sig .tc := ⟨.hbm, 215, rfl⟩
abbrev main_call2_call0_v0 : Ref sig .tc := ⟨.hbm, 216, rfl⟩
abbrev main_call2_call0_v1 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_cst_17 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_c_18 : Ref sig .tc := ⟨.hbm, 249, rfl⟩
abbrev main_v158 : Ref sig .tc := ⟨.hbm, 250, rfl⟩
abbrev main_v159 : Ref sig .tc := ⟨.hbm, 251, rfl⟩
abbrev main_c_19 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_c_20 : Ref sig .tc := ⟨.hbm, 258, rfl⟩
abbrev main_v165 : Ref sig .tc := ⟨.hbm, 259, rfl⟩
abbrev main_v166 : Ref sig .tc := ⟨.hbm, 260, rfl⟩
abbrev main_c_21 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_cst_22 : Ref sig .tc := ⟨.hbm, 268, rfl⟩
abbrev main_v173 : Ref sig .tc := ⟨.hbm, 269, rfl⟩
abbrev main_v174 : Ref sig .tc := ⟨.hbm, 270, rfl⟩
abbrev main_cst_23 : Ref sig .tc := ⟨.hbm, 271, rfl⟩
abbrev main_v175 : Ref sig .tc := ⟨.hbm, 272, rfl⟩
abbrev main_v176 : Ref sig .tc := ⟨.hbm, 273, rfl⟩
abbrev main_cst_24 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_cst_25 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_cst_26 : Ref sig .tc := ⟨.hbm, 284, rfl⟩
abbrev main_v185 : Ref sig .tc := ⟨.hbm, 285, rfl⟩
abbrev main_v186 : Ref sig .tc := ⟨.hbm, 286, rfl⟩
abbrev main_c_27 : Ref sig .tc := ⟨.hbm, 287, rfl⟩
abbrev main_v187 : Ref sig .tc := ⟨.hbm, 288, rfl⟩
abbrev main_v188 : Ref sig .tc := ⟨.hbm, 289, rfl⟩
abbrev main_c_28 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_cst_29 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_cst_30 : Ref sig .tc := ⟨.hbm, 316, rfl⟩
abbrev main_v213 : Ref sig .tc := ⟨.hbm, 317, rfl⟩
abbrev main_v214 : Ref sig .tc := ⟨.hbm, 318, rfl⟩
abbrev main_cst_31 : Ref sig .tc := ⟨.hbm, 319, rfl⟩
abbrev main_v215 : Ref sig .tc := ⟨.hbm, 320, rfl⟩
abbrev main_v216 : Ref sig .tc := ⟨.hbm, 321, rfl⟩
abbrev main_c_32 : Ref sig .tc := ⟨.hbm, 322, rfl⟩
abbrev main_call3_cst : Ref sig .tc := ⟨.hbm, 323, rfl⟩
abbrev main_call3_v0 : Ref sig .tc := ⟨.hbm, 324, rfl⟩
abbrev main_call3_v1 : Ref sig .tc := ⟨.hbm, 325, rfl⟩
abbrev main_call3_cst_0 : Ref sig .tc := ⟨.hbm, 326, rfl⟩
abbrev main_call3_v2 : Ref sig .tc := ⟨.hbm, 327, rfl⟩
abbrev main_call3_v3 : Ref sig .tc := ⟨.hbm, 328, rfl⟩
abbrev main_call3_v4 : Ref sig .tc := ⟨.hbm, 329, rfl⟩
abbrev main_call3_v5 : Ref sig .tc := ⟨.hbm, 330, rfl⟩
abbrev main_call3_v6 : Ref sig .tc := ⟨.hbm, 331, rfl⟩
abbrev main_call3_v7 : Ref sig .tc := ⟨.hbm, 332, rfl⟩
abbrev main_call3_cst_1 : Ref sig .tc := ⟨.hbm, 333, rfl⟩
abbrev main_call3_v8 : Ref sig .tc := ⟨.hbm, 334, rfl⟩
abbrev main_call3_cst_2 : Ref sig .tc := ⟨.hbm, 335, rfl⟩
abbrev main_call3_v9 : Ref sig .tc := ⟨.hbm, 336, rfl⟩
abbrev main_call3_v10 : Ref sig .tc := ⟨.hbm, 337, rfl⟩
abbrev main_call3_v11 : Ref sig .tc := ⟨.hbm, 338, rfl⟩
abbrev main_call3_v12 : Ref sig .tc := ⟨.hbm, 339, rfl⟩
abbrev main_call3_cst_3 : Ref sig .tc := ⟨.hbm, 340, rfl⟩
abbrev main_call3_v13 : Ref sig .tc := ⟨.hbm, 341, rfl⟩
abbrev main_call3_cst_4 : Ref sig .tc := ⟨.hbm, 342, rfl⟩
abbrev main_call3_call0_v0 : Ref sig .tc := ⟨.hbm, 343, rfl⟩
abbrev main_call3_call0_v1 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_cst_33 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_v223 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_v228 : Ref sig .tc := ⟨.hbm, 357, rfl⟩
abbrev main_v229 : Ref sig .tc := ⟨.hbm, 358, rfl⟩
abbrev main_v230 : Ref sig .tc := ⟨.hbm, 359, rfl⟩
abbrev main_v231 : Ref sig .tc := ⟨.hbm, 360, rfl⟩
abbrev main_v232 : Ref sig .tc := ⟨.hbm, 361, rfl⟩
abbrev main_v233 : Ref sig .tc := ⟨.hbm, 362, rfl⟩
abbrev main_v234 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_v238 : Ref sig .tc := ⟨.hbm, 367, rfl⟩
abbrev main_call4_cst : Ref sig .tc := ⟨.hbm, 368, rfl⟩
abbrev main_call4_v0 : Ref sig .tc := ⟨.hbm, 369, rfl⟩
abbrev main_v239 : Ref sig .tc := ⟨.hbm, 370, rfl⟩
abbrev main_v240 : Ref sig .tc := ⟨.hbm, 371, rfl⟩
abbrev main_v241 : Ref sig .tc := ⟨.hbm, 372, rfl⟩
abbrev main_v242 : Ref sig .tc := ⟨.hbm, 373, rfl⟩
abbrev main_v243 : Ref sig .tc := ⟨.hbm, 374, rfl⟩
abbrev main_v244 : Ref sig .tc := ⟨.hbm, 375, rfl⟩
abbrev main_v245 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_v249 : Ref sig .tc := ⟨.hbm, 380, rfl⟩
abbrev main_v250 : Ref sig .tc := ⟨.hbm, 381, rfl⟩
abbrev main_v251 : Ref sig .tc := ⟨.hbm, 382, rfl⟩
abbrev main_v252 : Ref sig .tc := ⟨.hbm, 383, rfl⟩
abbrev main_cst_34 : Ref sig .tc := ⟨.hbm, 384, rfl⟩
abbrev main_v253 : Ref sig .tc := ⟨.hbm, 385, rfl⟩
abbrev main_v254 : Ref sig .tc := ⟨.hbm, 386, rfl⟩
abbrev main_cst_35 : Ref sig .tc := ⟨.hbm, 387, rfl⟩
abbrev main_v255 : Ref sig .tc := ⟨.hbm, 388, rfl⟩
abbrev main_v256 : Ref sig .tc := ⟨.hbm, 389, rfl⟩
abbrev main_c_36 : Ref sig .tc := ⟨.hbm, 390, rfl⟩
abbrev main_call5_cst : Ref sig .tc := ⟨.hbm, 391, rfl⟩
abbrev main_call5_v0 : Ref sig .tc := ⟨.hbm, 392, rfl⟩
abbrev main_call5_v1 : Ref sig .tc := ⟨.hbm, 393, rfl⟩
abbrev main_call5_cst_0 : Ref sig .tc := ⟨.hbm, 394, rfl⟩
abbrev main_call5_v2 : Ref sig .tc := ⟨.hbm, 395, rfl⟩
abbrev main_call5_v3 : Ref sig .tc := ⟨.hbm, 396, rfl⟩
abbrev main_call5_v4 : Ref sig .tc := ⟨.hbm, 397, rfl⟩
abbrev main_call5_v5 : Ref sig .tc := ⟨.hbm, 398, rfl⟩
abbrev main_call5_v6 : Ref sig .tc := ⟨.hbm, 399, rfl⟩
abbrev main_call5_v7 : Ref sig .tc := ⟨.hbm, 400, rfl⟩
abbrev main_call5_cst_1 : Ref sig .tc := ⟨.hbm, 401, rfl⟩
abbrev main_call5_v8 : Ref sig .tc := ⟨.hbm, 402, rfl⟩
abbrev main_call5_cst_2 : Ref sig .tc := ⟨.hbm, 403, rfl⟩
abbrev main_call5_v9 : Ref sig .tc := ⟨.hbm, 404, rfl⟩
abbrev main_call5_v10 : Ref sig .tc := ⟨.hbm, 405, rfl⟩
abbrev main_call5_v11 : Ref sig .tc := ⟨.hbm, 406, rfl⟩
abbrev main_call5_v12 : Ref sig .tc := ⟨.hbm, 407, rfl⟩
abbrev main_call5_cst_3 : Ref sig .tc := ⟨.hbm, 408, rfl⟩
abbrev main_call5_v13 : Ref sig .tc := ⟨.hbm, 409, rfl⟩
abbrev main_call5_cst_4 : Ref sig .tc := ⟨.hbm, 410, rfl⟩
abbrev main_call5_call0_v0 : Ref sig .tc := ⟨.hbm, 411, rfl⟩
abbrev main_call5_call0_v1 : Ref sig .tc := ⟨.hbm, 412, rfl⟩
abbrev main_v257 : Ref sig .tc := ⟨.hbm, 413, rfl⟩
abbrev main_v258 : Ref sig .tc := ⟨.hbm, 414, rfl⟩
abbrev main_v259 : Ref sig .tc := ⟨.hbm, 415, rfl⟩
abbrev main_cst_37 : Ref sig .tc := ⟨.hbm, 416, rfl⟩
abbrev main_v260 : Ref sig .tc := ⟨.hbm, 417, rfl⟩
abbrev main_v261 : Ref sig .tc := ⟨.hbm, 418, rfl⟩
abbrev main_v262 : Ref sig .tc := ⟨.hbm, 419, rfl⟩
abbrev main_v263 : Ref sig .tc := ⟨.hbm, 420, rfl⟩
abbrev main_v264 : Ref sig .tc := ⟨.hbm, 421, rfl⟩
abbrev main_v265 : Ref sig .tc := ⟨.hbm, 422, rfl⟩
abbrev main_v266 : Ref sig .tc := ⟨.hbm, 423, rfl⟩
abbrev main_v267 : Ref sig .tc := ⟨.hbm, 424, rfl⟩
abbrev main_v268 : Ref sig .tc := ⟨.hbm, 425, rfl⟩
abbrev main_v269 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_v273 : Ref sig .tc := ⟨.hbm, 430, rfl⟩
abbrev main_v274 : Ref sig .tc := ⟨.hbm, 431, rfl⟩
abbrev main_v275 : Ref sig .tc := ⟨.hbm, 432, rfl⟩
abbrev main_v276 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_v280 : Ref sig .tc := ⟨.hbm, 437, rfl⟩
abbrev main_v281 : Ref sig .tc := ⟨.hbm, 438, rfl⟩
abbrev main_v282 : Ref sig .tc := ⟨.hbm, 439, rfl⟩
abbrev main_v283 : Ref sig .tc := ⟨.hbm, 440, rfl⟩
abbrev main_v284 : Ref sig .tc := ⟨.hbm, 441, rfl⟩
abbrev main_v285 : Ref sig .tc := ⟨.hbm, 442, rfl⟩
abbrev main_v286 : Ref sig .tc := ⟨.hbm, 443, rfl⟩
abbrev main_c_38 : Ref sig .tc := ⟨.hbm, 444, rfl⟩
abbrev main_v287 : Ref sig .tc := ⟨.hbm, 445, rfl⟩
abbrev main_v288 : Ref sig .tc := ⟨.hbm, 446, rfl⟩
abbrev main_c_39 : Ref sig .tc := ⟨.hbm, 447, rfl⟩
abbrev main_v289 : Ref sig .tc := ⟨.hbm, 448, rfl⟩
abbrev main_v290 : Ref sig .tc := ⟨.hbm, 449, rfl⟩
abbrev main_v291 : Ref sig .tc := ⟨.hbm, 450, rfl⟩
abbrev main_v292 : Ref sig .tc := ⟨.hbm, 451, rfl⟩
abbrev main_v293 : Ref sig .tc := ⟨.hbm, 452, rfl⟩
abbrev main_c_40 : Ref sig .tc := ⟨.hbm, 453, rfl⟩
abbrev main_v294 : Ref sig .tc := ⟨.hbm, 454, rfl⟩
abbrev main_v295 : Ref sig .tc := ⟨.hbm, 455, rfl⟩
abbrev main_c_41 : Ref sig .tc := ⟨.hbm, 456, rfl⟩
abbrev main_v296 : Ref sig .tc := ⟨.hbm, 457, rfl⟩
abbrev main_v297 : Ref sig .tc := ⟨.hbm, 458, rfl⟩
abbrev main_v298 : Ref sig .tc := ⟨.hbm, 459, rfl⟩
abbrev main_v299 : Ref sig .tc := ⟨.hbm, 460, rfl⟩
abbrev main_v300 : Ref sig .tc := ⟨.hbm, 461, rfl⟩
abbrev main_v301 : Ref sig .tc := ⟨.hbm, 462, rfl⟩
abbrev main_cst_42 : Ref sig .tc := ⟨.hbm, 463, rfl⟩
abbrev main_v302 : Ref sig .tc := ⟨.hbm, 464, rfl⟩
abbrev main_v303 : Ref sig .tc := ⟨.hbm, 465, rfl⟩
abbrev main_cst_43 : Ref sig .tc := ⟨.hbm, 466, rfl⟩
abbrev main_v304 : Ref sig .tc := ⟨.hbm, 467, rfl⟩
abbrev main_v305 : Ref sig .tc := ⟨.hbm, 468, rfl⟩
abbrev main_cst_44 : Ref sig .tc := ⟨.hbm, 469, rfl⟩
abbrev main_v306 : Ref sig .tc := ⟨.hbm, 470, rfl⟩
abbrev main_v307 : Ref sig .tc := ⟨.hbm, 471, rfl⟩
abbrev main_v308 : Ref sig .tc := ⟨.hbm, 472, rfl⟩
abbrev main_v309 : Ref sig .tc := ⟨.hbm, 473, rfl⟩
abbrev main_v310 : Ref sig .tc := ⟨.hbm, 474, rfl⟩
abbrev main_cst_45 : Ref sig .tc := ⟨.hbm, 475, rfl⟩
abbrev main_v311 : Ref sig .tc := ⟨.hbm, 476, rfl⟩
abbrev main_v312 : Ref sig .tc := ⟨.hbm, 477, rfl⟩
abbrev main_v313 : Ref sig .tc := ⟨.hbm, 478, rfl⟩
abbrev main_cst_46 : Ref sig .tc := ⟨.hbm, 479, rfl⟩
abbrev main_v314 : Ref sig .tc := ⟨.hbm, 480, rfl⟩
abbrev main_v315 : Ref sig .tc := ⟨.hbm, 481, rfl⟩
abbrev main_c_47 : Ref sig .tc := ⟨.hbm, 482, rfl⟩
abbrev main_v316 : Ref sig .tc := ⟨.hbm, 483, rfl⟩
abbrev main_v317 : Ref sig .tc := ⟨.hbm, 484, rfl⟩
abbrev main_c_48 : Ref sig .tc := ⟨.hbm, 485, rfl⟩
abbrev main_v318 : Ref sig .tc := ⟨.hbm, 486, rfl⟩
abbrev main_v319 : Ref sig .tc := ⟨.hbm, 487, rfl⟩
abbrev main_v320 : Ref sig .tc := ⟨.hbm, 488, rfl⟩
abbrev main_v321 : Ref sig .tc := ⟨.hbm, 489, rfl⟩
abbrev main_v322 : Ref sig .tc := ⟨.hbm, 490, rfl⟩
abbrev main_v323 : Ref sig .tc := ⟨.hbm, 491, rfl⟩
abbrev main_cst_49 : Ref sig .tc := ⟨.hbm, 492, rfl⟩
abbrev main_v324 : Ref sig .tc := ⟨.hbm, 493, rfl⟩
abbrev main_v325 : Ref sig .tc := ⟨.hbm, 494, rfl⟩
abbrev main_v326 : Ref sig .tc := ⟨.hbm, 495, rfl⟩
abbrev main_v327 : Ref sig .tc := ⟨.hbm, 496, rfl⟩
abbrev main_v328 : Ref sig .tc := ⟨.hbm, 497, rfl⟩
abbrev main_v329 : Ref sig .tc := ⟨.hbm, 498, rfl⟩
abbrev main_v330 : Ref sig .tc := ⟨.hbm, 499, rfl⟩
abbrev main_v331 : Ref sig .tc := ⟨.hbm, 500, rfl⟩
abbrev main_v332 : Ref sig .tc := ⟨.hbm, 501, rfl⟩
abbrev main_v333 : Ref sig .tc := ⟨.hbm, 502, rfl⟩
abbrev main_v334 : Ref sig .tc := ⟨.hbm, 503, rfl⟩
abbrev main_v335 : Ref sig .tc := ⟨.hbm, 504, rfl⟩
abbrev main_v336 : Ref sig .tc := ⟨.hbm, 505, rfl⟩
abbrev main_v337 : Ref sig .tc := ⟨.hbm, 506, rfl⟩
abbrev main_v338 : Ref sig .tc := ⟨.hbm, 507, rfl⟩
abbrev main_v339 : Ref sig .tc := ⟨.hbm, 508, rfl⟩
abbrev main_v340 : Ref sig .tc := ⟨.hbm, 509, rfl⟩
abbrev main_v341 : Ref sig .tc := ⟨.hbm, 510, rfl⟩
abbrev main_cst_50 : Ref sig .tc := ⟨.hbm, 511, rfl⟩
abbrev main_v342 : Ref sig .tc := ⟨.hbm, 512, rfl⟩
abbrev main_v343 : Ref sig .tc := ⟨.hbm, 513, rfl⟩
abbrev main_cst_51 : Ref sig .tc := ⟨.hbm, 514, rfl⟩
abbrev main_v344 : Ref sig .tc := ⟨.hbm, 515, rfl⟩
abbrev main_v345 : Ref sig .tc := ⟨.hbm, 516, rfl⟩
abbrev main_c_52 : Ref sig .tc := ⟨.hbm, 517, rfl⟩
abbrev main_call6_cst : Ref sig .tc := ⟨.hbm, 518, rfl⟩
abbrev main_call6_v0 : Ref sig .tc := ⟨.hbm, 519, rfl⟩
abbrev main_call6_v1 : Ref sig .tc := ⟨.hbm, 520, rfl⟩
abbrev main_call6_cst_0 : Ref sig .tc := ⟨.hbm, 521, rfl⟩
abbrev main_call6_v2 : Ref sig .tc := ⟨.hbm, 522, rfl⟩
abbrev main_call6_v3 : Ref sig .tc := ⟨.hbm, 523, rfl⟩
abbrev main_call6_v4 : Ref sig .tc := ⟨.hbm, 524, rfl⟩
abbrev main_call6_v5 : Ref sig .tc := ⟨.hbm, 525, rfl⟩
abbrev main_call6_v6 : Ref sig .tc := ⟨.hbm, 526, rfl⟩
abbrev main_call6_v7 : Ref sig .tc := ⟨.hbm, 527, rfl⟩
abbrev main_call6_cst_1 : Ref sig .tc := ⟨.hbm, 528, rfl⟩
abbrev main_call6_v8 : Ref sig .tc := ⟨.hbm, 529, rfl⟩
abbrev main_call6_cst_2 : Ref sig .tc := ⟨.hbm, 530, rfl⟩
abbrev main_call6_v9 : Ref sig .tc := ⟨.hbm, 531, rfl⟩
abbrev main_call6_v10 : Ref sig .tc := ⟨.hbm, 532, rfl⟩
abbrev main_call6_v11 : Ref sig .tc := ⟨.hbm, 533, rfl⟩
abbrev main_call6_v12 : Ref sig .tc := ⟨.hbm, 534, rfl⟩
abbrev main_call6_cst_3 : Ref sig .tc := ⟨.hbm, 535, rfl⟩
abbrev main_call6_v13 : Ref sig .tc := ⟨.hbm, 536, rfl⟩
abbrev main_call6_cst_4 : Ref sig .tc := ⟨.hbm, 537, rfl⟩
abbrev main_call6_call0_v0 : Ref sig .tc := ⟨.hbm, 538, rfl⟩
abbrev main_call6_call0_v1 : Ref sig .tc := ⟨.hbm, 539, rfl⟩
abbrev main_v346 : Ref sig .tc := ⟨.hbm, 540, rfl⟩
abbrev main_v347 : Ref sig .tc := ⟨.hbm, 541, rfl⟩
abbrev main_v348 : Ref sig .tc := ⟨.hbm, 542, rfl⟩
abbrev main_cst_53 : Ref sig .tc := ⟨.hbm, 543, rfl⟩
abbrev main_v349 : Ref sig .tc := ⟨.hbm, 544, rfl⟩
abbrev main_v350 : Ref sig .tc := ⟨.hbm, 545, rfl⟩
abbrev main_v351 : Ref sig .tc := ⟨.hbm, 546, rfl⟩
abbrev main_v352 : Ref sig .tc := ⟨.hbm, 547, rfl⟩
abbrev main_v353 : Ref sig .tc := ⟨.hbm, 548, rfl⟩
abbrev main_v354 : Ref sig .tc := ⟨.hbm, 549, rfl⟩
abbrev main_v355 : Ref sig .tc := ⟨.hbm, 550, rfl⟩
abbrev main_v356 : Ref sig .tc := ⟨.hbm, 551, rfl⟩
abbrev main_v357 : Ref sig .tc := ⟨.hbm, 552, rfl⟩
abbrev main_v358 : Ref sig .tc := ⟨.hbm, 553, rfl⟩
abbrev main_v359 : Ref sig .tc := ⟨.hbm, 554, rfl⟩
abbrev main_v360 : Ref sig .tc := ⟨.hbm, 555, rfl⟩
abbrev main_v361 : Ref sig .tc := ⟨.hbm, 556, rfl⟩
abbrev main_v362 : Ref sig .tc := ⟨.hbm, 557, rfl⟩
abbrev main_v363 : Ref sig .tc := ⟨.hbm, 558, rfl⟩
abbrev main_v364 : Ref sig .tc := ⟨.hbm, 559, rfl⟩
abbrev main_v365 : Ref sig .tc := ⟨.hbm, 560, rfl⟩
abbrev main_v366 : Ref sig .tc := ⟨.hbm, 561, rfl⟩
abbrev main_v367 : Ref sig .tc := ⟨.hbm, 562, rfl⟩
abbrev main_call7_cst : Ref sig .tc := ⟨.hbm, 563, rfl⟩
abbrev main_call7_v0 : Ref sig .tc := ⟨.hbm, 564, rfl⟩
abbrev main_v368 : Ref sig .tc := ⟨.hbm, 565, rfl⟩
abbrev main_v369 : Ref sig .tc := ⟨.hbm, 566, rfl⟩
abbrev main_v370 : Ref sig .tc := ⟨.hbm, 567, rfl⟩
abbrev main_v371 : Ref sig .tc := ⟨.hbm, 568, rfl⟩
abbrev main_v372 : Ref sig .tc := ⟨.hbm, 569, rfl⟩
abbrev main_v373 : Ref sig .tc := ⟨.hbm, 570, rfl⟩
abbrev main_v374 : Ref sig .tc := ⟨.hbm, 571, rfl⟩
abbrev main_v375 : Ref sig .tc := ⟨.hbm, 572, rfl⟩
abbrev main_v376 : Ref sig .tc := ⟨.hbm, 573, rfl⟩
abbrev main_v377 : Ref sig .tc := ⟨.hbm, 574, rfl⟩
abbrev main_v378 : Ref sig .tc := ⟨.hbm, 575, rfl⟩
abbrev main_v379 : Ref sig .tc := ⟨.hbm, 576, rfl⟩
abbrev main_v380 : Ref sig .tc := ⟨.hbm, 577, rfl⟩
abbrev main_v381 : Ref sig .tc := ⟨.hbm, 578, rfl⟩
abbrev main_cst_54 : Ref sig .tc := ⟨.hbm, 579, rfl⟩
abbrev main_v382 : Ref sig .tc := ⟨.hbm, 580, rfl⟩
abbrev main_v383 : Ref sig .tc := ⟨.hbm, 581, rfl⟩
abbrev main_cst_55 : Ref sig .tc := ⟨.hbm, 582, rfl⟩
abbrev main_v384 : Ref sig .tc := ⟨.hbm, 583, rfl⟩
abbrev main_v385 : Ref sig .tc := ⟨.hbm, 584, rfl⟩
abbrev main_c_56 : Ref sig .tc := ⟨.hbm, 585, rfl⟩
abbrev main_call8_cst : Ref sig .tc := ⟨.hbm, 586, rfl⟩
abbrev main_call8_v0 : Ref sig .tc := ⟨.hbm, 587, rfl⟩
abbrev main_call8_v1 : Ref sig .tc := ⟨.hbm, 588, rfl⟩
abbrev main_call8_cst_0 : Ref sig .tc := ⟨.hbm, 589, rfl⟩
abbrev main_call8_v2 : Ref sig .tc := ⟨.hbm, 590, rfl⟩
abbrev main_call8_v3 : Ref sig .tc := ⟨.hbm, 591, rfl⟩
abbrev main_call8_v4 : Ref sig .tc := ⟨.hbm, 592, rfl⟩
abbrev main_call8_v5 : Ref sig .tc := ⟨.hbm, 593, rfl⟩
abbrev main_call8_v6 : Ref sig .tc := ⟨.hbm, 594, rfl⟩
abbrev main_call8_v7 : Ref sig .tc := ⟨.hbm, 595, rfl⟩
abbrev main_call8_cst_1 : Ref sig .tc := ⟨.hbm, 596, rfl⟩
abbrev main_call8_v8 : Ref sig .tc := ⟨.hbm, 597, rfl⟩
abbrev main_call8_cst_2 : Ref sig .tc := ⟨.hbm, 598, rfl⟩
abbrev main_call8_v9 : Ref sig .tc := ⟨.hbm, 599, rfl⟩
abbrev main_call8_v10 : Ref sig .tc := ⟨.hbm, 600, rfl⟩
abbrev main_call8_v11 : Ref sig .tc := ⟨.hbm, 601, rfl⟩
abbrev main_call8_v12 : Ref sig .tc := ⟨.hbm, 602, rfl⟩
abbrev main_call8_cst_3 : Ref sig .tc := ⟨.hbm, 603, rfl⟩
abbrev main_call8_v13 : Ref sig .tc := ⟨.hbm, 604, rfl⟩
abbrev main_call8_cst_4 : Ref sig .tc := ⟨.hbm, 605, rfl⟩
abbrev main_call8_call0_v0 : Ref sig .tc := ⟨.hbm, 606, rfl⟩
abbrev main_call8_call0_v1 : Ref sig .tc := ⟨.hbm, 607, rfl⟩
abbrev main_v386 : Ref sig .tc := ⟨.hbm, 608, rfl⟩
abbrev main_v387 : Ref sig .tc := ⟨.hbm, 609, rfl⟩
abbrev main_v388 : Ref sig .tc := ⟨.hbm, 610, rfl⟩
abbrev main_cst_57 : Ref sig .tc := ⟨.hbm, 611, rfl⟩
abbrev main_v389 : Ref sig .tc := ⟨.hbm, 612, rfl⟩
abbrev main_v390 : Ref sig .tc := ⟨.hbm, 613, rfl⟩
abbrev main_v391 : Ref sig .tc := ⟨.hbm, 614, rfl⟩
abbrev main_v392 : Ref sig .tc := ⟨.hbm, 615, rfl⟩
abbrev main_v393 : Ref sig .tc := ⟨.hbm, 616, rfl⟩
abbrev main_v394 : Ref sig .tc := ⟨.hbm, 617, rfl⟩
abbrev main_v395 : Ref sig .tc := ⟨.hbm, 618, rfl⟩
abbrev main_v396 : Ref sig .tc := ⟨.hbm, 619, rfl⟩
abbrev main_v397 : Ref sig .tc := ⟨.hbm, 620, rfl⟩
abbrev main_v398 : Ref sig .tc := ⟨.hbm, 621, rfl⟩
abbrev main_v399 : Ref sig .tc := ⟨.hbm, 622, rfl⟩
abbrev main_cst_58 : Ref sig .tc := ⟨.hbm, 623, rfl⟩
abbrev main_v400 : Ref sig .tc := ⟨.hbm, 624, rfl⟩
abbrev main_v401 : Ref sig .tc := ⟨.hbm, 625, rfl⟩
abbrev main_cst_59 : Ref sig .tc := ⟨.hbm, 626, rfl⟩
abbrev main_v402 : Ref sig .tc := ⟨.hbm, 627, rfl⟩
abbrev main_v403 : Ref sig .tc := ⟨.hbm, 628, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S1x128_S524288x128_0_1 : S1x128.BroadcastsInDim S524288x128 (![0, 1] : Fin 2 → Fin S524288x128.rank)
  slices_S3x128x128_S1x128x128_0_0_0 : S3x128x128.Slices ![0, 0, 0] S1x128x128
  shapeCasts_S1x128x128_S128x128 : S1x128x128.ShapeCasts S128x128
  shapeCasts_S32768x128_S32768x4x32 : S32768x128.ShapeCasts S32768x4x32
  shapeCasts_S524288x128_S524288x4x32 : S524288x128.ShapeCasts S524288x4x32
  bcast_S_S524288 : S_.BroadcastsInDim S524288 (![] : Fin 0 → Fin S524288.rank)
  bcast_S524288_S524288x1_0 : S524288.BroadcastsInDim S524288x1 (![0] : Fin 1 → Fin S524288x1.rank)
  reducesTo_S524288x4x32_S524288x4_d2 : S524288x4x32.ReducesTo [2] S524288x4
  h_S_ : 0 < S_.numel
  bcast_S524288x4_S524288x4x1_0_1 : S524288x4.BroadcastsInDim S524288x4x1 (![0, 1] : Fin 2 → Fin S524288x4x1.rank)
  bcast_S_S524288x4x1 : S_.BroadcastsInDim S524288x4x1 (![] : Fin 0 → Fin S524288x4x1.rank)
  bcast_S_S524288x4x32 : S_.BroadcastsInDim S524288x4x32 (![] : Fin 0 → Fin S524288x4x32.rank)
  bcast_S524288x4x1_S524288x4x32_0_1_2 : S524288x4x1.BroadcastsInDim S524288x4x32 (![0, 1, 2] : Fin 3 → Fin S524288x4x32.rank)
  bcast_S_S32768x4x32 : S_.BroadcastsInDim S32768x4x32 (![] : Fin 0 → Fin S32768x4x32.rank)
  shapeCasts_S32768x4x32_S32768x128 : S32768x4x32.ShapeCasts S32768x128
  slices_S3x128_S1x128_0_0 : S3x128.Slices ![0, 0] S1x128
  shapeCasts_S1x128_S128 : S1x128.ShapeCasts S128
  reducesTo_S32768x128_S32768_d1 : S32768x128.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x128_0_1 : S32768x1.BroadcastsInDim S32768x128 (![0, 1] : Fin 2 → Fin S32768x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  slices_S3x256x128_S1x256x128_0_0_0 : S3x256x128.Slices ![0, 0, 0] S1x256x128
  shapeCasts_S1x256x128_S256x128 : S1x256x128.ShapeCasts S256x128
  slices_S3x128x128_S1x128x128_1_0_0 : S3x128x128.Slices ![1, 0, 0] S1x128x128
  slices_S3x128_S1x128_1_0 : S3x128.Slices ![1, 0] S1x128
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S3x128x128_S1x128x128_2_0_0 : S3x128x128.Slices ![2, 0, 0] S1x128x128
  slices_S3x128_S1x128_2_0 : S3x128.Slices ![2, 0] S1x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  reducesTo_S32768x128_S128_d0 : S32768x128.ReducesTo [0] S128
  bcast_S_S1x128 : S_.BroadcastsInDim S1x128 (![] : Fin 0 → Fin S1x128.rank)
  dot_S32768x44_S44x128_S32768x128_1_0_0_1_n_n_wf : DotDims.WF S32768x44 S44x128 S32768x128 [1] [0] [0] [1] [] []
  dot_S32768x8_S8x128_S32768x128_1_0_0_1_n_n_wf : DotDims.WF S32768x8 S8x128 S32768x128 [1] [0] [0] [1] [] []
  dot_S524288x1_S1x128_S524288x128_1_0_0_1_n_n_wf : DotDims.WF S524288x1 S1x128 S524288x128 [1] [0] [0] [1] [] []
  dot_S32768x128_S128x128_S32768x128_1_0_0_1_n_n_wf : DotDims.WF S32768x128 S128x128 S32768x128 [1] [0] [0] [1] [] []
  dot_S524288x128_S128x128_S524288x128_1_0_0_1_n_n_wf : DotDims.WF S524288x128 S128x128 S524288x128 [1] [0] [0] [1] [] []
  gather_S32768x4x32_S524288x1_S524288x4x32_12_0_n_n_0_1_1432_wf : GatherDims.WF S32768x4x32 S524288x1 S524288x4x32 [1, 2] [0] [] [0] [] 1 ![1, 4, 32]
  scatter_S32768x4x32_S524288x1_S524288x4x32_12_0_0_1_wf : ScatterDims.WF S32768x4x32 S524288x1 S524288x4x32 [1, 2] [0] [0] 1
  dot_S32768x128_S128x256_S32768x256_1_0_0_1_n_n_wf : DotDims.WF S32768x128 S128x256 S32768x256 [1] [0] [0] [1] [] []
  dot_S32768x256_S256x128_S32768x128_1_0_0_1_n_n_wf : DotDims.WF S32768x256 S256x128 S32768x128 [1] [0] [0] [1] [] []

variable [Facts₀]

def dot_S32768x44_S44x128_S32768x128_1_0_0_1_n_n : DotDims S32768x44 S44x128 S32768x128 where
  lhsContracting := [1]
  rhsContracting := [0]
  lhsNonContracting := [0]
  rhsNonContracting := [1]
  lhsBatch := []
  rhsBatch := []
  wf := dot_S32768x44_S44x128_S32768x128_1_0_0_1_n_n_wf
def dot_S32768x8_S8x128_S32768x128_1_0_0_1_n_n : DotDims S32768x8 S8x128 S32768x128 where
  lhsContracting := [1]
  rhsContracting := [0]
  lhsNonContracting := [0]
  rhsNonContracting := [1]
  lhsBatch := []
  rhsBatch := []
  wf := dot_S32768x8_S8x128_S32768x128_1_0_0_1_n_n_wf
def dot_S524288x1_S1x128_S524288x128_1_0_0_1_n_n : DotDims S524288x1 S1x128 S524288x128 where
  lhsContracting := [1]
  rhsContracting := [0]
  lhsNonContracting := [0]
  rhsNonContracting := [1]
  lhsBatch := []
  rhsBatch := []
  wf := dot_S524288x1_S1x128_S524288x128_1_0_0_1_n_n_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def gather_S32768x4x32_S524288x1_S524288x4x32_12_0_n_n_0_1_1432 : GatherDims S32768x4x32 S524288x1 S524288x4x32 where
  offsetDims := [1, 2]
  collapsedSliceDims := [0]
  operandBatchingDims := []
  startIndicesBatchingDims := []
  startIndexMap := [0]
  indexVectorDim := 1
  sliceSizes := ![1, 4, 32]
  wf := gather_S32768x4x32_S524288x1_S524288x4x32_12_0_n_n_0_1_1432_wf
def scatter_S32768x4x32_S524288x1_S524288x4x32_12_0_0_1 : ScatterDims S32768x4x32 S524288x1 S524288x4x32 where
  updateWindowDims := [1, 2]
  insertedWindowDims := [0]
  scatterDimsToOperandDims := [0]
  indexVectorDim := 1
  wf := scatter_S32768x4x32_S524288x1_S524288x4x32_12_0_0_1_wf
def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf

class Facts : Prop extends Facts₀ where

variable [Facts]
-- ==== Proof.K.R0.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S8192x52 .f32) (x1 : Vec F S52x128 .f32) (x2 : Vec F S1x128 .f32) : Vec F S8192x128 .f32 :=
  View.canon [⟨.unit ![0, 0] _ inb_S8192x128_S8192x128_0_0, k0_pay1 (View.ld x0 (.unit ![0, 0] _ inb_S8192x52_S8192x52_0_0))
    (View.ld x1 (.unit ![0, 0] _ inb_S52x128_S52x128_0_0)) (View.ld x2 (.unit ![0, 0] _ inb_S1x128_S1x128_0_0))⟩]

def dat0 : Pipeline.Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := rfl

theorem after0_3 (t : Fin cfg0.N) : (dat0 V c).after 3 t = out0_3 (iblk0 V c 0 t) (iblk0 V c 1 t) (iblk0 V c 2 t) := by
  dsimp only [dat0]

theorem before0 (t : Fin cfg0.N) : (∀ d, (dat0 V c).before 0 t d = iblk0 V c 0 t)
    ∧ (∀ d, (dat0 V c).before 1 t d = iblk0 V c 1 t) ∧ ∀ d, (dat0 V c).before 2 t d = iblk0 V c 2 t := by
  refine ⟨?_, ?_, ?_⟩ <;> exact (dat0 V c).before_in_eq_fetched _ rfl (fun _ => rfl) (fun _ _ _ => rfl) (fun _ => rfl) t

theorem body_obligation0 : Pipeline.BodyObligation (dat0 (F := F) V c) (defs₀ (F := F)) Variants.none () Set.univ := fun t => by
  rw [bigSep_W0, bigSep_W0]
  obtain ⟨e0, e1, e2⟩ := before0 V c t
  simp only [e0, e1, e2]; dsimp only [dat0]
  sl_whnfR [defs₀, Defs.onTc]
  sl_unfold [cc0_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.Kernel.Hand
-- ==== Proof.K.R1.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S4096x128 .f32) (x1 : Vec F S128x384 .f32) (x2 : Vec F S1x384 .f32) : Vec F S4096x384 .f32 :=
  View.canon [⟨.unit ![0, 0] _ inb_S4096x384_S4096x384_0_0, k1_pay1 (View.ld x0 (.unit ![0, 0] _ inb_S4096x128_S4096x128_0_0))
    (View.ld x1 (.unit ![0, 0] _ inb_S128x384_S128x384_0_0)) (View.ld x2 (.unit ![0, 0] _ inb_S1x384_S1x384_0_0))⟩]

def dat1 : Pipeline.Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (w : Fin cfg1.W) : (dat1 V c).A w = V c (Pipeline.arrRef spec1 w) := rfl

theorem after1_3 (t : Fin cfg1.N) : (dat1 V c).after 3 t = out1_3 (iblk1 V c 0 t) (iblk1 V c 1 t) (iblk1 V c 2 t) := by
  dsimp only [dat1]

theorem before1 (t : Fin cfg1.N) : (∀ d, (dat1 V c).before 0 t d = iblk1 V c 0 t)
    ∧ (∀ d, (dat1 V c).before 1 t d = iblk1 V c 1 t) ∧ ∀ d, (dat1 V c).before 2 t d = iblk1 V c 2 t := by
  refine ⟨?_, ?_, ?_⟩ <;> exact (dat1 V c).before_in_eq_fetched _ rfl (fun _ => rfl) (fun _ _ _ => rfl) (fun _ => rfl) t

theorem body_obligation1 : Pipeline.BodyObligation (dat1 (F := F) V c) (defs₀ (F := F)) Variants.none () Set.univ := fun t => by
  rw [bigSep_W1, bigSep_W1]
  obtain ⟨e0, e1, e2⟩ := before1 V c t
  simp only [e0, e1, e2]; dsimp only [dat1]
  sl_whnfR [defs₀, Defs.onTc]
  sl_unfold [cc1_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x384.size (by rfl))

end Cert.Kernel.Hand
-- ==== Proof.K.R2.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S8192x128 .f32) (x1 : Vec F S128x128 .f32) (x2 : Vec F S1x128 .f32) : Vec F S8192x128 .f32 :=
  View.canon [⟨.unit ![0, 0] _ inb_S8192x128_S8192x128_0_0, k2_pay1 (View.ld x0 (.unit ![0, 0] _ inb_S8192x128_S8192x128_0_0))
    (View.ld x1 (.unit ![0, 0] _ inb_S128x128_S128x128_0_0)) (View.ld x2 (.unit ![0, 0] _ inb_S1x128_S1x128_0_0))⟩]

def dat2 : Pipeline.Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (w : Fin cfg2.W) : (dat2 V c).A w = V c (Pipeline.arrRef spec2 w) := rfl

theorem after2_3 (t : Fin cfg2.N) : (dat2 V c).after 3 t = out2_3 (iblk2 V c 0 t) (iblk2 V c 1 t) (iblk2 V c 2 t) := by
  dsimp only [dat2]

theorem before2 (t : Fin cfg2.N) : (∀ d, (dat2 V c).before 0 t d = iblk2 V c 0 t)
    ∧ (∀ d, (dat2 V c).before 1 t d = iblk2 V c 1 t) ∧ ∀ d, (dat2 V c).before 2 t d = iblk2 V c 2 t := by
  refine ⟨?_, ?_, ?_⟩ <;> exact (dat2 V c).before_in_eq_fetched _ rfl (fun _ => rfl) (fun _ _ _ => rfl) (fun _ => rfl) t

theorem body_obligation2 : Pipeline.BodyObligation (dat2 (F := F) V c) (defs₀ (F := F)) Variants.none () Set.univ := fun t => by
  rw [bigSep_W2, bigSep_W2]
  obtain ⟨e0, e1, e2⟩ := before2 V c t
  simp only [e0, e1, e2]; dsimp only [dat2]
  sl_whnfR [defs₀, Defs.onTc]
  sl_unfold [cc2_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.Kernel.Hand
-- ==== Proof.K.R3.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

noncomputable abbrev r3_0 : Rect S4096x128 := .unit ![0, 0] _ inb_S4096x128_S4096x128_0_0

theorem off3_0 : (![0, 0] : Fin 2 → ℕ) = fun _ => 0 := by decide

def out3_4 (x0 x1 x2 x3 : Vec F S4096x128 .f32) : Vec F S4096x128 .f32 :=
  View.canon [⟨r3_0, k3_pay3 (View.ld x0 r3_0) (View.ld x1 r3_0) (View.ld x3 r3_0)⟩]

def out3_5 (x0 x1 x2 x3 : Vec F S4096x128 .f32) : Vec F S4096x128 .f32 :=
  View.canon [⟨r3_0, k3_pay1 (k3_pay2 (View.ld x2 r3_0)) (k3_pay3 (View.ld x0 r3_0) (View.ld x1 r3_0) (View.ld x3 r3_0))⟩]

def dat3 : Pipeline.Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (w : Fin cfg3.W) : (dat3 V c).A w = V c (Pipeline.arrRef spec3 w) := rfl

theorem after3_4 (t : Fin cfg3.N) :
    (dat3 V c).after 4 t = out3_4 (iblk3 V c 0 t) (iblk3 V c 1 t) (iblk3 V c 2 t) (iblk3 V c 3 t) := by dsimp only [dat3]

theorem after3_5 (t : Fin cfg3.N) :
    (dat3 V c).after 5 t = out3_5 (iblk3 V c 0 t) (iblk3 V c 1 t) (iblk3 V c 2 t) (iblk3 V c 3 t) := by dsimp only [dat3]

theorem before3 (t : Fin cfg3.N) : (∀ d, (dat3 V c).before 0 t d = iblk3 V c 0 t) ∧ (∀ d, (dat3 V c).before 1 t d = iblk3 V c 1 t)
    ∧ (∀ d, (dat3 V c).before 2 t d = iblk3 V c 2 t) ∧ ∀ d, (dat3 V c).before 3 t d = iblk3 V c 3 t := by
  refine ⟨?_, ?_, ?_, ?_⟩ <;> exact (dat3 V c).before_in_eq_fetched _ rfl (fun _ => rfl) (fun _ _ _ => rfl) (fun _ => rfl) t

theorem body_obligation3 : Pipeline.BodyObligation (dat3 (F := F) V c) (defs₀ (F := F)) Variants.none () Set.univ := fun t => by
  rw [bigSep_W3, bigSep_W3]
  obtain ⟨e0, e1, e2, e3⟩ := before3 V c t
  simp only [e0, e1, e2, e3]; dsimp only [dat3]
  sl_whnfR [defs₀, Defs.onTc]
  sl_unfold [cc3_edge_attn_kernel, k3_part1]
  unfold owns
  iintro ⟨HΦ, Ho, ⟨%_, %f0, %h0, H0⟩, ⟨%_, %f1, %h1, H1⟩, ⟨%_, %f2, %h2, H2⟩, ⟨%_, %f3, %h3, H3⟩, ⟨%_, %_, -, H4⟩, %_, %_, -, H5⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  isplitl [H3]; · iexists _; iframe H3; ipureintro; exact h3
  isplitl [H4] <;> (iexists _; iframe; ipureintro)
  all_goals exact h0 ▸ h1 ▸ h2 ▸ h3 ▸ View.read_writes_eq_canon _ _ _ (View.cover_of_tiled _ S4096x128.size (by rfl))

end Cert.Kernel.Hand
-- ==== Proof.K.R4.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_3 (x0 : Vec F S8192x128 .f32) (x1 : Vec F S128x128 .f32) (x2 : Vec F S1x128 .f32) : Vec F S8192x128 .f32 :=
  View.canon [⟨.unit ![0, 0] _ inb_S8192x128_S8192x128_0_0, k4_pay1 (View.ld x0 (.unit ![0, 0] _ inb_S8192x128_S8192x128_0_0))
    (View.ld x1 (.unit ![0, 0] _ inb_S128x128_S128x128_0_0)) (View.ld x2 (.unit ![0, 0] _ inb_S1x128_S1x128_0_0))⟩]

def dat4 : Pipeline.Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (w : Fin cfg4.W) : (dat4 V c).A w = V c (Pipeline.arrRef spec4 w) := rfl

theorem after4_3 (t : Fin cfg4.N) : (dat4 V c).after 3 t = out4_3 (iblk4 V c 0 t) (iblk4 V c 1 t) (iblk4 V c 2 t) := by
  dsimp only [dat4]

theorem before4 (t : Fin cfg4.N) : (∀ d, (dat4 V c).before 0 t d = iblk4 V c 0 t)
    ∧ (∀ d, (dat4 V c).before 1 t d = iblk4 V c 1 t) ∧ ∀ d, (dat4 V c).before 2 t d = iblk4 V c 2 t := by
  refine ⟨?_, ?_, ?_⟩ <;> exact (dat4 V c).before_in_eq_fetched _ rfl (fun _ => rfl) (fun _ _ _ => rfl) (fun _ => rfl) t

theorem body_obligation4 : Pipeline.BodyObligation (dat4 (F := F) V c) (defs₀ (F := F)) Variants.none () Set.univ := fun t => by
  rw [bigSep_W4, bigSep_W4]
  obtain ⟨e0, e1, e2⟩ := before4 V c t
  simp only [e0, e1, e2]; dsimp only [dat4]
  sl_whnfR [defs₀, Defs.onTc]
  sl_unfold [cc4_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.Kernel.Hand
-- ==== Proof.K.R5.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_3 (x0 : Vec F S4096x128 .f32) (x1 : Vec F S128x256 .f32) (x2 : Vec F S1x256 .f32) : Vec F S4096x256 .f32 :=
  View.canon [⟨.unit ![0, 0] _ inb_S4096x256_S4096x256_0_0, k5_pay1 (View.ld x0 (.unit ![0, 0] _ inb_S4096x128_S4096x128_0_0))
    (View.ld x1 (.unit ![0, 0] _ inb_S128x256_S128x256_0_0)) (View.ld x2 (.unit ![0, 0] _ inb_S1x256_S1x256_0_0))⟩]

def dat5 : Pipeline.Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (w : Fin cfg5.W) : (dat5 V c).A w = V c (Pipeline.arrRef spec5 w) := rfl

theorem after5_3 (t : Fin cfg5.N) : (dat5 V c).after 3 t = out5_3 (iblk5 V c 0 t) (iblk5 V c 1 t) (iblk5 V c 2 t) := by
  dsimp only [dat5]

theorem before5 (t : Fin cfg5.N) : (∀ d, (dat5 V c).before 0 t d = iblk5 V c 0 t)
    ∧ (∀ d, (dat5 V c).before 1 t d = iblk5 V c 1 t) ∧ ∀ d, (dat5 V c).before 2 t d = iblk5 V c 2 t := by
  refine ⟨?_, ?_, ?_⟩ <;> exact (dat5 V c).before_in_eq_fetched _ rfl (fun _ => rfl) (fun _ _ _ => rfl) (fun _ => rfl) t

theorem body_obligation5 : Pipeline.BodyObligation (dat5 (F := F) V c) (defs₀ (F := F)) Variants.none () Set.univ := fun t => by
  rw [bigSep_W5, bigSep_W5]
  obtain ⟨e0, e1, e2⟩ := before5 V c t
  simp only [e0, e1, e2]; dsimp only [dat5]
  sl_whnfR [defs₀, Defs.onTc]
  sl_unfold [cc5_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x256.size (by rfl))

end Cert.Kernel.Hand
-- ==== Proof.K.R6.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_3 (x0 : Vec F S4096x256 .f32) (x1 : Vec F S256x128 .f32) (x2 : Vec F S1x128 .f32) : Vec F S4096x128 .f32 :=
  View.canon [⟨.unit ![0, 0] _ inb_S4096x128_S4096x128_0_0, k6_pay1 (View.ld x0 (.unit ![0, 0] _ inb_S4096x256_S4096x256_0_0))
    (View.ld x1 (.unit ![0, 0] _ inb_S256x128_S256x128_0_0)) (View.ld x2 (.unit ![0, 0] _ inb_S1x128_S1x128_0_0))⟩]

def dat6 : Pipeline.Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (w : Fin cfg6.W) : (dat6 V c).A w = V c (Pipeline.arrRef spec6 w) := rfl

theorem after6_3 (t : Fin cfg6.N) : (dat6 V c).after 3 t = out6_3 (iblk6 V c 0 t) (iblk6 V c 1 t) (iblk6 V c 2 t) := by
  dsimp only [dat6]

theorem before6 (t : Fin cfg6.N) : (∀ d, (dat6 V c).before 0 t d = iblk6 V c 0 t)
    ∧ (∀ d, (dat6 V c).before 1 t d = iblk6 V c 1 t) ∧ ∀ d, (dat6 V c).before 2 t d = iblk6 V c 2 t := by
  refine ⟨?_, ?_, ?_⟩ <;> exact (dat6 V c).before_in_eq_fetched _ rfl (fun _ => rfl) (fun _ _ _ => rfl) (fun _ => rfl) t

theorem body_obligation6 : Pipeline.BodyObligation (dat6 (F := F) V c) (defs₀ (F := F)) Variants.none () Set.univ := fun t => by
  rw [bigSep_W6, bigSep_W6]
  obtain ⟨e0, e1, e2⟩ := before6 V c t
  simp only [e0, e1, e2]; dsimp only [dat6]
  sl_whnfR [defs₀, Defs.onTc]
  sl_unfold [cc6_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x128.size (by rfl))

end Cert.Kernel.Hand
-- ==== Proof.K.R7.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk7 (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_3 (x0 : Vec F S4096x128 .f32) (x1 : Vec F S128x384 .f32) (x2 : Vec F S1x384 .f32) : Vec F S4096x384 .f32 :=
  View.canon [⟨.unit ![0, 0] _ inb_S4096x384_S4096x384_0_0, k7_pay1 (View.ld x0 (.unit ![0, 0] _ inb_S4096x128_S4096x128_0_0))
    (View.ld x1 (.unit ![0, 0] _ inb_S128x384_S128x384_0_0)) (View.ld x2 (.unit ![0, 0] _ inb_S1x384_S1x384_0_0))⟩]

def dat7 : Pipeline.Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (w : Fin cfg7.W) : (dat7 V c).A w = V c (Pipeline.arrRef spec7 w) := rfl

theorem after7_3 (t : Fin cfg7.N) : (dat7 V c).after 3 t = out7_3 (iblk7 V c 0 t) (iblk7 V c 1 t) (iblk7 V c 2 t) := by
  dsimp only [dat7]

theorem before7 (t : Fin cfg7.N) : (∀ d, (dat7 V c).before 0 t d = iblk7 V c 0 t)
    ∧ (∀ d, (dat7 V c).before 1 t d = iblk7 V c 1 t) ∧ ∀ d, (dat7 V c).before 2 t d = iblk7 V c 2 t := by
  refine ⟨?_, ?_, ?_⟩ <;> exact (dat7 V c).before_in_eq_fetched _ rfl (fun _ => rfl) (fun _ _ _ => rfl) (fun _ => rfl) t

theorem body_obligation7 : Pipeline.BodyObligation (dat7 (F := F) V c) (defs₀ (F := F)) Variants.none () Set.univ := fun t => by
  rw [bigSep_W7, bigSep_W7]
  obtain ⟨e0, e1, e2⟩ := before7 V c t
  simp only [e0, e1, e2]; dsimp only [dat7]
  sl_whnfR [defs₀, Defs.onTc]
  sl_unfold [cc7_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x384.size (by rfl))

end Cert.Kernel.Hand
-- ==== Proof.K.R8.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk8 (w : Fin cfg8.W) (t : Fin cfg8.N) : ((cfg8.win w).xblock (cfg8.grid.coords t)).Idx → Elt F (cfg8.win w).elt :=
  ((cfg8.win w).blk t).view.read (Elt F) (V c (Pipeline.arrRef spec8 w))

def out8_3 (x0 : Vec F S8192x128 .f32) (x1 : Vec F S128x128 .f32) (x2 : Vec F S1x128 .f32) : Vec F S8192x128 .f32 :=
  View.canon [⟨.unit ![0, 0] _ inb_S8192x128_S8192x128_0_0, k8_pay1 (View.ld x0 (.unit ![0, 0] _ inb_S8192x128_S8192x128_0_0))
    (View.ld x1 (.unit ![0, 0] _ inb_S128x128_S128x128_0_0)) (View.ld x2 (.unit ![0, 0] _ inb_S1x128_S1x128_0_0))⟩]

def dat8 : Pipeline.Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (w : Fin cfg8.W) : (dat8 V c).A w = V c (Pipeline.arrRef spec8 w) := rfl

theorem after8_3 (t : Fin cfg8.N) : (dat8 V c).after 3 t = out8_3 (iblk8 V c 0 t) (iblk8 V c 1 t) (iblk8 V c 2 t) := by
  dsimp only [dat8]

theorem before8 (t : Fin cfg8.N) : (∀ d, (dat8 V c).before 0 t d = iblk8 V c 0 t)
    ∧ (∀ d, (dat8 V c).before 1 t d = iblk8 V c 1 t) ∧ ∀ d, (dat8 V c).before 2 t d = iblk8 V c 2 t := by
  refine ⟨?_, ?_, ?_⟩ <;> exact (dat8 V c).before_in_eq_fetched _ rfl (fun _ => rfl) (fun _ _ _ => rfl) (fun _ => rfl) t

theorem body_obligation8 : Pipeline.BodyObligation (dat8 (F := F) V c) (defs₀ (F := F)) Variants.none () Set.univ := fun t => by
  rw [bigSep_W8, bigSep_W8]
  obtain ⟨e0, e1, e2⟩ := before8 V c t
  simp only [e0, e1, e2]; dsimp only [dat8]
  sl_whnfR [defs₀, Defs.onTc]
  sl_unfold [cc8_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.Kernel.Hand
-- ==== Proof.K.R9.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk9 (w : Fin cfg9.W) (t : Fin cfg9.N) : ((cfg9.win w).xblock (cfg9.grid.coords t)).Idx → Elt F (cfg9.win w).elt :=
  ((cfg9.win w).blk t).view.read (Elt F) (V c (Pipeline.arrRef spec9 w))

noncomputable abbrev r9_0 : Rect S4096x128 := .unit ![0, 0] _ inb_S4096x128_S4096x128_0_0

theorem off9_0 : (![0, 0] : Fin 2 → ℕ) = fun _ => 0 := by decide

def out9_4 (x0 x1 x2 x3 : Vec F S4096x128 .f32) : Vec F S4096x128 .f32 :=
  View.canon [⟨r9_0, k9_pay3 (View.ld x0 r9_0) (View.ld x1 r9_0) (View.ld x3 r9_0)⟩]

def out9_5 (x0 x1 x2 x3 : Vec F S4096x128 .f32) : Vec F S4096x128 .f32 :=
  View.canon [⟨r9_0, k9_pay1 (k9_pay2 (View.ld x2 r9_0)) (k9_pay3 (View.ld x0 r9_0) (View.ld x1 r9_0) (View.ld x3 r9_0))⟩]

def dat9 : Pipeline.Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
    | ⟨5, _⟩ => out9_5 (iblk9 V c 0 t) (iblk9 V c 1 t) (iblk9 V c 2 t) (iblk9 V c 3 t)
  Φ _ := Pipeline.ΦA spec9 c
  q _ := fullShare
  owed _ := 0

theorem A_eq9 (w : Fin cfg9.W) : (dat9 V c).A w = V c (Pipeline.arrRef spec9 w) := rfl

theorem after9_4 (t : Fin cfg9.N) :
    (dat9 V c).after 4 t = out9_4 (iblk9 V c 0 t) (iblk9 V c 1 t) (iblk9 V c 2 t) (iblk9 V c 3 t) := by dsimp only [dat9]

theorem after9_5 (t : Fin cfg9.N) :
    (dat9 V c).after 5 t = out9_5 (iblk9 V c 0 t) (iblk9 V c 1 t) (iblk9 V c 2 t) (iblk9 V c 3 t) := by dsimp only [dat9]

theorem before9 (t : Fin cfg9.N) : (∀ d, (dat9 V c).before 0 t d = iblk9 V c 0 t) ∧ (∀ d, (dat9 V c).before 1 t d = iblk9 V c 1 t)
    ∧ (∀ d, (dat9 V c).before 2 t d = iblk9 V c 2 t) ∧ ∀ d, (dat9 V c).before 3 t d = iblk9 V c 3 t := by
  refine ⟨?_, ?_, ?_, ?_⟩ <;> exact (dat9 V c).before_in_eq_fetched _ rfl (fun _ => rfl) (fun _ _ _ => rfl) (fun _ => rfl) t

theorem body_obligation9 : Pipeline.BodyObligation (dat9 (F := F) V c) (defs₀ (F := F)) Variants.none () Set.univ := fun t => by
  rw [bigSep_W9, bigSep_W9]
  obtain ⟨e0, e1, e2, e3⟩ := before9 V c t
  simp only [e0, e1, e2, e3]; dsimp only [dat9]
  sl_whnfR [defs₀, Defs.onTc]
  sl_unfold [cc9_edge_attn_kernel, k9_part1]
  unfold owns
  iintro ⟨HΦ, Ho, ⟨%_, %f0, %h0, H0⟩, ⟨%_, %f1, %h1, H1⟩, ⟨%_, %f2, %h2, H2⟩, ⟨%_, %f3, %h3, H3⟩, ⟨%_, %_, -, H4⟩, %_, %_, -, H5⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  isplitl [H3]; · iexists _; iframe H3; ipureintro; exact h3
  isplitl [H4] <;> (iexists _; iframe; ipureintro)
  all_goals exact h0 ▸ h1 ▸ h2 ▸ h3 ▸ View.read_writes_eq_canon _ _ _ (View.cover_of_tiled _ S4096x128.size (by rfl))

end Cert.Kernel.Hand
-- ==== Proof.K.R10.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk10 (w : Fin cfg10.W) (t : Fin cfg10.N) : ((cfg10.win w).xblock (cfg10.grid.coords t)).Idx → Elt F (cfg10.win w).elt :=
  ((cfg10.win w).blk t).view.read (Elt F) (V c (Pipeline.arrRef spec10 w))

def out10_3 (x0 : Vec F S8192x128 .f32) (x1 : Vec F S128x128 .f32) (x2 : Vec F S1x128 .f32) : Vec F S8192x128 .f32 :=
  View.canon [⟨.unit ![0, 0] _ inb_S8192x128_S8192x128_0_0, k10_pay1 (View.ld x0 (.unit ![0, 0] _ inb_S8192x128_S8192x128_0_0))
    (View.ld x1 (.unit ![0, 0] _ inb_S128x128_S128x128_0_0)) (View.ld x2 (.unit ![0, 0] _ inb_S1x128_S1x128_0_0))⟩]

def dat10 : Pipeline.Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (w : Fin cfg10.W) : (dat10 V c).A w = V c (Pipeline.arrRef spec10 w) := rfl

theorem after10_3 (t : Fin cfg10.N) : (dat10 V c).after 3 t = out10_3 (iblk10 V c 0 t) (iblk10 V c 1 t) (iblk10 V c 2 t) := by
  dsimp only [dat10]

theorem before10 (t : Fin cfg10.N) : (∀ d, (dat10 V c).before 0 t d = iblk10 V c 0 t)
    ∧ (∀ d, (dat10 V c).before 1 t d = iblk10 V c 1 t) ∧ ∀ d, (dat10 V c).before 2 t d = iblk10 V c 2 t := by
  refine ⟨?_, ?_, ?_⟩ <;> exact (dat10 V c).before_in_eq_fetched _ rfl (fun _ => rfl) (fun _ _ _ => rfl) (fun _ => rfl) t

theorem body_obligation10 : Pipeline.BodyObligation (dat10 (F := F) V c) (defs₀ (F := F)) Variants.none () Set.univ := fun t => by
  rw [bigSep_W10, bigSep_W10]
  obtain ⟨e0, e1, e2⟩ := before10 V c t
  simp only [e0, e1, e2]; dsimp only [dat10]
  sl_whnfR [defs₀, Defs.onTc]
  sl_unfold [cc10_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.Kernel.Hand
-- ==== Proof.K.R11.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk11 (w : Fin cfg11.W) (t : Fin cfg11.N) : ((cfg11.win w).xblock (cfg11.grid.coords t)).Idx → Elt F (cfg11.win w).elt :=
  ((cfg11.win w).blk t).view.read (Elt F) (V c (Pipeline.arrRef spec11 w))

def out11_3 (x0 : Vec F S4096x128 .f32) (x1 : Vec F S128x256 .f32) (x2 : Vec F S1x256 .f32) : Vec F S4096x256 .f32 :=
  View.canon [⟨.unit ![0, 0] _ inb_S4096x256_S4096x256_0_0, k11_pay1 (View.ld x0 (.unit ![0, 0] _ inb_S4096x128_S4096x128_0_0))
    (View.ld x1 (.unit ![0, 0] _ inb_S128x256_S128x256_0_0)) (View.ld x2 (.unit ![0, 0] _ inb_S1x256_S1x256_0_0))⟩]

def dat11 : Pipeline.Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (w : Fin cfg11.W) : (dat11 V c).A w = V c (Pipeline.arrRef spec11 w) := rfl

theorem after11_3 (t : Fin cfg11.N) : (dat11 V c).after 3 t = out11_3 (iblk11 V c 0 t) (iblk11 V c 1 t) (iblk11 V c 2 t) := by
  dsimp only [dat11]

theorem before11 (t : Fin cfg11.N) : (∀ d, (dat11 V c).before 0 t d = iblk11 V c 0 t)
    ∧ (∀ d, (dat11 V c).before 1 t d = iblk11 V c 1 t) ∧ ∀ d, (dat11 V c).before 2 t d = iblk11 V c 2 t := by
  refine ⟨?_, ?_, ?_⟩ <;> exact (dat11 V c).before_in_eq_fetched _ rfl (fun _ => rfl) (fun _ _ _ => rfl) (fun _ => rfl) t

theorem body_obligation11 : Pipeline.BodyObligation (dat11 (F := F) V c) (defs₀ (F := F)) Variants.none () Set.univ := fun t => by
  rw [bigSep_W11, bigSep_W11]
  obtain ⟨e0, e1, e2⟩ := before11 V c t
  simp only [e0, e1, e2]; dsimp only [dat11]
  sl_whnfR [defs₀, Defs.onTc]
  sl_unfold [cc11_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x256.size (by rfl))

end Cert.Kernel.Hand
-- ==== Proof.K.R12.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk12 (w : Fin cfg12.W) (t : Fin cfg12.N) : ((cfg12.win w).xblock (cfg12.grid.coords t)).Idx → Elt F (cfg12.win w).elt :=
  ((cfg12.win w).blk t).view.read (Elt F) (V c (Pipeline.arrRef spec12 w))

def out12_3 (x0 : Vec F S4096x256 .f32) (x1 : Vec F S256x128 .f32) (x2 : Vec F S1x128 .f32) : Vec F S4096x128 .f32 :=
  View.canon [⟨.unit ![0, 0] _ inb_S4096x128_S4096x128_0_0, k12_pay1 (View.ld x0 (.unit ![0, 0] _ inb_S4096x256_S4096x256_0_0))
    (View.ld x1 (.unit ![0, 0] _ inb_S256x128_S256x128_0_0)) (View.ld x2 (.unit ![0, 0] _ inb_S1x128_S1x128_0_0))⟩]

def dat12 : Pipeline.Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (w : Fin cfg12.W) : (dat12 V c).A w = V c (Pipeline.arrRef spec12 w) := rfl

theorem after12_3 (t : Fin cfg12.N) : (dat12 V c).after 3 t = out12_3 (iblk12 V c 0 t) (iblk12 V c 1 t) (iblk12 V c 2 t) := by
  dsimp only [dat12]

theorem before12 (t : Fin cfg12.N) : (∀ d, (dat12 V c).before 0 t d = iblk12 V c 0 t)
    ∧ (∀ d, (dat12 V c).before 1 t d = iblk12 V c 1 t) ∧ ∀ d, (dat12 V c).before 2 t d = iblk12 V c 2 t := by
  refine ⟨?_, ?_, ?_⟩ <;> exact (dat12 V c).before_in_eq_fetched _ rfl (fun _ => rfl) (fun _ _ _ => rfl) (fun _ => rfl) t

theorem body_obligation12 : Pipeline.BodyObligation (dat12 (F := F) V c) (defs₀ (F := F)) Variants.none () Set.univ := fun t => by
  rw [bigSep_W12, bigSep_W12]
  obtain ⟨e0, e1, e2⟩ := before12 V c t
  simp only [e0, e1, e2]; dsimp only [dat12]
  sl_whnfR [defs₀, Defs.onTc]
  sl_unfold [cc12_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x128.size (by rfl))

end Cert.Kernel.Hand
-- ==== Proof.K.R13.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk13 (w : Fin cfg13.W) (t : Fin cfg13.N) : ((cfg13.win w).xblock (cfg13.grid.coords t)).Idx → Elt F (cfg13.win w).elt :=
  ((cfg13.win w).blk t).view.read (Elt F) (V c (Pipeline.arrRef spec13 w))

def out13_3 (x0 : Vec F S4096x128 .f32) (x1 : Vec F S128x384 .f32) (x2 : Vec F S1x384 .f32) : Vec F S4096x384 .f32 :=
  View.canon [⟨.unit ![0, 0] _ inb_S4096x384_S4096x384_0_0, k13_pay1 (View.ld x0 (.unit ![0, 0] _ inb_S4096x128_S4096x128_0_0))
    (View.ld x1 (.unit ![0, 0] _ inb_S128x384_S128x384_0_0)) (View.ld x2 (.unit ![0, 0] _ inb_S1x384_S1x384_0_0))⟩]

def dat13 : Pipeline.Dat τ (Elt F) Unit ℕ (Pipeline.UD sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (w : Fin cfg13.W) : (dat13 V c).A w = V c (Pipeline.arrRef spec13 w) := rfl

theorem after13_3 (t : Fin cfg13.N) : (dat13 V c).after 3 t = out13_3 (iblk13 V c 0 t) (iblk13 V c 1 t) (iblk13 V c 2 t) := by
  dsimp only [dat13]

theorem before13 (t : Fin cfg13.N) : (∀ d, (dat13 V c).before 0 t d = iblk13 V c 0 t)
    ∧ (∀ d, (dat13 V c).before 1 t d = iblk13 V c 1 t) ∧ ∀ d, (dat13 V c).before 2 t d = iblk13 V c 2 t := by
  refine ⟨?_, ?_, ?_⟩ <;> exact (dat13 V c).before_in_eq_fetched _ rfl (fun _ => rfl) (fun _ _ _ => rfl) (fun _ => rfl) t

theorem body_obligation13 : Pipeline.BodyObligation (dat13 (F := F) V c) (defs₀ (F := F)) Variants.none () Set.univ := fun t => by
  rw [bigSep_W13, bigSep_W13]
  obtain ⟨e0, e1, e2⟩ := before13 V c t
  simp only [e0, e1, e2]; dsimp only [dat13]
  sl_whnfR [defs₀, Defs.onTc]
  sl_unfold [cc13_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x384.size (by rfl))

end Cert.Kernel.Hand
-- ==== Proof.K.R14.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk14 (w : Fin cfg14.W) (t : Fin cfg14.N) : ((cfg14.win w).xblock (cfg14.grid.coords t)).Idx → Elt F (cfg14.win w).elt :=
  ((cfg14.win w).blk t).view.read (Elt F) (V c (Pipeline.arrRef spec14 w))

def out14_3 (x0 : Vec F S8192x128 .f32) (x1 : Vec F S128x128 .f32) (x2 : Vec F S1x128 .f32) : Vec F S8192x128 .f32 :=
  View.canon [⟨.unit ![0, 0] _ inb_S8192x128_S8192x128_0_0, k14_pay1 (View.ld x0 (.unit ![0, 0] _ inb_S8192x128_S8192x128_0_0))
    (View.ld x1 (.unit ![0, 0] _ inb_S128x128_S128x128_0_0)) (View.ld x2 (.unit ![0, 0] _ inb_S1x128_S1x128_0_0))⟩]

def dat14 : Pipeline.Dat τ (Elt F) Unit ℕ (Pipeline.UD sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

theorem A_eq14 (w : Fin cfg14.W) : (dat14 V c).A w = V c (Pipeline.arrRef spec14 w) := rfl

theorem after14_3 (t : Fin cfg14.N) : (dat14 V c).after 3 t = out14_3 (iblk14 V c 0 t) (iblk14 V c 1 t) (iblk14 V c 2 t) := by
  dsimp only [dat14]

theorem before14 (t : Fin cfg14.N) : (∀ d, (dat14 V c).before 0 t d = iblk14 V c 0 t)
    ∧ (∀ d, (dat14 V c).before 1 t d = iblk14 V c 1 t) ∧ ∀ d, (dat14 V c).before 2 t d = iblk14 V c 2 t := by
  refine ⟨?_, ?_, ?_⟩ <;> exact (dat14 V c).before_in_eq_fetched _ rfl (fun _ => rfl) (fun _ _ _ => rfl) (fun _ => rfl) t

theorem body_obligation14 : Pipeline.BodyObligation (dat14 (F := F) V c) (defs₀ (F := F)) Variants.none () Set.univ := fun t => by
  rw [bigSep_W14, bigSep_W14]
  obtain ⟨e0, e1, e2⟩ := before14 V c t
  simp only [e0, e1, e2]; dsimp only [dat14]
  sl_whnfR [defs₀, Defs.onTc]
  sl_unfold [cc14_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.Kernel.Hand
-- ==== Proof.K.R15.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk15 (w : Fin cfg15.W) (t : Fin cfg15.N) : ((cfg15.win w).xblock (cfg15.grid.coords t)).Idx → Elt F (cfg15.win w).elt :=
  ((cfg15.win w).blk t).view.read (Elt F) (V c (Pipeline.arrRef spec15 w))

noncomputable abbrev r15_0 : Rect S4096x128 := .unit ![0, 0] _ inb_S4096x128_S4096x128_0_0

theorem off15_0 : (![0, 0] : Fin 2 → ℕ) = fun _ => 0 := by decide

def out15_4 (x0 x1 x2 x3 : Vec F S4096x128 .f32) : Vec F S4096x128 .f32 :=
  View.canon [⟨r15_0, k15_pay3 (View.ld x0 r15_0) (View.ld x1 r15_0) (View.ld x3 r15_0)⟩]

def out15_5 (x0 x1 x2 x3 : Vec F S4096x128 .f32) : Vec F S4096x128 .f32 :=
  View.canon [⟨r15_0, k15_pay1 (k15_pay2 (View.ld x2 r15_0)) (k15_pay3 (View.ld x0 r15_0) (View.ld x1 r15_0) (View.ld x3 r15_0))⟩]

def dat15 : Pipeline.Dat τ (Elt F) Unit ℕ (Pipeline.UD sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => out15_4 (iblk15 V c 0 t) (iblk15 V c 1 t) (iblk15 V c 2 t) (iblk15 V c 3 t)
    | ⟨5, _⟩ => out15_5 (iblk15 V c 0 t) (iblk15 V c 1 t) (iblk15 V c 2 t) (iblk15 V c 3 t)
  Φ _ := Pipeline.ΦA spec15 c
  q _ := fullShare
  owed _ := 0

theorem A_eq15 (w : Fin cfg15.W) : (dat15 V c).A w = V c (Pipeline.arrRef spec15 w) := rfl

theorem after15_4 (t : Fin cfg15.N) :
    (dat15 V c).after 4 t = out15_4 (iblk15 V c 0 t) (iblk15 V c 1 t) (iblk15 V c 2 t) (iblk15 V c 3 t) := by dsimp only [dat15]

theorem after15_5 (t : Fin cfg15.N) :
    (dat15 V c).after 5 t = out15_5 (iblk15 V c 0 t) (iblk15 V c 1 t) (iblk15 V c 2 t) (iblk15 V c 3 t) := by dsimp only [dat15]

theorem before15 (t : Fin cfg15.N) : (∀ d, (dat15 V c).before 0 t d = iblk15 V c 0 t) ∧ (∀ d, (dat15 V c).before 1 t d = iblk15 V c 1 t)
    ∧ (∀ d, (dat15 V c).before 2 t d = iblk15 V c 2 t) ∧ ∀ d, (dat15 V c).before 3 t d = iblk15 V c 3 t := by
  refine ⟨?_, ?_, ?_, ?_⟩ <;> exact (dat15 V c).before_in_eq_fetched _ rfl (fun _ => rfl) (fun _ _ _ => rfl) (fun _ => rfl) t

theorem body_obligation15 : Pipeline.BodyObligation (dat15 (F := F) V c) (defs₀ (F := F)) Variants.none () Set.univ := fun t => by
  rw [bigSep_W15, bigSep_W15]
  obtain ⟨e0, e1, e2, e3⟩ := before15 V c t
  simp only [e0, e1, e2, e3]; dsimp only [dat15]
  sl_whnfR [defs₀, Defs.onTc]
  sl_unfold [cc15_edge_attn_kernel, k15_part1]
  unfold owns
  iintro ⟨HΦ, Ho, ⟨%_, %f0, %h0, H0⟩, ⟨%_, %f1, %h1, H1⟩, ⟨%_, %f2, %h2, H2⟩, ⟨%_, %f3, %h3, H3⟩, ⟨%_, %_, -, H4⟩, %_, %_, -, H5⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  isplitl [H3]; · iexists _; iframe H3; ipureintro; exact h3
  isplitl [H4] <;> (iexists _; iframe; ipureintro)
  all_goals exact h0 ▸ h1 ▸ h2 ▸ h3 ▸ View.read_writes_eq_canon _ _ _ (View.cover_of_tiled _ S4096x128.size (by rfl))

end Cert.Kernel.Hand
-- ==== Proof.K.R16.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk16 (w : Fin cfg16.W) (t : Fin cfg16.N) : ((cfg16.win w).xblock (cfg16.grid.coords t)).Idx → Elt F (cfg16.win w).elt :=
  ((cfg16.win w).blk t).view.read (Elt F) (V c (Pipeline.arrRef spec16 w))

def out16_3 (x0 : Vec F S8192x128 .f32) (x1 : Vec F S128x128 .f32) (x2 : Vec F S1x128 .f32) : Vec F S8192x128 .f32 :=
  View.canon [⟨.unit ![0, 0] _ inb_S8192x128_S8192x128_0_0, k16_pay1 (View.ld x0 (.unit ![0, 0] _ inb_S8192x128_S8192x128_0_0))
    (View.ld x1 (.unit ![0, 0] _ inb_S128x128_S128x128_0_0)) (View.ld x2 (.unit ![0, 0] _ inb_S1x128_S1x128_0_0))⟩]

def dat16 : Pipeline.Dat τ (Elt F) Unit ℕ (Pipeline.UD sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16_3 (iblk16 V c 0 t) (iblk16 V c 1 t) (iblk16 V c 2 t)
  Φ _ := Pipeline.ΦA spec16 c
  q _ := fullShare
  owed _ := 0

theorem A_eq16 (w : Fin cfg16.W) : (dat16 V c).A w = V c (Pipeline.arrRef spec16 w) := rfl

theorem after16_3 (t : Fin cfg16.N) : (dat16 V c).after 3 t = out16_3 (iblk16 V c 0 t) (iblk16 V c 1 t) (iblk16 V c 2 t) := by
  dsimp only [dat16]

theorem before16 (t : Fin cfg16.N) : (∀ d, (dat16 V c).before 0 t d = iblk16 V c 0 t)
    ∧ (∀ d, (dat16 V c).before 1 t d = iblk16 V c 1 t) ∧ ∀ d, (dat16 V c).before 2 t d = iblk16 V c 2 t := by
  refine ⟨?_, ?_, ?_⟩ <;> exact (dat16 V c).before_in_eq_fetched _ rfl (fun _ => rfl) (fun _ _ _ => rfl) (fun _ => rfl) t

theorem body_obligation16 : Pipeline.BodyObligation (dat16 (F := F) V c) (defs₀ (F := F)) Variants.none () Set.univ := fun t => by
  rw [bigSep_W16, bigSep_W16]
  obtain ⟨e0, e1, e2⟩ := before16 V c t
  simp only [e0, e1, e2]; dsimp only [dat16]
  sl_whnfR [defs₀, Defs.onTc]
  sl_unfold [cc16_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.Kernel.Hand
-- ==== Proof.K.R17.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk17 (w : Fin cfg17.W) (t : Fin cfg17.N) : ((cfg17.win w).xblock (cfg17.grid.coords t)).Idx → Elt F (cfg17.win w).elt :=
  ((cfg17.win w).blk t).view.read (Elt F) (V c (Pipeline.arrRef spec17 w))

def out17_3 (x0 : Vec F S4096x128 .f32) (x1 : Vec F S128x256 .f32) (x2 : Vec F S1x256 .f32) : Vec F S4096x256 .f32 :=
  View.canon [⟨.unit ![0, 0] _ inb_S4096x256_S4096x256_0_0, k17_pay1 (View.ld x0 (.unit ![0, 0] _ inb_S4096x128_S4096x128_0_0))
    (View.ld x1 (.unit ![0, 0] _ inb_S128x256_S128x256_0_0)) (View.ld x2 (.unit ![0, 0] _ inb_S1x256_S1x256_0_0))⟩]

def dat17 : Pipeline.Dat τ (Elt F) Unit ℕ (Pipeline.UD sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

theorem A_eq17 (w : Fin cfg17.W) : (dat17 V c).A w = V c (Pipeline.arrRef spec17 w) := rfl

theorem after17_3 (t : Fin cfg17.N) : (dat17 V c).after 3 t = out17_3 (iblk17 V c 0 t) (iblk17 V c 1 t) (iblk17 V c 2 t) := by
  dsimp only [dat17]

theorem before17 (t : Fin cfg17.N) : (∀ d, (dat17 V c).before 0 t d = iblk17 V c 0 t)
    ∧ (∀ d, (dat17 V c).before 1 t d = iblk17 V c 1 t) ∧ ∀ d, (dat17 V c).before 2 t d = iblk17 V c 2 t := by
  refine ⟨?_, ?_, ?_⟩ <;> exact (dat17 V c).before_in_eq_fetched _ rfl (fun _ => rfl) (fun _ _ _ => rfl) (fun _ => rfl) t

theorem body_obligation17 : Pipeline.BodyObligation (dat17 (F := F) V c) (defs₀ (F := F)) Variants.none () Set.univ := fun t => by
  rw [bigSep_W17, bigSep_W17]
  obtain ⟨e0, e1, e2⟩ := before17 V c t
  simp only [e0, e1, e2]; dsimp only [dat17]
  sl_whnfR [defs₀, Defs.onTc]
  sl_unfold [cc17_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x256.size (by rfl))

end Cert.Kernel.Hand
-- ==== Proof.K.R18.lean ====
import proofs.«113847_j61718680043593_1_alg».proof.Proof.Gen.Kernel.Launch
import proofs.«113847_j61718680043593_1_alg».proof.Proof.Gen.Kernel.Skeleton
import Idealize.ShloMosaic.Lib.Pipeline.FrameBody
import Idealize.ShloMosaic.Lib.Tactic

noncomputable section

namespace Cert.Kernel.Hand

open Cert.Kernel Cert.Kernel.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk18 (w : Fin cfg18.W) (t : Fin cfg18.N) : ((cfg18.win w).xblock (cfg18.grid.coords t)).Idx → Elt F (cfg18.win w).elt :=
  ((cfg18.win w).blk t).view.read (Elt F) (V c (Pipeline.arrRef spec18 w))

def out18_3 (x0 : Vec F S4096x256 .f32) (x1 : Vec F S256x128 .f32) (x2 : Vec F S1x128 .f32) : Vec F S4096x128 .f32 :=
  View.canon [⟨.unit ![0, 0] _ inb_S4096x128_S4096x128_0_0, k18_pay1 (View.ld x0 (.unit ![0, 0] _ inb_S4096x256_S4096x256_0_0))
    (View.ld x1 (.unit ![0, 0] _ inb_S256x128_S256x128_0_0)) (View.ld x2 (.unit ![0, 0] _ inb_S1x128_S1x128_0_0))⟩]

def dat18 : Pipeline.Dat τ (Elt F) Unit ℕ (Pipeline.UD sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => out18_3 (iblk18 V c 0 t) (iblk18 V c 1 t) (iblk18 V c 2 t)
  Φ _ := Pipeline.ΦA spec18 c
  q _ := fullShare
  owed _ := 0

theorem A_eq18 (w : Fin cfg18.W) : (dat18 V c).A w = V c (Pipeline.arrRef spec18 w) := rfl

theorem after18_3 (t : Fin cfg18.N) : (dat18 V c).after 3 t = out18_3 (iblk18 V c 0 t) (iblk18 V c 1 t) (iblk18 V c 2 t) := by
  dsimp only [dat18]

theorem before18 (t : Fin cfg18.N) : (∀ d, (dat18 V c).before 0 t d = iblk18 V c 0 t)
    ∧ (∀ d, (dat18 V c).before 1 t d = iblk18 V c 1 t) ∧ ∀ d, (dat18 V c).before 2 t d = iblk18 V c 2 t := by
  refine ⟨?_, ?_, ?_⟩ <;> exact (dat18 V c).before_in_eq_fetched _ rfl (fun _ => rfl) (fun _ _ _ => rfl) (fun _ => rfl) t

theorem body_obligation18 : Pipeline.BodyObligation (dat18 (F := F) V c) (defs₀ (F := F)) Variants.none () Set.univ := fun t => by
  rw [bigSep_W18, bigSep_W18]
  obtain ⟨e0, e1, e2⟩ := before18 V c t
  simp only [e0, e1, e2]; dsimp only [dat18]
  sl_whnfR [defs₀, Defs.onTc]
  sl_unfold [cc18_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x128.size (by rfl))

end Cert.Kernel.Hand
-- ==== Proof.K.Run.lean ====
import proofs.«113847_j61718680043593_1_alg».proof.Proof.K.RegionsP
import proofs.«113847_j61718680043593_1_alg».proof.Proof.K.R0
import proofs.«113847_j61718680043593_1_alg».proof.Proof.K.R1
import proofs.«113847_j61718680043593_1_alg».proof.Proof.K.R2
import proofs.«113847_j61718680043593_1_alg».proof.Proof.K.R3
import proofs.«113847_j61718680043593_1_alg».proof.Proof.K.R4
import proofs.«113847_j61718680043593_1_alg».proof.Proof.K.R5
import proofs.«113847_j61718680043593_1_alg».proof.Proof.K.R6
import proofs.«113847_j61718680043593_1_alg».proof.Proof.K.R7
import proofs.«113847_j61718680043593_1_alg».proof.Proof.K.R8
import proofs.«113847_j61718680043593_1_alg».proof.Proof.K.R9
import proofs.«113847_j61718680043593_1_alg».proof.Proof.K.R10
import proofs.«113847_j61718680043593_1_alg».proof.Proof.K.R11
import proofs.«113847_j61718680043593_1_alg».proof.Proof.K.R12
import proofs.«113847_j61718680043593_1_alg».proof.Proof.K.R13
import proofs.«113847_j61718680043593_1_alg».proof.Proof.K.R14
import proofs.«113847_j61718680043593_1_alg».proof.Proof.K.R15
import proofs.«113847_j61718680043593_1_alg».proof.Proof.K.R16
import proofs.«113847_j61718680043593_1_alg».proof.Proof.K.R17
import proofs.«113847_j61718680043593_1_alg».proof.Proof.K.R18
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

def outs0 : Outs (F := F) := fun _ r c => m ((c : Thread nD τ).loc r)

abbrev Ve0 : (c : Dev nD) → (b : Ref sig .tc) → Buf (Elt F) ((c : Thread nD τ).loc b) := fun c b => (GenP.V1 m c) b
def o2 (r : Ref sig .tc) (c : Dev nD) : Buf (Elt F) ((c : Thread nD τ).loc r) :=
  Pipeline.withArrays spec0 c (GenP.V1 m c) (fun w => (dat0 (Ve0 m) c).arrAt w cfg0.N) r
def outs2 : Outs (F := F) := fun J r c => match J with
  | 2 => o2 m r c
  | _ => outs0 m J r c

abbrev Ve1 : (c : Dev nD) → (b : Ref sig .tc) → Buf (Elt F) ((c : Thread nD τ).loc b) := fun c b => (GenP.V3 m (outs2 m) c) b
def o4 (r : Ref sig .tc) (c : Dev nD) : Buf (Elt F) ((c : Thread nD τ).loc r) :=
  Pipeline.withArrays spec1 c (GenP.V3 m (outs2 m) c) (fun w => (dat1 (Ve1 m) c).arrAt w cfg1.N) r
def outs4 : Outs (F := F) := fun J r c => match J with
  | 4 => o4 m r c
  | _ => outs2 m J r c

abbrev Ve2 : (c : Dev nD) → (b : Ref sig .tc) → Buf (Elt F) ((c : Thread nD τ).loc b) := fun c b => (GenP.V5 m (outs4 m) c) b
def o6 (r : Ref sig .tc) (c : Dev nD) : Buf (Elt F) ((c : Thread nD τ).loc r) :=
  Pipeline.withArrays spec2 c (GenP.V5 m (outs4 m) c) (fun w => (dat2 (Ve2 m) c).arrAt w cfg2.N) r
def outs6 : Outs (F := F) := fun J r c => match J with
  | 6 => o6 m r c
  | _ => outs4 m J r c

abbrev Ve3 : (c : Dev nD) → (b : Ref sig .tc) → Buf (Elt F) ((c : Thread nD τ).loc b) := fun c b => (GenP.V7 m (outs6 m) c) b
def o8 (r : Ref sig .tc) (c : Dev nD) : Buf (Elt F) ((c : Thread nD τ).loc r) :=
  Pipeline.withArrays spec3 c (GenP.V7 m (outs6 m) c) (fun w => (dat3 (Ve3 m) c).arrAt w cfg3.N) r
def outs8 : Outs (F := F) := fun J r c => match J with
  | 8 => o8 m r c
  | _ => outs6 m J r c

abbrev Ve4 : (c : Dev nD) → (b : Ref sig .tc) → Buf (Elt F) ((c : Thread nD τ).loc b) := fun c b => (GenP.V9 m (outs8 m) c) b
def o10 (r : Ref sig .tc) (c : Dev nD) : Buf (Elt F) ((c : Thread nD τ).loc r) :=
  Pipeline.withArrays spec4 c (GenP.V9 m (outs8 m) c) (fun w => (dat4 (Ve4 m) c).arrAt w cfg4.N) r
def outs10 : Outs (F := F) := fun J r c => match J with
  | 10 => o10 m r c
  | _ => outs8 m J r c

abbrev Ve5 : (c : Dev nD) → (b : Ref sig .tc) → Buf (Elt F) ((c : Thread nD τ).loc b) := fun c b => (GenP.V13 m (outs10 m) c) b
def o14 (r : Ref sig .tc) (c : Dev nD) : Buf (Elt F) ((c : Thread nD τ).loc r) :=
  Pipeline.withArrays spec5 c (GenP.V13 m (outs10 m) c) (fun w => (dat5 (Ve5 m) c).arrAt w cfg5.N) r
def outs14 : Outs (F := F) := fun J r c => match J with
  | 14 => o14 m r c
  | _ => outs10 m J r c

abbrev Ve6 : (c : Dev nD) → (b : Ref sig .tc) → Buf (Elt F) ((c : Thread nD τ).loc b) := fun c b => (GenP.V16 m (outs14 m) c) b
def o17 (r : Ref sig .tc) (c : Dev nD) : Buf (Elt F) ((c : Thread nD τ).loc r) :=
  Pipeline.withArrays spec6 c (GenP.V16 m (outs14 m) c) (fun w => (dat6 (Ve6 m) c).arrAt w cfg6.N) r
def outs17 : Outs (F := F) := fun J r c => match J with
  | 17 => o17 m r c
  | _ => outs14 m J r c

abbrev Ve7 : (c : Dev nD) → (b : Ref sig .tc) → Buf (Elt F) ((c : Thread nD τ).loc b) := fun c b => (GenP.V20 m (outs17 m) c) b
def o21 (r : Ref sig .tc) (c : Dev nD) : Buf (Elt F) ((c : Thread nD τ).loc r) :=
  Pipeline.withArrays spec7 c (GenP.V20 m (outs17 m) c) (fun w => (dat7 (Ve7 m) c).arrAt w cfg7.N) r
def outs21 : Outs (F := F) := fun J r c => match J with
  | 21 => o21 m r c
  | _ => outs17 m J r c

abbrev Ve8 : (c : Dev nD) → (b : Ref sig .tc) → Buf (Elt F) ((c : Thread nD τ).loc b) := fun c b => (GenP.V22 m (outs21 m) c) b
def o23 (r : Ref sig .tc) (c : Dev nD) : Buf (Elt F) ((c : Thread nD τ).loc r) :=
  Pipeline.withArrays spec8 c (GenP.V22 m (outs21 m) c) (fun w => (dat8 (Ve8 m) c).arrAt w cfg8.N) r
def outs23 : Outs (F := F) := fun J r c => match J with
  | 23 => o23 m r c
  | _ => outs21 m J r c

abbrev Ve9 : (c : Dev nD) → (b : Ref sig .tc) → Buf (Elt F) ((c : Thread nD τ).loc b) := fun c b => (GenP.V24 m (outs23 m) c) b
def o25 (r : Ref sig .tc) (c : Dev nD) : Buf (Elt F) ((c : Thread nD τ).loc r) :=
  Pipeline.withArrays spec9 c (GenP.V24 m (outs23 m) c) (fun w => (dat9 (Ve9 m) c).arrAt w cfg9.N) r
def outs25 : Outs (F := F) := fun J r c => match J with
  | 25 => o25 m r c
  | _ => outs23 m J r c

abbrev Ve10 : (c : Dev nD) → (b : Ref sig .tc) → Buf (Elt F) ((c : Thread nD τ).loc b) := fun c b => (GenP.V26 m (outs25 m) c) b
def o27 (r : Ref sig .tc) (c : Dev nD) : Buf (Elt F) ((c : Thread nD τ).loc r) :=
  Pipeline.withArrays spec10 c (GenP.V26 m (outs25 m) c) (fun w => (dat10 (Ve10 m) c).arrAt w cfg10.N) r
def outs27 : Outs (F := F) := fun J r c => match J with
  | 27 => o27 m r c
  | _ => outs25 m J r c

abbrev Ve11 : (c : Dev nD) → (b : Ref sig .tc) → Buf (Elt F) ((c : Thread nD τ).loc b) := fun c b => (GenP.V30 m (outs27 m) c) b
def o31 (r : Ref sig .tc) (c : Dev nD) : Buf (Elt F) ((c : Thread nD τ).loc r) :=
  Pipeline.withArrays spec11 c (GenP.V30 m (outs27 m) c) (fun w => (dat11 (Ve11 m) c).arrAt w cfg11.N) r
def outs31 : Outs (F := F) := fun J r c => match J with
  | 31 => o31 m r c
  | _ => outs27 m J r c

abbrev Ve12 : (c : Dev nD) → (b : Ref sig .tc) → Buf (Elt F) ((c : Thread nD τ).loc b) := fun c b => (GenP.V33 m (outs31 m) c) b
def o34 (r : Ref sig .tc) (c : Dev nD) : Buf (Elt F) ((c : Thread nD τ).loc r) :=
  Pipeline.withArrays spec12 c (GenP.V33 m (outs31 m) c) (fun w => (dat12 (Ve12 m) c).arrAt w cfg12.N) r
def outs34 : Outs (F := F) := fun J r c => match J with
  | 34 => o34 m r c
  | _ => outs31 m J r c

abbrev Ve13 : (c : Dev nD) → (b : Ref sig .tc) → Buf (Elt F) ((c : Thread nD τ).loc b) := fun c b => (GenP.V37 m (outs34 m) c) b
def o38 (r : Ref sig .tc) (c : Dev nD) : Buf (Elt F) ((c : Thread nD τ).loc r) :=
  Pipeline.withArrays spec13 c (GenP.V37 m (outs34 m) c) (fun w => (dat13 (Ve13 m) c).arrAt w cfg13.N) r
def outs38 : Outs (F := F) := fun J r c => match J with
  | 38 => o38 m r c
  | _ => outs34 m J r c

abbrev Ve14 : (c : Dev nD) → (b : Ref sig .tc) → Buf (Elt F) ((c : Thread nD τ).loc b) := fun c b => (GenP.V39 m (outs38 m) c) b
def o40 (r : Ref sig .tc) (c : Dev nD) : Buf (Elt F) ((c : Thread nD τ).loc r) :=
  Pipeline.withArrays spec14 c (GenP.V39 m (outs38 m) c) (fun w => (dat14 (Ve14 m) c).arrAt w cfg14.N) r
def outs40 : Outs (F := F) := fun J r c => match J with
  | 40 => o40 m r c
  | _ => outs38 m J r c

abbrev Ve15 : (c : Dev nD) → (b : Ref sig .tc) → Buf (Elt F) ((c : Thread nD τ).loc b) := fun c b => (GenP.V41 m (outs40 m) c) b
def o42 (r : Ref sig .tc) (c : Dev nD) : Buf (Elt F) ((c : Thread nD τ).loc r) :=
  Pipeline.withArrays spec15 c (GenP.V41 m (outs40 m) c) (fun w => (dat15 (Ve15 m) c).arrAt w cfg15.N) r
def outs42 : Outs (F := F) := fun J r c => match J with
  | 42 => o42 m r c
  | _ => outs40 m J r c

abbrev Ve16 : (c : Dev nD) → (b : Ref sig .tc) → Buf (Elt F) ((c : Thread nD τ).loc b) := fun c b => (GenP.V43 m (outs42 m) c) b
def o44 (r : Ref sig .tc) (c : Dev nD) : Buf (Elt F) ((c : Thread nD τ).loc r) :=
  Pipeline.withArrays spec16 c (GenP.V43 m (outs42 m) c) (fun w => (dat16 (Ve16 m) c).arrAt w cfg16.N) r
def outs44 : Outs (F := F) := fun J r c => match J with
  | 44 => o44 m r c
  | _ => outs42 m J r c

abbrev Ve17 : (c : Dev nD) → (b : Ref sig .tc) → Buf (Elt F) ((c : Thread nD τ).loc b) := fun c b => (GenP.V47 m (outs44 m) c) b
def o48 (r : Ref sig .tc) (c : Dev nD) : Buf (Elt F) ((c : Thread nD τ).loc r) :=
  Pipeline.withArrays spec17 c (GenP.V47 m (outs44 m) c) (fun w => (dat17 (Ve17 m) c).arrAt w cfg17.N) r
def outs48 : Outs (F := F) := fun J r c => match J with
  | 48 => o48 m r c
  | _ => outs44 m J r c

abbrev Ve18 : (c : Dev nD) → (b : Ref sig .tc) → Buf (Elt F) ((c : Thread nD τ).loc b) := fun c b => (GenP.V50 m (outs48 m) c) b
def o51 (r : Ref sig .tc) (c : Dev nD) : Buf (Elt F) ((c : Thread nD τ).loc r) :=
  Pipeline.withArrays spec18 c (GenP.V50 m (outs48 m) c) (fun w => (dat18 (Ve18 m) c).arrAt w cfg18.N) r
def outs51 : Outs (F := F) := fun J r c => match J with
  | 51 => o51 m r c
  | _ => outs48 m J r c

abbrev outsF : Outs (F := F) := outs51 m

def pdats : (p : Fin 19) → (c : Dev nD) → Dat τ (Elt F) Unit ℕ (Pipeline.UD sig nD τ) ℕ (cfgs p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c
  | ⟨4, _⟩ => fun c => dat4 (Ve4 m) c
  | ⟨5, _⟩ => fun c => dat5 (Ve5 m) c
  | ⟨6, _⟩ => fun c => dat6 (Ve6 m) c
  | ⟨7, _⟩ => fun c => dat7 (Ve7 m) c
  | ⟨8, _⟩ => fun c => dat8 (Ve8 m) c
  | ⟨9, _⟩ => fun c => dat9 (Ve9 m) c
  | ⟨10, _⟩ => fun c => dat10 (Ve10 m) c
  | ⟨11, _⟩ => fun c => dat11 (Ve11 m) c
  | ⟨12, _⟩ => fun c => dat12 (Ve12 m) c
  | ⟨13, _⟩ => fun c => dat13 (Ve13 m) c
  | ⟨14, _⟩ => fun c => dat14 (Ve14 m) c
  | ⟨15, _⟩ => fun c => dat15 (Ve15 m) c
  | ⟨16, _⟩ => fun c => dat16 (Ve16 m) c
  | ⟨17, _⟩ => fun c => dat17 (Ve17 m) c
  | ⟨18, _⟩ => fun c => dat18 (Ve18 m) c
  | ⟨_ + 19, h⟩ => absurd h (Nat.not_lt.2 (Nat.le_add_left _ _))

abbrev 𝒱h : Variants := Variants.none
abbrev Lh : GSem nD τ sig → Finset Unit := fun _ => ∅
abbrev lvh : GSem nD τ sig → Unit → ℕ := fun _ _ => 0
abbrev Rr (c : Dev nD) : sProp 𝕄 := iprop((∃ r, prngReg c r) ∗ ∃ W, owes (c : Thread nD τ) (0 : CellTallies nD τ sig Unit) W)

-- One kernel region as a segment: every unscoped buffer at Vi on entry and at Vo on exit, Vo differing from Vi only at the region's arrays.
set_option backward.isDefEq.respectTransparency.types false in
def regOf (p : Fin 19) (lf : Pipeline.LaunchFacts (nD := nD) (τ := τ) cfgs p) (Vi Vo : Dev nD → Valuation τ sig (Elt F))
    (hb : ∀ c, BodyObligation (pdats m p c) (defs₀ (F := F)) 𝒱h () Set.univ)
    (hq : ∀ c w, (pdats m p c).q w = fullShare) (hΦ : ∀ c t, (pdats m p c).Φ t = Pipeline.ΦA (cfgs p).spec c)
    (ho : ∀ c t, (pdats m p c).owed t = 0) (hrec : ∀ c t, (pdats m p c).recorded t = Set.univ)
    (hA : ∀ c w, (pdats m p c).A w = Vi c (Pipeline.arrRef (cfgs p).spec w))
    (hF : ∀ c w, (pdats m p c).arrAt w (cfgs p).N = Vo c (Pipeline.arrRef (cfgs p).spec w))
    (hrest : ∀ c, ∀ b : Ref sig .tc, b ∉ Finset.univ.image (Pipeline.arrRef (cfgs p).spec) → Vo c b = Vi c b) :
    RegionSeg (pcfgs (F := F)) GenP.adm (pdats m) () defs₀ 𝒱h Lh lvh p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ Lh lvh p ho
  pre c := iprop(StableHlo.held (c : Thread nD τ) (Pipeline.ucRefs τ sig) (Vi c) ∗ Rr c)
  post c := iprop(StableHlo.held (c : Thread nD τ) (Pipeline.ucRefs τ sig) (Vo c) ∗ Rr c)
  X c := iprop(∃ r, prngReg c r)
  Y c := iprop(∃ r, prngReg c r)
  Z c := Pipeline.unscopedRest (Ix := Unit) (Name := ℕ) (U := Pipeline.UD sig nD τ) (Lvl := ℕ) (cfgs p).spec c (fun b => Vi c b)
  hentry c := by
    rw [Pipeline.ownSems0_none]
    have hsplit := Pipeline.arrays_of_unscopedBufs (p := p) (pcfgs (F := F)) GenP.adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [ho c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) GenP.adm (Ix := Unit) (Name := ℕ) (U := Pipeline.UD sig nD τ) (Lvl := ℕ)
      lf.win lf.arr_whole c (pdats m) ((pdats m p c).share_full (hq c))
      (fun b => Vi c b) (fun b : Ref sig .tc => Vo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c (Fin.last _)]
    icases HO with ⟨%W, -, HO⟩; iexists W; iexact HO

theorem hF0 (c : Dev nD) (w : Fin cfg0.W) : (dat0 (Ve0 m) c).arrAt w cfg0.N = (GenP.V2 m (outs2 m) c) (Pipeline.arrRef spec0 w) := by
  match w with
  | ⟨0, _⟩ => exact ((dat0 (Ve0 m) c).arrAt_in ⟨0, by decide⟩ rfl _).trans ((A_eq0 (Ve0 m) c ⟨0, by decide⟩).trans (GenP.V2_of m (outs2 m) c _ (by decide)).symm)
  | ⟨1, _⟩ => exact ((dat0 (Ve0 m) c).arrAt_in ⟨1, by decide⟩ rfl _).trans ((A_eq0 (Ve0 m) c ⟨1, by decide⟩).trans (GenP.V2_of m (outs2 m) c _ (by decide)).symm)
  | ⟨2, _⟩ => exact ((dat0 (Ve0 m) c).arrAt_in ⟨2, by decide⟩ rfl _).trans ((A_eq0 (Ve0 m) c ⟨2, by decide⟩).trans (GenP.V2_of m (outs2 m) c _ (by decide)).symm)
  | ⟨3, _⟩ =>
    show _ = (GenP.V2 m (outs2 m) c) main_v4
    dsimp only [GenP.V2]
    rw [Function.update_self]
    show _ = o2 m main_v4 c
    exact (Pipeline.withArrays_arr spec0 launch0.win.arr_inj c (GenP.V1 m c) (fun w => (dat0 (Ve0 m) c).arrAt w cfg0.N) ⟨3, by decide⟩).symm

theorem hrest0 (c : Dev nD) (b : Ref sig .tc) (hb : b ∉ Finset.univ.image (Pipeline.arrRef spec0)) : (GenP.V2 m (outs2 m) c) b = Ve0 m c b :=
  GenP.V2_of m (outs2 m) c b (by
    intro h
    simp only [List.mem_cons, List.mem_nil_iff, or_false] at h
    subst h; exact hb (Finset.mem_image.mpr ⟨⟨3, by decide⟩, Finset.mem_univ _, rfl⟩))

def reg0 : RegionSeg (pcfgs (F := F)) GenP.adm (pdats m) () defs₀ 𝒱h Lh lvh 0 :=
  regOf m 0 launch0 (GenP.V1 m) (GenP.V2 m (outs2 m)) (body_obligation0 (Ve0 m))
    (fun _ _ => rfl) (fun _ _ => rfl) (fun _ _ => rfl) (fun _ _ => rfl) (fun _ _ => rfl) (hF0 m) (hrest0 m)

theorem hF1 (c : Dev nD) (w : Fin cfg1.W) : (dat1 (Ve1 m) c).arrAt w cfg1.N = (GenP.V4 m (outs4 m) c) (Pipeline.arrRef spec1 w) := by
  match w with
  | ⟨0, _⟩ => exact ((dat1 (Ve1 m) c).arrAt_in ⟨0, by decide⟩ rfl _).trans ((A_eq1 (Ve1 m) c ⟨0, by decide⟩).trans (GenP.V4_of m (outs4 m) c _ (by decide)).symm)
  | ⟨1, _⟩ => exact ((dat1 (Ve1 m) c).arrAt_in ⟨1, by decide⟩ rfl _).trans ((A_eq1 (Ve1 m) c ⟨1, by decide⟩).trans (GenP.V4_of m (outs4 m) c _ (by decide)).symm)
  | ⟨2, _⟩ => exact ((dat1 (Ve1 m) c).arrAt_in ⟨2, by decide⟩ rfl _).trans ((A_eq1 (Ve1 m) c ⟨2, by decide⟩).trans (GenP.V4_of m (outs4 m) c _ (by decide)).symm)
  | ⟨3, _⟩ =>
    show _ = (GenP.V4 m (outs4 m) c) main_v18
    dsimp only [GenP.V4]
    rw [Function.update_self]
    show _ = o4 m main_v18 c
    exact (Pipeline.withArrays_arr spec1 launch1.win.arr_inj c (GenP.V3 m (outs2 m) c) (fun w => (dat1 (Ve1 m) c).arrAt w cfg1.N) ⟨3, by decide⟩).symm

theorem hrest1 (c : Dev nD) (b : Ref sig .tc) (hb : b ∉ Finset.univ.image (Pipeline.arrRef spec1)) : (GenP.V4 m (outs4 m) c) b = Ve1 m c b :=
  GenP.V4_of m (outs4 m) c b (by
    intro h
    simp only [List.mem_cons, List.mem_nil_iff, or_false] at h
    subst h; exact hb (Finset.mem_image.mpr ⟨⟨3, by decide⟩, Finset.mem_univ _, rfl⟩))

def reg1 : RegionSeg (pcfgs (F := F)) GenP.adm (pdats m) () defs₀ 𝒱h Lh lvh 1 :=
  regOf m 1 launch1 (GenP.V3 m (outs2 m)) (GenP.V4 m (outs4 m)) (body_obligation1 (Ve1 m))
    (fun _ _ => rfl) (fun _ _ => rfl) (fun _ _ => rfl) (fun _ _ => rfl) (fun _ _ => rfl) (hF1 m) (hrest1 m)

theorem hF2 (c : Dev nD) (w : Fin cfg2.W) : (dat2 (Ve2 m) c).arrAt w cfg2.N = (GenP.V6 m (outs6 m) c) (Pipeline.arrRef spec2 w) := by
  match w with
  | ⟨0, _⟩ => exact ((dat2 (Ve2 m) c).arrAt_in ⟨0, by decide⟩ rfl _).trans ((A_eq2 (Ve2 m) c ⟨0, by decide⟩).trans (GenP.V6_of m (outs6 m) c _ (by decide)).symm)
  | ⟨1, _⟩ => exact ((dat2 (Ve2 m) c).arrAt_in ⟨1, by decide⟩ rfl _).trans ((A_eq2 (Ve2 m) c ⟨1, by decide⟩).trans (GenP.V6_of m (outs6 m) c _ (by decide)).symm)
  | ⟨2, _⟩ => exact ((dat2 (Ve2 m) c).arrAt_in ⟨2, by decide⟩ rfl _).trans ((A_eq2 (Ve2 m) c ⟨2, by decide⟩).trans (GenP.V6_of m (outs6 m) c _ (by decide)).symm)
  | ⟨3, _⟩ =>
    show _ = (GenP.V6 m (outs6 m) c) main_v24
    dsimp only [GenP.V6]
    rw [Function.update_self]
    show _ = o6 m main_v24 c
    exact (Pipeline.withArrays_arr spec2 launch2.win.arr_inj c (GenP.V5 m (outs4 m) c) (fun w => (dat2 (Ve2 m) c).arrAt w cfg2.N) ⟨3, by decide⟩).symm

theorem hrest2 (c : Dev nD) (b : Ref sig .tc) (hb : b ∉ Finset.univ.image (Pipeline.arrRef spec2)) : (GenP.V6 m (outs6 m) c) b = Ve2 m c b :=
  GenP.V6_of m (outs6 m) c b (by
    intro h
    simp only [List.mem_cons, List.mem_nil_iff, or_false] at h
    subst h; exact hb (Finset.mem_image.mpr ⟨⟨3, by decide⟩, Finset.mem_univ _, rfl⟩))

def reg2 : RegionSeg (pcfgs (F := F)) GenP.adm (pdats m) () defs₀ 𝒱h Lh lvh 2 :=
  regOf m 2 launch2 (GenP.V5 m (outs4 m)) (GenP.V6 m (outs6 m)) (body_obligation2 (Ve2 m))
    (fun _ _ => rfl) (fun _ _ => rfl) (fun _ _ => rfl) (fun _ _ => rfl) (fun _ _ => rfl) (hF2 m) (hrest2 m)

theorem hF3 (c : Dev nD) (w : Fin cfg3.W) : (dat3 (Ve3 m) c).arrAt w cfg3.N = (GenP.V8 m (outs8 m) c) (Pipeline.arrRef spec3 w) := by
  match w with
  | ⟨0, _⟩ => exact ((dat3 (Ve3 m) c).arrAt_in ⟨0, by decide⟩ rfl _).trans ((A_eq3 (Ve3 m) c ⟨0, by decide⟩).trans (GenP.V8_of m (outs8 m) c _ (by decide)).symm)
  | ⟨1, _⟩ => exact ((dat3 (Ve3 m) c).arrAt_in ⟨1, by decide⟩ rfl _).trans ((A_eq3 (Ve3 m) c ⟨1, by decide⟩).trans (GenP.V8_of m (outs8 m) c _ (by decide)).symm)
  | ⟨2, _⟩ => exact ((dat3 (Ve3 m) c).arrAt_in ⟨2, by decide⟩ rfl _).trans ((A_eq3 (Ve3 m) c ⟨2, by decide⟩).trans (GenP.V8_of m (outs8 m) c _ (by decide)).symm)
  | ⟨3, _⟩ => exact ((dat3 (Ve3 m) c).arrAt_in ⟨3, by decide⟩ rfl _).trans ((A_eq3 (Ve3 m) c ⟨3, by decide⟩).trans (GenP.V8_of m (outs8 m) c _ (by decide)).symm)
  | ⟨4, _⟩ =>
    show _ = (GenP.V8 m (outs8 m) c) main_v46_0
    dsimp only [GenP.V8]
    rw [Function.update_of_ne (by decide), Function.update_self]
    show _ = o8 m main_v46_0 c
    exact (Pipeline.withArrays_arr spec3 launch3.win.arr_inj c (GenP.V7 m (outs6 m) c) (fun w => (dat3 (Ve3 m) c).arrAt w cfg3.N) ⟨4, by decide⟩).symm
  | ⟨5, _⟩ =>
    show _ = (GenP.V8 m (outs8 m) c) main_v46_1
    dsimp only [GenP.V8]
    rw [Function.update_self]
    show _ = o8 m main_v46_1 c
    exact (Pipeline.withArrays_arr spec3 launch3.win.arr_inj c (GenP.V7 m (outs6 m) c) (fun w => (dat3 (Ve3 m) c).arrAt w cfg3.N) ⟨5, by decide⟩).symm

theorem hrest3 (c : Dev nD) (b : Ref sig .tc) (hb : b ∉ Finset.univ.image (Pipeline.arrRef spec3)) : (GenP.V8 m (outs8 m) c) b = Ve3 m c b :=
  GenP.V8_of m (outs8 m) c b (by
    intro h
    simp only [List.mem_cons, List.mem_nil_iff, or_false] at h
    rcases h with h | h <;> subst h
    · exact hb (Finset.mem_image.mpr ⟨⟨4, by decide⟩, Finset.mem_univ _, rfl⟩)
    · exact hb (Finset.mem_image.mpr ⟨⟨5, by decide⟩, Finset.mem_univ _, rfl⟩))

def reg3 : RegionSeg (pcfgs (F := F)) GenP.adm (pdats m) () defs₀ 𝒱h Lh lvh 3 :=
  regOf m 3 launch3 (GenP.V7 m (outs6 m)) (GenP.V8 m (outs8 m)) (body_obligation3 (Ve3 m))
    (fun _ _ => rfl) (fun _ _ => rfl) (fun _ _ => rfl) (fun _ _ => rfl) (fun _ _ => rfl) (hF3 m) (hrest3 m)

theorem hF4 (c : Dev nD) (w : Fin cfg4.W) : (dat4 (Ve4 m) c).arrAt w cfg4.N = (GenP.V10 m (outs10 m) c) (Pipeline.arrRef spec4 w) := by
  match w with
  | ⟨0, _⟩ => exact ((dat4 (Ve4 m) c).arrAt_in ⟨0, by decide⟩ rfl _).trans ((A_eq4 (Ve4 m) c ⟨0, by decide⟩).trans (GenP.V10_of m (outs10 m) c _ (by decide)).symm)
  | ⟨1, _⟩ => exact ((dat4 (Ve4 m) c).arrAt_in ⟨1, by decide⟩ rfl _).trans ((A_eq4 (Ve4 m) c ⟨1, by decide⟩).trans (GenP.V10_of m (outs10 m) c _ (by decide)).symm)
  | ⟨2, _⟩ => exact ((dat4 (Ve4 m) c).arrAt_in ⟨2, by decide⟩ rfl _).trans ((A_eq4 (Ve4 m) c ⟨2, by decide⟩).trans (GenP.V10_of m (outs10 m) c _ (by decide)).symm)
  | ⟨3, _⟩ =>
    show _ = (GenP.V10 m (outs10 m) c) main_v61
    dsimp only [GenP.V10]
    rw [Function.update_self]
    show _ = o10 m main_v61 c
    exact (Pipeline.withArrays_arr spec4 launch4.win.arr_inj c (GenP.V9 m (outs8 m) c) (fun w => (dat4 (Ve4 m) c).arrAt w cfg4.N) ⟨3, by decide⟩).symm

theorem hrest4 (c : Dev nD) (b : Ref sig .tc) (hb : b ∉ Finset.univ.image (Pipeline.arrRef spec4)) : (GenP.V10 m (outs10 m) c) b = Ve4 m c b :=
  GenP.V10_of m (outs10 m) c b (by
    intro h
    simp only [List.mem_cons, List.mem_nil_iff, or_false] at h
    subst h; exact hb (Finset.mem_image.mpr ⟨⟨3, by decide⟩, Finset.mem_univ _, rfl⟩))

def reg4 : RegionSeg (pcfgs (F := F)) GenP.adm (pdats m) () defs₀ 𝒱h Lh lvh 4 :=
  regOf m 4 launch4 (GenP.V9 m (outs8 m)) (GenP.V10 m (outs10 m)) (body_obligation4 (Ve4 m))
    (fun _ _ => rfl) (fun _ _ => rfl) (fun _ _ => rfl) (fun _ _ => rfl) (fun _ _ => rfl) (hF4 m) (hrest4 m)

theorem hF5 (c : Dev nD) (w : Fin cfg5.W) : (dat5 (Ve5 m) c).arrAt w cfg5.N = (GenP.V14 m (outs14 m) c) (Pipeline.arrRef spec5 w) := by
  match w with
  | ⟨0, _⟩ => exact ((dat5 (Ve5 m) c).arrAt_in ⟨0, by decide⟩ rfl _).trans ((A_eq5 (Ve5 m) c ⟨0, by decide⟩).trans (GenP.V14_of m (outs14 m) c _ (by decide)).symm)
  | ⟨1, _⟩ => exact ((dat5 (Ve5 m) c).arrAt_in ⟨1, by decide⟩ rfl _).trans ((A_eq5 (Ve5 m) c ⟨1, by decide⟩).trans (GenP.V14_of m (outs14 m) c _ (by decide)).symm)
  | ⟨2, _⟩ => exact ((dat5 (Ve5 m) c).arrAt_in ⟨2, by decide⟩ rfl _).trans ((A_eq5 (Ve5 m) c ⟨2, by decide⟩).trans (GenP.V14_of m (outs14 m) c _ (by decide)).symm)
  | ⟨3, _⟩ =>
    show _ = (GenP.V14 m (outs14 m) c) main_v90
    dsimp only [GenP.V14]
    rw [Function.update_self]
    show _ = o14 m main_v90 c
    exact (Pipeline.withArrays_arr spec5 launch5.win.arr_inj c (GenP.V13 m (outs10 m) c) (fun w => (dat5 (Ve5 m) c).arrAt w cfg5.N) ⟨3, by decide⟩).symm

theorem hrest5 (c : Dev nD) (b : Ref sig .tc) (hb : b ∉ Finset.univ.image (Pipeline.arrRef spec5)) : (GenP.V14 m (outs14 m) c) b = Ve5 m c b :=
  GenP.V14_of m (outs14 m) c b (by
    intro h
    simp only [List.mem_cons, List.mem_nil_iff, or_false] at h
    subst h; exact hb (Finset.mem_image.mpr ⟨⟨3, by decide⟩, Finset.mem_univ _, rfl⟩))

def reg5 : RegionSeg (pcfgs (F := F)) GenP.adm (pdats m) () defs₀ 𝒱h Lh lvh 5 :=
  regOf m 5 launch5 (GenP.V13 m (outs10 m)) (GenP.V14 m (outs14 m)) (body_obligation5 (Ve5 m))
    (fun _ _ => rfl) (fun _ _ => rfl) (fun _ _ => rfl) (fun _ _ => rfl) (fun _ _ => rfl) (hF5 m) (hrest5 m)

theorem hF6 (c : Dev nD) (w : Fin cfg6.W) : (dat6 (Ve6 m) c).arrAt w cfg6.N = (GenP.V17 m (outs17 m) c) (Pipeline.arrRef spec6 w) := by
  match w with
  | ⟨0, _⟩ => exact ((dat6 (Ve6 m) c).arrAt_in ⟨0, by decide⟩ rfl _).trans ((A_eq6 (Ve6 m) c ⟨0, by decide⟩).trans (GenP.V17_of m (outs17 m) c _ (by decide)).symm)
  | ⟨1, _⟩ => exact ((dat6 (Ve6 m) c).arrAt_in ⟨1, by decide⟩ rfl _).trans ((A_eq6 (Ve6 m) c ⟨1, by decide⟩).trans (GenP.V17_of m (outs17 m) c _ (by decide)).symm)
  | ⟨2, _⟩ => exact ((dat6 (Ve6 m) c).arrAt_in ⟨2, by decide⟩ rfl _).trans ((A_eq6 (Ve6 m) c ⟨2, by decide⟩).trans (GenP.V17_of m (outs17 m) c _ (by decide)).symm)
  | ⟨3, _⟩ =>
    show _ = (GenP.V17 m (outs17 m) c) main_v97
    dsimp only [GenP.V17]
    rw [Function.update_self]
    show _ = o17 m main_v97 c
    exact (Pipeline.withArrays_arr spec6 launch6.win.arr_inj c (GenP.V16 m (outs14 m) c) (fun w => (dat6 (Ve6 m) c).arrAt w cfg6.N) ⟨3, by decide⟩).symm

theorem hrest6 (c : Dev nD) (b : Ref sig .tc) (hb : b ∉ Finset.univ.image (Pipeline.arrRef spec6)) : (GenP.V17 m (outs17 m) c) b = Ve6 m c b :=
  GenP.V17_of m (outs17 m) c b (by
    intro h
    simp only [List.mem_cons, List.mem_nil_iff, or_false] at h
    subst h; exact hb (Finset.mem_image.mpr ⟨⟨3, by decide⟩, Finset.mem_univ _, rfl⟩))

def reg6 : RegionSeg (pcfgs (F := F)) GenP.adm (pdats m) () defs₀ 𝒱h Lh lvh 6 :=
  regOf m 6 launch6 (GenP.V16 m (outs14 m)) (GenP.V17 m (outs17 m)) (body_obligation6 (Ve6 m))
    (fun _ _ => rfl) (fun _ _ => rfl) (fun _ _ => rfl) (fun _ _ => rfl) (fun _ _ => rfl) (hF6 m) (hrest6 m)

theorem hF7 (c : Dev nD) (w : Fin cfg7.W) : (dat7 (Ve7 m) c).arrAt w cfg7.N = (GenP.V21 m (outs21 m) c) (Pipeline.arrRef spec7 w) := by
  match w with
  | ⟨0, _⟩ => exact ((dat7 (Ve7 m) c).arrAt_in ⟨0, by decide⟩ rfl _).trans ((A_eq7 (Ve7 m) c ⟨0, by decide⟩).trans (GenP.V21_of m (outs21 m) c _ (by decide)).symm)
  | ⟨1, _⟩ => exact ((dat7 (Ve7 m) c).arrAt_in ⟨1, by decide⟩ rfl _).trans ((A_eq7 (Ve7 m) c ⟨1, by decide⟩).trans (GenP.V21_of m (outs21 m) c _ (by decide)).symm)
  | ⟨2, _⟩ => exact ((dat7 (Ve7 m) c).arrAt_in ⟨2, by decide⟩ rfl _).trans ((A_eq7 (Ve7 m) c ⟨2, by decide⟩).trans (GenP.V21_of m (outs21 m) c _ (by decide)).symm)
  | ⟨3, _⟩ =>
    show _ = (GenP.V21 m (outs21 m) c) main_v128
    dsimp only [GenP.V21]
    rw [Function.update_self]
    show _ = o21 m main_v128 c
    exact (Pipeline.withArrays_arr spec7 launch7.win.arr_inj c (GenP.V20 m (outs17 m) c) (fun w => (dat7 (Ve7 m) c).arrAt w cfg7.N) ⟨3, by decide⟩).symm

theorem hrest7 (c : Dev nD) (b : Ref sig .tc) (hb : b ∉ Finset.univ.image (Pipeline.arrRef spec7)) : (GenP.V21 m (outs21 m) c) b = Ve7 m c b :=
  GenP.V21_of m (outs21 m) c b (by
    intro h
    simp only [List.mem_cons, List.mem_nil_iff, or_false] at h
    subst h; exact hb (Finset.mem_image.mpr ⟨⟨3, by decide⟩, Finset.mem_univ _, rfl⟩))

def reg7 : RegionSeg (pcfgs (F := F)) GenP.adm (pdats m) () defs₀ 𝒱h Lh lvh 7 :=
  regOf m 7 launch7 (GenP.V20 m (outs17 m)) (GenP.V21 m (outs21 m)) (body_obligation7 (Ve7 m))
    (fun _ _ => rfl) (fun _ _ => rfl) (fun _ _ => rfl) (fun _ _ => rfl) (fun _ _ => rfl) (hF7 m) (hrest7 m)

theorem hF8 (c : Dev nD) (w : Fin cfg8.W) : (dat8 (Ve8 m) c).arrAt w cfg8.N = (GenP.V23 m (outs23 m) c) (Pipeline.arrRef spec8 w) := by
  match w with
  | ⟨0, _⟩ => exact ((dat8 (Ve8 m) c).arrAt_in ⟨0, by decide⟩ rfl _).trans ((A_eq8 (Ve8 m) c ⟨0, by decide⟩).trans (GenP.V23_of m (outs23 m) c _ (by decide)).symm)
  | ⟨1, _⟩ => exact ((dat8 (Ve8 m) c).arrAt_in ⟨1, by decide⟩ rfl _).trans ((A_eq8 (Ve8 m) c ⟨1, by decide⟩).trans (GenP.V23_of m (outs23 m) c _ (by decide)).symm)
  | ⟨2, _⟩ => exact ((dat8 (Ve8 m) c).arrAt_in ⟨2, by decide⟩ rfl _).trans ((A_eq8 (Ve8 m) c ⟨2, by decide⟩).trans (GenP.V23_of m (outs23 m) c _ (by decide)).symm)
  | ⟨3, _⟩ =>
    show _ = (GenP.V23 m (outs23 m) c) main_v134
    dsimp only [GenP.V23]
    rw [Function.update_self]
    show _ = o23 m main_v134 c
    exact (Pipeline.withArrays_arr spec8 launch8.win.arr_inj c (GenP.V22 m (outs21 m) c) (fun w => (dat8 (Ve8 m) c).arrAt w cfg8.N) ⟨3, by decide⟩).symm

theorem hrest8 (c : Dev nD) (b : Ref sig .tc) (hb : b ∉ Finset.univ.image (Pipeline.arrRef spec8)) : (GenP.V23 m (outs23 m) c) b = Ve8 m c b :=
  GenP.V23_of m (outs23 m) c b (by
    intro h
    simp only [List.mem_cons, List.mem_nil_iff, or_false] at h
    subst h; exact hb (Finset.mem_image.mpr ⟨⟨3, by decide⟩, Finset.mem_univ _, rfl⟩))

def reg8 : RegionSeg (pcfgs (F := F)) GenP.adm (pdats m) () defs₀ 𝒱h Lh lvh 8 :=
  regOf m 8 launch8 (GenP.V22 m (outs21 m)) (GenP.V23 m (outs23 m)) (body_obligation8 (Ve8 m))
    (fun _ _ => rfl) (fun _ _ => rfl) (fun _ _ => rfl) (fun _ _ => rfl) (fun _ _ => rfl) (hF8 m) (hrest8 m)

theorem hF9 (c : Dev nD) (w : Fin cfg9.W) : (dat9 (Ve9 m) c).arrAt w cfg9.N = (GenP.V25 m (outs25 m) c) (Pipeline.arrRef spec9 w) := by
  match w with
  | ⟨0, _⟩ => exact ((dat9 (Ve9 m) c).arrAt_in ⟨0, by decide⟩ rfl _).trans ((A_eq9 (Ve9 m) c ⟨0, by decide⟩).trans (GenP.V25_of m (outs25 m) c _ (by decide)).symm)
  | ⟨1, _⟩ => exact ((dat9 (Ve9 m) c).arrAt_in ⟨1, by decide⟩ rfl _).trans ((A_eq9 (Ve9 m) c ⟨1, by decide⟩).trans (GenP.V25_of m (outs25 m) c _ (by decide)).symm)
  | ⟨2, _⟩ => exact ((dat9 (Ve9 m) c).arrAt_in ⟨2, by decide⟩ rfl _).trans ((A_eq9 (Ve9 m) c ⟨2, by decide⟩).trans (GenP.V25_of m (outs25 m) c _ (by decide)).symm)
  | ⟨3, _⟩ => exact ((dat9 (Ve9 m) c).arrAt_in ⟨3, by decide⟩ rfl _).trans ((A_eq9 (Ve9 m) c ⟨3, by decide⟩).trans (GenP.V25_of m (outs25 m) c _ (by decide)).symm)
  | ⟨4, _⟩ =>
    show _ = (GenP.V25 m (outs25 m) c) main_v156_0
    dsimp only [GenP.V25]
    rw [Function.update_of_ne (by decide), Function.update_self]
    show _ = o25 m main_v156_0 c
    exact (Pipeline.withArrays_arr spec9 launch9.win.arr_inj c (GenP.V24 m (outs23 m) c) (fun w => (dat9 (Ve9 m) c).arrAt w cfg9.N) ⟨4, by decide⟩).symm
  | ⟨5, _⟩ =>
    show _ = (GenP.V25 m (outs25 m) c) main_v156_1
    dsimp only [GenP.V25]
    rw [Function.update_self]
    show _ = o25 m main_v156_1 c
    exact (Pipeline.withArrays_arr spec9 launch9.win.arr_inj c (GenP.V24 m (outs23 m) c) (fun w => (dat9 (Ve9 m) c).arrAt w cfg9.N) ⟨5, by decide⟩).symm

theorem hrest9 (c : Dev nD) (b : Ref sig .tc) (hb : b ∉ Finset.univ.image (Pipeline.arrRef spec9)) : (GenP.V25 m (outs25 m) c) b = Ve9 m c b :=
  GenP.V25_of m (outs25 m) c b (by
    intro h
    simp only [List.mem_cons, List.mem_nil_iff, or_false] at h
    rcases h with h | h <;> subst h
    · exact hb (Finset.mem_image.mpr ⟨⟨4, by decide⟩, Finset.mem_univ _, rfl⟩)
    · exact hb (Finset.mem_image.mpr ⟨⟨5, by decide⟩, Finset.mem_univ _, rfl⟩))

def reg9 : RegionSeg (pcfgs (F := F)) GenP.adm (pdats m) () defs₀ 𝒱h Lh lvh 9 :=
  regOf m 9 launch9 (GenP.V24 m (outs23 m)) (GenP.V25 m (outs25 m)) (body_obligation9 (Ve9 m))
    (fun _ _ => rfl) (fun _ _ => rfl) (fun _ _ => rfl) (fun _ _ => rfl) (fun _ _ => rfl) (hF9 m) (hrest9 m)

theorem hF10 (c : Dev nD) (w : Fin cfg10.W) : (dat10 (Ve10 m) c).arrAt w cfg10.N = (GenP.V27 m (outs27 m) c) (Pipeline.arrRef spec10 w) := by
  match w with
  | ⟨0, _⟩ => exact ((dat10 (Ve10 m) c).arrAt_in ⟨0, by decide⟩ rfl _).trans ((A_eq10 (Ve10 m) c ⟨0, by decide⟩).trans (GenP.V27_of m (outs27 m) c _ (by decide)).symm)
  | ⟨1, _⟩ => exact ((dat10 (Ve10 m) c).arrAt_in ⟨1, by decide⟩ rfl _).trans ((A_eq10 (Ve10 m) c ⟨1, by decide⟩).trans (GenP.V27_of m (outs27 m) c _ (by decide)).symm)
  | ⟨2, _⟩ => exact ((dat10 (Ve10 m) c).arrAt_in ⟨2, by decide⟩ rfl _).trans ((A_eq10 (Ve10 m) c ⟨2, by decide⟩).trans (GenP.V27_of m (outs27 m) c _ (by decide)).symm)
  | ⟨3, _⟩ =>
    show _ = (GenP.V27 m (outs27 m) c) main_v171
    dsimp only [GenP.V27]
    rw [Function.update_self]
    show _ = o27 m main_v171 c
    exact (Pipeline.withArrays_arr spec10 launch10.win.arr_inj c (GenP.V26 m (outs25 m) c) (fun w => (dat10 (Ve10 m) c).arrAt w cfg10.N) ⟨3, by decide⟩).symm

theorem hrest10 (c : Dev nD) (b : Ref sig .tc) (hb : b ∉ Finset.univ.image (Pipeline.arrRef spec10)) : (GenP.V27 m (outs27 m) c) b = Ve10 m c b :=
  GenP.V27_of m (outs27 m) c b (by
    intro h
    simp only [List.mem_cons, List.mem_nil_iff, or_false] at h
    subst h; exact hb (Finset.mem_image.mpr ⟨⟨3, by decide⟩, Finset.mem_univ _, rfl⟩))

def reg10 : RegionSeg (pcfgs (F := F)) GenP.adm (pdats m) () defs₀ 𝒱h Lh lvh 10 :=
  regOf m 10 launch10 (GenP.V26 m (outs25 m)) (GenP.V27 m (outs27 m)) (body_obligation10 (Ve10 m))
    (fun _ _ => rfl) (fun _ _ => rfl) (fun _ _ => rfl) (fun _ _ => rfl) (fun _ _ => rfl) (hF10 m) (hrest10 m)

theorem hF11 (c : Dev nD) (w : Fin cfg11.W) : (dat11 (Ve11 m) c).arrAt w cfg11.N = (GenP.V31 m (outs31 m) c) (Pipeline.arrRef spec11 w) := by
  match w with
  | ⟨0, _⟩ => exact ((dat11 (Ve11 m) c).arrAt_in ⟨0, by decide⟩ rfl _).trans ((A_eq11 (Ve11 m) c ⟨0, by decide⟩).trans (GenP.V31_of m (outs31 m) c _ (by decide)).symm)
  | ⟨1, _⟩ => exact ((dat11 (Ve11 m) c).arrAt_in ⟨1, by decide⟩ rfl _).trans ((A_eq11 (Ve11 m) c ⟨1, by decide⟩).trans (GenP.V31_of m (outs31 m) c _ (by decide)).symm)
  | ⟨2, _⟩ => exact ((dat11 (Ve11 m) c).arrAt_in ⟨2, by decide⟩ rfl _).trans ((A_eq11 (Ve11 m) c ⟨2, by decide⟩).trans (GenP.V31_of m (outs31 m) c _ (by decide)).symm)
  | ⟨3, _⟩ =>
    show _ = (GenP.V31 m (outs31 m) c) main_v200
    dsimp only [GenP.V31]
    rw [Function.update_self]
    show _ = o31 m main_v200 c
    exact (Pipeline.withArrays_arr spec11 launch11.win.arr_inj c (GenP.V30 m (outs27 m) c) (fun w => (dat11 (Ve11 m) c).arrAt w cfg11.N) ⟨3, by decide⟩).symm

theorem hrest11 (c : Dev nD) (b : Ref sig .tc) (hb : b ∉ Finset.univ.image (Pipeline.arrRef spec11)) : (GenP.V31 m (outs31 m) c) b = Ve11 m c b :=
  GenP.V31_of m (outs31 m) c b (by
    intro h
    simp only [List.mem_cons, List.mem_nil_iff, or_false] at h
    subst h; exact hb (Finset.mem_image.mpr ⟨⟨3, by decide⟩, Finset.mem_univ _, rfl⟩))

def reg11 : RegionSeg (pcfgs (F := F)) GenP.adm (pdats m) () defs₀ 𝒱h Lh lvh 11 :=
  regOf m 11 launch11 (GenP.V30 m (outs27 m)) (GenP.V31 m (outs31 m)) (body_obligation11 (Ve11 m))
    (fun _ _ => rfl) (fun _ _ => rfl) (fun _ _ => rfl) (fun _ _ => rfl) (fun _ _ => rfl) (hF11 m) (hrest11 m)

theorem hF12 (c : Dev nD) (w : Fin cfg12.W) : (dat12 (Ve12 m) c).arrAt w cfg12.N = (GenP.V34 m (outs34 m) c) (Pipeline.arrRef spec12 w) := by
  match w with
  | ⟨0, _⟩ => exact ((dat12 (Ve12 m) c).arrAt_in ⟨0, by decide⟩ rfl _).trans ((A_eq12 (Ve12 m) c ⟨0, by decide⟩).trans (GenP.V34_of m (outs34 m) c _ (by decide)).symm)
  | ⟨1, _⟩ => exact ((dat12 (Ve12 m) c).arrAt_in ⟨1, by decide⟩ rfl _).trans ((A_eq12 (Ve12 m) c ⟨1, by decide⟩).trans (GenP.V34_of m (outs34 m) c _ (by decide)).symm)
  | ⟨2, _⟩ => exact ((dat12 (Ve12 m) c).arrAt_in ⟨2, by decide⟩ rfl _).trans ((A_eq12 (Ve12 m) c ⟨2, by decide⟩).trans (GenP.V34_of m (outs34 m) c _ (by decide)).symm)
  | ⟨3, _⟩ =>
    show _ = (GenP.V34 m (outs34 m) c) main_v207
    dsimp only [GenP.V34]
    rw [Function.update_self]
    show _ = o34 m main_v207 c
    exact (Pipeline.withArrays_arr spec12 launch12.win.arr_inj c (GenP.V33 m (outs31 m) c) (fun w => (dat12 (Ve12 m) c).arrAt w cfg12.N) ⟨3, by decide⟩).symm

theorem hrest12 (c : Dev nD) (b : Ref sig .tc) (hb : b ∉ Finset.univ.image (Pipeline.arrRef spec12)) : (GenP.V34 m (outs34 m) c) b = Ve12 m c b :=
  GenP.V34_of m (outs34 m) c b (by
    intro h
    simp only [List.mem_cons, List.mem_nil_iff, or_false] at h
    subst h; exact hb (Finset.mem_image.mpr ⟨⟨3, by decide⟩, Finset.mem_univ _, rfl⟩))

def reg12 : RegionSeg (pcfgs (F := F)) GenP.adm (pdats m) () defs₀ 𝒱h Lh lvh 12 :=
  regOf m 12 launch12 (GenP.V33 m (outs31 m)) (GenP.V34 m (outs34 m)) (body_obligation12 (Ve12 m))
    (fun _ _ => rfl) (fun _ _ => rfl) (fun _ _ => rfl) (fun _ _ => rfl) (fun _ _ => rfl) (hF12 m) (hrest12 m)

theorem hF13 (c : Dev nD) (w : Fin cfg13.W) : (dat13 (Ve13 m) c).arrAt w cfg13.N = (GenP.V38 m (outs38 m) c) (Pipeline.arrRef spec13 w) := by
  match w with
  | ⟨0, _⟩ => exact ((dat13 (Ve13 m) c).arrAt_in ⟨0, by decide⟩ rfl _).trans ((A_eq13 (Ve13 m) c ⟨0, by decide⟩).trans (GenP.V38_of m (outs38 m) c _ (by decide)).symm)
  | ⟨1, _⟩ => exact ((dat13 (Ve13 m) c).arrAt_in ⟨1, by decide⟩ rfl _).trans ((A_eq13 (Ve13 m) c ⟨1, by decide⟩).trans (GenP.V38_of m (outs38 m) c _ (by decide)).symm)
  | ⟨2, _⟩ => exact ((dat13 (Ve13 m) c).arrAt_in ⟨2, by decide⟩ rfl _).trans ((A_eq13 (Ve13 m) c ⟨2, by decide⟩).trans (GenP.V38_of m (outs38 m) c _ (by decide)).symm)
  | ⟨3, _⟩ =>
    show _ = (GenP.V38 m (outs38 m) c) main_v238
    dsimp only [GenP.V38]
    rw [Function.update_self]
    show _ = o38 m main_v238 c
    exact (Pipeline.withArrays_arr spec13 launch13.win.arr_inj c (GenP.V37 m (outs34 m) c) (fun w => (dat13 (Ve13 m) c).arrAt w cfg13.N) ⟨3, by decide⟩).symm

theorem hrest13 (c : Dev nD) (b : Ref sig .tc) (hb : b ∉ Finset.univ.image (Pipeline.arrRef spec13)) : (GenP.V38 m (outs38 m) c) b = Ve13 m c b :=
  GenP.V38_of m (outs38 m) c b (by
    intro h
    simp only [List.mem_cons, List.mem_nil_iff, or_false] at h
    subst h; exact hb (Finset.mem_image.mpr ⟨⟨3, by decide⟩, Finset.mem_univ _, rfl⟩))

def reg13 : RegionSeg (pcfgs (F := F)) GenP.adm (pdats m) () defs₀ 𝒱h Lh lvh 13 :=
  regOf m 13 launch13 (GenP.V37 m (outs34 m)) (GenP.V38 m (outs38 m)) (body_obligation13 (Ve13 m))
    (fun _ _ => rfl) (fun _ _ => rfl) (fun _ _ => rfl) (fun _ _ => rfl) (fun _ _ => rfl) (hF13 m) (hrest13 m)

theorem hF14 (c : Dev nD) (w : Fin cfg14.W) : (dat14 (Ve14 m) c).arrAt w cfg14.N = (GenP.V40 m (outs40 m) c) (Pipeline.arrRef spec14 w) := by
  match w with
  | ⟨0, _⟩ => exact ((dat14 (Ve14 m) c).arrAt_in ⟨0, by decide⟩ rfl _).trans ((A_eq14 (Ve14 m) c ⟨0, by decide⟩).trans (GenP.V40_of m (outs40 m) c _ (by decide)).symm)
  | ⟨1, _⟩ => exact ((dat14 (Ve14 m) c).arrAt_in ⟨1, by decide⟩ rfl _).trans ((A_eq14 (Ve14 m) c ⟨1, by decide⟩).trans (GenP.V40_of m (outs40 m) c _ (by decide)).symm)
  | ⟨2, _⟩ => exact ((dat14 (Ve14 m) c).arrAt_in ⟨2, by decide⟩ rfl _).trans ((A_eq14 (Ve14 m) c ⟨2, by decide⟩).trans (GenP.V40_of m (outs40 m) c _ (by decide)).symm)
  | ⟨3, _⟩ =>
    show _ = (GenP.V40 m (outs40 m) c) main_v244
    dsimp only [GenP.V40]
    rw [Function.update_self]
    show _ = o40 m main_v244 c
    exact (Pipeline.withArrays_arr spec14 launch14.win.arr_inj c (GenP.V39 m (outs38 m) c) (fun w => (dat14 (Ve14 m) c).arrAt w cfg14.N) ⟨3, by decide⟩).symm

theorem hrest14 (c : Dev nD) (b : Ref sig .tc) (hb : b ∉ Finset.univ.image (Pipeline.arrRef spec14)) : (GenP.V40 m (outs40 m) c) b = Ve14 m c b :=
  GenP.V40_of m (outs40 m) c b (by
    intro h
    simp only [List.mem_cons, List.mem_nil_iff, or_false] at h
    subst h; exact hb (Finset.mem_image.mpr ⟨⟨3, by decide⟩, Finset.mem_univ _, rfl⟩))

def reg14 : RegionSeg (pcfgs (F := F)) GenP.adm (pdats m) () defs₀ 𝒱h Lh lvh 14 :=
  regOf m 14 launch14 (GenP.V39 m (outs38 m)) (GenP.V40 m (outs40 m)) (body_obligation14 (Ve14 m))
    (fun _ _ => rfl) (fun _ _ => rfl) (fun _ _ => rfl) (fun _ _ => rfl) (fun _ _ => rfl) (hF14 m) (hrest14 m)

theorem hF15 (c : Dev nD) (w : Fin cfg15.W) : (dat15 (Ve15 m) c).arrAt w cfg15.N = (GenP.V42 m (outs42 m) c) (Pipeline.arrRef spec15 w) := by
  match w with
  | ⟨0, _⟩ => exact ((dat15 (Ve15 m) c).arrAt_in ⟨0, by decide⟩ rfl _).trans ((A_eq15 (Ve15 m) c ⟨0, by decide⟩).trans (GenP.V42_of m (outs42 m) c _ (by decide)).symm)
  | ⟨1, _⟩ => exact ((dat15 (Ve15 m) c).arrAt_in ⟨1, by decide⟩ rfl _).trans ((A_eq15 (Ve15 m) c ⟨1, by decide⟩).trans (GenP.V42_of m (outs42 m) c _ (by decide)).symm)
  | ⟨2, _⟩ => exact ((dat15 (Ve15 m) c).arrAt_in ⟨2, by decide⟩ rfl _).trans ((A_eq15 (Ve15 m) c ⟨2, by decide⟩).trans (GenP.V42_of m (outs42 m) c _ (by decide)).symm)
  | ⟨3, _⟩ => exact ((dat15 (Ve15 m) c).arrAt_in ⟨3, by decide⟩ rfl _).trans ((A_eq15 (Ve15 m) c ⟨3, by decide⟩).trans (GenP.V42_of m (outs42 m) c _ (by decide)).symm)
  | ⟨4, _⟩ =>
    show _ = (GenP.V42 m (outs42 m) c) main_v266_0
    dsimp only [GenP.V42]
    rw [Function.update_of_ne (by decide), Function.update_self]
    show _ = o42 m main_v266_0 c
    exact (Pipeline.withArrays_arr spec15 launch15.win.arr_inj c (GenP.V41 m (outs40 m) c) (fun w => (dat15 (Ve15 m) c).arrAt w cfg15.N) ⟨4, by decide⟩).symm
  | ⟨5, _⟩ =>
    show _ = (GenP.V42 m (outs42 m) c) main_v266_1
    dsimp only [GenP.V42]
    rw [Function.update_self]
    show _ = o42 m main_v266_1 c
    exact (Pipeline.withArrays_arr spec15 launch15.win.arr_inj c (GenP.V41 m (outs40 m) c) (fun w => (dat15 (Ve15 m) c).arrAt w cfg15.N) ⟨5, by decide⟩).symm

theorem hrest15 (c : Dev nD) (b : Ref sig .tc) (hb : b ∉ Finset.univ.image (Pipeline.arrRef spec15)) : (GenP.V42 m (outs42 m) c) b = Ve15 m c b :=
  GenP.V42_of m (outs42 m) c b (by
    intro h
    simp only [List.mem_cons, List.mem_nil_iff, or_false] at h
    rcases h with h | h <;> subst h
    · exact hb (Finset.mem_image.mpr ⟨⟨4, by decide⟩, Finset.mem_univ _, rfl⟩)
    · exact hb (Finset.mem_image.mpr ⟨⟨5, by decide⟩, Finset.mem_univ _, rfl⟩))

def reg15 : RegionSeg (pcfgs (F := F)) GenP.adm (pdats m) () defs₀ 𝒱h Lh lvh 15 :=
  regOf m 15 launch15 (GenP.V41 m (outs40 m)) (GenP.V42 m (outs42 m)) (body_obligation15 (Ve15 m))
    (fun _ _ => rfl) (fun _ _ => rfl) (fun _ _ => rfl) (fun _ _ => rfl) (fun _ _ => rfl) (hF15 m) (hrest15 m)

theorem hF16 (c : Dev nD) (w : Fin cfg16.W) : (dat16 (Ve16 m) c).arrAt w cfg16.N = (GenP.V44 m (outs44 m) c) (Pipeline.arrRef spec16 w) := by
  match w with
  | ⟨0, _⟩ => exact ((dat16 (Ve16 m) c).arrAt_in ⟨0, by decide⟩ rfl _).trans ((A_eq16 (Ve16 m) c ⟨0, by decide⟩).trans (GenP.V44_of m (outs44 m) c _ (by decide)).symm)
  | ⟨1, _⟩ => exact ((dat16 (Ve16 m) c).arrAt_in ⟨1, by decide⟩ rfl _).trans ((A_eq16 (Ve16 m) c ⟨1, by decide⟩).trans (GenP.V44_of m (outs44 m) c _ (by decide)).symm)
  | ⟨2, _⟩ => exact ((dat16 (Ve16 m) c).arrAt_in ⟨2, by decide⟩ rfl _).trans ((A_eq16 (Ve16 m) c ⟨2, by decide⟩).trans (GenP.V44_of m (outs44 m) c _ (by decide)).symm)
  | ⟨3, _⟩ =>
    show _ = (GenP.V44 m (outs44 m) c) main_v281
    dsimp only [GenP.V44]
    rw [Function.update_self]
    show _ = o44 m main_v281 c
    exact (Pipeline.withArrays_arr spec16 launch16.win.arr_inj c (GenP.V43 m (outs42 m) c) (fun w => (dat16 (Ve16 m) c).arrAt w cfg16.N) ⟨3, by decide⟩).symm

theorem hrest16 (c : Dev nD) (b : Ref sig .tc) (hb : b ∉ Finset.univ.image (Pipeline.arrRef spec16)) : (GenP.V44 m (outs44 m) c) b = Ve16 m c b :=
  GenP.V44_of m (outs44 m) c b (by
    intro h
    simp only [List.mem_cons, List.mem_nil_iff, or_false] at h
    subst h; exact hb (Finset.mem_image.mpr ⟨⟨3, by decide⟩, Finset.mem_univ _, rfl⟩))

def reg16 : RegionSeg (pcfgs (F := F)) GenP.adm (pdats m) () defs₀ 𝒱h Lh lvh 16 :=
  regOf m 16 launch16 (GenP.V43 m (outs42 m)) (GenP.V44 m (outs44 m)) (body_obligation16 (Ve16 m))
    (fun _ _ => rfl) (fun _ _ => rfl) (fun _ _ => rfl) (fun _ _ => rfl) (fun _ _ => rfl) (hF16 m) (hrest16 m)

theorem hF17 (c : Dev nD) (w : Fin cfg17.W) : (dat17 (Ve17 m) c).arrAt w cfg17.N = (GenP.V48 m (outs48 m) c) (Pipeline.arrRef spec17 w) := by
  match w with
  | ⟨0, _⟩ => exact ((dat17 (Ve17 m) c).arrAt_in ⟨0, by decide⟩ rfl _).trans ((A_eq17 (Ve17 m) c ⟨0, by decide⟩).trans (GenP.V48_of m (outs48 m) c _ (by decide)).symm)
  | ⟨1, _⟩ => exact ((dat17 (Ve17 m) c).arrAt_in ⟨1, by decide⟩ rfl _).trans ((A_eq17 (Ve17 m) c ⟨1, by decide⟩).trans (GenP.V48_of m (outs48 m) c _ (by decide)).symm)
  | ⟨2, _⟩ => exact ((dat17 (Ve17 m) c).arrAt_in ⟨2, by decide⟩ rfl _).trans ((A_eq17 (Ve17 m) c ⟨2, by decide⟩).trans (GenP.V48_of m (outs48 m) c _ (by decide)).symm)
  | ⟨3, _⟩ =>
    show _ = (GenP.V48 m (outs48 m) c) main_v310
    dsimp only [GenP.V48]
    rw [Function.update_self]
    show _ = o48 m main_v310 c
    exact (Pipeline.withArrays_arr spec17 launch17.win.arr_inj c (GenP.V47 m (outs44 m) c) (fun w => (dat17 (Ve17 m) c).arrAt w cfg17.N) ⟨3, by decide⟩).symm

theorem hrest17 (c : Dev nD) (b : Ref sig .tc) (hb : b ∉ Finset.univ.image (Pipeline.arrRef spec17)) : (GenP.V48 m (outs48 m) c) b = Ve17 m c b :=
  GenP.V48_of m (outs48 m) c b (by
    intro h
    simp only [List.mem_cons, List.mem_nil_iff, or_false] at h
    subst h; exact hb (Finset.mem_image.mpr ⟨⟨3, by decide⟩, Finset.mem_univ _, rfl⟩))

def reg17 : RegionSeg (pcfgs (F := F)) GenP.adm (pdats m) () defs₀ 𝒱h Lh lvh 17 :=
  regOf m 17 launch17 (GenP.V47 m (outs44 m)) (GenP.V48 m (outs48 m)) (body_obligation17 (Ve17 m))
    (fun _ _ => rfl) (fun _ _ => rfl) (fun _ _ => rfl) (fun _ _ => rfl) (fun _ _ => rfl) (hF17 m) (hrest17 m)

theorem hF18 (c : Dev nD) (w : Fin cfg18.W) : (dat18 (Ve18 m) c).arrAt w cfg18.N = (GenP.V51 m (outs51 m) c) (Pipeline.arrRef spec18 w) := by
  match w with
  | ⟨0, _⟩ => exact ((dat18 (Ve18 m) c).arrAt_in ⟨0, by decide⟩ rfl _).trans ((A_eq18 (Ve18 m) c ⟨0, by decide⟩).trans (GenP.V51_of m (outs51 m) c _ (by decide)).symm)
  | ⟨1, _⟩ => exact ((dat18 (Ve18 m) c).arrAt_in ⟨1, by decide⟩ rfl _).trans ((A_eq18 (Ve18 m) c ⟨1, by decide⟩).trans (GenP.V51_of m (outs51 m) c _ (by decide)).symm)
  | ⟨2, _⟩ => exact ((dat18 (Ve18 m) c).arrAt_in ⟨2, by decide⟩ rfl _).trans ((A_eq18 (Ve18 m) c ⟨2, by decide⟩).trans (GenP.V51_of m (outs51 m) c _ (by decide)).symm)
  | ⟨3, _⟩ =>
    show _ = (GenP.V51 m (outs51 m) c) main_v317
    dsimp only [GenP.V51]
    rw [Function.update_self]
    show _ = o51 m main_v317 c
    exact (Pipeline.withArrays_arr spec18 launch18.win.arr_inj c (GenP.V50 m (outs48 m) c) (fun w => (dat18 (Ve18 m) c).arrAt w cfg18.N) ⟨3, by decide⟩).symm

theorem hrest18 (c : Dev nD) (b : Ref sig .tc) (hb : b ∉ Finset.univ.image (Pipeline.arrRef spec18)) : (GenP.V51 m (outs51 m) c) b = Ve18 m c b :=
  GenP.V51_of m (outs51 m) c b (by
    intro h
    simp only [List.mem_cons, List.mem_nil_iff, or_false] at h
    subst h; exact hb (Finset.mem_image.mpr ⟨⟨3, by decide⟩, Finset.mem_univ _, rfl⟩))

def reg18 : RegionSeg (pcfgs (F := F)) GenP.adm (pdats m) () defs₀ 𝒱h Lh lvh 18 :=
  regOf m 18 launch18 (GenP.V50 m (outs48 m)) (GenP.V51 m (outs51 m)) (body_obligation18 (Ve18 m))
    (fun _ _ => rfl) (fun _ _ => rfl) (fun _ _ => rfl) (fun _ _ => rfl) (fun _ _ => rfl) (hF18 m) (hrest18 m)

set_option maxHeartbeats 4000000 in
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  GenP.frame_cond m embL () 𝒱h Lh lvh (fun _ _ => rfl) ρ (outsF m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => Rr c)
    (Pipeline.initEach Lh lvh fun c => by
      iintro ⟨⟨-, HO, -, Hp, -⟩, -⟩
      imodintro
      isplitl [Hp]; · iexists _; iexact Hp
      iexists ∅; iexact HO)
    (fun c => by
      iintro ⟨-, HO⟩
      iexact HO)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)
    (reg6 m) (fun c => .rfl) (fun c => .rfl)
    (reg7 m) (fun c => .rfl) (fun c => .rfl)
    (reg8 m) (fun c => .rfl) (fun c => .rfl)
    (reg9 m) (fun c => .rfl) (fun c => .rfl)
    (reg10 m) (fun c => .rfl) (fun c => .rfl)
    (reg11 m) (fun c => .rfl) (fun c => .rfl)
    (reg12 m) (fun c => .rfl) (fun c => .rfl)
    (reg13 m) (fun c => .rfl) (fun c => .rfl)
    (reg14 m) (fun c => .rfl) (fun c => .rfl)
    (reg15 m) (fun c => .rfl) (fun c => .rfl)
    (reg16 m) (fun c => .rfl) (fun c => .rfl)
    (reg17 m) (fun c => .rfl) (fun c => .rfl)
    (reg18 m) (fun c => .rfl) (fun c => .rfl)

end Cert.Kernel.Hand

end
-- ==== Proof.KI.R0.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S8192x52 .f32) (x1 : Vec F S52x128 .f32) (x2 : Vec F S1x128 .f32) : Vec F S8192x128 .f32 :=
  View.canon [⟨.unit ![0, 0] _ inb_S8192x128_S8192x128_0_0, k0_pay1 (View.ld x0 (.unit ![0, 0] _ inb_S8192x52_S8192x52_0_0))
    (View.ld x1 (.unit ![0, 0] _ inb_S52x128_S52x128_0_0)) (View.ld x2 (.unit ![0, 0] _ inb_S1x128_S1x128_0_0))⟩]

def dat0 : Pipeline.Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := rfl

theorem after0_3 (t : Fin cfg0.N) : (dat0 V c).after 3 t = out0_3 (iblk0 V c 0 t) (iblk0 V c 1 t) (iblk0 V c 2 t) := by
  dsimp only [dat0]

theorem before0 (t : Fin cfg0.N) : (∀ d, (dat0 V c).before 0 t d = iblk0 V c 0 t)
    ∧ (∀ d, (dat0 V c).before 1 t d = iblk0 V c 1 t) ∧ ∀ d, (dat0 V c).before 2 t d = iblk0 V c 2 t := by
  refine ⟨?_, ?_, ?_⟩ <;> exact (dat0 V c).before_in_eq_fetched _ rfl (fun _ => rfl) (fun _ _ _ => rfl) (fun _ => rfl) t

theorem body_obligation0 : Pipeline.BodyObligation (dat0 (F := F) V c) (defs₀ (F := F)) Variants.none () Set.univ := fun t => by
  rw [bigSep_W0, bigSep_W0]
  obtain ⟨e0, e1, e2⟩ := before0 V c t
  simp only [e0, e1, e2]; dsimp only [dat0]
  sl_whnfR [defs₀, Defs.onTc]
  sl_unfold [cc0_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.KernelIdeal.Hand
-- ==== Proof.KI.R1.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S4096x128 .f32) (x1 : Vec F S128x384 .f32) (x2 : Vec F S1x384 .f32) : Vec F S4096x384 .f32 :=
  View.canon [⟨.unit ![0, 0] _ inb_S4096x384_S4096x384_0_0, k1_pay1 (View.ld x0 (.unit ![0, 0] _ inb_S4096x128_S4096x128_0_0))
    (View.ld x1 (.unit ![0, 0] _ inb_S128x384_S128x384_0_0)) (View.ld x2 (.unit ![0, 0] _ inb_S1x384_S1x384_0_0))⟩]

def dat1 : Pipeline.Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (w : Fin cfg1.W) : (dat1 V c).A w = V c (Pipeline.arrRef spec1 w) := rfl

theorem after1_3 (t : Fin cfg1.N) : (dat1 V c).after 3 t = out1_3 (iblk1 V c 0 t) (iblk1 V c 1 t) (iblk1 V c 2 t) := by
  dsimp only [dat1]

theorem before1 (t : Fin cfg1.N) : (∀ d, (dat1 V c).before 0 t d = iblk1 V c 0 t)
    ∧ (∀ d, (dat1 V c).before 1 t d = iblk1 V c 1 t) ∧ ∀ d, (dat1 V c).before 2 t d = iblk1 V c 2 t := by
  refine ⟨?_, ?_, ?_⟩ <;> exact (dat1 V c).before_in_eq_fetched _ rfl (fun _ => rfl) (fun _ _ _ => rfl) (fun _ => rfl) t

theorem body_obligation1 : Pipeline.BodyObligation (dat1 (F := F) V c) (defs₀ (F := F)) Variants.none () Set.univ := fun t => by
  rw [bigSep_W1, bigSep_W1]
  obtain ⟨e0, e1, e2⟩ := before1 V c t
  simp only [e0, e1, e2]; dsimp only [dat1]
  sl_whnfR [defs₀, Defs.onTc]
  sl_unfold [cc1_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x384.size (by rfl))

end Cert.KernelIdeal.Hand
-- ==== Proof.KI.R2.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S8192x128 .f32) (x1 : Vec F S128x128 .f32) (x2 : Vec F S1x128 .f32) : Vec F S8192x128 .f32 :=
  View.canon [⟨.unit ![0, 0] _ inb_S8192x128_S8192x128_0_0, k2_pay1 (View.ld x0 (.unit ![0, 0] _ inb_S8192x128_S8192x128_0_0))
    (View.ld x1 (.unit ![0, 0] _ inb_S128x128_S128x128_0_0)) (View.ld x2 (.unit ![0, 0] _ inb_S1x128_S1x128_0_0))⟩]

def dat2 : Pipeline.Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (w : Fin cfg2.W) : (dat2 V c).A w = V c (Pipeline.arrRef spec2 w) := rfl

theorem after2_3 (t : Fin cfg2.N) : (dat2 V c).after 3 t = out2_3 (iblk2 V c 0 t) (iblk2 V c 1 t) (iblk2 V c 2 t) := by
  dsimp only [dat2]

theorem before2 (t : Fin cfg2.N) : (∀ d, (dat2 V c).before 0 t d = iblk2 V c 0 t)
    ∧ (∀ d, (dat2 V c).before 1 t d = iblk2 V c 1 t) ∧ ∀ d, (dat2 V c).before 2 t d = iblk2 V c 2 t := by
  refine ⟨?_, ?_, ?_⟩ <;> exact (dat2 V c).before_in_eq_fetched _ rfl (fun _ => rfl) (fun _ _ _ => rfl) (fun _ => rfl) t

theorem body_obligation2 : Pipeline.BodyObligation (dat2 (F := F) V c) (defs₀ (F := F)) Variants.none () Set.univ := fun t => by
  rw [bigSep_W2, bigSep_W2]
  obtain ⟨e0, e1, e2⟩ := before2 V c t
  simp only [e0, e1, e2]; dsimp only [dat2]
  sl_whnfR [defs₀, Defs.onTc]
  sl_unfold [cc2_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.KernelIdeal.Hand
-- ==== Proof.KI.R3.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

noncomputable abbrev r3_0 : Rect S4096x128 := .unit ![0, 0] _ inb_S4096x128_S4096x128_0_0

theorem off3_0 : (![0, 0] : Fin 2 → ℕ) = fun _ => 0 := by decide

def out3_4 (x0 x1 x2 x3 : Vec F S4096x128 .f32) : Vec F S4096x128 .f32 :=
  View.canon [⟨r3_0, k3_pay3 (View.ld x0 r3_0) (View.ld x1 r3_0) (View.ld x3 r3_0)⟩]

def out3_5 (x0 x1 x2 x3 : Vec F S4096x128 .f32) : Vec F S4096x128 .f32 :=
  View.canon [⟨r3_0, k3_pay1 (k3_pay2 (View.ld x2 r3_0)) (k3_pay3 (View.ld x0 r3_0) (View.ld x1 r3_0) (View.ld x3 r3_0))⟩]

def dat3 : Pipeline.Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (w : Fin cfg3.W) : (dat3 V c).A w = V c (Pipeline.arrRef spec3 w) := rfl

theorem after3_4 (t : Fin cfg3.N) :
    (dat3 V c).after 4 t = out3_4 (iblk3 V c 0 t) (iblk3 V c 1 t) (iblk3 V c 2 t) (iblk3 V c 3 t) := by dsimp only [dat3]

theorem after3_5 (t : Fin cfg3.N) :
    (dat3 V c).after 5 t = out3_5 (iblk3 V c 0 t) (iblk3 V c 1 t) (iblk3 V c 2 t) (iblk3 V c 3 t) := by dsimp only [dat3]

theorem before3 (t : Fin cfg3.N) : (∀ d, (dat3 V c).before 0 t d = iblk3 V c 0 t) ∧ (∀ d, (dat3 V c).before 1 t d = iblk3 V c 1 t)
    ∧ (∀ d, (dat3 V c).before 2 t d = iblk3 V c 2 t) ∧ ∀ d, (dat3 V c).before 3 t d = iblk3 V c 3 t := by
  refine ⟨?_, ?_, ?_, ?_⟩ <;> exact (dat3 V c).before_in_eq_fetched _ rfl (fun _ => rfl) (fun _ _ _ => rfl) (fun _ => rfl) t

theorem body_obligation3 : Pipeline.BodyObligation (dat3 (F := F) V c) (defs₀ (F := F)) Variants.none () Set.univ := fun t => by
  rw [bigSep_W3, bigSep_W3]
  obtain ⟨e0, e1, e2, e3⟩ := before3 V c t
  simp only [e0, e1, e2, e3]; dsimp only [dat3]
  sl_whnfR [defs₀, Defs.onTc]
  sl_unfold [cc3_edge_attn_kernel, k3_part1]
  unfold owns
  iintro ⟨HΦ, Ho, ⟨%_, %f0, %h0, H0⟩, ⟨%_, %f1, %h1, H1⟩, ⟨%_, %f2, %h2, H2⟩, ⟨%_, %f3, %h3, H3⟩, ⟨%_, %_, -, H4⟩, %_, %_, -, H5⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  isplitl [H3]; · iexists _; iframe H3; ipureintro; exact h3
  isplitl [H4] <;> (iexists _; iframe; ipureintro)
  all_goals exact h0 ▸ h1 ▸ h2 ▸ h3 ▸ View.read_writes_eq_canon _ _ _ (View.cover_of_tiled _ S4096x128.size (by rfl))

end Cert.KernelIdeal.Hand
-- ==== Proof.KI.R4.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_3 (x0 : Vec F S8192x128 .f32) (x1 : Vec F S128x128 .f32) (x2 : Vec F S1x128 .f32) : Vec F S8192x128 .f32 :=
  View.canon [⟨.unit ![0, 0] _ inb_S8192x128_S8192x128_0_0, k4_pay1 (View.ld x0 (.unit ![0, 0] _ inb_S8192x128_S8192x128_0_0))
    (View.ld x1 (.unit ![0, 0] _ inb_S128x128_S128x128_0_0)) (View.ld x2 (.unit ![0, 0] _ inb_S1x128_S1x128_0_0))⟩]

def dat4 : Pipeline.Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (w : Fin cfg4.W) : (dat4 V c).A w = V c (Pipeline.arrRef spec4 w) := rfl

theorem after4_3 (t : Fin cfg4.N) : (dat4 V c).after 3 t = out4_3 (iblk4 V c 0 t) (iblk4 V c 1 t) (iblk4 V c 2 t) := by
  dsimp only [dat4]

theorem before4 (t : Fin cfg4.N) : (∀ d, (dat4 V c).before 0 t d = iblk4 V c 0 t)
    ∧ (∀ d, (dat4 V c).before 1 t d = iblk4 V c 1 t) ∧ ∀ d, (dat4 V c).before 2 t d = iblk4 V c 2 t := by
  refine ⟨?_, ?_, ?_⟩ <;> exact (dat4 V c).before_in_eq_fetched _ rfl (fun _ => rfl) (fun _ _ _ => rfl) (fun _ => rfl) t

theorem body_obligation4 : Pipeline.BodyObligation (dat4 (F := F) V c) (defs₀ (F := F)) Variants.none () Set.univ := fun t => by
  rw [bigSep_W4, bigSep_W4]
  obtain ⟨e0, e1, e2⟩ := before4 V c t
  simp only [e0, e1, e2]; dsimp only [dat4]
  sl_whnfR [defs₀, Defs.onTc]
  sl_unfold [cc4_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.KernelIdeal.Hand
-- ==== Proof.KI.R5.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_3 (x0 : Vec F S4096x128 .f32) (x1 : Vec F S128x256 .f32) (x2 : Vec F S1x256 .f32) : Vec F S4096x256 .f32 :=
  View.canon [⟨.unit ![0, 0] _ inb_S4096x256_S4096x256_0_0, k5_pay1 (View.ld x0 (.unit ![0, 0] _ inb_S4096x128_S4096x128_0_0))
    (View.ld x1 (.unit ![0, 0] _ inb_S128x256_S128x256_0_0)) (View.ld x2 (.unit ![0, 0] _ inb_S1x256_S1x256_0_0))⟩]

def dat5 : Pipeline.Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (w : Fin cfg5.W) : (dat5 V c).A w = V c (Pipeline.arrRef spec5 w) := rfl

theorem after5_3 (t : Fin cfg5.N) : (dat5 V c).after 3 t = out5_3 (iblk5 V c 0 t) (iblk5 V c 1 t) (iblk5 V c 2 t) := by
  dsimp only [dat5]

theorem before5 (t : Fin cfg5.N) : (∀ d, (dat5 V c).before 0 t d = iblk5 V c 0 t)
    ∧ (∀ d, (dat5 V c).before 1 t d = iblk5 V c 1 t) ∧ ∀ d, (dat5 V c).before 2 t d = iblk5 V c 2 t := by
  refine ⟨?_, ?_, ?_⟩ <;> exact (dat5 V c).before_in_eq_fetched _ rfl (fun _ => rfl) (fun _ _ _ => rfl) (fun _ => rfl) t

theorem body_obligation5 : Pipeline.BodyObligation (dat5 (F := F) V c) (defs₀ (F := F)) Variants.none () Set.univ := fun t => by
  rw [bigSep_W5, bigSep_W5]
  obtain ⟨e0, e1, e2⟩ := before5 V c t
  simp only [e0, e1, e2]; dsimp only [dat5]
  sl_whnfR [defs₀, Defs.onTc]
  sl_unfold [cc5_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x256.size (by rfl))

end Cert.KernelIdeal.Hand
-- ==== Proof.KI.R6.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_3 (x0 : Vec F S4096x256 .f32) (x1 : Vec F S256x128 .f32) (x2 : Vec F S1x128 .f32) : Vec F S4096x128 .f32 :=
  View.canon [⟨.unit ![0, 0] _ inb_S4096x128_S4096x128_0_0, k6_pay1 (View.ld x0 (.unit ![0, 0] _ inb_S4096x256_S4096x256_0_0))
    (View.ld x1 (.unit ![0, 0] _ inb_S256x128_S256x128_0_0)) (View.ld x2 (.unit ![0, 0] _ inb_S1x128_S1x128_0_0))⟩]

def dat6 : Pipeline.Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (w : Fin cfg6.W) : (dat6 V c).A w = V c (Pipeline.arrRef spec6 w) := rfl

theorem after6_3 (t : Fin cfg6.N) : (dat6 V c).after 3 t = out6_3 (iblk6 V c 0 t) (iblk6 V c 1 t) (iblk6 V c 2 t) := by
  dsimp only [dat6]

theorem before6 (t : Fin cfg6.N) : (∀ d, (dat6 V c).before 0 t d = iblk6 V c 0 t)
    ∧ (∀ d, (dat6 V c).before 1 t d = iblk6 V c 1 t) ∧ ∀ d, (dat6 V c).before 2 t d = iblk6 V c 2 t := by
  refine ⟨?_, ?_, ?_⟩ <;> exact (dat6 V c).before_in_eq_fetched _ rfl (fun _ => rfl) (fun _ _ _ => rfl) (fun _ => rfl) t

theorem body_obligation6 : Pipeline.BodyObligation (dat6 (F := F) V c) (defs₀ (F := F)) Variants.none () Set.univ := fun t => by
  rw [bigSep_W6, bigSep_W6]
  obtain ⟨e0, e1, e2⟩ := before6 V c t
  simp only [e0, e1, e2]; dsimp only [dat6]
  sl_whnfR [defs₀, Defs.onTc]
  sl_unfold [cc6_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x128.size (by rfl))

end Cert.KernelIdeal.Hand
-- ==== Proof.KI.R7.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk7 (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_3 (x0 : Vec F S4096x128 .f32) (x1 : Vec F S128x384 .f32) (x2 : Vec F S1x384 .f32) : Vec F S4096x384 .f32 :=
  View.canon [⟨.unit ![0, 0] _ inb_S4096x384_S4096x384_0_0, k7_pay1 (View.ld x0 (.unit ![0, 0] _ inb_S4096x128_S4096x128_0_0))
    (View.ld x1 (.unit ![0, 0] _ inb_S128x384_S128x384_0_0)) (View.ld x2 (.unit ![0, 0] _ inb_S1x384_S1x384_0_0))⟩]

def dat7 : Pipeline.Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (w : Fin cfg7.W) : (dat7 V c).A w = V c (Pipeline.arrRef spec7 w) := rfl

theorem after7_3 (t : Fin cfg7.N) : (dat7 V c).after 3 t = out7_3 (iblk7 V c 0 t) (iblk7 V c 1 t) (iblk7 V c 2 t) := by
  dsimp only [dat7]

theorem before7 (t : Fin cfg7.N) : (∀ d, (dat7 V c).before 0 t d = iblk7 V c 0 t)
    ∧ (∀ d, (dat7 V c).before 1 t d = iblk7 V c 1 t) ∧ ∀ d, (dat7 V c).before 2 t d = iblk7 V c 2 t := by
  refine ⟨?_, ?_, ?_⟩ <;> exact (dat7 V c).before_in_eq_fetched _ rfl (fun _ => rfl) (fun _ _ _ => rfl) (fun _ => rfl) t

theorem body_obligation7 : Pipeline.BodyObligation (dat7 (F := F) V c) (defs₀ (F := F)) Variants.none () Set.univ := fun t => by
  rw [bigSep_W7, bigSep_W7]
  obtain ⟨e0, e1, e2⟩ := before7 V c t
  simp only [e0, e1, e2]; dsimp only [dat7]
  sl_whnfR [defs₀, Defs.onTc]
  sl_unfold [cc7_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x384.size (by rfl))

end Cert.KernelIdeal.Hand
-- ==== Proof.KI.R8.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk8 (w : Fin cfg8.W) (t : Fin cfg8.N) : ((cfg8.win w).xblock (cfg8.grid.coords t)).Idx → Elt F (cfg8.win w).elt :=
  ((cfg8.win w).blk t).view.read (Elt F) (V c (Pipeline.arrRef spec8 w))

def out8_3 (x0 : Vec F S8192x128 .f32) (x1 : Vec F S128x128 .f32) (x2 : Vec F S1x128 .f32) : Vec F S8192x128 .f32 :=
  View.canon [⟨.unit ![0, 0] _ inb_S8192x128_S8192x128_0_0, k8_pay1 (View.ld x0 (.unit ![0, 0] _ inb_S8192x128_S8192x128_0_0))
    (View.ld x1 (.unit ![0, 0] _ inb_S128x128_S128x128_0_0)) (View.ld x2 (.unit ![0, 0] _ inb_S1x128_S1x128_0_0))⟩]

def dat8 : Pipeline.Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (w : Fin cfg8.W) : (dat8 V c).A w = V c (Pipeline.arrRef spec8 w) := rfl

theorem after8_3 (t : Fin cfg8.N) : (dat8 V c).after 3 t = out8_3 (iblk8 V c 0 t) (iblk8 V c 1 t) (iblk8 V c 2 t) := by
  dsimp only [dat8]

theorem before8 (t : Fin cfg8.N) : (∀ d, (dat8 V c).before 0 t d = iblk8 V c 0 t)
    ∧ (∀ d, (dat8 V c).before 1 t d = iblk8 V c 1 t) ∧ ∀ d, (dat8 V c).before 2 t d = iblk8 V c 2 t := by
  refine ⟨?_, ?_, ?_⟩ <;> exact (dat8 V c).before_in_eq_fetched _ rfl (fun _ => rfl) (fun _ _ _ => rfl) (fun _ => rfl) t

theorem body_obligation8 : Pipeline.BodyObligation (dat8 (F := F) V c) (defs₀ (F := F)) Variants.none () Set.univ := fun t => by
  rw [bigSep_W8, bigSep_W8]
  obtain ⟨e0, e1, e2⟩ := before8 V c t
  simp only [e0, e1, e2]; dsimp only [dat8]
  sl_whnfR [defs₀, Defs.onTc]
  sl_unfold [cc8_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.KernelIdeal.Hand
-- ==== Proof.KI.R9.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk9 (w : Fin cfg9.W) (t : Fin cfg9.N) : ((cfg9.win w).xblock (cfg9.grid.coords t)).Idx → Elt F (cfg9.win w).elt :=
  ((cfg9.win w).blk t).view.read (Elt F) (V c (Pipeline.arrRef spec9 w))

noncomputable abbrev r9_0 : Rect S4096x128 := .unit ![0, 0] _ inb_S4096x128_S4096x128_0_0

theorem off9_0 : (![0, 0] : Fin 2 → ℕ) = fun _ => 0 := by decide

def out9_4 (x0 x1 x2 x3 : Vec F S4096x128 .f32) : Vec F S4096x128 .f32 :=
  View.canon [⟨r9_0, k9_pay3 (View.ld x0 r9_0) (View.ld x1 r9_0) (View.ld x3 r9_0)⟩]

def out9_5 (x0 x1 x2 x3 : Vec F S4096x128 .f32) : Vec F S4096x128 .f32 :=
  View.canon [⟨r9_0, k9_pay1 (k9_pay2 (View.ld x2 r9_0)) (k9_pay3 (View.ld x0 r9_0) (View.ld x1 r9_0) (View.ld x3 r9_0))⟩]

def dat9 : Pipeline.Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
    | ⟨5, _⟩ => out9_5 (iblk9 V c 0 t) (iblk9 V c 1 t) (iblk9 V c 2 t) (iblk9 V c 3 t)
  Φ _ := Pipeline.ΦA spec9 c
  q _ := fullShare
  owed _ := 0

theorem A_eq9 (w : Fin cfg9.W) : (dat9 V c).A w = V c (Pipeline.arrRef spec9 w) := rfl

theorem after9_4 (t : Fin cfg9.N) :
    (dat9 V c).after 4 t = out9_4 (iblk9 V c 0 t) (iblk9 V c 1 t) (iblk9 V c 2 t) (iblk9 V c 3 t) := by dsimp only [dat9]

theorem after9_5 (t : Fin cfg9.N) :
    (dat9 V c).after 5 t = out9_5 (iblk9 V c 0 t) (iblk9 V c 1 t) (iblk9 V c 2 t) (iblk9 V c 3 t) := by dsimp only [dat9]

theorem before9 (t : Fin cfg9.N) : (∀ d, (dat9 V c).before 0 t d = iblk9 V c 0 t) ∧ (∀ d, (dat9 V c).before 1 t d = iblk9 V c 1 t)
    ∧ (∀ d, (dat9 V c).before 2 t d = iblk9 V c 2 t) ∧ ∀ d, (dat9 V c).before 3 t d = iblk9 V c 3 t := by
  refine ⟨?_, ?_, ?_, ?_⟩ <;> exact (dat9 V c).before_in_eq_fetched _ rfl (fun _ => rfl) (fun _ _ _ => rfl) (fun _ => rfl) t

theorem body_obligation9 : Pipeline.BodyObligation (dat9 (F := F) V c) (defs₀ (F := F)) Variants.none () Set.univ := fun t => by
  rw [bigSep_W9, bigSep_W9]
  obtain ⟨e0, e1, e2, e3⟩ := before9 V c t
  simp only [e0, e1, e2, e3]; dsimp only [dat9]
  sl_whnfR [defs₀, Defs.onTc]
  sl_unfold [cc9_edge_attn_kernel, k9_part1]
  unfold owns
  iintro ⟨HΦ, Ho, ⟨%_, %f0, %h0, H0⟩, ⟨%_, %f1, %h1, H1⟩, ⟨%_, %f2, %h2, H2⟩, ⟨%_, %f3, %h3, H3⟩, ⟨%_, %_, -, H4⟩, %_, %_, -, H5⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  isplitl [H3]; · iexists _; iframe H3; ipureintro; exact h3
  isplitl [H4] <;> (iexists _; iframe; ipureintro)
  all_goals exact h0 ▸ h1 ▸ h2 ▸ h3 ▸ View.read_writes_eq_canon _ _ _ (View.cover_of_tiled _ S4096x128.size (by rfl))

end Cert.KernelIdeal.Hand
-- ==== Proof.KI.R10.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk10 (w : Fin cfg10.W) (t : Fin cfg10.N) : ((cfg10.win w).xblock (cfg10.grid.coords t)).Idx → Elt F (cfg10.win w).elt :=
  ((cfg10.win w).blk t).view.read (Elt F) (V c (Pipeline.arrRef spec10 w))

def out10_3 (x0 : Vec F S8192x128 .f32) (x1 : Vec F S128x128 .f32) (x2 : Vec F S1x128 .f32) : Vec F S8192x128 .f32 :=
  View.canon [⟨.unit ![0, 0] _ inb_S8192x128_S8192x128_0_0, k10_pay1 (View.ld x0 (.unit ![0, 0] _ inb_S8192x128_S8192x128_0_0))
    (View.ld x1 (.unit ![0, 0] _ inb_S128x128_S128x128_0_0)) (View.ld x2 (.unit ![0, 0] _ inb_S1x128_S1x128_0_0))⟩]

def dat10 : Pipeline.Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (w : Fin cfg10.W) : (dat10 V c).A w = V c (Pipeline.arrRef spec10 w) := rfl

theorem after10_3 (t : Fin cfg10.N) : (dat10 V c).after 3 t = out10_3 (iblk10 V c 0 t) (iblk10 V c 1 t) (iblk10 V c 2 t) := by
  dsimp only [dat10]

theorem before10 (t : Fin cfg10.N) : (∀ d, (dat10 V c).before 0 t d = iblk10 V c 0 t)
    ∧ (∀ d, (dat10 V c).before 1 t d = iblk10 V c 1 t) ∧ ∀ d, (dat10 V c).before 2 t d = iblk10 V c 2 t := by
  refine ⟨?_, ?_, ?_⟩ <;> exact (dat10 V c).before_in_eq_fetched _ rfl (fun _ => rfl) (fun _ _ _ => rfl) (fun _ => rfl) t

theorem body_obligation10 : Pipeline.BodyObligation (dat10 (F := F) V c) (defs₀ (F := F)) Variants.none () Set.univ := fun t => by
  rw [bigSep_W10, bigSep_W10]
  obtain ⟨e0, e1, e2⟩ := before10 V c t
  simp only [e0, e1, e2]; dsimp only [dat10]
  sl_whnfR [defs₀, Defs.onTc]
  sl_unfold [cc10_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.KernelIdeal.Hand
-- ==== Proof.KI.R11.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk11 (w : Fin cfg11.W) (t : Fin cfg11.N) : ((cfg11.win w).xblock (cfg11.grid.coords t)).Idx → Elt F (cfg11.win w).elt :=
  ((cfg11.win w).blk t).view.read (Elt F) (V c (Pipeline.arrRef spec11 w))

def out11_3 (x0 : Vec F S4096x128 .f32) (x1 : Vec F S128x256 .f32) (x2 : Vec F S1x256 .f32) : Vec F S4096x256 .f32 :=
  View.canon [⟨.unit ![0, 0] _ inb_S4096x256_S4096x256_0_0, k11_pay1 (View.ld x0 (.unit ![0, 0] _ inb_S4096x128_S4096x128_0_0))
    (View.ld x1 (.unit ![0, 0] _ inb_S128x256_S128x256_0_0)) (View.ld x2 (.unit ![0, 0] _ inb_S1x256_S1x256_0_0))⟩]

def dat11 : Pipeline.Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (w : Fin cfg11.W) : (dat11 V c).A w = V c (Pipeline.arrRef spec11 w) := rfl

theorem after11_3 (t : Fin cfg11.N) : (dat11 V c).after 3 t = out11_3 (iblk11 V c 0 t) (iblk11 V c 1 t) (iblk11 V c 2 t) := by
  dsimp only [dat11]

theorem before11 (t : Fin cfg11.N) : (∀ d, (dat11 V c).before 0 t d = iblk11 V c 0 t)
    ∧ (∀ d, (dat11 V c).before 1 t d = iblk11 V c 1 t) ∧ ∀ d, (dat11 V c).before 2 t d = iblk11 V c 2 t := by
  refine ⟨?_, ?_, ?_⟩ <;> exact (dat11 V c).before_in_eq_fetched _ rfl (fun _ => rfl) (fun _ _ _ => rfl) (fun _ => rfl) t

theorem body_obligation11 : Pipeline.BodyObligation (dat11 (F := F) V c) (defs₀ (F := F)) Variants.none () Set.univ := fun t => by
  rw [bigSep_W11, bigSep_W11]
  obtain ⟨e0, e1, e2⟩ := before11 V c t
  simp only [e0, e1, e2]; dsimp only [dat11]
  sl_whnfR [defs₀, Defs.onTc]
  sl_unfold [cc11_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x256.size (by rfl))

end Cert.KernelIdeal.Hand
-- ==== Proof.KI.R12.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk12 (w : Fin cfg12.W) (t : Fin cfg12.N) : ((cfg12.win w).xblock (cfg12.grid.coords t)).Idx → Elt F (cfg12.win w).elt :=
  ((cfg12.win w).blk t).view.read (Elt F) (V c (Pipeline.arrRef spec12 w))

def out12_3 (x0 : Vec F S4096x256 .f32) (x1 : Vec F S256x128 .f32) (x2 : Vec F S1x128 .f32) : Vec F S4096x128 .f32 :=
  View.canon [⟨.unit ![0, 0] _ inb_S4096x128_S4096x128_0_0, k12_pay1 (View.ld x0 (.unit ![0, 0] _ inb_S4096x256_S4096x256_0_0))
    (View.ld x1 (.unit ![0, 0] _ inb_S256x128_S256x128_0_0)) (View.ld x2 (.unit ![0, 0] _ inb_S1x128_S1x128_0_0))⟩]

def dat12 : Pipeline.Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (w : Fin cfg12.W) : (dat12 V c).A w = V c (Pipeline.arrRef spec12 w) := rfl

theorem after12_3 (t : Fin cfg12.N) : (dat12 V c).after 3 t = out12_3 (iblk12 V c 0 t) (iblk12 V c 1 t) (iblk12 V c 2 t) := by
  dsimp only [dat12]

theorem before12 (t : Fin cfg12.N) : (∀ d, (dat12 V c).before 0 t d = iblk12 V c 0 t)
    ∧ (∀ d, (dat12 V c).before 1 t d = iblk12 V c 1 t) ∧ ∀ d, (dat12 V c).before 2 t d = iblk12 V c 2 t := by
  refine ⟨?_, ?_, ?_⟩ <;> exact (dat12 V c).before_in_eq_fetched _ rfl (fun _ => rfl) (fun _ _ _ => rfl) (fun _ => rfl) t

theorem body_obligation12 : Pipeline.BodyObligation (dat12 (F := F) V c) (defs₀ (F := F)) Variants.none () Set.univ := fun t => by
  rw [bigSep_W12, bigSep_W12]
  obtain ⟨e0, e1, e2⟩ := before12 V c t
  simp only [e0, e1, e2]; dsimp only [dat12]
  sl_whnfR [defs₀, Defs.onTc]
  sl_unfold [cc12_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x128.size (by rfl))

end Cert.KernelIdeal.Hand
-- ==== Proof.KI.R13.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk13 (w : Fin cfg13.W) (t : Fin cfg13.N) : ((cfg13.win w).xblock (cfg13.grid.coords t)).Idx → Elt F (cfg13.win w).elt :=
  ((cfg13.win w).blk t).view.read (Elt F) (V c (Pipeline.arrRef spec13 w))

def out13_3 (x0 : Vec F S4096x128 .f32) (x1 : Vec F S128x384 .f32) (x2 : Vec F S1x384 .f32) : Vec F S4096x384 .f32 :=
  View.canon [⟨.unit ![0, 0] _ inb_S4096x384_S4096x384_0_0, k13_pay1 (View.ld x0 (.unit ![0, 0] _ inb_S4096x128_S4096x128_0_0))
    (View.ld x1 (.unit ![0, 0] _ inb_S128x384_S128x384_0_0)) (View.ld x2 (.unit ![0, 0] _ inb_S1x384_S1x384_0_0))⟩]

def dat13 : Pipeline.Dat τ (Elt F) Unit ℕ (Pipeline.UD sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (w : Fin cfg13.W) : (dat13 V c).A w = V c (Pipeline.arrRef spec13 w) := rfl

theorem after13_3 (t : Fin cfg13.N) : (dat13 V c).after 3 t = out13_3 (iblk13 V c 0 t) (iblk13 V c 1 t) (iblk13 V c 2 t) := by
  dsimp only [dat13]

theorem before13 (t : Fin cfg13.N) : (∀ d, (dat13 V c).before 0 t d = iblk13 V c 0 t)
    ∧ (∀ d, (dat13 V c).before 1 t d = iblk13 V c 1 t) ∧ ∀ d, (dat13 V c).before 2 t d = iblk13 V c 2 t := by
  refine ⟨?_, ?_, ?_⟩ <;> exact (dat13 V c).before_in_eq_fetched _ rfl (fun _ => rfl) (fun _ _ _ => rfl) (fun _ => rfl) t

theorem body_obligation13 : Pipeline.BodyObligation (dat13 (F := F) V c) (defs₀ (F := F)) Variants.none () Set.univ := fun t => by
  rw [bigSep_W13, bigSep_W13]
  obtain ⟨e0, e1, e2⟩ := before13 V c t
  simp only [e0, e1, e2]; dsimp only [dat13]
  sl_whnfR [defs₀, Defs.onTc]
  sl_unfold [cc13_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x384.size (by rfl))

end Cert.KernelIdeal.Hand
-- ==== Proof.KI.R14.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk14 (w : Fin cfg14.W) (t : Fin cfg14.N) : ((cfg14.win w).xblock (cfg14.grid.coords t)).Idx → Elt F (cfg14.win w).elt :=
  ((cfg14.win w).blk t).view.read (Elt F) (V c (Pipeline.arrRef spec14 w))

def out14_3 (x0 : Vec F S8192x128 .f32) (x1 : Vec F S128x128 .f32) (x2 : Vec F S1x128 .f32) : Vec F S8192x128 .f32 :=
  View.canon [⟨.unit ![0, 0] _ inb_S8192x128_S8192x128_0_0, k14_pay1 (View.ld x0 (.unit ![0, 0] _ inb_S8192x128_S8192x128_0_0))
    (View.ld x1 (.unit ![0, 0] _ inb_S128x128_S128x128_0_0)) (View.ld x2 (.unit ![0, 0] _ inb_S1x128_S1x128_0_0))⟩]

def dat14 : Pipeline.Dat τ (Elt F) Unit ℕ (Pipeline.UD sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

theorem A_eq14 (w : Fin cfg14.W) : (dat14 V c).A w = V c (Pipeline.arrRef spec14 w) := rfl

theorem after14_3 (t : Fin cfg14.N) : (dat14 V c).after 3 t = out14_3 (iblk14 V c 0 t) (iblk14 V c 1 t) (iblk14 V c 2 t) := by
  dsimp only [dat14]

theorem before14 (t : Fin cfg14.N) : (∀ d, (dat14 V c).before 0 t d = iblk14 V c 0 t)
    ∧ (∀ d, (dat14 V c).before 1 t d = iblk14 V c 1 t) ∧ ∀ d, (dat14 V c).before 2 t d = iblk14 V c 2 t := by
  refine ⟨?_, ?_, ?_⟩ <;> exact (dat14 V c).before_in_eq_fetched _ rfl (fun _ => rfl) (fun _ _ _ => rfl) (fun _ => rfl) t

theorem body_obligation14 : Pipeline.BodyObligation (dat14 (F := F) V c) (defs₀ (F := F)) Variants.none () Set.univ := fun t => by
  rw [bigSep_W14, bigSep_W14]
  obtain ⟨e0, e1, e2⟩ := before14 V c t
  simp only [e0, e1, e2]; dsimp only [dat14]
  sl_whnfR [defs₀, Defs.onTc]
  sl_unfold [cc14_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.KernelIdeal.Hand
-- ==== Proof.KI.R15.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk15 (w : Fin cfg15.W) (t : Fin cfg15.N) : ((cfg15.win w).xblock (cfg15.grid.coords t)).Idx → Elt F (cfg15.win w).elt :=
  ((cfg15.win w).blk t).view.read (Elt F) (V c (Pipeline.arrRef spec15 w))

noncomputable abbrev r15_0 : Rect S4096x128 := .unit ![0, 0] _ inb_S4096x128_S4096x128_0_0

theorem off15_0 : (![0, 0] : Fin 2 → ℕ) = fun _ => 0 := by decide

def out15_4 (x0 x1 x2 x3 : Vec F S4096x128 .f32) : Vec F S4096x128 .f32 :=
  View.canon [⟨r15_0, k15_pay3 (View.ld x0 r15_0) (View.ld x1 r15_0) (View.ld x3 r15_0)⟩]

def out15_5 (x0 x1 x2 x3 : Vec F S4096x128 .f32) : Vec F S4096x128 .f32 :=
  View.canon [⟨r15_0, k15_pay1 (k15_pay2 (View.ld x2 r15_0)) (k15_pay3 (View.ld x0 r15_0) (View.ld x1 r15_0) (View.ld x3 r15_0))⟩]

def dat15 : Pipeline.Dat τ (Elt F) Unit ℕ (Pipeline.UD sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => out15_4 (iblk15 V c 0 t) (iblk15 V c 1 t) (iblk15 V c 2 t) (iblk15 V c 3 t)
    | ⟨5, _⟩ => out15_5 (iblk15 V c 0 t) (iblk15 V c 1 t) (iblk15 V c 2 t) (iblk15 V c 3 t)
  Φ _ := Pipeline.ΦA spec15 c
  q _ := fullShare
  owed _ := 0

theorem A_eq15 (w : Fin cfg15.W) : (dat15 V c).A w = V c (Pipeline.arrRef spec15 w) := rfl

theorem after15_4 (t : Fin cfg15.N) :
    (dat15 V c).after 4 t = out15_4 (iblk15 V c 0 t) (iblk15 V c 1 t) (iblk15 V c 2 t) (iblk15 V c 3 t) := by dsimp only [dat15]

theorem after15_5 (t : Fin cfg15.N) :
    (dat15 V c).after 5 t = out15_5 (iblk15 V c 0 t) (iblk15 V c 1 t) (iblk15 V c 2 t) (iblk15 V c 3 t) := by dsimp only [dat15]

theorem before15 (t : Fin cfg15.N) : (∀ d, (dat15 V c).before 0 t d = iblk15 V c 0 t) ∧ (∀ d, (dat15 V c).before 1 t d = iblk15 V c 1 t)
    ∧ (∀ d, (dat15 V c).before 2 t d = iblk15 V c 2 t) ∧ ∀ d, (dat15 V c).before 3 t d = iblk15 V c 3 t := by
  refine ⟨?_, ?_, ?_, ?_⟩ <;> exact (dat15 V c).before_in_eq_fetched _ rfl (fun _ => rfl) (fun _ _ _ => rfl) (fun _ => rfl) t

theorem body_obligation15 : Pipeline.BodyObligation (dat15 (F := F) V c) (defs₀ (F := F)) Variants.none () Set.univ := fun t => by
  rw [bigSep_W15, bigSep_W15]
  obtain ⟨e0, e1, e2, e3⟩ := before15 V c t
  simp only [e0, e1, e2, e3]; dsimp only [dat15]
  sl_whnfR [defs₀, Defs.onTc]
  sl_unfold [cc15_edge_attn_kernel, k15_part1]
  unfold owns
  iintro ⟨HΦ, Ho, ⟨%_, %f0, %h0, H0⟩, ⟨%_, %f1, %h1, H1⟩, ⟨%_, %f2, %h2, H2⟩, ⟨%_, %f3, %h3, H3⟩, ⟨%_, %_, -, H4⟩, %_, %_, -, H5⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  isplitl [H3]; · iexists _; iframe H3; ipureintro; exact h3
  isplitl [H4] <;> (iexists _; iframe; ipureintro)
  all_goals exact h0 ▸ h1 ▸ h2 ▸ h3 ▸ View.read_writes_eq_canon _ _ _ (View.cover_of_tiled _ S4096x128.size (by rfl))

end Cert.KernelIdeal.Hand
-- ==== Proof.KI.R16.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk16 (w : Fin cfg16.W) (t : Fin cfg16.N) : ((cfg16.win w).xblock (cfg16.grid.coords t)).Idx → Elt F (cfg16.win w).elt :=
  ((cfg16.win w).blk t).view.read (Elt F) (V c (Pipeline.arrRef spec16 w))

def out16_3 (x0 : Vec F S8192x128 .f32) (x1 : Vec F S128x128 .f32) (x2 : Vec F S1x128 .f32) : Vec F S8192x128 .f32 :=
  View.canon [⟨.unit ![0, 0] _ inb_S8192x128_S8192x128_0_0, k16_pay1 (View.ld x0 (.unit ![0, 0] _ inb_S8192x128_S8192x128_0_0))
    (View.ld x1 (.unit ![0, 0] _ inb_S128x128_S128x128_0_0)) (View.ld x2 (.unit ![0, 0] _ inb_S1x128_S1x128_0_0))⟩]

def dat16 : Pipeline.Dat τ (Elt F) Unit ℕ (Pipeline.UD sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16_3 (iblk16 V c 0 t) (iblk16 V c 1 t) (iblk16 V c 2 t)
  Φ _ := Pipeline.ΦA spec16 c
  q _ := fullShare
  owed _ := 0

theorem A_eq16 (w : Fin cfg16.W) : (dat16 V c).A w = V c (Pipeline.arrRef spec16 w) := rfl

theorem after16_3 (t : Fin cfg16.N) : (dat16 V c).after 3 t = out16_3 (iblk16 V c 0 t) (iblk16 V c 1 t) (iblk16 V c 2 t) := by
  dsimp only [dat16]

theorem before16 (t : Fin cfg16.N) : (∀ d, (dat16 V c).before 0 t d = iblk16 V c 0 t)
    ∧ (∀ d, (dat16 V c).before 1 t d = iblk16 V c 1 t) ∧ ∀ d, (dat16 V c).before 2 t d = iblk16 V c 2 t := by
  refine ⟨?_, ?_, ?_⟩ <;> exact (dat16 V c).before_in_eq_fetched _ rfl (fun _ => rfl) (fun _ _ _ => rfl) (fun _ => rfl) t

theorem body_obligation16 : Pipeline.BodyObligation (dat16 (F := F) V c) (defs₀ (F := F)) Variants.none () Set.univ := fun t => by
  rw [bigSep_W16, bigSep_W16]
  obtain ⟨e0, e1, e2⟩ := before16 V c t
  simp only [e0, e1, e2]; dsimp only [dat16]
  sl_whnfR [defs₀, Defs.onTc]
  sl_unfold [cc16_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S8192x128.size (by rfl))

end Cert.KernelIdeal.Hand
-- ==== Proof.KI.R17.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk17 (w : Fin cfg17.W) (t : Fin cfg17.N) : ((cfg17.win w).xblock (cfg17.grid.coords t)).Idx → Elt F (cfg17.win w).elt :=
  ((cfg17.win w).blk t).view.read (Elt F) (V c (Pipeline.arrRef spec17 w))

def out17_3 (x0 : Vec F S4096x128 .f32) (x1 : Vec F S128x256 .f32) (x2 : Vec F S1x256 .f32) : Vec F S4096x256 .f32 :=
  View.canon [⟨.unit ![0, 0] _ inb_S4096x256_S4096x256_0_0, k17_pay1 (View.ld x0 (.unit ![0, 0] _ inb_S4096x128_S4096x128_0_0))
    (View.ld x1 (.unit ![0, 0] _ inb_S128x256_S128x256_0_0)) (View.ld x2 (.unit ![0, 0] _ inb_S1x256_S1x256_0_0))⟩]

def dat17 : Pipeline.Dat τ (Elt F) Unit ℕ (Pipeline.UD sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

theorem A_eq17 (w : Fin cfg17.W) : (dat17 V c).A w = V c (Pipeline.arrRef spec17 w) := rfl

theorem after17_3 (t : Fin cfg17.N) : (dat17 V c).after 3 t = out17_3 (iblk17 V c 0 t) (iblk17 V c 1 t) (iblk17 V c 2 t) := by
  dsimp only [dat17]

theorem before17 (t : Fin cfg17.N) : (∀ d, (dat17 V c).before 0 t d = iblk17 V c 0 t)
    ∧ (∀ d, (dat17 V c).before 1 t d = iblk17 V c 1 t) ∧ ∀ d, (dat17 V c).before 2 t d = iblk17 V c 2 t := by
  refine ⟨?_, ?_, ?_⟩ <;> exact (dat17 V c).before_in_eq_fetched _ rfl (fun _ => rfl) (fun _ _ _ => rfl) (fun _ => rfl) t

theorem body_obligation17 : Pipeline.BodyObligation (dat17 (F := F) V c) (defs₀ (F := F)) Variants.none () Set.univ := fun t => by
  rw [bigSep_W17, bigSep_W17]
  obtain ⟨e0, e1, e2⟩ := before17 V c t
  simp only [e0, e1, e2]; dsimp only [dat17]
  sl_whnfR [defs₀, Defs.onTc]
  sl_unfold [cc17_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x256.size (by rfl))

end Cert.KernelIdeal.Hand
-- ==== Proof.KI.R18.lean ====
import proofs.«113847_j61718680043593_1_alg».proof.Proof.Gen.KernelIdeal.Launch
import proofs.«113847_j61718680043593_1_alg».proof.Proof.Gen.KernelIdeal.Skeleton
import Idealize.ShloMosaic.Lib.Pipeline.FrameBody
import Idealize.ShloMosaic.Lib.Tactic

noncomputable section

namespace Cert.KernelIdeal.Hand

open Cert.KernelIdeal Cert.KernelIdeal.Gen Idealize.ShloMosaic Idealize.ShloMosaic.TcCoe Idealize.SL Idealize.SL.RA

variable {F : FTy → Type} [FloatOps F] (V : (c : Dev nD) → (b : Ref sig .tc) → Buf (Elt F) ((c : Thread nD τ).loc b)) (c : Dev nD)

noncomputable def iblk18 (w : Fin cfg18.W) (t : Fin cfg18.N) : ((cfg18.win w).xblock (cfg18.grid.coords t)).Idx → Elt F (cfg18.win w).elt :=
  ((cfg18.win w).blk t).view.read (Elt F) (V c (Pipeline.arrRef spec18 w))

def out18_3 (x0 : Vec F S4096x256 .f32) (x1 : Vec F S256x128 .f32) (x2 : Vec F S1x128 .f32) : Vec F S4096x128 .f32 :=
  View.canon [⟨.unit ![0, 0] _ inb_S4096x128_S4096x128_0_0, k18_pay1 (View.ld x0 (.unit ![0, 0] _ inb_S4096x256_S4096x256_0_0))
    (View.ld x1 (.unit ![0, 0] _ inb_S256x128_S256x128_0_0)) (View.ld x2 (.unit ![0, 0] _ inb_S1x128_S1x128_0_0))⟩]

def dat18 : Pipeline.Dat τ (Elt F) Unit ℕ (Pipeline.UD sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => out18_3 (iblk18 V c 0 t) (iblk18 V c 1 t) (iblk18 V c 2 t)
  Φ _ := Pipeline.ΦA spec18 c
  q _ := fullShare
  owed _ := 0

theorem A_eq18 (w : Fin cfg18.W) : (dat18 V c).A w = V c (Pipeline.arrRef spec18 w) := rfl

theorem after18_3 (t : Fin cfg18.N) : (dat18 V c).after 3 t = out18_3 (iblk18 V c 0 t) (iblk18 V c 1 t) (iblk18 V c 2 t) := by
  dsimp only [dat18]

theorem before18 (t : Fin cfg18.N) : (∀ d, (dat18 V c).before 0 t d = iblk18 V c 0 t)
    ∧ (∀ d, (dat18 V c).before 1 t d = iblk18 V c 1 t) ∧ ∀ d, (dat18 V c).before 2 t d = iblk18 V c 2 t := by
  refine ⟨?_, ?_, ?_⟩ <;> exact (dat18 V c).before_in_eq_fetched _ rfl (fun _ => rfl) (fun _ _ _ => rfl) (fun _ => rfl) t

theorem body_obligation18 : Pipeline.BodyObligation (dat18 (F := F) V c) (defs₀ (F := F)) Variants.none () Set.univ := fun t => by
  rw [bigSep_W18, bigSep_W18]
  obtain ⟨e0, e1, e2⟩ := before18 V c t
  simp only [e0, e1, e2]; dsimp only [dat18]
  sl_whnfR [defs₀, Defs.onTc]
  sl_unfold [cc18_affine_kernel]
  unfold owns
  iintro ⟨HΦ, Ho, ⟨%_, %f0, %h0, H0⟩, ⟨%_, %f1, %h1, H1⟩, ⟨%_, %f2, %h2, H2⟩, %_, %_, -, H3⟩
  sl_exec
  sl_step
  iframe HΦ
  isplitl [Ho]; · iexact Ho
  isplitl [H0]; · iexists _; iframe H0; ipureintro; exact h0
  isplitl [H1]; · iexists _; iframe H1; ipureintro; exact h1
  isplitl [H2]; · iexists _; iframe H2; ipureintro; exact h2
  iexists _; iframe H3; ipureintro
  exact h0 ▸ h1 ▸ h2 ▸ View.read_writes_eq_canon _ _ _ (View.cover_of_tiled _ S4096x128.size (by rfl))

end Cert.KernelIdeal.Hand
-- ==== Proof.KI.Run.lean ====
import proofs.«113847_j61718680043593_1_alg».proof.Proof.KI.RunCond
import proofs.«113847_j61718680043593_1_alg».proof.Proof.KI.R0
import proofs.«113847_j61718680043593_1_alg».proof.Proof.KI.R1
import proofs.«113847_j61718680043593_1_alg».proof.Proof.KI.R2
import proofs.«113847_j61718680043593_1_alg».proof.Proof.KI.R3
import proofs.«113847_j61718680043593_1_alg».proof.Proof.KI.R4
import proofs.«113847_j61718680043593_1_alg».proof.Proof.KI.R5
import proofs.«113847_j61718680043593_1_alg».proof.Proof.KI.R6
import proofs.«113847_j61718680043593_1_alg».proof.Proof.KI.R7
import proofs.«113847_j61718680043593_1_alg».proof.Proof.KI.R8
import proofs.«113847_j61718680043593_1_alg».proof.Proof.KI.R9
import proofs.«113847_j61718680043593_1_alg».proof.Proof.KI.R10
import proofs.«113847_j61718680043593_1_alg».proof.Proof.KI.R11
import proofs.«113847_j61718680043593_1_alg».proof.Proof.KI.R12
import proofs.«113847_j61718680043593_1_alg».proof.Proof.KI.R13
import proofs.«113847_j61718680043593_1_alg».proof.Proof.KI.R14
import proofs.«113847_j61718680043593_1_alg».proof.Proof.KI.R15
import proofs.«113847_j61718680043593_1_alg».proof.Proof.KI.R16
import proofs.«113847_j61718680043593_1_alg».proof.Proof.KI.R17
import proofs.«113847_j61718680043593_1_alg».proof.Proof.KI.R18
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

def outs0 : Outs (F := F) := fun _ r c => m ((c : Thread nD τ).loc r)

abbrev Ve0 : (c : Dev nD) → (b : Ref sig .tc) → Buf (Elt F) ((c : Thread nD τ).loc b) := fun c b => (GenP.V1 m c) b
def o2 (r : Ref sig .tc) (c : Dev nD) : Buf (Elt F) ((c : Thread nD τ).loc r) :=
  Pipeline.withArrays spec0 c (GenP.V1 m c) (fun w => (dat0 (Ve0 m) c).arrAt w cfg0.N) r
def outs2 : Outs (F := F) := fun J r c => match J with
  | 2 => o2 m r c
  | _ => outs0 m J r c

abbrev Ve1 : (c : Dev nD) → (b : Ref sig .tc) → Buf (Elt F) ((c : Thread nD τ).loc b) := fun c b => (GenP.V3 m (outs2 m) c) b
def o4 (r : Ref sig .tc) (c : Dev nD) : Buf (Elt F) ((c : Thread nD τ).loc r) :=
  Pipeline.withArrays spec1 c (GenP.V3 m (outs2 m) c) (fun w => (dat1 (Ve1 m) c).arrAt w cfg1.N) r
def outs4 : Outs (F := F) := fun J r c => match J with
  | 4 => o4 m r c
  | _ => outs2 m J r c

abbrev Ve2 : (c : Dev nD) → (b : Ref sig .tc) → Buf (Elt F) ((c : Thread nD τ).loc b) := fun c b => (GenP.V5 m (outs4 m) c) b
def o6 (r : Ref sig .tc) (c : Dev nD) : Buf (Elt F) ((c : Thread nD τ).loc r) :=
  Pipeline.withArrays spec2 c (GenP.V5 m (outs4 m) c) (fun w => (dat2 (Ve2 m) c).arrAt w cfg2.N) r
def outs6 : Outs (F := F) := fun J r c => match J with
  | 6 => o6 m r c
  | _ => outs4 m J r c

abbrev Ve3 : (c : Dev nD) → (b : Ref sig .tc) → Buf (Elt F) ((c : Thread nD τ).loc b) := fun c b => (GenP.V7 m (outs6 m) c) b
def o8 (r : Ref sig .tc) (c : Dev nD) : Buf (Elt F) ((c : Thread nD τ).loc r) :=
  Pipeline.withArrays spec3 c (GenP.V7 m (outs6 m) c) (fun w => (dat3 (Ve3 m) c).arrAt w cfg3.N) r
def outs8 : Outs (F := F) := fun J r c => match J with
  | 8 => o8 m r c
  | _ => outs6 m J r c

abbrev Ve4 : (c : Dev nD) → (b : Ref sig .tc) → Buf (Elt F) ((c : Thread nD τ).loc b) := fun c b => (GenP.V9 m (outs8 m) c) b
def o10 (r : Ref sig .tc) (c : Dev nD) : Buf (Elt F) ((c : Thread nD τ).loc r) :=
  Pipeline.withArrays spec4 c (GenP.V9 m (outs8 m) c) (fun w => (dat4 (Ve4 m) c).arrAt w cfg4.N) r
def outs10 : Outs (F := F) := fun J r c => match J with
  | 10 => o10 m r c
  | _ => outs8 m J r c

abbrev Ve5 : (c : Dev nD) → (b : Ref sig .tc) → Buf (Elt F) ((c : Thread nD τ).loc b) := fun c b => (GenP.V13 m (outs10 m) c) b
def o14 (r : Ref sig .tc) (c : Dev nD) : Buf (Elt F) ((c : Thread nD τ).loc r) :=
  Pipeline.withArrays spec5 c (GenP.V13 m (outs10 m) c) (fun w => (dat5 (Ve5 m) c).arrAt w cfg5.N) r
def outs14 : Outs (F := F) := fun J r c => match J with
  | 14 => o14 m r c
  | _ => outs10 m J r c

abbrev Ve6 : (c : Dev nD) → (b : Ref sig .tc) → Buf (Elt F) ((c : Thread nD τ).loc b) := fun c b => (GenP.V16 m (outs14 m) c) b
def o17 (r : Ref sig .tc) (c : Dev nD) : Buf (Elt F) ((c : Thread nD τ).loc r) :=
  Pipeline.withArrays spec6 c (GenP.V16 m (outs14 m) c) (fun w => (dat6 (Ve6 m) c).arrAt w cfg6.N) r
def outs17 : Outs (F := F) := fun J r c => match J with
  | 17 => o17 m r c
  | _ => outs14 m J r c

abbrev Ve7 : (c : Dev nD) → (b : Ref sig .tc) → Buf (Elt F) ((c : Thread nD τ).loc b) := fun c b => (GenP.V20 m (outs17 m) c) b
def o21 (r : Ref sig .tc) (c : Dev nD) : Buf (Elt F) ((c : Thread nD τ).loc r) :=
  Pipeline.withArrays spec7 c (GenP.V20 m (outs17 m) c) (fun w => (dat7 (Ve7 m) c).arrAt w cfg7.N) r
def outs21 : Outs (F := F) := fun J r c => match J with
  | 21 => o21 m r c
  | _ => outs17 m J r c

abbrev Ve8 : (c : Dev nD) → (b : Ref sig .tc) → Buf (Elt F) ((c : Thread nD τ).loc b) := fun c b => (GenP.V22 m (outs21 m) c) b
def o23 (r : Ref sig .tc) (c : Dev nD) : Buf (Elt F) ((c : Thread nD τ).loc r) :=
  Pipeline.withArrays spec8 c (GenP.V22 m (outs21 m) c) (fun w => (dat8 (Ve8 m) c).arrAt w cfg8.N) r
def outs23 : Outs (F := F) := fun J r c => match J with
  | 23 => o23 m r c
  | _ => outs21 m J r c

abbrev Ve9 : (c : Dev nD) → (b : Ref sig .tc) → Buf (Elt F) ((c : Thread nD τ).loc b) := fun c b => (GenP.V24 m (outs23 m) c) b
def o25 (r : Ref sig .tc) (c : Dev nD) : Buf (Elt F) ((c : Thread nD τ).loc r) :=
  Pipeline.withArrays spec9 c (GenP.V24 m (outs23 m) c) (fun w => (dat9 (Ve9 m) c).arrAt w cfg9.N) r
def outs25 : Outs (F := F) := fun J r c => match J with
  | 25 => o25 m r c
  | _ => outs23 m J r c

abbrev Ve10 : (c : Dev nD) → (b : Ref sig .tc) → Buf (Elt F) ((c : Thread nD τ).loc b) := fun c b => (GenP.V26 m (outs25 m) c) b
def o27 (r : Ref sig .tc) (c : Dev nD) : Buf (Elt F) ((c : Thread nD τ).loc r) :=
  Pipeline.withArrays spec10 c (GenP.V26 m (outs25 m) c) (fun w => (dat10 (Ve10 m) c).arrAt w cfg10.N) r
def outs27 : Outs (F := F) := fun J r c => match J with
  | 27 => o27 m r c
  | _ => outs25 m J r c

abbrev Ve11 : (c : Dev nD) → (b : Ref sig .tc) → Buf (Elt F) ((c : Thread nD τ).loc b) := fun c b => (GenP.V30 m (outs27 m) c) b
def o31 (r : Ref sig .tc) (c : Dev nD) : Buf (Elt F) ((c : Thread nD τ).loc r) :=
  Pipeline.withArrays spec11 c (GenP.V30 m (outs27 m) c) (fun w => (dat11 (Ve11 m) c).arrAt w cfg11.N) r
def outs31 : Outs (F := F) := fun J r c => match J with
  | 31 => o31 m r c
  | _ => outs27 m J r c

abbrev Ve12 : (c : Dev nD) → (b : Ref sig .tc) → Buf (Elt F) ((c : Thread nD τ).loc b) := fun c b => (GenP.V33 m (outs31 m) c) b
def o34 (r : Ref sig .tc) (c : Dev nD) : Buf (Elt F) ((c : Thread nD τ).loc r) :=
  Pipeline.withArrays spec12 c (GenP.V33 m (outs31 m) c) (fun w => (dat12 (Ve12 m) c).arrAt w cfg12.N) r
def outs34 : Outs (F := F) := fun J r c => match J with
  | 34 => o34 m r c
  | _ => outs31 m J r c

abbrev Ve13 : (c : Dev nD) → (b : Ref sig .tc) → Buf (Elt F) ((c : Thread nD τ).loc b) := fun c b => (GenP.V37 m (outs34 m) c) b
def o38 (r : Ref sig .tc) (c : Dev nD) : Buf (Elt F) ((c : Thread nD τ).loc r) :=
  Pipeline.withArrays spec13 c (GenP.V37 m (outs34 m) c) (fun w => (dat13 (Ve13 m) c).arrAt w cfg13.N) r
def outs38 : Outs (F := F) := fun J r c => match J with
  | 38 => o38 m r c
  | _ => outs34 m J r c

abbrev Ve14 : (c : Dev nD) → (b : Ref sig .tc) → Buf (Elt F) ((c : Thread nD τ).loc b) := fun c b => (GenP.V39 m (outs38 m) c) b
def o40 (r : Ref sig .tc) (c : Dev nD) : Buf (Elt F) ((c : Thread nD τ).loc r) :=
  Pipeline.withArrays spec14 c (GenP.V39 m (outs38 m) c) (fun w => (dat14 (Ve14 m) c).arrAt w cfg14.N) r
def outs40 : Outs (F := F) := fun J r c => match J with
  | 40 => o40 m r c
  | _ => outs38 m J r c

abbrev Ve15 : (c : Dev nD) → (b : Ref sig .tc) → Buf (Elt F) ((c : Thread nD τ).loc b) := fun c b => (GenP.V41 m (outs40 m) c) b
def o42 (r : Ref sig .tc) (c : Dev nD) : Buf (Elt F) ((c : Thread nD τ).loc r) :=
  Pipeline.withArrays spec15 c (GenP.V41 m (outs40 m) c) (fun w => (dat15 (Ve15 m) c).arrAt w cfg15.N) r
def outs42 : Outs (F := F) := fun J r c => match J with
  | 42 => o42 m r c
  | _ => outs40 m J r c

abbrev Ve16 : (c : Dev nD) → (b : Ref sig .tc) → Buf (Elt F) ((c : Thread nD τ).loc b) := fun c b => (GenP.V43 m (outs42 m) c) b
def o44 (r : Ref sig .tc) (c : Dev nD) : Buf (Elt F) ((c : Thread nD τ).loc r) :=
  Pipeline.withArrays spec16 c (GenP.V43 m (outs42 m) c) (fun w => (dat16 (Ve16 m) c).arrAt w cfg16.N) r
def outs44 : Outs (F := F) := fun J r c => match J with
  | 44 => o44 m r c
  | _ => outs42 m J r c

abbrev Ve17 : (c : Dev nD) → (b : Ref sig .tc) → Buf (Elt F) ((c : Thread nD τ).loc b) := fun c b => (GenP.V47 m (outs44 m) c) b
def o48 (r : Ref sig .tc) (c : Dev nD) : Buf (Elt F) ((c : Thread nD τ).loc r) :=
  Pipeline.withArrays spec17 c (GenP.V47 m (outs44 m) c) (fun w => (dat17 (Ve17 m) c).arrAt w cfg17.N) r
def outs48 : Outs (F := F) := fun J r c => match J with
  | 48 => o48 m r c
  | _ => outs44 m J r c

abbrev Ve18 : (c : Dev nD) → (b : Ref sig .tc) → Buf (Elt F) ((c : Thread nD τ).loc b) := fun c b => (GenP.V50 m (outs48 m) c) b
def o51 (r : Ref sig .tc) (c : Dev nD) : Buf (Elt F) ((c : Thread nD τ).loc r) :=
  Pipeline.withArrays spec18 c (GenP.V50 m (outs48 m) c) (fun w => (dat18 (Ve18 m) c).arrAt w cfg18.N) r
def outs51 : Outs (F := F) := fun J r c => match J with
  | 51 => o51 m r c
  | _ => outs48 m J r c

abbrev outsF : Outs (F := F) := outs51 m

def pdats : (p : Fin 19) → (c : Dev nD) → Dat τ (Elt F) Unit ℕ (Pipeline.UD sig nD τ) ℕ (cfgs p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c
  | ⟨4, _⟩ => fun c => dat4 (Ve4 m) c
  | ⟨5, _⟩ => fun c => dat5 (Ve5 m) c
  | ⟨6, _⟩ => fun c => dat6 (Ve6 m) c
  | ⟨7, _⟩ => fun c => dat7 (Ve7 m) c
  | ⟨8, _⟩ => fun c => dat8 (Ve8 m) c
  | ⟨9, _⟩ => fun c => dat9 (Ve9 m) c
  | ⟨10, _⟩ => fun c => dat10 (Ve10 m) c
  | ⟨11, _⟩ => fun c => dat11 (Ve11 m) c
  | ⟨12, _⟩ => fun c => dat12 (Ve12 m) c
  | ⟨13, _⟩ => fun c => dat13 (Ve13 m) c
  | ⟨14, _⟩ => fun c => dat14 (Ve14 m) c
  | ⟨15, _⟩ => fun c => dat15 (Ve15 m) c
  | ⟨16, _⟩ => fun c => dat16 (Ve16 m) c
  | ⟨17, _⟩ => fun c => dat17 (Ve17 m) c
  | ⟨18, _⟩ => fun c => dat18 (Ve18 m) c
  | ⟨_ + 19, h⟩ => absurd h (Nat.not_lt.2 (Nat.le_add_left _ _))

abbrev 𝒱h : Variants := Variants.none
abbrev Lh : GSem nD τ sig → Finset Unit := fun _ => ∅
abbrev lvh : GSem nD τ sig → Unit → ℕ := fun _ _ => 0
abbrev Rr (c : Dev nD) : sProp 𝕄 := iprop((∃ r, prngReg c r) ∗ ∃ W, owes (c : Thread nD τ) (0 : CellTallies nD τ sig Unit) W)

-- One kernel region as a segment: every unscoped buffer at Vi on entry and at Vo on exit, Vo differing from Vi only at the region's arrays.
set_option backward.isDefEq.respectTransparency.types false in
def regOf (p : Fin 19) (lf : Pipeline.LaunchFacts (nD := nD) (τ := τ) cfgs p) (Vi Vo : Dev nD → Valuation τ sig (Elt F))
    (hb : ∀ c, BodyObligation (pdats m p c) (defs₀ (F := F)) 𝒱h () Set.univ)
    (hq : ∀ c w, (pdats m p c).q w = fullShare) (hΦ : ∀ c t, (pdats m p c).Φ t = Pipeline.ΦA (cfgs p).spec c)
    (ho : ∀ c t, (pdats m p c).owed t = 0) (hrec : ∀ c t, (pdats m p c).recorded t = Set.univ)
    (hA : ∀ c w, (pdats m p c).A w = Vi c (Pipeline.arrRef (cfgs p).spec w))
    (hF : ∀ c w, (pdats m p c).arrAt w (cfgs p).N = Vo c (Pipeline.arrRef (cfgs p).spec w))
    (hrest : ∀ c, ∀ b : Ref sig .tc, b ∉ Finset.univ.image (Pipeline.arrRef (cfgs p).spec) → Vo c b = Vi c b) :
    RegionSeg (pcfgs (F := F)) GenP.adm (pdats m) () defs₀ 𝒱h Lh lvh p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ Lh lvh p ho
  pre c := iprop(StableHlo.held (c : Thread nD τ) (Pipeline.ucRefs τ sig) (Vi c) ∗ Rr c)
  post c := iprop(StableHlo.held (c : Thread nD τ) (Pipeline.ucRefs τ sig) (Vo c) ∗ Rr c)
  X c := iprop(∃ r, prngReg c r)
  Y c := iprop(∃ r, prngReg c r)
  Z c := Pipeline.unscopedRest (Ix := Unit) (Name := ℕ) (U := Pipeline.UD sig nD τ) (Lvl := ℕ) (cfgs p).spec c (fun b => Vi c b)
  hentry c := by
    rw [Pipeline.ownSems0_none]
    have hsplit := Pipeline.arrays_of_unscopedBufs (p := p) (pcfgs (F := F)) GenP.adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [ho c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) GenP.adm (Ix := Unit) (Name := ℕ) (U := Pipeline.UD sig nD τ) (Lvl := ℕ)
      lf.win lf.arr_whole c (pdats m) ((pdats m p c).share_full (hq c))
      (fun b => Vi c b) (fun b : Ref sig .tc => Vo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c (Fin.last _)]
    icases HO with ⟨%W, -, HO⟩; iexists W; iexact HO

theorem hF0 (c : Dev nD) (w : Fin cfg0.W) : (dat0 (Ve0 m) c).arrAt w cfg0.N = (GenP.V2 m (outs2 m) c) (Pipeline.arrRef spec0 w) := by
  match w with
  | ⟨0, _⟩ => exact ((dat0 (Ve0 m) c).arrAt_in ⟨0, by decide⟩ rfl _).trans ((A_eq0 (Ve0 m) c ⟨0, by decide⟩).trans (GenP.V2_of m (outs2 m) c _ (by decide)).symm)
  | ⟨1, _⟩ => exact ((dat0 (Ve0 m) c).arrAt_in ⟨1, by decide⟩ rfl _).trans ((A_eq0 (Ve0 m) c ⟨1, by decide⟩).trans (GenP.V2_of m (outs2 m) c _ (by decide)).symm)
  | ⟨2, _⟩ => exact ((dat0 (Ve0 m) c).arrAt_in ⟨2, by decide⟩ rfl _).trans ((A_eq0 (Ve0 m) c ⟨2, by decide⟩).trans (GenP.V2_of m (outs2 m) c _ (by decide)).symm)
  | ⟨3, _⟩ =>
    show _ = (GenP.V2 m (outs2 m) c) main_v4
    dsimp only [GenP.V2]
    rw [Function.update_self]
    show _ = o2 m main_v4 c
    exact (Pipeline.withArrays_arr spec0 launch0.win.arr_inj c (GenP.V1 m c) (fun w => (dat0 (Ve0 m) c).arrAt w cfg0.N) ⟨3, by decide⟩).symm

theorem hrest0 (c : Dev nD) (b : Ref sig .tc) (hb : b ∉ Finset.univ.image (Pipeline.arrRef spec0)) : (GenP.V2 m (outs2 m) c) b = Ve0 m c b :=
  GenP.V2_of m (outs2 m) c b (by
    intro h
    simp only [List.mem_cons, List.mem_nil_iff, or_false] at h
    subst h; exact hb (Finset.mem_image.mpr ⟨⟨3, by decide⟩, Finset.mem_univ _, rfl⟩))

def reg0 : RegionSeg (pcfgs (F := F)) GenP.adm (pdats m) () defs₀ 𝒱h Lh lvh 0 :=
  regOf m 0 launch0 (GenP.V1 m) (GenP.V2 m (outs2 m)) (body_obligation0 (Ve0 m))
    (fun _ _ => rfl) (fun _ _ => rfl) (fun _ _ => rfl) (fun _ _ => rfl) (fun _ _ => rfl) (hF0 m) (hrest0 m)

theorem hF1 (c : Dev nD) (w : Fin cfg1.W) : (dat1 (Ve1 m) c).arrAt w cfg1.N = (GenP.V4 m (outs4 m) c) (Pipeline.arrRef spec1 w) := by
  match w with
  | ⟨0, _⟩ => exact ((dat1 (Ve1 m) c).arrAt_in ⟨0, by decide⟩ rfl _).trans ((A_eq1 (Ve1 m) c ⟨0, by decide⟩).trans (GenP.V4_of m (outs4 m) c _ (by decide)).symm)
  | ⟨1, _⟩ => exact ((dat1 (Ve1 m) c).arrAt_in ⟨1, by decide⟩ rfl _).trans ((A_eq1 (Ve1 m) c ⟨1, by decide⟩).trans (GenP.V4_of m (outs4 m) c _ (by decide)).symm)
  | ⟨2, _⟩ => exact ((dat1 (Ve1 m) c).arrAt_in ⟨2, by decide⟩ rfl _).trans ((A_eq1 (Ve1 m) c ⟨2, by decide⟩).trans (GenP.V4_of m (outs4 m) c _ (by decide)).symm)
  | ⟨3, _⟩ =>
    show _ = (GenP.V4 m (outs4 m) c) main_v18
    dsimp only [GenP.V4]
    rw [Function.update_self]
    show _ = o4 m main_v18 c
    exact (Pipeline.withArrays_arr spec1 launch1.win.arr_inj c (GenP.V3 m (outs2 m) c) (fun w => (dat1 (Ve1 m) c).arrAt w cfg1.N) ⟨3, by decide⟩).symm

theorem hrest1 (c : Dev nD) (b : Ref sig .tc) (hb : b ∉ Finset.univ.image (Pipeline.arrRef spec1)) : (GenP.V4 m (outs4 m) c) b = Ve1 m c b :=
  GenP.V4_of m (outs4 m) c b (by
    intro h
    simp only [List.mem_cons, List.mem_nil_iff, or_false] at h
    subst h; exact hb (Finset.mem_image.mpr ⟨⟨3, by decide⟩, Finset.mem_univ _, rfl⟩))

def reg1 : RegionSeg (pcfgs (F := F)) GenP.adm (pdats m) () defs₀ 𝒱h Lh lvh 1 :=
  regOf m 1 launch1 (GenP.V3 m (outs2 m)) (GenP.V4 m (outs4 m)) (body_obligation1 (Ve1 m))
    (fun _ _ => rfl) (fun _ _ => rfl) (fun _ _ => rfl) (fun _ _ => rfl) (fun _ _ => rfl) (hF1 m) (hrest1 m)

theorem hF2 (c : Dev nD) (w : Fin cfg2.W) : (dat2 (Ve2 m) c).arrAt w cfg2.N = (GenP.V6 m (outs6 m) c) (Pipeline.arrRef spec2 w) := by
  match w with
  | ⟨0, _⟩ => exact ((dat2 (Ve2 m) c).arrAt_in ⟨0, by decide⟩ rfl _).trans ((A_eq2 (Ve2 m) c ⟨0, by decide⟩).trans (GenP.V6_of m (outs6 m) c _ (by decide)).symm)
  | ⟨1, _⟩ => exact ((dat2 (Ve2 m) c).arrAt_in ⟨1, by decide⟩ rfl _).trans ((A_eq2 (Ve2 m) c ⟨1, by decide⟩).trans (GenP.V6_of m (outs6 m) c _ (by decide)).symm)
  | ⟨2, _⟩ => exact ((dat2 (Ve2 m) c).arrAt_in ⟨2, by decide⟩ rfl _).trans ((A_eq2 (Ve2 m) c ⟨2, by decide⟩).trans (GenP.V6_of m (outs6 m) c _ (by decide)).symm)
  | ⟨3, _⟩ =>
    show _ = (GenP.V6 m (outs6 m) c) main_v24
    dsimp only [GenP.V6]
    rw [Function.update_self]
    show _ = o6 m main_v24 c
    exact (Pipeline.withArrays_arr spec2 launch2.win.arr_inj c (GenP.V5 m (outs4 m) c) (fun w => (dat2 (Ve2 m) c).arrAt w cfg2.N) ⟨3, by decide⟩).symm

theorem hrest2 (c : Dev nD) (b : Ref sig .tc) (hb : b ∉ Finset.univ.image (Pipeline.arrRef spec2)) : (GenP.V6 m (outs6 m) c) b = Ve2 m c b :=
  GenP.V6_of m (outs6 m) c b (by
    intro h
    simp only [List.mem_cons, List.mem_nil_iff, or_false] at h
    subst h; exact hb (Finset.mem_image.mpr ⟨⟨3, by decide⟩, Finset.mem_univ _, rfl⟩))

def reg2 : RegionSeg (pcfgs (F := F)) GenP.adm (pdats m) () defs₀ 𝒱h Lh lvh 2 :=
  regOf m 2 launch2 (GenP.V5 m (outs4 m)) (GenP.V6 m (outs6 m)) (body_obligation2 (Ve2 m))
    (fun _ _ => rfl) (fun _ _ => rfl) (fun _ _ => rfl) (fun _ _ => rfl) (fun _ _ => rfl) (hF2 m) (hrest2 m)

theorem hF3 (c : Dev nD) (w : Fin cfg3.W) : (dat3 (Ve3 m) c).arrAt w cfg3.N = (GenP.V8 m (outs8 m) c) (Pipeline.arrRef spec3 w) := by
  match w with
  | ⟨0, _⟩ => exact ((dat3 (Ve3 m) c).arrAt_in ⟨0, by decide⟩ rfl _).trans ((A_eq3 (Ve3 m) c ⟨0, by decide⟩).trans (GenP.V8_of m (outs8 m) c _ (by decide)).symm)
  | ⟨1, _⟩ => exact ((dat3 (Ve3 m) c).arrAt_in ⟨1, by decide⟩ rfl _).trans ((A_eq3 (Ve3 m) c ⟨1, by decide⟩).trans (GenP.V8_of m (outs8 m) c _ (by decide)).symm)
  | ⟨2, _⟩ => exact ((dat3 (Ve3 m) c).arrAt_in ⟨2, by decide⟩ rfl _).trans ((A_eq3 (Ve3 m) c ⟨2, by decide⟩).trans (GenP.V8_of m (outs8 m) c _ (by decide)).symm)
  | ⟨3, _⟩ => exact ((dat3 (Ve3 m) c).arrAt_in ⟨3, by decide⟩ rfl _).trans ((A_eq3 (Ve3 m) c ⟨3, by decide⟩).trans (GenP.V8_of m (outs8 m) c _ (by decide)).symm)
  | ⟨4, _⟩ =>
    show _ = (GenP.V8 m (outs8 m) c) main_v46_0
    dsimp only [GenP.V8]
    rw [Function.update_of_ne (by decide), Function.update_self]
    show _ = o8 m main_v46_0 c
    exact (Pipeline.withArrays_arr spec3 launch3.win.arr_inj c (GenP.V7 m (outs6 m) c) (fun w => (dat3 (Ve3 m) c).arrAt w cfg3.N) ⟨4, by decide⟩).symm
  | ⟨5, _⟩ =>
    show _ = (GenP.V8 m (outs8 m) c) main_v46_1
    dsimp only [GenP.V8]
    rw [Function.update_self]
    show _ = o8 m main_v46_1 c
    exact (Pipeline.withArrays_arr spec3 launch3.win.arr_inj c (GenP.V7 m (outs6 m) c) (fun w => (dat3 (Ve3 m) c).arrAt w cfg3.N) ⟨5, by decide⟩).symm

theorem hrest3 (c : Dev nD) (b : Ref sig .tc) (hb : b ∉ Finset.univ.image (Pipeline.arrRef spec3)) : (GenP.V8 m (outs8 m) c) b = Ve3 m c b :=
  GenP.V8_of m (outs8 m) c b (by
    intro h
    simp only [List.mem_cons, List.mem_nil_iff, or_false] at h
    rcases h with h | h <;> subst h
    · exact hb (Finset.mem_image.mpr ⟨⟨4, by decide⟩, Finset.mem_univ _, rfl⟩)
    · exact hb (Finset.mem_image.mpr ⟨⟨5, by decide⟩, Finset.mem_univ _, rfl⟩))

def reg3 : RegionSeg (pcfgs (F := F)) GenP.adm (pdats m) () defs₀ 𝒱h Lh lvh 3 :=
  regOf m 3 launch3 (GenP.V7 m (outs6 m)) (GenP.V8 m (outs8 m)) (body_obligation3 (Ve3 m))
    (fun _ _ => rfl) (fun _ _ => rfl) (fun _ _ => rfl) (fun _ _ => rfl) (fun _ _ => rfl) (hF3 m) (hrest3 m)

theorem hF4 (c : Dev nD) (w : Fin cfg4.W) : (dat4 (Ve4 m) c).arrAt w cfg4.N = (GenP.V10 m (outs10 m) c) (Pipeline.arrRef spec4 w) := by
  match w with
  | ⟨0, _⟩ => exact ((dat4 (Ve4 m) c).arrAt_in ⟨0, by decide⟩ rfl _).trans ((A_eq4 (Ve4 m) c ⟨0, by decide⟩).trans (GenP.V10_of m (outs10 m) c _ (by decide)).symm)
  | ⟨1, _⟩ => exact ((dat4 (Ve4 m) c).arrAt_in ⟨1, by decide⟩ rfl _).trans ((A_eq4 (Ve4 m) c ⟨1, by decide⟩).trans (GenP.V10_of m (outs10 m) c _ (by decide)).symm)
  | ⟨2, _⟩ => exact ((dat4 (Ve4 m) c).arrAt_in ⟨2, by decide⟩ rfl _).trans ((A_eq4 (Ve4 m) c ⟨2, by decide⟩).trans (GenP.V10_of m (outs10 m) c _ (by decide)).symm)
  | ⟨3, _⟩ =>
    show _ = (GenP.V10 m (outs10 m) c) main_v61
    dsimp only [GenP.V10]
    rw [Function.update_self]
    show _ = o10 m main_v61 c
    exact (Pipeline.withArrays_arr spec4 launch4.win.arr_inj c (GenP.V9 m (outs8 m) c) (fun w => (dat4 (Ve4 m) c).arrAt w cfg4.N) ⟨3, by decide⟩).symm

theorem hrest4 (c : Dev nD) (b : Ref sig .tc) (hb : b ∉ Finset.univ.image (Pipeline.arrRef spec4)) : (GenP.V10 m (outs10 m) c) b = Ve4 m c b :=
  GenP.V10_of m (outs10 m) c b (by
    intro h
    simp only [List.mem_cons, List.mem_nil_iff, or_false] at h
    subst h; exact hb (Finset.mem_image.mpr ⟨⟨3, by decide⟩, Finset.mem_univ _, rfl⟩))

def reg4 : RegionSeg (pcfgs (F := F)) GenP.adm (pdats m) () defs₀ 𝒱h Lh lvh 4 :=
  regOf m 4 launch4 (GenP.V9 m (outs8 m)) (GenP.V10 m (outs10 m)) (body_obligation4 (Ve4 m))
    (fun _ _ => rfl) (fun _ _ => rfl) (fun _ _ => rfl) (fun _ _ => rfl) (fun _ _ => rfl) (hF4 m) (hrest4 m)

theorem hF5 (c : Dev nD) (w : Fin cfg5.W) : (dat5 (Ve5 m) c).arrAt w cfg5.N = (GenP.V14 m (outs14 m) c) (Pipeline.arrRef spec5 w) := by
  match w with
  | ⟨0, _⟩ => exact ((dat5 (Ve5 m) c).arrAt_in ⟨0, by decide⟩ rfl _).trans ((A_eq5 (Ve5 m) c ⟨0, by decide⟩).trans (GenP.V14_of m (outs14 m) c _ (by decide)).symm)
  | ⟨1, _⟩ => exact ((dat5 (Ve5 m) c).arrAt_in ⟨1, by decide⟩ rfl _).trans ((A_eq5 (Ve5 m) c ⟨1, by decide⟩).trans (GenP.V14_of m (outs14 m) c _ (by decide)).symm)
  | ⟨2, _⟩ => exact ((dat5 (Ve5 m) c).arrAt_in ⟨2, by decide⟩ rfl _).trans ((A_eq5 (Ve5 m) c ⟨2, by decide⟩).trans (GenP.V14_of m (outs14 m) c _ (by decide)).symm)
  | ⟨3, _⟩ =>
    show _ = (GenP.V14 m (outs14 m) c) main_v90
    dsimp only [GenP.V14]
    rw [Function.update_self]
    show _ = o14 m main_v90 c
    exact (Pipeline.withArrays_arr spec5 launch5.win.arr_inj c (GenP.V13 m (outs10 m) c) (fun w => (dat5 (Ve5 m) c).arrAt w cfg5.N) ⟨3, by decide⟩).symm

theorem hrest5 (c : Dev nD) (b : Ref sig .tc) (hb : b ∉ Finset.univ.image (Pipeline.arrRef spec5)) : (GenP.V14 m (outs14 m) c) b = Ve5 m c b :=
  GenP.V14_of m (outs14 m) c b (by
    intro h
    simp only [List.mem_cons, List.mem_nil_iff, or_false] at h
    subst h; exact hb (Finset.mem_image.mpr ⟨⟨3, by decide⟩, Finset.mem_univ _, rfl⟩))

def reg5 : RegionSeg (pcfgs (F := F)) GenP.adm (pdats m) () defs₀ 𝒱h Lh lvh 5 :=
  regOf m 5 launch5 (GenP.V13 m (outs10 m)) (GenP.V14 m (outs14 m)) (body_obligation5 (Ve5 m))
    (fun _ _ => rfl) (fun _ _ => rfl) (fun _ _ => rfl) (fun _ _ => rfl) (fun _ _ => rfl) (hF5 m) (hrest5 m)

theorem hF6 (c : Dev nD) (w : Fin cfg6.W) : (dat6 (Ve6 m) c).arrAt w cfg6.N = (GenP.V17 m (outs17 m) c) (Pipeline.arrRef spec6 w) := by
  match w with
  | ⟨0, _⟩ => exact ((dat6 (Ve6 m) c).arrAt_in ⟨0, by decide⟩ rfl _).trans ((A_eq6 (Ve6 m) c ⟨0, by decide⟩).trans (GenP.V17_of m (outs17 m) c _ (by decide)).symm)
  | ⟨1, _⟩ => exact ((dat6 (Ve6 m) c).arrAt_in ⟨1, by decide⟩ rfl _).trans ((A_eq6 (Ve6 m) c ⟨1, by decide⟩).trans (GenP.V17_of m (outs17 m) c _ (by decide)).symm)
  | ⟨2, _⟩ => exact ((dat6 (Ve6 m) c).arrAt_in ⟨2, by decide⟩ rfl _).trans ((A_eq6 (Ve6 m) c ⟨2, by decide⟩).trans (GenP.V17_of m (outs17 m) c _ (by decide)).symm)
  | ⟨3, _⟩ =>
    show _ = (GenP.V17 m (outs17 m) c) main_v97
    dsimp only [GenP.V17]
    rw [Function.update_self]
    show _ = o17 m main_v97 c
    exact (Pipeline.withArrays_arr spec6 launch6.win.arr_inj c (GenP.V16 m (outs14 m) c) (fun w => (dat6 (Ve6 m) c).arrAt w cfg6.N) ⟨3, by decide⟩).symm

theorem hrest6 (c : Dev nD) (b : Ref sig .tc) (hb : b ∉ Finset.univ.image (Pipeline.arrRef spec6)) : (GenP.V17 m (outs17 m) c) b = Ve6 m c b :=
  GenP.V17_of m (outs17 m) c b (by
    intro h
    simp only [List.mem_cons, List.mem_nil_iff, or_false] at h
    subst h; exact hb (Finset.mem_image.mpr ⟨⟨3, by decide⟩, Finset.mem_univ _, rfl⟩))

def reg6 : RegionSeg (pcfgs (F := F)) GenP.adm (pdats m) () defs₀ 𝒱h Lh lvh 6 :=
  regOf m 6 launch6 (GenP.V16 m (outs14 m)) (GenP.V17 m (outs17 m)) (body_obligation6 (Ve6 m))
    (fun _ _ => rfl) (fun _ _ => rfl) (fun _ _ => rfl) (fun _ _ => rfl) (fun _ _ => rfl) (hF6 m) (hrest6 m)

theorem hF7 (c : Dev nD) (w : Fin cfg7.W) : (dat7 (Ve7 m) c).arrAt w cfg7.N = (GenP.V21 m (outs21 m) c) (Pipeline.arrRef spec7 w) := by
  match w with
  | ⟨0, _⟩ => exact ((dat7 (Ve7 m) c).arrAt_in ⟨0, by decide⟩ rfl _).trans ((A_eq7 (Ve7 m) c ⟨0, by decide⟩).trans (GenP.V21_of m (outs21 m) c _ (by decide)).symm)
  | ⟨1, _⟩ => exact ((dat7 (Ve7 m) c).arrAt_in ⟨1, by decide⟩ rfl _).trans ((A_eq7 (Ve7 m) c ⟨1, by decide⟩).trans (GenP.V21_of m (outs21 m) c _ (by decide)).symm)
  | ⟨2, _⟩ => exact ((dat7 (Ve7 m) c).arrAt_in ⟨2, by decide⟩ rfl _).trans ((A_eq7 (Ve7 m) c ⟨2, by decide⟩).trans (GenP.V21_of m (outs21 m) c _ (by decide)).symm)
  | ⟨3, _⟩ =>
    show _ = (GenP.V21 m (outs21 m) c) main_v128
    dsimp only [GenP.V21]
    rw [Function.update_self]
    show _ = o21 m main_v128 c
    exact (Pipeline.withArrays_arr spec7 launch7.win.arr_inj c (GenP.V20 m (outs17 m) c) (fun w => (dat7 (Ve7 m) c).arrAt w cfg7.N) ⟨3, by decide⟩).symm

theorem hrest7 (c : Dev nD) (b : Ref sig .tc) (hb : b ∉ Finset.univ.image (Pipeline.arrRef spec7)) : (GenP.V21 m (outs21 m) c) b = Ve7 m c b :=
  GenP.V21_of m (outs21 m) c b (by
    intro h
    simp only [List.mem_cons, List.mem_nil_iff, or_false] at h
    subst h; exact hb (Finset.mem_image.mpr ⟨⟨3, by decide⟩, Finset.mem_univ _, rfl⟩))

def reg7 : RegionSeg (pcfgs (F := F)) GenP.adm (pdats m) () defs₀ 𝒱h Lh lvh 7 :=
  regOf m 7 launch7 (GenP.V20 m (outs17 m)) (GenP.V21 m (outs21 m)) (body_obligation7 (Ve7 m))
    (fun _ _ => rfl) (fun _ _ => rfl) (fun _ _ => rfl) (fun _ _ => rfl) (fun _ _ => rfl) (hF7 m) (hrest7 m)

theorem hF8 (c : Dev nD) (w : Fin cfg8.W) : (dat8 (Ve8 m) c).arrAt w cfg8.N = (GenP.V23 m (outs23 m) c) (Pipeline.arrRef spec8 w) := by
  match w with
  | ⟨0, _⟩ => exact ((dat8 (Ve8 m) c).arrAt_in ⟨0, by decide⟩ rfl _).trans ((A_eq8 (Ve8 m) c ⟨0, by decide⟩).trans (GenP.V23_of m (outs23 m) c _ (by decide)).symm)
  | ⟨1, _⟩ => exact ((dat8 (Ve8 m) c).arrAt_in ⟨1, by decide⟩ rfl _).trans ((A_eq8 (Ve8 m) c ⟨1, by decide⟩).trans (GenP.V23_of m (outs23 m) c _ (by decide)).symm)
  | ⟨2, _⟩ => exact ((dat8 (Ve8 m) c).arrAt_in ⟨2, by decide⟩ rfl _).trans ((A_eq8 (Ve8 m) c ⟨2, by decide⟩).trans (GenP.V23_of m (outs23 m) c _ (by decide)).symm)
  | ⟨3, _⟩ =>
    show _ = (GenP.V23 m (outs23 m) c) main_v134
    dsimp only [GenP.V23]
    rw [Function.update_self]
    show _ = o23 m main_v134 c
    exact (Pipeline.withArrays_arr spec8 launch8.win.arr_inj c (GenP.V22 m (outs21 m) c) (fun w => (dat8 (Ve8 m) c).arrAt w cfg8.N) ⟨3, by decide⟩).symm

theorem hrest8 (c : Dev nD) (b : Ref sig .tc) (hb : b ∉ Finset.univ.image (Pipeline.arrRef spec8)) : (GenP.V23 m (outs23 m) c) b = Ve8 m c b :=
  GenP.V23_of m (outs23 m) c b (by
    intro h
    simp only [List.mem_cons, List.mem_nil_iff, or_false] at h
    subst h; exact hb (Finset.mem_image.mpr ⟨⟨3, by decide⟩, Finset.mem_univ _, rfl⟩))

def reg8 : RegionSeg (pcfgs (F := F)) GenP.adm (pdats m) () defs₀ 𝒱h Lh lvh 8 :=
  regOf m 8 launch8 (GenP.V22 m (outs21 m)) (GenP.V23 m (outs23 m)) (body_obligation8 (Ve8 m))
    (fun _ _ => rfl) (fun _ _ => rfl) (fun _ _ => rfl) (fun _ _ => rfl) (fun _ _ => rfl) (hF8 m) (hrest8 m)

theorem hF9 (c : Dev nD) (w : Fin cfg9.W) : (dat9 (Ve9 m) c).arrAt w cfg9.N = (GenP.V25 m (outs25 m) c) (Pipeline.arrRef spec9 w) := by
  match w with
  | ⟨0, _⟩ => exact ((dat9 (Ve9 m) c).arrAt_in ⟨0, by decide⟩ rfl _).trans ((A_eq9 (Ve9 m) c ⟨0, by decide⟩).trans (GenP.V25_of m (outs25 m) c _ (by decide)).symm)
  | ⟨1, _⟩ => exact ((dat9 (Ve9 m) c).arrAt_in ⟨1, by decide⟩ rfl _).trans ((A_eq9 (Ve9 m) c ⟨1, by decide⟩).trans (GenP.V25_of m (outs25 m) c _ (by decide)).symm)
  | ⟨2, _⟩ => exact ((dat9 (Ve9 m) c).arrAt_in ⟨2, by decide⟩ rfl _).trans ((A_eq9 (Ve9 m) c ⟨2, by decide⟩).trans (GenP.V25_of m (outs25 m) c _ (by decide)).symm)
  | ⟨3, _⟩ => exact ((dat9 (Ve9 m) c).arrAt_in ⟨3, by decide⟩ rfl _).trans ((A_eq9 (Ve9 m) c ⟨3, by decide⟩).trans (GenP.V25_of m (outs25 m) c _ (by decide)).symm)
  | ⟨4, _⟩ =>
    show _ = (GenP.V25 m (outs25 m) c) main_v156_0
    dsimp only [GenP.V25]
    rw [Function.update_of_ne (by decide), Function.update_self]
    show _ = o25 m main_v156_0 c
    exact (Pipeline.withArrays_arr spec9 launch9.win.arr_inj c (GenP.V24 m (outs23 m) c) (fun w => (dat9 (Ve9 m) c).arrAt w cfg9.N) ⟨4, by decide⟩).symm
  | ⟨5, _⟩ =>
    show _ = (GenP.V25 m (outs25 m) c) main_v156_1
    dsimp only [GenP.V25]
    rw [Function.update_self]
    show _ = o25 m main_v156_1 c
    exact (Pipeline.withArrays_arr spec9 launch9.win.arr_inj c (GenP.V24 m (outs23 m) c) (fun w => (dat9 (Ve9 m) c).arrAt w cfg9.N) ⟨5, by decide⟩).symm

theorem hrest9 (c : Dev nD) (b : Ref sig .tc) (hb : b ∉ Finset.univ.image (Pipeline.arrRef spec9)) : (GenP.V25 m (outs25 m) c) b = Ve9 m c b :=
  GenP.V25_of m (outs25 m) c b (by
    intro h
    simp only [List.mem_cons, List.mem_nil_iff, or_false] at h
    rcases h with h | h <;> subst h
    · exact hb (Finset.mem_image.mpr ⟨⟨4, by decide⟩, Finset.mem_univ _, rfl⟩)
    · exact hb (Finset.mem_image.mpr ⟨⟨5, by decide⟩, Finset.mem_univ _, rfl⟩))

def reg9 : RegionSeg (pcfgs (F := F)) GenP.adm (pdats m) () defs₀ 𝒱h Lh lvh 9 :=
  regOf m 9 launch9 (GenP.V24 m (outs23 m)) (GenP.V25 m (outs25 m)) (body_obligation9 (Ve9 m))
    (fun _ _ => rfl) (fun _ _ => rfl) (fun _ _ => rfl) (fun _ _ => rfl) (fun _ _ => rfl) (hF9 m) (hrest9 m)

theorem hF10 (c : Dev nD) (w : Fin cfg10.W) : (dat10 (Ve10 m) c).arrAt w cfg10.N = (GenP.V27 m (outs27 m) c) (Pipeline.arrRef spec10 w) := by
  match w with
  | ⟨0, _⟩ => exact ((dat10 (Ve10 m) c).arrAt_in ⟨0, by decide⟩ rfl _).trans ((A_eq10 (Ve10 m) c ⟨0, by decide⟩).trans (GenP.V27_of m (outs27 m) c _ (by decide)).symm)
  | ⟨1, _⟩ => exact ((dat10 (Ve10 m) c).arrAt_in ⟨1, by decide⟩ rfl _).trans ((A_eq10 (Ve10 m) c ⟨1, by decide⟩).trans (GenP.V27_of m (outs27 m) c _ (by decide)).symm)
  | ⟨2, _⟩ => exact ((dat10 (Ve10 m) c).arrAt_in ⟨2, by decide⟩ rfl _).trans ((A_eq10 (Ve10 m) c ⟨2, by decide⟩).trans (GenP.V27_of m (outs27 m) c _ (by decide)).symm)
  | ⟨3, _⟩ =>
    show _ = (GenP.V27 m (outs27 m) c) main_v171
    dsimp only [GenP.V27]
    rw [Function.update_self]
    show _ = o27 m main_v171 c
    exact (Pipeline.withArrays_arr spec10 launch10.win.arr_inj c (GenP.V26 m (outs25 m) c) (fun w => (dat10 (Ve10 m) c).arrAt w cfg10.N) ⟨3, by decide⟩).symm

theorem hrest10 (c : Dev nD) (b : Ref sig .tc) (hb : b ∉ Finset.univ.image (Pipeline.arrRef spec10)) : (GenP.V27 m (outs27 m) c) b = Ve10 m c b :=
  GenP.V27_of m (outs27 m) c b (by
    intro h
    simp only [List.mem_cons, List.mem_nil_iff, or_false] at h
    subst h; exact hb (Finset.mem_image.mpr ⟨⟨3, by decide⟩, Finset.mem_univ _, rfl⟩))

def reg10 : RegionSeg (pcfgs (F := F)) GenP.adm (pdats m) () defs₀ 𝒱h Lh lvh 10 :=
  regOf m 10 launch10 (GenP.V26 m (outs25 m)) (GenP.V27 m (outs27 m)) (body_obligation10 (Ve10 m))
    (fun _ _ => rfl) (fun _ _ => rfl) (fun _ _ => rfl) (fun _ _ => rfl) (fun _ _ => rfl) (hF10 m) (hrest10 m)

theorem hF11 (c : Dev nD) (w : Fin cfg11.W) : (dat11 (Ve11 m) c).arrAt w cfg11.N = (GenP.V31 m (outs31 m) c) (Pipeline.arrRef spec11 w) := by
  match w with
  | ⟨0, _⟩ => exact ((dat11 (Ve11 m) c).arrAt_in ⟨0, by decide⟩ rfl _).trans ((A_eq11 (Ve11 m) c ⟨0, by decide⟩).trans (GenP.V31_of m (outs31 m) c _ (by decide)).symm)
  | ⟨1, _⟩ => exact ((dat11 (Ve11 m) c).arrAt_in ⟨1, by decide⟩ rfl _).trans ((A_eq11 (Ve11 m) c ⟨1, by decide⟩).trans (GenP.V31_of m (outs31 m) c _ (by decide)).symm)
  | ⟨2, _⟩ => exact ((dat11 (Ve11 m) c).arrAt_in ⟨2, by decide⟩ rfl _).trans ((A_eq11 (Ve11 m) c ⟨2, by decide⟩).trans (GenP.V31_of m (outs31 m) c _ (by decide)).symm)
  | ⟨3, _⟩ =>
    show _ = (GenP.V31 m (outs31 m) c) main_v200
    dsimp only [GenP.V31]
    rw [Function.update_self]
    show _ = o31 m main_v200 c
    exact (Pipeline.withArrays_arr spec11 launch11.win.arr_inj c (GenP.V30 m (outs27 m) c) (fun w => (dat11 (Ve11 m) c).arrAt w cfg11.N) ⟨3, by decide⟩).symm

theorem hrest11 (c : Dev nD) (b : Ref sig .tc) (hb : b ∉ Finset.univ.image (Pipeline.arrRef spec11)) : (GenP.V31 m (outs31 m) c) b = Ve11 m c b :=
  GenP.V31_of m (outs31 m) c b (by
    intro h
    simp only [List.mem_cons, List.mem_nil_iff, or_false] at h
    subst h; exact hb (Finset.mem_image.mpr ⟨⟨3, by decide⟩, Finset.mem_univ _, rfl⟩))

def reg11 : RegionSeg (pcfgs (F := F)) GenP.adm (pdats m) () defs₀ 𝒱h Lh lvh 11 :=
  regOf m 11 launch11 (GenP.V30 m (outs27 m)) (GenP.V31 m (outs31 m)) (body_obligation11 (Ve11 m))
    (fun _ _ => rfl) (fun _ _ => rfl) (fun _ _ => rfl) (fun _ _ => rfl) (fun _ _ => rfl) (hF11 m) (hrest11 m)

theorem hF12 (c : Dev nD) (w : Fin cfg12.W) : (dat12 (Ve12 m) c).arrAt w cfg12.N = (GenP.V34 m (outs34 m) c) (Pipeline.arrRef spec12 w) := by
  match w with
  | ⟨0, _⟩ => exact ((dat12 (Ve12 m) c).arrAt_in ⟨0, by decide⟩ rfl _).trans ((A_eq12 (Ve12 m) c ⟨0, by decide⟩).trans (GenP.V34_of m (outs34 m) c _ (by decide)).symm)
  | ⟨1, _⟩ => exact ((dat12 (Ve12 m) c).arrAt_in ⟨1, by decide⟩ rfl _).trans ((A_eq12 (Ve12 m) c ⟨1, by decide⟩).trans (GenP.V34_of m (outs34 m) c _ (by decide)).symm)
  | ⟨2, _⟩ => exact ((dat12 (Ve12 m) c).arrAt_in ⟨2, by decide⟩ rfl _).trans ((A_eq12 (Ve12 m) c ⟨2, by decide⟩).trans (GenP.V34_of m (outs34 m) c _ (by decide)).symm)
  | ⟨3, _⟩ =>
    show _ = (GenP.V34 m (outs34 m) c) main_v207
    dsimp only [GenP.V34]
    rw [Function.update_self]
    show _ = o34 m main_v207 c
    exact (Pipeline.withArrays_arr spec12 launch12.win.arr_inj c (GenP.V33 m (outs31 m) c) (fun w => (dat12 (Ve12 m) c).arrAt w cfg12.N) ⟨3, by decide⟩).symm

theorem hrest12 (c : Dev nD) (b : Ref sig .tc) (hb : b ∉ Finset.univ.image (Pipeline.arrRef spec12)) : (GenP.V34 m (outs34 m) c) b = Ve12 m c b :=
  GenP.V34_of m (outs34 m) c b (by
    intro h
    simp only [List.mem_cons, List.mem_nil_iff, or_false] at h
    subst h; exact hb (Finset.mem_image.mpr ⟨⟨3, by decide⟩, Finset.mem_univ _, rfl⟩))

def reg12 : RegionSeg (pcfgs (F := F)) GenP.adm (pdats m) () defs₀ 𝒱h Lh lvh 12 :=
  regOf m 12 launch12 (GenP.V33 m (outs31 m)) (GenP.V34 m (outs34 m)) (body_obligation12 (Ve12 m))
    (fun _ _ => rfl) (fun _ _ => rfl) (fun _ _ => rfl) (fun _ _ => rfl) (fun _ _ => rfl) (hF12 m) (hrest12 m)

theorem hF13 (c : Dev nD) (w : Fin cfg13.W) : (dat13 (Ve13 m) c).arrAt w cfg13.N = (GenP.V38 m (outs38 m) c) (Pipeline.arrRef spec13 w) := by
  match w with
  | ⟨0, _⟩ => exact ((dat13 (Ve13 m) c).arrAt_in ⟨0, by decide⟩ rfl _).trans ((A_eq13 (Ve13 m) c ⟨0, by decide⟩).trans (GenP.V38_of m (outs38 m) c _ (by decide)).symm)
  | ⟨1, _⟩ => exact ((dat13 (Ve13 m) c).arrAt_in ⟨1, by decide⟩ rfl _).trans ((A_eq13 (Ve13 m) c ⟨1, by decide⟩).trans (GenP.V38_of m (outs38 m) c _ (by decide)).symm)
  | ⟨2, _⟩ => exact ((dat13 (Ve13 m) c).arrAt_in ⟨2, by decide⟩ rfl _).trans ((A_eq13 (Ve13 m) c ⟨2, by decide⟩).trans (GenP.V38_of m (outs38 m) c _ (by decide)).symm)
  | ⟨3, _⟩ =>
    show _ = (GenP.V38 m (outs38 m) c) main_v238
    dsimp only [GenP.V38]
    rw [Function.update_self]
    show _ = o38 m main_v238 c
    exact (Pipeline.withArrays_arr spec13 launch13.win.arr_inj c (GenP.V37 m (outs34 m) c) (fun w => (dat13 (Ve13 m) c).arrAt w cfg13.N) ⟨3, by decide⟩).symm

theorem hrest13 (c : Dev nD) (b : Ref sig .tc) (hb : b ∉ Finset.univ.image (Pipeline.arrRef spec13)) : (GenP.V38 m (outs38 m) c) b = Ve13 m c b :=
  GenP.V38_of m (outs38 m) c b (by
    intro h
    simp only [List.mem_cons, List.mem_nil_iff, or_false] at h
    subst h; exact hb (Finset.mem_image.mpr ⟨⟨3, by decide⟩, Finset.mem_univ _, rfl⟩))

def reg13 : RegionSeg (pcfgs (F := F)) GenP.adm (pdats m) () defs₀ 𝒱h Lh lvh 13 :=
  regOf m 13 launch13 (GenP.V37 m (outs34 m)) (GenP.V38 m (outs38 m)) (body_obligation13 (Ve13 m))
    (fun _ _ => rfl) (fun _ _ => rfl) (fun _ _ => rfl) (fun _ _ => rfl) (fun _ _ => rfl) (hF13 m) (hrest13 m)

theorem hF14 (c : Dev nD) (w : Fin cfg14.W) : (dat14 (Ve14 m) c).arrAt w cfg14.N = (GenP.V40 m (outs40 m) c) (Pipeline.arrRef spec14 w) := by
  match w with
  | ⟨0, _⟩ => exact ((dat14 (Ve14 m) c).arrAt_in ⟨0, by decide⟩ rfl _).trans ((A_eq14 (Ve14 m) c ⟨0, by decide⟩).trans (GenP.V40_of m (outs40 m) c _ (by decide)).symm)
  | ⟨1, _⟩ => exact ((dat14 (Ve14 m) c).arrAt_in ⟨1, by decide⟩ rfl _).trans ((A_eq14 (Ve14 m) c ⟨1, by decide⟩).trans (GenP.V40_of m (outs40 m) c _ (by decide)).symm)
  | ⟨2, _⟩ => exact ((dat14 (Ve14 m) c).arrAt_in ⟨2, by decide⟩ rfl _).trans ((A_eq14 (Ve14 m) c ⟨2, by decide⟩).trans (GenP.V40_of m (outs40 m) c _ (by decide)).symm)
  | ⟨3, _⟩ =>
    show _ = (GenP.V40 m (outs40 m) c) main_v244
    dsimp only [GenP.V40]
    rw [Function.update_self]
    show _ = o40 m main_v244 c
    exact (Pipeline.withArrays_arr spec14 launch14.win.arr_inj c (GenP.V39 m (outs38 m) c) (fun w => (dat14 (Ve14 m) c).arrAt w cfg14.N) ⟨3, by decide⟩).symm

theorem hrest14 (c : Dev nD) (b : Ref sig .tc) (hb : b ∉ Finset.univ.image (Pipeline.arrRef spec14)) : (GenP.V40 m (outs40 m) c) b = Ve14 m c b :=
  GenP.V40_of m (outs40 m) c b (by
    intro h
    simp only [List.mem_cons, List.mem_nil_iff, or_false] at h
    subst h; exact hb (Finset.mem_image.mpr ⟨⟨3, by decide⟩, Finset.mem_univ _, rfl⟩))

def reg14 : RegionSeg (pcfgs (F := F)) GenP.adm (pdats m) () defs₀ 𝒱h Lh lvh 14 :=
  regOf m 14 launch14 (GenP.V39 m (outs38 m)) (GenP.V40 m (outs40 m)) (body_obligation14 (Ve14 m))
    (fun _ _ => rfl) (fun _ _ => rfl) (fun _ _ => rfl) (fun _ _ => rfl) (fun _ _ => rfl) (hF14 m) (hrest14 m)

theorem hF15 (c : Dev nD) (w : Fin cfg15.W) : (dat15 (Ve15 m) c).arrAt w cfg15.N = (GenP.V42 m (outs42 m) c) (Pipeline.arrRef spec15 w) := by
  match w with
  | ⟨0, _⟩ => exact ((dat15 (Ve15 m) c).arrAt_in ⟨0, by decide⟩ rfl _).trans ((A_eq15 (Ve15 m) c ⟨0, by decide⟩).trans (GenP.V42_of m (outs42 m) c _ (by decide)).symm)
  | ⟨1, _⟩ => exact ((dat15 (Ve15 m) c).arrAt_in ⟨1, by decide⟩ rfl _).trans ((A_eq15 (Ve15 m) c ⟨1, by decide⟩).trans (GenP.V42_of m (outs42 m) c _ (by decide)).symm)
  | ⟨2, _⟩ => exact ((dat15 (Ve15 m) c).arrAt_in ⟨2, by decide⟩ rfl _).trans ((A_eq15 (Ve15 m) c ⟨2, by decide⟩).trans (GenP.V42_of m (outs42 m) c _ (by decide)).symm)
  | ⟨3, _⟩ => exact ((dat15 (Ve15 m) c).arrAt_in ⟨3, by decide⟩ rfl _).trans ((A_eq15 (Ve15 m) c ⟨3, by decide⟩).trans (GenP.V42_of m (outs42 m) c _ (by decide)).symm)
  | ⟨4, _⟩ =>
    show _ = (GenP.V42 m (outs42 m) c) main_v266_0
    dsimp only [GenP.V42]
    rw [Function.update_of_ne (by decide), Function.update_self]
    show _ = o42 m main_v266_0 c
    exact (Pipeline.withArrays_arr spec15 launch15.win.arr_inj c (GenP.V41 m (outs40 m) c) (fun w => (dat15 (Ve15 m) c).arrAt w cfg15.N) ⟨4, by decide⟩).symm
  | ⟨5, _⟩ =>
    show _ = (GenP.V42 m (outs42 m) c) main_v266_1
    dsimp only [GenP.V42]
    rw [Function.update_self]
    show _ = o42 m main_v266_1 c
    exact (Pipeline.withArrays_arr spec15 launch15.win.arr_inj c (GenP.V41 m (outs40 m) c) (fun w => (dat15 (Ve15 m) c).arrAt w cfg15.N) ⟨5, by decide⟩).symm

theorem hrest15 (c : Dev nD) (b : Ref sig .tc) (hb : b ∉ Finset.univ.image (Pipeline.arrRef spec15)) : (GenP.V42 m (outs42 m) c) b = Ve15 m c b :=
  GenP.V42_of m (outs42 m) c b (by
    intro h
    simp only [List.mem_cons, List.mem_nil_iff, or_false] at h
    rcases h with h | h <;> subst h
    · exact hb (Finset.mem_image.mpr ⟨⟨4, by decide⟩, Finset.mem_univ _, rfl⟩)
    · exact hb (Finset.mem_image.mpr ⟨⟨5, by decide⟩, Finset.mem_univ _, rfl⟩))

def reg15 : RegionSeg (pcfgs (F := F)) GenP.adm (pdats m) () defs₀ 𝒱h Lh lvh 15 :=
  regOf m 15 launch15 (GenP.V41 m (outs40 m)) (GenP.V42 m (outs42 m)) (body_obligation15 (Ve15 m))
    (fun _ _ => rfl) (fun _ _ => rfl) (fun _ _ => rfl) (fun _ _ => rfl) (fun _ _ => rfl) (hF15 m) (hrest15 m)

theorem hF16 (c : Dev nD) (w : Fin cfg16.W) : (dat16 (Ve16 m) c).arrAt w cfg16.N = (GenP.V44 m (outs44 m) c) (Pipeline.arrRef spec16 w) := by
  match w with
  | ⟨0, _⟩ => exact ((dat16 (Ve16 m) c).arrAt_in ⟨0, by decide⟩ rfl _).trans ((A_eq16 (Ve16 m) c ⟨0, by decide⟩).trans (GenP.V44_of m (outs44 m) c _ (by decide)).symm)
  | ⟨1, _⟩ => exact ((dat16 (Ve16 m) c).arrAt_in ⟨1, by decide⟩ rfl _).trans ((A_eq16 (Ve16 m) c ⟨1, by decide⟩).trans (GenP.V44_of m (outs44 m) c _ (by decide)).symm)
  | ⟨2, _⟩ => exact ((dat16 (Ve16 m) c).arrAt_in ⟨2, by decide⟩ rfl _).trans ((A_eq16 (Ve16 m) c ⟨2, by decide⟩).trans (GenP.V44_of m (outs44 m) c _ (by decide)).symm)
  | ⟨3, _⟩ =>
    show _ = (GenP.V44 m (outs44 m) c) main_v281
    dsimp only [GenP.V44]
    rw [Function.update_self]
    show _ = o44 m main_v281 c
    exact (Pipeline.withArrays_arr spec16 launch16.win.arr_inj c (GenP.V43 m (outs42 m) c) (fun w => (dat16 (Ve16 m) c).arrAt w cfg16.N) ⟨3, by decide⟩).symm

theorem hrest16 (c : Dev nD) (b : Ref sig .tc) (hb : b ∉ Finset.univ.image (Pipeline.arrRef spec16)) : (GenP.V44 m (outs44 m) c) b = Ve16 m c b :=
  GenP.V44_of m (outs44 m) c b (by
    intro h
    simp only [List.mem_cons, List.mem_nil_iff, or_false] at h
    subst h; exact hb (Finset.mem_image.mpr ⟨⟨3, by decide⟩, Finset.mem_univ _, rfl⟩))

def reg16 : RegionSeg (pcfgs (F := F)) GenP.adm (pdats m) () defs₀ 𝒱h Lh lvh 16 :=
  regOf m 16 launch16 (GenP.V43 m (outs42 m)) (GenP.V44 m (outs44 m)) (body_obligation16 (Ve16 m))
    (fun _ _ => rfl) (fun _ _ => rfl) (fun _ _ => rfl) (fun _ _ => rfl) (fun _ _ => rfl) (hF16 m) (hrest16 m)

theorem hF17 (c : Dev nD) (w : Fin cfg17.W) : (dat17 (Ve17 m) c).arrAt w cfg17.N = (GenP.V48 m (outs48 m) c) (Pipeline.arrRef spec17 w) := by
  match w with
  | ⟨0, _⟩ => exact ((dat17 (Ve17 m) c).arrAt_in ⟨0, by decide⟩ rfl _).trans ((A_eq17 (Ve17 m) c ⟨0, by decide⟩).trans (GenP.V48_of m (outs48 m) c _ (by decide)).symm)
  | ⟨1, _⟩ => exact ((dat17 (Ve17 m) c).arrAt_in ⟨1, by decide⟩ rfl _).trans ((A_eq17 (Ve17 m) c ⟨1, by decide⟩).trans (GenP.V48_of m (outs48 m) c _ (by decide)).symm)
  | ⟨2, _⟩ => exact ((dat17 (Ve17 m) c).arrAt_in ⟨2, by decide⟩ rfl _).trans ((A_eq17 (Ve17 m) c ⟨2, by decide⟩).trans (GenP.V48_of m (outs48 m) c _ (by decide)).symm)
  | ⟨3, _⟩ =>
    show _ = (GenP.V48 m (outs48 m) c) main_v310
    dsimp only [GenP.V48]
    rw [Function.update_self]
    show _ = o48 m main_v310 c
    exact (Pipeline.withArrays_arr spec17 launch17.win.arr_inj c (GenP.V47 m (outs44 m) c) (fun w => (dat17 (Ve17 m) c).arrAt w cfg17.N) ⟨3, by decide⟩).symm

theorem hrest17 (c : Dev nD) (b : Ref sig .tc) (hb : b ∉ Finset.univ.image (Pipeline.arrRef spec17)) : (GenP.V48 m (outs48 m) c) b = Ve17 m c b :=
  GenP.V48_of m (outs48 m) c b (by
    intro h
    simp only [List.mem_cons, List.mem_nil_iff, or_false] at h
    subst h; exact hb (Finset.mem_image.mpr ⟨⟨3, by decide⟩, Finset.mem_univ _, rfl⟩))

def reg17 : RegionSeg (pcfgs (F := F)) GenP.adm (pdats m) () defs₀ 𝒱h Lh lvh 17 :=
  regOf m 17 launch17 (GenP.V47 m (outs44 m)) (GenP.V48 m (outs48 m)) (body_obligation17 (Ve17 m))
    (fun _ _ => rfl) (fun _ _ => rfl) (fun _ _ => rfl) (fun _ _ => rfl) (fun _ _ => rfl) (hF17 m) (hrest17 m)

theorem hF18 (c : Dev nD) (w : Fin cfg18.W) : (dat18 (Ve18 m) c).arrAt w cfg18.N = (GenP.V51 m (outs51 m) c) (Pipeline.arrRef spec18 w) := by
  match w with
  | ⟨0, _⟩ => exact ((dat18 (Ve18 m) c).arrAt_in ⟨0, by decide⟩ rfl _).trans ((A_eq18 (Ve18 m) c ⟨0, by decide⟩).trans (GenP.V51_of m (outs51 m) c _ (by decide)).symm)
  | ⟨1, _⟩ => exact ((dat18 (Ve18 m) c).arrAt_in ⟨1, by decide⟩ rfl _).trans ((A_eq18 (Ve18 m) c ⟨1, by decide⟩).trans (GenP.V51_of m (outs51 m) c _ (by decide)).symm)
  | ⟨2, _⟩ => exact ((dat18 (Ve18 m) c).arrAt_in ⟨2, by decide⟩ rfl _).trans ((A_eq18 (Ve18 m) c ⟨2, by decide⟩).trans (GenP.V51_of m (outs51 m) c _ (by decide)).symm)
  | ⟨3, _⟩ =>
    show _ = (GenP.V51 m (outs51 m) c) main_v317
    dsimp only [GenP.V51]
    rw [Function.update_self]
    show _ = o51 m main_v317 c
    exact (Pipeline.withArrays_arr spec18 launch18.win.arr_inj c (GenP.V50 m (outs48 m) c) (fun w => (dat18 (Ve18 m) c).arrAt w cfg18.N) ⟨3, by decide⟩).symm

theorem hrest18 (c : Dev nD) (b : Ref sig .tc) (hb : b ∉ Finset.univ.image (Pipeline.arrRef spec18)) : (GenP.V51 m (outs51 m) c) b = Ve18 m c b :=
  GenP.V51_of m (outs51 m) c b (by
    intro h
    simp only [List.mem_cons, List.mem_nil_iff, or_false] at h
    subst h; exact hb (Finset.mem_image.mpr ⟨⟨3, by decide⟩, Finset.mem_univ _, rfl⟩))

def reg18 : RegionSeg (pcfgs (F := F)) GenP.adm (pdats m) () defs₀ 𝒱h Lh lvh 18 :=
  regOf m 18 launch18 (GenP.V50 m (outs48 m)) (GenP.V51 m (outs51 m)) (body_obligation18 (Ve18 m))
    (fun _ _ => rfl) (fun _ _ => rfl) (fun _ _ => rfl) (fun _ _ => rfl) (fun _ _ => rfl) (hF18 m) (hrest18 m)

set_option maxHeartbeats 4000000 in
theorem run_main : θ_run defs (onTc (τ := τ) (main (F := F))) ⟨m, fun _ => 0, ρ⟩ (fun r => ∀ c : Dev nD,
      r.2.mem ((c.tc : Thread nD τ).loc main_v344) = GenP.V54 m (outsF m) c main_v344
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  GenP.run_cond m embL () 𝒱h Lh lvh (fun _ _ => rfl) ρ (outsF m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => Rr c)
    (Pipeline.initEach Lh lvh fun c => by
      iintro ⟨⟨-, HO, -, Hp, -⟩, -⟩
      imodintro
      isplitl [Hp]; · iexists _; iexact Hp
      iexists ∅; iexact HO)
    (fun c => by
      iintro ⟨-, HO⟩
      iexact HO)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)
    (reg6 m) (fun c => .rfl) (fun c => .rfl)
    (reg7 m) (fun c => .rfl) (fun c => .rfl)
    (reg8 m) (fun c => .rfl) (fun c => .rfl)
    (reg9 m) (fun c => .rfl) (fun c => .rfl)
    (reg10 m) (fun c => .rfl) (fun c => .rfl)
    (reg11 m) (fun c => .rfl) (fun c => .rfl)
    (reg12 m) (fun c => .rfl) (fun c => .rfl)
    (reg13 m) (fun c => .rfl) (fun c => .rfl)
    (reg14 m) (fun c => .rfl) (fun c => .rfl)
    (reg15 m) (fun c => .rfl) (fun c => .rfl)
    (reg16 m) (fun c => .rfl) (fun c => .rfl)
    (reg17 m) (fun c => .rfl) (fun c => .rfl)
    (reg18 m) (fun c => .rfl) (fun c => .rfl)

end Cert.KernelIdeal.Hand

end
-- ==== Proof.LibSpec.lean ====
import Idealize.ShloMosaic.PureOps.Ideal
import Idealize.ShloMosaic.Lib.ValueIdx

noncomputable section

namespace Cert.Spec

open Idealize.ShloMosaic Idealize.ShloMosaic.ValueIdx

def affine {M K N : Nat} (X : FVec Ideal ⟨2, ![M, K]⟩ .f32) (W : FVec Ideal ⟨2, ![K, N]⟩ .f32) (B : FVec Ideal ⟨2, ![1, N]⟩ .f32) :
    FVec Ideal ⟨2, ![M, N]⟩ .f32 :=
  fun i => (∑ k : Fin K, X (ix2 (i 0) k) * W (ix2 k (i 1))) + B (ix2 (0 : Fin 1) (i 1))

def headLane (c : Fin 128) (l : Fin 32) : Fin 128 := ⟨32 * (c.val / 32) + l.val, by omega⟩

def score {E : Nat} (k q : FVec Ideal ⟨2, ![E, 128]⟩ .f32) (r : Fin E) (c : Fin 128) : EReal :=
  ∑ l : Fin 32, k (ix2 r (headLane c l)) * q (ix2 r (headLane c l))

def attnA {E : Nat} (k q e : FVec Ideal ⟨2, ![E, 128]⟩ .f32) : FVec Ideal ⟨2, ![E, 128]⟩ .f32 :=
  fun i => Ideal.exp ((score k q (i 0) (i 1) * Ideal.ofBits .f32 0x3E3504F3#32) * (Ideal.ofBits .f32 0x3F800000#32 + e i))

def attnV {E : Nat} (v a : FVec Ideal ⟨2, ![E, 128]⟩ .f32) : FVec Ideal ⟨2, ![E, 128]⟩ .f32 :=
  fun i => v i * a i

end Cert.Spec

end
-- ==== Proof.LibAffineValue.lean ====
import proofs.«113847_j61718680043593_1_alg».proof.Proof.LibSpec
import Idealize.ShloMosaic.Lib.Pipeline.Value
import Idealize.ShloMosaic.Lib.StackMember
import Idealize.ShloMosaic.Lib.KernelVsHost

noncomputable section

namespace Cert.Spec

open Idealize.ShloMosaic Idealize.ShloMosaic.ValueIdx

variable {M K N R B C T : Nat}

theorem zero2 : (![0, 0] : Fin 2 → Nat) = fun _ => 0 := funext fun a => by fin_cases a <;> rfl

-- rounding to bf16 is the identity, the product into a zero accumulator is the plain product, the broadcast row reads its column
theorem affine_out (d : DotDims ⟨2, ![M, K]⟩ ⟨2, ![K, N]⟩ ⟨2, ![M, N]⟩) (hd : d = DotDims.plain M K N)
    (h0 : (⟨2, ![M, K]⟩ : Shape).ShapeCasts ⟨2, ![M, K]⟩) (h1 : (⟨2, ![K, N]⟩ : Shape).ShapeCasts ⟨2, ![K, N]⟩)
    (h2 : (⟨2, ![1, N]⟩ : Shape).ShapeCasts ⟨2, ![1, N]⟩) (hb : (⟨2, ![1, N]⟩ : Shape).Broadcasts ⟨2, ![M, N]⟩)
    (ht : FTy.bits .bf16 < FTy.bits .f32) (n0 n1 n2 n3)
    (x : FVec Ideal ⟨2, ![M, K]⟩ .f32) (w : FVec Ideal ⟨2, ![K, N]⟩ .f32) (b : FVec Ideal ⟨2, ![1, N]⟩ .f32) :
    View.canon [(⟨Rect.unit ![0, 0] (Shape.size _) n3, (addf (matmul d none
        (truncf .bf16 (shapeCast (s := ⟨2, ![M, K]⟩) _ (View.ld (Val := Elt Ideal) (e' := .f32) x (Rect.unit (s := ⟨2, ![M, K]⟩) ![0, 0] (Shape.size _) n0)) h0) ht)
        (truncf .bf16 (shapeCast (s := ⟨2, ![K, N]⟩) _ (View.ld (Val := Elt Ideal) (e' := .f32) w (Rect.unit (s := ⟨2, ![K, N]⟩) ![0, 0] (Shape.size _) n1)) h1) ht) (constant _ .f32 0x00000000#32))
      (broadcastTo _ (shapeCast (s := ⟨2, ![1, N]⟩) _ (View.ld (Val := Elt Ideal) (e' := .f32) b (Rect.unit (s := ⟨2, ![1, N]⟩) ![0, 0] (Shape.size _) n2)) h2) hb) : FVec Ideal ⟨2, ![M, N]⟩ .f32)⟩
      : View.Piece (Elt Ideal) ⟨2, ![M, N]⟩ .f32)] = affine x w b := by
  subst hd
  rw [View.canon_unit_zero zero2, View.ld_unit_zero zero2, View.ld_unit_zero zero2, View.ld_unit_zero zero2,
    shapeCast_self, shapeCast_self, shapeCast_self]
  funext i
  obtain ⟨p, q, rfl⟩ : ∃ p q, i = ix2 p q := ⟨i 0, i 1, eq_ix2 i⟩
  refine (addf_apply _ _ _).trans (congrArg₂ (· + ·) ?_ ?_)
  · exact (congrFun (matmul_zero_eq_dotGeneral _ none _ _) _).trans (StackMember.dotGeneral_plain_apply none _ _ p q)
  · exact broadcastTo_apply b hb _ (ix2 0 q) fun a => by
      match a with
      | ⟨0, _⟩ => rfl
      | ⟨1, _⟩ => show q.val = if N = 1 then 0 else q.val; have := q.isLt; split <;> omega

-- a block of B rows at block index (t, 0) holds rows t·B … of the array, at the same columns
theorem blk_row {e : (⟨2, ![B, C]⟩ : Shape).Idx → (⟨2, ![R, C]⟩ : Shape).Idx} {i : Fin 2 → Nat} {t : Nat} (hi : i = ![t, 0])
    (h : ∀ y a, (e y a).val = i a * ![B, C] a + 1 * (y a).val) (y) : (e y 0).val = t * B + (y 0).val ∧ (e y 1).val = (y 1).val := by
  subst hi
  exact ⟨(h y 0).trans (by show t * B + 1 * _ = _; omega), (h y 1).trans (by show 0 * C + 1 * _ = _; omega)⟩

-- T such blocks cover R ≤ T·B rows
theorem rows_cover (hR : R ≤ T * B) {e : Fin T → (⟨2, ![B, C]⟩ : Shape).Idx → (⟨2, ![R, C]⟩ : Shape).Idx} {i : Fin T → Fin 2 → Nat}
    (hi : ∀ t, i t = ![t.val, 0]) (h : ∀ t y a, (e t y a).val = i t a * ![B, C] a + 1 * (y a).val) (x) : ∃ t y, e t y = x := by
  have hr : (x 0).val < R := (x 0).isLt
  have hB : 0 < B := Nat.pos_of_ne_zero fun h => by subst h; omega
  refine ⟨⟨(x 0).val / B, Nat.div_lt_of_lt_mul (by rw [Nat.mul_comm]; omega)⟩, ix2 ⟨(x 0).val % B, Nat.mod_lt _ hB⟩ (x 1), ?_⟩
  obtain ⟨r, c⟩ := blk_row (hi _) (h _) (ix2 ⟨(x 0).val % B, Nat.mod_lt _ hB⟩ (x 1))
  exact Shape.idx_ext₂ (r.trans (Nat.div_add_mod' _ _)) c

-- affine of rows t·B … of X, of W and of b is block t of affine X W b
theorem affine_blocks (hR : R ≤ T * B)
    (X : FVec Ideal ⟨2, ![R, K]⟩ .f32) (W : FVec Ideal ⟨2, ![K, N]⟩ .f32) (b : FVec Ideal ⟨2, ![1, N]⟩ .f32)
    (e0 : Fin T → (⟨2, ![B, K]⟩ : Shape).Idx → (⟨2, ![R, K]⟩ : Shape).Idx)
    (e1 : Fin T → (⟨2, ![K, N]⟩ : Shape).Idx → (⟨2, ![K, N]⟩ : Shape).Idx)
    (e2 : Fin T → (⟨2, ![1, N]⟩ : Shape).Idx → (⟨2, ![1, N]⟩ : Shape).Idx)
    (e3 : Fin T → (⟨2, ![B, N]⟩ : Shape).Idx → (⟨2, ![R, N]⟩ : Shape).Idx)
    (i0 i1 i2 i3 : Fin T → Fin 2 → Nat)
    (hi : ∀ t, i0 t = ![t.val, 0] ∧ i1 t = ![0, 0] ∧ i2 t = ![0, 0] ∧ i3 t = ![t.val, 0])
    (h0 : ∀ t y a, (e0 t y a).val = i0 t a * ![B, K] a + 1 * (y a).val)
    (h1 : ∀ t y a, (e1 t y a).val = i1 t a * ![K, N] a + 1 * (y a).val)
    (h2 : ∀ t y a, (e2 t y a).val = i2 t a * ![1, N] a + 1 * (y a).val)
    (h3 : ∀ t y a, (e3 t y a).val = i3 t a * ![B, N] a + 1 * (y a).val)
    (pay : FVec Ideal ⟨2, ![B, K]⟩ .f32 → FVec Ideal ⟨2, ![K, N]⟩ .f32 → FVec Ideal ⟨2, ![1, N]⟩ .f32 → FVec Ideal ⟨2, ![B, N]⟩ .f32)
    (hp : ∀ x w b, pay x w b = affine x w b) :
    (∀ t, pay (fun y => X (e0 t y)) (fun y => W (e1 t y)) (fun y => b (e2 t y)) = fun j => affine X W b (e3 t j))
      ∧ ∀ i, ∃ t y, e3 t y = i := by
  refine ⟨fun t => (hp _ _ _).trans (funext fun j => ?_), rows_cover hR (fun t => (hi t).2.2.2) h3⟩
  obtain ⟨c0, c1, c2, c3⟩ := hi t
  obtain ⟨r3, q3⟩ := blk_row c3 (h3 t) j
  unfold affine
  refine congrArg₂ (· + ·) (Finset.sum_congr rfl fun k _ => congrArg₂ (· * ·) (congrArg X ?_) (congrArg W ?_)) (congrArg b ?_)
  · obtain ⟨r, c⟩ := blk_row c0 (h0 t) (ix2 (j 0) k)
    exact Shape.idx_ext₂ (r.trans r3.symm) c
  · obtain ⟨r, c⟩ := blk_row c1 (h1 t) (ix2 k (j 1))
    exact Shape.idx_ext₂ (r.trans (by show 0 * K + k.val = k.val; omega)) (c.trans q3.symm)
  · obtain ⟨r, c⟩ := blk_row c2 (h2 t) (ix2 0 (j 1))
    exact Shape.idx_ext₂ r (c.trans q3.symm)

end Cert.Spec

end
-- ==== Proof.KI.V0.lean ====
import proofs.«113847_j61718680043593_1_alg».proof.Proof.KI.R0
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index0 : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

theorem arr0 (V : (c : Dev nD) → (b : Ref sig .tc) → Buf (Elt Ideal) ((c : Thread nD τ).loc b)) (c : Dev nD) :
    (dat0 (F := Ideal) V c).arrAt 3 cfg0.N
      = affine (V c main_v0) (V c main_v1) (V c main_v3) := by
  obtain ⟨hG, hc⟩ := affine_blocks (by decide)
    (V c main_v0) (V c main_v1) (V c main_v3)
    (fun t => ((cfg0.win 0).blk t).view.emb) (fun t => ((cfg0.win 1).blk t).view.emb)
    (fun t => ((cfg0.win 2).blk t).view.emb) (fun t => ((cfg0.win 3).blk t).view.emb)
    _ _ _ _ index0 (fun _ _ _ => rfl) (fun _ _ _ => rfl) (fun _ _ _ => rfl) (fun _ _ _ => rfl)
    (out0_3 (F := Ideal)) fun _ _ _ => affine_out _ rfl _ _ _ _ _ _ _ _ _ _ _ _
  refine (dat0 (F := Ideal) V c).arrAt_eq_of_cover 3 _ (fun t _ => (congrArg _ (after0_3 V c t)).trans (hG t)) fun i => ?_
  obtain ⟨t, y, rfl⟩ := hc i
  exact ⟨t, flush0_3 t, View.emb_mem_set _ y⟩

end Cert.KernelIdeal.Hand

end
-- ==== Proof.KI.V1.lean ====
import proofs.«113847_j61718680043593_1_alg».proof.Proof.KI.R1
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index1 : ∀ t : Fin cfg1.N, win1_0.index t = ![t.val, 0] ∧ win1_1.index t = ![0, 0] ∧ win1_2.index t = ![0, 0]
    ∧ win1_3.index t = ![t.val, 0] :=
  (by decide +kernel : ∀ t : Fin grid1.N, _)

theorem arr1 (V : (c : Dev nD) → (b : Ref sig .tc) → Buf (Elt Ideal) ((c : Thread nD τ).loc b)) (c : Dev nD) :
    (dat1 (F := Ideal) V c).arrAt 3 cfg1.N
      = affine (V c main_v4) (V c main_v17) (V c main_v9) := by
  obtain ⟨hG, hc⟩ := affine_blocks (by decide)
    (V c main_v4) (V c main_v17) (V c main_v9)
    (fun t => ((cfg1.win 0).blk t).view.emb) (fun t => ((cfg1.win 1).blk t).view.emb)
    (fun t => ((cfg1.win 2).blk t).view.emb) (fun t => ((cfg1.win 3).blk t).view.emb)
    _ _ _ _ index1 (fun _ _ _ => rfl) (fun _ _ _ => rfl) (fun _ _ _ => rfl) (fun _ _ _ => rfl)
    (out1_3 (F := Ideal)) fun _ _ _ => affine_out _ rfl _ _ _ _ _ _ _ _ _ _ _ _
  refine (dat1 (F := Ideal) V c).arrAt_eq_of_cover 3 _ (fun t _ => (congrArg _ (after1_3 V c t)).trans (hG t)) fun i => ?_
  obtain ⟨t, y, rfl⟩ := hc i
  exact ⟨t, flush1_3 t, View.emb_mem_set _ y⟩

end Cert.KernelIdeal.Hand

end
-- ==== Proof.KI.V2.lean ====
import proofs.«113847_j61718680043593_1_alg».proof.Proof.KI.R2
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index2 : ∀ t : Fin cfg2.N, win2_0.index t = ![t.val, 0] ∧ win2_1.index t = ![0, 0] ∧ win2_2.index t = ![0, 0]
    ∧ win2_3.index t = ![t.val, 0] :=
  (by decide +kernel : ∀ t : Fin grid2.N, _)

theorem arr2 (V : (c : Dev nD) → (b : Ref sig .tc) → Buf (Elt Ideal) ((c : Thread nD τ).loc b)) (c : Dev nD) :
    (dat2 (F := Ideal) V c).arrAt 3 cfg2.N
      = affine (V c main_v8) (V c main_v23) (V c main_v10) := by
  obtain ⟨hG, hc⟩ := affine_blocks (by decide)
    (V c main_v8) (V c main_v23) (V c main_v10)
    (fun t => ((cfg2.win 0).blk t).view.emb) (fun t => ((cfg2.win 1).blk t).view.emb)
    (fun t => ((cfg2.win 2).blk t).view.emb) (fun t => ((cfg2.win 3).blk t).view.emb)
    _ _ _ _ index2 (fun _ _ _ => rfl) (fun _ _ _ => rfl) (fun _ _ _ => rfl) (fun _ _ _ => rfl)
    (out2_3 (F := Ideal)) fun _ _ _ => affine_out _ rfl _ _ _ _ _ _ _ _ _ _ _ _
  refine (dat2 (F := Ideal) V c).arrAt_eq_of_cover 3 _ (fun t _ => (congrArg _ (after2_3 V c t)).trans (hG t)) fun i => ?_
  obtain ⟨t, y, rfl⟩ := hc i
  exact ⟨t, flush2_3 t, View.emb_mem_set _ y⟩

end Cert.KernelIdeal.Hand

end
-- ==== Proof.KI.V3.lean ====
import proofs.«113847_j61718680043593_1_alg».proof.Proof.KI.R3
import proofs.«113847_j61718680043593_1_alg».proof.Proof.Gen.KernelIdeal.Points
import proofs.«113847_j61718680043593_1_alg».proof.Proof.LibAffineValue
import Idealize.ShloMosaic.Lib.ValueLayout

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem

theorem lift_row (h : S4096x32.Reduces [1] S4096) (r : Fin 4096) (l : Fin 32) :
    h.lift (ix1 r) l = ix2 r l := by
  funext c
  match c with
  | ⟨0, _⟩ => exact Fin.ext rfl
  | ⟨1, _⟩ => exact Fin.ext rfl

theorem laneSum_apply (x : FVec Ideal S4096x32 .f32) (h : S4096x32.Reduces [1] S4096) (hφ : FKind.Formats .f32)
    (hacc : (0x00000000#32 : BitVec 32) = 0x00000000#32) (r : Fin 4096) :
    multiReduction .add [1] S4096 x 0x00000000#32 h hφ hacc (ix1 r) = ∑ l : Fin 32, x (ix2 r l) :=
  (Ideal.multiReduction_add_single x 0x00000000#32 h hφ hacc (ix1 r)).trans
    (Finset.sum_congr rfl fun l _ => congrArg x (lift_row h r l))

theorem column_apply {α : Type} (x : S4096.Idx → α) (h : S4096.ShapeCasts S4096x1) (r : Fin 4096) (z : Fin 1) :
    shapeCast S4096x1 x h (ix2 r z) = x (ix1 r) :=
  shapeCast_apply x h (ix2 r z) (ix1 r) (by
    rw [Shape.rowMajor_val_one, Shape.rowMajor_val_two]
    show r.val = r.val * 1 + z.val
    omega)

theorem headSum_apply (o : Nat) (y : FVec Ideal S4096x128 .f32) (hs : S4096x128.Slices ![0, o] S4096x32)
    (hr : S4096x32.Reduces [1] S4096) (hφ : FKind.Formats .f32) (hacc : (0x00000000#32 : BitVec 32) = 0x00000000#32)
    (hc : S4096.ShapeCasts S4096x1) (r : Fin 4096) (z : Fin 1) :
    shapeCast S4096x1 (multiReduction .add [1] S4096 (extractStridedSlice S4096x32 ![0, o] y hs) 0x00000000#32 hr hφ hacc) hc (ix2 r z)
      = ∑ l : Fin 32, y (ix2 r ⟨o + l.val, Nat.lt_of_lt_of_le (Nat.add_lt_add_left l.isLt o) (hs.2 1)⟩) :=
  (column_apply _ hc r z).trans <| (laneSum_apply _ hr hφ hacc r).trans <|
    Finset.sum_congr rfl fun l _ => slice2_axis1_eq o y hs r l

theorem headLanes_apply {α : Type} (j : Nat) (y : S4096x4.Idx → α) (hs : S4096x4.Slices ![0, j] S4096x1)
    (hc : S4096x1.ShapeCasts S4096x1) (hb : S4096x1.Broadcasts S4096x32) (r : Fin 4096) (l : Fin 32) :
    broadcastTo S4096x32 (shapeCast S4096x1 (extractStridedSlice S4096x1 ![0, j] y hs) hc) hb (ix2 r l)
      = y (ix2 r ⟨j, Nat.lt_of_lt_of_le (Nat.lt_succ_self j) (hs.2 1)⟩) := by
  rw [shapeCast_self]
  refine (broadcastTo_apply _ hb (ix2 r l) (ix2 r (0 : Fin 1)) fun a => ?_).trans ?_
  · match a with
    | ⟨0, _⟩ => rfl
    | ⟨1, _⟩ => rfl
  · exact slice2_axis1_apply j y hs r 0 _ rfl

section Concat4
variable {α : Type} {n m : Nat}
  (c0 c1 c2 c3 : (⟨2, ![4096, n]⟩ : Shape).Idx → α)
  (h : Shape.Concatenates [(⟨2, ![4096, n]⟩ : Shape), ⟨2, ![4096, n]⟩, ⟨2, ![4096, n]⟩, ⟨2, ![4096, n]⟩] ⟨2, ![4096, m]⟩ 1)
  (p : Fin 4096) (j : Fin m) (l : Fin n)

theorem concat4_apply (k : Nat) (hk : k < 4) (hj : j.val = k * n + l.val) :
    concatenate ⟨2, ![4096, m]⟩ 1 [⟨⟨2, ![4096, n]⟩, c0⟩, ⟨⟨2, ![4096, n]⟩, c1⟩, ⟨⟨2, ![4096, n]⟩, c2⟩, ⟨⟨2, ![4096, n]⟩, c3⟩] h (ix2 p j)
      = [c0, c1, c2, c3][k] (ix2 p l) := by
  match k, hk with
  | 0, _ =>
    exact concatenate_apply_piece (t := ⟨2, ![4096, m]⟩) 1 [⟨⟨2, ![4096, n]⟩, c0⟩, ⟨⟨2, ![4096, n]⟩, c1⟩, ⟨⟨2, ![4096, n]⟩, c2⟩, ⟨⟨2, ![4096, n]⟩, c3⟩] h (ix2 p j)
      0 (by show 0 < 4; omega) ⟨2, ![4096, n]⟩ c0 rfl rfl 0 rfl (ix2 p l)
      (fun b hb => by match b with | ⟨0, _⟩ => rfl | ⟨1, _⟩ => exact absurd rfl hb) (by show 0 + l.val = j.val; omega)
  | 1, _ =>
    exact concatenate_apply_piece (t := ⟨2, ![4096, m]⟩) 1 [⟨⟨2, ![4096, n]⟩, c0⟩, ⟨⟨2, ![4096, n]⟩, c1⟩, ⟨⟨2, ![4096, n]⟩, c2⟩, ⟨⟨2, ![4096, n]⟩, c3⟩] h (ix2 p j)
      1 (by show 1 < 4; omega) ⟨2, ![4096, n]⟩ c1 rfl rfl (n + 0) rfl (ix2 p l)
      (fun b hb => by match b with | ⟨0, _⟩ => rfl | ⟨1, _⟩ => exact absurd rfl hb) (by show (n + 0) + l.val = j.val; omega)
  | 2, _ =>
    exact concatenate_apply_piece (t := ⟨2, ![4096, m]⟩) 1 [⟨⟨2, ![4096, n]⟩, c0⟩, ⟨⟨2, ![4096, n]⟩, c1⟩, ⟨⟨2, ![4096, n]⟩, c2⟩, ⟨⟨2, ![4096, n]⟩, c3⟩] h (ix2 p j)
      2 (by show 2 < 4; omega) ⟨2, ![4096, n]⟩ c2 rfl rfl (n + (n + 0)) rfl (ix2 p l)
      (fun b hb => by match b with | ⟨0, _⟩ => rfl | ⟨1, _⟩ => exact absurd rfl hb) (by show (n + (n + 0)) + l.val = j.val; omega)
  | 3, _ =>
    exact concatenate_apply_piece (t := ⟨2, ![4096, m]⟩) 1 [⟨⟨2, ![4096, n]⟩, c0⟩, ⟨⟨2, ![4096, n]⟩, c1⟩, ⟨⟨2, ![4096, n]⟩, c2⟩, ⟨⟨2, ![4096, n]⟩, c3⟩] h (ix2 p j)
      3 (by show 3 < 4; omega) ⟨2, ![4096, n]⟩ c3 rfl rfl (n + (n + (n + 0))) rfl (ix2 p l)
      (fun b hb => by match b with | ⟨0, _⟩ => rfl | ⟨1, _⟩ => exact absurd rfl hb) (by show (n + (n + (n + 0))) + l.val = j.val; omega)
  | k + 4, hk => exact absurd hk (by omega)

end Concat4

theorem headScores_apply (y : FVec Ideal S4096x128 .f32)
    (hs0 : S4096x128.Slices ![0, 0] S4096x32) (hs1 : S4096x128.Slices ![0, 32] S4096x32)
    (hs2 : S4096x128.Slices ![0, 64] S4096x32) (hs3 : S4096x128.Slices ![0, 96] S4096x32)
    (hr : S4096x32.Reduces [1] S4096) (hφ : FKind.Formats .f32) (hacc : (0x00000000#32 : BitVec 32) = 0x00000000#32)
    (hc : S4096.ShapeCasts S4096x1) (hcat : Shape.Concatenates [S4096x1, S4096x1, S4096x1, S4096x1] S4096x4 1)
    (r : Fin 4096) (j : Fin 4) :
    concatenate S4096x4 1 [⟨S4096x1, shapeCast S4096x1 (multiReduction .add [1] S4096 (extractStridedSlice S4096x32 ![0, 0] y hs0) 0x00000000#32 hr hφ hacc) hc⟩,
        ⟨S4096x1, shapeCast S4096x1 (multiReduction .add [1] S4096 (extractStridedSlice S4096x32 ![0, 32] y hs1) 0x00000000#32 hr hφ hacc) hc⟩,
        ⟨S4096x1, shapeCast S4096x1 (multiReduction .add [1] S4096 (extractStridedSlice S4096x32 ![0, 64] y hs2) 0x00000000#32 hr hφ hacc) hc⟩,
        ⟨S4096x1, shapeCast S4096x1 (multiReduction .add [1] S4096 (extractStridedSlice S4096x32 ![0, 96] y hs3) 0x00000000#32 hr hφ hacc) hc⟩] hcat (ix2 r j)
      = ∑ l : Fin 32, y (ix2 r ⟨32 * j.val + l.val, by have := j.isLt; have := l.isLt; omega⟩) := by
  match j with
  | ⟨0, _⟩ =>
    exact (concat4_apply _ _ _ _ hcat r ⟨0, by omega⟩ (0 : Fin 1) 0 (by decide) rfl).trans <| (headSum_apply 0 y hs0 hr hφ hacc hc r 0).trans <|
      Finset.sum_congr rfl fun l _ => congrArg y (congrArg (ix2 r) (Fin.ext (by show 0 + l.val = 32 * 0 + l.val; omega)))
  | ⟨1, _⟩ =>
    exact (concat4_apply _ _ _ _ hcat r ⟨1, by omega⟩ (0 : Fin 1) 1 (by decide) rfl).trans <| (headSum_apply 32 y hs1 hr hφ hacc hc r 0).trans <|
      Finset.sum_congr rfl fun l _ => congrArg y (congrArg (ix2 r) (Fin.ext (by show 32 + l.val = 32 * 1 + l.val; omega)))
  | ⟨2, _⟩ =>
    exact (concat4_apply _ _ _ _ hcat r ⟨2, by omega⟩ (0 : Fin 1) 2 (by decide) rfl).trans <| (headSum_apply 64 y hs2 hr hφ hacc hc r 0).trans <|
      Finset.sum_congr rfl fun l _ => congrArg y (congrArg (ix2 r) (Fin.ext (by show 64 + l.val = 32 * 2 + l.val; omega)))
  | ⟨3, _⟩ =>
    exact (concat4_apply _ _ _ _ hcat r ⟨3, by omega⟩ (0 : Fin 1) 3 (by decide) rfl).trans <| (headSum_apply 96 y hs3 hr hφ hacc hc r 0).trans <|
      Finset.sum_congr rfl fun l _ => congrArg y (congrArg (ix2 r) (Fin.ext (by show 96 + l.val = 32 * 3 + l.val; omega)))

theorem spreadHeads_apply {α : Type} (y : S4096x4.Idx → α)
    (hs0 : S4096x4.Slices ![0, 0] S4096x1) (hs1 : S4096x4.Slices ![0, 1] S4096x1)
    (hs2 : S4096x4.Slices ![0, 2] S4096x1) (hs3 : S4096x4.Slices ![0, 3] S4096x1)
    (hc : S4096x1.ShapeCasts S4096x1) (hb : S4096x1.Broadcasts S4096x32)
    (hcat : Shape.Concatenates [S4096x32, S4096x32, S4096x32, S4096x32] S4096x128 1)
    (r : Fin 4096) (q : Fin 128) :
    concatenate S4096x128 1 [⟨S4096x32, broadcastTo S4096x32 (shapeCast S4096x1 (extractStridedSlice S4096x1 ![0, 0] y hs0) hc) hb⟩,
        ⟨S4096x32, broadcastTo S4096x32 (shapeCast S4096x1 (extractStridedSlice S4096x1 ![0, 1] y hs1) hc) hb⟩,
        ⟨S4096x32, broadcastTo S4096x32 (shapeCast S4096x1 (extractStridedSlice S4096x1 ![0, 2] y hs2) hc) hb⟩,
        ⟨S4096x32, broadcastTo S4096x32 (shapeCast S4096x1 (extractStridedSlice S4096x1 ![0, 3] y hs3) hc) hb⟩] hcat (ix2 r q)
      = y (ix2 r ⟨q.val / 32, by have := q.isLt; omega⟩) := by
  have hq := q.isLt
  rcases (show q.val / 32 = 0 ∨ q.val / 32 = 1 ∨ q.val / 32 = 2 ∨ q.val / 32 = 3 by omega) with h | h | h | h
  · exact (concat4_apply _ _ _ _ hcat r q ⟨q.val, by omega⟩ 0 (by decide) (by show q.val = 0 * 32 + q.val; omega)).trans <| (headLanes_apply 0 y hs0 hc hb r _).trans <|
      congrArg y (congrArg (ix2 r) (Fin.ext h.symm))
  · exact (concat4_apply _ _ _ _ hcat r q ⟨q.val - 32, by omega⟩ 1 (by decide) (by show q.val = 1 * 32 + (q.val - 32); omega)).trans <|
      (headLanes_apply 1 y hs1 hc hb r _).trans <| congrArg y (congrArg (ix2 r) (Fin.ext h.symm))
  · exact (concat4_apply _ _ _ _ hcat r q ⟨q.val - 64, by omega⟩ 2 (by decide) (by show q.val = 2 * 32 + (q.val - 64); omega)).trans <|
      (headLanes_apply 2 y hs2 hc hb r _).trans <| congrArg y (congrArg (ix2 r) (Fin.ext h.symm))
  · exact (concat4_apply _ _ _ _ hcat r q ⟨q.val - 96, by omega⟩ 3 (by decide) (by show q.val = 3 * 32 + (q.val - 96); omega)).trans <|
      (headLanes_apply 3 y hs3 hc hb r _).trans <| congrArg y (congrArg (ix2 r) (Fin.ext h.symm))

theorem attn_out4 (x0 x1 x2 x3 : Vec Ideal S4096x128 .f32) : out3_4 x0 x1 x2 x3 = attnA x0 x1 x3 := by
  unfold out3_4
  rw [View.canon_unit_zero zero2]
  simp only [View.ld_unit_zero (S := S4096x128) zero2]
  funext i
  obtain ⟨p, q, rfl⟩ : ∃ p q, i = ix2 p q := ⟨i 0, i 1, eq_ix2 i⟩
  show k3_pay3 x0 x1 x3 (ix2 p q) = Ideal.exp ((score x0 x1 p q * _) * (_ + x3 (ix2 p q)))
  unfold k3_pay3
  refine congrArg Ideal.exp (congrArg₂ (fun a b : EReal => a * b) ?_
    (congrArg (fun b : EReal => Ideal.ofBits .f32 0x3F800000#32 + b) (congrFun (shapeCast_self x3 _) (ix2 p q))))
  refine (spreadHeads_apply _ _ _ _ _ _ _ _ p q).trans ?_
  refine congrArg (fun a : EReal => a * Ideal.ofBits .f32 0x3E3504F3#32) ?_
  refine (headScores_apply _ _ _ _ _ _ _ _ _ _ p ⟨q.val / 32, by have := q.isLt; omega⟩).trans ?_
  unfold score
  exact Finset.sum_congr rfl fun l _ =>
    congrArg₂ (fun a b : EReal => a * b) (congrFun (shapeCast_self x0 _) _) (congrFun (shapeCast_self x1 _) _)

theorem attn_out5 (x0 x1 x2 x3 : Vec Ideal S4096x128 .f32) : out3_5 x0 x1 x2 x3 = attnV x2 (attnA x0 x1 x3) := by
  rw [← attn_out4 x0 x1 x2 x3]
  unfold out3_5 out3_4
  rw [View.canon_unit_zero zero2, View.canon_unit_zero zero2]
  simp only [View.ld_unit_zero (S := S4096x128) zero2]
  unfold k3_pay1 k3_pay2
  exact funext fun i => congrArg (fun a : EReal => a * k3_pay3 x0 x1 x3 i) (congrFun (shapeCast_self x2 _) i)

-- rows t·B … of the operands give the numerator at row t·B + p: the score reads one row only
theorem attn_blk {R B T : Nat} (k q v e : FVec Ideal ⟨2, ![R, 128]⟩ .f32)
    {e0 e1 e2 e3 eo : Fin T → (⟨2, ![B, 128]⟩ : Shape).Idx → (⟨2, ![R, 128]⟩ : Shape).Idx} {i0 i1 i2 i3 io : Fin T → Fin 2 → Nat}
    (c0 : ∀ t, i0 t = ![t.val, 0]) (c1 : ∀ t, i1 t = ![t.val, 0]) (c2 : ∀ t, i2 t = ![t.val, 0]) (c3 : ∀ t, i3 t = ![t.val, 0])
    (co : ∀ t, io t = ![t.val, 0])
    (h0 : ∀ t y a, (e0 t y a).val = i0 t a * ![B, 128] a + 1 * (y a).val) (h1 : ∀ t y a, (e1 t y a).val = i1 t a * ![B, 128] a + 1 * (y a).val)
    (h2 : ∀ t y a, (e2 t y a).val = i2 t a * ![B, 128] a + 1 * (y a).val) (h3 : ∀ t y a, (e3 t y a).val = i3 t a * ![B, 128] a + 1 * (y a).val)
    (ho : ∀ t y a, (eo t y a).val = io t a * ![B, 128] a + 1 * (y a).val) (t : Fin T) (j : (⟨2, ![B, 128]⟩ : Shape).Idx) :
    attnA (fun y => k (e0 t y)) (fun y => q (e1 t y)) (fun y => e (e3 t y)) j = attnA k q e (eo t j) ∧ v (e2 t j) = v (eo t j) := by
  have key : ∀ {e' : Fin T → (⟨2, ![B, 128]⟩ : Shape).Idx → (⟨2, ![R, 128]⟩ : Shape).Idx} {i' : Fin T → Fin 2 → Nat}
      (_ : ∀ t, i' t = ![t.val, 0]) (_ : ∀ t y a, (e' t y a).val = i' t a * ![B, 128] a + 1 * (y a).val) (y) (x : (⟨2, ![R, 128]⟩ : Shape).Idx),
      (x 0).val = t.val * B + (y 0).val → (x 1).val = (y 1).val → e' t y = x :=
    fun c' h' y x r c => (blk_row (c' t) (h' t) y).elim fun r' c'' => Shape.idx_ext₂ (r'.trans r.symm) (c''.trans c.symm)
  obtain ⟨r, c⟩ := blk_row (co t) (ho t) j
  generalize eo t j = x at r c
  obtain ⟨xr, xc, rfl⟩ : ∃ xr xc, x = ix2 xr xc := ⟨x 0, x 1, eq_ix2 x⟩
  obtain rfl : xc = j 1 := Fin.ext c
  refine ⟨?_, congrArg v (key c2 h2 j _ r rfl)⟩
  unfold attnA score
  exact congrArg Ideal.exp (congrArg₂ (fun a b : EReal => a * b)
    (congrArg (fun a : EReal => a * _) (Finset.sum_congr rfl fun l _ => congrArg₂ (fun a b : EReal => a * b)
      (congrArg k (key c0 h0 _ _ r rfl)) (congrArg q (key c1 h1 _ _ r rfl))))
    (congrArg (fun b : EReal => _ + b) (congrArg e (key c3 h3 j _ r rfl))))

-- every window's block at point t is block (t, 0): what a body that leaves the numerator and the weighted values of its blocks
-- leaves at point t is block t of those of the arrays, and the T blocks of an output cover R ≤ T·B rows
theorem attn_blocks {R B T : Nat} (hR : R ≤ T * B) (k q v e : FVec Ideal ⟨2, ![R, 128]⟩ .f32)
    (e0 e1 e2 e3 e4 e5 : Fin T → (⟨2, ![B, 128]⟩ : Shape).Idx → (⟨2, ![R, 128]⟩ : Shape).Idx) (i0 i1 i2 i3 i4 i5 : Fin T → Fin 2 → Nat)
    (hi : ∀ t, i0 t = ![t.val, 0] ∧ i1 t = ![t.val, 0] ∧ i2 t = ![t.val, 0] ∧ i3 t = ![t.val, 0] ∧ i4 t = ![t.val, 0] ∧ i5 t = ![t.val, 0])
    (h0 : ∀ t y a, (e0 t y a).val = i0 t a * ![B, 128] a + 1 * (y a).val)
    (h1 : ∀ t y a, (e1 t y a).val = i1 t a * ![B, 128] a + 1 * (y a).val)
    (h2 : ∀ t y a, (e2 t y a).val = i2 t a * ![B, 128] a + 1 * (y a).val)
    (h3 : ∀ t y a, (e3 t y a).val = i3 t a * ![B, 128] a + 1 * (y a).val)
    (h4 : ∀ t y a, (e4 t y a).val = i4 t a * ![B, 128] a + 1 * (y a).val)
    (h5 : ∀ t y a, (e5 t y a).val = i5 t a * ![B, 128] a + 1 * (y a).val)
    (o4 o5 : FVec Ideal ⟨2, ![B, 128]⟩ .f32 → FVec Ideal ⟨2, ![B, 128]⟩ .f32 → FVec Ideal ⟨2, ![B, 128]⟩ .f32 → FVec Ideal ⟨2, ![B, 128]⟩ .f32
      → FVec Ideal ⟨2, ![B, 128]⟩ .f32)
    (p4 : ∀ x0 x1 x2 x3, o4 x0 x1 x2 x3 = attnA x0 x1 x3) (p5 : ∀ x0 x1 x2 x3, o5 x0 x1 x2 x3 = attnV x2 (attnA x0 x1 x3)) :
    ((∀ t, o4 (fun y => k (e0 t y)) (fun y => q (e1 t y)) (fun y => v (e2 t y)) (fun y => e (e3 t y)) = fun j => attnA k q e (e4 t j))
        ∧ ∀ i, ∃ t y, e4 t y = i)
      ∧ (∀ t, o5 (fun y => k (e0 t y)) (fun y => q (e1 t y)) (fun y => v (e2 t y)) (fun y => e (e3 t y))
          = fun j => attnV v (attnA k q e) (e5 t j))
        ∧ ∀ i, ∃ t y, e5 t y = i := by
  have c0 := fun t => (hi t).1
  have c1 := fun t => (hi t).2.1
  have c2 := fun t => (hi t).2.2.1
  have c3 := fun t => (hi t).2.2.2.1
  have c4 := fun t => (hi t).2.2.2.2.1
  have c5 := fun t => (hi t).2.2.2.2.2
  refine ⟨⟨fun t => (p4 _ _ _ _).trans (funext fun j => (attn_blk k q v e c0 c1 c2 c3 c4 h0 h1 h2 h3 h4 t j).1), rows_cover hR c4 h4⟩,
    fun t => (p5 _ _ _ _).trans (funext fun j => ?_), rows_cover hR c5 h5⟩
  obtain ⟨a, b⟩ := attn_blk k q v e c0 c1 c2 c3 c5 h0 h1 h2 h3 h5 t j
  exact congrArg₂ (fun a b : EReal => a * b) b a

theorem index3 : ∀ t : Fin cfg3.N, win3_0.index t = ![t.val, 0] ∧ win3_1.index t = ![t.val, 0] ∧ win3_2.index t = ![t.val, 0] ∧
    win3_3.index t = ![t.val, 0] ∧ win3_4.index t = ![t.val, 0] ∧ win3_5.index t = ![t.val, 0] :=
  (by decide +kernel : ∀ t : Fin grid3.N, _)

section Arrays
variable (V : (c : Dev nD) → (b : Ref sig .tc) → Buf (Elt Ideal) ((c : Thread nD τ).loc b)) (c : Dev nD)

theorem arr3 : (dat3 (F := Ideal) V c).arrAt 4 cfg3.N = Cert.Spec.attnA (V c main_v31) (V c main_v38) (V c main_v24)
    ∧ (dat3 (F := Ideal) V c).arrAt 5 cfg3.N = Cert.Spec.attnV (V c main_v45) (Cert.Spec.attnA (V c main_v31) (V c main_v38) (V c main_v24)) := by
  obtain ⟨⟨g4, c4⟩, g5, c5⟩ := attn_blocks (by decide)
    (V c main_v31) (V c main_v38) (V c main_v45) (V c main_v24)
    (fun t => ((cfg3.win 0).blk t).view.emb) (fun t => ((cfg3.win 1).blk t).view.emb) (fun t => ((cfg3.win 2).blk t).view.emb)
    (fun t => ((cfg3.win 3).blk t).view.emb) (fun t => ((cfg3.win 4).blk t).view.emb) (fun t => ((cfg3.win 5).blk t).view.emb)
    _ _ _ _ _ _ index3 (fun _ _ _ => rfl) (fun _ _ _ => rfl) (fun _ _ _ => rfl) (fun _ _ _ => rfl) (fun _ _ _ => rfl) (fun _ _ _ => rfl)
    (out3_4 (F := Ideal)) (out3_5 (F := Ideal)) attn_out4 attn_out5
  refine ⟨(dat3 (F := Ideal) V c).arrAt_eq_of_cover 4 _ (fun t _ => (congrArg _ (after3_4 V c t)).trans (g4 t)) fun i => ?_,
    (dat3 (F := Ideal) V c).arrAt_eq_of_cover 5 _ (fun t _ => (congrArg _ (after3_5 V c t)).trans (g5 t)) fun i => ?_⟩
  · obtain ⟨t, y, rfl⟩ := c4 i
    exact ⟨t, flush3_4 t, View.emb_mem_set _ y⟩
  · obtain ⟨t, y, rfl⟩ := c5 i
    exact ⟨t, flush3_5 t, View.emb_mem_set _ y⟩

theorem arr3_4 : (dat3 (F := Ideal) V c).arrAt 4 cfg3.N = Cert.Spec.attnA (V c main_v31) (V c main_v38) (V c main_v24) :=
  (arr3 V c).1

theorem arr3_5 : (dat3 (F := Ideal) V c).arrAt 5 cfg3.N = Cert.Spec.attnV (V c main_v45) (Cert.Spec.attnA (V c main_v31) (V c main_v38) (V c main_v24)) :=
  (arr3 V c).2

end Arrays

end Cert.KernelIdeal.Hand

end
-- ==== Proof.KI.V4.lean ====
import proofs.«113847_j61718680043593_1_alg».proof.Proof.KI.R4
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index4 : ∀ t : Fin cfg4.N, win4_0.index t = ![t.val, 0] ∧ win4_1.index t = ![0, 0] ∧ win4_2.index t = ![0, 0]
    ∧ win4_3.index t = ![t.val, 0] :=
  (by decide +kernel : ∀ t : Fin grid4.N, _)

theorem arr4 (V : (c : Dev nD) → (b : Ref sig .tc) → Buf (Elt Ideal) ((c : Thread nD τ).loc b)) (c : Dev nD) :
    (dat4 (F := Ideal) V c).arrAt 3 cfg4.N
      = affine (V c main_v55) (V c main_v57) (V c main_v60) := by
  obtain ⟨hG, hc⟩ := affine_blocks (by decide)
    (V c main_v55) (V c main_v57) (V c main_v60)
    (fun t => ((cfg4.win 0).blk t).view.emb) (fun t => ((cfg4.win 1).blk t).view.emb)
    (fun t => ((cfg4.win 2).blk t).view.emb) (fun t => ((cfg4.win 3).blk t).view.emb)
    _ _ _ _ index4 (fun _ _ _ => rfl) (fun _ _ _ => rfl) (fun _ _ _ => rfl) (fun _ _ _ => rfl)
    (out4_3 (F := Ideal)) fun _ _ _ => affine_out _ rfl _ _ _ _ _ _ _ _ _ _ _ _
  refine (dat4 (F := Ideal) V c).arrAt_eq_of_cover 3 _ (fun t _ => (congrArg _ (after4_3 V c t)).trans (hG t)) fun i => ?_
  obtain ⟨t, y, rfl⟩ := hc i
  exact ⟨t, flush4_3 t, View.emb_mem_set _ y⟩

end Cert.KernelIdeal.Hand

end
-- ==== Proof.KI.V5.lean ====
import proofs.«113847_j61718680043593_1_alg».proof.Proof.KI.R5
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index5 : ∀ t : Fin cfg5.N, win5_0.index t = ![t.val, 0] ∧ win5_1.index t = ![0, 0] ∧ win5_2.index t = ![0, 0]
    ∧ win5_3.index t = ![t.val, 0] :=
  (by decide +kernel : ∀ t : Fin grid5.N, _)

theorem arr5 (V : (c : Dev nD) → (b : Ref sig .tc) → Buf (Elt Ideal) ((c : Thread nD τ).loc b)) (c : Dev nD) :
    (dat5 (F := Ideal) V c).arrAt 3 cfg5.N
      = affine (V c main_v84) (V c main_v86) (V c main_v89) := by
  obtain ⟨hG, hc⟩ := affine_blocks (by decide)
    (V c main_v84) (V c main_v86) (V c main_v89)
    (fun t => ((cfg5.win 0).blk t).view.emb) (fun t => ((cfg5.win 1).blk t).view.emb)
    (fun t => ((cfg5.win 2).blk t).view.emb) (fun t => ((cfg5.win 3).blk t).view.emb)
    _ _ _ _ index5 (fun _ _ _ => rfl) (fun _ _ _ => rfl) (fun _ _ _ => rfl) (fun _ _ _ => rfl)
    (out5_3 (F := Ideal)) fun _ _ _ => affine_out _ rfl _ _ _ _ _ _ _ _ _ _ _ _
  refine (dat5 (F := Ideal) V c).arrAt_eq_of_cover 3 _ (fun t _ => (congrArg _ (after5_3 V c t)).trans (hG t)) fun i => ?_
  obtain ⟨t, y, rfl⟩ := hc i
  exact ⟨t, flush5_3 t, View.emb_mem_set _ y⟩

end Cert.KernelIdeal.Hand

end
-- ==== Proof.KI.V6.lean ====
import proofs.«113847_j61718680043593_1_alg».proof.Proof.KI.R6
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index6 : ∀ t : Fin cfg6.N, win6_0.index t = ![t.val, 0] ∧ win6_1.index t = ![0, 0] ∧ win6_2.index t = ![0, 0]
    ∧ win6_3.index t = ![t.val, 0] :=
  (by decide +kernel : ∀ t : Fin grid6.N, _)

theorem arr6 (V : (c : Dev nD) → (b : Ref sig .tc) → Buf (Elt Ideal) ((c : Thread nD τ).loc b)) (c : Dev nD) :
    (dat6 (F := Ideal) V c).arrAt 3 cfg6.N
      = affine (V c main_v91) (V c main_v93) (V c main_v96) := by
  obtain ⟨hG, hc⟩ := affine_blocks (by decide)
    (V c main_v91) (V c main_v93) (V c main_v96)
    (fun t => ((cfg6.win 0).blk t).view.emb) (fun t => ((cfg6.win 1).blk t).view.emb)
    (fun t => ((cfg6.win 2).blk t).view.emb) (fun t => ((cfg6.win 3).blk t).view.emb)
    _ _ _ _ index6 (fun _ _ _ => rfl) (fun _ _ _ => rfl) (fun _ _ _ => rfl) (fun _ _ _ => rfl)
    (out6_3 (F := Ideal)) fun _ _ _ => affine_out _ rfl _ _ _ _ _ _ _ _ _ _ _ _
  refine (dat6 (F := Ideal) V c).arrAt_eq_of_cover 3 _ (fun t _ => (congrArg _ (after6_3 V c t)).trans (hG t)) fun i => ?_
  obtain ⟨t, y, rfl⟩ := hc i
  exact ⟨t, flush6_3 t, View.emb_mem_set _ y⟩

end Cert.KernelIdeal.Hand

end
-- ==== Proof.KI.V7.lean ====
import proofs.«113847_j61718680043593_1_alg».proof.Proof.KI.R7
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index7 : ∀ t : Fin cfg7.N, win7_0.index t = ![t.val, 0] ∧ win7_1.index t = ![0, 0] ∧ win7_2.index t = ![0, 0]
    ∧ win7_3.index t = ![t.val, 0] :=
  (by decide +kernel : ∀ t : Fin grid7.N, _)

theorem arr7 (V : (c : Dev nD) → (b : Ref sig .tc) → Buf (Elt Ideal) ((c : Thread nD τ).loc b)) (c : Dev nD) :
    (dat7 (F := Ideal) V c).arrAt 3 cfg7.N
      = affine (V c main_v120) (V c main_v127) (V c main_v9) := by
  obtain ⟨hG, hc⟩ := affine_blocks (by decide)
    (V c main_v120) (V c main_v127) (V c main_v9)
    (fun t => ((cfg7.win 0).blk t).view.emb) (fun t => ((cfg7.win 1).blk t).view.emb)
    (fun t => ((cfg7.win 2).blk t).view.emb) (fun t => ((cfg7.win 3).blk t).view.emb)
    _ _ _ _ index7 (fun _ _ _ => rfl) (fun _ _ _ => rfl) (fun _ _ _ => rfl) (fun _ _ _ => rfl)
    (out7_3 (F := Ideal)) fun _ _ _ => affine_out _ rfl _ _ _ _ _ _ _ _ _ _ _ _
  refine (dat7 (F := Ideal) V c).arrAt_eq_of_cover 3 _ (fun t _ => (congrArg _ (after7_3 V c t)).trans (hG t)) fun i => ?_
  obtain ⟨t, y, rfl⟩ := hc i
  exact ⟨t, flush7_3 t, View.emb_mem_set _ y⟩

end Cert.KernelIdeal.Hand

end
-- ==== Proof.KI.V8.lean ====
import proofs.«113847_j61718680043593_1_alg».proof.Proof.KI.R8
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index8 : ∀ t : Fin cfg8.N, win8_0.index t = ![t.val, 0] ∧ win8_1.index t = ![0, 0] ∧ win8_2.index t = ![0, 0]
    ∧ win8_3.index t = ![t.val, 0] :=
  (by decide +kernel : ∀ t : Fin grid8.N, _)

theorem arr8 (V : (c : Dev nD) → (b : Ref sig .tc) → Buf (Elt Ideal) ((c : Thread nD τ).loc b)) (c : Dev nD) :
    (dat8 (F := Ideal) V c).arrAt 3 cfg8.N
      = affine (V c main_v8) (V c main_v133) (V c main_v10) := by
  obtain ⟨hG, hc⟩ := affine_blocks (by decide)
    (V c main_v8) (V c main_v133) (V c main_v10)
    (fun t => ((cfg8.win 0).blk t).view.emb) (fun t => ((cfg8.win 1).blk t).view.emb)
    (fun t => ((cfg8.win 2).blk t).view.emb) (fun t => ((cfg8.win 3).blk t).view.emb)
    _ _ _ _ index8 (fun _ _ _ => rfl) (fun _ _ _ => rfl) (fun _ _ _ => rfl) (fun _ _ _ => rfl)
    (out8_3 (F := Ideal)) fun _ _ _ => affine_out _ rfl _ _ _ _ _ _ _ _ _ _ _ _
  refine (dat8 (F := Ideal) V c).arrAt_eq_of_cover 3 _ (fun t _ => (congrArg _ (after8_3 V c t)).trans (hG t)) fun i => ?_
  obtain ⟨t, y, rfl⟩ := hc i
  exact ⟨t, flush8_3 t, View.emb_mem_set _ y⟩

end Cert.KernelIdeal.Hand

end
-- ==== Proof.KI.V9.lean ====
import proofs.«113847_j61718680043593_1_alg».proof.Proof.KI.R9
import proofs.«113847_j61718680043593_1_alg».proof.Proof.Gen.KernelIdeal.Points
import proofs.«113847_j61718680043593_1_alg».proof.Proof.KI.V3

noncomputable section

namespace Cert.KernelIdeal.Hand

open Cert.KernelIdeal Cert.KernelIdeal.Gen Cert.Spec
open Idealize.ShloMosaic Idealize.ShloMosaic.TcCoe Idealize.SL.Sem

theorem index9 : ∀ t : Fin cfg9.N, win9_0.index t = ![t.val, 0] ∧ win9_1.index t = ![t.val, 0] ∧ win9_2.index t = ![t.val, 0] ∧
    win9_3.index t = ![t.val, 0] ∧ win9_4.index t = ![t.val, 0] ∧ win9_5.index t = ![t.val, 0] :=
  (by decide +kernel : ∀ t : Fin grid9.N, _)

section Arrays
variable (V : (c : Dev nD) → (b : Ref sig .tc) → Buf (Elt Ideal) ((c : Thread nD τ).loc b)) (c : Dev nD)

theorem arr9 : (dat9 (F := Ideal) V c).arrAt 4 cfg9.N = Cert.Spec.attnA (V c main_v141) (V c main_v148) (V c main_v134)
    ∧ (dat9 (F := Ideal) V c).arrAt 5 cfg9.N = Cert.Spec.attnV (V c main_v155) (Cert.Spec.attnA (V c main_v141) (V c main_v148) (V c main_v134)) := by
  obtain ⟨⟨g4, c4⟩, g5, c5⟩ := attn_blocks (by decide)
    (V c main_v141) (V c main_v148) (V c main_v155) (V c main_v134)
    (fun t => ((cfg9.win 0).blk t).view.emb) (fun t => ((cfg9.win 1).blk t).view.emb) (fun t => ((cfg9.win 2).blk t).view.emb)
    (fun t => ((cfg9.win 3).blk t).view.emb) (fun t => ((cfg9.win 4).blk t).view.emb) (fun t => ((cfg9.win 5).blk t).view.emb)
    _ _ _ _ _ _ index9 (fun _ _ _ => rfl) (fun _ _ _ => rfl) (fun _ _ _ => rfl) (fun _ _ _ => rfl) (fun _ _ _ => rfl) (fun _ _ _ => rfl)
    (out9_4 (F := Ideal)) (out9_5 (F := Ideal)) attn_out4 attn_out5
  refine ⟨(dat9 (F := Ideal) V c).arrAt_eq_of_cover 4 _ (fun t _ => (congrArg _ (after9_4 V c t)).trans (g4 t)) fun i => ?_,
    (dat9 (F := Ideal) V c).arrAt_eq_of_cover 5 _ (fun t _ => (congrArg _ (after9_5 V c t)).trans (g5 t)) fun i => ?_⟩
  · obtain ⟨t, y, rfl⟩ := c4 i
    exact ⟨t, flush9_4 t, View.emb_mem_set _ y⟩
  · obtain ⟨t, y, rfl⟩ := c5 i
    exact ⟨t, flush9_5 t, View.emb_mem_set _ y⟩

theorem arr9_4 : (dat9 (F := Ideal) V c).arrAt 4 cfg9.N = Cert.Spec.attnA (V c main_v141) (V c main_v148) (V c main_v134) :=
  (arr9 V c).1

theorem arr9_5 : (dat9 (F := Ideal) V c).arrAt 5 cfg9.N = Cert.Spec.attnV (V c main_v155) (Cert.Spec.attnA (V c main_v141) (V c main_v148) (V c main_v134)) :=
  (arr9 V c).2

end Arrays

end Cert.KernelIdeal.Hand

end
-- ==== Proof.KI.V10.lean ====
import proofs.«113847_j61718680043593_1_alg».proof.Proof.KI.R10
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index10 : ∀ t : Fin cfg10.N, win10_0.index t = ![t.val, 0] ∧ win10_1.index t = ![0, 0] ∧ win10_2.index t = ![0, 0]
    ∧ win10_3.index t = ![t.val, 0] :=
  (by decide +kernel : ∀ t : Fin grid10.N, _)

theorem arr10 (V : (c : Dev nD) → (b : Ref sig .tc) → Buf (Elt Ideal) ((c : Thread nD τ).loc b)) (c : Dev nD) :
    (dat10 (F := Ideal) V c).arrAt 3 cfg10.N
      = affine (V c main_v165) (V c main_v167) (V c main_v170) := by
  obtain ⟨hG, hc⟩ := affine_blocks (by decide)
    (V c main_v165) (V c main_v167) (V c main_v170)
    (fun t => ((cfg10.win 0).blk t).view.emb) (fun t => ((cfg10.win 1).blk t).view.emb)
    (fun t => ((cfg10.win 2).blk t).view.emb) (fun t => ((cfg10.win 3).blk t).view.emb)
    _ _ _ _ index10 (fun _ _ _ => rfl) (fun _ _ _ => rfl) (fun _ _ _ => rfl) (fun _ _ _ => rfl)
    (out10_3 (F := Ideal)) fun _ _ _ => affine_out _ rfl _ _ _ _ _ _ _ _ _ _ _ _
  refine (dat10 (F := Ideal) V c).arrAt_eq_of_cover 3 _ (fun t _ => (congrArg _ (after10_3 V c t)).trans (hG t)) fun i => ?_
  obtain ⟨t, y, rfl⟩ := hc i
  exact ⟨t, flush10_3 t, View.emb_mem_set _ y⟩

end Cert.KernelIdeal.Hand

end
-- ==== Proof.KI.V11.lean ====
import proofs.«113847_j61718680043593_1_alg».proof.Proof.KI.R11
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index11 : ∀ t : Fin cfg11.N, win11_0.index t = ![t.val, 0] ∧ win11_1.index t = ![0, 0] ∧ win11_2.index t = ![0, 0]
    ∧ win11_3.index t = ![t.val, 0] :=
  (by decide +kernel : ∀ t : Fin grid11.N, _)

theorem arr11 (V : (c : Dev nD) → (b : Ref sig .tc) → Buf (Elt Ideal) ((c : Thread nD τ).loc b)) (c : Dev nD) :
    (dat11 (F := Ideal) V c).arrAt 3 cfg11.N
      = affine (V c main_v194) (V c main_v196) (V c main_v199) := by
  obtain ⟨hG, hc⟩ := affine_blocks (by decide)
    (V c main_v194) (V c main_v196) (V c main_v199)
    (fun t => ((cfg11.win 0).blk t).view.emb) (fun t => ((cfg11.win 1).blk t).view.emb)
    (fun t => ((cfg11.win 2).blk t).view.emb) (fun t => ((cfg11.win 3).blk t).view.emb)
    _ _ _ _ index11 (fun _ _ _ => rfl) (fun _ _ _ => rfl) (fun _ _ _ => rfl) (fun _ _ _ => rfl)
    (out11_3 (F := Ideal)) fun _ _ _ => affine_out _ rfl _ _ _ _ _ _ _ _ _ _ _ _
  refine (dat11 (F := Ideal) V c).arrAt_eq_of_cover 3 _ (fun t _ => (congrArg _ (after11_3 V c t)).trans (hG t)) fun i => ?_
  obtain ⟨t, y, rfl⟩ := hc i
  exact ⟨t, flush11_3 t, View.emb_mem_set _ y⟩

end Cert.KernelIdeal.Hand

end
-- ==== Proof.KI.V12.lean ====
import proofs.«113847_j61718680043593_1_alg».proof.Proof.KI.R12
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index12 : ∀ t : Fin cfg12.N, win12_0.index t = ![t.val, 0] ∧ win12_1.index t = ![0, 0] ∧ win12_2.index t = ![0, 0]
    ∧ win12_3.index t = ![t.val, 0] :=
  (by decide +kernel : ∀ t : Fin grid12.N, _)

theorem arr12 (V : (c : Dev nD) → (b : Ref sig .tc) → Buf (Elt Ideal) ((c : Thread nD τ).loc b)) (c : Dev nD) :
    (dat12 (F := Ideal) V c).arrAt 3 cfg12.N
      = affine (V c main_v201) (V c main_v203) (V c main_v206) := by
  obtain ⟨hG, hc⟩ := affine_blocks (by decide)
    (V c main_v201) (V c main_v203) (V c main_v206)
    (fun t => ((cfg12.win 0).blk t).view.emb) (fun t => ((cfg12.win 1).blk t).view.emb)
    (fun t => ((cfg12.win 2).blk t).view.emb) (fun t => ((cfg12.win 3).blk t).view.emb)
    _ _ _ _ index12 (fun _ _ _ => rfl) (fun _ _ _ => rfl) (fun _ _ _ => rfl) (fun _ _ _ => rfl)
    (out12_3 (F := Ideal)) fun _ _ _ => affine_out _ rfl _ _ _ _ _ _ _ _ _ _ _ _
  refine (dat12 (F := Ideal) V c).arrAt_eq_of_cover 3 _ (fun t _ => (congrArg _ (after12_3 V c t)).trans (hG t)) fun i => ?_
  obtain ⟨t, y, rfl⟩ := hc i
  exact ⟨t, flush12_3 t, View.emb_mem_set _ y⟩

end Cert.KernelIdeal.Hand

end
-- ==== Proof.KI.V13.lean ====
import proofs.«113847_j61718680043593_1_alg».proof.Proof.KI.R13
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index13 : ∀ t : Fin cfg13.N, win13_0.index t = ![t.val, 0] ∧ win13_1.index t = ![0, 0] ∧ win13_2.index t = ![0, 0]
    ∧ win13_3.index t = ![t.val, 0] :=
  (by decide +kernel : ∀ t : Fin grid13.N, _)

theorem arr13 (V : (c : Dev nD) → (b : Ref sig .tc) → Buf (Elt Ideal) ((c : Thread nD τ).loc b)) (c : Dev nD) :
    (dat13 (F := Ideal) V c).arrAt 3 cfg13.N
      = affine (V c main_v230) (V c main_v237) (V c main_v9) := by
  obtain ⟨hG, hc⟩ := affine_blocks (by decide)
    (V c main_v230) (V c main_v237) (V c main_v9)
    (fun t => ((cfg13.win 0).blk t).view.emb) (fun t => ((cfg13.win 1).blk t).view.emb)
    (fun t => ((cfg13.win 2).blk t).view.emb) (fun t => ((cfg13.win 3).blk t).view.emb)
    _ _ _ _ index13 (fun _ _ _ => rfl) (fun _ _ _ => rfl) (fun _ _ _ => rfl) (fun _ _ _ => rfl)
    (out13_3 (F := Ideal)) fun _ _ _ => affine_out _ rfl _ _ _ _ _ _ _ _ _ _ _ _
  refine (dat13 (F := Ideal) V c).arrAt_eq_of_cover 3 _ (fun t _ => (congrArg _ (after13_3 V c t)).trans (hG t)) fun i => ?_
  obtain ⟨t, y, rfl⟩ := hc i
  exact ⟨t, flush13_3 t, View.emb_mem_set _ y⟩

end Cert.KernelIdeal.Hand

end
-- ==== Proof.KI.V14.lean ====
import proofs.«113847_j61718680043593_1_alg».proof.Proof.KI.R14
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index14 : ∀ t : Fin cfg14.N, win14_0.index t = ![t.val, 0] ∧ win14_1.index t = ![0, 0] ∧ win14_2.index t = ![0, 0]
    ∧ win14_3.index t = ![t.val, 0] :=
  (by decide +kernel : ∀ t : Fin grid14.N, _)

theorem arr14 (V : (c : Dev nD) → (b : Ref sig .tc) → Buf (Elt Ideal) ((c : Thread nD τ).loc b)) (c : Dev nD) :
    (dat14 (F := Ideal) V c).arrAt 3 cfg14.N
      = affine (V c main_v8) (V c main_v243) (V c main_v10) := by
  obtain ⟨hG, hc⟩ := affine_blocks (by decide)
    (V c main_v8) (V c main_v243) (V c main_v10)
    (fun t => ((cfg14.win 0).blk t).view.emb) (fun t => ((cfg14.win 1).blk t).view.emb)
    (fun t => ((cfg14.win 2).blk t).view.emb) (fun t => ((cfg14.win 3).blk t).view.emb)
    _ _ _ _ index14 (fun _ _ _ => rfl) (fun _ _ _ => rfl) (fun _ _ _ => rfl) (fun _ _ _ => rfl)
    (out14_3 (F := Ideal)) fun _ _ _ => affine_out _ rfl _ _ _ _ _ _ _ _ _ _ _ _
  refine (dat14 (F := Ideal) V c).arrAt_eq_of_cover 3 _ (fun t _ => (congrArg _ (after14_3 V c t)).trans (hG t)) fun i => ?_
  obtain ⟨t, y, rfl⟩ := hc i
  exact ⟨t, flush14_3 t, View.emb_mem_set _ y⟩

end Cert.KernelIdeal.Hand

end
-- ==== Proof.KI.V15.lean ====
import proofs.«113847_j61718680043593_1_alg».proof.Proof.KI.R15
import proofs.«113847_j61718680043593_1_alg».proof.Proof.Gen.KernelIdeal.Points
import proofs.«113847_j61718680043593_1_alg».proof.Proof.KI.V3

noncomputable section

namespace Cert.KernelIdeal.Hand

open Cert.KernelIdeal Cert.KernelIdeal.Gen Cert.Spec
open Idealize.ShloMosaic Idealize.ShloMosaic.TcCoe Idealize.SL.Sem

theorem index15 : ∀ t : Fin cfg15.N, win15_0.index t = ![t.val, 0] ∧ win15_1.index t = ![t.val, 0] ∧ win15_2.index t = ![t.val, 0] ∧
    win15_3.index t = ![t.val, 0] ∧ win15_4.index t = ![t.val, 0] ∧ win15_5.index t = ![t.val, 0] :=
  (by decide +kernel : ∀ t : Fin grid15.N, _)

section Arrays
variable (V : (c : Dev nD) → (b : Ref sig .tc) → Buf (Elt Ideal) ((c : Thread nD τ).loc b)) (c : Dev nD)

theorem arr15 : (dat15 (F := Ideal) V c).arrAt 4 cfg15.N = Cert.Spec.attnA (V c main_v251) (V c main_v258) (V c main_v244)
    ∧ (dat15 (F := Ideal) V c).arrAt 5 cfg15.N = Cert.Spec.attnV (V c main_v265) (Cert.Spec.attnA (V c main_v251) (V c main_v258) (V c main_v244)) := by
  obtain ⟨⟨g4, c4⟩, g5, c5⟩ := attn_blocks (by decide)
    (V c main_v251) (V c main_v258) (V c main_v265) (V c main_v244)
    (fun t => ((cfg15.win 0).blk t).view.emb) (fun t => ((cfg15.win 1).blk t).view.emb) (fun t => ((cfg15.win 2).blk t).view.emb)
    (fun t => ((cfg15.win 3).blk t).view.emb) (fun t => ((cfg15.win 4).blk t).view.emb) (fun t => ((cfg15.win 5).blk t).view.emb)
    _ _ _ _ _ _ index15 (fun _ _ _ => rfl) (fun _ _ _ => rfl) (fun _ _ _ => rfl) (fun _ _ _ => rfl) (fun _ _ _ => rfl) (fun _ _ _ => rfl)
    (out15_4 (F := Ideal)) (out15_5 (F := Ideal)) attn_out4 attn_out5
  refine ⟨(dat15 (F := Ideal) V c).arrAt_eq_of_cover 4 _ (fun t _ => (congrArg _ (after15_4 V c t)).trans (g4 t)) fun i => ?_,
    (dat15 (F := Ideal) V c).arrAt_eq_of_cover 5 _ (fun t _ => (congrArg _ (after15_5 V c t)).trans (g5 t)) fun i => ?_⟩
  · obtain ⟨t, y, rfl⟩ := c4 i
    exact ⟨t, flush15_4 t, View.emb_mem_set _ y⟩
  · obtain ⟨t, y, rfl⟩ := c5 i
    exact ⟨t, flush15_5 t, View.emb_mem_set _ y⟩

theorem arr15_4 : (dat15 (F := Ideal) V c).arrAt 4 cfg15.N = Cert.Spec.attnA (V c main_v251) (V c main_v258) (V c main_v244) :=
  (arr15 V c).1

theorem arr15_5 : (dat15 (F := Ideal) V c).arrAt 5 cfg15.N = Cert.Spec.attnV (V c main_v265) (Cert.Spec.attnA (V c main_v251) (V c main_v258) (V c main_v244)) :=
  (arr15 V c).2

end Arrays

end Cert.KernelIdeal.Hand

end
-- ==== Proof.KI.V16.lean ====
import proofs.«113847_j61718680043593_1_alg».proof.Proof.KI.R16
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index16 : ∀ t : Fin cfg16.N, win16_0.index t = ![t.val, 0] ∧ win16_1.index t = ![0, 0] ∧ win16_2.index t = ![0, 0]
    ∧ win16_3.index t = ![t.val, 0] :=
  (by decide +kernel : ∀ t : Fin grid16.N, _)

theorem arr16 (V : (c : Dev nD) → (b : Ref sig .tc) → Buf (Elt Ideal) ((c : Thread nD τ).loc b)) (c : Dev nD) :
    (dat16 (F := Ideal) V c).arrAt 3 cfg16.N
      = affine (V c main_v275) (V c main_v277) (V c main_v280) := by
  obtain ⟨hG, hc⟩ := affine_blocks (by decide)
    (V c main_v275) (V c main_v277) (V c main_v280)
    (fun t => ((cfg16.win 0).blk t).view.emb) (fun t => ((cfg16.win 1).blk t).view.emb)
    (fun t => ((cfg16.win 2).blk t).view.emb) (fun t => ((cfg16.win 3).blk t).view.emb)
    _ _ _ _ index16 (fun _ _ _ => rfl) (fun _ _ _ => rfl) (fun _ _ _ => rfl) (fun _ _ _ => rfl)
    (out16_3 (F := Ideal)) fun _ _ _ => affine_out _ rfl _ _ _ _ _ _ _ _ _ _ _ _
  refine (dat16 (F := Ideal) V c).arrAt_eq_of_cover 3 _ (fun t _ => (congrArg _ (after16_3 V c t)).trans (hG t)) fun i => ?_
  obtain ⟨t, y, rfl⟩ := hc i
  exact ⟨t, flush16_3 t, View.emb_mem_set _ y⟩

end Cert.KernelIdeal.Hand

end
-- ==== Proof.KI.V17.lean ====
import proofs.«113847_j61718680043593_1_alg».proof.Proof.KI.R17
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index17 : ∀ t : Fin cfg17.N, win17_0.index t = ![t.val, 0] ∧ win17_1.index t = ![0, 0] ∧ win17_2.index t = ![0, 0]
    ∧ win17_3.index t = ![t.val, 0] :=
  (by decide +kernel : ∀ t : Fin grid17.N, _)

theorem arr17 (V : (c : Dev nD) → (b : Ref sig .tc) → Buf (Elt Ideal) ((c : Thread nD τ).loc b)) (c : Dev nD) :
    (dat17 (F := Ideal) V c).arrAt 3 cfg17.N
      = affine (V c main_v304) (V c main_v306) (V c main_v309) := by
  obtain ⟨hG, hc⟩ := affine_blocks (by decide)
    (V c main_v304) (V c main_v306) (V c main_v309)
    (fun t => ((cfg17.win 0).blk t).view.emb) (fun t => ((cfg17.win 1).blk t).view.emb)
    (fun t => ((cfg17.win 2).blk t).view.emb) (fun t => ((cfg17.win 3).blk t).view.emb)
    _ _ _ _ index17 (fun _ _ _ => rfl) (fun _ _ _ => rfl) (fun _ _ _ => rfl) (fun _ _ _ => rfl)
    (out17_3 (F := Ideal)) fun _ _ _ => affine_out _ rfl _ _ _ _ _ _ _ _ _ _ _ _
  refine (dat17 (F := Ideal) V c).arrAt_eq_of_cover 3 _ (fun t _ => (congrArg _ (after17_3 V c t)).trans (hG t)) fun i => ?_
  obtain ⟨t, y, rfl⟩ := hc i
  exact ⟨t, flush17_3 t, View.emb_mem_set _ y⟩

end Cert.KernelIdeal.Hand

end
-- ==== Proof.KI.V18.lean ====
import proofs.«113847_j61718680043593_1_alg».proof.Proof.KI.R18
import proofs.«113847_j61718680043593_1_alg».proof.Proof.Gen.KernelIdeal.Points
import proofs.«113847_j61718680043593_1_alg».proof.Proof.LibAffineValue

noncomputable section

namespace Cert.KernelIdeal.Hand

open Cert.KernelIdeal Cert.KernelIdeal.Gen Cert.Spec
open Idealize.ShloMosaic Idealize.ShloMosaic.TcCoe Idealize.SL.Sem

theorem index18 : ∀ t : Fin cfg18.N, win18_0.index t = ![t.val, 0] ∧ win18_1.index t = ![0, 0] ∧ win18_2.index t = ![0, 0]
    ∧ win18_3.index t = ![t.val, 0] :=
  (by decide +kernel : ∀ t : Fin grid18.N, _)

theorem arr18 (V : (c : Dev nD) → (b : Ref sig .tc) → Buf (Elt Ideal) ((c : Thread nD τ).loc b)) (c : Dev nD) :
    (dat18 (F := Ideal) V c).arrAt 3 cfg18.N
      = affine (V c main_v311) (V c main_v313) (V c main_v316) := by
  obtain ⟨hG, hc⟩ := affine_blocks (by decide)
    (V c main_v311) (V c main_v313) (V c main_v316)
    (fun t => ((cfg18.win 0).blk t).view.emb) (fun t => ((cfg18.win 1).blk t).view.emb)
    (fun t => ((cfg18.win 2).blk t).view.emb) (fun t => ((cfg18.win 3).blk t).view.emb)
    _ _ _ _ index18 (fun _ _ _ => rfl) (fun _ _ _ => rfl) (fun _ _ _ => rfl) (fun _ _ _ => rfl)
    (out18_3 (F := Ideal)) fun _ _ _ => affine_out _ rfl _ _ _ _ _ _ _ _ _ _ _ _
  refine (dat18 (F := Ideal) V c).arrAt_eq_of_cover 3 _ (fun t _ => (congrArg _ (after18_3 V c t)).trans (hG t)) fun i => ?_
  obtain ⟨t, y, rfl⟩ := hc i
  exact ⟨t, flush18_3 t, View.emb_mem_set _ y⟩

end Cert.KernelIdeal.Hand

end
-- ==== Proof.KI.KSpec.lean ====
import proofs.«113847_j61718680043593_1_alg».proof.KernelIdeal
import proofs.«113847_j61718680043593_1_alg».proof.Proof.LibSpec

noncomputable section

namespace Cert.KernelIdeal.Hand

open Cert.KernelIdeal Idealize.ShloMosaic
open Cert.KernelIdeal.Facts₀

variable [Facts]

def kemb (a0 : FVec Ideal S32768x44 .f32) (a1 : FVec Ideal S32768x8 .f32) (a3 : FVec Ideal S44x128 .f32) (a4 : FVec Ideal S128 .f32)
    (a5 : FVec Ideal S8x128 .f32) (a6 : FVec Ideal S128 .f32) : FVec Ideal S32768x128 .f32 :=
  Cert.Spec.affine (M := 32768) (K := 52) (N := 128)
    (concatenate S32768x52 1 [⟨S32768x44, a0⟩, ⟨S32768x8, a1⟩] concatenates_S32768x44_S32768x8_S32768x52_d1)
    (concatenate S52x128 0 [⟨S44x128, a3⟩, ⟨S8x128, a5⟩] concatenates_S44x128_S8x128_S52x128_d0)
    (shapeCast S1x128 (addf a4 a6) shapeCasts_S128_S1x128)

def zero384 : FVec Ideal S1x384 .f32 := broadcastInDim S1x384 ![] bcast_S_S1x384 (constant S_ .f32 0x00000000#32)
def zero128 : FVec Ideal S1x128 .f32 := broadcastInDim S1x128 ![] bcast_S_S1x128 (constant S_ .f32 0x00000000#32)

def kqkv (h : FVec Ideal S32768x128 .f32) (wq wk wv : FVec Ideal S128x128 .f32) : FVec Ideal S32768x384 .f32 :=
  Cert.Spec.affine (M := 32768) (K := 128) (N := 384) h
    (concatenate S128x384 1 [⟨S128x128, wq⟩, ⟨S128x128, wk⟩, ⟨S128x128, wv⟩] concatenates_S128x128_S128x128_S128x128_S128x384_d1) zero384

def kQ (qkv : FVec Ideal S32768x384 .f32) : FVec Ideal S32768x128 .f32 := extractStridedSlice S32768x128 ![0, 0] qkv slices_S32768x384_S32768x128_0_0
def kK (qkv : FVec Ideal S32768x384 .f32) : FVec Ideal S32768x128 .f32 := extractStridedSlice S32768x128 ![0, 128] qkv slices_S32768x384_S32768x128_0_128
def kV (qkv : FVec Ideal S32768x384 .f32) : FVec Ideal S32768x128 .f32 := extractStridedSlice S32768x128 ![0, 256] qkv slices_S32768x384_S32768x128_0_256

def kep (e : FVec Ideal S524288x128 .f32) (we : FVec Ideal S128x128 .f32) : FVec Ideal S524288x128 .f32 :=
  Cert.Spec.affine (M := 524288) (K := 128) (N := 128) e we zero128

def nidx (x : IVec S524288 32) : IVec S524288x1 32 :=
  broadcastInDim S524288x1 ![0] bcast_S524288_S524288x1_0
    (select (cmpi .slt x (broadcastInDim S524288 ![] bcast_S_S524288 (constantI S_ 32 0#32)))
      (addi x (broadcastInDim S524288 ![] bcast_S_S524288 (constantI S_ 32 32768#32))) x)

def kattn (q k v : FVec Ideal S32768x128 .f32) (ep : FVec Ideal S524288x128 .f32) (src dst : IVec S524288 32) : FVec Ideal S32768x128 .f32 :=
  let A : FVec Ideal S524288x128 .f32 := Cert.Spec.attnA (E := 524288)
    (Host.gather gather_S32768x128_S524288x1_S524288x128_1_0_n_n_0_1_1128 k (nidx src))
    (Host.gather gather_S32768x128_S524288x1_S524288x128_1_0_n_n_0_1_1128 q (nidx dst)) ep
  Host.divf
    (Host.scatterAdd scatter_S32768x128_S524288x1_S524288x128_1_0_0_1 (broadcastInDim S32768x128 ![] bcast_S_S32768x128 (constant S_ .f32 0x00000000#32))
      (broadcastInDim S524288x1 ![0] bcast_S524288_S524288x1_0 dst)
      (Cert.Spec.attnV (E := 524288) (Host.gather gather_S32768x128_S524288x1_S524288x128_1_0_n_n_0_1_1128 v (nidx src)) A))
    (maximumf
      (Host.scatterAdd scatter_S32768x128_S524288x1_S524288x128_1_0_0_1 (broadcastInDim S32768x128 ![] bcast_S_S32768x128 (constant S_ .f32 0x00000000#32))
        (broadcastInDim S524288x1 ![0] bcast_S524288_S524288x1_0 dst) A)
      (broadcastInDim S32768x128 ![] bcast_S_S32768x128 (constant S_ .f32 0x358637BD#32)))

def kres (h hout : FVec Ideal S32768x128 .f32) (wlin : FVec Ideal S128x128 .f32) (blin : FVec Ideal S128 .f32) : FVec Ideal S32768x128 .f32 :=
  addf h (Cert.Spec.affine (M := 32768) (K := 128) (N := 128) hout wlin (shapeCast S1x128 blin shapeCasts_S128_S1x128))

def kffn (x : FVec Ideal S32768x128 .f32) (wf1 : FVec Ideal S128x256 .f32) (bf1 : FVec Ideal S256 .f32) (wf2 : FVec Ideal S256x128 .f32)
    (bf2 : FVec Ideal S128 .f32) : FVec Ideal S32768x128 .f32 :=
  Cert.Spec.affine (M := 32768) (K := 256) (N := 128)
    (maximumf (Cert.Spec.affine (M := 32768) (K := 128) (N := 256) x wf1 (shapeCast S1x256 bf1 shapeCasts_S256_S1x256))
      (broadcastInDim S32768x256 ![] bcast_S_S32768x256 (constant S_ .f32 0x00000000#32)))
    wf2 (shapeCast S1x128 bf2 shapeCasts_S128_S1x128)

end Cert.KernelIdeal.Hand

end
-- ==== Proof.Ref.Spec.lean ====
import proofs.«113847_j61718680043593_1_alg».proof.ReferenceIdeal

noncomputable section

namespace Cert.ReferenceIdeal.Hand

open Cert.ReferenceIdeal Idealize.ShloMosaic
open Cert.ReferenceIdeal.Facts₀

variable {F : FTy → Type} [FloatOps F] [Facts]

def emb (a0 : FVec F S32768x44 .f32) (a1 : FVec F S32768x8 .f32) (a3 : FVec F S44x128 .f32) (a4 : FVec F S128 .f32) (a5 : FVec F S8x128 .f32) (a6 : FVec F S128 .f32) : FVec F S32768x128 .f32 :=
  (addf (addf (addf (Host.dotGeneral dot_S32768x44_S44x128_S32768x128_1_0_0_1_n_n none a0 a3) (broadcastInDim S32768x128 ![0, 1] bcast_S1x128_S32768x128_0_1 (broadcastInDim S1x128 ![1] bcast_S128_S1x128_1 a4))) (Host.dotGeneral dot_S32768x8_S8x128_S32768x128_1_0_0_1_n_n none a1 a5)) (broadcastInDim S32768x128 ![0, 1] bcast_S1x128_S32768x128_0_1 (broadcastInDim S1x128 ![1] bcast_S128_S1x128_1 a6)))

def edge (a2 : FVec F S524288x1 .f32) (a7 : FVec F S1x128 .f32) (a8 : FVec F S128 .f32) : FVec F S524288x128 .f32 :=
  (addf (Host.dotGeneral dot_S524288x1_S1x128_S524288x128_1_0_0_1_n_n none a2 a7) (broadcastInDim S524288x128 ![0, 1] bcast_S1x128_S524288x128_0_1 (broadcastInDim S1x128 ![1] bcast_S128_S1x128_1 a8)))

def w128 (k : Fin 3) (a : FVec F S3x128x128 .f32) : FVec F S128x128 .f32 :=
  match k with
  | 0 => (shapeCast S128x128 (extractStridedSlice S1x128x128 ![0, 0, 0] a slices_S3x128x128_S1x128x128_0_0_0) shapeCasts_S1x128x128_S128x128)
  | 1 => (shapeCast S128x128 (extractStridedSlice S1x128x128 ![1, 0, 0] a slices_S3x128x128_S1x128x128_1_0_0) shapeCasts_S1x128x128_S128x128)
  | 2 => (shapeCast S128x128 (extractStridedSlice S1x128x128 ![2, 0, 0] a slices_S3x128x128_S1x128x128_2_0_0) shapeCasts_S1x128x128_S128x128)

def b128 (k : Fin 3) (a : FVec F S3x128 .f32) : FVec F S128 .f32 :=
  match k with
  | 0 => (shapeCast S128 (extractStridedSlice S1x128 ![0, 0] a slices_S3x128_S1x128_0_0) shapeCasts_S1x128_S128)
  | 1 => (shapeCast S128 (extractStridedSlice S1x128 ![1, 0] a slices_S3x128_S1x128_1_0) shapeCasts_S1x128_S128)
  | 2 => (shapeCast S128 (extractStridedSlice S1x128 ![2, 0] a slices_S3x128_S1x128_2_0) shapeCasts_S1x128_S128)

def w128x256 (k : Fin 3) (a : FVec F S3x128x256 .f32) : FVec F S128x256 .f32 :=
  match k with
  | 0 => (shapeCast S128x256 (extractStridedSlice S1x128x256 ![0, 0, 0] a slices_S3x128x256_S1x128x256_0_0_0) shapeCasts_S1x128x256_S128x256)
  | 1 => (shapeCast S128x256 (extractStridedSlice S1x128x256 ![1, 0, 0] a slices_S3x128x256_S1x128x256_1_0_0) shapeCasts_S1x128x256_S128x256)
  | 2 => (shapeCast S128x256 (extractStridedSlice S1x128x256 ![2, 0, 0] a slices_S3x128x256_S1x128x256_2_0_0) shapeCasts_S1x128x256_S128x256)

def b256 (k : Fin 3) (a : FVec F S3x256 .f32) : FVec F S256 .f32 :=
  match k with
  | 0 => (shapeCast S256 (extractStridedSlice S1x256 ![0, 0] a slices_S3x256_S1x256_0_0) shapeCasts_S1x256_S256)
  | 1 => (shapeCast S256 (extractStridedSlice S1x256 ![1, 0] a slices_S3x256_S1x256_1_0) shapeCasts_S1x256_S256)
  | 2 => (shapeCast S256 (extractStridedSlice S1x256 ![2, 0] a slices_S3x256_S1x256_2_0) shapeCasts_S1x256_S256)

def w256x128 (k : Fin 3) (a : FVec F S3x256x128 .f32) : FVec F S256x128 .f32 :=
  match k with
  | 0 => (shapeCast S256x128 (extractStridedSlice S1x256x128 ![0, 0, 0] a slices_S3x256x128_S1x256x128_0_0_0) shapeCasts_S1x256x128_S256x128)
  | 1 => (shapeCast S256x128 (extractStridedSlice S1x256x128 ![1, 0, 0] a slices_S3x256x128_S1x256x128_1_0_0) shapeCasts_S1x256x128_S256x128)
  | 2 => (shapeCast S256x128 (extractStridedSlice S1x256x128 ![2, 0, 0] a slices_S3x256x128_S1x256x128_2_0_0) shapeCasts_S1x256x128_S256x128)

def proj (h : FVec F S32768x128 .f32) (w : FVec F S128x128 .f32) : FVec F S32768x4x32 .f32 :=
  (shapeCast S32768x4x32 (Host.dotGeneral dot_S32768x128_S128x128_S32768x128_1_0_0_1_n_n none h w) shapeCasts_S32768x128_S32768x4x32)

def eproj (e : FVec F S524288x128 .f32) (we : FVec F S128x128 .f32) : FVec F S524288x4x32 .f32 :=
  (shapeCast S524288x4x32 (Host.dotGeneral dot_S524288x128_S128x128_S524288x128_1_0_0_1_n_n none e we) shapeCasts_S524288x128_S524288x4x32)

def attnW (h : FVec F S32768x128 .f32) (e : FVec F S524288x128 .f32) (wq wk we : FVec F S128x128 .f32) (src dst : IVec S524288 32) : FVec F S524288x4x32 .f32 :=
  (Host.exp (mulf (broadcastInDim S524288x4x32 ![0, 1, 2] bcast_S524288x4x1_S524288x4x32_0_1_2 (mulf (broadcastInDim S524288x4x1 ![0, 1] bcast_S524288x4_S524288x4x1_0_1 (Host.reduceAdd (mulf (Host.gather gather_S32768x4x32_S524288x1_S524288x4x32_12_0_n_n_0_1_1432 (proj h wk) (broadcastInDim S524288x1 ![0] bcast_S524288_S524288x1_0 (select (cmpi .slt src (broadcastInDim S524288 ![] bcast_S_S524288 (constantI S_ 32 0#32))) (addi src (broadcastInDim S524288 ![] bcast_S_S524288 (constantI S_ 32 32768#32))) src))) (Host.gather gather_S32768x4x32_S524288x1_S524288x4x32_12_0_n_n_0_1_1432 (proj h wq) (broadcastInDim S524288x1 ![0] bcast_S524288_S524288x1_0 (select (cmpi .slt dst (broadcastInDim S524288 ![] bcast_S_S524288 (constantI S_ 32 0#32))) (addi dst (broadcastInDim S524288 ![] bcast_S_S524288 (constantI S_ 32 32768#32))) dst)))) (constant S_ .f32 0x00000000#32) reducesTo_S524288x4x32_S524288x4_d2 h_S_)) (broadcastInDim S524288x4x1 ![] bcast_S_S524288x4x1 (constant S_ .f32 0x3E3504F3#32)))) (addf (broadcastInDim S524288x4x32 ![] bcast_S_S524288x4x32 (constant S_ .f32 0x3F800000#32)) (eproj e we))))

def attn (h : FVec F S32768x128 .f32) (e : FVec F S524288x128 .f32) (wq wk wv we : FVec F S128x128 .f32) (src dst : IVec S524288 32) : FVec F S32768x128 .f32 :=
  (shapeCast S32768x128 (Host.divf (Host.scatterAdd scatter_S32768x4x32_S524288x1_S524288x4x32_12_0_0_1 (broadcastInDim S32768x4x32 ![] bcast_S_S32768x4x32 (constant S_ .f32 0x00000000#32)) (broadcastInDim S524288x1 ![0] bcast_S524288_S524288x1_0 dst) (mulf (Host.gather gather_S32768x4x32_S524288x1_S524288x4x32_12_0_n_n_0_1_1432 (proj h wv) (broadcastInDim S524288x1 ![0] bcast_S524288_S524288x1_0 (select (cmpi .slt src (broadcastInDim S524288 ![] bcast_S_S524288 (constantI S_ 32 0#32))) (addi src (broadcastInDim S524288 ![] bcast_S_S524288 (constantI S_ 32 32768#32))) src))) (attnW h e wq wk we src dst))) (maximumf (Host.scatterAdd scatter_S32768x4x32_S524288x1_S524288x4x32_12_0_0_1 (broadcastInDim S32768x4x32 ![] bcast_S_S32768x4x32 (constant S_ .f32 0x00000000#32)) (broadcastInDim S524288x1 ![0] bcast_S524288_S524288x1_0 dst) (attnW h e wq wk we src dst)) (broadcastInDim S32768x4x32 ![] bcast_S_S32768x4x32 (constant S_ .f32 0x358637BD#32)))) shapeCasts_S32768x4x32_S32768x128)

def res (h hout : FVec F S32768x128 .f32) (wlin : FVec F S128x128 .f32) (blin : FVec F S128 .f32) : FVec F S32768x128 .f32 :=
  (addf (addf h (Host.dotGeneral dot_S32768x128_S128x128_S32768x128_1_0_0_1_n_n none hout wlin)) (broadcastInDim S32768x128 ![0, 1] bcast_S1x128_S32768x128_0_1 (broadcastInDim S1x128 ![1] bcast_S128_S1x128_1 blin)))

def lnVar (x : FVec F S32768x128 .f32) : FVec F S32768x1 .f32 :=
  (select (broadcastInDim S32768x1 ![] bcast_S_S32768x1 (cmpf (F := F) .ogt (subf (constant S_ .f32 0x43000000#32) (sitofp .f32 (constantI S_ 32 0#32))) (constant S_ .f32 0x00000000#32))) (Host.divf (broadcastInDim S32768x1 ![0] bcast_S32768_S32768x1_0 (Host.reduceAdd (mulf (subf x (broadcastInDim S32768x128 ![0, 1] bcast_S32768x1_S32768x128_0_1 (Host.divf (broadcastInDim S32768x1 ![0] bcast_S32768_S32768x1_0 (Host.reduceAdd x (constant S_ .f32 0x00000000#32) reducesTo_S32768x128_S32768_d1 h_S_)) (broadcastInDim S32768x1 ![] bcast_S_S32768x1 (constant S_ .f32 0x43000000#32))))) (subf x (broadcastInDim S32768x128 ![0, 1] bcast_S32768x1_S32768x128_0_1 (Host.divf (broadcastInDim S32768x1 ![0] bcast_S32768_S32768x1_0 (Host.reduceAdd x (constant S_ .f32 0x00000000#32) reducesTo_S32768x128_S32768_d1 h_S_)) (broadcastInDim S32768x1 ![] bcast_S_S32768x1 (constant S_ .f32 0x43000000#32)))))) (constant S_ .f32 0x00000000#32) reducesTo_S32768x128_S32768_d1 h_S_)) (broadcastInDim S32768x1 ![] bcast_S_S32768x1 (subf (constant S_ .f32 0x43000000#32) (sitofp .f32 (constantI S_ 32 0#32))))) (broadcastInDim S32768x1 ![] bcast_S_S32768x1 (id (constant S_ .f32 0x7FC00000#32))))

def ln (x : FVec F S32768x128 .f32) (g b : FVec F S128 .f32) : FVec F S32768x128 .f32 :=
  (addf (mulf (mulf (subf x (broadcastInDim S32768x128 ![0, 1] bcast_S32768x1_S32768x128_0_1 (Host.divf (broadcastInDim S32768x1 ![0] bcast_S32768_S32768x1_0 (Host.reduceAdd x (constant S_ .f32 0x00000000#32) reducesTo_S32768x128_S32768_d1 h_S_)) (broadcastInDim S32768x1 ![] bcast_S_S32768x1 (constant S_ .f32 0x43000000#32))))) (broadcastInDim S32768x128 ![0, 1] bcast_S32768x1_S32768x128_0_1 (Host.rsqrt (addf (lnVar x) (broadcastInDim S32768x1 ![] bcast_S_S32768x1 (constant S_ .f32 0x3727C5AC#32)))))) (broadcastInDim S32768x128 ![0, 1] bcast_S1x128_S32768x128_0_1 (broadcastInDim S1x128 ![1] bcast_S128_S1x128_1 g))) (broadcastInDim S32768x128 ![0, 1] bcast_S1x128_S32768x128_0_1 (broadcastInDim S1x128 ![1] bcast_S128_S1x128_1 b)))

def ffn (x : FVec F S32768x128 .f32) (wf1 : FVec F S128x256 .f32) (bf1 : FVec F S256 .f32) (wf2 : FVec F S256x128 .f32) (bf2 : FVec F S128 .f32) : FVec F S32768x128 .f32 :=
  (addf (Host.dotGeneral dot_S32768x256_S256x128_S32768x128_1_0_0_1_n_n none (maximumf (addf (Host.dotGeneral dot_S32768x128_S128x256_S32768x256_1_0_0_1_n_n none x wf1) (broadcastInDim S32768x256 ![0, 1] bcast_S1x256_S32768x256_0_1 (broadcastInDim S1x256 ![1] bcast_S256_S1x256_1 bf1))) (broadcastInDim S32768x256 ![] bcast_S_S32768x256 (constant S_ .f32 0x00000000#32))) wf2) (broadcastInDim S32768x128 ![0, 1] bcast_S1x128_S32768x128_0_1 (broadcastInDim S1x128 ![1] bcast_S128_S1x128_1 bf2)))

def layer (h : FVec F S32768x128 .f32) (e : FVec F S524288x128 .f32) (wq wk wv we wlin : FVec F S128x128 .f32) (blin g1 be1 : FVec F S128 .f32)
    (wf1 : FVec F S128x256 .f32) (bf1 : FVec F S256 .f32) (wf2 : FVec F S256x128 .f32) (bf2 g2 be2 : FVec F S128 .f32) (src dst : IVec S524288 32) : FVec F S32768x128 .f32 :=
  let x := ln (res h (attn h e wq wk wv we src dst) wlin blin) g1 be1
  ln (addf x (ffn x wf1 bf1 wf2 bf2)) g2 be2

def readout (h : FVec F S32768x128 .f32) : FVec F S1x128 .f32 :=
  (Host.divf (broadcastInDim S1x128 ![1] bcast_S128_S1x128_1 (Host.reduceAdd h (constant S_ .f32 0x00000000#32) reducesTo_S32768x128_S128_d0 h_S_)) (broadcastInDim S1x128 ![] bcast_S_S1x128 (constant S_ .f32 0x47000000#32)))

def result (a0 : FVec F S32768x44 .f32) (a1 : FVec F S32768x8 .f32) (a2 : FVec F S524288x1 .f32) (a3 : FVec F S44x128 .f32) (a4 : FVec F S128 .f32) (a5 : FVec F S8x128 .f32) (a6 : FVec F S128 .f32) (a7 : FVec F S1x128 .f32) (a8 : FVec F S128 .f32) (a9 : FVec F S3x128x128 .f32) (a10 : FVec F S3x128x128 .f32) (a11 : FVec F S3x128x128 .f32) (a12 : FVec F S3x128x128 .f32) (a13 : FVec F S3x128x128 .f32) (a14 : FVec F S3x128 .f32) (a15 : FVec F S3x128 .f32) (a16 : FVec F S3x128 .f32) (a17 : FVec F S3x128x256 .f32) (a18 : FVec F S3x256 .f32) (a19 : FVec F S3x256x128 .f32) (a20 : FVec F S3x128 .f32) (a21 : FVec F S3x128 .f32) (a22 : FVec F S3x128 .f32) (a23 a24 : IVec S524288 32) : FVec F S1x128 .f32 :=
  readout (layer (layer (layer (emb a0 a1 a3 a4 a5 a6) (edge a2 a7 a8) (w128 0 a9) (w128 0 a10) (w128 0 a11) (w128 0 a12) (w128 0 a13) (b128 0 a14) (b128 0 a15) (b128 0 a16) (w128x256 0 a17) (b256 0 a18) (w256x128 0 a19) (b128 0 a20) (b128 0 a21) (b128 0 a22) a23 a24)
    (edge a2 a7 a8) (w128 1 a9) (w128 1 a10) (w128 1 a11) (w128 1 a12) (w128 1 a13) (b128 1 a14) (b128 1 a15) (b128 1 a16) (w128x256 1 a17) (b256 1 a18) (w256x128 1 a19) (b128 1 a20) (b128 1 a21) (b128 1 a22) a23 a24)
    (edge a2 a7 a8) (w128 2 a9) (w128 2 a10) (w128 2 a11) (w128 2 a12) (w128 2 a13) (b128 2 a14) (b128 2 a15) (b128 2 a16) (w128x256 2 a17) (b256 2 a18) (w256x128 2 a19) (b128 2 a20) (b128 2 a21) (b128 2 a22) a23 a24)

end Cert.ReferenceIdeal.Hand

end
-- ==== Proof.LibNary3.lean ====
import Idealize.ShloMosaic.Lib.StableHlo.Run

noncomputable section

namespace Idealize.ShloMosaic.StableHlo

variable {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.BridgeMat.lean ====
import proofs.«113847_j61718680043593_1_alg».proof.Proof.KI.KSpec
import proofs.«113847_j61718680043593_1_alg».proof.Proof.Ref.Spec
import Idealize.ShloMosaic.Lib.StackMember
import Idealize.ShloMosaic.Lib.ValueLayout

noncomputable section

namespace Cert.Bridge

open Idealize.ShloMosaic Idealize.ShloMosaic.ValueIdx Idealize.ShloMosaic.StackMember

theorem affine_apply {M K N : Nat} (X : FVec Ideal ⟨2, ![M, K]⟩ .f32) (W : FVec Ideal ⟨2, ![K, N]⟩ .f32)
    (B : FVec Ideal ⟨2, ![1, N]⟩ .f32) (p : Fin M) (q : Fin N) :
    Cert.Spec.affine X W B (ix2 p q) = (∑ k : Fin K, X (ix2 p k) * W (ix2 k q)) + B (ix2 (0 : Fin 1) q) := rfl

theorem rowBroadcast_apply {M N : Nat} (b : FVec Ideal ⟨1, ![N]⟩ .f32)
    (h1 : (⟨2, ![1, N]⟩ : Shape).BroadcastsInDim ⟨2, ![M, N]⟩ ![0, 1])
    (h2 : (⟨1, ![N]⟩ : Shape).BroadcastsInDim ⟨2, ![1, N]⟩ ![1]) (p : Fin M) (q : Fin N) :
    broadcastInDim ⟨2, ![M, N]⟩ ![0, 1] h1 (broadcastInDim ⟨2, ![1, N]⟩ ![1] h2 b) (ix2 p q) = b (ix1 q) := by
  refine (broadcastInDim_apply _ h1 _ (ix2 p q) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply _ h2 _ (ix2 (0 : Fin 1) q) (ix1 q) fun a => ?_
    match a with
    | ⟨0, _⟩ =>
      show q.val = if N = 1 then 0 else q.val
      split
      · have := q.isLt; omega
      · rfl

theorem affine_row_eq {M K N : Nat} (X : FVec Ideal ⟨2, ![M, K]⟩ .f32) (W : FVec Ideal ⟨2, ![K, N]⟩ .f32)
    (b : FVec Ideal ⟨1, ![N]⟩ .f32) (hc : (⟨1, ![N]⟩ : Shape).ShapeCasts ⟨2, ![1, N]⟩)
    (h1 : (⟨2, ![1, N]⟩ : Shape).BroadcastsInDim ⟨2, ![M, N]⟩ ![0, 1])
    (h2 : (⟨1, ![N]⟩ : Shape).BroadcastsInDim ⟨2, ![1, N]⟩ ![1]) :
    Cert.Spec.affine X W (shapeCast ⟨2, ![1, N]⟩ b hc)
      = addf (Host.dotGeneral (DotDims.plain M K N) none X W)
          (broadcastInDim ⟨2, ![M, N]⟩ ![0, 1] h1 (broadcastInDim ⟨2, ![1, N]⟩ ![1] h2 b)) := by
  funext i
  obtain ⟨p, q, rfl⟩ : ∃ (p : Fin M) (q : Fin N), i = ix2 p q := ⟨i 0, i 1, eq_ix2 i⟩
  rw [affine_apply, addf_apply, dotGeneral_plain_apply, rowBroadcast_apply, shapeCast_a_1a_apply]

theorem zero128_apply [Cert.KernelIdeal.Facts] (u : Fin 1) (q : Fin 128) : Cert.KernelIdeal.Hand.zero128 (ix2 u q) = 0 :=
  Ideal.ofBits_zero_f32
theorem zero384_apply [Cert.KernelIdeal.Facts] (u : Fin 1) (q : Fin 384) : Cert.KernelIdeal.Hand.zero384 (ix2 u q) = 0 :=
  Ideal.ofBits_zero_f32

theorem ep_bridge [Cert.KernelIdeal.Facts] [Cert.ReferenceIdeal.Facts]
    (e : FVec Ideal ⟨2, ![524288, 128]⟩ .f32) (we : FVec Ideal ⟨2, ![128, 128]⟩ .f32) :
    Cert.KernelIdeal.Hand.kep e we
      = Host.dotGeneral (F := Ideal) Cert.ReferenceIdeal.dot_S524288x128_S128x128_S524288x128_1_0_0_1_n_n none e we := by
  funext i
  obtain ⟨p, q, rfl⟩ : ∃ (p : Fin 524288) (q : Fin 128), i = ix2 p q := ⟨i 0, i 1, eq_ix2 i⟩
  have hd : Cert.ReferenceIdeal.dot_S524288x128_S128x128_S524288x128_1_0_0_1_n_n = DotDims.plain 524288 128 128 := rfl
  rw [hd, dotGeneral_plain_apply]
  show Cert.Spec.affine e we Cert.KernelIdeal.Hand.zero128 (ix2 p q) = _
  rw [affine_apply, zero128_apply, add_zero]

theorem res_bridge [Cert.KernelIdeal.Facts] [Cert.ReferenceIdeal.Facts]
    (h hout : FVec Ideal ⟨2, ![32768, 128]⟩ .f32) (wlin : FVec Ideal ⟨2, ![128, 128]⟩ .f32) (blin : FVec Ideal ⟨1, ![128]⟩ .f32) :
    Cert.KernelIdeal.Hand.kres h hout wlin blin = Cert.ReferenceIdeal.Hand.res (F := Ideal) h hout wlin blin := by
  have hd : Cert.ReferenceIdeal.dot_S32768x128_S128x128_S32768x128_1_0_0_1_n_n = DotDims.plain 32768 128 128 := rfl
  unfold Cert.KernelIdeal.Hand.kres Cert.ReferenceIdeal.Hand.res
  rw [hd, affine_row_eq hout wlin blin _ Cert.ReferenceIdeal.Facts₀.bcast_S1x128_S32768x128_0_1 Cert.ReferenceIdeal.Facts₀.bcast_S128_S1x128_1]
  funext i
  simp only [addf_apply]
  exact (add_assoc _ _ _).symm

theorem ffn_bridge [Cert.KernelIdeal.Facts] [Cert.ReferenceIdeal.Facts]
    (x : FVec Ideal ⟨2, ![32768, 128]⟩ .f32) (wf1 : FVec Ideal ⟨2, ![128, 256]⟩ .f32) (bf1 : FVec Ideal ⟨1, ![256]⟩ .f32)
    (wf2 : FVec Ideal ⟨2, ![256, 128]⟩ .f32) (bf2 : FVec Ideal ⟨1, ![128]⟩ .f32) :
    Cert.KernelIdeal.Hand.kffn x wf1 bf1 wf2 bf2 = Cert.ReferenceIdeal.Hand.ffn (F := Ideal) x wf1 bf1 wf2 bf2 := by
  have hd1 : Cert.ReferenceIdeal.dot_S32768x128_S128x256_S32768x256_1_0_0_1_n_n = DotDims.plain 32768 128 256 := rfl
  have hd2 : Cert.ReferenceIdeal.dot_S32768x256_S256x128_S32768x128_1_0_0_1_n_n = DotDims.plain 32768 256 128 := rfl
  unfold Cert.KernelIdeal.Hand.kffn Cert.ReferenceIdeal.Hand.ffn
  rw [hd1, hd2,
    affine_row_eq x wf1 bf1 _ Cert.ReferenceIdeal.Facts₀.bcast_S1x256_S32768x256_0_1 Cert.ReferenceIdeal.Facts₀.bcast_S256_S1x256_1,
    affine_row_eq _ wf2 bf2 _ Cert.ReferenceIdeal.Facts₀.bcast_S1x128_S32768x128_0_1 Cert.ReferenceIdeal.Facts₀.bcast_S128_S1x128_1]

theorem sum_fin52 (f : Fin 52 → EReal) :
    ∑ k, f k = (∑ i : Fin 44, f ⟨i.val, by omega⟩) + ∑ i : Fin 8, f ⟨44 + i.val, by omega⟩ :=
  Fin.sum_univ_add (a := 44) (b := 8) f

section Blocks

open Cert.KernelIdeal Cert.KernelIdeal.Facts₀

variable [Cert.KernelIdeal.Facts] [Cert.ReferenceIdeal.Facts]

theorem kqkv_apply (h : FVec Ideal ⟨2, ![32768, 128]⟩ .f32) (wq wk wv : FVec Ideal ⟨2, ![128, 128]⟩ .f32) (p : Fin 32768) (c : Fin 384) :
    Cert.KernelIdeal.Hand.kqkv h wq wk wv (ix2 p c)
      = ∑ k : Fin 128, h (ix2 p k) *
          concatenate S128x384 1 [⟨S128x128, wq⟩, ⟨S128x128, wk⟩, ⟨S128x128, wv⟩] concatenates_S128x128_S128x128_S128x128_S128x384_d1 (ix2 k c) := by
  show Cert.Spec.affine h _ Cert.KernelIdeal.Hand.zero384 (ix2 p c) = _
  rw [affine_apply, zero384_apply, add_zero]

theorem kqkv_block (h : FVec Ideal ⟨2, ![32768, 128]⟩ .f32) (wq wk wv w : FVec Ideal ⟨2, ![128, 128]⟩ .f32) (p : Fin 32768) (q : Fin 128) (c : Fin 384)
    (hcat : ∀ k : Fin 128, concatenate S128x384 1 [⟨S128x128, wq⟩, ⟨S128x128, wk⟩, ⟨S128x128, wv⟩]
      concatenates_S128x128_S128x128_S128x128_S128x384_d1 (ix2 k c) = w (ix2 k q)) :
    Cert.KernelIdeal.Hand.kqkv h wq wk wv (ix2 p c) = Host.dotGeneral (DotDims.plain 32768 128 128) none h w (ix2 p q) := by
  rw [kqkv_apply, dotGeneral_plain_apply]
  exact Finset.sum_congr rfl fun k _ => by rw [hcat k]

theorem q_bridge (h : FVec Ideal ⟨2, ![32768, 128]⟩ .f32) (wq wk wv : FVec Ideal ⟨2, ![128, 128]⟩ .f32) :
    Cert.KernelIdeal.Hand.kQ (Cert.KernelIdeal.Hand.kqkv h wq wk wv)
      = Host.dotGeneral (F := Ideal) Cert.ReferenceIdeal.dot_S32768x128_S128x128_S32768x128_1_0_0_1_n_n none h wq := by
  have hd : Cert.ReferenceIdeal.dot_S32768x128_S128x128_S32768x128_1_0_0_1_n_n = DotDims.plain 32768 128 128 := rfl
  funext i
  obtain ⟨p, q, rfl⟩ : ∃ (p : Fin 32768) (q : Fin 128), i = ix2 p q := ⟨i 0, i 1, eq_ix2 i⟩
  rw [hd]
  refine (slice2_axis1_eq 0 _ slices_S32768x384_S32768x128_0_0 p q).trans ?_
  refine kqkv_block h wq wk wv wq p q _ fun k => ?_
  refine concatenate_apply_piece (t := S128x384) 1 _ _ _ 0 (by show (0 : Nat) < 3; omega) S128x128 wq rfl rfl 0 rfl (ix2 k q) (fun b hb => ?_) ?_
  · match b, hb with
    | ⟨0, _⟩, _ => rfl
    | ⟨1, _⟩, hb => exact absurd rfl hb
  · rfl

theorem k_bridge (h : FVec Ideal ⟨2, ![32768, 128]⟩ .f32) (wq wk wv : FVec Ideal ⟨2, ![128, 128]⟩ .f32) :
    Cert.KernelIdeal.Hand.kK (Cert.KernelIdeal.Hand.kqkv h wq wk wv)
      = Host.dotGeneral (F := Ideal) Cert.ReferenceIdeal.dot_S32768x128_S128x128_S32768x128_1_0_0_1_n_n none h wk := by
  have hd : Cert.ReferenceIdeal.dot_S32768x128_S128x128_S32768x128_1_0_0_1_n_n = DotDims.plain 32768 128 128 := rfl
  funext i
  obtain ⟨p, q, rfl⟩ : ∃ (p : Fin 32768) (q : Fin 128), i = ix2 p q := ⟨i 0, i 1, eq_ix2 i⟩
  rw [hd]
  refine (slice2_axis1_eq 128 _ slices_S32768x384_S32768x128_0_128 p q).trans ?_
  refine kqkv_block h wq wk wv wk p q _ fun k => ?_
  refine concatenate_apply_piece (t := S128x384) 1 _ _ _ 1 (by show (1 : Nat) < 3; omega) S128x128 wk rfl rfl 128 rfl (ix2 k q) (fun b hb => ?_) ?_
  · match b, hb with
    | ⟨0, _⟩, _ => rfl
    | ⟨1, _⟩, hb => exact absurd rfl hb
  · rfl

theorem v_bridge (h : FVec Ideal ⟨2, ![32768, 128]⟩ .f32) (wq wk wv : FVec Ideal ⟨2, ![128, 128]⟩ .f32) :
    Cert.KernelIdeal.Hand.kV (Cert.KernelIdeal.Hand.kqkv h wq wk wv)
      = Host.dotGeneral (F := Ideal) Cert.ReferenceIdeal.dot_S32768x128_S128x128_S32768x128_1_0_0_1_n_n none h wv := by
  have hd : Cert.ReferenceIdeal.dot_S32768x128_S128x128_S32768x128_1_0_0_1_n_n = DotDims.plain 32768 128 128 := rfl
  funext i
  obtain ⟨p, q, rfl⟩ : ∃ (p : Fin 32768) (q : Fin 128), i = ix2 p q := ⟨i 0, i 1, eq_ix2 i⟩
  rw [hd]
  refine (slice2_axis1_eq 256 _ slices_S32768x384_S32768x128_0_256 p q).trans ?_
  refine kqkv_block h wq wk wv wv p q _ fun k => ?_
  refine concatenate_apply_piece (t := S128x384) 1 _ _ _ 2 (by show (2 : Nat) < 3; omega) S128x128 wv rfl rfl 256 rfl (ix2 k q) (fun b hb => ?_) ?_
  · match b, hb with
    | ⟨0, _⟩, _ => rfl
    | ⟨1, _⟩, hb => exact absurd rfl hb
  · rfl

theorem emb_bridge (a0 : FVec Ideal ⟨2, ![32768, 44]⟩ .f32) (a1 : FVec Ideal ⟨2, ![32768, 8]⟩ .f32) (a3 : FVec Ideal ⟨2, ![44, 128]⟩ .f32)
    (a4 : FVec Ideal ⟨1, ![128]⟩ .f32) (a5 : FVec Ideal ⟨2, ![8, 128]⟩ .f32) (a6 : FVec Ideal ⟨1, ![128]⟩ .f32) :
    Cert.KernelIdeal.Hand.kemb a0 a1 a3 a4 a5 a6 = Cert.ReferenceIdeal.Hand.emb (F := Ideal) a0 a1 a3 a4 a5 a6 := by
  have hd0 : Cert.ReferenceIdeal.dot_S32768x44_S44x128_S32768x128_1_0_0_1_n_n = DotDims.plain 32768 44 128 := rfl
  have hd1 : Cert.ReferenceIdeal.dot_S32768x8_S8x128_S32768x128_1_0_0_1_n_n = DotDims.plain 32768 8 128 := rfl
  funext i
  obtain ⟨p, q, rfl⟩ : ∃ (p : Fin 32768) (q : Fin 128), i = ix2 p q := ⟨i 0, i 1, eq_ix2 i⟩
  unfold Cert.ReferenceIdeal.Hand.emb
  rw [hd0, hd1, addf_apply, addf_apply, addf_apply, rowBroadcast_apply, rowBroadcast_apply, dotGeneral_plain_apply, dotGeneral_plain_apply]
  show Cert.Spec.affine (M := 32768) (K := 52) (N := 128) _ _ _ (ix2 p q) = _
  rw [affine_apply, shapeCast_a_1a_apply, addf_apply, sum_fin52]
  have hL : ∀ i : Fin 44,
      concatenate S32768x52 1 [⟨S32768x44, a0⟩, ⟨S32768x8, a1⟩] concatenates_S32768x44_S32768x8_S32768x52_d1 (ix2 p (⟨i.val, by omega⟩ : Fin 52))
        * concatenate S52x128 0 [⟨S44x128, a3⟩, ⟨S8x128, a5⟩] concatenates_S44x128_S8x128_S52x128_d0 (ix2 (⟨i.val, by omega⟩ : Fin 52) q)
      = a0 (ix2 p i) * a3 (ix2 i q) := fun i => by
    rw [concatenate_pair_apply_left (t := S32768x52) 1 a0 a1 _ _ rfl (ix2 p i) (fun b => by match b with | ⟨0, _⟩ => rfl | ⟨1, _⟩ => rfl),
      concatenate_pair_apply_left (t := S52x128) 0 a3 a5 _ _ rfl (ix2 i q) (fun b => by match b with | ⟨0, _⟩ => rfl | ⟨1, _⟩ => rfl)]
  have hR : ∀ i : Fin 8,
      concatenate S32768x52 1 [⟨S32768x44, a0⟩, ⟨S32768x8, a1⟩] concatenates_S32768x44_S32768x8_S32768x52_d1 (ix2 p (⟨44 + i.val, by omega⟩ : Fin 52))
        * concatenate S52x128 0 [⟨S44x128, a3⟩, ⟨S8x128, a5⟩] concatenates_S44x128_S8x128_S52x128_d0 (ix2 (⟨44 + i.val, by omega⟩ : Fin 52) q)
      = a1 (ix2 p i) * a5 (ix2 i q) := fun i => by
    rw [concatenate_pair_apply_right (t := S32768x52) 1 a0 a1 _ _ rfl rfl (ix2 p i)
        (fun b hb => by
          match b, hb with
          | ⟨0, _⟩, _ => rfl
          | ⟨1, _⟩, hb => exact absurd rfl hb)
        (Nat.add_comm _ _),
      concatenate_pair_apply_right (t := S52x128) 0 a3 a5 _ _ rfl rfl (ix2 i q)
        (fun b hb => by
          match b, hb with
          | ⟨0, _⟩, hb => exact absurd rfl hb
          | ⟨1, _⟩, _ => rfl)
        (Nat.add_comm _ _)]
  rw [Finset.sum_congr rfl fun i _ => hL i, Finset.sum_congr rfl fun i _ => hR i]
  generalize (∑ i : Fin 44, a0 (ix2 p i) * a3 (ix2 i q)) = A
  generalize (∑ i : Fin 8, a1 (ix2 p i) * a5 (ix2 i q)) = B
  rw [add_right_comm A _ B, add_assoc (A + B)]

end Blocks

end Cert.Bridge

end
-- ==== Proof.LibRowGather.lean ====
import proofs.«113847_j61718680043593_1_alg».proof.KernelIdeal
import proofs.«113847_j61718680043593_1_alg».proof.ReferenceIdeal
import Idealize.ShloMosaic.Lib.ValueIdx
import Idealize.ShloMosaic.Lib.Pipeline.Value
import Idealize.ShloMosaic.PureOps.Ideal.Laws

noncomputable section

namespace Cert.RowGather

open Idealize.ShloMosaic Idealize.ShloMosaic.ValueIdx
open scoped BigOperators

def rowOf (idx : IVec ⟨2, ![524288, 1]⟩ 32) (ε : Fin 524288) : Fin 32768 :=
  ⟨min (idx (ix2 ε (0 : Fin 1))).toInt.toNat 32767, by omega⟩

section Kernel
variable [Cert.KernelIdeal.Facts₀]

local notation "G2" => Cert.KernelIdeal.gather_S32768x128_S524288x1_S524288x128_1_0_n_n_0_1_1128

theorem gather2_siIdx (ε : Fin 524288) (f : Fin 128) (c : Fin (G2).startIndexMap.length) :
    (G2).siIdx (ix2 ε f) c = ix2 ε (0 : Fin 1) := by
  funext b; refine Fin.ext ?_
  match b with
  | ⟨0, _⟩ => rfl
  | ⟨1, _⟩ =>
    have hc : c.val < 1 := c.isLt
    show c.val = 0
    omega

theorem gather2_row (idx : IVec ⟨2, ![524288, 1]⟩ 32) (ε : Fin 524288) (f : Fin 128) :
    (G2).start (ix2 ε f) idx 0 + (G2).batchCoord (ix2 ε f) 0 + (G2).offCoord (ix2 ε f) 0 = (rowOf idx ε).val := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (G2).startIndexMap from List.mem_singleton.mpr rfl), gather2_siIdx]
  rfl

theorem gather2_col (idx : IVec ⟨2, ![524288, 1]⟩ 32) (ε : Fin 524288) (f : Fin 128) :
    (G2).start (ix2 ε f) idx 1 + (G2).batchCoord (ix2 ε f) 1 + (G2).offCoord (ix2 ε f) 1 = f.val := by
  have h1 : (1 : Fin 2) ∉ (G2).startIndexMap := by
    show (1 : Fin 2) ∉ [(0 : Fin 2)]
    decide
  rw [GatherDims.batchCoord_eq_zero _ _ _ List.not_mem_nil, Nat.add_zero]
  unfold GatherDims.start
  rw [dif_neg h1, Nat.zero_add]
  rfl

theorem gather2_apply {α : Type} (x : (⟨2, ![32768, 128]⟩ : Shape).Idx → α) (idx : IVec ⟨2, ![524288, 1]⟩ 32)
    (ε : Fin 524288) (f : Fin 128) :
    Host.gather G2 x idx (ix2 ε f) = x (ix2 (rowOf idx ε) f) := by
  unfold Host.gather
  congr 1
  funext a
  refine Fin.ext ?_
  match a with
  | ⟨0, _⟩ => exact gather2_row idx ε f
  | ⟨1, _⟩ => exact gather2_col idx ε f

end Kernel

section Reference
variable [Cert.ReferenceIdeal.Facts₀]

local notation "G3" => Cert.ReferenceIdeal.gather_S32768x4x32_S524288x1_S524288x4x32_12_0_n_n_0_1_1432

theorem gather3_siIdx (ε : Fin 524288) (h : Fin 4) (l : Fin 32) (c : Fin (G3).startIndexMap.length) :
    (G3).siIdx (ix3 ε h l) c = ix2 ε (0 : Fin 1) := by
  funext b; refine Fin.ext ?_
  match b with
  | ⟨0, _⟩ => rfl
  | ⟨1, _⟩ =>
    have hc : c.val < 1 := c.isLt
    show c.val = 0
    omega

theorem gather3_row (idx : IVec ⟨2, ![524288, 1]⟩ 32) (ε : Fin 524288) (h : Fin 4) (l : Fin 32) :
    (G3).start (ix3 ε h l) idx 0 + (G3).batchCoord (ix3 ε h l) 0 + (G3).offCoord (ix3 ε h l) 0 = (rowOf idx ε).val := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 3) ∈ (G3).startIndexMap from List.mem_singleton.mpr rfl), gather3_siIdx]
  rfl

theorem gather3_head (idx : IVec ⟨2, ![524288, 1]⟩ 32) (ε : Fin 524288) (h : Fin 4) (l : Fin 32) :
    (G3).start (ix3 ε h l) idx 1 + (G3).batchCoord (ix3 ε h l) 1 + (G3).offCoord (ix3 ε h l) 1 = h.val := by
  have h1 : (1 : Fin 3) ∉ (G3).startIndexMap := by
    show (1 : Fin 3) ∉ [(0 : Fin 3)]
    decide
  rw [GatherDims.batchCoord_eq_zero _ _ _ List.not_mem_nil, Nat.add_zero]
  unfold GatherDims.start
  rw [dif_neg h1, Nat.zero_add]
  rfl

theorem gather3_lane (idx : IVec ⟨2, ![524288, 1]⟩ 32) (ε : Fin 524288) (h : Fin 4) (l : Fin 32) :
    (G3).start (ix3 ε h l) idx 2 + (G3).batchCoord (ix3 ε h l) 2 + (G3).offCoord (ix3 ε h l) 2 = l.val := by
  have h2 : (2 : Fin 3) ∉ (G3).startIndexMap := by
    show (2 : Fin 3) ∉ [(0 : Fin 3)]
    decide
  rw [GatherDims.batchCoord_eq_zero _ _ _ List.not_mem_nil, Nat.add_zero]
  unfold GatherDims.start
  rw [dif_neg h2, Nat.zero_add]
  rfl

theorem gather3_apply {α : Type} (y : (⟨3, ![32768, 4, 32]⟩ : Shape).Idx → α) (idx : IVec ⟨2, ![524288, 1]⟩ 32)
    (ε : Fin 524288) (h : Fin 4) (l : Fin 32) :
    Host.gather G3 y idx (ix3 ε h l) = y (ix3 (rowOf idx ε) h l) := by
  unfold Host.gather
  congr 1
  funext a
  refine Fin.ext ?_
  match a with
  | ⟨0, _⟩ => exact gather3_row idx ε h l
  | ⟨1, _⟩ => exact gather3_head idx ε h l
  | ⟨2, _⟩ => exact gather3_lane idx ε h l

end Reference

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      have := h a
      rw [← e']
      show _ = ((d.start j idx a + (d.window j a : Int)).toNat : Int)
      omega
    · intro e
      refine congrArg some (funext fun a => Fin.ext ?_)
      have := e a
      show (d.start j idx a + (d.window j a : Int)).toNat = (i a).val
      omega
  · rename_i h
    constructor
    · intro e; exact absurd e (by simp)
    · intro e
      refine absurd (fun a => ?_) h
      have := e a
      have := (i a).isLt
      omega

def hits (idx : IVec ⟨2, ![524288, 1]⟩ 32) (ε : Fin 524288) (n : Fin 32768) : Prop :=
  (idx (ix2 ε (0 : Fin 1))).toInt = (n.val : Int)

instance (idx : IVec ⟨2, ![524288, 1]⟩ 32) (ε : Fin 524288) (n : Fin 32768) : Decidable (hits idx ε n) := by
  unfold hits; infer_instance

theorem rowOf_of_hits {idx : IVec ⟨2, ![524288, 1]⟩ 32} {ε : Fin 524288} {n : Fin 32768} (h : hits idx ε n) :
    rowOf idx ε = n := by
  refine Fin.ext ?_
  have hn := n.isLt
  unfold hits at h
  show min (idx (ix2 ε (0 : Fin 1))).toInt.toNat 32767 = n.val
  rw [h]
  omega

theorem hits_unique {idx : IVec ⟨2, ![524288, 1]⟩ 32} {ε : Fin 524288} {n m : Fin 32768} (hn : hits idx ε n)
    (hm : hits idx ε m) : n = m :=
  (rowOf_of_hits hn).symm.trans (rowOf_of_hits hm)

section Kernel
variable [Cert.KernelIdeal.Facts₀]

local notation "S2" => Cert.KernelIdeal.scatter_S32768x128_S524288x1_S524288x128_1_0_0_1

theorem scatter2_siIdx (ε : Fin 524288) (f : Fin 128) (c : Fin (S2).scatterDimsToOperandDims.length) :
    (S2).siIdx (ix2 ε f) c = ix2 ε (0 : Fin 1) := by
  funext b; refine Fin.ext ?_
  match b with
  | ⟨0, _⟩ => rfl
  | ⟨1, _⟩ =>
    have hc : c.val < 1 := c.isLt
    show c.val = 0
    omega

theorem scatter2_row (idx : IVec ⟨2, ![524288, 1]⟩ 32) (ε : Fin 524288) (f : Fin 128) :
    (S2).start (ix2 ε f) idx 0 + ((S2).window (ix2 ε f) 0 : Int) = (idx (ix2 ε (0 : Fin 1))).toInt := by
  unfold ScatterDims.start
  rw [dif_pos (show (0 : Fin 2) ∈ (S2).scatterDimsToOperandDims from List.mem_singleton.mpr rfl), scatter2_siIdx]
  have hw : (S2).window (ix2 ε f) 0 = 0 := rfl
  rw [hw]; simp

theorem scatter2_col (idx : IVec ⟨2, ![524288, 1]⟩ 32) (ε : Fin 524288) (f : Fin 128) :
    (S2).start (ix2 ε f) idx 1 + ((S2).window (ix2 ε f) 1 : Int) = (f.val : Int) := by
  have h1 : (1 : Fin 2) ∉ (S2).scatterDimsToOperandDims := by
    show (1 : Fin 2) ∉ [(0 : Fin 2)]
    decide
  unfold ScatterDims.start
  rw [dif_neg h1]
  have hw : (S2).window (ix2 ε f) 1 = f.val := rfl
  rw [hw]; simp

theorem scatter2_lands_iff (idx : IVec ⟨2, ![524288, 1]⟩ 32) (ε : Fin 524288) (f' : Fin 128) (n : Fin 32768)
    (f : Fin 128) :
    (S2).resultIdx? (ix2 ε f') idx = some (ix2 n f) ↔ hits idx ε n ∧ f' = f := by
  rw [resultIdx?_eq_some_iff]
  constructor
  · intro h
    refine ⟨(scatter2_row idx ε f').symm.trans (h 0), Fin.ext ?_⟩
    have := (scatter2_col idx ε f').symm.trans (h 1)
    exact Int.ofNat.inj this
  · rintro ⟨h0, rfl⟩ a
    match a with
    | ⟨0, _⟩ => exact (scatter2_row idx ε f').trans h0
    | ⟨1, _⟩ => exact scatter2_col idx ε f'

theorem scatter2_apply (x : FVec Ideal ⟨2, ![32768, 128]⟩ .f32) (idx : IVec ⟨2, ![524288, 1]⟩ 32)
    (u : FVec Ideal ⟨2, ![524288, 128]⟩ .f32) (n : Fin 32768) (f : Fin 128) :
    Host.scatterAdd (F := Ideal) S2 x idx u (ix2 n f)
      = x (ix2 n f) + ∑ ε ∈ Finset.univ.filter (fun ε => hits idx ε n), u (ix2 ε f) := by
  unfold Host.scatterAdd
  rw [Ideal.hostScatterAdd_def]
  unfold Ideal.hostScatterAdd
  refine congrArg (x (ix2 n f) + ·) (Eq.symm ?_)
  refine Finset.sum_nbij' (fun ε => ix2 ε f) (fun j => j 0) ?_ ?_ ?_ ?_ ?_
  · intro ε hε
    exact Finset.mem_filter.2 ⟨Finset.mem_univ _, (scatter2_lands_iff idx ε f n f).2 ⟨(Finset.mem_filter.1 hε).2, rfl⟩⟩
  · intro j hj
    have h := (Finset.mem_filter.1 hj).2
    rw [eq_ix2 j] at h
    exact Finset.mem_filter.2 ⟨Finset.mem_univ _, ((scatter2_lands_iff idx _ _ n f).1 h).1⟩
  · intro ε _; rfl
  · intro j hj
    have h := (Finset.mem_filter.1 hj).2
    rw [eq_ix2 j] at h
    have h1 : j 1 = f := ((scatter2_lands_iff idx _ _ n f).1 h).2
    show ix2 (j 0) f = j
    rw [← h1]
    exact (eq_ix2 j).symm
  · intro ε _; rfl

end Kernel

section Reference
variable [Cert.ReferenceIdeal.Facts₀]

local notation "S3" => Cert.ReferenceIdeal.scatter_S32768x4x32_S524288x1_S524288x4x32_12_0_0_1

theorem scatter3_siIdx (ε : Fin 524288) (h : Fin 4) (l : Fin 32) (c : Fin (S3).scatterDimsToOperandDims.length) :
    (S3).siIdx (ix3 ε h l) c = ix2 ε (0 : Fin 1) := by
  funext b; refine Fin.ext ?_
  match b with
  | ⟨0, _⟩ => rfl
  | ⟨1, _⟩ =>
    have hc : c.val < 1 := c.isLt
    show c.val = 0
    omega

theorem scatter3_row (idx : IVec ⟨2, ![524288, 1]⟩ 32) (ε : Fin 524288) (h : Fin 4) (l : Fin 32) :
    (S3).start (ix3 ε h l) idx 0 + ((S3).window (ix3 ε h l) 0 : Int) = (idx (ix2 ε (0 : Fin 1))).toInt := by
  unfold ScatterDims.start
  rw [dif_pos (show (0 : Fin 3) ∈ (S3).scatterDimsToOperandDims from List.mem_singleton.mpr rfl), scatter3_siIdx]
  have hw : (S3).window (ix3 ε h l) 0 = 0 := rfl
  rw [hw]; simp

theorem scatter3_head (idx : IVec ⟨2, ![524288, 1]⟩ 32) (ε : Fin 524288) (h : Fin 4) (l : Fin 32) :
    (S3).start (ix3 ε h l) idx 1 + ((S3).window (ix3 ε h l) 1 : Int) = (h.val : Int) := by
  have h1 : (1 : Fin 3) ∉ (S3).scatterDimsToOperandDims := by
    show (1 : Fin 3) ∉ [(0 : Fin 3)]
    decide
  unfold ScatterDims.start
  rw [dif_neg h1]
  have hw : (S3).window (ix3 ε h l) 1 = h.val := rfl
  rw [hw]; simp

theorem scatter3_lane (idx : IVec ⟨2, ![524288, 1]⟩ 32) (ε : Fin 524288) (h : Fin 4) (l : Fin 32) :
    (S3).start (ix3 ε h l) idx 2 + ((S3).window (ix3 ε h l) 2 : Int) = (l.val : Int) := by
  have h2 : (2 : Fin 3) ∉ (S3).scatterDimsToOperandDims := by
    show (2 : Fin 3) ∉ [(0 : Fin 3)]
    decide
  unfold ScatterDims.start
  rw [dif_neg h2]
  have hw : (S3).window (ix3 ε h l) 2 = l.val := rfl
  rw [hw]; simp

theorem scatter3_lands_iff (idx : IVec ⟨2, ![524288, 1]⟩ 32) (ε : Fin 524288) (h' : Fin 4) (l' : Fin 32)
    (n : Fin 32768) (h : Fin 4) (l : Fin 32) :
    (S3).resultIdx? (ix3 ε h' l') idx = some (ix3 n h l) ↔ hits idx ε n ∧ h' = h ∧ l' = l := by
  rw [resultIdx?_eq_some_iff]
  constructor
  · intro e
    refine ⟨(scatter3_row idx ε h' l').symm.trans (e 0), Fin.ext ?_, Fin.ext ?_⟩
    · exact Int.ofNat.inj ((scatter3_head idx ε h' l').symm.trans (e 1))
    · exact Int.ofNat.inj ((scatter3_lane idx ε h' l').symm.trans (e 2))
  · rintro ⟨h0, rfl, rfl⟩ a
    match a with
    | ⟨0, _⟩ => exact (scatter3_row idx ε h' l').trans h0
    | ⟨1, _⟩ => exact scatter3_head idx ε h' l'
    | ⟨2, _⟩ => exact scatter3_lane idx ε h' l'

theorem scatter3_apply (x : FVec Ideal ⟨3, ![32768, 4, 32]⟩ .f32) (idx : IVec ⟨2, ![524288, 1]⟩ 32)
    (u : FVec Ideal ⟨3, ![524288, 4, 32]⟩ .f32) (n : Fin 32768) (h : Fin 4) (l : Fin 32) :
    Host.scatterAdd (F := Ideal) S3 x idx u (ix3 n h l)
      = x (ix3 n h l) + ∑ ε ∈ Finset.univ.filter (fun ε => hits idx ε n), u (ix3 ε h l) := by
  unfold Host.scatterAdd
  rw [Ideal.hostScatterAdd_def]
  unfold Ideal.hostScatterAdd
  refine congrArg (x (ix3 n h l) + ·) (Eq.symm ?_)
  refine Finset.sum_nbij' (fun ε => ix3 ε h l) (fun j => j 0) ?_ ?_ ?_ ?_ ?_
  · intro ε hε
    exact Finset.mem_filter.2
      ⟨Finset.mem_univ _, (scatter3_lands_iff idx ε h l n h l).2 ⟨(Finset.mem_filter.1 hε).2, rfl, rfl⟩⟩
  · intro j hj
    have e := (Finset.mem_filter.1 hj).2
    rw [eq_ix3 j] at e
    exact Finset.mem_filter.2 ⟨Finset.mem_univ _, ((scatter3_lands_iff idx _ _ _ n h l).1 e).1⟩
  · intro ε _; rfl
  · intro j hj
    have e := (Finset.mem_filter.1 hj).2
    rw [eq_ix3 j] at e
    have h1 : j 1 = h := ((scatter3_lands_iff idx _ _ _ n h l).1 e).2.1
    have h2 : j 2 = l := ((scatter3_lands_iff idx _ _ _ n h l).1 e).2.2
    show ix3 (j 0) h l = j
    rw [← h1, ← h2]
    exact (eq_ix3 j).symm
  · intro ε _; rfl

end Reference

section Reshape
variable {α : Type} {M : Nat}

theorem split_apply (x : (⟨2, ![M, 128]⟩ : Shape).Idx → α)
    (h : (⟨2, ![M, 128]⟩ : Shape).ShapeCasts ⟨3, ![M, 4, 32]⟩) (i : Fin M) (hd : Fin 4) (l : Fin 32) :
    shapeCast ⟨3, ![M, 4, 32]⟩ x h (ix3 i hd l) = x (ix2 i (⟨32 * hd.val + l.val, by omega⟩ : Fin 128)) :=
  shapeCast_apply x h _ _ (by
    rw [Shape.rowMajor_val_two, Shape.rowMajor_val_three]
    show i.val * 128 + (32 * hd.val + l.val) = (i.val * 4 + hd.val) * 32 + l.val
    omega)

theorem merge_apply (y : (⟨3, ![M, 4, 32]⟩ : Shape).Idx → α)
    (h : (⟨3, ![M, 4, 32]⟩ : Shape).ShapeCasts ⟨2, ![M, 128]⟩) (i : Fin M) (f : Fin 128) :
    shapeCast ⟨2, ![M, 128]⟩ y h (ix2 i f)
      = y (ix3 i (⟨f.val / 32, by omega⟩ : Fin 4) (⟨f.val % 32, by omega⟩ : Fin 32)) :=
  shapeCast_apply y h _ _ (by
    rw [Shape.rowMajor_val_two, Shape.rowMajor_val_three]
    show (i.val * 4 + f.val / 32) * 32 + f.val % 32 = i.val * 128 + f.val
    omega)

end Reshape

section Both
variable [Cert.KernelIdeal.Facts₀] [Cert.ReferenceIdeal.Facts₀]

local notation "G2" => Cert.KernelIdeal.gather_S32768x128_S524288x1_S524288x128_1_0_n_n_0_1_1128
local notation "G3" => Cert.ReferenceIdeal.gather_S32768x4x32_S524288x1_S524288x4x32_12_0_n_n_0_1_1432
local notation "S2" => Cert.KernelIdeal.scatter_S32768x128_S524288x1_S524288x128_1_0_0_1
local notation "S3" => Cert.ReferenceIdeal.scatter_S32768x4x32_S524288x1_S524288x4x32_12_0_0_1

theorem gather_split {α : Type} (x : (⟨2, ![32768, 128]⟩ : Shape).Idx → α) (idx : IVec ⟨2, ![524288, 1]⟩ 32)
    (h1 : (⟨2, ![32768, 128]⟩ : Shape).ShapeCasts ⟨3, ![32768, 4, 32]⟩)
    (h2 : (⟨2, ![524288, 128]⟩ : Shape).ShapeCasts ⟨3, ![524288, 4, 32]⟩) :
    Host.gather G3 (shapeCast ⟨3, ![32768, 4, 32]⟩ x h1) idx
      = shapeCast ⟨3, ![524288, 4, 32]⟩ (Host.gather G2 x idx) h2 := by
  funext j
  rw [eq_ix3 j]
  exact (gather3_apply _ idx _ _ _).trans
    ((split_apply x h1 _ _ _).trans
      ((split_apply (Host.gather G2 x idx) h2 _ _ _).trans (gather2_apply x idx _ _)).symm)

theorem scatter_merge (idx : IVec ⟨2, ![524288, 1]⟩ 32) (u : FVec Ideal ⟨2, ![524288, 128]⟩ .f32)
    (z3 : FVec Ideal ⟨3, ![32768, 4, 32]⟩ .f32) (z2 : FVec Ideal ⟨2, ![32768, 128]⟩ .f32)
    (hz : ∀ (n : Fin 32768) (hd : Fin 4) (l : Fin 32),
      z3 (ix3 n hd l) = z2 (ix2 n (⟨32 * hd.val + l.val, by omega⟩ : Fin 128)))
    (h1 : (⟨2, ![524288, 128]⟩ : Shape).ShapeCasts ⟨3, ![524288, 4, 32]⟩)
    (h2 : (⟨3, ![32768, 4, 32]⟩ : Shape).ShapeCasts ⟨2, ![32768, 128]⟩) :
    shapeCast ⟨2, ![32768, 128]⟩
        (Host.scatterAdd (F := Ideal) S3 z3 idx (shapeCast ⟨3, ![524288, 4, 32]⟩ u h1)) h2
      = Host.scatterAdd (F := Ideal) S2 z2 idx u := by
  funext j
  rw [eq_ix2 j]
  have hf : (⟨32 * ((j 1).val / 32) + (j 1).val % 32, by have := idx2_lt1 j; omega⟩ : Fin 128) = j 1 :=
    Fin.ext (by show 32 * ((j 1).val / 32) + (j 1).val % 32 = (j 1).val; omega)
  refine (merge_apply _ h2 _ _).trans ((scatter3_apply _ idx _ _ _ _).trans ((scatter2_apply z2 idx u _ _).trans ?_).symm)
  refine congrArg₂ (· + ·) ?_ (Finset.sum_congr rfl fun ε _ => ?_)
  · exact ((hz _ _ _).trans (congrArg (fun f => z2 (ix2 (j 0) f)) hf)).symm
  · exact ((split_apply u h1 ε _ _).trans (congrArg (fun f => u (ix2 ε f)) hf)).symm

end Both

end Cert.RowGather

end
-- ==== Proof.BridgeAttn.lean ====
import proofs.«113847_j61718680043593_1_alg».proof.Proof.Ref.Spec
import proofs.«113847_j61718680043593_1_alg».proof.Proof.LibSpec
import proofs.«113847_j61718680043593_1_alg».proof.Proof.LibRowGather
import proofs.«113847_j61718680043593_1_alg».proof.Proof.KI.KSpec
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Cert.RowGather
open scoped BigOperators

theorem bcast_const_apply {t : Shape} (dims : Fin 0 → Fin t.rank) (h : (⟨0, ![]⟩ : Shape).BroadcastsInDim t dims)
    (φ : FTy) (w : BitVec φ.bits) (j : t.Idx) :
    broadcastInDim t dims h (constant (F := Ideal) ⟨0, ![]⟩ φ w) j = Ideal.ofBits φ w := rfl

theorem laneSum_apply (X : FVec Ideal ⟨3, ![524288, 4, 32]⟩ .f32)
    (hred : (⟨3, ![524288, 4, 32]⟩ : Shape).ReducesTo [2] ⟨2, ![524288, 4]⟩) (hS : 0 < (⟨0, ![]⟩ : Shape).numel)
    (ε : Fin 524288) (hd : Fin 4) :
    Host.reduceAdd (F := Ideal) X (constant ⟨0, ![]⟩ .f32 0x00000000#32) hred hS (ix2 ε hd)
      = ∑ k : Fin 32, X (ix3 ε hd k) := by
  have hR : (⟨3, ![524288, 4, 32]⟩ : Shape).Reduces [2] ⟨2, ![524288, 4]⟩ := by decide
  unfold Host.reduceAdd
  rw [Ideal.hostReduceAdd_def, Ideal.hostReduceAdd_single hred hR]
  show Ideal.ofBits .f32 0x00000000#32 + ∑ k : Fin 32, X (hR.lift (ix2 ε hd) k) = _
  rw [Ideal.ofBits_zero_f32, zero_add]
  refine Finset.sum_congr rfl fun k _ => congrArg X (funext fun c => Fin.ext ?_)
  match c with
  | ⟨0, _⟩ => rfl
  | ⟨1, _⟩ => rfl
  | ⟨2, _⟩ => rfl

theorem exp_mul_add_apply {s : Shape} (B O E : FVec Ideal s .f32) (j : s.Idx) :
    Host.exp (F := Ideal) (mulf B (addf O E)) j = Ideal.exp (B j * (O j + E j)) := rfl

def feat (hd : Fin 4) (l : Fin 32) : Fin 128 := ⟨32 * hd.val + l.val, by omega⟩

theorem headLane_feat (hd : Fin 4) (l k : Fin 32) : Cert.Spec.headLane (feat hd l) k = feat hd k := by
  refine Fin.ext ?_
  show 32 * ((32 * hd.val + l.val) / 32) + k.val = 32 * hd.val + k.val
  omega

theorem weights_core (Kg Qg Ep : FVec Ideal ⟨2, ![524288, 128]⟩ .f32)
    (h2 : (⟨2, ![524288, 128]⟩ : Shape).ShapeCasts ⟨3, ![524288, 4, 32]⟩)
    (hred : (⟨3, ![524288, 4, 32]⟩ : Shape).ReducesTo [2] ⟨2, ![524288, 4]⟩) (hS : 0 < (⟨0, ![]⟩ : Shape).numel)
    (hb1 : (⟨2, ![524288, 4]⟩ : Shape).BroadcastsInDim ⟨3, ![524288, 4, 1]⟩ ![0, 1])
    (hb2 : (⟨0, ![]⟩ : Shape).BroadcastsInDim ⟨3, ![524288, 4, 1]⟩ ![])
    (hb3 : (⟨3, ![524288, 4, 1]⟩ : Shape).BroadcastsInDim ⟨3, ![524288, 4, 32]⟩ ![0, 1, 2])
    (hb4 : (⟨0, ![]⟩ : Shape).BroadcastsInDim ⟨3, ![524288, 4, 32]⟩ ![])
    (ε : Fin 524288) (hd : Fin 4) (l : Fin 32) :
    Host.exp (F := Ideal) (mulf
        (broadcastInDim ⟨3, ![524288, 4, 32]⟩ ![0, 1, 2] hb3 (mulf
          (broadcastInDim ⟨3, ![524288, 4, 1]⟩ ![0, 1] hb1 (Host.reduceAdd
            (mulf (shapeCast ⟨3, ![524288, 4, 32]⟩ Kg h2) (shapeCast ⟨3, ![524288, 4, 32]⟩ Qg h2))
            (constant ⟨0, ![]⟩ .f32 0x00000000#32) hred hS))
          (broadcastInDim ⟨3, ![524288, 4, 1]⟩ ![] hb2 (constant ⟨0, ![]⟩ .f32 0x3E3504F3#32))))
        (addf (broadcastInDim ⟨3, ![524288, 4, 32]⟩ ![] hb4 (constant ⟨0, ![]⟩ .f32 0x3F800000#32))
          (shapeCast ⟨3, ![524288, 4, 32]⟩ Ep h2))) (ix3 ε hd l)
      = Cert.Spec.attnA (E := 524288) Kg Qg Ep (ix2 ε (feat hd l)) := by
  refine (exp_mul_add_apply _ _ _ _).trans ?_
  have hsc : Host.reduceAdd (F := Ideal)
      (mulf (shapeCast ⟨3, ![524288, 4, 32]⟩ Kg h2) (shapeCast ⟨3, ![524288, 4, 32]⟩ Qg h2))
      (constant ⟨0, ![]⟩ .f32 0x00000000#32) hred hS (ix2 ε hd) = Cert.Spec.score Kg Qg ε (feat hd l) := by
    rw [laneSum_apply]
    unfold Cert.Spec.score
    refine Finset.sum_congr rfl fun k _ => ?_
    rw [headLane_feat, mulf_apply, split_apply, split_apply]
    rfl
  show _ = Ideal.exp ((Cert.Spec.score Kg Qg ε (feat hd l) * Ideal.ofBits .f32 0x3E3504F3#32)
    * (Ideal.ofBits .f32 0x3F800000#32 + Ep (ix2 ε (feat hd l))))
  refine congrArg Ideal.exp (congrArg₂ (· * ·) ?_ (congrArg₂ (· + ·) rfl (split_apply Ep h2 ε hd l)))
  refine (broadcastInDim_apply _ hb3 _ (ix3 ε hd l) (ix3 ε hd (0 : Fin 1)) (fun a => ?_)).trans ?_
  · match a with
    | ⟨0, _⟩ => exact (if_neg (show ¬ (524288 : ℕ) = 1 by decide)).symm
    | ⟨1, _⟩ => exact (if_neg (show ¬ (4 : ℕ) = 1 by decide)).symm
    | ⟨2, _⟩ => exact (if_pos rfl).symm
  rw [mulf_apply]
  refine congrArg₂ (· * ·) ?_ rfl
  refine (broadcastInDim_apply _ hb1 _ (ix3 ε hd (0 : Fin 1)) (ix2 ε hd) (fun a => ?_)).trans hsc
  match a with
  | ⟨0, _⟩ => exact (if_neg (show ¬ (524288 : ℕ) = 1 by decide)).symm
  | ⟨1, _⟩ => exact (if_neg (show ¬ (4 : ℕ) = 1 by decide)).symm

section Weights
variable [Cert.KernelIdeal.Facts] [Cert.ReferenceIdeal.Facts]

local notation "G2" => Cert.KernelIdeal.gather_S32768x128_S524288x1_S524288x128_1_0_n_n_0_1_1128
local notation "G3" => Cert.ReferenceIdeal.gather_S32768x4x32_S524288x1_S524288x4x32_12_0_n_n_0_1_1432

theorem weights_split (K Q : FVec Ideal ⟨2, ![32768, 128]⟩ .f32) (Ep : FVec Ideal ⟨2, ![524288, 128]⟩ .f32)
    (is id : IVec ⟨2, ![524288, 1]⟩ 32)
    (h1 : (⟨2, ![32768, 128]⟩ : Shape).ShapeCasts ⟨3, ![32768, 4, 32]⟩)
    (h2 : (⟨2, ![524288, 128]⟩ : Shape).ShapeCasts ⟨3, ![524288, 4, 32]⟩)
    (hred : (⟨3, ![524288, 4, 32]⟩ : Shape).ReducesTo [2] ⟨2, ![524288, 4]⟩) (hS : 0 < (⟨0, ![]⟩ : Shape).numel)
    (hb1 : (⟨2, ![524288, 4]⟩ : Shape).BroadcastsInDim ⟨3, ![524288, 4, 1]⟩ ![0, 1])
    (hb2 : (⟨0, ![]⟩ : Shape).BroadcastsInDim ⟨3, ![524288, 4, 1]⟩ ![])
    (hb3 : (⟨3, ![524288, 4, 1]⟩ : Shape).BroadcastsInDim ⟨3, ![524288, 4, 32]⟩ ![0, 1, 2])
    (hb4 : (⟨0, ![]⟩ : Shape).BroadcastsInDim ⟨3, ![524288, 4, 32]⟩ ![]) :
    Host.exp (F := Ideal) (mulf
        (broadcastInDim ⟨3, ![524288, 4, 32]⟩ ![0, 1, 2] hb3 (mulf
          (broadcastInDim ⟨3, ![524288, 4, 1]⟩ ![0, 1] hb1 (Host.reduceAdd
            (mulf (Host.gather G3 (shapeCast ⟨3, ![32768, 4, 32]⟩ K h1) is)
              (Host.gather G3 (shapeCast ⟨3, ![32768, 4, 32]⟩ Q h1) id))
            (constant ⟨0, ![]⟩ .f32 0x00000000#32) hred hS))
          (broadcastInDim ⟨3, ![524288, 4, 1]⟩ ![] hb2 (constant ⟨0, ![]⟩ .f32 0x3E3504F3#32))))
        (addf (broadcastInDim ⟨3, ![524288, 4, 32]⟩ ![] hb4 (constant ⟨0, ![]⟩ .f32 0x3F800000#32))
          (shapeCast ⟨3, ![524288, 4, 32]⟩ Ep h2)))
      = shapeCast ⟨3, ![524288, 4, 32]⟩
          (Cert.Spec.attnA (E := 524288) (Host.gather G2 K is) (Host.gather G2 Q id) Ep) h2 := by
  rw [gather_split K is h1 h2, gather_split Q id h1 h2]
  funext j
  rw [eq_ix3 j]
  exact (weights_core _ _ Ep h2 hred hS hb1 hb2 hb3 hb4 _ _ _).trans (split_apply _ h2 _ _ _).symm

end Weights

section Pointwise
variable {s t : Shape}

theorem shapeCast_divf (a b : FVec Ideal s .f32) (h : s.ShapeCasts t) :
    shapeCast t (Host.divf a b) h = Host.divf (shapeCast t a h) (shapeCast t b h) := rfl

theorem shapeCast_maximumf (a b : FVec Ideal s .f32) (h : s.ShapeCasts t) :
    shapeCast t (maximumf a b) h = maximumf (shapeCast t a h) (shapeCast t b h) := rfl

theorem mulf_shapeCast (a b : FVec Ideal ⟨2, ![524288, 128]⟩ .f32) (h : (⟨2, ![524288, 128]⟩ : Shape).ShapeCasts t) :
    mulf (shapeCast t a h) (shapeCast t b h) = shapeCast t (Cert.Spec.attnV (E := 524288) a b) h := rfl

theorem shapeCast_bcast_const (ds : Fin 0 → Fin s.rank) (hs : (⟨0, ![]⟩ : Shape).BroadcastsInDim s ds)
    (dt : Fin 0 → Fin t.rank) (ht : (⟨0, ![]⟩ : Shape).BroadcastsInDim t dt) (φ : FTy) (w : BitVec φ.bits)
    (h : s.ShapeCasts t) :
    shapeCast t (broadcastInDim s ds hs (constant (F := Ideal) ⟨0, ![]⟩ φ w)) h
      = broadcastInDim t dt ht (constant (F := Ideal) ⟨0, ![]⟩ φ w) := rfl

end Pointwise

section Quotient
variable [Cert.KernelIdeal.Facts] [Cert.ReferenceIdeal.Facts]

local notation "S2" => Cert.KernelIdeal.scatter_S32768x128_S524288x1_S524288x128_1_0_0_1
local notation "S3" => Cert.ReferenceIdeal.scatter_S32768x4x32_S524288x1_S524288x4x32_12_0_0_1

theorem quotient_merge (Vg A : FVec Ideal ⟨2, ![524288, 128]⟩ .f32) (di : IVec ⟨2, ![524288, 1]⟩ 32)
    (h2 : (⟨2, ![524288, 128]⟩ : Shape).ShapeCasts ⟨3, ![524288, 4, 32]⟩)
    (hm : (⟨3, ![32768, 4, 32]⟩ : Shape).ShapeCasts ⟨2, ![32768, 128]⟩)
    (hz3 : (⟨0, ![]⟩ : Shape).BroadcastsInDim ⟨3, ![32768, 4, 32]⟩ ![])
    (hz2 : (⟨0, ![]⟩ : Shape).BroadcastsInDim ⟨2, ![32768, 128]⟩ ![]) (w : BitVec 32) :
    shapeCast ⟨2, ![32768, 128]⟩
        (Host.divf (F := Ideal)
          (Host.scatterAdd S3 (broadcastInDim ⟨3, ![32768, 4, 32]⟩ ![] hz3 (constant ⟨0, ![]⟩ .f32 0x00000000#32)) di
            (mulf (shapeCast ⟨3, ![524288, 4, 32]⟩ Vg h2) (shapeCast ⟨3, ![524288, 4, 32]⟩ A h2)))
          (maximumf
            (Host.scatterAdd S3 (broadcastInDim ⟨3, ![32768, 4, 32]⟩ ![] hz3 (constant ⟨0, ![]⟩ .f32 0x00000000#32)) di
              (shapeCast ⟨3, ![524288, 4, 32]⟩ A h2))
            (broadcastInDim ⟨3, ![32768, 4, 32]⟩ ![] hz3 (constant ⟨0, ![]⟩ .f32 w)))) hm
      = Host.divf (F := Ideal)
          (Host.scatterAdd S2 (broadcastInDim ⟨2, ![32768, 128]⟩ ![] hz2 (constant ⟨0, ![]⟩ .f32 0x00000000#32)) di
            (Cert.Spec.attnV (E := 524288) Vg A))
          (maximumf
            (Host.scatterAdd S2 (broadcastInDim ⟨2, ![32768, 128]⟩ ![] hz2 (constant ⟨0, ![]⟩ .f32 0x00000000#32)) di A)
            (broadcastInDim ⟨2, ![32768, 128]⟩ ![] hz2 (constant ⟨0, ![]⟩ .f32 w))) := by
  rw [shapeCast_divf, shapeCast_maximumf, shapeCast_bcast_const _ hz3 _ hz2, mulf_shapeCast,
    scatter_merge di (Cert.Spec.attnV (E := 524288) Vg A) _ (broadcastInDim ⟨2, ![32768, 128]⟩ ![] hz2
      (constant ⟨0, ![]⟩ .f32 0x00000000#32)) (fun _ _ _ => rfl) h2 hm,
    scatter_merge di A _ (broadcastInDim ⟨2, ![32768, 128]⟩ ![] hz2
      (constant ⟨0, ![]⟩ .f32 0x00000000#32)) (fun _ _ _ => rfl) h2 hm]

end Quotient

section Bridge
variable [Cert.KernelIdeal.Facts] [Cert.ReferenceIdeal.Facts]

theorem attn_bridge (h : FVec Ideal ⟨2, ![32768, 128]⟩ .f32) (e : FVec Ideal ⟨2, ![524288, 128]⟩ .f32)
    (wq wk wv we : FVec Ideal ⟨2, ![128, 128]⟩ .f32) (src dst : IVec ⟨1, ![524288]⟩ 32) :
    Cert.KernelIdeal.Hand.kattn
        (Host.dotGeneral (F := Ideal) Cert.ReferenceIdeal.dot_S32768x128_S128x128_S32768x128_1_0_0_1_n_n none h wq)
        (Host.dotGeneral (F := Ideal) Cert.ReferenceIdeal.dot_S32768x128_S128x128_S32768x128_1_0_0_1_n_n none h wk)
        (Host.dotGeneral (F := Ideal) Cert.ReferenceIdeal.dot_S32768x128_S128x128_S32768x128_1_0_0_1_n_n none h wv)
        (Host.dotGeneral (F := Ideal) Cert.ReferenceIdeal.dot_S524288x128_S128x128_S524288x128_1_0_0_1_n_n none e we)
        src dst
      = Cert.ReferenceIdeal.Hand.attn (F := Ideal) h e wq wk wv we src dst := by
  unfold Cert.ReferenceIdeal.Hand.attn Cert.ReferenceIdeal.Hand.attnW Cert.ReferenceIdeal.Hand.proj
    Cert.ReferenceIdeal.Hand.eproj
  rw [weights_split, gather_split _ _ _ Cert.ReferenceIdeal.Facts₀.shapeCasts_S524288x128_S524288x4x32,
    quotient_merge _ _ _ _ _ _ Cert.KernelIdeal.Facts₀.bcast_S_S32768x128]
  rfl

end Bridge

end Cert.Bridge

end
-- ==== Proof.KI.Chain0.lean ====
import proofs.«113847_j61718680043593_1_alg».proof.Proof.KI.RegionsP
import proofs.«113847_j61718680043593_1_alg».proof.Proof.KI.KSpec
import proofs.«113847_j61718680043593_1_alg».proof.Proof.Ref.Spec
import proofs.«113847_j61718680043593_1_alg».proof.Proof.LibSpec
import proofs.«113847_j61718680043593_1_alg».proof.Proof.LibNary3
import proofs.«113847_j61718680043593_1_alg».proof.Proof.BridgeMat
import proofs.«113847_j61718680043593_1_alg».proof.Proof.BridgeAttn
import Idealize.ShloMosaic.Lib.StableHlo.Run

set_option maxRecDepth 3304

noncomputable section

namespace Cert.KernelIdeal.Hand

open Cert.KernelIdeal Cert.KernelIdeal.Gen Cert.KernelIdeal.GenP
open Idealize.ShloMosaic Idealize.ShloMosaic.TcCoe
open Cert.ReferenceIdeal.Hand (emb edge w128 b128 w128x256 b256 w256x128 attn res ln lnVar ffn layer)

variable [Cert.KernelIdeal.Facts] [Cert.ReferenceIdeal.Facts]

section Reads

local macro "after_results3" : tactic =>
  `(tactic| (simp only [StableHlo.after_cons, StableHlo.after_nil]
             repeat (first
               | rw [StableHlo.nary3_result] | rw [StableHlo.unary_result] | rw [StableHlo.reshape_result]
               | rw [StableHlo.nullary_result] | rw [StableHlo.binary_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide))))

variable (W : Valuation τ sig (Elt Ideal))

theorem host0_v0 :
    StableHlo.after (hostOps0 : List (HloOp τ sig (Elt Ideal))) W main_v0
      = concatenate S32768x52 1 [⟨S32768x44, W main_arg0⟩, ⟨S32768x8, W main_arg1⟩] concatenates_S32768x44_S32768x8_S32768x52_d1 := by
  show StableHlo.after hostOps0 W (Proc.devRef .tc main_v0) = _
  after_results

theorem host0_v1 :
    StableHlo.after (hostOps0 : List (HloOp τ sig (Elt Ideal))) W main_v1
      = concatenate S52x128 0 [⟨S44x128, W main_arg3⟩, ⟨S8x128, W main_arg5⟩] concatenates_S44x128_S8x128_S52x128_d0 := by
  show StableHlo.after hostOps0 W (Proc.devRef .tc main_v1) = _
  after_results

theorem host0_v3 :
    StableHlo.after (hostOps0 : List (HloOp τ sig (Elt Ideal))) W main_v3
      = (shapeCast S1x128 (addf (W main_arg4 : FVec Ideal S128 .f32) (W main_arg6)) shapeCasts_S128_S1x128 : FVec Ideal S1x128 .f32) := by
  show StableHlo.after hostOps0 W (Proc.devRef .tc main_v3) = _
  after_results
  rfl

theorem host1_v8 :
    StableHlo.after (hostOps1 : List (HloOp τ sig (Elt Ideal))) W main_v8
      = (edge (F := Ideal) (W main_arg2) (W main_arg7) (W main_arg8) : FVec Ideal S524288x128 .f32) := by
  show StableHlo.after hostOps1 W (Proc.devRef .tc main_v8) = _
  after_results
  rfl

theorem host1_v9 :
    StableHlo.after (hostOps1 : List (HloOp τ sig (Elt Ideal))) W main_v9 = (zero384 : FVec Ideal S1x384 .f32) := by
  show StableHlo.after hostOps1 W (Proc.devRef .tc main_v9) = _
  after_results
  rfl

theorem host1_v10 :
    StableHlo.after (hostOps1 : List (HloOp τ sig (Elt Ideal))) W main_v10 = (zero128 : FVec Ideal S1x128 .f32) := by
  show StableHlo.after hostOps1 W (Proc.devRef .tc main_v10) = _
  after_results
  rfl

theorem host1_v17 :
    StableHlo.after (hostOps1 : List (HloOp τ sig (Elt Ideal))) W main_v17
      = (concatenate S128x384 1 [⟨S128x128, w128 (F := Ideal) 0 (W main_arg9)⟩, ⟨S128x128, w128 (F := Ideal) 0 (W main_arg10)⟩,
          ⟨S128x128, w128 (F := Ideal) 0 (W main_arg11)⟩] concatenates_S128x128_S128x128_S128x128_S128x384_d1 : FVec Ideal S128x384 .f32) := by
  show StableHlo.after hostOps1 W (Proc.devRef .tc main_v17) = _
  after_results3
  rfl

theorem host2_v19 :
    StableHlo.after (hostOps2 : List (HloOp τ sig (Elt Ideal))) W main_v19 = (kQ (W main_v18) : FVec Ideal S32768x128 .f32) := by
  show StableHlo.after hostOps2 W (Proc.devRef .tc main_v19) = _
  after_results
  rfl

theorem host2_v20 :
    StableHlo.after (hostOps2 : List (HloOp τ sig (Elt Ideal))) W main_v20 = (kK (W main_v18) : FVec Ideal S32768x128 .f32) := by
  show StableHlo.after hostOps2 W (Proc.devRef .tc main_v20) = _
  after_results
  rfl

theorem host2_v21 :
    StableHlo.after (hostOps2 : List (HloOp τ sig (Elt Ideal))) W main_v21 = (kV (W main_v18) : FVec Ideal S32768x128 .f32) := by
  show StableHlo.after hostOps2 W (Proc.devRef .tc main_v21) = _
  after_results
  rfl

theorem host2_v23 :
    StableHlo.after (hostOps2 : List (HloOp τ sig (Elt Ideal))) W main_v23
      = (w128 (F := Ideal) 0 (W main_arg12) : FVec Ideal S128x128 .f32) := by
  show StableHlo.after hostOps2 W (Proc.devRef .tc main_v23) = _
  after_results
  rfl

theorem host3_v31 :
    StableHlo.after (hostOps3 : List (HloOp τ sig (Elt Ideal))) W main_v31
      = (Host.gather gather_S32768x128_S524288x1_S524288x128_1_0_n_n_0_1_1128 (W main_v20 : FVec Ideal S32768x128 .f32)
          (nidx (W main_arg23)) : FVec Ideal S524288x128 .f32) := by
  show StableHlo.after hostOps3 W (Proc.devRef .tc main_v31) = _
  after_results_simp
  rfl

theorem host3_v38 :
    StableHlo.after (hostOps3 : List (HloOp τ sig (Elt Ideal))) W main_v38
      = (Host.gather gather_S32768x128_S524288x1_S524288x128_1_0_n_n_0_1_1128 (W main_v19 : FVec Ideal S32768x128 .f32)
          (nidx (W main_arg24)) : FVec Ideal S524288x128 .f32) := by
  show StableHlo.after hostOps3 W (Proc.devRef .tc main_v38) = _
  after_results_simp
  rfl

theorem host3_v45 :
    StableHlo.after (hostOps3 : List (HloOp τ sig (Elt Ideal))) W main_v45
      = (Host.gather gather_S32768x128_S524288x1_S524288x128_1_0_n_n_0_1_1128 (W main_v21 : FVec Ideal S32768x128 .f32)
          (nidx (W main_arg23)) : FVec Ideal S524288x128 .f32) := by
  show StableHlo.after hostOps3 W (Proc.devRef .tc main_v45) = _
  after_results_simp
  rfl

theorem host4_v55 :
    StableHlo.after (hostOps4 : List (HloOp τ sig (Elt Ideal))) W main_v55
      = (Host.divf
          (Host.scatterAdd scatter_S32768x128_S524288x1_S524288x128_1_0_0_1
            (broadcastInDim S32768x128 ![] bcast_S_S32768x128 (constant S_ .f32 0x00000000#32))
            (broadcastInDim S524288x1 ![0] bcast_S524288_S524288x1_0 (W main_arg24 : IVec S524288 32))
            (W main_v46_1 : FVec Ideal S524288x128 .f32))
          (maximumf
            (Host.scatterAdd scatter_S32768x128_S524288x1_S524288x128_1_0_0_1
              (broadcastInDim S32768x128 ![] bcast_S_S32768x128 (constant S_ .f32 0x00000000#32))
              (broadcastInDim S524288x1 ![0] bcast_S524288_S524288x1_0 (W main_arg24 : IVec S524288 32))
              (W main_v46_0 : FVec Ideal S524288x128 .f32))
            (broadcastInDim S32768x128 ![] bcast_S_S32768x128 (constant S_ .f32 0x358637BD#32))) : FVec Ideal S32768x128 .f32) := by
  show StableHlo.after hostOps4 W (Proc.devRef .tc main_v55) = _
  after_results

theorem host4_v57 :
    StableHlo.after (hostOps4 : List (HloOp τ sig (Elt Ideal))) W main_v57
      = (w128 (F := Ideal) 0 (W main_arg13) : FVec Ideal S128x128 .f32) := by
  show StableHlo.after hostOps4 W (Proc.devRef .tc main_v57) = _
  after_results
  rfl

theorem host4_v60 :
    StableHlo.after (hostOps4 : List (HloOp τ sig (Elt Ideal))) W main_v60
      = (shapeCast S1x128 (b128 (F := Ideal) 0 (W main_arg14)) shapeCasts_S128_S1x128 : FVec Ideal S1x128 .f32) := by
  show StableHlo.after hostOps4 W (Proc.devRef .tc main_v60) = _
  after_results
  rfl

theorem host5_v84 :
    StableHlo.after ((hostOps5 ++ hostOps5_1 ++ hostOps5_2 : List (HloOp τ sig (Elt Ideal)))) W main_v84
      = (ln (F := Ideal) (addf (W main_v4 : FVec Ideal S32768x128 .f32) (W main_v61))
          (b128 0 (W main_arg15)) (b128 0 (W main_arg16)) : FVec Ideal S32768x128 .f32) := by
  show StableHlo.after _ W (Proc.devRef .tc main_v84) = _
  simp only [hostOps5, hostOps5_1, hostOps5_2, List.cons_append, List.nil_append]
  after_results_simp
  unfold Cert.ReferenceIdeal.Hand.ln Cert.ReferenceIdeal.Hand.lnVar Cert.ReferenceIdeal.Hand.b128
  simp only [StableHlo.TRef.ofBuf, StableHlo.TRef.toBuf, cast_eq]
  rfl

theorem host5_v86 :
    StableHlo.after (hostOps5_2 : List (HloOp τ sig (Elt Ideal))) W main_v86
      = (w128x256 (F := Ideal) 0 (W main_arg17) : FVec Ideal S128x256 .f32) := by
  show StableHlo.after hostOps5_2 W (Proc.devRef .tc main_v86) = _
  after_results
  rfl

theorem host5_v89 :
    StableHlo.after (hostOps5_2 : List (HloOp τ sig (Elt Ideal))) W main_v89
      = (shapeCast S1x256 (b256 (F := Ideal) 0 (W main_arg18)) shapeCasts_S256_S1x256 : FVec Ideal S1x256 .f32) := by
  show StableHlo.after hostOps5_2 W (Proc.devRef .tc main_v89) = _
  after_results
  rfl

theorem host6_v91 :
    StableHlo.after (hostOps6 : List (HloOp τ sig (Elt Ideal))) W main_v91
      = (maximumf (W main_v90 : FVec Ideal S32768x256 .f32)
          (broadcastInDim S32768x256 ![] bcast_S_S32768x256 (constant S_ .f32 0x00000000#32)) : FVec Ideal S32768x256 .f32) := by
  show StableHlo.after hostOps6 W (Proc.devRef .tc main_v91) = _
  after_results
  simp only [StableHlo.TRef.ofBuf, StableHlo.TRef.toBuf, cast_eq]

theorem host6_v93 :
    StableHlo.after (hostOps6_1 : List (HloOp τ sig (Elt Ideal))) W main_v93
      = (w256x128 (F := Ideal) 0 (W main_arg19) : FVec Ideal S256x128 .f32) := by
  show StableHlo.after hostOps6_1 W (Proc.devRef .tc main_v93) = _
  after_results
  rfl

theorem host6_v96 :
    StableHlo.after (hostOps6_1 : List (HloOp τ sig (Elt Ideal))) W main_v96
      = (shapeCast S1x128 (b128 (F := Ideal) 0 (W main_arg20)) shapeCasts_S128_S1x128 : FVec Ideal S1x128 .f32) := by
  show StableHlo.after hostOps6_1 W (Proc.devRef .tc main_v96) = _
  after_results
  rfl

theorem host7_v120 :
    StableHlo.after ((hostOps7 ++ hostOps7_1 ++ hostOps7_2 : List (HloOp τ sig (Elt Ideal)))) W main_v120
      = (ln (F := Ideal) (addf (W main_v84 : FVec Ideal S32768x128 .f32) (W main_v97))
          (b128 0 (W main_arg21)) (b128 0 (W main_arg22)) : FVec Ideal S32768x128 .f32) := by
  show StableHlo.after _ W (Proc.devRef .tc main_v120) = _
  simp only [hostOps7, hostOps7_1, hostOps7_2, List.cons_append, List.nil_append]
  after_results_simp
  unfold Cert.ReferenceIdeal.Hand.ln Cert.ReferenceIdeal.Hand.lnVar Cert.ReferenceIdeal.Hand.b128
  simp only [StableHlo.TRef.ofBuf, StableHlo.TRef.toBuf, cast_eq]
  rfl

set_option maxHeartbeats 2000000 in
theorem host7_v127 :
    StableHlo.after (hostOps7_2 : List (HloOp τ sig (Elt Ideal))) W main_v127
      = (concatenate S128x384 1 [⟨S128x128, w128 (F := Ideal) 1 (W main_arg9)⟩, ⟨S128x128, w128 (F := Ideal) 1 (W main_arg10)⟩,
          ⟨S128x128, w128 (F := Ideal) 1 (W main_arg11)⟩] concatenates_S128x128_S128x128_S128x128_S128x384_d1 : FVec Ideal S128x384 .f32) := by
  show StableHlo.after hostOps7_2 W (Proc.devRef .tc main_v127) = _
  after_results3
  rfl

end Reads

section Folds

theorem kattn_fold (q k v : FVec Ideal ⟨2, ![32768, 128]⟩ .f32) (ep : FVec Ideal ⟨2, ![524288, 128]⟩ .f32) (src dst : IVec ⟨1, ![524288]⟩ 32) :
    (Host.divf
          (Host.scatterAdd scatter_S32768x128_S524288x1_S524288x128_1_0_0_1 (broadcastInDim S32768x128 ![] bcast_S_S32768x128 (constant S_ .f32 0x00000000#32)) (broadcastInDim S524288x1 ![0] bcast_S524288_S524288x1_0 dst) (Cert.Spec.attnV (E := 524288) (Host.gather gather_S32768x128_S524288x1_S524288x128_1_0_n_n_0_1_1128 v (nidx src))
              (Cert.Spec.attnA (E := 524288) (Host.gather gather_S32768x128_S524288x1_S524288x128_1_0_n_n_0_1_1128 k (nidx src)) (Host.gather gather_S32768x128_S524288x1_S524288x128_1_0_n_n_0_1_1128 q (nidx dst)) ep)))
          (maximumf (Host.scatterAdd scatter_S32768x128_S524288x1_S524288x128_1_0_0_1 (broadcastInDim S32768x128 ![] bcast_S_S32768x128 (constant S_ .f32 0x00000000#32)) (broadcastInDim S524288x1 ![0] bcast_S524288_S524288x1_0 dst) (Cert.Spec.attnA (E := 524288) (Host.gather gather_S32768x128_S524288x1_S524288x128_1_0_n_n_0_1_1128 k (nidx src)) (Host.gather gather_S32768x128_S524288x1_S524288x128_1_0_n_n_0_1_1128 q (nidx dst)) ep)) (broadcastInDim S32768x128 ![] bcast_S_S32768x128 (constant S_ .f32 0x358637BD#32))) : FVec Ideal S32768x128 .f32)
      = kattn q k v ep src dst := rfl

theorem kres_fold (h hout : FVec Ideal ⟨2, ![32768, 128]⟩ .f32) (wlin : FVec Ideal ⟨2, ![128, 128]⟩ .f32) (blin : FVec Ideal ⟨1, ![128]⟩ .f32) :
    addf h (Cert.Spec.affine (M := 32768) (K := 128) (N := 128) hout wlin (shapeCast S1x128 blin shapeCasts_S128_S1x128))
      = kres h hout wlin blin := rfl

theorem kffn_fold (x : FVec Ideal ⟨2, ![32768, 128]⟩ .f32) (wf1 : FVec Ideal ⟨2, ![128, 256]⟩ .f32) (bf1 : FVec Ideal ⟨1, ![256]⟩ .f32)
    (wf2 : FVec Ideal ⟨2, ![256, 128]⟩ .f32) (bf2 : FVec Ideal ⟨1, ![128]⟩ .f32) :
    Cert.Spec.affine (M := 32768) (K := 256) (N := 128)
        (maximumf (Cert.Spec.affine (M := 32768) (K := 128) (N := 256) x wf1 (shapeCast S1x256 bf1 shapeCasts_S256_S1x256))
          (broadcastInDim S32768x256 ![] bcast_S_S32768x256 (constant S_ .f32 0x00000000#32)))
        wf2 (shapeCast S1x128 bf2 shapeCasts_S128_S1x128)
      = kffn x wf1 bf1 wf2 bf2 := rfl

theorem layer_fold (h : FVec Ideal ⟨2, ![32768, 128]⟩ .f32) (e : FVec Ideal ⟨2, ![524288, 128]⟩ .f32) (wq wk wv we wlin : FVec Ideal ⟨2, ![128, 128]⟩ .f32) (blin g1 be1 : FVec Ideal ⟨1, ![128]⟩ .f32)
    (wf1 : FVec Ideal ⟨2, ![128, 256]⟩ .f32) (bf1 : FVec Ideal ⟨1, ![256]⟩ .f32) (wf2 : FVec Ideal ⟨2, ![256, 128]⟩ .f32)
    (bf2 g2 be2 : FVec Ideal ⟨1, ![128]⟩ .f32) (src dst : IVec ⟨1, ![524288]⟩ 32) :
    ln (F := Ideal) (addf (ln (F := Ideal) (res (F := Ideal) h (attn (F := Ideal) h e wq wk wv we src dst) wlin blin) g1 be1)
        (ffn (F := Ideal) (ln (F := Ideal) (res (F := Ideal) h (attn (F := Ideal) h e wq wk wv we src dst) wlin blin) g1 be1) wf1 bf1 wf2 bf2)) g2 be2
      = layer (F := Ideal) h e wq wk wv we wlin blin g1 be1 wf1 bf1 wf2 bf2 g2 be2 src dst := rfl

end Folds

section Chain

variable (m : (ℓ : Loc nD τ sig) → Buf (Elt Ideal) ℓ) (outs : Outs (F := Ideal)) (c : Dev nD)

open Lean in

local macro "carry " n:num " to " k:num : tactic => do
  let mut tac ← `(tactic| skip)
  for j in [k.getNat + 1 : n.getNat + 1] do
    let lem := mkIdent (Name.mkSimple s!"V{j}_of")
    tac ← `(tactic| (refine ($lem (h := by decide) ..).trans ?_; $tac))
  return tac

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "a12" => m ((c.tc : Thread nD τ).loc main_arg12)
local notation "a13" => m ((c.tc : Thread nD τ).loc main_arg13)
local notation "a14" => m ((c.tc : Thread nD τ).loc main_arg14)
local notation "a15" => m ((c.tc : Thread nD τ).loc main_arg15)
local notation "a16" => m ((c.tc : Thread nD τ).loc main_arg16)
local notation "a17" => m ((c.tc : Thread nD τ).loc main_arg17)
local notation "a18" => m ((c.tc : Thread nD τ).loc main_arg18)
local notation "a19" => m ((c.tc : Thread nD τ).loc main_arg19)
local notation "a20" => m ((c.tc : Thread nD τ).loc main_arg20)
local notation "a21" => m ((c.tc : Thread nD τ).loc main_arg21)
local notation "a22" => m ((c.tc : Thread nD τ).loc main_arg22)
local notation "a23" => m ((c.tc : Thread nD τ).loc main_arg23)
local notation "a24" => m ((c.tc : Thread nD τ).loc main_arg24)

theorem V2_v4
    (h2 : outs 2 main_v4 c = Cert.Spec.affine (M := 32768) (K := 52) (N := 128) (V1 m c main_v0) (V1 m c main_v1) (V1 m c main_v3)) :
    V2 m outs c main_v4 = (kemb a0 a1 a3 a4 a5 a6 : FVec Ideal S32768x128 .f32) := by
  have e0 : V1 m c main_v0 = _ := host0_v0 (V0 m c)
  have e1 : V1 m c main_v1 = _ := host0_v1 (V0 m c)
  have e3 : V1 m c main_v3 = _ := host0_v3 (V0 m c)
  refine (Function.update_self _ _ _).trans (h2.trans ?_)
  rw [e0, e1, e3]
  rfl

theorem V3_v8 : V3 m outs c main_v8 = (edge (F := Ideal) a2 a7 a8 : FVec Ideal S524288x128 .f32) := by
  have e2 : V2 m outs c main_arg2 = a2 := by carry 2 to 0; rfl
  have e7 : V2 m outs c main_arg7 = a7 := by carry 2 to 0; rfl
  have e8 : V2 m outs c main_arg8 = a8 := by carry 2 to 0; rfl
  refine (host1_v8 (V2 m outs c)).trans ?_
  rw [e2, e7, e8]

theorem V3_v17 : V3 m outs c main_v17 = (concatenate S128x384 1 [⟨S128x128, w128 (F := Ideal) 0 a9⟩, ⟨S128x128, w128 (F := Ideal) 0 a10⟩, ⟨S128x128, w128 (F := Ideal) 0 a11⟩] concatenates_S128x128_S128x128_S128x128_S128x384_d1 : FVec Ideal S128x384 .f32) := by
  have e9 : V2 m outs c main_arg9 = a9 := by carry 2 to 0; rfl
  have e10 : V2 m outs c main_arg10 = a10 := by carry 2 to 0; rfl
  have e11 : V2 m outs c main_arg11 = a11 := by carry 2 to 0; rfl
  refine (host1_v17 (V2 m outs c)).trans ?_
  rw [e9, e10, e11]

theorem V4_v18 (H : FVec Ideal S32768x128 .f32) (hv4 : V2 m outs c main_v4 = H)
    (h4 : outs 4 main_v18 c = Cert.Spec.affine (M := 32768) (K := 128) (N := 384) (V3 m outs c main_v4) (V3 m outs c main_v17) (V3 m outs c main_v9)) :
    V4 m outs c main_v18
      = (kqkv H (w128 (F := Ideal) 0 a9) (w128 (F := Ideal) 0 a10) (w128 (F := Ideal) 0 a11) : FVec Ideal S32768x384 .f32) := by
  have e4 : V3 m outs c main_v4 = H := (V3_of m outs c main_v4 (by decide)).trans hv4
  have e17 := V3_v17 m outs c
  have e9 : V3 m outs c main_v9 = zero384 := host1_v9 (V2 m outs c)
  refine (Function.update_self _ _ _).trans (h4.trans ?_)
  rw [e4, e17, e9]
  rfl

theorem V5_qkv (X : FVec Ideal S32768x384 .f32) (hv18 : V4 m outs c main_v18 = X) :
    V5 m outs c main_v19 = kQ X ∧ V5 m outs c main_v20 = kK X ∧ V5 m outs c main_v21 = kV X :=
  ⟨(host2_v19 (V4 m outs c)).trans (congrArg kQ hv18), (host2_v20 (V4 m outs c)).trans (congrArg kK hv18),
    (host2_v21 (V4 m outs c)).trans (congrArg kV hv18)⟩

theorem V5_v23 : V5 m outs c main_v23 = (w128 (F := Ideal) 0 a12 : FVec Ideal S128x128 .f32) := by
  have e : V4 m outs c main_arg12 = a12 := by carry 4 to 0; rfl
  refine (host2_v23 (V4 m outs c)).trans ?_
  rw [e]

theorem V6_v24
    (h6 : outs 6 main_v24 c = Cert.Spec.affine (M := 524288) (K := 128) (N := 128) (V5 m outs c main_v8) (V5 m outs c main_v23) (V5 m outs c main_v10)) :
    V6 m outs c main_v24 = (kep (edge (F := Ideal) a2 a7 a8) (w128 (F := Ideal) 0 a12) : FVec Ideal S524288x128 .f32) := by
  have e8 : V5 m outs c main_v8 = (edge (F := Ideal) a2 a7 a8 : FVec Ideal S524288x128 .f32) := by carry 5 to 3; exact V3_v8 m outs c
  have e23 := V5_v23 m outs c
  have e10 : V5 m outs c main_v10 = (zero128 : FVec Ideal S1x128 .f32) := by carry 5 to 3; exact host1_v10 (V2 m outs c)
  refine (Function.update_self _ _ _).trans (h6.trans ?_)
  rw [e8, e23, e10]
  rfl

theorem V7_gathers (Qn Kn Vn : FVec Ideal S32768x128 .f32) (hQ : V5 m outs c main_v19 = Qn) (hK : V5 m outs c main_v20 = Kn)
    (hV : V5 m outs c main_v21 = Vn) :
    V7 m outs c main_v31 = (Host.gather gather_S32768x128_S524288x1_S524288x128_1_0_n_n_0_1_1128 Kn (nidx a23) : FVec Ideal S524288x128 .f32)
      ∧ V7 m outs c main_v38 = (Host.gather gather_S32768x128_S524288x1_S524288x128_1_0_n_n_0_1_1128 Qn (nidx a24) : FVec Ideal S524288x128 .f32)
      ∧ V7 m outs c main_v45 = (Host.gather gather_S32768x128_S524288x1_S524288x128_1_0_n_n_0_1_1128 Vn (nidx a23) : FVec Ideal S524288x128 .f32) := by
  have e23 : V6 m outs c main_arg23 = a23 := by carry 6 to 0; rfl
  have e24 : V6 m outs c main_arg24 = a24 := by carry 6 to 0; rfl
  have eQ : V6 m outs c main_v19 = Qn := (V6_of m outs c main_v19 (by decide)).trans hQ
  have eK : V6 m outs c main_v20 = Kn := (V6_of m outs c main_v20 (by decide)).trans hK
  have eV : V6 m outs c main_v21 = Vn := (V6_of m outs c main_v21 (by decide)).trans hV
  refine ⟨(host3_v31 (V6 m outs c)).trans ?_, (host3_v38 (V6 m outs c)).trans ?_, (host3_v45 (V6 m outs c)).trans ?_⟩
  · rw [eK, e23]
  · rw [eQ, e24]
  · rw [eV, e23]

theorem V7_v24 (EP : FVec Ideal S524288x128 .f32) (h : V6 m outs c main_v24 = EP) : V7 m outs c main_v24 = EP :=
  (V7_of m outs c main_v24 (by decide)).trans h

theorem V8_v46 (Kg Qg Vg EP : FVec Ideal S524288x128 .f32) (h31 : V7 m outs c main_v31 = Kg) (h38 : V7 m outs c main_v38 = Qg)
    (h45 : V7 m outs c main_v45 = Vg) (h24 : V7 m outs c main_v24 = EP)
    (h8a : outs 8 main_v46_0 c = Cert.Spec.attnA (E := 524288) (V7 m outs c main_v31) (V7 m outs c main_v38) (V7 m outs c main_v24))
    (h8b : outs 8 main_v46_1 c = Cert.Spec.attnV (E := 524288) (V7 m outs c main_v45)
      (Cert.Spec.attnA (E := 524288) (V7 m outs c main_v31) (V7 m outs c main_v38) (V7 m outs c main_v24))) :
    V8 m outs c main_v46_0 = Cert.Spec.attnA (E := 524288) Kg Qg EP
      ∧ V8 m outs c main_v46_1 = Cert.Spec.attnV (E := 524288) Vg (Cert.Spec.attnA (E := 524288) Kg Qg EP) := by
  constructor
  · refine (Function.update_of_ne (StableHlo.devRef_ne_of_ne (x := main_v46_0) (y := main_v46_1) (by decide)) _ _).trans
      ((Function.update_self _ _ _).trans (h8a.trans ?_))
    rw [h31, h38, h24]
  · refine (Function.update_self _ _ _).trans (h8b.trans ?_)
    rw [h45, h31, h38, h24]

theorem V9_v55 (A0 A1 : FVec Ideal S524288x128 .f32) (h0 : V8 m outs c main_v46_0 = A0) (h1 : V8 m outs c main_v46_1 = A1) :
    V9 m outs c main_v55
      = (Host.divf
          (Host.scatterAdd scatter_S32768x128_S524288x1_S524288x128_1_0_0_1 (broadcastInDim S32768x128 ![] bcast_S_S32768x128 (constant S_ .f32 0x00000000#32)) (broadcastInDim S524288x1 ![0] bcast_S524288_S524288x1_0 a24) A1)
          (maximumf (Host.scatterAdd scatter_S32768x128_S524288x1_S524288x128_1_0_0_1 (broadcastInDim S32768x128 ![] bcast_S_S32768x128 (constant S_ .f32 0x00000000#32)) (broadcastInDim S524288x1 ![0] bcast_S524288_S524288x1_0 a24) A0) (broadcastInDim S32768x128 ![] bcast_S_S32768x128 (constant S_ .f32 0x358637BD#32))) : FVec Ideal S32768x128 .f32) := by
  have e24 : V8 m outs c main_arg24 = a24 := by carry 8 to 0; rfl
  refine (host4_v55 (V8 m outs c)).trans ?_
  rw [e24, h0, h1]

theorem V9_v57 : V9 m outs c main_v57 = (w128 (F := Ideal) 0 a13 : FVec Ideal S128x128 .f32) := by
  have e : V8 m outs c main_arg13 = a13 := by carry 8 to 0; rfl
  refine (host4_v57 (V8 m outs c)).trans ?_
  rw [e]

theorem V9_v60 :
    V9 m outs c main_v60 = (shapeCast S1x128 (b128 (F := Ideal) 0 a14) shapeCasts_S128_S1x128 : FVec Ideal S1x128 .f32) := by
  have e : V8 m outs c main_arg14 = a14 := by carry 8 to 0; rfl
  refine (host4_v60 (V8 m outs c)).trans ?_
  rw [e]

theorem V10_v61 (HO : FVec Ideal S32768x128 .f32) (h55 : V9 m outs c main_v55 = HO)
    (h10 : outs 10 main_v61 c = Cert.Spec.affine (M := 32768) (K := 128) (N := 128) (V9 m outs c main_v55) (V9 m outs c main_v57) (V9 m outs c main_v60)) :
    V10 m outs c main_v61
      = Cert.Spec.affine (M := 32768) (K := 128) (N := 128) HO (w128 (F := Ideal) 0 a13)
          (shapeCast S1x128 (b128 (F := Ideal) 0 a14) shapeCasts_S128_S1x128) := by
  refine (Function.update_self _ _ _).trans (h10.trans ?_)
  rw [h55, V9_v57 m outs c, V9_v60 m outs c]

theorem V13_eq : V13 m outs c = StableHlo.after (hostOps5 ++ hostOps5_1 ++ hostOps5_2) (V10 m outs c) := by
  rw [StableHlo.after_append, StableHlo.after_append]

theorem V13_v84 (H HL : FVec Ideal S32768x128 .f32) (hv4 : V2 m outs c main_v4 = H) (h61 : V10 m outs c main_v61 = HL) :
    V13 m outs c main_v84 = (ln (F := Ideal) (addf H HL) (b128 0 a15) (b128 0 a16) : FVec Ideal S32768x128 .f32) := by
  have e4 : V10 m outs c main_v4 = H := by carry 10 to 2; exact hv4
  have e15 : V10 m outs c main_arg15 = a15 := by carry 10 to 0; rfl
  have e16 : V10 m outs c main_arg16 = a16 := by carry 10 to 0; rfl
  refine (congrFun (V13_eq m outs c) _).trans ((host5_v84 (V10 m outs c)).trans ?_)
  rw [e4, h61, e15, e16]

theorem V13_v86 : V13 m outs c main_v86 = (w128x256 (F := Ideal) 0 a17 : FVec Ideal S128x256 .f32) := by
  have e : V12 m outs c main_arg17 = a17 := by carry 12 to 0; rfl
  refine (host5_v86 (V12 m outs c)).trans ?_
  rw [e]

theorem V13_v89 :
    V13 m outs c main_v89 = (shapeCast S1x256 (b256 (F := Ideal) 0 a18) shapeCasts_S256_S1x256 : FVec Ideal S1x256 .f32) := by
  have e : V12 m outs c main_arg18 = a18 := by carry 12 to 0; rfl
  refine (host5_v89 (V12 m outs c)).trans ?_
  rw [e]

theorem V14_v90 (X : FVec Ideal S32768x128 .f32) (h84 : V13 m outs c main_v84 = X)
    (h14 : outs 14 main_v90 c = Cert.Spec.affine (M := 32768) (K := 128) (N := 256) (V13 m outs c main_v84) (V13 m outs c main_v86) (V13 m outs c main_v89)) :
    V14 m outs c main_v90
      = Cert.Spec.affine (M := 32768) (K := 128) (N := 256) X (w128x256 (F := Ideal) 0 a17)
          (shapeCast S1x256 (b256 (F := Ideal) 0 a18) shapeCasts_S256_S1x256) := by
  refine (Function.update_self _ _ _).trans (h14.trans ?_)
  rw [h84, V13_v86 m outs c, V13_v89 m outs c]

theorem V16_v91 (Y : FVec Ideal S32768x256 .f32) (h90 : V14 m outs c main_v90 = Y) :
    V16 m outs c main_v91
      = (maximumf Y (broadcastInDim S32768x256 ![] bcast_S_S32768x256 (constant S_ .f32 0x00000000#32)) : FVec Ideal S32768x256 .f32) := by
  refine (V16_of m outs c main_v91 (by decide)).trans ((host6_v91 (V14 m outs c)).trans ?_)
  rw [h90]

theorem V16_v93 : V16 m outs c main_v93 = (w256x128 (F := Ideal) 0 a19 : FVec Ideal S256x128 .f32) := by
  have e : V15 m outs c main_arg19 = a19 := by carry 15 to 0; rfl
  refine (host6_v93 (V15 m outs c)).trans ?_
  rw [e]

theorem V16_v96 :
    V16 m outs c main_v96 = (shapeCast S1x128 (b128 (F := Ideal) 0 a20) shapeCasts_S128_S1x128 : FVec Ideal S1x128 .f32) := by
  have e : V15 m outs c main_arg20 = a20 := by carry 15 to 0; rfl
  refine (host6_v96 (V15 m outs c)).trans ?_
  rw [e]

theorem V17_v97 (Z : FVec Ideal S32768x256 .f32) (h91 : V16 m outs c main_v91 = Z)
    (h17 : outs 17 main_v97 c = Cert.Spec.affine (M := 32768) (K := 256) (N := 128) (V16 m outs c main_v91) (V16 m outs c main_v93) (V16 m outs c main_v96)) :
    V17 m outs c main_v97
      = Cert.Spec.affine (M := 32768) (K := 256) (N := 128) Z (w256x128 (F := Ideal) 0 a19)
          (shapeCast S1x128 (b128 (F := Ideal) 0 a20) shapeCasts_S128_S1x128) := by
  refine (Function.update_self _ _ _).trans (h17.trans ?_)
  rw [h91, V16_v93 m outs c, V16_v96 m outs c]

theorem V20_eq : V20 m outs c = StableHlo.after (hostOps7 ++ hostOps7_1 ++ hostOps7_2) (V17 m outs c) := by
  rw [StableHlo.after_append, StableHlo.after_append]

theorem V20_v120 (X F2 : FVec Ideal S32768x128 .f32) (h84 : V13 m outs c main_v84 = X) (h97 : V17 m outs c main_v97 = F2) :
    V20 m outs c main_v120 = (ln (F := Ideal) (addf X F2) (b128 0 a21) (b128 0 a22) : FVec Ideal S32768x128 .f32) := by
  have e84 : V17 m outs c main_v84 = X := by carry 17 to 13; exact h84
  have e21 : V17 m outs c main_arg21 = a21 := by carry 17 to 0; rfl
  have e22 : V17 m outs c main_arg22 = a22 := by carry 17 to 0; rfl
  refine (congrFun (V20_eq m outs c) _).trans ((host7_v120 (V17 m outs c)).trans ?_)
  rw [e84, h97, e21, e22]

theorem V20_v127 : V20 m outs c main_v127 = (concatenate S128x384 1 [⟨S128x128, w128 (F := Ideal) 1 a9⟩, ⟨S128x128, w128 (F := Ideal) 1 a10⟩, ⟨S128x128, w128 (F := Ideal) 1 a11⟩] concatenates_S128x128_S128x128_S128x128_S128x384_d1 : FVec Ideal S128x384 .f32) := by
  have e9 : V19 m outs c main_arg9 = a9 := by carry 19 to 0; rfl
  have e10 : V19 m outs c main_arg10 = a10 := by carry 19 to 0; rfl
  have e11 : V19 m outs c main_arg11 = a11 := by carry 19 to 0; rfl
  refine (host7_v127 (V19 m outs c)).trans ?_
  rw [e9, e10, e11]

theorem V20_v8 : V20 m outs c main_v8 = (edge (F := Ideal) a2 a7 a8 : FVec Ideal S524288x128 .f32) := by
  carry 20 to 3; exact V3_v8 m outs c

theorem V20_v9 : V20 m outs c main_v9 = (zero384 : FVec Ideal S1x384 .f32) := by
  carry 20 to 3; exact host1_v9 (V2 m outs c)

theorem V20_v10 : V20 m outs c main_v10 = (zero128 : FVec Ideal S1x128 .f32) := by
  carry 20 to 3; exact host1_v10 (V2 m outs c)

theorem chain0
    (h2 : outs 2 main_v4 c = Cert.Spec.affine (M := 32768) (K := 52) (N := 128) (V1 m c main_v0) (V1 m c main_v1) (V1 m c main_v3))
    (h4 : outs 4 main_v18 c = Cert.Spec.affine (M := 32768) (K := 128) (N := 384) (V3 m outs c main_v4) (V3 m outs c main_v17) (V3 m outs c main_v9))
    (h6 : outs 6 main_v24 c = Cert.Spec.affine (M := 524288) (K := 128) (N := 128) (V5 m outs c main_v8) (V5 m outs c main_v23) (V5 m outs c main_v10))
    (h8a : outs 8 main_v46_0 c = Cert.Spec.attnA (E := 524288) (V7 m outs c main_v31) (V7 m outs c main_v38) (V7 m outs c main_v24))
    (h8b : outs 8 main_v46_1 c = Cert.Spec.attnV (E := 524288) (V7 m outs c main_v45)
      (Cert.Spec.attnA (E := 524288) (V7 m outs c main_v31) (V7 m outs c main_v38) (V7 m outs c main_v24)))
    (h10 : outs 10 main_v61 c = Cert.Spec.affine (M := 32768) (K := 128) (N := 128) (V9 m outs c main_v55) (V9 m outs c main_v57) (V9 m outs c main_v60))
    (h14 : outs 14 main_v90 c = Cert.Spec.affine (M := 32768) (K := 128) (N := 256) (V13 m outs c main_v84) (V13 m outs c main_v86) (V13 m outs c main_v89))
    (h17 : outs 17 main_v97 c = Cert.Spec.affine (M := 32768) (K := 256) (N := 128) (V16 m outs c main_v91) (V16 m outs c main_v93) (V16 m outs c main_v96)) :
    V20 m outs c main_v120
        = (layer (F := Ideal) (emb a0 a1 a3 a4 a5 a6) (edge a2 a7 a8) (w128 0 a9) (w128 0 a10) (w128 0 a11) (w128 0 a12) (w128 0 a13)
            (b128 0 a14) (b128 0 a15) (b128 0 a16) (w128x256 0 a17) (b256 0 a18) (w256x128 0 a19) (b128 0 a20) (b128 0 a21)
            (b128 0 a22) a23 a24 : FVec Ideal S32768x128 .f32)
      ∧ V20 m outs c main_v8 = (edge (F := Ideal) a2 a7 a8 : FVec Ideal S524288x128 .f32)
      ∧ V20 m outs c main_v9 = (zero384 : FVec Ideal S1x384 .f32)
      ∧ V20 m outs c main_v10 = (zero128 : FVec Ideal S1x128 .f32)
      ∧ V20 m outs c main_v127 = (concatenate S128x384 1 [⟨S128x128, w128 (F := Ideal) 1 a9⟩, ⟨S128x128, w128 (F := Ideal) 1 a10⟩, ⟨S128x128, w128 (F := Ideal) 1 a11⟩] concatenates_S128x128_S128x128_S128x128_S128x384_d1 : FVec Ideal S128x384 .f32) := by

  have hv4 := (V2_v4 m outs c h2).trans (Cert.Bridge.emb_bridge _ _ _ _ _ _)

  have hv18 := V4_v18 m outs c _ hv4 h4
  obtain ⟨hq, hk, hv⟩ := V5_qkv m outs c _ hv18
  have hQ := hq.trans (Cert.Bridge.q_bridge _ _ _ _)
  have hK := hk.trans (Cert.Bridge.k_bridge _ _ _ _)
  have hV := hv.trans (Cert.Bridge.v_bridge _ _ _ _)

  have hEP := (V6_v24 m outs c h6).trans (Cert.Bridge.ep_bridge _ _)

  obtain ⟨h31, h38, h45⟩ := V7_gathers m outs c _ _ _ hQ hK hV
  have h24 := V7_v24 m outs c _ hEP
  obtain ⟨h460, h461⟩ := V8_v46 m outs c _ _ _ _ h31 h38 h45 h24 h8a h8b
  have h55 := V9_v55 m outs c _ _ h460 h461
  rw [kattn_fold, Cert.Bridge.attn_bridge] at h55

  have h61 := V10_v61 m outs c _ h55 h10
  have h84 := V13_v84 m outs c _ _ hv4 h61
  rw [kres_fold, Cert.Bridge.res_bridge] at h84

  have h90 := V14_v90 m outs c _ h84 h14
  have h91 := V16_v91 m outs c _ h90
  have h97 := V17_v97 m outs c _ h91 h17
  rw [kffn_fold, Cert.Bridge.ffn_bridge] at h97

  have h120 := V20_v120 m outs c _ _ h84 h97
  rw [layer_fold] at h120
  exact ⟨h120, V20_v8 m outs c, V20_v9 m outs c, V20_v10 m outs c, V20_v127 m outs c⟩

end Chain

end Cert.KernelIdeal.Hand

end
-- ==== Proof.KI.Chain1.lean ====
import proofs.«113847_j61718680043593_1_alg».proof.Proof.KI.RegionsP
import proofs.«113847_j61718680043593_1_alg».proof.Proof.KI.KSpec
import proofs.«113847_j61718680043593_1_alg».proof.Proof.Ref.Spec
import proofs.«113847_j61718680043593_1_alg».proof.Proof.LibNary3
import proofs.«113847_j61718680043593_1_alg».proof.Proof.BridgeMat
import proofs.«113847_j61718680043593_1_alg».proof.Proof.BridgeAttn

set_option maxRecDepth 3304

noncomputable section

namespace Cert.KernelIdeal.Hand

open Cert.KernelIdeal Cert.KernelIdeal.Gen Cert.KernelIdeal.GenP
open Idealize.ShloMosaic Idealize.ShloMosaic.TcCoe
open Cert.ReferenceIdeal.Hand (w128 b128 w128x256 b256 w256x128)

variable [Cert.KernelIdeal.Facts] [Cert.ReferenceIdeal.Facts]

theorem host8_v129 (W : Valuation τ sig (Elt Ideal)) :
    StableHlo.after hostOps8 W main_v129 = kQ (W main_v128) := by
  show StableHlo.after hostOps8 W (Proc.devRef .tc main_v129) = _
  after_results
  rfl

theorem host8_v130 (W : Valuation τ sig (Elt Ideal)) :
    StableHlo.after hostOps8 W main_v130 = kK (W main_v128) := by
  show StableHlo.after hostOps8 W (Proc.devRef .tc main_v130) = _
  after_results
  rfl

theorem host8_v131 (W : Valuation τ sig (Elt Ideal)) :
    StableHlo.after hostOps8 W main_v131 = kV (W main_v128) := by
  show StableHlo.after hostOps8 W (Proc.devRef .tc main_v131) = _
  after_results
  rfl

theorem host8_v133 (W : Valuation τ sig (Elt Ideal)) :
    StableHlo.after hostOps8 W main_v133 = w128 (F := Ideal) 1 (W main_arg12) := by
  show StableHlo.after hostOps8 W (Proc.devRef .tc main_v133) = _
  after_results
  rfl

def grows (x : FVec Ideal S32768x128 .f32) (i : IVec S524288 32) : FVec Ideal S524288x128 .f32 :=
  Host.gather gather_S32768x128_S524288x1_S524288x128_1_0_n_n_0_1_1128 x (nidx i)

theorem host9_v141 (W : Valuation τ sig (Elt Ideal)) :
    StableHlo.after hostOps9 W main_v141
      = grows (W main_v130) (W main_arg23) := by
  show StableHlo.after hostOps9 W (Proc.devRef .tc main_v141) = _
  after_results_simp
  rfl

theorem host9_v148 (W : Valuation τ sig (Elt Ideal)) :
    StableHlo.after hostOps9 W main_v148
      = grows (W main_v129) (W main_arg24) := by
  show StableHlo.after hostOps9 W (Proc.devRef .tc main_v148) = _
  after_results_simp
  rfl

theorem host9_v155 (W : Valuation τ sig (Elt Ideal)) :
    StableHlo.after hostOps9 W main_v155
      = grows (W main_v131) (W main_arg23) := by
  show StableHlo.after hostOps9 W (Proc.devRef .tc main_v155) = _
  after_results_simp
  rfl

def kquot (A VA : FVec Ideal S524288x128 .f32) (dst : IVec S524288 32) : FVec Ideal S32768x128 .f32 :=
  Host.divf
    (Host.scatterAdd scatter_S32768x128_S524288x1_S524288x128_1_0_0_1 (broadcastInDim S32768x128 ![] bcast_S_S32768x128 (constant S_ .f32 0x00000000#32))
      (broadcastInDim S524288x1 ![0] bcast_S524288_S524288x1_0 dst) VA)
    (maximumf
      (Host.scatterAdd scatter_S32768x128_S524288x1_S524288x128_1_0_0_1 (broadcastInDim S32768x128 ![] bcast_S_S32768x128 (constant S_ .f32 0x00000000#32))
        (broadcastInDim S524288x1 ![0] bcast_S524288_S524288x1_0 dst) A)
      (broadcastInDim S32768x128 ![] bcast_S_S32768x128 (constant S_ .f32 0x358637BD#32)))

theorem kattn_eq (q k v : FVec Ideal S32768x128 .f32) (ep : FVec Ideal S524288x128 .f32) (src dst : IVec S524288 32) :
    kattn q k v ep src dst
      = kquot (Cert.Spec.attnA (E := 524288) (grows k src) (grows q dst) ep)
          (Cert.Spec.attnV (E := 524288) (grows v src) (Cert.Spec.attnA (E := 524288) (grows k src) (grows q dst) ep)) dst := rfl

theorem host10_v165 (W : Valuation τ sig (Elt Ideal)) :
    StableHlo.after hostOps10 W main_v165
      = kquot (W main_v156_0 : FVec Ideal S524288x128 .f32) (W main_v156_1 : FVec Ideal S524288x128 .f32) (W main_arg24 : IVec S524288 32) := by
  show StableHlo.after hostOps10 W (Proc.devRef .tc main_v165) = _
  after_results_simp
  rfl

theorem host10_v167 (W : Valuation τ sig (Elt Ideal)) :
    StableHlo.after hostOps10 W main_v167 = w128 (F := Ideal) 1 (W main_arg13) := by
  show StableHlo.after hostOps10 W (Proc.devRef .tc main_v167) = _
  after_results_simp
  rfl

theorem host10_v170 (W : Valuation τ sig (Elt Ideal)) :
    StableHlo.after hostOps10 W main_v170 = shapeCast S1x128 (b128 (F := Ideal) 1 (W main_arg14)) shapeCasts_S128_S1x128 := by
  show StableHlo.after hostOps10 W (Proc.devRef .tc main_v170) = _
  after_results_simp
  rfl

theorem host11_v194 (W : Valuation τ sig (Elt Ideal)) :
    StableHlo.after (hostOps11 ++ hostOps11_1 ++ hostOps11_2) W main_v194
      = Cert.ReferenceIdeal.Hand.ln (F := Ideal)
          (addf (W main_v120 : FVec Ideal S32768x128 .f32) (W main_v171 : FVec Ideal S32768x128 .f32))
          (b128 1 (W main_arg15 : FVec Ideal S3x128 .f32)) (b128 1 (W main_arg16 : FVec Ideal S3x128 .f32)) := by
  show StableHlo.after (hostOps11 ++ hostOps11_1 ++ hostOps11_2) W (Proc.devRef .tc main_v194) = _
  simp only [hostOps11, hostOps11_1, hostOps11_2, List.cons_append, List.nil_append]
  after_results_simp
  <;> (try simp only [StableHlo.TRef.ofBuf, StableHlo.TRef.toBuf, cast_eq])
  <;> rfl

theorem host11_2_v196 (W : Valuation τ sig (Elt Ideal)) :
    StableHlo.after hostOps11_2 W main_v196 = w128x256 (F := Ideal) 1 (W main_arg17) := by
  show StableHlo.after hostOps11_2 W (Proc.devRef .tc main_v196) = _
  after_results_simp
  rfl

theorem host11_2_v199 (W : Valuation τ sig (Elt Ideal)) :
    StableHlo.after hostOps11_2 W main_v199 = shapeCast S1x256 (b256 (F := Ideal) 1 (W main_arg18)) shapeCasts_S256_S1x256 := by
  show StableHlo.after hostOps11_2 W (Proc.devRef .tc main_v199) = _
  after_results_simp
  rfl

theorem host12_v201 (W : Valuation τ sig (Elt Ideal)) :
    StableHlo.after hostOps12 W main_v201
      = maximumf (F := Ideal) (W main_v200 : FVec Ideal S32768x256 .f32) (broadcastInDim S32768x256 ![] bcast_S_S32768x256 (constant S_ .f32 0x00000000#32)) := by
  show StableHlo.after hostOps12 W (Proc.devRef .tc main_v201) = _
  after_results_simp
  <;> (try simp only [StableHlo.TRef.ofBuf, StableHlo.TRef.toBuf, cast_eq])
  <;> rfl

theorem host12_1_v203 (W : Valuation τ sig (Elt Ideal)) :
    StableHlo.after hostOps12_1 W main_v203 = w256x128 (F := Ideal) 1 (W main_arg19) := by
  show StableHlo.after hostOps12_1 W (Proc.devRef .tc main_v203) = _
  after_results
  rfl

theorem host12_1_v206 (W : Valuation τ sig (Elt Ideal)) :
    StableHlo.after hostOps12_1 W main_v206 = shapeCast S1x128 (b128 (F := Ideal) 1 (W main_arg20)) shapeCasts_S128_S1x128 := by
  show StableHlo.after hostOps12_1 W (Proc.devRef .tc main_v206) = _
  after_results
  rfl

theorem host13_v230 (W : Valuation τ sig (Elt Ideal)) :
    StableHlo.after (hostOps13 ++ hostOps13_1 ++ hostOps13_2) W main_v230
      = Cert.ReferenceIdeal.Hand.ln (F := Ideal)
          (addf (W main_v194 : FVec Ideal S32768x128 .f32) (W main_v207 : FVec Ideal S32768x128 .f32))
          (b128 1 (W main_arg21 : FVec Ideal S3x128 .f32)) (b128 1 (W main_arg22 : FVec Ideal S3x128 .f32)) := by
  show StableHlo.after (hostOps13 ++ hostOps13_1 ++ hostOps13_2) W (Proc.devRef .tc main_v230) = _
  simp only [hostOps13, hostOps13_1, hostOps13_2, List.cons_append, List.nil_append]
  after_results_simp
  <;> (try simp only [StableHlo.TRef.ofBuf, StableHlo.TRef.toBuf, cast_eq])
  <;> rfl

theorem host13_2_v237 (W : Valuation τ sig (Elt Ideal)) :
    StableHlo.after hostOps13_2 W main_v237
      = concatenate S128x384 1 [⟨S128x128, w128 (F := Ideal) 2 (W main_arg9)⟩, ⟨S128x128, w128 (F := Ideal) 2 (W main_arg10)⟩, ⟨S128x128, w128 (F := Ideal) 2 (W main_arg11)⟩]
          concatenates_S128x128_S128x128_S128x128_S128x384_d1 := by
  show StableHlo.after hostOps13_2 W (Proc.devRef .tc main_v237) = _
  simp (disch := decide) only [StableHlo.after_cons, StableHlo.after_nil, StableHlo.nary3_result',
    StableHlo.nullary_result', StableHlo.unary_result', StableHlo.binary_result', StableHlo.reshape_result',
    StableHlo.nullary_result_ne', StableHlo.unary_result_ne', StableHlo.binary_result_ne', StableHlo.reshape_result_ne']
  rfl

open Lean Elab Tactic in

elab "vkeep " hi:num lo:num : tactic => do
  let hi := hi.getNat
  let lo := lo.getNat
  for k in [0:hi - lo] do
    let j := hi - k
    let id := mkIdent (Name.mkSimple s!"V{j}_of")
    if j == 1 then
      evalTactic (← `(tactic| refine Eq.trans ($id _ _ _ (by decide)) ?_))
    else
      evalTactic (← `(tactic| refine Eq.trans ($id _ _ _ _ (by decide)) ?_))
  evalTactic (← `(tactic| rfl))

section Chain

variable (m : (ℓ : Loc nD τ sig) → Buf (Elt Ideal) ℓ) (outs : Outs (F := Ideal)) (c : Dev nD)

set_option quotPrecheck false in

local notation "𝔞" K:max => m ((c : Thread nD τ).loc K)

theorem V21_arg12 : V21 m outs c main_arg12 = 𝔞 main_arg12 := by vkeep 21 0
theorem V23_arg23 : V23 m outs c main_arg23 = 𝔞 main_arg23 := by vkeep 23 0
theorem V23_arg24 : V23 m outs c main_arg24 = 𝔞 main_arg24 := by vkeep 23 0
theorem V25_arg24 : V25 m outs c main_arg24 = 𝔞 main_arg24 := by vkeep 25 0
theorem V25_arg13 : V25 m outs c main_arg13 = 𝔞 main_arg13 := by vkeep 25 0
theorem V25_arg14 : V25 m outs c main_arg14 = 𝔞 main_arg14 := by vkeep 25 0
theorem V27_arg15 : V27 m outs c main_arg15 = 𝔞 main_arg15 := by vkeep 27 0
theorem V27_arg16 : V27 m outs c main_arg16 = 𝔞 main_arg16 := by vkeep 27 0
theorem V29_arg17 : V29 m outs c main_arg17 = 𝔞 main_arg17 := by vkeep 29 0
theorem V29_arg18 : V29 m outs c main_arg18 = 𝔞 main_arg18 := by vkeep 29 0
theorem V32_arg19 : V32 m outs c main_arg19 = 𝔞 main_arg19 := by vkeep 32 0
theorem V32_arg20 : V32 m outs c main_arg20 = 𝔞 main_arg20 := by vkeep 32 0
theorem V34_arg21 : V34 m outs c main_arg21 = 𝔞 main_arg21 := by vkeep 34 0
theorem V34_arg22 : V34 m outs c main_arg22 = 𝔞 main_arg22 := by vkeep 34 0
theorem V36_arg9 : V36 m outs c main_arg9 = 𝔞 main_arg9 := by vkeep 36 0
theorem V36_arg10 : V36 m outs c main_arg10 = 𝔞 main_arg10 := by vkeep 36 0
theorem V36_arg11 : V36 m outs c main_arg11 = 𝔞 main_arg11 := by vkeep 36 0

theorem V30_eq : V30 m outs c = StableHlo.after (hostOps11 ++ hostOps11_1 ++ hostOps11_2) (V27 m outs c) := by
  rw [StableHlo.after_append, StableHlo.after_append]

theorem V37_eq : V37 m outs c = StableHlo.after (hostOps13 ++ hostOps13_1 ++ hostOps13_2) (V34 m outs c) := by
  rw [StableHlo.after_append, StableHlo.after_append]

end Chain

section Main

variable (m : (ℓ : Loc nD τ sig) → Buf (Elt Ideal) ℓ) (outs : Outs (F := Ideal)) (c : Dev nD)
variable (H : FVec Ideal S32768x128 .f32) (E : FVec Ideal S524288x128 .f32)

set_option quotPrecheck false in

local notation "𝔞" K:max => m ((c : Thread nD τ).loc K)

set_option quotPrecheck false in local notation "𝔴q" => w128 (F := Ideal) 1 (𝔞 main_arg9)
set_option quotPrecheck false in local notation "𝔴k" => w128 (F := Ideal) 1 (𝔞 main_arg10)
set_option quotPrecheck false in local notation "𝔴v" => w128 (F := Ideal) 1 (𝔞 main_arg11)
set_option quotPrecheck false in local notation "𝔴e" => w128 (F := Ideal) 1 (𝔞 main_arg12)
set_option quotPrecheck false in local notation "𝔴l" => w128 (F := Ideal) 1 (𝔞 main_arg13)
set_option quotPrecheck false in local notation "𝔟l" => b128 (F := Ideal) 1 (𝔞 main_arg14)
set_option quotPrecheck false in local notation "𝔤a" => b128 (F := Ideal) 1 (𝔞 main_arg15)
set_option quotPrecheck false in local notation "𝔟a" => b128 (F := Ideal) 1 (𝔞 main_arg16)
set_option quotPrecheck false in local notation "𝔴f" => w128x256 (F := Ideal) 1 (𝔞 main_arg17)
set_option quotPrecheck false in local notation "𝔟f" => b256 (F := Ideal) 1 (𝔞 main_arg18)
set_option quotPrecheck false in local notation "𝔴s" => w256x128 (F := Ideal) 1 (𝔞 main_arg19)
set_option quotPrecheck false in local notation "𝔟s" => b128 (F := Ideal) 1 (𝔞 main_arg20)
set_option quotPrecheck false in local notation "𝔤b" => b128 (F := Ideal) 1 (𝔞 main_arg21)
set_option quotPrecheck false in local notation "𝔟b" => b128 (F := Ideal) 1 (𝔞 main_arg22)
set_option quotPrecheck false in local notation "𝔔" => kqkv H 𝔴q 𝔴k 𝔴v
set_option quotPrecheck false in local notation "𝔄" => kattn (kQ 𝔔) (kK 𝔔) (kV 𝔔) (kep E 𝔴e) (𝔞 main_arg23) (𝔞 main_arg24)
set_option quotPrecheck false in local notation "𝔛" => Cert.ReferenceIdeal.Hand.ln (F := Ideal) (kres H 𝔄 𝔴l 𝔟l) 𝔤a 𝔟a

theorem chain1
    (e120 : V20 m outs c main_v120 = H) (e8 : V20 m outs c main_v8 = E)
    (e9 : V20 m outs c main_v9 = zero384) (e10 : V20 m outs c main_v10 = zero128)
    (e127 : V20 m outs c main_v127
      = concatenate S128x384 1 [⟨S128x128, 𝔴q⟩, ⟨S128x128, 𝔴k⟩, ⟨S128x128, 𝔴v⟩] concatenates_S128x128_S128x128_S128x128_S128x384_d1)
    (h21 : outs 21 main_v128 c = Cert.Spec.affine (M := 32768) (K := 128) (N := 384)
      (V20 m outs c main_v120) (V20 m outs c main_v127) (V20 m outs c main_v9))
    (h23 : outs 23 main_v134 c = Cert.Spec.affine (M := 524288) (K := 128) (N := 128)
      (V22 m outs c main_v8) (V22 m outs c main_v133) (V22 m outs c main_v10))
    (h25a : outs 25 main_v156_0 c = Cert.Spec.attnA (E := 524288)
      (V24 m outs c main_v141) (V24 m outs c main_v148) (V24 m outs c main_v134))
    (h25b : outs 25 main_v156_1 c = Cert.Spec.attnV (E := 524288) (V24 m outs c main_v155)
      (Cert.Spec.attnA (E := 524288) (V24 m outs c main_v141) (V24 m outs c main_v148) (V24 m outs c main_v134)))
    (h27 : outs 27 main_v171 c = Cert.Spec.affine (M := 32768) (K := 128) (N := 128)
      (V26 m outs c main_v165) (V26 m outs c main_v167) (V26 m outs c main_v170))
    (h31 : outs 31 main_v200 c = Cert.Spec.affine (M := 32768) (K := 128) (N := 256)
      (V30 m outs c main_v194) (V30 m outs c main_v196) (V30 m outs c main_v199))
    (h34 : outs 34 main_v207 c = Cert.Spec.affine (M := 32768) (K := 256) (N := 128)
      (V33 m outs c main_v201) (V33 m outs c main_v203) (V33 m outs c main_v206)) :
    V37 m outs c main_v230
        = Cert.ReferenceIdeal.Hand.layer (F := Ideal) H E 𝔴q 𝔴k 𝔴v 𝔴e 𝔴l 𝔟l 𝔤a 𝔟a 𝔴f 𝔟f 𝔴s 𝔟s 𝔤b 𝔟b (𝔞 main_arg23) (𝔞 main_arg24)
      ∧ V37 m outs c main_v8 = E ∧ V37 m outs c main_v9 = zero384 ∧ V37 m outs c main_v10 = zero128
      ∧ V37 m outs c main_v237
        = concatenate S128x384 1 [⟨S128x128, w128 (F := Ideal) 2 (𝔞 main_arg9)⟩, ⟨S128x128, w128 (F := Ideal) 2 (𝔞 main_arg10)⟩,
            ⟨S128x128, w128 (F := Ideal) 2 (𝔞 main_arg11)⟩] concatenates_S128x128_S128x128_S128x128_S128x384_d1 := by

  have s128 : V21 m outs c main_v128 = 𝔔 := by
    simp only [V21, Function.update_self]
    rw [h21, e120, e127, e9]; rfl

  have s129 : V22 m outs c main_v129 = kQ 𝔔 := (host8_v129 (V21 m outs c)).trans (congrArg kQ s128)
  have s130 : V22 m outs c main_v130 = kK 𝔔 := (host8_v130 (V21 m outs c)).trans (congrArg kK s128)
  have s131 : V22 m outs c main_v131 = kV 𝔔 := (host8_v131 (V21 m outs c)).trans (congrArg kV s128)
  have s133 : V22 m outs c main_v133 = 𝔴e :=
    (host8_v133 (V21 m outs c)).trans (congrArg (w128 (F := Ideal) 1) (V21_arg12 m outs c))
  have k8 : V22 m outs c main_v8 = E := by refine Eq.trans ?_ e8; vkeep 22 20
  have k10 : V22 m outs c main_v10 = zero128 := by refine Eq.trans ?_ e10; vkeep 22 20

  have s134 : V23 m outs c main_v134 = kep E 𝔴e := by
    simp only [V23, Function.update_self]
    rw [h23, k8, s133, k10]; rfl

  have k129 : V23 m outs c main_v129 = kQ 𝔔 := by refine Eq.trans ?_ s129; vkeep 23 22
  have k130 : V23 m outs c main_v130 = kK 𝔔 := by refine Eq.trans ?_ s130; vkeep 23 22
  have k131 : V23 m outs c main_v131 = kV 𝔔 := by refine Eq.trans ?_ s131; vkeep 23 22
  have s141 : V24 m outs c main_v141 = grows (kK 𝔔) (𝔞 main_arg23) :=
    (host9_v141 (V23 m outs c)).trans (by rw [k130, V23_arg23 m outs c])
  have s148 : V24 m outs c main_v148 = grows (kQ 𝔔) (𝔞 main_arg24) :=
    (host9_v148 (V23 m outs c)).trans (by rw [k129, V23_arg24 m outs c])
  have s155 : V24 m outs c main_v155 = grows (kV 𝔔) (𝔞 main_arg23) :=
    (host9_v155 (V23 m outs c)).trans (by rw [k131, V23_arg23 m outs c])
  have k134 : V24 m outs c main_v134 = kep E 𝔴e := by refine Eq.trans ?_ s134; vkeep 24 23

  have s156_0 : V25 m outs c main_v156_0
      = Cert.Spec.attnA (E := 524288) (grows (kK 𝔔) (𝔞 main_arg23)) (grows (kQ 𝔔) (𝔞 main_arg24)) (kep E 𝔴e) := by
    simp only [V25, Function.update_of_ne (StableHlo.devRef_ne_of_ne (by decide : main_v156_0 ≠ main_v156_1) :
      (Proc.devRef .tc main_v156_0 : DevRef τ sig) ≠ Proc.devRef .tc main_v156_1), Function.update_self]
    rw [h25a, s141, s148, k134]
  have s156_1 : V25 m outs c main_v156_1
      = Cert.Spec.attnV (E := 524288) (grows (kV 𝔔) (𝔞 main_arg23))
          (Cert.Spec.attnA (E := 524288) (grows (kK 𝔔) (𝔞 main_arg23)) (grows (kQ 𝔔) (𝔞 main_arg24)) (kep E 𝔴e)) := by
    simp only [V25, Function.update_self]
    rw [h25b, s155, s141, s148, k134]

  have s165 : V26 m outs c main_v165 = 𝔄 :=
    (host10_v165 (V25 m outs c)).trans (by rw [s156_0, s156_1, V25_arg24 m outs c, kattn_eq])
  have s167 : V26 m outs c main_v167 = 𝔴l :=
    (host10_v167 (V25 m outs c)).trans (congrArg (w128 (F := Ideal) 1) (V25_arg13 m outs c))
  have s170 : V26 m outs c main_v170 = shapeCast S1x128 𝔟l shapeCasts_S128_S1x128 :=
    (host10_v170 (V25 m outs c)).trans (by rw [V25_arg14 m outs c])

  have s171 : V27 m outs c main_v171
      = Cert.Spec.affine (M := 32768) (K := 128) (N := 128) 𝔄 𝔴l (shapeCast S1x128 𝔟l shapeCasts_S128_S1x128) := by
    simp only [V27, Function.update_self]
    rw [h27, s165, s167, s170]
  have k120 : V27 m outs c main_v120 = H := by refine Eq.trans ?_ e120; vkeep 27 20

  have s194 : V30 m outs c main_v194 = 𝔛 :=
    (congrFun (V30_eq m outs c) _).trans ((host11_v194 (V27 m outs c)).trans
      (by rw [k120, s171, V27_arg15 m outs c, V27_arg16 m outs c]; rfl))
  have s196 : V30 m outs c main_v196 = 𝔴f :=
    (host11_2_v196 (V29 m outs c)).trans (congrArg (w128x256 (F := Ideal) 1) (V29_arg17 m outs c))
  have s199 : V30 m outs c main_v199 = shapeCast S1x256 𝔟f shapeCasts_S256_S1x256 :=
    (host11_2_v199 (V29 m outs c)).trans (by rw [V29_arg18 m outs c])

  have s200 : V31 m outs c main_v200
      = Cert.Spec.affine (M := 32768) (K := 128) (N := 256) 𝔛 𝔴f (shapeCast S1x256 𝔟f shapeCasts_S256_S1x256) := by
    simp only [V31, Function.update_self]
    rw [h31, s194, s196, s199]
  have s201 : V32 m outs c main_v201
      = maximumf (F := Ideal) (Cert.Spec.affine (M := 32768) (K := 128) (N := 256) 𝔛 𝔴f (shapeCast S1x256 𝔟f shapeCasts_S256_S1x256))
          (broadcastInDim S32768x256 ![] bcast_S_S32768x256 (constant S_ .f32 0x00000000#32)) :=
    (host12_v201 (V31 m outs c)).trans (by rw [s200])
  have k201 : V33 m outs c main_v201
      = maximumf (F := Ideal) (Cert.Spec.affine (M := 32768) (K := 128) (N := 256) 𝔛 𝔴f (shapeCast S1x256 𝔟f shapeCasts_S256_S1x256))
          (broadcastInDim S32768x256 ![] bcast_S_S32768x256 (constant S_ .f32 0x00000000#32)) := by
    refine Eq.trans ?_ s201; vkeep 33 32
  have s203 : V33 m outs c main_v203 = 𝔴s :=
    (host12_1_v203 (V32 m outs c)).trans (congrArg (w256x128 (F := Ideal) 1) (V32_arg19 m outs c))
  have s206 : V33 m outs c main_v206 = shapeCast S1x128 𝔟s shapeCasts_S128_S1x128 :=
    (host12_1_v206 (V32 m outs c)).trans (by rw [V32_arg20 m outs c])
  have s207 : V34 m outs c main_v207 = kffn 𝔛 𝔴f 𝔟f 𝔴s 𝔟s := by
    simp only [V34, Function.update_self]
    rw [h34, k201, s203, s206]; rfl
  have k194 : V34 m outs c main_v194 = 𝔛 := by refine Eq.trans ?_ s194; vkeep 34 30

  have s230 : V37 m outs c main_v230
      = Cert.ReferenceIdeal.Hand.ln (F := Ideal) (addf 𝔛 (kffn 𝔛 𝔴f 𝔟f 𝔴s 𝔟s)) 𝔤b 𝔟b :=
    (congrFun (V37_eq m outs c) _).trans ((host13_v230 (V34 m outs c)).trans
      (by rw [k194, s207, V34_arg21 m outs c, V34_arg22 m outs c]))

  have hA : 𝔄 = Cert.ReferenceIdeal.Hand.attn (F := Ideal) H E 𝔴q 𝔴k 𝔴v 𝔴e (𝔞 main_arg23) (𝔞 main_arg24) := by
    rw [Cert.Bridge.q_bridge, Cert.Bridge.k_bridge, Cert.Bridge.v_bridge, Cert.Bridge.ep_bridge, Cert.Bridge.attn_bridge]
  have hX : 𝔛 = Cert.ReferenceIdeal.Hand.ln (F := Ideal)
      (Cert.ReferenceIdeal.Hand.res (F := Ideal) H
        (Cert.ReferenceIdeal.Hand.attn (F := Ideal) H E 𝔴q 𝔴k 𝔴v 𝔴e (𝔞 main_arg23) (𝔞 main_arg24)) 𝔴l 𝔟l) 𝔤a 𝔟a := by
    rw [hA, Cert.Bridge.res_bridge]
  refine ⟨?_, ?_, ?_, ?_, ?_⟩
  · refine s230.trans ?_
    rw [hX, Cert.Bridge.ffn_bridge]
    rfl
  · refine Eq.trans ?_ e8; vkeep 37 20
  · refine Eq.trans ?_ e9; vkeep 37 20
  · refine Eq.trans ?_ e10; vkeep 37 20
  · exact (host13_2_v237 (V36 m outs c)).trans (by rw [V36_arg9 m outs c, V36_arg10 m outs c, V36_arg11 m outs c])

end Main

end Cert.KernelIdeal.Hand

end
-- ==== Proof.KI.Chain2.lean ====
import proofs.«113847_j61718680043593_1_alg».proof.Proof.KI.RegionsP
import proofs.«113847_j61718680043593_1_alg».proof.Proof.KI.KSpec
import proofs.«113847_j61718680043593_1_alg».proof.Proof.Ref.Spec
import proofs.«113847_j61718680043593_1_alg».proof.Proof.LibSpec
import proofs.«113847_j61718680043593_1_alg».proof.Proof.BridgeMat
import proofs.«113847_j61718680043593_1_alg».proof.Proof.BridgeAttn
import Idealize.ShloMosaic.Lib.StableHlo.Run

set_option maxRecDepth 3304

noncomputable section

namespace Cert.KernelIdeal.Hand

open Cert.KernelIdeal Cert.KernelIdeal.Gen Cert.KernelIdeal.GenP
open Idealize.ShloMosaic Idealize.ShloMosaic.TcCoe

variable [Cert.KernelIdeal.Facts] [Cert.ReferenceIdeal.Facts]

theorem host14_v239 (W : Valuation τ sig (Elt Ideal)) :
    StableHlo.after (hostOps14 (F := Ideal)) W main_v239 = kQ (W main_v238) := by
  show StableHlo.after hostOps14 W (Proc.devRef .tc main_v239) = _
  after_results
  rfl

theorem host14_v240 (W : Valuation τ sig (Elt Ideal)) :
    StableHlo.after (hostOps14 (F := Ideal)) W main_v240 = kK (W main_v238) := by
  show StableHlo.after hostOps14 W (Proc.devRef .tc main_v240) = _
  after_results
  rfl

theorem host14_v241 (W : Valuation τ sig (Elt Ideal)) :
    StableHlo.after (hostOps14 (F := Ideal)) W main_v241 = kV (W main_v238) := by
  show StableHlo.after hostOps14 W (Proc.devRef .tc main_v241) = _
  after_results
  rfl

theorem host14_v243 (W : Valuation τ sig (Elt Ideal)) :
    StableHlo.after (hostOps14 (F := Ideal)) W main_v243 = Cert.ReferenceIdeal.Hand.w128 (F := Ideal) 2 (W main_arg12) := by
  show StableHlo.after hostOps14 W (Proc.devRef .tc main_v243) = _
  after_results
  rfl

abbrev hostOps17all : List (HloOp τ sig (Elt Ideal)) := hostOps17 ++ hostOps17_1 ++ hostOps17_2

theorem host17_v282 (W : Valuation τ sig (Elt Ideal)) :
    StableHlo.after hostOps17all W main_v282 = (addf (W main_v230 : FVec Ideal S32768x128 .f32) (W main_v281) : FVec Ideal S32768x128 .f32) := by
  show StableHlo.after hostOps17all W (Proc.devRef .tc main_v282) = _
  simp only [hostOps17all, hostOps17, hostOps17_1, hostOps17_2, List.cons_append, List.nil_append]
  after_results_simp <;> rfl

theorem host17_v304 (W : Valuation τ sig (Elt Ideal)) :
    StableHlo.after hostOps17all W main_v304
      = Cert.ReferenceIdeal.Hand.ln (F := Ideal) (addf (W main_v230 : FVec Ideal S32768x128 .f32) (W main_v281))
          (Cert.ReferenceIdeal.Hand.b128 (F := Ideal) 2 (W main_arg15)) (Cert.ReferenceIdeal.Hand.b128 (F := Ideal) 2 (W main_arg16)) := by
  show StableHlo.after hostOps17all W (Proc.devRef .tc main_v304) = _
  simp only [hostOps17all, hostOps17, hostOps17_1, hostOps17_2, List.cons_append, List.nil_append]
  after_results_simp <;> rfl

theorem host17_v306 (W : Valuation τ sig (Elt Ideal)) :
    StableHlo.after hostOps17all W main_v306 = Cert.ReferenceIdeal.Hand.w128x256 (F := Ideal) 2 (W main_arg17) := by
  show StableHlo.after hostOps17all W (Proc.devRef .tc main_v306) = _
  simp only [hostOps17all, hostOps17, hostOps17_1, hostOps17_2, List.cons_append, List.nil_append]
  after_results_simp <;> rfl

theorem host17_v309 (W : Valuation τ sig (Elt Ideal)) :
    StableHlo.after hostOps17all W main_v309
      = shapeCast S1x256 (Cert.ReferenceIdeal.Hand.b256 (F := Ideal) 2 (W main_arg18)) shapeCasts_S256_S1x256 := by
  show StableHlo.after hostOps17all W (Proc.devRef .tc main_v309) = _
  simp only [hostOps17all, hostOps17, hostOps17_1, hostOps17_2, List.cons_append, List.nil_append]
  after_results_simp <;> rfl

theorem host15_v251 (W : Valuation τ sig (Elt Ideal)) :
    StableHlo.after (hostOps15 (F := Ideal)) W main_v251
      = Host.gather gather_S32768x128_S524288x1_S524288x128_1_0_n_n_0_1_1128 (W main_v240 : FVec Ideal S32768x128 .f32) (nidx (W main_arg23)) := by
  show StableHlo.after hostOps15 W (Proc.devRef .tc main_v251) = _
  after_results_simp <;> rfl

theorem host15_v258 (W : Valuation τ sig (Elt Ideal)) :
    StableHlo.after (hostOps15 (F := Ideal)) W main_v258
      = Host.gather gather_S32768x128_S524288x1_S524288x128_1_0_n_n_0_1_1128 (W main_v239 : FVec Ideal S32768x128 .f32) (nidx (W main_arg24)) := by
  show StableHlo.after hostOps15 W (Proc.devRef .tc main_v258) = _
  after_results_simp <;> rfl

theorem host15_v265 (W : Valuation τ sig (Elt Ideal)) :
    StableHlo.after (hostOps15 (F := Ideal)) W main_v265
      = Host.gather gather_S32768x128_S524288x1_S524288x128_1_0_n_n_0_1_1128 (W main_v241 : FVec Ideal S32768x128 .f32) (nidx (W main_arg23)) := by
  show StableHlo.after hostOps15 W (Proc.devRef .tc main_v265) = _
  after_results_simp <;> rfl

def kquot2 (AV A : FVec Ideal S524288x128 .f32) (dst : IVec S524288 32) : FVec Ideal S32768x128 .f32 :=
  Host.divf
    (Host.scatterAdd scatter_S32768x128_S524288x1_S524288x128_1_0_0_1 (broadcastInDim S32768x128 ![] bcast_S_S32768x128 (constant S_ .f32 0x00000000#32))
      (broadcastInDim S524288x1 ![0] bcast_S524288_S524288x1_0 dst) AV)
    (maximumf
      (Host.scatterAdd scatter_S32768x128_S524288x1_S524288x128_1_0_0_1 (broadcastInDim S32768x128 ![] bcast_S_S32768x128 (constant S_ .f32 0x00000000#32))
        (broadcastInDim S524288x1 ![0] bcast_S524288_S524288x1_0 dst) A)
      (broadcastInDim S32768x128 ![] bcast_S_S32768x128 (constant S_ .f32 0x358637BD#32)))

theorem kattn_eq2 (q k v : FVec Ideal S32768x128 .f32) (ep : FVec Ideal S524288x128 .f32) (src dst : IVec S524288 32) :
    kattn q k v ep src dst
      = kquot2 (Cert.Spec.attnV (E := 524288) (Host.gather gather_S32768x128_S524288x1_S524288x128_1_0_n_n_0_1_1128 v (nidx src))
            (Cert.Spec.attnA (E := 524288) (Host.gather gather_S32768x128_S524288x1_S524288x128_1_0_n_n_0_1_1128 k (nidx src))
              (Host.gather gather_S32768x128_S524288x1_S524288x128_1_0_n_n_0_1_1128 q (nidx dst)) ep))
          (Cert.Spec.attnA (E := 524288) (Host.gather gather_S32768x128_S524288x1_S524288x128_1_0_n_n_0_1_1128 k (nidx src))
              (Host.gather gather_S32768x128_S524288x1_S524288x128_1_0_n_n_0_1_1128 q (nidx dst)) ep) dst := rfl

theorem host16_v275 (W : Valuation τ sig (Elt Ideal)) :
    StableHlo.after (hostOps16 (F := Ideal)) W main_v275 = kquot2 (W main_v266_1) (W main_v266_0) (W main_arg24) := by
  show StableHlo.after hostOps16 W (Proc.devRef .tc main_v275) = _
  after_results
  rfl

theorem host16_v277 (W : Valuation τ sig (Elt Ideal)) :
    StableHlo.after (hostOps16 (F := Ideal)) W main_v277 = Cert.ReferenceIdeal.Hand.w128 (F := Ideal) 2 (W main_arg13) := by
  show StableHlo.after hostOps16 W (Proc.devRef .tc main_v277) = _
  after_results
  rfl

theorem host16_v280 (W : Valuation τ sig (Elt Ideal)) :
    StableHlo.after (hostOps16 (F := Ideal)) W main_v280
      = shapeCast S1x128 (Cert.ReferenceIdeal.Hand.b128 (F := Ideal) 2 (W main_arg14)) shapeCasts_S128_S1x128 := by
  show StableHlo.after hostOps16 W (Proc.devRef .tc main_v280) = _
  after_results
  rfl

theorem host18_v311 (W : Valuation τ sig (Elt Ideal)) :
    StableHlo.after (hostOps18 (F := Ideal)) W main_v311
      = (maximumf (W main_v310 : FVec Ideal S32768x256 .f32) (broadcastInDim S32768x256 ![] bcast_S_S32768x256 (constant S_ .f32 0x00000000#32)) : FVec Ideal S32768x256 .f32) := by
  show StableHlo.after hostOps18 W (Proc.devRef .tc main_v311) = _
  after_results_simp <;> rfl

theorem host18_1_v313 (W : Valuation τ sig (Elt Ideal)) :
    StableHlo.after (hostOps18_1 (F := Ideal)) W main_v313 = Cert.ReferenceIdeal.Hand.w256x128 (F := Ideal) 2 (W main_arg19) := by
  show StableHlo.after hostOps18_1 W (Proc.devRef .tc main_v313) = _
  after_results
  rfl

theorem host18_1_v316 (W : Valuation τ sig (Elt Ideal)) :
    StableHlo.after (hostOps18_1 (F := Ideal)) W main_v316
      = shapeCast S1x128 (Cert.ReferenceIdeal.Hand.b128 (F := Ideal) 2 (W main_arg20)) shapeCasts_S128_S1x128 := by
  show StableHlo.after hostOps18_1 W (Proc.devRef .tc main_v316) = _
  after_results
  rfl

abbrev hostOps19all : List (HloOp τ sig (Elt Ideal)) := hostOps19 ++ hostOps19_1 ++ hostOps19_2

theorem host19_v344 (W : Valuation τ sig (Elt Ideal)) :
    StableHlo.after hostOps19all W main_v344
      = Cert.ReferenceIdeal.Hand.readout (F := Ideal)
          (Cert.ReferenceIdeal.Hand.ln (F := Ideal) (addf (W main_v304 : FVec Ideal S32768x128 .f32) (W main_v317))
            (Cert.ReferenceIdeal.Hand.b128 (F := Ideal) 2 (W main_arg21)) (Cert.ReferenceIdeal.Hand.b128 (F := Ideal) 2 (W main_arg22))) := by
  show StableHlo.after hostOps19all W (Proc.devRef .tc main_v344) = _
  simp only [hostOps19all, hostOps19, hostOps19_1, hostOps19_2, List.cons_append, List.nil_append]
  after_results_simp <;> rfl

section Chain

variable (m : (ℓ : Loc nD τ sig) → Buf (Elt Ideal) ℓ) (outs : Outs (F := Ideal)) (c : Dev nD)

theorem V38_arg12 : V38 m outs c main_arg12 = m ((c : Thread nD τ).loc main_arg12) :=
  (V39_of m outs c main_arg12 (by decide)).symm.trans <| (V40_of m outs c main_arg12 (by decide)).symm.trans <| (V41_of m outs c main_arg12 (by decide)).symm.trans <| (V42_of m outs c main_arg12 (by decide)).symm.trans <| (V43_of m outs c main_arg12 (by decide)).symm.trans <| (V44_of m outs c main_arg12 (by decide)).symm.trans <| (V45_of m outs c main_arg12 (by decide)).symm.trans <| (V46_of m outs c main_arg12 (by decide)).symm.trans <| (V47_of m outs c main_arg12 (by decide)).symm.trans <| (V48_of m outs c main_arg12 (by decide)).symm.trans <| (V49_of m outs c main_arg12 (by decide)).symm.trans <| (V50_of m outs c main_arg12 (by decide)).symm.trans <| (V51_of m outs c main_arg12 (by decide)).symm.trans <| (V52_of m outs c main_arg12 (by decide)).symm.trans <| (V53_of m outs c main_arg12 (by decide)).symm.trans <| (V54_of m outs c main_arg12 (by decide)).symm.trans <| (V54_main_arg12 m outs c)
theorem V40_arg23 : V40 m outs c main_arg23 = m ((c : Thread nD τ).loc main_arg23) :=
  (V41_of m outs c main_arg23 (by decide)).symm.trans <| (V42_of m outs c main_arg23 (by decide)).symm.trans <| (V43_of m outs c main_arg23 (by decide)).symm.trans <| (V44_of m outs c main_arg23 (by decide)).symm.trans <| (V45_of m outs c main_arg23 (by decide)).symm.trans <| (V46_of m outs c main_arg23 (by decide)).symm.trans <| (V47_of m outs c main_arg23 (by decide)).symm.trans <| (V48_of m outs c main_arg23 (by decide)).symm.trans <| (V49_of m outs c main_arg23 (by decide)).symm.trans <| (V50_of m outs c main_arg23 (by decide)).symm.trans <| (V51_of m outs c main_arg23 (by decide)).symm.trans <| (V52_of m outs c main_arg23 (by decide)).symm.trans <| (V53_of m outs c main_arg23 (by decide)).symm.trans <| (V54_of m outs c main_arg23 (by decide)).symm.trans <| (V54_main_arg23 m outs c)
theorem V40_arg24 : V40 m outs c main_arg24 = m ((c : Thread nD τ).loc main_arg24) :=
  (V41_of m outs c main_arg24 (by decide)).symm.trans <| (V42_of m outs c main_arg24 (by decide)).symm.trans <| (V43_of m outs c main_arg24 (by decide)).symm.trans <| (V44_of m outs c main_arg24 (by decide)).symm.trans <| (V45_of m outs c main_arg24 (by decide)).symm.trans <| (V46_of m outs c main_arg24 (by decide)).symm.trans <| (V47_of m outs c main_arg24 (by decide)).symm.trans <| (V48_of m outs c main_arg24 (by decide)).symm.trans <| (V49_of m outs c main_arg24 (by decide)).symm.trans <| (V50_of m outs c main_arg24 (by decide)).symm.trans <| (V51_of m outs c main_arg24 (by decide)).symm.trans <| (V52_of m outs c main_arg24 (by decide)).symm.trans <| (V53_of m outs c main_arg24 (by decide)).symm.trans <| (V54_of m outs c main_arg24 (by decide)).symm.trans <| (V54_main_arg24 m outs c)
theorem V42_arg24 : V42 m outs c main_arg24 = m ((c : Thread nD τ).loc main_arg24) :=
  (V43_of m outs c main_arg24 (by decide)).symm.trans <| (V44_of m outs c main_arg24 (by decide)).symm.trans <| (V45_of m outs c main_arg24 (by decide)).symm.trans <| (V46_of m outs c main_arg24 (by decide)).symm.trans <| (V47_of m outs c main_arg24 (by decide)).symm.trans <| (V48_of m outs c main_arg24 (by decide)).symm.trans <| (V49_of m outs c main_arg24 (by decide)).symm.trans <| (V50_of m outs c main_arg24 (by decide)).symm.trans <| (V51_of m outs c main_arg24 (by decide)).symm.trans <| (V52_of m outs c main_arg24 (by decide)).symm.trans <| (V53_of m outs c main_arg24 (by decide)).symm.trans <| (V54_of m outs c main_arg24 (by decide)).symm.trans <| (V54_main_arg24 m outs c)
theorem V42_arg13 : V42 m outs c main_arg13 = m ((c : Thread nD τ).loc main_arg13) :=
  (V43_of m outs c main_arg13 (by decide)).symm.trans <| (V44_of m outs c main_arg13 (by decide)).symm.trans <| (V45_of m outs c main_arg13 (by decide)).symm.trans <| (V46_of m outs c main_arg13 (by decide)).symm.trans <| (V47_of m outs c main_arg13 (by decide)).symm.trans <| (V48_of m outs c main_arg13 (by decide)).symm.trans <| (V49_of m outs c main_arg13 (by decide)).symm.trans <| (V50_of m outs c main_arg13 (by decide)).symm.trans <| (V51_of m outs c main_arg13 (by decide)).symm.trans <| (V52_of m outs c main_arg13 (by decide)).symm.trans <| (V53_of m outs c main_arg13 (by decide)).symm.trans <| (V54_of m outs c main_arg13 (by decide)).symm.trans <| (V54_main_arg13 m outs c)
theorem V42_arg14 : V42 m outs c main_arg14 = m ((c : Thread nD τ).loc main_arg14) :=
  (V43_of m outs c main_arg14 (by decide)).symm.trans <| (V44_of m outs c main_arg14 (by decide)).symm.trans <| (V45_of m outs c main_arg14 (by decide)).symm.trans <| (V46_of m outs c main_arg14 (by decide)).symm.trans <| (V47_of m outs c main_arg14 (by decide)).symm.trans <| (V48_of m outs c main_arg14 (by decide)).symm.trans <| (V49_of m outs c main_arg14 (by decide)).symm.trans <| (V50_of m outs c main_arg14 (by decide)).symm.trans <| (V51_of m outs c main_arg14 (by decide)).symm.trans <| (V52_of m outs c main_arg14 (by decide)).symm.trans <| (V53_of m outs c main_arg14 (by decide)).symm.trans <| (V54_of m outs c main_arg14 (by decide)).symm.trans <| (V54_main_arg14 m outs c)
theorem V44_arg15 : V44 m outs c main_arg15 = m ((c : Thread nD τ).loc main_arg15) :=
  (V45_of m outs c main_arg15 (by decide)).symm.trans <| (V46_of m outs c main_arg15 (by decide)).symm.trans <| (V47_of m outs c main_arg15 (by decide)).symm.trans <| (V48_of m outs c main_arg15 (by decide)).symm.trans <| (V49_of m outs c main_arg15 (by decide)).symm.trans <| (V50_of m outs c main_arg15 (by decide)).symm.trans <| (V51_of m outs c main_arg15 (by decide)).symm.trans <| (V52_of m outs c main_arg15 (by decide)).symm.trans <| (V53_of m outs c main_arg15 (by decide)).symm.trans <| (V54_of m outs c main_arg15 (by decide)).symm.trans <| (V54_main_arg15 m outs c)
theorem V44_arg16 : V44 m outs c main_arg16 = m ((c : Thread nD τ).loc main_arg16) :=
  (V45_of m outs c main_arg16 (by decide)).symm.trans <| (V46_of m outs c main_arg16 (by decide)).symm.trans <| (V47_of m outs c main_arg16 (by decide)).symm.trans <| (V48_of m outs c main_arg16 (by decide)).symm.trans <| (V49_of m outs c main_arg16 (by decide)).symm.trans <| (V50_of m outs c main_arg16 (by decide)).symm.trans <| (V51_of m outs c main_arg16 (by decide)).symm.trans <| (V52_of m outs c main_arg16 (by decide)).symm.trans <| (V53_of m outs c main_arg16 (by decide)).symm.trans <| (V54_of m outs c main_arg16 (by decide)).symm.trans <| (V54_main_arg16 m outs c)
theorem V44_arg17 : V44 m outs c main_arg17 = m ((c : Thread nD τ).loc main_arg17) :=
  (V45_of m outs c main_arg17 (by decide)).symm.trans <| (V46_of m outs c main_arg17 (by decide)).symm.trans <| (V47_of m outs c main_arg17 (by decide)).symm.trans <| (V48_of m outs c main_arg17 (by decide)).symm.trans <| (V49_of m outs c main_arg17 (by decide)).symm.trans <| (V50_of m outs c main_arg17 (by decide)).symm.trans <| (V51_of m outs c main_arg17 (by decide)).symm.trans <| (V52_of m outs c main_arg17 (by decide)).symm.trans <| (V53_of m outs c main_arg17 (by decide)).symm.trans <| (V54_of m outs c main_arg17 (by decide)).symm.trans <| (V54_main_arg17 m outs c)
theorem V44_arg18 : V44 m outs c main_arg18 = m ((c : Thread nD τ).loc main_arg18) :=
  (V45_of m outs c main_arg18 (by decide)).symm.trans <| (V46_of m outs c main_arg18 (by decide)).symm.trans <| (V47_of m outs c main_arg18 (by decide)).symm.trans <| (V48_of m outs c main_arg18 (by decide)).symm.trans <| (V49_of m outs c main_arg18 (by decide)).symm.trans <| (V50_of m outs c main_arg18 (by decide)).symm.trans <| (V51_of m outs c main_arg18 (by decide)).symm.trans <| (V52_of m outs c main_arg18 (by decide)).symm.trans <| (V53_of m outs c main_arg18 (by decide)).symm.trans <| (V54_of m outs c main_arg18 (by decide)).symm.trans <| (V54_main_arg18 m outs c)
theorem V49_arg19 : V49 m outs c main_arg19 = m ((c : Thread nD τ).loc main_arg19) :=
  (V50_of m outs c main_arg19 (by decide)).symm.trans <| (V51_of m outs c main_arg19 (by decide)).symm.trans <| (V52_of m outs c main_arg19 (by decide)).symm.trans <| (V53_of m outs c main_arg19 (by decide)).symm.trans <| (V54_of m outs c main_arg19 (by decide)).symm.trans <| (V54_main_arg19 m outs c)
theorem V49_arg20 : V49 m outs c main_arg20 = m ((c : Thread nD τ).loc main_arg20) :=
  (V50_of m outs c main_arg20 (by decide)).symm.trans <| (V51_of m outs c main_arg20 (by decide)).symm.trans <| (V52_of m outs c main_arg20 (by decide)).symm.trans <| (V53_of m outs c main_arg20 (by decide)).symm.trans <| (V54_of m outs c main_arg20 (by decide)).symm.trans <| (V54_main_arg20 m outs c)
theorem V51_arg21 : V51 m outs c main_arg21 = m ((c : Thread nD τ).loc main_arg21) :=
  (V52_of m outs c main_arg21 (by decide)).symm.trans <| (V53_of m outs c main_arg21 (by decide)).symm.trans <| (V54_of m outs c main_arg21 (by decide)).symm.trans <| (V54_main_arg21 m outs c)
theorem V51_arg22 : V51 m outs c main_arg22 = m ((c : Thread nD τ).loc main_arg22) :=
  (V52_of m outs c main_arg22 (by decide)).symm.trans <| (V53_of m outs c main_arg22 (by decide)).symm.trans <| (V54_of m outs c main_arg22 (by decide)).symm.trans <| (V54_main_arg22 m outs c)

open Cert.ReferenceIdeal.Hand (w128 b128 w128x256 b256 w256x128 ln res attn ffn layer readout)

set_option quotPrecheck false

local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)
local notation "a17" => m ((c : Thread nD τ).loc main_arg17)
local notation "a18" => m ((c : Thread nD τ).loc main_arg18)
local notation "a19" => m ((c : Thread nD τ).loc main_arg19)
local notation "a20" => m ((c : Thread nD τ).loc main_arg20)
local notation "a21" => m ((c : Thread nD τ).loc main_arg21)
local notation "a22" => m ((c : Thread nD τ).loc main_arg22)
local notation "a23" => m ((c : Thread nD τ).loc main_arg23)
local notation "a24" => m ((c : Thread nD τ).loc main_arg24)
local notation "dotN" => Host.dotGeneral (F := Ideal) Cert.ReferenceIdeal.dot_S32768x128_S128x128_S32768x128_1_0_0_1_n_n none
local notation "dotE" => Host.dotGeneral (F := Ideal) Cert.ReferenceIdeal.dot_S524288x128_S128x128_S524288x128_1_0_0_1_n_n none

theorem V47_eq : V47 m outs c = StableHlo.after hostOps17all (V44 m outs c) := by
  show StableHlo.after hostOps17_2 (StableHlo.after hostOps17_1 (StableHlo.after hostOps17 (V44 m outs c)))
    = StableHlo.after (hostOps17 ++ hostOps17_1 ++ hostOps17_2) (V44 m outs c)
  rw [StableHlo.after_append, StableHlo.after_append]

theorem V54_eq : V54 m outs c = StableHlo.after hostOps19all (V51 m outs c) := by
  show StableHlo.after hostOps19_2 (StableHlo.after hostOps19_1 (StableHlo.after hostOps19 (V51 m outs c)))
    = StableHlo.after (hostOps19 ++ hostOps19_1 ++ hostOps19_2) (V51 m outs c)
  rw [StableHlo.after_append, StableHlo.after_append]

theorem chain2 (H : FVec Ideal S32768x128 .f32) (E : FVec Ideal S524288x128 .f32)
    (e230 : V37 m outs c main_v230 = H) (e8 : V37 m outs c main_v8 = E)
    (e9 : V37 m outs c main_v9 = zero384) (e10 : V37 m outs c main_v10 = zero128)
    (e237 : V37 m outs c main_v237
      = concatenate S128x384 1 [⟨S128x128, (w128 (F := Ideal) 2 a9)⟩, ⟨S128x128, (w128 (F := Ideal) 2 a10)⟩, ⟨S128x128, (w128 (F := Ideal) 2 a11)⟩] concatenates_S128x128_S128x128_S128x128_S128x384_d1)
    (h38 : outs 38 main_v238 c = Cert.Spec.affine (M := 32768) (K := 128) (N := 384) (V37 m outs c main_v230) (V37 m outs c main_v237) (V37 m outs c main_v9))
    (h40 : outs 40 main_v244 c = Cert.Spec.affine (M := 524288) (K := 128) (N := 128) (V39 m outs c main_v8) (V39 m outs c main_v243) (V39 m outs c main_v10))
    (h42a : outs 42 main_v266_0 c = Cert.Spec.attnA (E := 524288) (V41 m outs c main_v251) (V41 m outs c main_v258) (V41 m outs c main_v244))
    (h42b : outs 42 main_v266_1 c = Cert.Spec.attnV (E := 524288) (V41 m outs c main_v265)
      (Cert.Spec.attnA (E := 524288) (V41 m outs c main_v251) (V41 m outs c main_v258) (V41 m outs c main_v244)))
    (h44 : outs 44 main_v281 c = Cert.Spec.affine (M := 32768) (K := 128) (N := 128) (V43 m outs c main_v275) (V43 m outs c main_v277) (V43 m outs c main_v280))
    (h48 : outs 48 main_v310 c = Cert.Spec.affine (M := 32768) (K := 128) (N := 256) (V47 m outs c main_v304) (V47 m outs c main_v306) (V47 m outs c main_v309))
    (h51 : outs 51 main_v317 c = Cert.Spec.affine (M := 32768) (K := 256) (N := 128) (V50 m outs c main_v311) (V50 m outs c main_v313) (V50 m outs c main_v316)) :
    V54 m outs c main_v344
      = readout (F := Ideal) (layer (F := Ideal) H E (w128 (F := Ideal) 2 a9) (w128 (F := Ideal) 2 a10) (w128 (F := Ideal) 2 a11) (w128 (F := Ideal) 2 a12) (w128 (F := Ideal) 2 a13) (b128 (F := Ideal) 2 a14) (b128 (F := Ideal) 2 a15) (b128 (F := Ideal) 2 a16) (w128x256 (F := Ideal) 2 a17) (b256 (F := Ideal) 2 a18) (w256x128 (F := Ideal) 2 a19) (b128 (F := Ideal) 2 a20) (b128 (F := Ideal) 2 a21) (b128 (F := Ideal) 2 a22) a23 a24) := by

  have s238 : V38 m outs c main_v238 = kqkv H (w128 (F := Ideal) 2 a9) (w128 (F := Ideal) 2 a10) (w128 (F := Ideal) 2 a11) := by
    refine (Function.update_self ..).trans (h38.trans ?_)
    rw [e230, e237, e9]; rfl

  have s239 : V39 m outs c main_v239 = dotN H (w128 (F := Ideal) 2 a9) :=
    (host14_v239 (V38 m outs c)).trans (by rw [s238]; exact Cert.Bridge.q_bridge H _ _ _)
  have s240 : V39 m outs c main_v240 = dotN H (w128 (F := Ideal) 2 a10) :=
    (host14_v240 (V38 m outs c)).trans (by rw [s238]; exact Cert.Bridge.k_bridge H _ _ _)
  have s241 : V39 m outs c main_v241 = dotN H (w128 (F := Ideal) 2 a11) :=
    (host14_v241 (V38 m outs c)).trans (by rw [s238]; exact Cert.Bridge.v_bridge H _ _ _)
  have s243 : V39 m outs c main_v243 = w128 (F := Ideal) 2 a12 :=
    (host14_v243 (V38 m outs c)).trans (by rw [V38_arg12])
  have s8 : V39 m outs c main_v8 = E := ((V39_of m outs c main_v8 (by decide)).trans <| (V38_of m outs c main_v8 (by decide))).trans e8
  have s10 : V39 m outs c main_v10 = zero128 := ((V39_of m outs c main_v10 (by decide)).trans <| (V38_of m outs c main_v10 (by decide))).trans e10

  have s244 : V40 m outs c main_v244 = dotE E (w128 (F := Ideal) 2 a12) := by
    refine (Function.update_self ..).trans (h40.trans ?_)
    rw [s8, s243, s10]; exact Cert.Bridge.ep_bridge E _

  have s251 : V41 m outs c main_v251 = (Host.gather gather_S32768x128_S524288x1_S524288x128_1_0_n_n_0_1_1128 (dotN H (w128 (F := Ideal) 2 a10)) (nidx a23) : FVec Ideal S524288x128 .f32) :=
    (host15_v251 (V40 m outs c)).trans (by rw [(V40_of m outs c main_v240 (by decide)), s240, V40_arg23])
  have s258 : V41 m outs c main_v258 = (Host.gather gather_S32768x128_S524288x1_S524288x128_1_0_n_n_0_1_1128 (dotN H (w128 (F := Ideal) 2 a9)) (nidx a24) : FVec Ideal S524288x128 .f32) :=
    (host15_v258 (V40 m outs c)).trans (by rw [(V40_of m outs c main_v239 (by decide)), s239, V40_arg24])
  have s265 : V41 m outs c main_v265 = (Host.gather gather_S32768x128_S524288x1_S524288x128_1_0_n_n_0_1_1128 (dotN H (w128 (F := Ideal) 2 a11)) (nidx a23) : FVec Ideal S524288x128 .f32) :=
    (host15_v265 (V40 m outs c)).trans (by rw [(V40_of m outs c main_v241 (by decide)), s241, V40_arg23])
  have s244' : V41 m outs c main_v244 = dotE E (w128 (F := Ideal) 2 a12) := (V41_of m outs c main_v244 (by decide)).trans s244

  have s266_0 : V42 m outs c main_v266_0
      = Cert.Spec.attnA (E := 524288) (Host.gather gather_S32768x128_S524288x1_S524288x128_1_0_n_n_0_1_1128 (dotN H (w128 (F := Ideal) 2 a10)) (nidx a23)) (Host.gather gather_S32768x128_S524288x1_S524288x128_1_0_n_n_0_1_1128 (dotN H (w128 (F := Ideal) 2 a9)) (nidx a24)) (dotE E (w128 (F := Ideal) 2 a12)) := by
    refine (Function.update_of_ne (StableHlo.devRef_ne_of_ne (by decide)) ..).trans ((Function.update_self ..).trans (h42a.trans ?_))
    rw [s251, s258, s244']
  have s266_1 : V42 m outs c main_v266_1
      = Cert.Spec.attnV (E := 524288) (Host.gather gather_S32768x128_S524288x1_S524288x128_1_0_n_n_0_1_1128 (dotN H (w128 (F := Ideal) 2 a11)) (nidx a23))
          (Cert.Spec.attnA (E := 524288) (Host.gather gather_S32768x128_S524288x1_S524288x128_1_0_n_n_0_1_1128 (dotN H (w128 (F := Ideal) 2 a10)) (nidx a23)) (Host.gather gather_S32768x128_S524288x1_S524288x128_1_0_n_n_0_1_1128 (dotN H (w128 (F := Ideal) 2 a9)) (nidx a24)) (dotE E (w128 (F := Ideal) 2 a12))) := by
    refine (Function.update_self ..).trans (h42b.trans ?_)
    rw [s265, s251, s258, s244']

  have s275 : V43 m outs c main_v275 = attn (F := Ideal) H E (w128 (F := Ideal) 2 a9) (w128 (F := Ideal) 2 a10) (w128 (F := Ideal) 2 a11) (w128 (F := Ideal) 2 a12) a23 a24 :=
    (host16_v275 (V42 m outs c)).trans (by
      rw [s266_1, s266_0, V42_arg24]
      exact (kattn_eq2 _ _ _ _ _ _).symm.trans (Cert.Bridge.attn_bridge H E _ _ _ _ _ _))
  have s277 : V43 m outs c main_v277 = w128 (F := Ideal) 2 a13 :=
    (host16_v277 (V42 m outs c)).trans (by rw [V42_arg13])
  have s280 : V43 m outs c main_v280 = shapeCast S1x128 (b128 (F := Ideal) 2 a14) shapeCasts_S128_S1x128 :=
    (host16_v280 (V42 m outs c)).trans (by rw [V42_arg14])

  have s281 : V44 m outs c main_v281
      = Cert.Spec.affine (M := 32768) (K := 128) (N := 128) (attn (F := Ideal) H E (w128 (F := Ideal) 2 a9) (w128 (F := Ideal) 2 a10) (w128 (F := Ideal) 2 a11) (w128 (F := Ideal) 2 a12) a23 a24) (w128 (F := Ideal) 2 a13) (shapeCast S1x128 (b128 (F := Ideal) 2 a14) shapeCasts_S128_S1x128) := by
    refine (Function.update_self ..).trans (h44.trans ?_)
    rw [s275, s277, s280]
  have s230 : V44 m outs c main_v230 = H := ((V44_of m outs c main_v230 (by decide)).trans <| (V43_of m outs c main_v230 (by decide)).trans <| (V42_of m outs c main_v230 (by decide)).trans <| (V41_of m outs c main_v230 (by decide)).trans <| (V40_of m outs c main_v230 (by decide)).trans <| (V39_of m outs c main_v230 (by decide)).trans <| (V38_of m outs c main_v230 (by decide))).trans e230

  have s304 : V47 m outs c main_v304 = ln (F := Ideal) (res (F := Ideal) H (attn (F := Ideal) H E (w128 (F := Ideal) 2 a9) (w128 (F := Ideal) 2 a10) (w128 (F := Ideal) 2 a11) (w128 (F := Ideal) 2 a12) a23 a24) (w128 (F := Ideal) 2 a13) (b128 (F := Ideal) 2 a14)) (b128 (F := Ideal) 2 a15) (b128 (F := Ideal) 2 a16) :=
    (congrFun (V47_eq m outs c) _).trans ((host17_v304 (V44 m outs c)).trans (by
      rw [s230, s281, V44_arg15, V44_arg16]
      exact congrArg (fun x => ln (F := Ideal) x (b128 (F := Ideal) 2 a15) (b128 (F := Ideal) 2 a16)) (Cert.Bridge.res_bridge H _ _ _)))
  have s306 : V47 m outs c main_v306 = w128x256 (F := Ideal) 2 a17 :=
    (congrFun (V47_eq m outs c) _).trans ((host17_v306 (V44 m outs c)).trans (by rw [V44_arg17]))
  have s309 : V47 m outs c main_v309 = shapeCast S1x256 (b256 (F := Ideal) 2 a18) shapeCasts_S256_S1x256 :=
    (congrFun (V47_eq m outs c) _).trans ((host17_v309 (V44 m outs c)).trans (by rw [V44_arg18]))

  have s310 : V48 m outs c main_v310
      = Cert.Spec.affine (M := 32768) (K := 128) (N := 256) (ln (F := Ideal) (res (F := Ideal) H (attn (F := Ideal) H E (w128 (F := Ideal) 2 a9) (w128 (F := Ideal) 2 a10) (w128 (F := Ideal) 2 a11) (w128 (F := Ideal) 2 a12) a23 a24) (w128 (F := Ideal) 2 a13) (b128 (F := Ideal) 2 a14)) (b128 (F := Ideal) 2 a15) (b128 (F := Ideal) 2 a16)) (w128x256 (F := Ideal) 2 a17) (shapeCast S1x256 (b256 (F := Ideal) 2 a18) shapeCasts_S256_S1x256) := by
    refine (Function.update_self ..).trans (h48.trans ?_)
    rw [s304, s306, s309]

  have s311 : V50 m outs c main_v311
      = (maximumf (Cert.Spec.affine (M := 32768) (K := 128) (N := 256) (ln (F := Ideal) (res (F := Ideal) H (attn (F := Ideal) H E (w128 (F := Ideal) 2 a9) (w128 (F := Ideal) 2 a10) (w128 (F := Ideal) 2 a11) (w128 (F := Ideal) 2 a12) a23 a24) (w128 (F := Ideal) 2 a13) (b128 (F := Ideal) 2 a14)) (b128 (F := Ideal) 2 a15) (b128 (F := Ideal) 2 a16)) (w128x256 (F := Ideal) 2 a17) (shapeCast S1x256 (b256 (F := Ideal) 2 a18) shapeCasts_S256_S1x256))
          (broadcastInDim S32768x256 ![] bcast_S_S32768x256 (constant S_ .f32 0x00000000#32)) : FVec Ideal S32768x256 .f32) :=
    (V50_of m outs c main_v311 (by decide)).trans ((host18_v311 (V48 m outs c)).trans (by rw [s310]))
  have s313 : V50 m outs c main_v313 = w256x128 (F := Ideal) 2 a19 :=
    (host18_1_v313 (V49 m outs c)).trans (by rw [V49_arg19])
  have s316 : V50 m outs c main_v316 = shapeCast S1x128 (b128 (F := Ideal) 2 a20) shapeCasts_S128_S1x128 :=
    (host18_1_v316 (V49 m outs c)).trans (by rw [V49_arg20])

  have s317 : V51 m outs c main_v317 = ffn (F := Ideal) (ln (F := Ideal) (res (F := Ideal) H (attn (F := Ideal) H E (w128 (F := Ideal) 2 a9) (w128 (F := Ideal) 2 a10) (w128 (F := Ideal) 2 a11) (w128 (F := Ideal) 2 a12) a23 a24) (w128 (F := Ideal) 2 a13) (b128 (F := Ideal) 2 a14)) (b128 (F := Ideal) 2 a15) (b128 (F := Ideal) 2 a16)) (w128x256 (F := Ideal) 2 a17) (b256 (F := Ideal) 2 a18) (w256x128 (F := Ideal) 2 a19) (b128 (F := Ideal) 2 a20) := by
    refine (Function.update_self ..).trans (h51.trans ?_)
    rw [s311, s313, s316]; exact Cert.Bridge.ffn_bridge _ _ _ _ _
  have s304' : V51 m outs c main_v304 = ln (F := Ideal) (res (F := Ideal) H (attn (F := Ideal) H E (w128 (F := Ideal) 2 a9) (w128 (F := Ideal) 2 a10) (w128 (F := Ideal) 2 a11) (w128 (F := Ideal) 2 a12) a23 a24) (w128 (F := Ideal) 2 a13) (b128 (F := Ideal) 2 a14)) (b128 (F := Ideal) 2 a15) (b128 (F := Ideal) 2 a16) := ((V51_of m outs c main_v304 (by decide)).trans <| (V50_of m outs c main_v304 (by decide)).trans <| (V49_of m outs c main_v304 (by decide)).trans <| (V48_of m outs c main_v304 (by decide))).trans s304

  refine (congrFun (V54_eq m outs c) _).trans ((host19_v344 (V51 m outs c)).trans ?_)
  rw [s304', s317, V51_arg21, V51_arg22]
  rfl

end Chain

end Cert.KernelIdeal.Hand

end
-- ==== Proof.KI.Value.lean ====
import proofs.«113847_j61718680043593_1_alg».proof.Proof.KI.Run
import proofs.«113847_j61718680043593_1_alg».proof.Proof.Gen.ReferenceIdeal
import proofs.«113847_j61718680043593_1_alg».proof.Proof.KI.V0
import proofs.«113847_j61718680043593_1_alg».proof.Proof.KI.V1
import proofs.«113847_j61718680043593_1_alg».proof.Proof.KI.V2
import proofs.«113847_j61718680043593_1_alg».proof.Proof.KI.V3
import proofs.«113847_j61718680043593_1_alg».proof.Proof.KI.V4
import proofs.«113847_j61718680043593_1_alg».proof.Proof.KI.V5
import proofs.«113847_j61718680043593_1_alg».proof.Proof.KI.V6
import proofs.«113847_j61718680043593_1_alg».proof.Proof.KI.V7
import proofs.«113847_j61718680043593_1_alg».proof.Proof.KI.V8
import proofs.«113847_j61718680043593_1_alg».proof.Proof.KI.V9
import proofs.«113847_j61718680043593_1_alg».proof.Proof.KI.V10
import proofs.«113847_j61718680043593_1_alg».proof.Proof.KI.V11
import proofs.«113847_j61718680043593_1_alg».proof.Proof.KI.V12
import proofs.«113847_j61718680043593_1_alg».proof.Proof.KI.V13
import proofs.«113847_j61718680043593_1_alg».proof.Proof.KI.V14
import proofs.«113847_j61718680043593_1_alg».proof.Proof.KI.V15
import proofs.«113847_j61718680043593_1_alg».proof.Proof.KI.V16
import proofs.«113847_j61718680043593_1_alg».proof.Proof.KI.V17
import proofs.«113847_j61718680043593_1_alg».proof.Proof.KI.V18
import proofs.«113847_j61718680043593_1_alg».proof.Proof.KI.Chain0
import proofs.«113847_j61718680043593_1_alg».proof.Proof.KI.Chain1
import proofs.«113847_j61718680043593_1_alg».proof.Proof.KI.Chain2

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem

section
variable {F : FTy → Type} [FloatOps F] (m : (ℓ : Loc nD τ sig) → Buf (Elt F) ℓ)

theorem outsF_2_main_v4 (c : Dev nD) : outsF m 2 (Pipeline.arrRef spec0 (3 : Fin cfg0.W)) c = (dat0 (Ve0 m) c).arrAt (3 : Fin cfg0.W) cfg0.N :=
  Pipeline.withArrays_arr spec0 launch0.win.arr_inj c (GenP.V1 m c) (fun w => (dat0 (Ve0 m) c).arrAt w cfg0.N) (3 : Fin cfg0.W)
theorem outsF_4_main_v18 (c : Dev nD) : outsF m 4 (Pipeline.arrRef spec1 (3 : Fin cfg1.W)) c = (dat1 (Ve1 m) c).arrAt (3 : Fin cfg1.W) cfg1.N :=
  Pipeline.withArrays_arr spec1 launch1.win.arr_inj c (GenP.V3 m (outs2 m) c) (fun w => (dat1 (Ve1 m) c).arrAt w cfg1.N) (3 : Fin cfg1.W)
theorem outsF_6_main_v24 (c : Dev nD) : outsF m 6 (Pipeline.arrRef spec2 (3 : Fin cfg2.W)) c = (dat2 (Ve2 m) c).arrAt (3 : Fin cfg2.W) cfg2.N :=
  Pipeline.withArrays_arr spec2 launch2.win.arr_inj c (GenP.V5 m (outs4 m) c) (fun w => (dat2 (Ve2 m) c).arrAt w cfg2.N) (3 : Fin cfg2.W)
theorem outsF_8_main_v46_0 (c : Dev nD) : outsF m 8 (Pipeline.arrRef spec3 (4 : Fin cfg3.W)) c = (dat3 (Ve3 m) c).arrAt (4 : Fin cfg3.W) cfg3.N :=
  Pipeline.withArrays_arr spec3 launch3.win.arr_inj c (GenP.V7 m (outs6 m) c) (fun w => (dat3 (Ve3 m) c).arrAt w cfg3.N) (4 : Fin cfg3.W)
theorem outsF_8_main_v46_1 (c : Dev nD) : outsF m 8 (Pipeline.arrRef spec3 (5 : Fin cfg3.W)) c = (dat3 (Ve3 m) c).arrAt (5 : Fin cfg3.W) cfg3.N :=
  Pipeline.withArrays_arr spec3 launch3.win.arr_inj c (GenP.V7 m (outs6 m) c) (fun w => (dat3 (Ve3 m) c).arrAt w cfg3.N) (5 : Fin cfg3.W)
theorem outsF_10_main_v61 (c : Dev nD) : outsF m 10 (Pipeline.arrRef spec4 (3 : Fin cfg4.W)) c = (dat4 (Ve4 m) c).arrAt (3 : Fin cfg4.W) cfg4.N :=
  Pipeline.withArrays_arr spec4 launch4.win.arr_inj c (GenP.V9 m (outs8 m) c) (fun w => (dat4 (Ve4 m) c).arrAt w cfg4.N) (3 : Fin cfg4.W)
theorem outsF_14_main_v90 (c : Dev nD) : outsF m 14 (Pipeline.arrRef spec5 (3 : Fin cfg5.W)) c = (dat5 (Ve5 m) c).arrAt (3 : Fin cfg5.W) cfg5.N :=
  Pipeline.withArrays_arr spec5 launch5.win.arr_inj c (GenP.V13 m (outs10 m) c) (fun w => (dat5 (Ve5 m) c).arrAt w cfg5.N) (3 : Fin cfg5.W)
theorem outsF_17_main_v97 (c : Dev nD) : outsF m 17 (Pipeline.arrRef spec6 (3 : Fin cfg6.W)) c = (dat6 (Ve6 m) c).arrAt (3 : Fin cfg6.W) cfg6.N :=
  Pipeline.withArrays_arr spec6 launch6.win.arr_inj c (GenP.V16 m (outs14 m) c) (fun w => (dat6 (Ve6 m) c).arrAt w cfg6.N) (3 : Fin cfg6.W)
theorem outsF_21_main_v128 (c : Dev nD) : outsF m 21 (Pipeline.arrRef spec7 (3 : Fin cfg7.W)) c = (dat7 (Ve7 m) c).arrAt (3 : Fin cfg7.W) cfg7.N :=
  Pipeline.withArrays_arr spec7 launch7.win.arr_inj c (GenP.V20 m (outs17 m) c) (fun w => (dat7 (Ve7 m) c).arrAt w cfg7.N) (3 : Fin cfg7.W)
theorem outsF_23_main_v134 (c : Dev nD) : outsF m 23 (Pipeline.arrRef spec8 (3 : Fin cfg8.W)) c = (dat8 (Ve8 m) c).arrAt (3 : Fin cfg8.W) cfg8.N :=
  Pipeline.withArrays_arr spec8 launch8.win.arr_inj c (GenP.V22 m (outs21 m) c) (fun w => (dat8 (Ve8 m) c).arrAt w cfg8.N) (3 : Fin cfg8.W)
theorem outsF_25_main_v156_0 (c : Dev nD) : outsF m 25 (Pipeline.arrRef spec9 (4 : Fin cfg9.W)) c = (dat9 (Ve9 m) c).arrAt (4 : Fin cfg9.W) cfg9.N :=
  Pipeline.withArrays_arr spec9 launch9.win.arr_inj c (GenP.V24 m (outs23 m) c) (fun w => (dat9 (Ve9 m) c).arrAt w cfg9.N) (4 : Fin cfg9.W)
theorem outsF_25_main_v156_1 (c : Dev nD) : outsF m 25 (Pipeline.arrRef spec9 (5 : Fin cfg9.W)) c = (dat9 (Ve9 m) c).arrAt (5 : Fin cfg9.W) cfg9.N :=
  Pipeline.withArrays_arr spec9 launch9.win.arr_inj c (GenP.V24 m (outs23 m) c) (fun w => (dat9 (Ve9 m) c).arrAt w cfg9.N) (5 : Fin cfg9.W)
theorem outsF_27_main_v171 (c : Dev nD) : outsF m 27 (Pipeline.arrRef spec10 (3 : Fin cfg10.W)) c = (dat10 (Ve10 m) c).arrAt (3 : Fin cfg10.W) cfg10.N :=
  Pipeline.withArrays_arr spec10 launch10.win.arr_inj c (GenP.V26 m (outs25 m) c) (fun w => (dat10 (Ve10 m) c).arrAt w cfg10.N) (3 : Fin cfg10.W)
theorem outsF_31_main_v200 (c : Dev nD) : outsF m 31 (Pipeline.arrRef spec11 (3 : Fin cfg11.W)) c = (dat11 (Ve11 m) c).arrAt (3 : Fin cfg11.W) cfg11.N :=
  Pipeline.withArrays_arr spec11 launch11.win.arr_inj c (GenP.V30 m (outs27 m) c) (fun w => (dat11 (Ve11 m) c).arrAt w cfg11.N) (3 : Fin cfg11.W)
theorem outsF_34_main_v207 (c : Dev nD) : outsF m 34 (Pipeline.arrRef spec12 (3 : Fin cfg12.W)) c = (dat12 (Ve12 m) c).arrAt (3 : Fin cfg12.W) cfg12.N :=
  Pipeline.withArrays_arr spec12 launch12.win.arr_inj c (GenP.V33 m (outs31 m) c) (fun w => (dat12 (Ve12 m) c).arrAt w cfg12.N) (3 : Fin cfg12.W)
theorem outsF_38_main_v238 (c : Dev nD) : outsF m 38 (Pipeline.arrRef spec13 (3 : Fin cfg13.W)) c = (dat13 (Ve13 m) c).arrAt (3 : Fin cfg13.W) cfg13.N :=
  Pipeline.withArrays_arr spec13 launch13.win.arr_inj c (GenP.V37 m (outs34 m) c) (fun w => (dat13 (Ve13 m) c).arrAt w cfg13.N) (3 : Fin cfg13.W)
theorem outsF_40_main_v244 (c : Dev nD) : outsF m 40 (Pipeline.arrRef spec14 (3 : Fin cfg14.W)) c = (dat14 (Ve14 m) c).arrAt (3 : Fin cfg14.W) cfg14.N :=
  Pipeline.withArrays_arr spec14 launch14.win.arr_inj c (GenP.V39 m (outs38 m) c) (fun w => (dat14 (Ve14 m) c).arrAt w cfg14.N) (3 : Fin cfg14.W)
theorem outsF_42_main_v266_0 (c : Dev nD) : outsF m 42 (Pipeline.arrRef spec15 (4 : Fin cfg15.W)) c = (dat15 (Ve15 m) c).arrAt (4 : Fin cfg15.W) cfg15.N :=
  Pipeline.withArrays_arr spec15 launch15.win.arr_inj c (GenP.V41 m (outs40 m) c) (fun w => (dat15 (Ve15 m) c).arrAt w cfg15.N) (4 : Fin cfg15.W)
theorem outsF_42_main_v266_1 (c : Dev nD) : outsF m 42 (Pipeline.arrRef spec15 (5 : Fin cfg15.W)) c = (dat15 (Ve15 m) c).arrAt (5 : Fin cfg15.W) cfg15.N :=
  Pipeline.withArrays_arr spec15 launch15.win.arr_inj c (GenP.V41 m (outs40 m) c) (fun w => (dat15 (Ve15 m) c).arrAt w cfg15.N) (5 : Fin cfg15.W)
theorem outsF_44_main_v281 (c : Dev nD) : outsF m 44 (Pipeline.arrRef spec16 (3 : Fin cfg16.W)) c = (dat16 (Ve16 m) c).arrAt (3 : Fin cfg16.W) cfg16.N :=
  Pipeline.withArrays_arr spec16 launch16.win.arr_inj c (GenP.V43 m (outs42 m) c) (fun w => (dat16 (Ve16 m) c).arrAt w cfg16.N) (3 : Fin cfg16.W)
theorem outsF_48_main_v310 (c : Dev nD) : outsF m 48 (Pipeline.arrRef spec17 (3 : Fin cfg17.W)) c = (dat17 (Ve17 m) c).arrAt (3 : Fin cfg17.W) cfg17.N :=
  Pipeline.withArrays_arr spec17 launch17.win.arr_inj c (GenP.V47 m (outs44 m) c) (fun w => (dat17 (Ve17 m) c).arrAt w cfg17.N) (3 : Fin cfg17.W)
theorem outsF_51_main_v317 (c : Dev nD) : outsF m 51 (Pipeline.arrRef spec18 (3 : Fin cfg18.W)) c = (dat18 (Ve18 m) c).arrAt (3 : Fin cfg18.W) cfg18.N :=
  Pipeline.withArrays_arr spec18 launch18.win.arr_inj c (GenP.V50 m (outs48 m) c) (fun w => (dat18 (Ve18 m) c).arrAt w cfg18.N) (3 : Fin cfg18.W)

end

set_option maxHeartbeats 4000000 in
theorem value (m : (ℓ : Loc nD τ sig) → Buf (Elt Ideal) ℓ) (c : Dev nD) :
    GenP.V54 m (outsF m) c main_v344
      = Cert.ReferenceIdeal.Hand.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  have h2 := (outsF_2_main_v4 m c).trans (arr0 (Ve0 m) c)
  have h4 := (outsF_4_main_v18 m c).trans (arr1 (Ve1 m) c)
  have h6 := (outsF_6_main_v24 m c).trans (arr2 (Ve2 m) c)
  have h8a := (outsF_8_main_v46_0 m c).trans (arr3_4 (Ve3 m) c)
  have h8b := (outsF_8_main_v46_1 m c).trans (arr3_5 (Ve3 m) c)
  have h10 := (outsF_10_main_v61 m c).trans (arr4 (Ve4 m) c)
  have h14 := (outsF_14_main_v90 m c).trans (arr5 (Ve5 m) c)
  have h17 := (outsF_17_main_v97 m c).trans (arr6 (Ve6 m) c)
  have h21 := (outsF_21_main_v128 m c).trans (arr7 (Ve7 m) c)
  have h23 := (outsF_23_main_v134 m c).trans (arr8 (Ve8 m) c)
  have h25a := (outsF_25_main_v156_0 m c).trans (arr9_4 (Ve9 m) c)
  have h25b := (outsF_25_main_v156_1 m c).trans (arr9_5 (Ve9 m) c)
  have h27 := (outsF_27_main_v171 m c).trans (arr10 (Ve10 m) c)
  have h31 := (outsF_31_main_v200 m c).trans (arr11 (Ve11 m) c)
  have h34 := (outsF_34_main_v207 m c).trans (arr12 (Ve12 m) c)
  have h38 := (outsF_38_main_v238 m c).trans (arr13 (Ve13 m) c)
  have h40 := (outsF_40_main_v244 m c).trans (arr14 (Ve14 m) c)
  have h42a := (outsF_42_main_v266_0 m c).trans (arr15_4 (Ve15 m) c)
  have h42b := (outsF_42_main_v266_1 m c).trans (arr15_5 (Ve15 m) c)
  have h44 := (outsF_44_main_v281 m c).trans (arr16 (Ve16 m) c)
  have h48 := (outsF_48_main_v310 m c).trans (arr17 (Ve17 m) c)
  have h51 := (outsF_51_main_v317 m c).trans (arr18 (Ve18 m) c)
  obtain ⟨l0, e8, e9, e10, e127⟩ := chain0 m (outsF m) c h2 h4 h6 h8a h8b h10 h14 h17
  obtain ⟨l1, e8', e9', e10', e237⟩ := chain1 m (outsF m) c _ _ l0 e8 e9 e10 e127 h21 h23 h25a h25b h27 h31 h34
  exact chain2 m (outsF m) c _ _ l1 e8' e9' e10' e237 h38 h40 h42a h42b h44 h48 h51

end Cert.KernelIdeal.Hand

end
-- ==== Proof.Ref.Ops0.lean ====
import proofs.«113847_j61718680043593_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsP0 : List (HloOp τ sig (Elt F)) :=
  [ StableHlo.binary main_arg0 main_arg3 main_v0 ((fun l r => Host.dotGeneral dot_S32768x44_S44x128_S32768x128_1_0_0_1_n_n none l r) : (⟨S32768x44, .f32⟩ : BufTy).Contents (Elt F) → (⟨S44x128, .f32⟩ : BufTy).Contents (Elt F) → (⟨S32768x128, .f32⟩ : BufTy).Contents (Elt F)),
    StableHlo.unary main_arg4 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S32768x128 ![0, 1] bcast_S1x128_S32768x128_0_1 : (⟨S1x128, .f32⟩ : BufTy).Contents (Elt F) → (⟨S32768x128, .f32⟩ : BufTy).Contents (Elt F)),
    StableHlo.binary main_v0 main_v2 main_v3 (addf : (⟨S32768x128, .f32⟩ : BufTy).Contents (Elt F) → (⟨S32768x128, .f32⟩ : BufTy).Contents (Elt F) → (⟨S32768x128, .f32⟩ : BufTy).Contents (Elt F)),
    StableHlo.binary main_arg1 main_arg5 main_v4 ((fun l r => Host.dotGeneral dot_S32768x8_S8x128_S32768x128_1_0_0_1_n_n none l r) : (⟨S32768x8, .f32⟩ : BufTy).Contents (Elt F) → (⟨S8x128, .f32⟩ : BufTy).Contents (Elt F) → (⟨S32768x128, .f32⟩ : BufTy).Contents (Elt F)),
    StableHlo.binary main_v3 main_v4 main_v5 (addf : (⟨S32768x128, .f32⟩ : BufTy).Contents (Elt F) → (⟨S32768x128, .f32⟩ : BufTy).Contents (Elt F) → (⟨S32768x128, .f32⟩ : BufTy).Contents (Elt F)),
    StableHlo.unary main_arg6 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S32768x128 ![0, 1] bcast_S1x128_S32768x128_0_1 : (⟨S1x128, .f32⟩ : BufTy).Contents (Elt F) → (⟨S32768x128, .f32⟩ : BufTy).Contents (Elt F)),
    StableHlo.binary main_v5 main_v7 main_v8 (addf : (⟨S32768x128, .f32⟩ : BufTy).Contents (Elt F) → (⟨S32768x128, .f32⟩ : BufTy).Contents (Elt F) → (⟨S32768x128, .f32⟩ : BufTy).Contents (Elt F)),
    StableHlo.binary main_arg2 main_arg7 main_v9 ((fun l r => Host.dotGeneral dot_S524288x1_S1x128_S524288x128_1_0_0_1_n_n none l r) : (⟨S524288x1, .f32⟩ : BufTy).Contents (Elt F) → (⟨S1x128, .f32⟩ : BufTy).Contents (Elt F) → (⟨S524288x128, .f32⟩ : BufTy).Contents (Elt F)),
    StableHlo.unary main_arg8 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S524288x128 ![0, 1] bcast_S1x128_S524288x128_0_1 : (⟨S1x128, .f32⟩ : BufTy).Contents (Elt F) → (⟨S524288x128, .f32⟩ : BufTy).Contents (Elt F)),
    StableHlo.binary main_v9 main_v11 main_v12 (addf : (⟨S524288x128, .f32⟩ : BufTy).Contents (Elt F) → (⟨S524288x128, .f32⟩ : BufTy).Contents (Elt F) → (⟨S524288x128, .f32⟩ : BufTy).Contents (Elt F)),
    StableHlo.unary main_arg9 main_v13 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v13 main_v14 rfl shapeCasts_S1x128x128_S128x128,
    StableHlo.binary main_v8 main_v14 main_v15 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.reshape main_v15 main_v16 rfl shapeCasts_S32768x128_S32768x4x32,
    StableHlo.unary main_arg10 main_v17 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v17 main_v18 rfl shapeCasts_S1x128x128_S128x128,
    StableHlo.binary main_v8 main_v18 main_v19 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.reshape main_v19 main_v20 rfl shapeCasts_S32768x128_S32768x4x32,
    StableHlo.unary main_arg11 main_v21 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v21 main_v22 rfl shapeCasts_S1x128x128_S128x128,
    StableHlo.binary main_v8 main_v22 main_v23 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.reshape main_v23 main_v24 rfl shapeCasts_S32768x128_S32768x4x32,
    StableHlo.unary main_arg12 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v25 main_v26 rfl shapeCasts_S1x128x128_S128x128,
    StableHlo.binary main_v12 main_v26 main_v27 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    StableHlo.reshape main_v27 main_v28 rfl shapeCasts_S524288x128_S524288x4x32,
    StableHlo.nullary main_c (constantI S_ 32 0#32),
    StableHlo.unary main_c main_v29 (broadcastInDim S524288 ![] bcast_S_S524288 : (⟨S_, .i32⟩ : BufTy).Contents (Elt F) → (⟨S524288, .i32⟩ : BufTy).Contents (Elt F)),
    StableHlo.binary main_arg23 main_v29 main_v30 (cmpi .slt : (⟨S524288, .i32⟩ : BufTy).Contents (Elt F) → (⟨S524288, .i32⟩ : BufTy).Contents (Elt F) → (⟨S524288, .i1⟩ : BufTy).Contents (Elt F)),
    StableHlo.nullary main_c_0 (constantI S_ 32 32768#32),
    StableHlo.unary main_c_0 main_v31 (broadcastInDim S524288 ![] bcast_S_S524288 : (⟨S_, .i32⟩ : BufTy).Contents (Elt F) → (⟨S524288, .i32⟩ : BufTy).Contents (Elt F)),
    StableHlo.binary main_arg23 main_v31 main_v32 (addi : (⟨S524288, .i32⟩ : BufTy).Contents (Elt F) → (⟨S524288, .i32⟩ : BufTy).Contents (Elt F) → (⟨S524288, .i32⟩ : BufTy).Contents (Elt F)),
    StableHlo.ternary main_v30 main_v32 main_arg23 main_v33 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v33 main_v34 (broadcastInDim S524288x1 ![0] bcast_S524288_S524288x1_0 : (⟨S524288, .i32⟩ : BufTy).Contents (Elt F) → (⟨S524288x1, .i32⟩ : BufTy).Contents (Elt F)),
    StableHlo.binary main_v20 main_v34 main_v35 ((fun x i => Host.gather gather_S32768x4x32_S524288x1_S524288x4x32_12_0_n_n_0_1_1432 x i) : (⟨S32768x4x32, .f32⟩ : BufTy).Contents (Elt F) → (⟨S524288x1, .i32⟩ : BufTy).Contents (Elt F) → (⟨S524288x4x32, .f32⟩ : BufTy).Contents (Elt F)),
    StableHlo.nullary main_c_1 (constantI S_ 32 0#32),
    StableHlo.unary main_c_1 main_v36 (broadcastInDim S524288 ![] bcast_S_S524288 : (⟨S_, .i32⟩ : BufTy).Contents (Elt F) → (⟨S524288, .i32⟩ : BufTy).Contents (Elt F)),
    StableHlo.binary main_arg24 main_v36 main_v37 (cmpi .slt : (⟨S524288, .i32⟩ : BufTy).Contents (Elt F) → (⟨S524288, .i32⟩ : BufTy).Contents (Elt F) → (⟨S524288, .i1⟩ : BufTy).Contents (Elt F)),
    StableHlo.nullary main_c_2 (constantI S_ 32 32768#32),
    StableHlo.unary main_c_2 main_v38 (broadcastInDim S524288 ![] bcast_S_S524288 : (⟨S_, .i32⟩ : BufTy).Contents (Elt F) → (⟨S524288, .i32⟩ : BufTy).Contents (Elt F)),
    StableHlo.binary main_arg24 main_v38 main_v39 (addi : (⟨S524288, .i32⟩ : BufTy).Contents (Elt F) → (⟨S524288, .i32⟩ : BufTy).Contents (Elt F) → (⟨S524288, .i32⟩ : BufTy).Contents (Elt F)),
    StableHlo.ternary main_v37 main_v39 main_arg24 main_v40 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v40 main_v41 (broadcastInDim S524288x1 ![0] bcast_S524288_S524288x1_0 : (⟨S524288, .i32⟩ : BufTy).Contents (Elt F) → (⟨S524288x1, .i32⟩ : BufTy).Contents (Elt F)),
    StableHlo.binary main_v16 main_v41 main_v42 ((fun x i => Host.gather gather_S32768x4x32_S524288x1_S524288x4x32_12_0_n_n_0_1_1432 x i) : (⟨S32768x4x32, .f32⟩ : BufTy).Contents (Elt F) → (⟨S524288x1, .i32⟩ : BufTy).Contents (Elt F) → (⟨S524288x4x32, .f32⟩ : BufTy).Contents (Elt F)),
    StableHlo.binary main_v35 main_v42 main_v43 (mulf : (⟨S524288x4x32, .f32⟩ : BufTy).Contents (Elt F) → (⟨S524288x4x32, .f32⟩ : BufTy).Contents (Elt F) → (⟨S524288x4x32, .f32⟩ : BufTy).Contents (Elt F)),
    StableHlo.nullary main_cst (constant S_ .f32 0x00000000#32),
    StableHlo.binary main_v43 main_cst main_v44 ((fun x v => Host.reduceAdd x v reducesTo_S524288x4x32_S524288x4_d2 h_S_) : (⟨S524288x4x32, .f32⟩ : BufTy).Contents (Elt F) → (⟨S_, .f32⟩ : BufTy).Contents (Elt F) → (⟨S524288x4, .f32⟩ : BufTy).Contents (Elt F)),
    StableHlo.unary main_v44 main_v45 (broadcastInDim S524288x4x1 ![0, 1] bcast_S524288x4_S524288x4x1_0_1 : (⟨S524288x4, .f32⟩ : BufTy).Contents (Elt F) → (⟨S524288x4x1, .f32⟩ : BufTy).Contents (Elt F)),
    StableHlo.nullary main_cst_3 (constant S_ .f32 0x3E3504F3#32),
    StableHlo.unary main_cst_3 main_v46 (broadcastInDim S524288x4x1 ![] bcast_S_S524288x4x1 : (⟨S_, .f32⟩ : BufTy).Contents (Elt F) → (⟨S524288x4x1, .f32⟩ : BufTy).Contents (Elt F)),
    StableHlo.binary main_v45 main_v46 main_v47 (mulf : (⟨S524288x4x1, .f32⟩ : BufTy).Contents (Elt F) → (⟨S524288x4x1, .f32⟩ : BufTy).Contents (Elt F) → (⟨S524288x4x1, .f32⟩ : BufTy).Contents (Elt F)),
    StableHlo.nullary main_cst_4 (constant S_ .f32 0x3F800000#32),
    StableHlo.unary main_cst_4 main_v48 (broadcastInDim S524288x4x32 ![] bcast_S_S524288x4x32 : (⟨S_, .f32⟩ : BufTy).Contents (Elt F) → (⟨S524288x4x32, .f32⟩ : BufTy).Contents (Elt F)),
    StableHlo.binary main_v48 main_v28 main_v49 (addf : (⟨S524288x4x32, .f32⟩ : BufTy).Contents (Elt F) → (⟨S524288x4x32, .f32⟩ : BufTy).Contents (Elt F) → (⟨S524288x4x32, .f32⟩ : BufTy).Contents (Elt F)),
    StableHlo.unary main_v47 main_v50 (broadcastInDim S524288x4x32 ![0, 1, 2] bcast_S524288x4x1_S524288x4x32_0_1_2 : (⟨S524288x4x1, .f32⟩ : BufTy).Contents (Elt F) → (⟨S524288x4x32, .f32⟩ : BufTy).Contents (Elt F)),
    StableHlo.binary main_v50 main_v49 main_v51 (mulf : (⟨S524288x4x32, .f32⟩ : BufTy).Contents (Elt F) → (⟨S524288x4x32, .f32⟩ : BufTy).Contents (Elt F) → (⟨S524288x4x32, .f32⟩ : BufTy).Contents (Elt F)),
    StableHlo.unary main_v51 main_v52 (Host.exp : (⟨S524288x4x32, .f32⟩ : BufTy).Contents (Elt F) → (⟨S524288x4x32, .f32⟩ : BufTy).Contents (Elt F)) ]

theorem opsP0_sub : (opsP0 : List (HloOp τ sig (Elt F))).Forall fun op => op.bufs ⊆ tcRefs τ sig :=
  ⟨binary_bufs_sub .., unary_bufs_sub .., unary_bufs_sub .., binary_bufs_sub .., binary_bufs_sub .., binary_bufs_sub ..,
    unary_bufs_sub .., unary_bufs_sub .., binary_bufs_sub .., binary_bufs_sub .., unary_bufs_sub .., unary_bufs_sub ..,
    binary_bufs_sub .., unary_bufs_sub .., reshape_bufs_sub .., binary_bufs_sub .., reshape_bufs_sub .., unary_bufs_sub ..,
    reshape_bufs_sub .., binary_bufs_sub .., reshape_bufs_sub .., unary_bufs_sub .., reshape_bufs_sub .., binary_bufs_sub ..,
    reshape_bufs_sub .., unary_bufs_sub .., reshape_bufs_sub .., binary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., binary_bufs_sub .., unary_bufs_sub .., nullary_bufs_sub .., unary_bufs_sub .., binary_bufs_sub ..,
    nullary_bufs_sub .., unary_bufs_sub .., binary_bufs_sub .., unary_bufs_sub .., binary_bufs_sub .., unary_bufs_sub ..⟩

theorem opsP0_fresh : ∀ op ∈ (opsP0 : List (HloOp τ sig (Elt F))), op.fresh = ∅ :=
  List.forall_iff_forall_mem.1 (⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩ :
    (opsP0 : List (HloOp τ sig (Elt F))).Forall fun op => op.fresh = ∅)

set_option maxRecDepth 16384 in
set_option maxHeartbeats 4000000 in
theorem main_part0_eq (c : Dev nD) : main_part0 (F := F) c = seq opsP0 := rfl

end Cert.ReferenceIdeal.Hand

end
-- ==== Proof.Ref.Ops1.lean ====
import proofs.«113847_j61718680043593_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsP1 : List (HloOp τ sig (Elt F)) :=
  [ StableHlo.nullary main_cst_5 (constant S_ .f32 0x00000000#32),
    StableHlo.unary main_cst_5 main_v53 (broadcastInDim S32768x4x32 ![] bcast_S_S32768x4x32 : (⟨S_, .f32⟩ : BufTy).Contents (Elt F) → (⟨S32768x4x32, .f32⟩ : BufTy).Contents (Elt F)),
    StableHlo.unary main_arg24 main_v54 (broadcastInDim S524288x1 ![0] bcast_S524288_S524288x1_0 : (⟨S524288, .i32⟩ : BufTy).Contents (Elt F) → (⟨S524288x1, .i32⟩ : BufTy).Contents (Elt F)),
    StableHlo.ternary main_v53 main_v54 main_v52 main_v55 ((fun x i u => Host.scatterAdd scatter_S32768x4x32_S524288x1_S524288x4x32_12_0_0_1 x i u) : (⟨S32768x4x32, .f32⟩ : BufTy).Contents (Elt F) → (⟨S524288x1, .i32⟩ : BufTy).Contents (Elt F) → (⟨S524288x4x32, .f32⟩ : BufTy).Contents (Elt F) → (⟨S32768x4x32, .f32⟩ : BufTy).Contents (Elt F)),
    StableHlo.nullary main_cst_6 (constant S_ .f32 0x358637BD#32),
    StableHlo.unary main_cst_6 main_v56 (broadcastInDim S32768x4x32 ![] bcast_S_S32768x4x32 : (⟨S_, .f32⟩ : BufTy).Contents (Elt F) → (⟨S32768x4x32, .f32⟩ : BufTy).Contents (Elt F)),
    StableHlo.binary main_v55 main_v56 main_v57 (maximumf : (⟨S32768x4x32, .f32⟩ : BufTy).Contents (Elt F) → (⟨S32768x4x32, .f32⟩ : BufTy).Contents (Elt F) → (⟨S32768x4x32, .f32⟩ : BufTy).Contents (Elt F)),
    StableHlo.nullary main_c_7 (constantI S_ 32 0#32),
    StableHlo.unary main_c_7 main_v58 (broadcastInDim S524288 ![] bcast_S_S524288 : (⟨S_, .i32⟩ : BufTy).Contents (Elt F) → (⟨S524288, .i32⟩ : BufTy).Contents (Elt F)),
    StableHlo.binary main_arg23 main_v58 main_v59 (cmpi .slt : (⟨S524288, .i32⟩ : BufTy).Contents (Elt F) → (⟨S524288, .i32⟩ : BufTy).Contents (Elt F) → (⟨S524288, .i1⟩ : BufTy).Contents (Elt F)),
    StableHlo.nullary main_c_8 (constantI S_ 32 32768#32),
    StableHlo.unary main_c_8 main_v60 (broadcastInDim S524288 ![] bcast_S_S524288 : (⟨S_, .i32⟩ : BufTy).Contents (Elt F) → (⟨S524288, .i32⟩ : BufTy).Contents (Elt F)),
    StableHlo.binary main_arg23 main_v60 main_v61 (addi : (⟨S524288, .i32⟩ : BufTy).Contents (Elt F) → (⟨S524288, .i32⟩ : BufTy).Contents (Elt F) → (⟨S524288, .i32⟩ : BufTy).Contents (Elt F)),
    StableHlo.ternary main_v59 main_v61 main_arg23 main_v62 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v62 main_v63 (broadcastInDim S524288x1 ![0] bcast_S524288_S524288x1_0 : (⟨S524288, .i32⟩ : BufTy).Contents (Elt F) → (⟨S524288x1, .i32⟩ : BufTy).Contents (Elt F)),
    StableHlo.binary main_v24 main_v63 main_v64 ((fun x i => Host.gather gather_S32768x4x32_S524288x1_S524288x4x32_12_0_n_n_0_1_1432 x i) : (⟨S32768x4x32, .f32⟩ : BufTy).Contents (Elt F) → (⟨S524288x1, .i32⟩ : BufTy).Contents (Elt F) → (⟨S524288x4x32, .f32⟩ : BufTy).Contents (Elt F)),
    StableHlo.binary main_v64 main_v52 main_v65 (mulf : (⟨S524288x4x32, .f32⟩ : BufTy).Contents (Elt F) → (⟨S524288x4x32, .f32⟩ : BufTy).Contents (Elt F) → (⟨S524288x4x32, .f32⟩ : BufTy).Contents (Elt F)),
    StableHlo.nullary main_cst_9 (constant S_ .f32 0x00000000#32),
    StableHlo.unary main_cst_9 main_v66 (broadcastInDim S32768x4x32 ![] bcast_S_S32768x4x32 : (⟨S_, .f32⟩ : BufTy).Contents (Elt F) → (⟨S32768x4x32, .f32⟩ : BufTy).Contents (Elt F)),
    StableHlo.unary main_arg24 main_v67 (broadcastInDim S524288x1 ![0] bcast_S524288_S524288x1_0 : (⟨S524288, .i32⟩ : BufTy).Contents (Elt F) → (⟨S524288x1, .i32⟩ : BufTy).Contents (Elt F)),
    StableHlo.ternary main_v66 main_v67 main_v65 main_v68 ((fun x i u => Host.scatterAdd scatter_S32768x4x32_S524288x1_S524288x4x32_12_0_0_1 x i u) : (⟨S32768x4x32, .f32⟩ : BufTy).Contents (Elt F) → (⟨S524288x1, .i32⟩ : BufTy).Contents (Elt F) → (⟨S524288x4x32, .f32⟩ : BufTy).Contents (Elt F) → (⟨S32768x4x32, .f32⟩ : BufTy).Contents (Elt F)),
    StableHlo.binary main_v68 main_v57 main_v69 (Host.divf : (⟨S32768x4x32, .f32⟩ : BufTy).Contents (Elt F) → (⟨S32768x4x32, .f32⟩ : BufTy).Contents (Elt F) → (⟨S32768x4x32, .f32⟩ : BufTy).Contents (Elt F)),
    StableHlo.reshape main_v69 main_v70 rfl shapeCasts_S32768x4x32_S32768x128,
    StableHlo.unary main_arg13 main_v71 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v71 main_v72 rfl shapeCasts_S1x128x128_S128x128,
    StableHlo.binary main_v70 main_v72 main_v73 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.binary main_v8 main_v73 main_v74 (addf : (⟨S32768x128, .f32⟩ : BufTy).Contents (Elt F) → (⟨S32768x128, .f32⟩ : BufTy).Contents (Elt F) → (⟨S32768x128, .f32⟩ : BufTy).Contents (Elt F)),
    StableHlo.unary main_arg14 main_v75 ((extractStridedSlice S1x128 ![0, 0] · slices_S3x128_S1x128_0_0) : (⟨S3x128, .f32⟩ : BufTy).Contents (Elt F) → (⟨S1x128, .f32⟩ : BufTy).Contents (Elt F)),
    StableHlo.reshape main_v75 main_v76 rfl shapeCasts_S1x128_S128,
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S32768x128 ![0, 1] bcast_S1x128_S32768x128_0_1 : (⟨S1x128, .f32⟩ : BufTy).Contents (Elt F) → (⟨S32768x128, .f32⟩ : BufTy).Contents (Elt F)),
    StableHlo.binary main_v74 main_v78 main_v79 (addf : (⟨S32768x128, .f32⟩ : BufTy).Contents (Elt F) → (⟨S32768x128, .f32⟩ : BufTy).Contents (Elt F) → (⟨S32768x128, .f32⟩ : BufTy).Contents (Elt F)),
    StableHlo.unary main_arg15 main_v80 ((extractStridedSlice S1x128 ![0, 0] · slices_S3x128_S1x128_0_0) : (⟨S3x128, .f32⟩ : BufTy).Contents (Elt F) → (⟨S1x128, .f32⟩ : BufTy).Contents (Elt F)),
    StableHlo.reshape main_v80 main_v81 rfl shapeCasts_S1x128_S128,
    StableHlo.unary main_arg16 main_v82 ((extractStridedSlice S1x128 ![0, 0] · slices_S3x128_S1x128_0_0) : (⟨S3x128, .f32⟩ : BufTy).Contents (Elt F) → (⟨S1x128, .f32⟩ : BufTy).Contents (Elt F)),
    StableHlo.reshape main_v82 main_v83 rfl shapeCasts_S1x128_S128,
    StableHlo.nullary main_cst_10 (constant S_ .f32 0x00000000#32),
    StableHlo.binary main_v79 main_cst_10 main_v84 ((fun x v => Host.reduceAdd x v reducesTo_S32768x128_S32768_d1 h_S_) : (⟨S32768x128, .f32⟩ : BufTy).Contents (Elt F) → (⟨S_, .f32⟩ : BufTy).Contents (Elt F) → (⟨S32768, .f32⟩ : BufTy).Contents (Elt F)),
    StableHlo.unary main_v84 main_v85 (broadcastInDim S32768x1 ![0] bcast_S32768_S32768x1_0 : (⟨S32768, .f32⟩ : BufTy).Contents (Elt F) → (⟨S32768x1, .f32⟩ : BufTy).Contents (Elt F)),
    StableHlo.nullary main_cst_11 (constant S_ .f32 0x43000000#32),
    StableHlo.unary main_cst_11 main_v86 (broadcastInDim S32768x1 ![] bcast_S_S32768x1 : (⟨S_, .f32⟩ : BufTy).Contents (Elt F) → (⟨S32768x1, .f32⟩ : BufTy).Contents (Elt F)),
    StableHlo.binary main_v85 main_v86 main_v87 (Host.divf : (⟨S32768x1, .f32⟩ : BufTy).Contents (Elt F) → (⟨S32768x1, .f32⟩ : BufTy).Contents (Elt F) → (⟨S32768x1, .f32⟩ : BufTy).Contents (Elt F)),
    StableHlo.nullary main_c_12 (constantI S_ 32 0#32),
    StableHlo.TRef.nullary (.of main_call0_cst : StableHlo.TRef sig ⟨S_, .f32⟩) (constant S_ .f32 0x00000000#32),
    StableHlo.TRef.binary (.of main_v79 : StableHlo.TRef sig ⟨S32768x128, .f32⟩) (.of main_call0_cst : StableHlo.TRef sig ⟨S_, .f32⟩) (.of main_call0_v0 : StableHlo.TRef sig ⟨S32768, .f32⟩) (fun x v => Host.reduceAdd x v reducesTo_S32768x128_S32768_d1 h_S_),
    StableHlo.TRef.unary (.of main_call0_v0 : StableHlo.TRef sig ⟨S32768, .f32⟩) (.of main_call0_v1 : StableHlo.TRef sig ⟨S32768x1, .f32⟩) (broadcastInDim S32768x1 ![0] bcast_S32768_S32768x1_0),
    StableHlo.TRef.nullary (.of main_call0_cst_0 : StableHlo.TRef sig ⟨S_, .f32⟩) (constant S_ .f32 0x43000000#32),
    StableHlo.TRef.unary (.of main_call0_cst_0 : StableHlo.TRef sig ⟨S_, .f32⟩) (.of main_call0_v2 : StableHlo.TRef sig ⟨S32768x1, .f32⟩) (broadcastInDim S32768x1 ![] bcast_S_S32768x1),
    StableHlo.TRef.binary (.of main_call0_v1 : StableHlo.TRef sig ⟨S32768x1, .f32⟩) (.of main_call0_v2 : StableHlo.TRef sig ⟨S32768x1, .f32⟩) (.of main_call0_v3 : StableHlo.TRef sig ⟨S32768x1, .f32⟩) Host.divf,
    StableHlo.TRef.unary (.of main_call0_v3 : StableHlo.TRef sig ⟨S32768x1, .f32⟩) (.of main_call0_v4 : StableHlo.TRef sig ⟨S32768x128, .f32⟩) (broadcastInDim S32768x128 ![0, 1] bcast_S32768x1_S32768x128_0_1),
    StableHlo.TRef.binary (.of main_v79 : StableHlo.TRef sig ⟨S32768x128, .f32⟩) (.of main_call0_v4 : StableHlo.TRef sig ⟨S32768x128, .f32⟩) (.of main_call0_v5 : StableHlo.TRef sig ⟨S32768x128, .f32⟩) subf,
    StableHlo.TRef.binary (.of main_call0_v5 : StableHlo.TRef sig ⟨S32768x128, .f32⟩) (.of main_call0_v5 : StableHlo.TRef sig ⟨S32768x128, .f32⟩) (.of main_call0_v6 : StableHlo.TRef sig ⟨S32768x128, .f32⟩) mulf,
    StableHlo.TRef.unary (.of main_c_12 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x43000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S32768x128, .f32⟩) (.of main_call0_cst_2 : StableHlo.TRef sig ⟨S_, .f32⟩) (.of main_call0_v9 : StableHlo.TRef sig ⟨S32768, .f32⟩) (fun x v => Host.reduceAdd x v reducesTo_S32768x128_S32768_d1 h_S_),
    StableHlo.TRef.unary (.of main_call0_v9 : StableHlo.TRef sig ⟨S32768, .f32⟩) (.of main_call0_v10 : StableHlo.TRef sig ⟨S32768x1, .f32⟩) (broadcastInDim S32768x1 ![0] bcast_S32768_S32768x1_0),
    StableHlo.TRef.unary (.of main_call0_v8 : StableHlo.TRef sig ⟨S_, .f32⟩) (.of main_call0_v11 : StableHlo.TRef sig ⟨S32768x1, .f32⟩) (broadcastInDim S32768x1 ![] bcast_S_S32768x1),
    StableHlo.TRef.binary (.of main_call0_v10 : StableHlo.TRef sig ⟨S32768x1, .f32⟩) (.of main_call0_v11 : StableHlo.TRef sig ⟨S32768x1, .f32⟩) (.of main_call0_v12 : StableHlo.TRef sig ⟨S32768x1, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S32768x1, .f32⟩) (broadcastInDim S32768x1 ![] bcast_S_S32768x1),
    StableHlo.TRef.ternary (.of main_call0_v13 : StableHlo.TRef sig ⟨S_, .i1⟩) (.of main_call0_v12 : StableHlo.TRef sig ⟨S32768x1, .f32⟩) (.of main_call0_call0_v1 : StableHlo.TRef sig ⟨S32768x1, .f32⟩) (.of main_v88 : StableHlo.TRef sig ⟨S32768x1, .f32⟩) (fun p a b => select (broadcastInDim S32768x1 ![] bcast_S_S32768x1 p) a b),
    StableHlo.unary main_v87 main_v89 (broadcastInDim S32768x128 ![0, 1] bcast_S32768x1_S32768x128_0_1 : (⟨S32768x1, .f32⟩ : BufTy).Contents (Elt F) → (⟨S32768x128, .f32⟩ : BufTy).Contents (Elt F)),
    StableHlo.binary main_v79 main_v89 main_v90 (subf : (⟨S32768x128, .f32⟩ : BufTy).Contents (Elt F) → (⟨S32768x128, .f32⟩ : BufTy).Contents (Elt F) → (⟨S32768x128, .f32⟩ : BufTy).Contents (Elt F)),
    StableHlo.nullary main_cst_13 (constant S_ .f32 0x3727C5AC#32),
    StableHlo.unary main_cst_13 main_v91 (broadcastInDim S32768x1 ![] bcast_S_S32768x1 : (⟨S_, .f32⟩ : BufTy).Contents (Elt F) → (⟨S32768x1, .f32⟩ : BufTy).Contents (Elt F)),
    StableHlo.binary main_v88 main_v91 main_v92 (addf : (⟨S32768x1, .f32⟩ : BufTy).Contents (Elt F) → (⟨S32768x1, .f32⟩ : BufTy).Contents (Elt F) → (⟨S32768x1, .f32⟩ : BufTy).Contents (Elt F)),
    StableHlo.unary main_v92 main_v93 (Host.rsqrt : (⟨S32768x1, .f32⟩ : BufTy).Contents (Elt F) → (⟨S32768x1, .f32⟩ : BufTy).Contents (Elt F)),
    StableHlo.unary main_v93 main_v94 (broadcastInDim S32768x128 ![0, 1] bcast_S32768x1_S32768x128_0_1 : (⟨S32768x1, .f32⟩ : BufTy).Contents (Elt F) → (⟨S32768x128, .f32⟩ : BufTy).Contents (Elt F)),
    StableHlo.binary main_v90 main_v94 main_v95 (mulf : (⟨S32768x128, .f32⟩ : BufTy).Contents (Elt F) → (⟨S32768x128, .f32⟩ : BufTy).Contents (Elt F) → (⟨S32768x128, .f32⟩ : BufTy).Contents (Elt F)),
    StableHlo.unary main_v81 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S32768x128 ![0, 1] bcast_S1x128_S32768x128_0_1 : (⟨S1x128, .f32⟩ : BufTy).Contents (Elt F) → (⟨S32768x128, .f32⟩ : BufTy).Contents (Elt F)),
    StableHlo.binary main_v95 main_v97 main_v98 (mulf : (⟨S32768x128, .f32⟩ : BufTy).Contents (Elt F) → (⟨S32768x128, .f32⟩ : BufTy).Contents (Elt F) → (⟨S32768x128, .f32⟩ : BufTy).Contents (Elt F)),
    StableHlo.unary main_v83 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S32768x128 ![0, 1] bcast_S1x128_S32768x128_0_1 : (⟨S1x128, .f32⟩ : BufTy).Contents (Elt F) → (⟨S32768x128, .f32⟩ : BufTy).Contents (Elt F)),
    StableHlo.binary main_v98 main_v100 main_v101 (addf : (⟨S32768x128, .f32⟩ : BufTy).Contents (Elt F) → (⟨S32768x128, .f32⟩ : BufTy).Contents (Elt F) → (⟨S32768x128, .f32⟩ : BufTy).Contents (Elt F)),
    StableHlo.unary main_arg17 main_v102 ((extractStridedSlice S1x128x256 ![0, 0, 0] · slices_S3x128x256_S1x128x256_0_0_0) : (⟨S3x128x256, .f32⟩ : BufTy).Contents (Elt F) → (⟨S1x128x256, .f32⟩ : BufTy).Contents (Elt F)),
    StableHlo.reshape main_v102 main_v103 rfl shapeCasts_S1x128x256_S128x256 ]

theorem opsP1_sub : (opsP1 : List (HloOp τ sig (Elt F))).Forall fun op => op.bufs ⊆ tcRefs τ sig :=
  ⟨nullary_bufs_sub .., unary_bufs_sub .., unary_bufs_sub .., ternary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., unary_bufs_sub .., ternary_bufs_sub .., binary_bufs_sub .., reshape_bufs_sub .., unary_bufs_sub ..,
    reshape_bufs_sub .., binary_bufs_sub .., binary_bufs_sub .., unary_bufs_sub .., reshape_bufs_sub .., unary_bufs_sub ..,
    unary_bufs_sub .., binary_bufs_sub .., unary_bufs_sub .., reshape_bufs_sub .., unary_bufs_sub .., reshape_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., reshape_bufs_sub ..⟩

theorem opsP1_fresh : ∀ op ∈ (opsP1 : List (HloOp τ sig (Elt F))), op.fresh = ∅ :=
  List.forall_iff_forall_mem.1 (⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl⟩ :
    (opsP1 : List (HloOp τ sig (Elt F))).Forall fun op => op.fresh = ∅)

set_option maxRecDepth 16384 in
set_option maxHeartbeats 4000000 in
theorem main_part1_eq (c : Dev nD) : main_part1 (F := F) c = seq opsP1 := rfl

end Cert.ReferenceIdeal.Hand

end
-- ==== Proof.Ref.Ops2.lean ====
import proofs.«113847_j61718680043593_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsP2 : List (HloOp τ sig (Elt F)) :=
  [ StableHlo.binary main_v101 main_v103 main_v104 ((fun l r => Host.dotGeneral dot_S32768x128_S128x256_S32768x256_1_0_0_1_n_n none l r) : (⟨S32768x128, .f32⟩ : BufTy).Contents (Elt F) → (⟨S128x256, .f32⟩ : BufTy).Contents (Elt F) → (⟨S32768x256, .f32⟩ : BufTy).Contents (Elt F)),
    StableHlo.unary main_arg18 main_v105 ((extractStridedSlice S1x256 ![0, 0] · slices_S3x256_S1x256_0_0) : (⟨S3x256, .f32⟩ : BufTy).Contents (Elt F) → (⟨S1x256, .f32⟩ : BufTy).Contents (Elt F)),
    StableHlo.reshape main_v105 main_v106 rfl shapeCasts_S1x256_S256,
    StableHlo.unary main_v106 main_v107 (broadcastInDim S1x256 ![1] bcast_S256_S1x256_1 : (⟨S256, .f32⟩ : BufTy).Contents (Elt F) → (⟨S1x256, .f32⟩ : BufTy).Contents (Elt F)),
    StableHlo.unary main_v107 main_v108 (broadcastInDim S32768x256 ![0, 1] bcast_S1x256_S32768x256_0_1 : (⟨S1x256, .f32⟩ : BufTy).Contents (Elt F) → (⟨S32768x256, .f32⟩ : BufTy).Contents (Elt F)),
    StableHlo.binary main_v104 main_v108 main_v109 (addf : (⟨S32768x256, .f32⟩ : BufTy).Contents (Elt F) → (⟨S32768x256, .f32⟩ : BufTy).Contents (Elt F) → (⟨S32768x256, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S32768x256, .f32⟩) (broadcastInDim S32768x256 ![] bcast_S_S32768x256),
    StableHlo.TRef.binary (.of main_v109 : StableHlo.TRef sig ⟨S32768x256, .f32⟩) (.of main_call1_v0 : StableHlo.TRef sig ⟨S32768x256, .f32⟩) (.of main_v110 : StableHlo.TRef sig ⟨S32768x256, .f32⟩) maximumf,
    StableHlo.unary main_arg19 main_v111 ((extractStridedSlice S1x256x128 ![0, 0, 0] · slices_S3x256x128_S1x256x128_0_0_0) : (⟨S3x256x128, .f32⟩ : BufTy).Contents (Elt F) → (⟨S1x256x128, .f32⟩ : BufTy).Contents (Elt F)),
    StableHlo.reshape main_v111 main_v112 rfl shapeCasts_S1x256x128_S256x128,
    StableHlo.binary main_v110 main_v112 main_v113 ((fun l r => Host.dotGeneral dot_S32768x256_S256x128_S32768x128_1_0_0_1_n_n none l r) : (⟨S32768x256, .f32⟩ : BufTy).Contents (Elt F) → (⟨S256x128, .f32⟩ : BufTy).Contents (Elt F) → (⟨S32768x128, .f32⟩ : BufTy).Contents (Elt F)),
    StableHlo.unary main_arg20 main_v114 ((extractStridedSlice S1x128 ![0, 0] · slices_S3x128_S1x128_0_0) : (⟨S3x128, .f32⟩ : BufTy).Contents (Elt F) → (⟨S1x128, .f32⟩ : BufTy).Contents (Elt F)),
    StableHlo.reshape main_v114 main_v115 rfl shapeCasts_S1x128_S128,
    StableHlo.unary main_v115 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S32768x128 ![0, 1] bcast_S1x128_S32768x128_0_1 : (⟨S1x128, .f32⟩ : BufTy).Contents (Elt F) → (⟨S32768x128, .f32⟩ : BufTy).Contents (Elt F)),
    StableHlo.binary main_v113 main_v117 main_v118 (addf : (⟨S32768x128, .f32⟩ : BufTy).Contents (Elt F) → (⟨S32768x128, .f32⟩ : BufTy).Contents (Elt F) → (⟨S32768x128, .f32⟩ : BufTy).Contents (Elt F)),
    StableHlo.binary main_v101 main_v118 main_v119 (addf : (⟨S32768x128, .f32⟩ : BufTy).Contents (Elt F) → (⟨S32768x128, .f32⟩ : BufTy).Contents (Elt F) → (⟨S32768x128, .f32⟩ : BufTy).Contents (Elt F)),
    StableHlo.unary main_arg21 main_v120 ((extractStridedSlice S1x128 ![0, 0] · slices_S3x128_S1x128_0_0) : (⟨S3x128, .f32⟩ : BufTy).Contents (Elt F) → (⟨S1x128, .f32⟩ : BufTy).Contents (Elt F)),
    StableHlo.reshape main_v120 main_v121 rfl shapeCasts_S1x128_S128,
    StableHlo.unary main_arg22 main_v122 ((extractStridedSlice S1x128 ![0, 0] · slices_S3x128_S1x128_0_0) : (⟨S3x128, .f32⟩ : BufTy).Contents (Elt F) → (⟨S1x128, .f32⟩ : BufTy).Contents (Elt F)),
    StableHlo.reshape main_v122 main_v123 rfl shapeCasts_S1x128_S128,
    StableHlo.nullary main_cst_14 (constant S_ .f32 0x00000000#32),
    StableHlo.binary main_v119 main_cst_14 main_v124 ((fun x v => Host.reduceAdd x v reducesTo_S32768x128_S32768_d1 h_S_) : (⟨S32768x128, .f32⟩ : BufTy).Contents (Elt F) → (⟨S_, .f32⟩ : BufTy).Contents (Elt F) → (⟨S32768, .f32⟩ : BufTy).Contents (Elt F)),
    StableHlo.unary main_v124 main_v125 (broadcastInDim S32768x1 ![0] bcast_S32768_S32768x1_0 : (⟨S32768, .f32⟩ : BufTy).Contents (Elt F) → (⟨S32768x1, .f32⟩ : BufTy).Contents (Elt F)),
    StableHlo.nullary main_cst_15 (constant S_ .f32 0x43000000#32),
    StableHlo.unary main_cst_15 main_v126 (broadcastInDim S32768x1 ![] bcast_S_S32768x1 : (⟨S_, .f32⟩ : BufTy).Contents (Elt F) → (⟨S32768x1, .f32⟩ : BufTy).Contents (Elt F)),
    StableHlo.binary main_v125 main_v126 main_v127 (Host.divf : (⟨S32768x1, .f32⟩ : BufTy).Contents (Elt F) → (⟨S32768x1, .f32⟩ : BufTy).Contents (Elt F) → (⟨S32768x1, .f32⟩ : BufTy).Contents (Elt F)),
    StableHlo.nullary main_c_16 (constantI S_ 32 0#32),
    StableHlo.TRef.nullary (.of main_call2_cst : StableHlo.TRef sig ⟨S_, .f32⟩) (constant S_ .f32 0x00000000#32),
    StableHlo.TRef.binary (.of main_v119 : StableHlo.TRef sig ⟨S32768x128, .f32⟩) (.of main_call2_cst : StableHlo.TRef sig ⟨S_, .f32⟩) (.of main_call2_v0 : StableHlo.TRef sig ⟨S32768, .f32⟩) (fun x v => Host.reduceAdd x v reducesTo_S32768x128_S32768_d1 h_S_),
    StableHlo.TRef.unary (.of main_call2_v0 : StableHlo.TRef sig ⟨S32768, .f32⟩) (.of main_call2_v1 : StableHlo.TRef sig ⟨S32768x1, .f32⟩) (broadcastInDim S32768x1 ![0] bcast_S32768_S32768x1_0),
    StableHlo.TRef.nullary (.of main_call2_cst_0 : StableHlo.TRef sig ⟨S_, .f32⟩) (constant S_ .f32 0x43000000#32),
    StableHlo.TRef.unary (.of main_call2_cst_0 : StableHlo.TRef sig ⟨S_, .f32⟩) (.of main_call2_v2 : StableHlo.TRef sig ⟨S32768x1, .f32⟩) (broadcastInDim S32768x1 ![] bcast_S_S32768x1),
    StableHlo.TRef.binary (.of main_call2_v1 : StableHlo.TRef sig ⟨S32768x1, .f32⟩) (.of main_call2_v2 : StableHlo.TRef sig ⟨S32768x1, .f32⟩) (.of main_call2_v3 : StableHlo.TRef sig ⟨S32768x1, .f32⟩) Host.divf,
    StableHlo.TRef.unary (.of main_call2_v3 : StableHlo.TRef sig ⟨S32768x1, .f32⟩) (.of main_call2_v4 : StableHlo.TRef sig ⟨S32768x128, .f32⟩) (broadcastInDim S32768x128 ![0, 1] bcast_S32768x1_S32768x128_0_1),
    StableHlo.TRef.binary (.of main_v119 : StableHlo.TRef sig ⟨S32768x128, .f32⟩) (.of main_call2_v4 : StableHlo.TRef sig ⟨S32768x128, .f32⟩) (.of main_call2_v5 : StableHlo.TRef sig ⟨S32768x128, .f32⟩) subf,
    StableHlo.TRef.binary (.of main_call2_v5 : StableHlo.TRef sig ⟨S32768x128, .f32⟩) (.of main_call2_v5 : StableHlo.TRef sig ⟨S32768x128, .f32⟩) (.of main_call2_v6 : StableHlo.TRef sig ⟨S32768x128, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x43000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S32768x128, .f32⟩) (.of main_call2_cst_2 : StableHlo.TRef sig ⟨S_, .f32⟩) (.of main_call2_v9 : StableHlo.TRef sig ⟨S32768, .f32⟩) (fun x v => Host.reduceAdd x v reducesTo_S32768x128_S32768_d1 h_S_),
    StableHlo.TRef.unary (.of main_call2_v9 : StableHlo.TRef sig ⟨S32768, .f32⟩) (.of main_call2_v10 : StableHlo.TRef sig ⟨S32768x1, .f32⟩) (broadcastInDim S32768x1 ![0] bcast_S32768_S32768x1_0),
    StableHlo.TRef.unary (.of main_call2_v8 : StableHlo.TRef sig ⟨S_, .f32⟩) (.of main_call2_v11 : StableHlo.TRef sig ⟨S32768x1, .f32⟩) (broadcastInDim S32768x1 ![] bcast_S_S32768x1),
    StableHlo.TRef.binary (.of main_call2_v10 : StableHlo.TRef sig ⟨S32768x1, .f32⟩) (.of main_call2_v11 : StableHlo.TRef sig ⟨S32768x1, .f32⟩) (.of main_call2_v12 : StableHlo.TRef sig ⟨S32768x1, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S32768x1, .f32⟩) (broadcastInDim S32768x1 ![] bcast_S_S32768x1),
    StableHlo.TRef.ternary (.of main_call2_v13 : StableHlo.TRef sig ⟨S_, .i1⟩) (.of main_call2_v12 : StableHlo.TRef sig ⟨S32768x1, .f32⟩) (.of main_call2_call0_v1 : StableHlo.TRef sig ⟨S32768x1, .f32⟩) (.of main_v128 : StableHlo.TRef sig ⟨S32768x1, .f32⟩) (fun p a b => select (broadcastInDim S32768x1 ![] bcast_S_S32768x1 p) a b),
    StableHlo.unary main_v127 main_v129 (broadcastInDim S32768x128 ![0, 1] bcast_S32768x1_S32768x128_0_1 : (⟨S32768x1, .f32⟩ : BufTy).Contents (Elt F) → (⟨S32768x128, .f32⟩ : BufTy).Contents (Elt F)),
    StableHlo.binary main_v119 main_v129 main_v130 (subf : (⟨S32768x128, .f32⟩ : BufTy).Contents (Elt F) → (⟨S32768x128, .f32⟩ : BufTy).Contents (Elt F) → (⟨S32768x128, .f32⟩ : BufTy).Contents (Elt F)),
    StableHlo.nullary main_cst_17 (constant S_ .f32 0x3727C5AC#32),
    StableHlo.unary main_cst_17 main_v131 (broadcastInDim S32768x1 ![] bcast_S_S32768x1 : (⟨S_, .f32⟩ : BufTy).Contents (Elt F) → (⟨S32768x1, .f32⟩ : BufTy).Contents (Elt F)),
    StableHlo.binary main_v128 main_v131 main_v132 (addf : (⟨S32768x1, .f32⟩ : BufTy).Contents (Elt F) → (⟨S32768x1, .f32⟩ : BufTy).Contents (Elt F) → (⟨S32768x1, .f32⟩ : BufTy).Contents (Elt F)),
    StableHlo.unary main_v132 main_v133 (Host.rsqrt : (⟨S32768x1, .f32⟩ : BufTy).Contents (Elt F) → (⟨S32768x1, .f32⟩ : BufTy).Contents (Elt F)),
    StableHlo.unary main_v133 main_v134 (broadcastInDim S32768x128 ![0, 1] bcast_S32768x1_S32768x128_0_1 : (⟨S32768x1, .f32⟩ : BufTy).Contents (Elt F) → (⟨S32768x128, .f32⟩ : BufTy).Contents (Elt F)),
    StableHlo.binary main_v130 main_v134 main_v135 (mulf : (⟨S32768x128, .f32⟩ : BufTy).Contents (Elt F) → (⟨S32768x128, .f32⟩ : BufTy).Contents (Elt F) → (⟨S32768x128, .f32⟩ : BufTy).Contents (Elt F)),
    StableHlo.unary main_v121 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S32768x128 ![0, 1] bcast_S1x128_S32768x128_0_1 : (⟨S1x128, .f32⟩ : BufTy).Contents (Elt F) → (⟨S32768x128, .f32⟩ : BufTy).Contents (Elt F)),
    StableHlo.binary main_v135 main_v137 main_v138 (mulf : (⟨S32768x128, .f32⟩ : BufTy).Contents (Elt F) → (⟨S32768x128, .f32⟩ : BufTy).Contents (Elt F) → (⟨S32768x128, .f32⟩ : BufTy).Contents (Elt F)),
    StableHlo.unary main_v123 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S32768x128 ![0, 1] bcast_S1x128_S32768x128_0_1 : (⟨S1x128, .f32⟩ : BufTy).Contents (Elt F) → (⟨S32768x128, .f32⟩ : BufTy).Contents (Elt F)),
    StableHlo.binary main_v138 main_v140 main_v141 (addf : (⟨S32768x128, .f32⟩ : BufTy).Contents (Elt F) → (⟨S32768x128, .f32⟩ : BufTy).Contents (Elt F) → (⟨S32768x128, .f32⟩ : BufTy).Contents (Elt F)),
    StableHlo.unary main_arg9 main_v142 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v142 main_v143 rfl shapeCasts_S1x128x128_S128x128,
    StableHlo.binary main_v141 main_v143 main_v144 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.reshape main_v144 main_v145 rfl shapeCasts_S32768x128_S32768x4x32,
    StableHlo.unary main_arg10 main_v146 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v146 main_v147 rfl shapeCasts_S1x128x128_S128x128,
    StableHlo.binary main_v141 main_v147 main_v148 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.reshape main_v148 main_v149 rfl shapeCasts_S32768x128_S32768x4x32,
    StableHlo.unary main_arg11 main_v150 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v150 main_v151 rfl shapeCasts_S1x128x128_S128x128,
    StableHlo.binary main_v141 main_v151 main_v152 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.reshape main_v152 main_v153 rfl shapeCasts_S32768x128_S32768x4x32,
    StableHlo.unary main_arg12 main_v154 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v154 main_v155 rfl shapeCasts_S1x128x128_S128x128,
    StableHlo.binary main_v12 main_v155 main_v156 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    StableHlo.reshape main_v156 main_v157 rfl shapeCasts_S524288x128_S524288x4x32,
    StableHlo.nullary main_c_18 (constantI S_ 32 0#32),
    StableHlo.unary main_c_18 main_v158 (broadcastInDim S524288 ![] bcast_S_S524288 : (⟨S_, .i32⟩ : BufTy).Contents (Elt F) → (⟨S524288, .i32⟩ : BufTy).Contents (Elt F)) ]

theorem opsP2_sub : (opsP2 : List (HloOp τ sig (Elt F))).Forall fun op => op.bufs ⊆ tcRefs τ sig :=
  ⟨binary_bufs_sub .., unary_bufs_sub .., reshape_bufs_sub .., unary_bufs_sub .., unary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., binary_bufs_sub ..,
    unary_bufs_sub .., reshape_bufs_sub .., unary_bufs_sub .., reshape_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., reshape_bufs_sub .., binary_bufs_sub .., reshape_bufs_sub .., unary_bufs_sub .., reshape_bufs_sub ..,
    binary_bufs_sub .., reshape_bufs_sub .., unary_bufs_sub .., reshape_bufs_sub .., binary_bufs_sub .., reshape_bufs_sub ..,
    unary_bufs_sub .., reshape_bufs_sub .., binary_bufs_sub .., reshape_bufs_sub .., nullary_bufs_sub .., unary_bufs_sub ..⟩

theorem opsP2_fresh : ∀ op ∈ (opsP2 : List (HloOp τ sig (Elt F))), op.fresh = ∅ :=
  List.forall_iff_forall_mem.1 (⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩ :
    (opsP2 : List (HloOp τ sig (Elt F))).Forall fun op => op.fresh = ∅)

set_option maxRecDepth 16384 in
set_option maxHeartbeats 4000000 in
theorem main_part2_eq (c : Dev nD) : main_part2 (F := F) c = seq opsP2 := rfl

end Cert.ReferenceIdeal.Hand

end
-- ==== Proof.Ref.Ops3.lean ====
import proofs.«113847_j61718680043593_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsP3 : List (HloOp τ sig (Elt F)) :=
  [ StableHlo.binary main_arg23 main_v158 main_v159 (cmpi .slt : (⟨S524288, .i32⟩ : BufTy).Contents (Elt F) → (⟨S524288, .i32⟩ : BufTy).Contents (Elt F) → (⟨S524288, .i1⟩ : BufTy).Contents (Elt F)),
    StableHlo.nullary main_c_19 (constantI S_ 32 32768#32),
    StableHlo.unary main_c_19 main_v160 (broadcastInDim S524288 ![] bcast_S_S524288 : (⟨S_, .i32⟩ : BufTy).Contents (Elt F) → (⟨S524288, .i32⟩ : BufTy).Contents (Elt F)),
    StableHlo.binary main_arg23 main_v160 main_v161 (addi : (⟨S524288, .i32⟩ : BufTy).Contents (Elt F) → (⟨S524288, .i32⟩ : BufTy).Contents (Elt F) → (⟨S524288, .i32⟩ : BufTy).Contents (Elt F)),
    StableHlo.ternary main_v159 main_v161 main_arg23 main_v162 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v162 main_v163 (broadcastInDim S524288x1 ![0] bcast_S524288_S524288x1_0 : (⟨S524288, .i32⟩ : BufTy).Contents (Elt F) → (⟨S524288x1, .i32⟩ : BufTy).Contents (Elt F)),
    StableHlo.binary main_v149 main_v163 main_v164 ((fun x i => Host.gather gather_S32768x4x32_S524288x1_S524288x4x32_12_0_n_n_0_1_1432 x i) : (⟨S32768x4x32, .f32⟩ : BufTy).Contents (Elt F) → (⟨S524288x1, .i32⟩ : BufTy).Contents (Elt F) → (⟨S524288x4x32, .f32⟩ : BufTy).Contents (Elt F)),
    StableHlo.nullary main_c_20 (constantI S_ 32 0#32),
    StableHlo.unary main_c_20 main_v165 (broadcastInDim S524288 ![] bcast_S_S524288 : (⟨S_, .i32⟩ : BufTy).Contents (Elt F) → (⟨S524288, .i32⟩ : BufTy).Contents (Elt F)),
    StableHlo.binary main_arg24 main_v165 main_v166 (cmpi .slt : (⟨S524288, .i32⟩ : BufTy).Contents (Elt F) → (⟨S524288, .i32⟩ : BufTy).Contents (Elt F) → (⟨S524288, .i1⟩ : BufTy).Contents (Elt F)),
    StableHlo.nullary main_c_21 (constantI S_ 32 32768#32),
    StableHlo.unary main_c_21 main_v167 (broadcastInDim S524288 ![] bcast_S_S524288 : (⟨S_, .i32⟩ : BufTy).Contents (Elt F) → (⟨S524288, .i32⟩ : BufTy).Contents (Elt F)),
    StableHlo.binary main_arg24 main_v167 main_v168 (addi : (⟨S524288, .i32⟩ : BufTy).Contents (Elt F) → (⟨S524288, .i32⟩ : BufTy).Contents (Elt F) → (⟨S524288, .i32⟩ : BufTy).Contents (Elt F)),
    StableHlo.ternary main_v166 main_v168 main_arg24 main_v169 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v169 main_v170 (broadcastInDim S524288x1 ![0] bcast_S524288_S524288x1_0 : (⟨S524288, .i32⟩ : BufTy).Contents (Elt F) → (⟨S524288x1, .i32⟩ : BufTy).Contents (Elt F)),
    StableHlo.binary main_v145 main_v170 main_v171 ((fun x i => Host.gather gather_S32768x4x32_S524288x1_S524288x4x32_12_0_n_n_0_1_1432 x i) : (⟨S32768x4x32, .f32⟩ : BufTy).Contents (Elt F) → (⟨S524288x1, .i32⟩ : BufTy).Contents (Elt F) → (⟨S524288x4x32, .f32⟩ : BufTy).Contents (Elt F)),
    StableHlo.binary main_v164 main_v171 main_v172 (mulf : (⟨S524288x4x32, .f32⟩ : BufTy).Contents (Elt F) → (⟨S524288x4x32, .f32⟩ : BufTy).Contents (Elt F) → (⟨S524288x4x32, .f32⟩ : BufTy).Contents (Elt F)),
    StableHlo.nullary main_cst_22 (constant S_ .f32 0x00000000#32),
    StableHlo.binary main_v172 main_cst_22 main_v173 ((fun x v => Host.reduceAdd x v reducesTo_S524288x4x32_S524288x4_d2 h_S_) : (⟨S524288x4x32, .f32⟩ : BufTy).Contents (Elt F) → (⟨S_, .f32⟩ : BufTy).Contents (Elt F) → (⟨S524288x4, .f32⟩ : BufTy).Contents (Elt F)),
    StableHlo.unary main_v173 main_v174 (broadcastInDim S524288x4x1 ![0, 1] bcast_S524288x4_S524288x4x1_0_1 : (⟨S524288x4, .f32⟩ : BufTy).Contents (Elt F) → (⟨S524288x4x1, .f32⟩ : BufTy).Contents (Elt F)),
    StableHlo.nullary main_cst_23 (constant S_ .f32 0x3E3504F3#32),
    StableHlo.unary main_cst_23 main_v175 (broadcastInDim S524288x4x1 ![] bcast_S_S524288x4x1 : (⟨S_, .f32⟩ : BufTy).Contents (Elt F) → (⟨S524288x4x1, .f32⟩ : BufTy).Contents (Elt F)),
    StableHlo.binary main_v174 main_v175 main_v176 (mulf : (⟨S524288x4x1, .f32⟩ : BufTy).Contents (Elt F) → (⟨S524288x4x1, .f32⟩ : BufTy).Contents (Elt F) → (⟨S524288x4x1, .f32⟩ : BufTy).Contents (Elt F)),
    StableHlo.nullary main_cst_24 (constant S_ .f32 0x3F800000#32),
    StableHlo.unary main_cst_24 main_v177 (broadcastInDim S524288x4x32 ![] bcast_S_S524288x4x32 : (⟨S_, .f32⟩ : BufTy).Contents (Elt F) → (⟨S524288x4x32, .f32⟩ : BufTy).Contents (Elt F)),
    StableHlo.binary main_v177 main_v157 main_v178 (addf : (⟨S524288x4x32, .f32⟩ : BufTy).Contents (Elt F) → (⟨S524288x4x32, .f32⟩ : BufTy).Contents (Elt F) → (⟨S524288x4x32, .f32⟩ : BufTy).Contents (Elt F)),
    StableHlo.unary main_v176 main_v179 (broadcastInDim S524288x4x32 ![0, 1, 2] bcast_S524288x4x1_S524288x4x32_0_1_2 : (⟨S524288x4x1, .f32⟩ : BufTy).Contents (Elt F) → (⟨S524288x4x32, .f32⟩ : BufTy).Contents (Elt F)),
    StableHlo.binary main_v179 main_v178 main_v180 (mulf : (⟨S524288x4x32, .f32⟩ : BufTy).Contents (Elt F) → (⟨S524288x4x32, .f32⟩ : BufTy).Contents (Elt F) → (⟨S524288x4x32, .f32⟩ : BufTy).Contents (Elt F)),
    StableHlo.unary main_v180 main_v181 (Host.exp : (⟨S524288x4x32, .f32⟩ : BufTy).Contents (Elt F) → (⟨S524288x4x32, .f32⟩ : BufTy).Contents (Elt F)),
    StableHlo.nullary main_cst_25 (constant S_ .f32 0x00000000#32),
    StableHlo.unary main_cst_25 main_v182 (broadcastInDim S32768x4x32 ![] bcast_S_S32768x4x32 : (⟨S_, .f32⟩ : BufTy).Contents (Elt F) → (⟨S32768x4x32, .f32⟩ : BufTy).Contents (Elt F)),
    StableHlo.unary main_arg24 main_v183 (broadcastInDim S524288x1 ![0] bcast_S524288_S524288x1_0 : (⟨S524288, .i32⟩ : BufTy).Contents (Elt F) → (⟨S524288x1, .i32⟩ : BufTy).Contents (Elt F)),
    StableHlo.ternary main_v182 main_v183 main_v181 main_v184 ((fun x i u => Host.scatterAdd scatter_S32768x4x32_S524288x1_S524288x4x32_12_0_0_1 x i u) : (⟨S32768x4x32, .f32⟩ : BufTy).Contents (Elt F) → (⟨S524288x1, .i32⟩ : BufTy).Contents (Elt F) → (⟨S524288x4x32, .f32⟩ : BufTy).Contents (Elt F) → (⟨S32768x4x32, .f32⟩ : BufTy).Contents (Elt F)),
    StableHlo.nullary main_cst_26 (constant S_ .f32 0x358637BD#32),
    StableHlo.unary main_cst_26 main_v185 (broadcastInDim S32768x4x32 ![] bcast_S_S32768x4x32 : (⟨S_, .f32⟩ : BufTy).Contents (Elt F) → (⟨S32768x4x32, .f32⟩ : BufTy).Contents (Elt F)),
    StableHlo.binary main_v184 main_v185 main_v186 (maximumf : (⟨S32768x4x32, .f32⟩ : BufTy).Contents (Elt F) → (⟨S32768x4x32, .f32⟩ : BufTy).Contents (Elt F) → (⟨S32768x4x32, .f32⟩ : BufTy).Contents (Elt F)),
    StableHlo.nullary main_c_27 (constantI S_ 32 0#32),
    StableHlo.unary main_c_27 main_v187 (broadcastInDim S524288 ![] bcast_S_S524288 : (⟨S_, .i32⟩ : BufTy).Contents (Elt F) → (⟨S524288, .i32⟩ : BufTy).Contents (Elt F)),
    StableHlo.binary main_arg23 main_v187 main_v188 (cmpi .slt : (⟨S524288, .i32⟩ : BufTy).Contents (Elt F) → (⟨S524288, .i32⟩ : BufTy).Contents (Elt F) → (⟨S524288, .i1⟩ : BufTy).Contents (Elt F)),
    StableHlo.nullary main_c_28 (constantI S_ 32 32768#32),
    StableHlo.unary main_c_28 main_v189 (broadcastInDim S524288 ![] bcast_S_S524288 : (⟨S_, .i32⟩ : BufTy).Contents (Elt F) → (⟨S524288, .i32⟩ : BufTy).Contents (Elt F)),
    StableHlo.binary main_arg23 main_v189 main_v190 (addi : (⟨S524288, .i32⟩ : BufTy).Contents (Elt F) → (⟨S524288, .i32⟩ : BufTy).Contents (Elt F) → (⟨S524288, .i32⟩ : BufTy).Contents (Elt F)),
    StableHlo.ternary main_v188 main_v190 main_arg23 main_v191 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v191 main_v192 (broadcastInDim S524288x1 ![0] bcast_S524288_S524288x1_0 : (⟨S524288, .i32⟩ : BufTy).Contents (Elt F) → (⟨S524288x1, .i32⟩ : BufTy).Contents (Elt F)),
    StableHlo.binary main_v153 main_v192 main_v193 ((fun x i => Host.gather gather_S32768x4x32_S524288x1_S524288x4x32_12_0_n_n_0_1_1432 x i) : (⟨S32768x4x32, .f32⟩ : BufTy).Contents (Elt F) → (⟨S524288x1, .i32⟩ : BufTy).Contents (Elt F) → (⟨S524288x4x32, .f32⟩ : BufTy).Contents (Elt F)),
    StableHlo.binary main_v193 main_v181 main_v194 (mulf : (⟨S524288x4x32, .f32⟩ : BufTy).Contents (Elt F) → (⟨S524288x4x32, .f32⟩ : BufTy).Contents (Elt F) → (⟨S524288x4x32, .f32⟩ : BufTy).Contents (Elt F)),
    StableHlo.nullary main_cst_29 (constant S_ .f32 0x00000000#32),
    StableHlo.unary main_cst_29 main_v195 (broadcastInDim S32768x4x32 ![] bcast_S_S32768x4x32 : (⟨S_, .f32⟩ : BufTy).Contents (Elt F) → (⟨S32768x4x32, .f32⟩ : BufTy).Contents (Elt F)),
    StableHlo.unary main_arg24 main_v196 (broadcastInDim S524288x1 ![0] bcast_S524288_S524288x1_0 : (⟨S524288, .i32⟩ : BufTy).Contents (Elt F) → (⟨S524288x1, .i32⟩ : BufTy).Contents (Elt F)),
    StableHlo.ternary main_v195 main_v196 main_v194 main_v197 ((fun x i u => Host.scatterAdd scatter_S32768x4x32_S524288x1_S524288x4x32_12_0_0_1 x i u) : (⟨S32768x4x32, .f32⟩ : BufTy).Contents (Elt F) → (⟨S524288x1, .i32⟩ : BufTy).Contents (Elt F) → (⟨S524288x4x32, .f32⟩ : BufTy).Contents (Elt F) → (⟨S32768x4x32, .f32⟩ : BufTy).Contents (Elt F)),
    StableHlo.binary main_v197 main_v186 main_v198 (Host.divf : (⟨S32768x4x32, .f32⟩ : BufTy).Contents (Elt F) → (⟨S32768x4x32, .f32⟩ : BufTy).Contents (Elt F) → (⟨S32768x4x32, .f32⟩ : BufTy).Contents (Elt F)),
    StableHlo.reshape main_v198 main_v199 rfl shapeCasts_S32768x4x32_S32768x128,
    StableHlo.unary main_arg13 main_v200 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v200 main_v201 rfl shapeCasts_S1x128x128_S128x128,
    StableHlo.binary main_v199 main_v201 main_v202 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.binary main_v141 main_v202 main_v203 (addf : (⟨S32768x128, .f32⟩ : BufTy).Contents (Elt F) → (⟨S32768x128, .f32⟩ : BufTy).Contents (Elt F) → (⟨S32768x128, .f32⟩ : BufTy).Contents (Elt F)),
    StableHlo.unary main_arg14 main_v204 ((extractStridedSlice S1x128 ![1, 0] · slices_S3x128_S1x128_1_0) : (⟨S3x128, .f32⟩ : BufTy).Contents (Elt F) → (⟨S1x128, .f32⟩ : BufTy).Contents (Elt F)),
    StableHlo.reshape main_v204 main_v205 rfl shapeCasts_S1x128_S128,
    StableHlo.unary main_v205 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S32768x128 ![0, 1] bcast_S1x128_S32768x128_0_1 : (⟨S1x128, .f32⟩ : BufTy).Contents (Elt F) → (⟨S32768x128, .f32⟩ : BufTy).Contents (Elt F)) ]

theorem opsP3_sub : (opsP3 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    binary_bufs_sub .., unary_bufs_sub .., nullary_bufs_sub .., unary_bufs_sub .., binary_bufs_sub .., nullary_bufs_sub ..,
    unary_bufs_sub .., binary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    unary_bufs_sub .., ternary_bufs_sub .., binary_bufs_sub .., reshape_bufs_sub .., unary_bufs_sub .., reshape_bufs_sub ..,
    binary_bufs_sub .., binary_bufs_sub .., unary_bufs_sub .., reshape_bufs_sub .., unary_bufs_sub .., unary_bufs_sub ..⟩

theorem opsP3_fresh : ∀ op ∈ (opsP3 : List (HloOp τ sig (Elt F))), op.fresh = ∅ :=
  List.forall_iff_forall_mem.1 (⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩ :
    (opsP3 : List (HloOp τ sig (Elt F))).Forall fun op => op.fresh = ∅)

set_option maxRecDepth 16384 in
set_option maxHeartbeats 4000000 in
theorem main_part3_eq (c : Dev nD) : main_part3 (F := F) c = seq opsP3 := rfl

end Cert.ReferenceIdeal.Hand

end
-- ==== Proof.Ref.Ops4.lean ====
import proofs.«113847_j61718680043593_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsP4 : List (HloOp τ sig (Elt F)) :=
  [ StableHlo.binary main_v203 main_v207 main_v208 (addf : (⟨S32768x128, .f32⟩ : BufTy).Contents (Elt F) → (⟨S32768x128, .f32⟩ : BufTy).Contents (Elt F) → (⟨S32768x128, .f32⟩ : BufTy).Contents (Elt F)),
    StableHlo.unary main_arg15 main_v209 ((extractStridedSlice S1x128 ![1, 0] · slices_S3x128_S1x128_1_0) : (⟨S3x128, .f32⟩ : BufTy).Contents (Elt F) → (⟨S1x128, .f32⟩ : BufTy).Contents (Elt F)),
    StableHlo.reshape main_v209 main_v210 rfl shapeCasts_S1x128_S128,
    StableHlo.unary main_arg16 main_v211 ((extractStridedSlice S1x128 ![1, 0] · slices_S3x128_S1x128_1_0) : (⟨S3x128, .f32⟩ : BufTy).Contents (Elt F) → (⟨S1x128, .f32⟩ : BufTy).Contents (Elt F)),
    StableHlo.reshape main_v211 main_v212 rfl shapeCasts_S1x128_S128,
    StableHlo.nullary main_cst_30 (constant S_ .f32 0x00000000#32),
    StableHlo.binary main_v208 main_cst_30 main_v213 ((fun x v => Host.reduceAdd x v reducesTo_S32768x128_S32768_d1 h_S_) : (⟨S32768x128, .f32⟩ : BufTy).Contents (Elt F) → (⟨S_, .f32⟩ : BufTy).Contents (Elt F) → (⟨S32768, .f32⟩ : BufTy).Contents (Elt F)),
    StableHlo.unary main_v213 main_v214 (broadcastInDim S32768x1 ![0] bcast_S32768_S32768x1_0 : (⟨S32768, .f32⟩ : BufTy).Contents (Elt F) → (⟨S32768x1, .f32⟩ : BufTy).Contents (Elt F)),
    StableHlo.nullary main_cst_31 (constant S_ .f32 0x43000000#32),
    StableHlo.unary main_cst_31 main_v215 (broadcastInDim S32768x1 ![] bcast_S_S32768x1 : (⟨S_, .f32⟩ : BufTy).Contents (Elt F) → (⟨S32768x1, .f32⟩ : BufTy).Contents (Elt F)),
    StableHlo.binary main_v214 main_v215 main_v216 (Host.divf : (⟨S32768x1, .f32⟩ : BufTy).Contents (Elt F) → (⟨S32768x1, .f32⟩ : BufTy).Contents (Elt F) → (⟨S32768x1, .f32⟩ : BufTy).Contents (Elt F)),
    StableHlo.nullary main_c_32 (constantI S_ 32 0#32),
    StableHlo.TRef.nullary (.of main_call3_cst : StableHlo.TRef sig ⟨S_, .f32⟩) (constant S_ .f32 0x00000000#32),
    StableHlo.TRef.binary (.of main_v208 : StableHlo.TRef sig ⟨S32768x128, .f32⟩) (.of main_call3_cst : StableHlo.TRef sig ⟨S_, .f32⟩) (.of main_call3_v0 : StableHlo.TRef sig ⟨S32768, .f32⟩) (fun x v => Host.reduceAdd x v reducesTo_S32768x128_S32768_d1 h_S_),
    StableHlo.TRef.unary (.of main_call3_v0 : StableHlo.TRef sig ⟨S32768, .f32⟩) (.of main_call3_v1 : StableHlo.TRef sig ⟨S32768x1, .f32⟩) (broadcastInDim S32768x1 ![0] bcast_S32768_S32768x1_0),
    StableHlo.TRef.nullary (.of main_call3_cst_0 : StableHlo.TRef sig ⟨S_, .f32⟩) (constant S_ .f32 0x43000000#32),
    StableHlo.TRef.unary (.of main_call3_cst_0 : StableHlo.TRef sig ⟨S_, .f32⟩) (.of main_call3_v2 : StableHlo.TRef sig ⟨S32768x1, .f32⟩) (broadcastInDim S32768x1 ![] bcast_S_S32768x1),
    StableHlo.TRef.binary (.of main_call3_v1 : StableHlo.TRef sig ⟨S32768x1, .f32⟩) (.of main_call3_v2 : StableHlo.TRef sig ⟨S32768x1, .f32⟩) (.of main_call3_v3 : StableHlo.TRef sig ⟨S32768x1, .f32⟩) Host.divf,
    StableHlo.TRef.unary (.of main_call3_v3 : StableHlo.TRef sig ⟨S32768x1, .f32⟩) (.of main_call3_v4 : StableHlo.TRef sig ⟨S32768x128, .f32⟩) (broadcastInDim S32768x128 ![0, 1] bcast_S32768x1_S32768x128_0_1),
    StableHlo.TRef.binary (.of main_v208 : StableHlo.TRef sig ⟨S32768x128, .f32⟩) (.of main_call3_v4 : StableHlo.TRef sig ⟨S32768x128, .f32⟩) (.of main_call3_v5 : StableHlo.TRef sig ⟨S32768x128, .f32⟩) subf,
    StableHlo.TRef.binary (.of main_call3_v5 : StableHlo.TRef sig ⟨S32768x128, .f32⟩) (.of main_call3_v5 : StableHlo.TRef sig ⟨S32768x128, .f32⟩) (.of main_call3_v6 : StableHlo.TRef sig ⟨S32768x128, .f32⟩) mulf,
    StableHlo.TRef.unary (.of main_c_32 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x43000000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S32768x128, .f32⟩) (.of main_call3_cst_2 : StableHlo.TRef sig ⟨S_, .f32⟩) (.of main_call3_v9 : StableHlo.TRef sig ⟨S32768, .f32⟩) (fun x v => Host.reduceAdd x v reducesTo_S32768x128_S32768_d1 h_S_),
    StableHlo.TRef.unary (.of main_call3_v9 : StableHlo.TRef sig ⟨S32768, .f32⟩) (.of main_call3_v10 : StableHlo.TRef sig ⟨S32768x1, .f32⟩) (broadcastInDim S32768x1 ![0] bcast_S32768_S32768x1_0),
    StableHlo.TRef.unary (.of main_call3_v8 : StableHlo.TRef sig ⟨S_, .f32⟩) (.of main_call3_v11 : StableHlo.TRef sig ⟨S32768x1, .f32⟩) (broadcastInDim S32768x1 ![] bcast_S_S32768x1),
    StableHlo.TRef.binary (.of main_call3_v10 : StableHlo.TRef sig ⟨S32768x1, .f32⟩) (.of main_call3_v11 : StableHlo.TRef sig ⟨S32768x1, .f32⟩) (.of main_call3_v12 : StableHlo.TRef sig ⟨S32768x1, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v13 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S32768x1, .f32⟩) (broadcastInDim S32768x1 ![] bcast_S_S32768x1),
    StableHlo.TRef.ternary (.of main_call3_v13 : StableHlo.TRef sig ⟨S_, .i1⟩) (.of main_call3_v12 : StableHlo.TRef sig ⟨S32768x1, .f32⟩) (.of main_call3_call0_v1 : StableHlo.TRef sig ⟨S32768x1, .f32⟩) (.of main_v217 : StableHlo.TRef sig ⟨S32768x1, .f32⟩) (fun p a b => select (broadcastInDim S32768x1 ![] bcast_S_S32768x1 p) a b),
    StableHlo.unary main_v216 main_v218 (broadcastInDim S32768x128 ![0, 1] bcast_S32768x1_S32768x128_0_1 : (⟨S32768x1, .f32⟩ : BufTy).Contents (Elt F) → (⟨S32768x128, .f32⟩ : BufTy).Contents (Elt F)),
    StableHlo.binary main_v208 main_v218 main_v219 (subf : (⟨S32768x128, .f32⟩ : BufTy).Contents (Elt F) → (⟨S32768x128, .f32⟩ : BufTy).Contents (Elt F) → (⟨S32768x128, .f32⟩ : BufTy).Contents (Elt F)),
    StableHlo.nullary main_cst_33 (constant S_ .f32 0x3727C5AC#32),
    StableHlo.unary main_cst_33 main_v220 (broadcastInDim S32768x1 ![] bcast_S_S32768x1 : (⟨S_, .f32⟩ : BufTy).Contents (Elt F) → (⟨S32768x1, .f32⟩ : BufTy).Contents (Elt F)),
    StableHlo.binary main_v217 main_v220 main_v221 (addf : (⟨S32768x1, .f32⟩ : BufTy).Contents (Elt F) → (⟨S32768x1, .f32⟩ : BufTy).Contents (Elt F) → (⟨S32768x1, .f32⟩ : BufTy).Contents (Elt F)),
    StableHlo.unary main_v221 main_v222 (Host.rsqrt : (⟨S32768x1, .f32⟩ : BufTy).Contents (Elt F) → (⟨S32768x1, .f32⟩ : BufTy).Contents (Elt F)),
    StableHlo.unary main_v222 main_v223 (broadcastInDim S32768x128 ![0, 1] bcast_S32768x1_S32768x128_0_1 : (⟨S32768x1, .f32⟩ : BufTy).Contents (Elt F) → (⟨S32768x128, .f32⟩ : BufTy).Contents (Elt F)),
    StableHlo.binary main_v219 main_v223 main_v224 (mulf : (⟨S32768x128, .f32⟩ : BufTy).Contents (Elt F) → (⟨S32768x128, .f32⟩ : BufTy).Contents (Elt F) → (⟨S32768x128, .f32⟩ : BufTy).Contents (Elt F)),
    StableHlo.unary main_v210 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S32768x128 ![0, 1] bcast_S1x128_S32768x128_0_1 : (⟨S1x128, .f32⟩ : BufTy).Contents (Elt F) → (⟨S32768x128, .f32⟩ : BufTy).Contents (Elt F)),
    StableHlo.binary main_v224 main_v226 main_v227 (mulf : (⟨S32768x128, .f32⟩ : BufTy).Contents (Elt F) → (⟨S32768x128, .f32⟩ : BufTy).Contents (Elt F) → (⟨S32768x128, .f32⟩ : BufTy).Contents (Elt F)),
    StableHlo.unary main_v212 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S32768x128 ![0, 1] bcast_S1x128_S32768x128_0_1 : (⟨S1x128, .f32⟩ : BufTy).Contents (Elt F) → (⟨S32768x128, .f32⟩ : BufTy).Contents (Elt F)),
    StableHlo.binary main_v227 main_v229 main_v230 (addf : (⟨S32768x128, .f32⟩ : BufTy).Contents (Elt F) → (⟨S32768x128, .f32⟩ : BufTy).Contents (Elt F) → (⟨S32768x128, .f32⟩ : BufTy).Contents (Elt F)),
    StableHlo.unary main_arg17 main_v231 ((extractStridedSlice S1x128x256 ![1, 0, 0] · slices_S3x128x256_S1x128x256_1_0_0) : (⟨S3x128x256, .f32⟩ : BufTy).Contents (Elt F) → (⟨S1x128x256, .f32⟩ : BufTy).Contents (Elt F)),
    StableHlo.reshape main_v231 main_v232 rfl shapeCasts_S1x128x256_S128x256,
    StableHlo.binary main_v230 main_v232 main_v233 ((fun l r => Host.dotGeneral dot_S32768x128_S128x256_S32768x256_1_0_0_1_n_n none l r) : (⟨S32768x128, .f32⟩ : BufTy).Contents (Elt F) → (⟨S128x256, .f32⟩ : BufTy).Contents (Elt F) → (⟨S32768x256, .f32⟩ : BufTy).Contents (Elt F)),
    StableHlo.unary main_arg18 main_v234 ((extractStridedSlice S1x256 ![1, 0] · slices_S3x256_S1x256_1_0) : (⟨S3x256, .f32⟩ : BufTy).Contents (Elt F) → (⟨S1x256, .f32⟩ : BufTy).Contents (Elt F)),
    StableHlo.reshape main_v234 main_v235 rfl shapeCasts_S1x256_S256,
    StableHlo.unary main_v235 main_v236 (broadcastInDim S1x256 ![1] bcast_S256_S1x256_1 : (⟨S256, .f32⟩ : BufTy).Contents (Elt F) → (⟨S1x256, .f32⟩ : BufTy).Contents (Elt F)),
    StableHlo.unary main_v236 main_v237 (broadcastInDim S32768x256 ![0, 1] bcast_S1x256_S32768x256_0_1 : (⟨S1x256, .f32⟩ : BufTy).Contents (Elt F) → (⟨S32768x256, .f32⟩ : BufTy).Contents (Elt F)),
    StableHlo.binary main_v233 main_v237 main_v238 (addf : (⟨S32768x256, .f32⟩ : BufTy).Contents (Elt F) → (⟨S32768x256, .f32⟩ : BufTy).Contents (Elt F) → (⟨S32768x256, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S32768x256, .f32⟩) (broadcastInDim S32768x256 ![] bcast_S_S32768x256),
    StableHlo.TRef.binary (.of main_v238 : StableHlo.TRef sig ⟨S32768x256, .f32⟩) (.of main_call4_v0 : StableHlo.TRef sig ⟨S32768x256, .f32⟩) (.of main_v239 : StableHlo.TRef sig ⟨S32768x256, .f32⟩) maximumf,
    StableHlo.unary main_arg19 main_v240 ((extractStridedSlice S1x256x128 ![1, 0, 0] · slices_S3x256x128_S1x256x128_1_0_0) : (⟨S3x256x128, .f32⟩ : BufTy).Contents (Elt F) → (⟨S1x256x128, .f32⟩ : BufTy).Contents (Elt F)),
    StableHlo.reshape main_v240 main_v241 rfl shapeCasts_S1x256x128_S256x128,
    StableHlo.binary main_v239 main_v241 main_v242 ((fun l r => Host.dotGeneral dot_S32768x256_S256x128_S32768x128_1_0_0_1_n_n none l r) : (⟨S32768x256, .f32⟩ : BufTy).Contents (Elt F) → (⟨S256x128, .f32⟩ : BufTy).Contents (Elt F) → (⟨S32768x128, .f32⟩ : BufTy).Contents (Elt F)),
    StableHlo.unary main_arg20 main_v243 ((extractStridedSlice S1x128 ![1, 0] · slices_S3x128_S1x128_1_0) : (⟨S3x128, .f32⟩ : BufTy).Contents (Elt F) → (⟨S1x128, .f32⟩ : BufTy).Contents (Elt F)),
    StableHlo.reshape main_v243 main_v244 rfl shapeCasts_S1x128_S128,
    StableHlo.unary main_v244 main_v245 (broadcastInDim S1x128 ![1] bcast_S128_S1x128_1 : (⟨S128, .f32⟩ : BufTy).Contents (Elt F) → (⟨S1x128, .f32⟩ : BufTy).Contents (Elt F)),
    StableHlo.unary main_v245 main_v246 (broadcastInDim S32768x128 ![0, 1] bcast_S1x128_S32768x128_0_1 : (⟨S1x128, .f32⟩ : BufTy).Contents (Elt F) → (⟨S32768x128, .f32⟩ : BufTy).Contents (Elt F)),
    StableHlo.binary main_v242 main_v246 main_v247 (addf : (⟨S32768x128, .f32⟩ : BufTy).Contents (Elt F) → (⟨S32768x128, .f32⟩ : BufTy).Contents (Elt F) → (⟨S32768x128, .f32⟩ : BufTy).Contents (Elt F)),
    StableHlo.binary main_v230 main_v247 main_v248 (addf : (⟨S32768x128, .f32⟩ : BufTy).Contents (Elt F) → (⟨S32768x128, .f32⟩ : BufTy).Contents (Elt F) → (⟨S32768x128, .f32⟩ : BufTy).Contents (Elt F)),
    StableHlo.unary main_arg21 main_v249 ((extractStridedSlice S1x128 ![1, 0] · slices_S3x128_S1x128_1_0) : (⟨S3x128, .f32⟩ : BufTy).Contents (Elt F) → (⟨S1x128, .f32⟩ : BufTy).Contents (Elt F)),
    StableHlo.reshape main_v249 main_v250 rfl shapeCasts_S1x128_S128,
    StableHlo.unary main_arg22 main_v251 ((extractStridedSlice S1x128 ![1, 0] · slices_S3x128_S1x128_1_0) : (⟨S3x128, .f32⟩ : BufTy).Contents (Elt F) → (⟨S1x128, .f32⟩ : BufTy).Contents (Elt F)),
    StableHlo.reshape main_v251 main_v252 rfl shapeCasts_S1x128_S128,
    StableHlo.nullary main_cst_34 (constant S_ .f32 0x00000000#32),
    StableHlo.binary main_v248 main_cst_34 main_v253 ((fun x v => Host.reduceAdd x v reducesTo_S32768x128_S32768_d1 h_S_) : (⟨S32768x128, .f32⟩ : BufTy).Contents (Elt F) → (⟨S_, .f32⟩ : BufTy).Contents (Elt F) → (⟨S32768, .f32⟩ : BufTy).Contents (Elt F)),
    StableHlo.unary main_v253 main_v254 (broadcastInDim S32768x1 ![0] bcast_S32768_S32768x1_0 : (⟨S32768, .f32⟩ : BufTy).Contents (Elt F) → (⟨S32768x1, .f32⟩ : BufTy).Contents (Elt F)),
    StableHlo.nullary main_cst_35 (constant S_ .f32 0x43000000#32),
    StableHlo.unary main_cst_35 main_v255 (broadcastInDim S32768x1 ![] bcast_S_S32768x1 : (⟨S_, .f32⟩ : BufTy).Contents (Elt F) → (⟨S32768x1, .f32⟩ : BufTy).Contents (Elt F)),
    StableHlo.binary main_v254 main_v255 main_v256 (Host.divf : (⟨S32768x1, .f32⟩ : BufTy).Contents (Elt F) → (⟨S32768x1, .f32⟩ : BufTy).Contents (Elt F) → (⟨S32768x1, .f32⟩ : BufTy).Contents (Elt F)),
    StableHlo.nullary main_c_36 (constantI S_ 32 0#32),
    StableHlo.TRef.nullary (.of main_call5_cst : StableHlo.TRef sig ⟨S_, .f32⟩) (constant S_ .f32 0x00000000#32),
    StableHlo.TRef.binary (.of main_v248 : StableHlo.TRef sig ⟨S32768x128, .f32⟩) (.of main_call5_cst : StableHlo.TRef sig ⟨S_, .f32⟩) (.of main_call5_v0 : StableHlo.TRef sig ⟨S32768, .f32⟩) (fun x v => Host.reduceAdd x v reducesTo_S32768x128_S32768_d1 h_S_),
    StableHlo.TRef.unary (.of main_call5_v0 : StableHlo.TRef sig ⟨S32768, .f32⟩) (.of main_call5_v1 : StableHlo.TRef sig ⟨S32768x1, .f32⟩) (broadcastInDim S32768x1 ![0] bcast_S32768_S32768x1_0),
    StableHlo.TRef.nullary (.of main_call5_cst_0 : StableHlo.TRef sig ⟨S_, .f32⟩) (constant S_ .f32 0x43000000#32),
    StableHlo.TRef.unary (.of main_call5_cst_0 : StableHlo.TRef sig ⟨S_, .f32⟩) (.of main_call5_v2 : StableHlo.TRef sig ⟨S32768x1, .f32⟩) (broadcastInDim S32768x1 ![] bcast_S_S32768x1),
    StableHlo.TRef.binary (.of main_call5_v1 : StableHlo.TRef sig ⟨S32768x1, .f32⟩) (.of main_call5_v2 : StableHlo.TRef sig ⟨S32768x1, .f32⟩) (.of main_call5_v3 : StableHlo.TRef sig ⟨S32768x1, .f32⟩) Host.divf,
    StableHlo.TRef.unary (.of main_call5_v3 : StableHlo.TRef sig ⟨S32768x1, .f32⟩) (.of main_call5_v4 : StableHlo.TRef sig ⟨S32768x128, .f32⟩) (broadcastInDim S32768x128 ![0, 1] bcast_S32768x1_S32768x128_0_1),
    StableHlo.TRef.binary (.of main_v248 : StableHlo.TRef sig ⟨S32768x128, .f32⟩) (.of main_call5_v4 : StableHlo.TRef sig ⟨S32768x128, .f32⟩) (.of main_call5_v5 : StableHlo.TRef sig ⟨S32768x128, .f32⟩) subf,
    StableHlo.TRef.binary (.of main_call5_v5 : StableHlo.TRef sig ⟨S32768x128, .f32⟩) (.of main_call5_v5 : StableHlo.TRef sig ⟨S32768x128, .f32⟩) (.of main_call5_v6 : StableHlo.TRef sig ⟨S32768x128, .f32⟩) mulf,
    StableHlo.TRef.unary (.of main_c_36 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x43000000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S32768x128, .f32⟩) (.of main_call5_cst_2 : StableHlo.TRef sig ⟨S_, .f32⟩) (.of main_call5_v9 : StableHlo.TRef sig ⟨S32768, .f32⟩) (fun x v => Host.reduceAdd x v reducesTo_S32768x128_S32768_d1 h_S_),
    StableHlo.TRef.unary (.of main_call5_v9 : StableHlo.TRef sig ⟨S32768, .f32⟩) (.of main_call5_v10 : StableHlo.TRef sig ⟨S32768x1, .f32⟩) (broadcastInDim S32768x1 ![0] bcast_S32768_S32768x1_0),
    StableHlo.TRef.unary (.of main_call5_v8 : StableHlo.TRef sig ⟨S_, .f32⟩) (.of main_call5_v11 : StableHlo.TRef sig ⟨S32768x1, .f32⟩) (broadcastInDim S32768x1 ![] bcast_S_S32768x1),
    StableHlo.TRef.binary (.of main_call5_v10 : StableHlo.TRef sig ⟨S32768x1, .f32⟩) (.of main_call5_v11 : StableHlo.TRef sig ⟨S32768x1, .f32⟩) (.of main_call5_v12 : StableHlo.TRef sig ⟨S32768x1, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v13 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S32768x1, .f32⟩) (broadcastInDim S32768x1 ![] bcast_S_S32768x1),
    StableHlo.TRef.ternary (.of main_call5_v13 : StableHlo.TRef sig ⟨S_, .i1⟩) (.of main_call5_v12 : StableHlo.TRef sig ⟨S32768x1, .f32⟩) (.of main_call5_call0_v1 : StableHlo.TRef sig ⟨S32768x1, .f32⟩) (.of main_v257 : StableHlo.TRef sig ⟨S32768x1, .f32⟩) (fun p a b => select (broadcastInDim S32768x1 ![] bcast_S_S32768x1 p) a b),
    StableHlo.unary main_v256 main_v258 (broadcastInDim S32768x128 ![0, 1] bcast_S32768x1_S32768x128_0_1 : (⟨S32768x1, .f32⟩ : BufTy).Contents (Elt F) → (⟨S32768x128, .f32⟩ : BufTy).Contents (Elt F)),
    StableHlo.binary main_v248 main_v258 main_v259 (subf : (⟨S32768x128, .f32⟩ : BufTy).Contents (Elt F) → (⟨S32768x128, .f32⟩ : BufTy).Contents (Elt F) → (⟨S32768x128, .f32⟩ : BufTy).Contents (Elt F)),
    StableHlo.nullary main_cst_37 (constant S_ .f32 0x3727C5AC#32) ]

theorem opsP4_sub : (opsP4 : List (HloOp τ sig (Elt F))).Forall fun op => op.bufs ⊆ tcRefs τ sig :=
  ⟨binary_bufs_sub .., unary_bufs_sub .., reshape_bufs_sub .., unary_bufs_sub .., reshape_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., binary_bufs_sub .., unary_bufs_sub .., reshape_bufs_sub .., unary_bufs_sub ..,
    reshape_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub ..⟩

theorem opsP4_fresh : ∀ op ∈ (opsP4 : List (HloOp τ sig (Elt F))), op.fresh = ∅ :=
  List.forall_iff_forall_mem.1 (⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩ :
    (opsP4 : List (HloOp τ sig (Elt F))).Forall fun op => op.fresh = ∅)

set_option maxRecDepth 16384 in
set_option maxHeartbeats 4000000 in
theorem main_part4_eq (c : Dev nD) : main_part4 (F := F) c = seq opsP4 := rfl

end Cert.ReferenceIdeal.Hand

end
-- ==== Proof.Ref.Ops5.lean ====
import proofs.«113847_j61718680043593_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsP5 : List (HloOp τ sig (Elt F)) :=
  [ StableHlo.unary main_cst_37 main_v260 (broadcastInDim S32768x1 ![] bcast_S_S32768x1 : (⟨S_, .f32⟩ : BufTy).Contents (Elt F) → (⟨S32768x1, .f32⟩ : BufTy).Contents (Elt F)),
    StableHlo.binary main_v257 main_v260 main_v261 (addf : (⟨S32768x1, .f32⟩ : BufTy).Contents (Elt F) → (⟨S32768x1, .f32⟩ : BufTy).Contents (Elt F) → (⟨S32768x1, .f32⟩ : BufTy).Contents (Elt F)),
    StableHlo.unary main_v261 main_v262 (Host.rsqrt : (⟨S32768x1, .f32⟩ : BufTy).Contents (Elt F) → (⟨S32768x1, .f32⟩ : BufTy).Contents (Elt F)),
    StableHlo.unary main_v262 main_v263 (broadcastInDim S32768x128 ![0, 1] bcast_S32768x1_S32768x128_0_1 : (⟨S32768x1, .f32⟩ : BufTy).Contents (Elt F) → (⟨S32768x128, .f32⟩ : BufTy).Contents (Elt F)),
    StableHlo.binary main_v259 main_v263 main_v264 (mulf : (⟨S32768x128, .f32⟩ : BufTy).Contents (Elt F) → (⟨S32768x128, .f32⟩ : BufTy).Contents (Elt F) → (⟨S32768x128, .f32⟩ : BufTy).Contents (Elt F)),
    StableHlo.unary main_v250 main_v265 (broadcastInDim S1x128 ![1] bcast_S128_S1x128_1 : (⟨S128, .f32⟩ : BufTy).Contents (Elt F) → (⟨S1x128, .f32⟩ : BufTy).Contents (Elt F)),
    StableHlo.unary main_v265 main_v266 (broadcastInDim S32768x128 ![0, 1] bcast_S1x128_S32768x128_0_1 : (⟨S1x128, .f32⟩ : BufTy).Contents (Elt F) → (⟨S32768x128, .f32⟩ : BufTy).Contents (Elt F)),
    StableHlo.binary main_v264 main_v266 main_v267 (mulf : (⟨S32768x128, .f32⟩ : BufTy).Contents (Elt F) → (⟨S32768x128, .f32⟩ : BufTy).Contents (Elt F) → (⟨S32768x128, .f32⟩ : BufTy).Contents (Elt F)),
    StableHlo.unary main_v252 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S32768x128 ![0, 1] bcast_S1x128_S32768x128_0_1 : (⟨S1x128, .f32⟩ : BufTy).Contents (Elt F) → (⟨S32768x128, .f32⟩ : BufTy).Contents (Elt F)),
    StableHlo.binary main_v267 main_v269 main_v270 (addf : (⟨S32768x128, .f32⟩ : BufTy).Contents (Elt F) → (⟨S32768x128, .f32⟩ : BufTy).Contents (Elt F) → (⟨S32768x128, .f32⟩ : BufTy).Contents (Elt F)),
    StableHlo.unary main_arg9 main_v271 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v271 main_v272 rfl shapeCasts_S1x128x128_S128x128,
    StableHlo.binary main_v270 main_v272 main_v273 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.reshape main_v273 main_v274 rfl shapeCasts_S32768x128_S32768x4x32,
    StableHlo.unary main_arg10 main_v275 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v275 main_v276 rfl shapeCasts_S1x128x128_S128x128,
    StableHlo.binary main_v270 main_v276 main_v277 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.reshape main_v277 main_v278 rfl shapeCasts_S32768x128_S32768x4x32,
    StableHlo.unary main_arg11 main_v279 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v279 main_v280 rfl shapeCasts_S1x128x128_S128x128,
    StableHlo.binary main_v270 main_v280 main_v281 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.reshape main_v281 main_v282 rfl shapeCasts_S32768x128_S32768x4x32,
    StableHlo.unary main_arg12 main_v283 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v283 main_v284 rfl shapeCasts_S1x128x128_S128x128,
    StableHlo.binary main_v12 main_v284 main_v285 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    StableHlo.reshape main_v285 main_v286 rfl shapeCasts_S524288x128_S524288x4x32,
    StableHlo.nullary main_c_38 (constantI S_ 32 0#32),
    StableHlo.unary main_c_38 main_v287 (broadcastInDim S524288 ![] bcast_S_S524288 : (⟨S_, .i32⟩ : BufTy).Contents (Elt F) → (⟨S524288, .i32⟩ : BufTy).Contents (Elt F)),
    StableHlo.binary main_arg23 main_v287 main_v288 (cmpi .slt : (⟨S524288, .i32⟩ : BufTy).Contents (Elt F) → (⟨S524288, .i32⟩ : BufTy).Contents (Elt F) → (⟨S524288, .i1⟩ : BufTy).Contents (Elt F)),
    StableHlo.nullary main_c_39 (constantI S_ 32 32768#32),
    StableHlo.unary main_c_39 main_v289 (broadcastInDim S524288 ![] bcast_S_S524288 : (⟨S_, .i32⟩ : BufTy).Contents (Elt F) → (⟨S524288, .i32⟩ : BufTy).Contents (Elt F)),
    StableHlo.binary main_arg23 main_v289 main_v290 (addi : (⟨S524288, .i32⟩ : BufTy).Contents (Elt F) → (⟨S524288, .i32⟩ : BufTy).Contents (Elt F) → (⟨S524288, .i32⟩ : BufTy).Contents (Elt F)),
    StableHlo.ternary main_v288 main_v290 main_arg23 main_v291 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v291 main_v292 (broadcastInDim S524288x1 ![0] bcast_S524288_S524288x1_0 : (⟨S524288, .i32⟩ : BufTy).Contents (Elt F) → (⟨S524288x1, .i32⟩ : BufTy).Contents (Elt F)),
    StableHlo.binary main_v278 main_v292 main_v293 ((fun x i => Host.gather gather_S32768x4x32_S524288x1_S524288x4x32_12_0_n_n_0_1_1432 x i) : (⟨S32768x4x32, .f32⟩ : BufTy).Contents (Elt F) → (⟨S524288x1, .i32⟩ : BufTy).Contents (Elt F) → (⟨S524288x4x32, .f32⟩ : BufTy).Contents (Elt F)),
    StableHlo.nullary main_c_40 (constantI S_ 32 0#32),
    StableHlo.unary main_c_40 main_v294 (broadcastInDim S524288 ![] bcast_S_S524288 : (⟨S_, .i32⟩ : BufTy).Contents (Elt F) → (⟨S524288, .i32⟩ : BufTy).Contents (Elt F)),
    StableHlo.binary main_arg24 main_v294 main_v295 (cmpi .slt : (⟨S524288, .i32⟩ : BufTy).Contents (Elt F) → (⟨S524288, .i32⟩ : BufTy).Contents (Elt F) → (⟨S524288, .i1⟩ : BufTy).Contents (Elt F)),
    StableHlo.nullary main_c_41 (constantI S_ 32 32768#32),
    StableHlo.unary main_c_41 main_v296 (broadcastInDim S524288 ![] bcast_S_S524288 : (⟨S_, .i32⟩ : BufTy).Contents (Elt F) → (⟨S524288, .i32⟩ : BufTy).Contents (Elt F)),
    StableHlo.binary main_arg24 main_v296 main_v297 (addi : (⟨S524288, .i32⟩ : BufTy).Contents (Elt F) → (⟨S524288, .i32⟩ : BufTy).Contents (Elt F) → (⟨S524288, .i32⟩ : BufTy).Contents (Elt F)),
    StableHlo.ternary main_v295 main_v297 main_arg24 main_v298 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v298 main_v299 (broadcastInDim S524288x1 ![0] bcast_S524288_S524288x1_0 : (⟨S524288, .i32⟩ : BufTy).Contents (Elt F) → (⟨S524288x1, .i32⟩ : BufTy).Contents (Elt F)),
    StableHlo.binary main_v274 main_v299 main_v300 ((fun x i => Host.gather gather_S32768x4x32_S524288x1_S524288x4x32_12_0_n_n_0_1_1432 x i) : (⟨S32768x4x32, .f32⟩ : BufTy).Contents (Elt F) → (⟨S524288x1, .i32⟩ : BufTy).Contents (Elt F) → (⟨S524288x4x32, .f32⟩ : BufTy).Contents (Elt F)),
    StableHlo.binary main_v293 main_v300 main_v301 (mulf : (⟨S524288x4x32, .f32⟩ : BufTy).Contents (Elt F) → (⟨S524288x4x32, .f32⟩ : BufTy).Contents (Elt F) → (⟨S524288x4x32, .f32⟩ : BufTy).Contents (Elt F)),
    StableHlo.nullary main_cst_42 (constant S_ .f32 0x00000000#32),
    StableHlo.binary main_v301 main_cst_42 main_v302 ((fun x v => Host.reduceAdd x v reducesTo_S524288x4x32_S524288x4_d2 h_S_) : (⟨S524288x4x32, .f32⟩ : BufTy).Contents (Elt F) → (⟨S_, .f32⟩ : BufTy).Contents (Elt F) → (⟨S524288x4, .f32⟩ : BufTy).Contents (Elt F)),
    StableHlo.unary main_v302 main_v303 (broadcastInDim S524288x4x1 ![0, 1] bcast_S524288x4_S524288x4x1_0_1 : (⟨S524288x4, .f32⟩ : BufTy).Contents (Elt F) → (⟨S524288x4x1, .f32⟩ : BufTy).Contents (Elt F)),
    StableHlo.nullary main_cst_43 (constant S_ .f32 0x3E3504F3#32),
    StableHlo.unary main_cst_43 main_v304 (broadcastInDim S524288x4x1 ![] bcast_S_S524288x4x1 : (⟨S_, .f32⟩ : BufTy).Contents (Elt F) → (⟨S524288x4x1, .f32⟩ : BufTy).Contents (Elt F)),
    StableHlo.binary main_v303 main_v304 main_v305 (mulf : (⟨S524288x4x1, .f32⟩ : BufTy).Contents (Elt F) → (⟨S524288x4x1, .f32⟩ : BufTy).Contents (Elt F) → (⟨S524288x4x1, .f32⟩ : BufTy).Contents (Elt F)),
    StableHlo.nullary main_cst_44 (constant S_ .f32 0x3F800000#32),
    StableHlo.unary main_cst_44 main_v306 (broadcastInDim S524288x4x32 ![] bcast_S_S524288x4x32 : (⟨S_, .f32⟩ : BufTy).Contents (Elt F) → (⟨S524288x4x32, .f32⟩ : BufTy).Contents (Elt F)),
    StableHlo.binary main_v306 main_v286 main_v307 (addf : (⟨S524288x4x32, .f32⟩ : BufTy).Contents (Elt F) → (⟨S524288x4x32, .f32⟩ : BufTy).Contents (Elt F) → (⟨S524288x4x32, .f32⟩ : BufTy).Contents (Elt F)),
    StableHlo.unary main_v305 main_v308 (broadcastInDim S524288x4x32 ![0, 1, 2] bcast_S524288x4x1_S524288x4x32_0_1_2 : (⟨S524288x4x1, .f32⟩ : BufTy).Contents (Elt F) → (⟨S524288x4x32, .f32⟩ : BufTy).Contents (Elt F)),
    StableHlo.binary main_v308 main_v307 main_v309 (mulf : (⟨S524288x4x32, .f32⟩ : BufTy).Contents (Elt F) → (⟨S524288x4x32, .f32⟩ : BufTy).Contents (Elt F) → (⟨S524288x4x32, .f32⟩ : BufTy).Contents (Elt F)),
    StableHlo.unary main_v309 main_v310 (Host.exp : (⟨S524288x4x32, .f32⟩ : BufTy).Contents (Elt F) → (⟨S524288x4x32, .f32⟩ : BufTy).Contents (Elt F)),
    StableHlo.nullary main_cst_45 (constant S_ .f32 0x00000000#32),
    StableHlo.unary main_cst_45 main_v311 (broadcastInDim S32768x4x32 ![] bcast_S_S32768x4x32 : (⟨S_, .f32⟩ : BufTy).Contents (Elt F) → (⟨S32768x4x32, .f32⟩ : BufTy).Contents (Elt F)) ]

theorem opsP5_sub : (opsP5 : List (HloOp τ sig (Elt F))).Forall fun op => op.bufs ⊆ tcRefs τ sig :=
  ⟨unary_bufs_sub .., binary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    reshape_bufs_sub .., binary_bufs_sub .., reshape_bufs_sub .., unary_bufs_sub .., reshape_bufs_sub .., binary_bufs_sub ..,
    reshape_bufs_sub .., unary_bufs_sub .., reshape_bufs_sub .., binary_bufs_sub .., reshape_bufs_sub .., unary_bufs_sub ..,
    reshape_bufs_sub .., binary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., binary_bufs_sub ..,
    unary_bufs_sub .., nullary_bufs_sub .., unary_bufs_sub .., binary_bufs_sub .., nullary_bufs_sub .., unary_bufs_sub ..,
    binary_bufs_sub .., unary_bufs_sub .., binary_bufs_sub .., unary_bufs_sub .., nullary_bufs_sub .., unary_bufs_sub ..⟩

theorem opsP5_fresh : ∀ op ∈ (opsP5 : List (HloOp τ sig (Elt F))), op.fresh = ∅ :=
  List.forall_iff_forall_mem.1 (⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩ :
    (opsP5 : List (HloOp τ sig (Elt F))).Forall fun op => op.fresh = ∅)

set_option maxRecDepth 16384 in
set_option maxHeartbeats 4000000 in
theorem main_part5_eq (c : Dev nD) : main_part5 (F := F) c = seq opsP5 := rfl

end Cert.ReferenceIdeal.Hand

end
-- ==== Proof.Ref.Ops6.lean ====
import proofs.«113847_j61718680043593_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsP6 : List (HloOp τ sig (Elt F)) :=
  [ StableHlo.unary main_arg24 main_v312 (broadcastInDim S524288x1 ![0] bcast_S524288_S524288x1_0 : (⟨S524288, .i32⟩ : BufTy).Contents (Elt F) → (⟨S524288x1, .i32⟩ : BufTy).Contents (Elt F)),
    StableHlo.ternary main_v311 main_v312 main_v310 main_v313 ((fun x i u => Host.scatterAdd scatter_S32768x4x32_S524288x1_S524288x4x32_12_0_0_1 x i u) : (⟨S32768x4x32, .f32⟩ : BufTy).Contents (Elt F) → (⟨S524288x1, .i32⟩ : BufTy).Contents (Elt F) → (⟨S524288x4x32, .f32⟩ : BufTy).Contents (Elt F) → (⟨S32768x4x32, .f32⟩ : BufTy).Contents (Elt F)),
    StableHlo.nullary main_cst_46 (constant S_ .f32 0x358637BD#32),
    StableHlo.unary main_cst_46 main_v314 (broadcastInDim S32768x4x32 ![] bcast_S_S32768x4x32 : (⟨S_, .f32⟩ : BufTy).Contents (Elt F) → (⟨S32768x4x32, .f32⟩ : BufTy).Contents (Elt F)),
    StableHlo.binary main_v313 main_v314 main_v315 (maximumf : (⟨S32768x4x32, .f32⟩ : BufTy).Contents (Elt F) → (⟨S32768x4x32, .f32⟩ : BufTy).Contents (Elt F) → (⟨S32768x4x32, .f32⟩ : BufTy).Contents (Elt F)),
    StableHlo.nullary main_c_47 (constantI S_ 32 0#32),
    StableHlo.unary main_c_47 main_v316 (broadcastInDim S524288 ![] bcast_S_S524288 : (⟨S_, .i32⟩ : BufTy).Contents (Elt F) → (⟨S524288, .i32⟩ : BufTy).Contents (Elt F)),
    StableHlo.binary main_arg23 main_v316 main_v317 (cmpi .slt : (⟨S524288, .i32⟩ : BufTy).Contents (Elt F) → (⟨S524288, .i32⟩ : BufTy).Contents (Elt F) → (⟨S524288, .i1⟩ : BufTy).Contents (Elt F)),
    StableHlo.nullary main_c_48 (constantI S_ 32 32768#32),
    StableHlo.unary main_c_48 main_v318 (broadcastInDim S524288 ![] bcast_S_S524288 : (⟨S_, .i32⟩ : BufTy).Contents (Elt F) → (⟨S524288, .i32⟩ : BufTy).Contents (Elt F)),
    StableHlo.binary main_arg23 main_v318 main_v319 (addi : (⟨S524288, .i32⟩ : BufTy).Contents (Elt F) → (⟨S524288, .i32⟩ : BufTy).Contents (Elt F) → (⟨S524288, .i32⟩ : BufTy).Contents (Elt F)),
    StableHlo.ternary main_v317 main_v319 main_arg23 main_v320 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v320 main_v321 (broadcastInDim S524288x1 ![0] bcast_S524288_S524288x1_0 : (⟨S524288, .i32⟩ : BufTy).Contents (Elt F) → (⟨S524288x1, .i32⟩ : BufTy).Contents (Elt F)),
    StableHlo.binary main_v282 main_v321 main_v322 ((fun x i => Host.gather gather_S32768x4x32_S524288x1_S524288x4x32_12_0_n_n_0_1_1432 x i) : (⟨S32768x4x32, .f32⟩ : BufTy).Contents (Elt F) → (⟨S524288x1, .i32⟩ : BufTy).Contents (Elt F) → (⟨S524288x4x32, .f32⟩ : BufTy).Contents (Elt F)),
    StableHlo.binary main_v322 main_v310 main_v323 (mulf : (⟨S524288x4x32, .f32⟩ : BufTy).Contents (Elt F) → (⟨S524288x4x32, .f32⟩ : BufTy).Contents (Elt F) → (⟨S524288x4x32, .f32⟩ : BufTy).Contents (Elt F)),
    StableHlo.nullary main_cst_49 (constant S_ .f32 0x00000000#32),
    StableHlo.unary main_cst_49 main_v324 (broadcastInDim S32768x4x32 ![] bcast_S_S32768x4x32 : (⟨S_, .f32⟩ : BufTy).Contents (Elt F) → (⟨S32768x4x32, .f32⟩ : BufTy).Contents (Elt F)),
    StableHlo.unary main_arg24 main_v325 (broadcastInDim S524288x1 ![0] bcast_S524288_S524288x1_0 : (⟨S524288, .i32⟩ : BufTy).Contents (Elt F) → (⟨S524288x1, .i32⟩ : BufTy).Contents (Elt F)),
    StableHlo.ternary main_v324 main_v325 main_v323 main_v326 ((fun x i u => Host.scatterAdd scatter_S32768x4x32_S524288x1_S524288x4x32_12_0_0_1 x i u) : (⟨S32768x4x32, .f32⟩ : BufTy).Contents (Elt F) → (⟨S524288x1, .i32⟩ : BufTy).Contents (Elt F) → (⟨S524288x4x32, .f32⟩ : BufTy).Contents (Elt F) → (⟨S32768x4x32, .f32⟩ : BufTy).Contents (Elt F)),
    StableHlo.binary main_v326 main_v315 main_v327 (Host.divf : (⟨S32768x4x32, .f32⟩ : BufTy).Contents (Elt F) → (⟨S32768x4x32, .f32⟩ : BufTy).Contents (Elt F) → (⟨S32768x4x32, .f32⟩ : BufTy).Contents (Elt F)),
    StableHlo.reshape main_v327 main_v328 rfl shapeCasts_S32768x4x32_S32768x128,
    StableHlo.unary main_arg13 main_v329 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v329 main_v330 rfl shapeCasts_S1x128x128_S128x128,
    StableHlo.binary main_v328 main_v330 main_v331 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.binary main_v270 main_v331 main_v332 (addf : (⟨S32768x128, .f32⟩ : BufTy).Contents (Elt F) → (⟨S32768x128, .f32⟩ : BufTy).Contents (Elt F) → (⟨S32768x128, .f32⟩ : BufTy).Contents (Elt F)),
    StableHlo.unary main_arg14 main_v333 ((extractStridedSlice S1x128 ![2, 0] · slices_S3x128_S1x128_2_0) : (⟨S3x128, .f32⟩ : BufTy).Contents (Elt F) → (⟨S1x128, .f32⟩ : BufTy).Contents (Elt F)),
    StableHlo.reshape main_v333 main_v334 rfl shapeCasts_S1x128_S128,
    StableHlo.unary main_v334 main_v335 (broadcastInDim S1x128 ![1] bcast_S128_S1x128_1 : (⟨S128, .f32⟩ : BufTy).Contents (Elt F) → (⟨S1x128, .f32⟩ : BufTy).Contents (Elt F)),
    StableHlo.unary main_v335 main_v336 (broadcastInDim S32768x128 ![0, 1] bcast_S1x128_S32768x128_0_1 : (⟨S1x128, .f32⟩ : BufTy).Contents (Elt F) → (⟨S32768x128, .f32⟩ : BufTy).Contents (Elt F)),
    StableHlo.binary main_v332 main_v336 main_v337 (addf : (⟨S32768x128, .f32⟩ : BufTy).Contents (Elt F) → (⟨S32768x128, .f32⟩ : BufTy).Contents (Elt F) → (⟨S32768x128, .f32⟩ : BufTy).Contents (Elt F)),
    StableHlo.unary main_arg15 main_v338 ((extractStridedSlice S1x128 ![2, 0] · slices_S3x128_S1x128_2_0) : (⟨S3x128, .f32⟩ : BufTy).Contents (Elt F) → (⟨S1x128, .f32⟩ : BufTy).Contents (Elt F)),
    StableHlo.reshape main_v338 main_v339 rfl shapeCasts_S1x128_S128,
    StableHlo.unary main_arg16 main_v340 ((extractStridedSlice S1x128 ![2, 0] · slices_S3x128_S1x128_2_0) : (⟨S3x128, .f32⟩ : BufTy).Contents (Elt F) → (⟨S1x128, .f32⟩ : BufTy).Contents (Elt F)),
    StableHlo.reshape main_v340 main_v341 rfl shapeCasts_S1x128_S128,
    StableHlo.nullary main_cst_50 (constant S_ .f32 0x00000000#32),
    StableHlo.binary main_v337 main_cst_50 main_v342 ((fun x v => Host.reduceAdd x v reducesTo_S32768x128_S32768_d1 h_S_) : (⟨S32768x128, .f32⟩ : BufTy).Contents (Elt F) → (⟨S_, .f32⟩ : BufTy).Contents (Elt F) → (⟨S32768, .f32⟩ : BufTy).Contents (Elt F)),
    StableHlo.unary main_v342 main_v343 (broadcastInDim S32768x1 ![0] bcast_S32768_S32768x1_0 : (⟨S32768, .f32⟩ : BufTy).Contents (Elt F) → (⟨S32768x1, .f32⟩ : BufTy).Contents (Elt F)),
    StableHlo.nullary main_cst_51 (constant S_ .f32 0x43000000#32),
    StableHlo.unary main_cst_51 main_v344 (broadcastInDim S32768x1 ![] bcast_S_S32768x1 : (⟨S_, .f32⟩ : BufTy).Contents (Elt F) → (⟨S32768x1, .f32⟩ : BufTy).Contents (Elt F)),
    StableHlo.binary main_v343 main_v344 main_v345 (Host.divf : (⟨S32768x1, .f32⟩ : BufTy).Contents (Elt F) → (⟨S32768x1, .f32⟩ : BufTy).Contents (Elt F) → (⟨S32768x1, .f32⟩ : BufTy).Contents (Elt F)),
    StableHlo.nullary main_c_52 (constantI S_ 32 0#32),
    StableHlo.TRef.nullary (.of main_call6_cst : StableHlo.TRef sig ⟨S_, .f32⟩) (constant S_ .f32 0x00000000#32),
    StableHlo.TRef.binary (.of main_v337 : StableHlo.TRef sig ⟨S32768x128, .f32⟩) (.of main_call6_cst : StableHlo.TRef sig ⟨S_, .f32⟩) (.of main_call6_v0 : StableHlo.TRef sig ⟨S32768, .f32⟩) (fun x v => Host.reduceAdd x v reducesTo_S32768x128_S32768_d1 h_S_),
    StableHlo.TRef.unary (.of main_call6_v0 : StableHlo.TRef sig ⟨S32768, .f32⟩) (.of main_call6_v1 : StableHlo.TRef sig ⟨S32768x1, .f32⟩) (broadcastInDim S32768x1 ![0] bcast_S32768_S32768x1_0),
    StableHlo.TRef.nullary (.of main_call6_cst_0 : StableHlo.TRef sig ⟨S_, .f32⟩) (constant S_ .f32 0x43000000#32),
    StableHlo.TRef.unary (.of main_call6_cst_0 : StableHlo.TRef sig ⟨S_, .f32⟩) (.of main_call6_v2 : StableHlo.TRef sig ⟨S32768x1, .f32⟩) (broadcastInDim S32768x1 ![] bcast_S_S32768x1),
    StableHlo.TRef.binary (.of main_call6_v1 : StableHlo.TRef sig ⟨S32768x1, .f32⟩) (.of main_call6_v2 : StableHlo.TRef sig ⟨S32768x1, .f32⟩) (.of main_call6_v3 : StableHlo.TRef sig ⟨S32768x1, .f32⟩) Host.divf,
    StableHlo.TRef.unary (.of main_call6_v3 : StableHlo.TRef sig ⟨S32768x1, .f32⟩) (.of main_call6_v4 : StableHlo.TRef sig ⟨S32768x128, .f32⟩) (broadcastInDim S32768x128 ![0, 1] bcast_S32768x1_S32768x128_0_1),
    StableHlo.TRef.binary (.of main_v337 : StableHlo.TRef sig ⟨S32768x128, .f32⟩) (.of main_call6_v4 : StableHlo.TRef sig ⟨S32768x128, .f32⟩) (.of main_call6_v5 : StableHlo.TRef sig ⟨S32768x128, .f32⟩) subf,
    StableHlo.TRef.binary (.of main_call6_v5 : StableHlo.TRef sig ⟨S32768x128, .f32⟩) (.of main_call6_v5 : StableHlo.TRef sig ⟨S32768x128, .f32⟩) (.of main_call6_v6 : StableHlo.TRef sig ⟨S32768x128, .f32⟩) mulf,
    StableHlo.TRef.unary (.of main_c_52 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x43000000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S32768x128, .f32⟩) (.of main_call6_cst_2 : StableHlo.TRef sig ⟨S_, .f32⟩) (.of main_call6_v9 : StableHlo.TRef sig ⟨S32768, .f32⟩) (fun x v => Host.reduceAdd x v reducesTo_S32768x128_S32768_d1 h_S_),
    StableHlo.TRef.unary (.of main_call6_v9 : StableHlo.TRef sig ⟨S32768, .f32⟩) (.of main_call6_v10 : StableHlo.TRef sig ⟨S32768x1, .f32⟩) (broadcastInDim S32768x1 ![0] bcast_S32768_S32768x1_0),
    StableHlo.TRef.unary (.of main_call6_v8 : StableHlo.TRef sig ⟨S_, .f32⟩) (.of main_call6_v11 : StableHlo.TRef sig ⟨S32768x1, .f32⟩) (broadcastInDim S32768x1 ![] bcast_S_S32768x1),
    StableHlo.TRef.binary (.of main_call6_v10 : StableHlo.TRef sig ⟨S32768x1, .f32⟩) (.of main_call6_v11 : StableHlo.TRef sig ⟨S32768x1, .f32⟩) (.of main_call6_v12 : StableHlo.TRef sig ⟨S32768x1, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v13 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S32768x1, .f32⟩) (broadcastInDim S32768x1 ![] bcast_S_S32768x1),
    StableHlo.TRef.ternary (.of main_call6_v13 : StableHlo.TRef sig ⟨S_, .i1⟩) (.of main_call6_v12 : StableHlo.TRef sig ⟨S32768x1, .f32⟩) (.of main_call6_call0_v1 : StableHlo.TRef sig ⟨S32768x1, .f32⟩) (.of main_v346 : StableHlo.TRef sig ⟨S32768x1, .f32⟩) (fun p a b => select (broadcastInDim S32768x1 ![] bcast_S_S32768x1 p) a b),
    StableHlo.unary main_v345 main_v347 (broadcastInDim S32768x128 ![0, 1] bcast_S32768x1_S32768x128_0_1 : (⟨S32768x1, .f32⟩ : BufTy).Contents (Elt F) → (⟨S32768x128, .f32⟩ : BufTy).Contents (Elt F)),
    StableHlo.binary main_v337 main_v347 main_v348 (subf : (⟨S32768x128, .f32⟩ : BufTy).Contents (Elt F) → (⟨S32768x128, .f32⟩ : BufTy).Contents (Elt F) → (⟨S32768x128, .f32⟩ : BufTy).Contents (Elt F)),
    StableHlo.nullary main_cst_53 (constant S_ .f32 0x3727C5AC#32),
    StableHlo.unary main_cst_53 main_v349 (broadcastInDim S32768x1 ![] bcast_S_S32768x1 : (⟨S_, .f32⟩ : BufTy).Contents (Elt F) → (⟨S32768x1, .f32⟩ : BufTy).Contents (Elt F)),
    StableHlo.binary main_v346 main_v349 main_v350 (addf : (⟨S32768x1, .f32⟩ : BufTy).Contents (Elt F) → (⟨S32768x1, .f32⟩ : BufTy).Contents (Elt F) → (⟨S32768x1, .f32⟩ : BufTy).Contents (Elt F)),
    StableHlo.unary main_v350 main_v351 (Host.rsqrt : (⟨S32768x1, .f32⟩ : BufTy).Contents (Elt F) → (⟨S32768x1, .f32⟩ : BufTy).Contents (Elt F)),
    StableHlo.unary main_v351 main_v352 (broadcastInDim S32768x128 ![0, 1] bcast_S32768x1_S32768x128_0_1 : (⟨S32768x1, .f32⟩ : BufTy).Contents (Elt F) → (⟨S32768x128, .f32⟩ : BufTy).Contents (Elt F)),
    StableHlo.binary main_v348 main_v352 main_v353 (mulf : (⟨S32768x128, .f32⟩ : BufTy).Contents (Elt F) → (⟨S32768x128, .f32⟩ : BufTy).Contents (Elt F) → (⟨S32768x128, .f32⟩ : BufTy).Contents (Elt F)),
    StableHlo.unary main_v339 main_v354 (broadcastInDim S1x128 ![1] bcast_S128_S1x128_1 : (⟨S128, .f32⟩ : BufTy).Contents (Elt F) → (⟨S1x128, .f32⟩ : BufTy).Contents (Elt F)),
    StableHlo.unary main_v354 main_v355 (broadcastInDim S32768x128 ![0, 1] bcast_S1x128_S32768x128_0_1 : (⟨S1x128, .f32⟩ : BufTy).Contents (Elt F) → (⟨S32768x128, .f32⟩ : BufTy).Contents (Elt F)),
    StableHlo.binary main_v353 main_v355 main_v356 (mulf : (⟨S32768x128, .f32⟩ : BufTy).Contents (Elt F) → (⟨S32768x128, .f32⟩ : BufTy).Contents (Elt F) → (⟨S32768x128, .f32⟩ : BufTy).Contents (Elt F)),
    StableHlo.unary main_v341 main_v357 (broadcastInDim S1x128 ![1] bcast_S128_S1x128_1 : (⟨S128, .f32⟩ : BufTy).Contents (Elt F) → (⟨S1x128, .f32⟩ : BufTy).Contents (Elt F)),
    StableHlo.unary main_v357 main_v358 (broadcastInDim S32768x128 ![0, 1] bcast_S1x128_S32768x128_0_1 : (⟨S1x128, .f32⟩ : BufTy).Contents (Elt F) → (⟨S32768x128, .f32⟩ : BufTy).Contents (Elt F)),
    StableHlo.binary main_v356 main_v358 main_v359 (addf : (⟨S32768x128, .f32⟩ : BufTy).Contents (Elt F) → (⟨S32768x128, .f32⟩ : BufTy).Contents (Elt F) → (⟨S32768x128, .f32⟩ : BufTy).Contents (Elt F)),
    StableHlo.unary main_arg17 main_v360 ((extractStridedSlice S1x128x256 ![2, 0, 0] · slices_S3x128x256_S1x128x256_2_0_0) : (⟨S3x128x256, .f32⟩ : BufTy).Contents (Elt F) → (⟨S1x128x256, .f32⟩ : BufTy).Contents (Elt F)),
    StableHlo.reshape main_v360 main_v361 rfl shapeCasts_S1x128x256_S128x256,
    StableHlo.binary main_v359 main_v361 main_v362 ((fun l r => Host.dotGeneral dot_S32768x128_S128x256_S32768x256_1_0_0_1_n_n none l r) : (⟨S32768x128, .f32⟩ : BufTy).Contents (Elt F) → (⟨S128x256, .f32⟩ : BufTy).Contents (Elt F) → (⟨S32768x256, .f32⟩ : BufTy).Contents (Elt F)),
    StableHlo.unary main_arg18 main_v363 ((extractStridedSlice S1x256 ![2, 0] · slices_S3x256_S1x256_2_0) : (⟨S3x256, .f32⟩ : BufTy).Contents (Elt F) → (⟨S1x256, .f32⟩ : BufTy).Contents (Elt F)) ]

theorem opsP6_sub : (opsP6 : List (HloOp τ sig (Elt F))).Forall fun op => op.bufs ⊆ tcRefs τ sig :=
  ⟨unary_bufs_sub .., ternary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., unary_bufs_sub ..,
    ternary_bufs_sub .., binary_bufs_sub .., reshape_bufs_sub .., unary_bufs_sub .., reshape_bufs_sub .., binary_bufs_sub ..,
    binary_bufs_sub .., unary_bufs_sub .., reshape_bufs_sub .., unary_bufs_sub .., unary_bufs_sub .., binary_bufs_sub ..,
    unary_bufs_sub .., reshape_bufs_sub .., unary_bufs_sub .., reshape_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., reshape_bufs_sub .., binary_bufs_sub .., unary_bufs_sub ..⟩

theorem opsP6_fresh : ∀ op ∈ (opsP6 : List (HloOp τ sig (Elt F))), op.fresh = ∅ :=
  List.forall_iff_forall_mem.1 (⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl⟩ :
    (opsP6 : List (HloOp τ sig (Elt F))).Forall fun op => op.fresh = ∅)

set_option maxRecDepth 16384 in
set_option maxHeartbeats 4000000 in
theorem main_part6_eq (c : Dev nD) : main_part6 (F := F) c = seq opsP6 := rfl

end Cert.ReferenceIdeal.Hand

end
-- ==== Proof.Ref.Ops7.lean ====
import proofs.«113847_j61718680043593_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsP7 : List (HloOp τ sig (Elt F)) :=
  [ StableHlo.reshape main_v363 main_v364 rfl shapeCasts_S1x256_S256,
    StableHlo.unary main_v364 main_v365 (broadcastInDim S1x256 ![1] bcast_S256_S1x256_1 : (⟨S256, .f32⟩ : BufTy).Contents (Elt F) → (⟨S1x256, .f32⟩ : BufTy).Contents (Elt F)),
    StableHlo.unary main_v365 main_v366 (broadcastInDim S32768x256 ![0, 1] bcast_S1x256_S32768x256_0_1 : (⟨S1x256, .f32⟩ : BufTy).Contents (Elt F) → (⟨S32768x256, .f32⟩ : BufTy).Contents (Elt F)),
    StableHlo.binary main_v362 main_v366 main_v367 (addf : (⟨S32768x256, .f32⟩ : BufTy).Contents (Elt F) → (⟨S32768x256, .f32⟩ : BufTy).Contents (Elt F) → (⟨S32768x256, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S32768x256, .f32⟩) (broadcastInDim S32768x256 ![] bcast_S_S32768x256),
    StableHlo.TRef.binary (.of main_v367 : StableHlo.TRef sig ⟨S32768x256, .f32⟩) (.of main_call7_v0 : StableHlo.TRef sig ⟨S32768x256, .f32⟩) (.of main_v368 : StableHlo.TRef sig ⟨S32768x256, .f32⟩) maximumf,
    StableHlo.unary main_arg19 main_v369 ((extractStridedSlice S1x256x128 ![2, 0, 0] · slices_S3x256x128_S1x256x128_2_0_0) : (⟨S3x256x128, .f32⟩ : BufTy).Contents (Elt F) → (⟨S1x256x128, .f32⟩ : BufTy).Contents (Elt F)),
    StableHlo.reshape main_v369 main_v370 rfl shapeCasts_S1x256x128_S256x128,
    StableHlo.binary main_v368 main_v370 main_v371 ((fun l r => Host.dotGeneral dot_S32768x256_S256x128_S32768x128_1_0_0_1_n_n none l r) : (⟨S32768x256, .f32⟩ : BufTy).Contents (Elt F) → (⟨S256x128, .f32⟩ : BufTy).Contents (Elt F) → (⟨S32768x128, .f32⟩ : BufTy).Contents (Elt F)),
    StableHlo.unary main_arg20 main_v372 ((extractStridedSlice S1x128 ![2, 0] · slices_S3x128_S1x128_2_0) : (⟨S3x128, .f32⟩ : BufTy).Contents (Elt F) → (⟨S1x128, .f32⟩ : BufTy).Contents (Elt F)),
    StableHlo.reshape main_v372 main_v373 rfl shapeCasts_S1x128_S128,
    StableHlo.unary main_v373 main_v374 (broadcastInDim S1x128 ![1] bcast_S128_S1x128_1 : (⟨S128, .f32⟩ : BufTy).Contents (Elt F) → (⟨S1x128, .f32⟩ : BufTy).Contents (Elt F)),
    StableHlo.unary main_v374 main_v375 (broadcastInDim S32768x128 ![0, 1] bcast_S1x128_S32768x128_0_1 : (⟨S1x128, .f32⟩ : BufTy).Contents (Elt F) → (⟨S32768x128, .f32⟩ : BufTy).Contents (Elt F)),
    StableHlo.binary main_v371 main_v375 main_v376 (addf : (⟨S32768x128, .f32⟩ : BufTy).Contents (Elt F) → (⟨S32768x128, .f32⟩ : BufTy).Contents (Elt F) → (⟨S32768x128, .f32⟩ : BufTy).Contents (Elt F)),
    StableHlo.binary main_v359 main_v376 main_v377 (addf : (⟨S32768x128, .f32⟩ : BufTy).Contents (Elt F) → (⟨S32768x128, .f32⟩ : BufTy).Contents (Elt F) → (⟨S32768x128, .f32⟩ : BufTy).Contents (Elt F)),
    StableHlo.unary main_arg21 main_v378 ((extractStridedSlice S1x128 ![2, 0] · slices_S3x128_S1x128_2_0) : (⟨S3x128, .f32⟩ : BufTy).Contents (Elt F) → (⟨S1x128, .f32⟩ : BufTy).Contents (Elt F)),
    StableHlo.reshape main_v378 main_v379 rfl shapeCasts_S1x128_S128,
    StableHlo.unary main_arg22 main_v380 ((extractStridedSlice S1x128 ![2, 0] · slices_S3x128_S1x128_2_0) : (⟨S3x128, .f32⟩ : BufTy).Contents (Elt F) → (⟨S1x128, .f32⟩ : BufTy).Contents (Elt F)),
    StableHlo.reshape main_v380 main_v381 rfl shapeCasts_S1x128_S128,
    StableHlo.nullary main_cst_54 (constant S_ .f32 0x00000000#32),
    StableHlo.binary main_v377 main_cst_54 main_v382 ((fun x v => Host.reduceAdd x v reducesTo_S32768x128_S32768_d1 h_S_) : (⟨S32768x128, .f32⟩ : BufTy).Contents (Elt F) → (⟨S_, .f32⟩ : BufTy).Contents (Elt F) → (⟨S32768, .f32⟩ : BufTy).Contents (Elt F)),
    StableHlo.unary main_v382 main_v383 (broadcastInDim S32768x1 ![0] bcast_S32768_S32768x1_0 : (⟨S32768, .f32⟩ : BufTy).Contents (Elt F) → (⟨S32768x1, .f32⟩ : BufTy).Contents (Elt F)),
    StableHlo.nullary main_cst_55 (constant S_ .f32 0x43000000#32),
    StableHlo.unary main_cst_55 main_v384 (broadcastInDim S32768x1 ![] bcast_S_S32768x1 : (⟨S_, .f32⟩ : BufTy).Contents (Elt F) → (⟨S32768x1, .f32⟩ : BufTy).Contents (Elt F)),
    StableHlo.binary main_v383 main_v384 main_v385 (Host.divf : (⟨S32768x1, .f32⟩ : BufTy).Contents (Elt F) → (⟨S32768x1, .f32⟩ : BufTy).Contents (Elt F) → (⟨S32768x1, .f32⟩ : BufTy).Contents (Elt F)),
    StableHlo.nullary main_c_56 (constantI S_ 32 0#32),
    StableHlo.TRef.nullary (.of main_call8_cst : StableHlo.TRef sig ⟨S_, .f32⟩) (constant S_ .f32 0x00000000#32),
    StableHlo.TRef.binary (.of main_v377 : StableHlo.TRef sig ⟨S32768x128, .f32⟩) (.of main_call8_cst : StableHlo.TRef sig ⟨S_, .f32⟩) (.of main_call8_v0 : StableHlo.TRef sig ⟨S32768, .f32⟩) (fun x v => Host.reduceAdd x v reducesTo_S32768x128_S32768_d1 h_S_),
    StableHlo.TRef.unary (.of main_call8_v0 : StableHlo.TRef sig ⟨S32768, .f32⟩) (.of main_call8_v1 : StableHlo.TRef sig ⟨S32768x1, .f32⟩) (broadcastInDim S32768x1 ![0] bcast_S32768_S32768x1_0),
    StableHlo.TRef.nullary (.of main_call8_cst_0 : StableHlo.TRef sig ⟨S_, .f32⟩) (constant S_ .f32 0x43000000#32),
    StableHlo.TRef.unary (.of main_call8_cst_0 : StableHlo.TRef sig ⟨S_, .f32⟩) (.of main_call8_v2 : StableHlo.TRef sig ⟨S32768x1, .f32⟩) (broadcastInDim S32768x1 ![] bcast_S_S32768x1),
    StableHlo.TRef.binary (.of main_call8_v1 : StableHlo.TRef sig ⟨S32768x1, .f32⟩) (.of main_call8_v2 : StableHlo.TRef sig ⟨S32768x1, .f32⟩) (.of main_call8_v3 : StableHlo.TRef sig ⟨S32768x1, .f32⟩) Host.divf,
    StableHlo.TRef.unary (.of main_call8_v3 : StableHlo.TRef sig ⟨S32768x1, .f32⟩) (.of main_call8_v4 : StableHlo.TRef sig ⟨S32768x128, .f32⟩) (broadcastInDim S32768x128 ![0, 1] bcast_S32768x1_S32768x128_0_1),
    StableHlo.TRef.binary (.of main_v377 : StableHlo.TRef sig ⟨S32768x128, .f32⟩) (.of main_call8_v4 : StableHlo.TRef sig ⟨S32768x128, .f32⟩) (.of main_call8_v5 : StableHlo.TRef sig ⟨S32768x128, .f32⟩) subf,
    StableHlo.TRef.binary (.of main_call8_v5 : StableHlo.TRef sig ⟨S32768x128, .f32⟩) (.of main_call8_v5 : StableHlo.TRef sig ⟨S32768x128, .f32⟩) (.of main_call8_v6 : StableHlo.TRef sig ⟨S32768x128, .f32⟩) mulf,
    StableHlo.TRef.unary (.of main_c_56 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x43000000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S32768x128, .f32⟩) (.of main_call8_cst_2 : StableHlo.TRef sig ⟨S_, .f32⟩) (.of main_call8_v9 : StableHlo.TRef sig ⟨S32768, .f32⟩) (fun x v => Host.reduceAdd x v reducesTo_S32768x128_S32768_d1 h_S_),
    StableHlo.TRef.unary (.of main_call8_v9 : StableHlo.TRef sig ⟨S32768, .f32⟩) (.of main_call8_v10 : StableHlo.TRef sig ⟨S32768x1, .f32⟩) (broadcastInDim S32768x1 ![0] bcast_S32768_S32768x1_0),
    StableHlo.TRef.unary (.of main_call8_v8 : StableHlo.TRef sig ⟨S_, .f32⟩) (.of main_call8_v11 : StableHlo.TRef sig ⟨S32768x1, .f32⟩) (broadcastInDim S32768x1 ![] bcast_S_S32768x1),
    StableHlo.TRef.binary (.of main_call8_v10 : StableHlo.TRef sig ⟨S32768x1, .f32⟩) (.of main_call8_v11 : StableHlo.TRef sig ⟨S32768x1, .f32⟩) (.of main_call8_v12 : StableHlo.TRef sig ⟨S32768x1, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v13 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S32768x1, .f32⟩) (broadcastInDim S32768x1 ![] bcast_S_S32768x1),
    StableHlo.TRef.ternary (.of main_call8_v13 : StableHlo.TRef sig ⟨S_, .i1⟩) (.of main_call8_v12 : StableHlo.TRef sig ⟨S32768x1, .f32⟩) (.of main_call8_call0_v1 : StableHlo.TRef sig ⟨S32768x1, .f32⟩) (.of main_v386 : StableHlo.TRef sig ⟨S32768x1, .f32⟩) (fun p a b => select (broadcastInDim S32768x1 ![] bcast_S_S32768x1 p) a b),
    StableHlo.unary main_v385 main_v387 (broadcastInDim S32768x128 ![0, 1] bcast_S32768x1_S32768x128_0_1 : (⟨S32768x1, .f32⟩ : BufTy).Contents (Elt F) → (⟨S32768x128, .f32⟩ : BufTy).Contents (Elt F)),
    StableHlo.binary main_v377 main_v387 main_v388 (subf : (⟨S32768x128, .f32⟩ : BufTy).Contents (Elt F) → (⟨S32768x128, .f32⟩ : BufTy).Contents (Elt F) → (⟨S32768x128, .f32⟩ : BufTy).Contents (Elt F)),
    StableHlo.nullary main_cst_57 (constant S_ .f32 0x3727C5AC#32),
    StableHlo.unary main_cst_57 main_v389 (broadcastInDim S32768x1 ![] bcast_S_S32768x1 : (⟨S_, .f32⟩ : BufTy).Contents (Elt F) → (⟨S32768x1, .f32⟩ : BufTy).Contents (Elt F)),
    StableHlo.binary main_v386 main_v389 main_v390 (addf : (⟨S32768x1, .f32⟩ : BufTy).Contents (Elt F) → (⟨S32768x1, .f32⟩ : BufTy).Contents (Elt F) → (⟨S32768x1, .f32⟩ : BufTy).Contents (Elt F)),
    StableHlo.unary main_v390 main_v391 (Host.rsqrt : (⟨S32768x1, .f32⟩ : BufTy).Contents (Elt F) → (⟨S32768x1, .f32⟩ : BufTy).Contents (Elt F)),
    StableHlo.unary main_v391 main_v392 (broadcastInDim S32768x128 ![0, 1] bcast_S32768x1_S32768x128_0_1 : (⟨S32768x1, .f32⟩ : BufTy).Contents (Elt F) → (⟨S32768x128, .f32⟩ : BufTy).Contents (Elt F)),
    StableHlo.binary main_v388 main_v392 main_v393 (mulf : (⟨S32768x128, .f32⟩ : BufTy).Contents (Elt F) → (⟨S32768x128, .f32⟩ : BufTy).Contents (Elt F) → (⟨S32768x128, .f32⟩ : BufTy).Contents (Elt F)),
    StableHlo.unary main_v379 main_v394 (broadcastInDim S1x128 ![1] bcast_S128_S1x128_1 : (⟨S128, .f32⟩ : BufTy).Contents (Elt F) → (⟨S1x128, .f32⟩ : BufTy).Contents (Elt F)),
    StableHlo.unary main_v394 main_v395 (broadcastInDim S32768x128 ![0, 1] bcast_S1x128_S32768x128_0_1 : (⟨S1x128, .f32⟩ : BufTy).Contents (Elt F) → (⟨S32768x128, .f32⟩ : BufTy).Contents (Elt F)),
    StableHlo.binary main_v393 main_v395 main_v396 (mulf : (⟨S32768x128, .f32⟩ : BufTy).Contents (Elt F) → (⟨S32768x128, .f32⟩ : BufTy).Contents (Elt F) → (⟨S32768x128, .f32⟩ : BufTy).Contents (Elt F)),
    StableHlo.unary main_v381 main_v397 (broadcastInDim S1x128 ![1] bcast_S128_S1x128_1 : (⟨S128, .f32⟩ : BufTy).Contents (Elt F) → (⟨S1x128, .f32⟩ : BufTy).Contents (Elt F)),
    StableHlo.unary main_v397 main_v398 (broadcastInDim S32768x128 ![0, 1] bcast_S1x128_S32768x128_0_1 : (⟨S1x128, .f32⟩ : BufTy).Contents (Elt F) → (⟨S32768x128, .f32⟩ : BufTy).Contents (Elt F)),
    StableHlo.binary main_v396 main_v398 main_v399 (addf : (⟨S32768x128, .f32⟩ : BufTy).Contents (Elt F) → (⟨S32768x128, .f32⟩ : BufTy).Contents (Elt F) → (⟨S32768x128, .f32⟩ : BufTy).Contents (Elt F)),
    StableHlo.nullary main_cst_58 (constant S_ .f32 0x00000000#32),
    StableHlo.binary main_v399 main_cst_58 main_v400 ((fun x v => Host.reduceAdd x v reducesTo_S32768x128_S128_d0 h_S_) : (⟨S32768x128, .f32⟩ : BufTy).Contents (Elt F) → (⟨S_, .f32⟩ : BufTy).Contents (Elt F) → (⟨S128, .f32⟩ : BufTy).Contents (Elt F)),
    StableHlo.unary main_v400 main_v401 (broadcastInDim S1x128 ![1] bcast_S128_S1x128_1 : (⟨S128, .f32⟩ : BufTy).Contents (Elt F) → (⟨S1x128, .f32⟩ : BufTy).Contents (Elt F)),
    StableHlo.nullary main_cst_59 (constant S_ .f32 0x47000000#32),
    StableHlo.unary main_cst_59 main_v402 (broadcastInDim S1x128 ![] bcast_S_S1x128 : (⟨S_, .f32⟩ : BufTy).Contents (Elt F) → (⟨S1x128, .f32⟩ : BufTy).Contents (Elt F)),
    StableHlo.binary main_v401 main_v402 main_v403 (Host.divf : (⟨S1x128, .f32⟩ : BufTy).Contents (Elt F) → (⟨S1x128, .f32⟩ : BufTy).Contents (Elt F) → (⟨S1x128, .f32⟩ : BufTy).Contents (Elt F)) ]

theorem opsP7_sub : (opsP7 : List (HloOp τ sig (Elt F))).Forall fun op => op.bufs ⊆ tcRefs τ sig :=
  ⟨reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., binary_bufs_sub .., unary_bufs_sub .., reshape_bufs_sub ..,
    unary_bufs_sub .., reshape_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., binary_bufs_sub ..,
    unary_bufs_sub .., nullary_bufs_sub .., unary_bufs_sub .., binary_bufs_sub ..⟩

theorem opsP7_fresh : ∀ op ∈ (opsP7 : List (HloOp τ sig (Elt F))), op.fresh = ∅ :=
  List.forall_iff_forall_mem.1 (⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩ :
    (opsP7 : List (HloOp τ sig (Elt F))).Forall fun op => op.fresh = ∅)

set_option maxRecDepth 16384 in
set_option maxHeartbeats 4000000 in
theorem main_part7_eq (c : Dev nD) : main_part7 (F := F) c = seq opsP7 := rfl

end Cert.ReferenceIdeal.Hand

end
-- ==== Proof.Ref.Ops.lean ====
import proofs.«113847_j61718680043593_1_alg».proof.Proof.Ref.Ops0
import proofs.«113847_j61718680043593_1_alg».proof.Proof.Ref.Ops1
import proofs.«113847_j61718680043593_1_alg».proof.Proof.Ref.Ops2
import proofs.«113847_j61718680043593_1_alg».proof.Proof.Ref.Ops3
import proofs.«113847_j61718680043593_1_alg».proof.Proof.Ref.Ops4
import proofs.«113847_j61718680043593_1_alg».proof.Proof.Ref.Ops5
import proofs.«113847_j61718680043593_1_alg».proof.Proof.Ref.Ops6
import proofs.«113847_j61718680043593_1_alg».proof.Proof.Ref.Ops7

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := opsP0 ++ (opsP1 ++ (opsP2 ++ (opsP3 ++ (opsP4 ++ (opsP5 ++ (opsP6 ++ (opsP7)))))))

theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.2 (List.forall_mem_append.2 ⟨List.forall_iff_forall_mem.1 opsP0_sub, List.forall_mem_append.2 ⟨List.forall_iff_forall_mem.1 opsP1_sub, List.forall_mem_append.2 ⟨List.forall_iff_forall_mem.1 opsP2_sub, List.forall_mem_append.2 ⟨List.forall_iff_forall_mem.1 opsP3_sub, List.forall_mem_append.2 ⟨List.forall_iff_forall_mem.1 opsP4_sub, List.forall_mem_append.2 ⟨List.forall_iff_forall_mem.1 opsP5_sub, List.forall_mem_append.2 ⟨List.forall_iff_forall_mem.1 opsP6_sub, List.forall_iff_forall_mem.1 opsP7_sub⟩⟩⟩⟩⟩⟩⟩)

theorem ops_fresh : ∀ op ∈ (ops : List (HloOp τ sig (Elt F))), op.fresh = ∅ :=
  List.forall_mem_append.2 ⟨opsP0_fresh, List.forall_mem_append.2 ⟨opsP1_fresh, List.forall_mem_append.2 ⟨opsP2_fresh, List.forall_mem_append.2 ⟨opsP3_fresh, List.forall_mem_append.2 ⟨opsP4_fresh, List.forall_mem_append.2 ⟨opsP5_fresh, List.forall_mem_append.2 ⟨opsP6_fresh, opsP7_fresh⟩⟩⟩⟩⟩⟩⟩

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.Ref.Value.lean ====
import proofs.«113847_j61718680043593_1_alg».proof.Proof.Ref.Spec
import proofs.«113847_j61718680043593_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

structure ArgVals (F : FTy → Type) where
  a0 : FVec F S32768x44 .f32
  a1 : FVec F S32768x8 .f32
  a2 : FVec F S524288x1 .f32
  a3 : FVec F S44x128 .f32
  a4 : FVec F S128 .f32
  a5 : FVec F S8x128 .f32
  a6 : FVec F S128 .f32
  a7 : FVec F S1x128 .f32
  a8 : FVec F S128 .f32
  a9 : FVec F S3x128x128 .f32
  a10 : FVec F S3x128x128 .f32
  a11 : FVec F S3x128x128 .f32
  a12 : FVec F S3x128x128 .f32
  a13 : FVec F S3x128x128 .f32
  a14 : FVec F S3x128 .f32
  a15 : FVec F S3x128 .f32
  a16 : FVec F S3x128 .f32
  a17 : FVec F S3x128x256 .f32
  a18 : FVec F S3x256 .f32
  a19 : FVec F S3x256x128 .f32
  a20 : FVec F S3x128 .f32
  a21 : FVec F S3x128 .f32
  a22 : FVec F S3x128 .f32
  a23 : IVec S524288 32
  a24 : IVec S524288 32

def Args (a : ArgVals F) (V : Valuation τ sig (Elt F)) : Prop :=
  V (Proc.devRef .tc main_arg0) = a.a0 ∧
  V (Proc.devRef .tc main_arg1) = a.a1 ∧
  V (Proc.devRef .tc main_arg2) = a.a2 ∧
  V (Proc.devRef .tc main_arg3) = a.a3 ∧
  V (Proc.devRef .tc main_arg4) = a.a4 ∧
  V (Proc.devRef .tc main_arg5) = a.a5 ∧
  V (Proc.devRef .tc main_arg6) = a.a6 ∧
  V (Proc.devRef .tc main_arg7) = a.a7 ∧
  V (Proc.devRef .tc main_arg8) = a.a8 ∧
  V (Proc.devRef .tc main_arg9) = a.a9 ∧
  V (Proc.devRef .tc main_arg10) = a.a10 ∧
  V (Proc.devRef .tc main_arg11) = a.a11 ∧
  V (Proc.devRef .tc main_arg12) = a.a12 ∧
  V (Proc.devRef .tc main_arg13) = a.a13 ∧
  V (Proc.devRef .tc main_arg14) = a.a14 ∧
  V (Proc.devRef .tc main_arg15) = a.a15 ∧
  V (Proc.devRef .tc main_arg16) = a.a16 ∧
  V (Proc.devRef .tc main_arg17) = a.a17 ∧
  V (Proc.devRef .tc main_arg18) = a.a18 ∧
  V (Proc.devRef .tc main_arg19) = a.a19 ∧
  V (Proc.devRef .tc main_arg20) = a.a20 ∧
  V (Proc.devRef .tc main_arg21) = a.a21 ∧
  V (Proc.devRef .tc main_arg22) = a.a22 ∧
  V (Proc.devRef .tc main_arg23) = a.a23 ∧
  V (Proc.devRef .tc main_arg24) = a.a24

theorem writes_ge {op : HloOp τ sig (Elt F)} {y : Ref sig .tc} (c : Nat) (hw : op.writes = {Proc.devRef .tc y}) (hy : c ≤ y.idx.val) :
    ∀ r : Ref sig .tc, r.idx.val < c → Proc.devRef (τ := τ) .tc r ∉ op.writes := by
  intro r hr hm
  rw [hw, Finset.mem_singleton] at hm
  have h := Proc.devRef_injective _ hm
  subst h
  exact absurd hy (Nat.not_le.2 hr)

theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (a : ArgVals F)

theorem Args.of_frame {V V' : Valuation τ sig (Elt F)}
    (hf : ∀ r : Ref sig .tc, r.idx.val < 25 → V' (Proc.devRef .tc r) = V (Proc.devRef .tc r)) (h : Args a V) : Args a V' :=
  ⟨(hf _ (by decide)).trans h.1,
    (hf _ (by decide)).trans h.2.1,
    (hf _ (by decide)).trans h.2.2.1,
    (hf _ (by decide)).trans h.2.2.2.1,
    (hf _ (by decide)).trans h.2.2.2.2.1,
    (hf _ (by decide)).trans h.2.2.2.2.2.1,
    (hf _ (by decide)).trans h.2.2.2.2.2.2.1,
    (hf _ (by decide)).trans h.2.2.2.2.2.2.2.1,
    (hf _ (by decide)).trans h.2.2.2.2.2.2.2.2.1,
    (hf _ (by decide)).trans h.2.2.2.2.2.2.2.2.2.1,
    (hf _ (by decide)).trans h.2.2.2.2.2.2.2.2.2.2.1,
    (hf _ (by decide)).trans h.2.2.2.2.2.2.2.2.2.2.2.1,
    (hf _ (by decide)).trans h.2.2.2.2.2.2.2.2.2.2.2.2.1,
    (hf _ (by decide)).trans h.2.2.2.2.2.2.2.2.2.2.2.2.2.1,
    (hf _ (by decide)).trans h.2.2.2.2.2.2.2.2.2.2.2.2.2.2.1,
    (hf _ (by decide)).trans h.2.2.2.2.2.2.2.2.2.2.2.2.2.2.2.1,
    (hf _ (by decide)).trans h.2.2.2.2.2.2.2.2.2.2.2.2.2.2.2.2.1,
    (hf _ (by decide)).trans h.2.2.2.2.2.2.2.2.2.2.2.2.2.2.2.2.2.1,
    (hf _ (by decide)).trans h.2.2.2.2.2.2.2.2.2.2.2.2.2.2.2.2.2.2.1,
    (hf _ (by decide)).trans h.2.2.2.2.2.2.2.2.2.2.2.2.2.2.2.2.2.2.2.1,
    (hf _ (by decide)).trans h.2.2.2.2.2.2.2.2.2.2.2.2.2.2.2.2.2.2.2.2.1,
    (hf _ (by decide)).trans h.2.2.2.2.2.2.2.2.2.2.2.2.2.2.2.2.2.2.2.2.2.1,
    (hf _ (by decide)).trans h.2.2.2.2.2.2.2.2.2.2.2.2.2.2.2.2.2.2.2.2.2.2.1,
    (hf _ (by decide)).trans h.2.2.2.2.2.2.2.2.2.2.2.2.2.2.2.2.2.2.2.2.2.2.2.1,
    (hf _ (by decide)).trans h.2.2.2.2.2.2.2.2.2.2.2.2.2.2.2.2.2.2.2.2.2.2.2.2⟩

def H0 : FVec F S32768x128 .f32 := emb a.a0 a.a1 a.a3 a.a4 a.a5 a.a6
def E : FVec F S524288x128 .f32 := edge a.a2 a.a7 a.a8

def attnWL (L : Fin 3) (h : FVec F S32768x128 .f32) : FVec F S524288x4x32 .f32 :=
  attnW h (E a) (w128 L a.a9) (w128 L a.a10) (w128 L a.a12) a.a23 a.a24
def attnL (L : Fin 3) (h : FVec F S32768x128 .f32) : FVec F S32768x128 .f32 :=
  attn h (E a) (w128 L a.a9) (w128 L a.a10) (w128 L a.a11) (w128 L a.a12) a.a23 a.a24

def mid (L : Fin 3) (h : FVec F S32768x128 .f32) : FVec F S32768x128 .f32 :=
  ln (res h (attnL a L h) (w128 L a.a13) (b128 L a.a14)) (b128 L a.a15) (b128 L a.a16)
def ffnL (L : Fin 3) (x : FVec F S32768x128 .f32) : FVec F S32768x128 .f32 :=
  ffn x (w128x256 L a.a17) (b256 L a.a18) (w256x128 L a.a19) (b128 L a.a20)
def pre2 (L : Fin 3) (h : FVec F S32768x128 .f32) : FVec F S32768x128 .f32 :=
  addf (mid a L h) (ffnL a L (mid a L h))

def lay (L : Fin 3) (h : FVec F S32768x128 .f32) : FVec F S32768x128 .f32 :=
  layer h (E a) (w128 L a.a9) (w128 L a.a10) (w128 L a.a11) (w128 L a.a12) (w128 L a.a13) (b128 L a.a14) (b128 L a.a15) (b128 L a.a16)
    (w128x256 L a.a17) (b256 L a.a18) (w256x128 L a.a19) (b128 L a.a20) (b128 L a.a21) (b128 L a.a22) a.a23 a.a24

def H1 : FVec F S32768x128 .f32 := lay a 0 (H0 a)
def H2 : FVec F S32768x128 .f32 := lay a 1 (H1 a)
def H3 : FVec F S32768x128 .f32 := lay a 2 (H2 a)

theorem opsP0_ge : (opsP0 : List (HloOp τ sig (Elt F))).Forall fun op =>
    ∀ r : Ref sig .tc, r.idx.val < 25 → Proc.devRef (τ := τ) .tc r ∉ op.writes :=
  ⟨writes_ge 25 (y := main_v0) rfl (by decide),
    writes_ge 25 (y := main_v1) rfl (by decide),
    writes_ge 25 (y := main_v2) rfl (by decide),
    writes_ge 25 (y := main_v3) rfl (by decide),
    writes_ge 25 (y := main_v4) rfl (by decide),
    writes_ge 25 (y := main_v5) rfl (by decide),
    writes_ge 25 (y := main_v6) rfl (by decide),
    writes_ge 25 (y := main_v7) rfl (by decide),
    writes_ge 25 (y := main_v8) rfl (by decide),
    writes_ge 25 (y := main_v9) rfl (by decide),
    writes_ge 25 (y := main_v10) rfl (by decide),
    writes_ge 25 (y := main_v11) rfl (by decide),
    writes_ge 25 (y := main_v12) rfl (by decide),
    writes_ge 25 (y := main_v13) rfl (by decide),
    writes_ge 25 (y := main_v14) rfl (by decide),
    writes_ge 25 (y := main_v15) rfl (by decide),
    writes_ge 25 (y := main_v16) rfl (by decide),
    writes_ge 25 (y := main_v17) rfl (by decide),
    writes_ge 25 (y := main_v18) rfl (by decide),
    writes_ge 25 (y := main_v19) rfl (by decide),
    writes_ge 25 (y := main_v20) rfl (by decide),
    writes_ge 25 (y := main_v21) rfl (by decide),
    writes_ge 25 (y := main_v22) rfl (by decide),
    writes_ge 25 (y := main_v23) rfl (by decide),
    writes_ge 25 (y := main_v24) rfl (by decide),
    writes_ge 25 (y := main_v25) rfl (by decide),
    writes_ge 25 (y := main_v26) rfl (by decide),
    writes_ge 25 (y := main_v27) rfl (by decide),
    writes_ge 25 (y := main_v28) rfl (by decide),
    writes_ge 25 (y := main_c) rfl (by decide),
    writes_ge 25 (y := main_v29) rfl (by decide),
    writes_ge 25 (y := main_v30) rfl (by decide),
    writes_ge 25 (y := main_c_0) rfl (by decide),
    writes_ge 25 (y := main_v31) rfl (by decide),
    writes_ge 25 (y := main_v32) rfl (by decide),
    writes_ge 25 (y := main_v33) rfl (by decide),
    writes_ge 25 (y := main_v34) rfl (by decide),
    writes_ge 25 (y := main_v35) rfl (by decide),
    writes_ge 25 (y := main_c_1) rfl (by decide),
    writes_ge 25 (y := main_v36) rfl (by decide),
    writes_ge 25 (y := main_v37) rfl (by decide),
    writes_ge 25 (y := main_c_2) rfl (by decide),
    writes_ge 25 (y := main_v38) rfl (by decide),
    writes_ge 25 (y := main_v39) rfl (by decide),
    writes_ge 25 (y := main_v40) rfl (by decide),
    writes_ge 25 (y := main_v41) rfl (by decide),
    writes_ge 25 (y := main_v42) rfl (by decide),
    writes_ge 25 (y := main_v43) rfl (by decide),
    writes_ge 25 (y := main_cst) rfl (by decide),
    writes_ge 25 (y := main_v44) rfl (by decide),
    writes_ge 25 (y := main_v45) rfl (by decide),
    writes_ge 25 (y := main_cst_3) rfl (by decide),
    writes_ge 25 (y := main_v46) rfl (by decide),
    writes_ge 25 (y := main_v47) rfl (by decide),
    writes_ge 25 (y := main_cst_4) rfl (by decide),
    writes_ge 25 (y := main_v48) rfl (by decide),
    writes_ge 25 (y := main_v49) rfl (by decide),
    writes_ge 25 (y := main_v50) rfl (by decide),
    writes_ge 25 (y := main_v51) rfl (by decide),
    writes_ge 25 (y := main_v52) rfl (by decide)⟩

theorem frame0 (V : Valuation τ sig (Elt F)) {r : Ref sig .tc} (hr : r.idx.val < 25) :
    after opsP0 V (Proc.devRef .tc r) = V (Proc.devRef .tc r) :=
  after_of_forall_not_mem opsP0 V fun op hop => List.forall_iff_forall_mem.1 opsP0_ge op hop r hr

theorem args0 {V : Valuation τ sig (Elt F)} (h : Args a V) : Args a (after opsP0 V) :=
  Args.of_frame a (fun _ hr => frame0 V hr) h

set_option maxHeartbeats 4000000 in
set_option maxRecDepth 8192 in
theorem s0_v8 (V : Valuation τ sig (Elt F)) (hA : Args a V) :
    after opsP0 V (Proc.devRef .tc main_v8) = (H0 a : FVec F S32768x128 .f32) := by
  after_results_simp
  try simp only [TRef.ofBuf, TRef.toBuf, cast_eq]
  rw [hA.1, hA.2.1, hA.2.2.2.1, hA.2.2.2.2.1, hA.2.2.2.2.2.1, hA.2.2.2.2.2.2.1]
  all_goals rfl

set_option maxHeartbeats 4000000 in
set_option maxRecDepth 8192 in
theorem s0_v12 (V : Valuation τ sig (Elt F)) (hA : Args a V) :
    after opsP0 V (Proc.devRef .tc main_v12) = (E a : FVec F S524288x128 .f32) := by
  after_results_simp
  try simp only [TRef.ofBuf, TRef.toBuf, cast_eq]
  rw [hA.2.2.1, hA.2.2.2.2.2.2.2.1, hA.2.2.2.2.2.2.2.2.1]
  all_goals rfl

set_option maxHeartbeats 4000000 in
set_option maxRecDepth 8192 in
theorem s0_v24 (V : Valuation τ sig (Elt F)) (hA : Args a V) :
    after opsP0 V (Proc.devRef .tc main_v24) = (proj (H0 a) (w128 0 a.a11) : FVec F S32768x4x32 .f32) := by
  after_results_simp
  try simp only [TRef.ofBuf, TRef.toBuf, cast_eq]
  rw [hA.1, hA.2.1, hA.2.2.2.1, hA.2.2.2.2.1, hA.2.2.2.2.2.1, hA.2.2.2.2.2.2.1, hA.2.2.2.2.2.2.2.2.2.2.2.1]
  all_goals rfl

set_option maxHeartbeats 4000000 in
set_option maxRecDepth 8192 in
theorem s0_v52 (V : Valuation τ sig (Elt F)) (hA : Args a V) :
    after opsP0 V (Proc.devRef .tc main_v52) = (attnWL a 0 (H0 a) : FVec F S524288x4x32 .f32) := by
  after_results_simp
  try simp only [TRef.ofBuf, TRef.toBuf, cast_eq]
  rw [hA.1, hA.2.1, hA.2.2.1, hA.2.2.2.1, hA.2.2.2.2.1, hA.2.2.2.2.2.1, hA.2.2.2.2.2.2.1, hA.2.2.2.2.2.2.2.1, hA.2.2.2.2.2.2.2.2.1, hA.2.2.2.2.2.2.2.2.2.1, hA.2.2.2.2.2.2.2.2.2.2.1, hA.2.2.2.2.2.2.2.2.2.2.2.2.1, hA.2.2.2.2.2.2.2.2.2.2.2.2.2.2.2.2.2.2.2.2.2.2.2.1, hA.2.2.2.2.2.2.2.2.2.2.2.2.2.2.2.2.2.2.2.2.2.2.2.2]
  all_goals rfl

theorem opsP1_ge : (opsP1 : List (HloOp τ sig (Elt F))).Forall fun op =>
    ∀ r : Ref sig .tc, r.idx.val < 38 → Proc.devRef (τ := τ) .tc r ∉ op.writes :=
  ⟨writes_ge 38 (y := main_cst_5) rfl (by decide),
    writes_ge 38 (y := main_v53) rfl (by decide),
    writes_ge 38 (y := main_v54) rfl (by decide),
    writes_ge 38 (y := main_v55) rfl (by decide),
    writes_ge 38 (y := main_cst_6) rfl (by decide),
    writes_ge 38 (y := main_v56) rfl (by decide),
    writes_ge 38 (y := main_v57) rfl (by decide),
    writes_ge 38 (y := main_c_7) rfl (by decide),
    writes_ge 38 (y := main_v58) rfl (by decide),
    writes_ge 38 (y := main_v59) rfl (by decide),
    writes_ge 38 (y := main_c_8) rfl (by decide),
    writes_ge 38 (y := main_v60) rfl (by decide),
    writes_ge 38 (y := main_v61) rfl (by decide),
    writes_ge 38 (y := main_v62) rfl (by decide),
    writes_ge 38 (y := main_v63) rfl (by decide),
    writes_ge 38 (y := main_v64) rfl (by decide),
    writes_ge 38 (y := main_v65) rfl (by decide),
    writes_ge 38 (y := main_cst_9) rfl (by decide),
    writes_ge 38 (y := main_v66) rfl (by decide),
    writes_ge 38 (y := main_v67) rfl (by decide),
    writes_ge 38 (y := main_v68) rfl (by decide),
    writes_ge 38 (y := main_v69) rfl (by decide),
    writes_ge 38 (y := main_v70) rfl (by decide),
    writes_ge 38 (y := main_v71) rfl (by decide),
    writes_ge 38 (y := main_v72) rfl (by decide),
    writes_ge 38 (y := main_v73) rfl (by decide),
    writes_ge 38 (y := main_v74) rfl (by decide),
    writes_ge 38 (y := main_v75) rfl (by decide),
    writes_ge 38 (y := main_v76) rfl (by decide),
    writes_ge 38 (y := main_v77) rfl (by decide),
    writes_ge 38 (y := main_v78) rfl (by decide),
    writes_ge 38 (y := main_v79) rfl (by decide),
    writes_ge 38 (y := main_v80) rfl (by decide),
    writes_ge 38 (y := main_v81) rfl (by decide),
    writes_ge 38 (y := main_v82) rfl (by decide),
    writes_ge 38 (y := main_v83) rfl (by decide),
    writes_ge 38 (y := main_cst_10) rfl (by decide),
    writes_ge 38 (y := main_v84) rfl (by decide),
    writes_ge 38 (y := main_v85) rfl (by decide),
    writes_ge 38 (y := main_cst_11) rfl (by decide),
    writes_ge 38 (y := main_v86) rfl (by decide),
    writes_ge 38 (y := main_v87) rfl (by decide),
    writes_ge 38 (y := main_c_12) rfl (by decide),
    writes_ge 38 (y := main_call0_cst) rfl (by decide),
    writes_ge 38 (y := main_call0_v0) rfl (by decide),
    writes_ge 38 (y := main_call0_v1) rfl (by decide),
    writes_ge 38 (y := main_call0_cst_0) rfl (by decide),
    writes_ge 38 (y := main_call0_v2) rfl (by decide),
    writes_ge 38 (y := main_call0_v3) rfl (by decide),
    writes_ge 38 (y := main_call0_v4) rfl (by decide),
    writes_ge 38 (y := main_call0_v5) rfl (by decide),
    writes_ge 38 (y := main_call0_v6) rfl (by decide),
    writes_ge 38 (y := main_call0_v7) rfl (by decide),
    writes_ge 38 (y := main_call0_cst_1) rfl (by decide),
    writes_ge 38 (y := main_call0_v8) rfl (by decide),
    writes_ge 38 (y := main_call0_cst_2) rfl (by decide),
    writes_ge 38 (y := main_call0_v9) rfl (by decide),
    writes_ge 38 (y := main_call0_v10) rfl (by decide),
    writes_ge 38 (y := main_call0_v11) rfl (by decide),
    writes_ge 38 (y := main_call0_v12) rfl (by decide),
    writes_ge 38 (y := main_call0_cst_3) rfl (by decide),
    writes_ge 38 (y := main_call0_v13) rfl (by decide),
    writes_ge 38 (y := main_call0_cst_4) rfl (by decide),
    writes_ge 38 (y := main_call0_call0_v0) rfl (by decide),
    writes_ge 38 (y := main_call0_call0_v1) rfl (by decide),
    writes_ge 38 (y := main_v88) rfl (by decide),
    writes_ge 38 (y := main_v89) rfl (by decide),
    writes_ge 38 (y := main_v90) rfl (by decide),
    writes_ge 38 (y := main_cst_13) rfl (by decide),
    writes_ge 38 (y := main_v91) rfl (by decide),
    writes_ge 38 (y := main_v92) rfl (by decide),
    writes_ge 38 (y := main_v93) rfl (by decide),
    writes_ge 38 (y := main_v94) rfl (by decide),
    writes_ge 38 (y := main_v95) rfl (by decide),
    writes_ge 38 (y := main_v96) rfl (by decide),
    writes_ge 38 (y := main_v97) rfl (by decide),
    writes_ge 38 (y := main_v98) rfl (by decide),
    writes_ge 38 (y := main_v99) rfl (by decide),
    writes_ge 38 (y := main_v100) rfl (by decide),
    writes_ge 38 (y := main_v101) rfl (by decide),
    writes_ge 38 (y := main_v102) rfl (by decide),
    writes_ge 38 (y := main_v103) rfl (by decide)⟩

theorem frame1 (V : Valuation τ sig (Elt F)) {r : Ref sig .tc} (hr : r.idx.val < 38) :
    after opsP1 V (Proc.devRef .tc r) = V (Proc.devRef .tc r) :=
  after_of_forall_not_mem opsP1 V fun op hop => List.forall_iff_forall_mem.1 opsP1_ge op hop r hr

theorem args1 {V : Valuation τ sig (Elt F)} (h : Args a V) : Args a (after opsP1 V) :=
  Args.of_frame a (fun _ hr => frame1 V (Nat.lt_of_lt_of_le hr (by decide))) h

set_option maxHeartbeats 4000000 in
set_option maxRecDepth 8192 in
theorem s1_v101 (V : Valuation τ sig (Elt F)) (hA : Args a V)
    (h_v8 : V (Proc.devRef .tc main_v8) = (H0 a : FVec F S32768x128 .f32))
    (h_v24 : V (Proc.devRef .tc main_v24) = (proj (H0 a) (w128 0 a.a11) : FVec F S32768x4x32 .f32))
    (h_v52 : V (Proc.devRef .tc main_v52) = (attnWL a 0 (H0 a) : FVec F S524288x4x32 .f32)) :
    after opsP1 V (Proc.devRef .tc main_v101) = (mid a 0 (H0 a) : FVec F S32768x128 .f32) := by
  after_results_simp
  try simp only [TRef.ofBuf, TRef.toBuf, cast_eq]
  rw [h_v8, h_v24, h_v52, hA.2.2.2.2.2.2.2.2.2.2.2.2.2.1, hA.2.2.2.2.2.2.2.2.2.2.2.2.2.2.1, hA.2.2.2.2.2.2.2.2.2.2.2.2.2.2.2.1, hA.2.2.2.2.2.2.2.2.2.2.2.2.2.2.2.2.1, hA.2.2.2.2.2.2.2.2.2.2.2.2.2.2.2.2.2.2.2.2.2.2.2.1, hA.2.2.2.2.2.2.2.2.2.2.2.2.2.2.2.2.2.2.2.2.2.2.2.2]
  all_goals rfl

set_option maxHeartbeats 4000000 in
set_option maxRecDepth 8192 in
theorem s1_v103 (V : Valuation τ sig (Elt F)) (hA : Args a V) :
    after opsP1 V (Proc.devRef .tc main_v103) = (w128x256 0 a.a17 : FVec F S128x256 .f32) := by
  after_results_simp
  try simp only [TRef.ofBuf, TRef.toBuf, cast_eq]
  rw [hA.2.2.2.2.2.2.2.2.2.2.2.2.2.2.2.2.2.1]
  all_goals rfl

theorem s1_v12 (V : Valuation τ sig (Elt F)) (h_v12 : V (Proc.devRef .tc main_v12) = (E a : FVec F S524288x128 .f32)) :
    after opsP1 V (Proc.devRef .tc main_v12) = (E a : FVec F S524288x128 .f32) :=
  (frame1 V (by decide)).trans h_v12

theorem opsP2_ge : (opsP2 : List (HloOp τ sig (Elt F))).Forall fun op =>
    ∀ r : Ref sig .tc, r.idx.val < 38 → Proc.devRef (τ := τ) .tc r ∉ op.writes :=
  ⟨writes_ge 38 (y := main_v104) rfl (by decide),
    writes_ge 38 (y := main_v105) rfl (by decide),
    writes_ge 38 (y := main_v106) rfl (by decide),
    writes_ge 38 (y := main_v107) rfl (by decide),
    writes_ge 38 (y := main_v108) rfl (by decide),
    writes_ge 38 (y := main_v109) rfl (by decide),
    writes_ge 38 (y := main_call1_cst) rfl (by decide),
    writes_ge 38 (y := main_call1_v0) rfl (by decide),
    writes_ge 38 (y := main_v110) rfl (by decide),
    writes_ge 38 (y := main_v111) rfl (by decide),
    writes_ge 38 (y := main_v112) rfl (by decide),
    writes_ge 38 (y := main_v113) rfl (by decide),
    writes_ge 38 (y := main_v114) rfl (by decide),
    writes_ge 38 (y := main_v115) rfl (by decide),
    writes_ge 38 (y := main_v116) rfl (by decide),
    writes_ge 38 (y := main_v117) rfl (by decide),
    writes_ge 38 (y := main_v118) rfl (by decide),
    writes_ge 38 (y := main_v119) rfl (by decide),
    writes_ge 38 (y := main_v120) rfl (by decide),
    writes_ge 38 (y := main_v121) rfl (by decide),
    writes_ge 38 (y := main_v122) rfl (by decide),
    writes_ge 38 (y := main_v123) rfl (by decide),
    writes_ge 38 (y := main_cst_14) rfl (by decide),
    writes_ge 38 (y := main_v124) rfl (by decide),
    writes_ge 38 (y := main_v125) rfl (by decide),
    writes_ge 38 (y := main_cst_15) rfl (by decide),
    writes_ge 38 (y := main_v126) rfl (by decide),
    writes_ge 38 (y := main_v127) rfl (by decide),
    writes_ge 38 (y := main_c_16) rfl (by decide),
    writes_ge 38 (y := main_call2_cst) rfl (by decide),
    writes_ge 38 (y := main_call2_v0) rfl (by decide),
    writes_ge 38 (y := main_call2_v1) rfl (by decide),
    writes_ge 38 (y := main_call2_cst_0) rfl (by decide),
    writes_ge 38 (y := main_call2_v2) rfl (by decide),
    writes_ge 38 (y := main_call2_v3) rfl (by decide),
    writes_ge 38 (y := main_call2_v4) rfl (by decide),
    writes_ge 38 (y := main_call2_v5) rfl (by decide),
    writes_ge 38 (y := main_call2_v6) rfl (by decide),
    writes_ge 38 (y := main_call2_v7) rfl (by decide),
    writes_ge 38 (y := main_call2_cst_1) rfl (by decide),
    writes_ge 38 (y := main_call2_v8) rfl (by decide),
    writes_ge 38 (y := main_call2_cst_2) rfl (by decide),
    writes_ge 38 (y := main_call2_v9) rfl (by decide),
    writes_ge 38 (y := main_call2_v10) rfl (by decide),
    writes_ge 38 (y := main_call2_v11) rfl (by decide),
    writes_ge 38 (y := main_call2_v12) rfl (by decide),
    writes_ge 38 (y := main_call2_cst_3) rfl (by decide),
    writes_ge 38 (y := main_call2_v13) rfl (by decide),
    writes_ge 38 (y := main_call2_cst_4) rfl (by decide),
    writes_ge 38 (y := main_call2_call0_v0) rfl (by decide),
    writes_ge 38 (y := main_call2_call0_v1) rfl (by decide),
    writes_ge 38 (y := main_v128) rfl (by decide),
    writes_ge 38 (y := main_v129) rfl (by decide),
    writes_ge 38 (y := main_v130) rfl (by decide),
    writes_ge 38 (y := main_cst_17) rfl (by decide),
    writes_ge 38 (y := main_v131) rfl (by decide),
    writes_ge 38 (y := main_v132) rfl (by decide),
    writes_ge 38 (y := main_v133) rfl (by decide),
    writes_ge 38 (y := main_v134) rfl (by decide),
    writes_ge 38 (y := main_v135) rfl (by decide),
    writes_ge 38 (y := main_v136) rfl (by decide),
    writes_ge 38 (y := main_v137) rfl (by decide),
    writes_ge 38 (y := main_v138) rfl (by decide),
    writes_ge 38 (y := main_v139) rfl (by decide),
    writes_ge 38 (y := main_v140) rfl (by decide),
    writes_ge 38 (y := main_v141) rfl (by decide),
    writes_ge 38 (y := main_v142) rfl (by decide),
    writes_ge 38 (y := main_v143) rfl (by decide),
    writes_ge 38 (y := main_v144) rfl (by decide),
    writes_ge 38 (y := main_v145) rfl (by decide),
    writes_ge 38 (y := main_v146) rfl (by decide),
    writes_ge 38 (y := main_v147) rfl (by decide),
    writes_ge 38 (y := main_v148) rfl (by decide),
    writes_ge 38 (y := main_v149) rfl (by decide),
    writes_ge 38 (y := main_v150) rfl (by decide),
    writes_ge 38 (y := main_v151) rfl (by decide),
    writes_ge 38 (y := main_v152) rfl (by decide),
    writes_ge 38 (y := main_v153) rfl (by decide),
    writes_ge 38 (y := main_v154) rfl (by decide),
    writes_ge 38 (y := main_v155) rfl (by decide),
    writes_ge 38 (y := main_v156) rfl (by decide),
    writes_ge 38 (y := main_v157) rfl (by decide),
    writes_ge 38 (y := main_c_18) rfl (by decide),
    writes_ge 38 (y := main_v158) rfl (by decide)⟩

theorem frame2 (V : Valuation τ sig (Elt F)) {r : Ref sig .tc} (hr : r.idx.val < 38) :
    after opsP2 V (Proc.devRef .tc r) = V (Proc.devRef .tc r) :=
  after_of_forall_not_mem opsP2 V fun op hop => List.forall_iff_forall_mem.1 opsP2_ge op hop r hr

theorem args2 {V : Valuation τ sig (Elt F)} (h : Args a V) : Args a (after opsP2 V) :=
  Args.of_frame a (fun _ hr => frame2 V (Nat.lt_of_lt_of_le hr (by decide))) h

set_option maxHeartbeats 4000000 in
set_option maxRecDepth 8192 in
theorem s2_v141 (V : Valuation τ sig (Elt F)) (hA : Args a V)
    (h_v101 : V (Proc.devRef .tc main_v101) = (mid a 0 (H0 a) : FVec F S32768x128 .f32))
    (h_v103 : V (Proc.devRef .tc main_v103) = (w128x256 0 a.a17 : FVec F S128x256 .f32)) :
    after opsP2 V (Proc.devRef .tc main_v141) = (H1 a : FVec F S32768x128 .f32) := by
  after_results_simp
  try simp only [TRef.ofBuf, TRef.toBuf, cast_eq]
  rw [h_v101, h_v103, hA.2.2.2.2.2.2.2.2.2.2.2.2.2.2.2.2.2.2.1, hA.2.2.2.2.2.2.2.2.2.2.2.2.2.2.2.2.2.2.2.1, hA.2.2.2.2.2.2.2.2.2.2.2.2.2.2.2.2.2.2.2.2.1, hA.2.2.2.2.2.2.2.2.2.2.2.2.2.2.2.2.2.2.2.2.2.1, hA.2.2.2.2.2.2.2.2.2.2.2.2.2.2.2.2.2.2.2.2.2.2.1]
  all_goals rfl

set_option maxHeartbeats 4000000 in
set_option maxRecDepth 8192 in
theorem s2_v145 (V : Valuation τ sig (Elt F)) (hA : Args a V)
    (h_v101 : V (Proc.devRef .tc main_v101) = (mid a 0 (H0 a) : FVec F S32768x128 .f32))
    (h_v103 : V (Proc.devRef .tc main_v103) = (w128x256 0 a.a17 : FVec F S128x256 .f32)) :
    after opsP2 V (Proc.devRef .tc main_v145) = (proj (H1 a) (w128 1 a.a9) : FVec F S32768x4x32 .f32) := by
  after_results_simp
  try simp only [TRef.ofBuf, TRef.toBuf, cast_eq]
  rw [h_v101, h_v103, hA.2.2.2.2.2.2.2.2.2.1, hA.2.2.2.2.2.2.2.2.2.2.2.2.2.2.2.2.2.2.1, hA.2.2.2.2.2.2.2.2.2.2.2.2.2.2.2.2.2.2.2.1, hA.2.2.2.2.2.2.2.2.2.2.2.2.2.2.2.2.2.2.2.2.1, hA.2.2.2.2.2.2.2.2.2.2.2.2.2.2.2.2.2.2.2.2.2.1, hA.2.2.2.2.2.2.2.2.2.2.2.2.2.2.2.2.2.2.2.2.2.2.1]
  all_goals rfl

set_option maxHeartbeats 4000000 in
set_option maxRecDepth 8192 in
theorem s2_v149 (V : Valuation τ sig (Elt F)) (hA : Args a V)
    (h_v101 : V (Proc.devRef .tc main_v101) = (mid a 0 (H0 a) : FVec F S32768x128 .f32))
    (h_v103 : V (Proc.devRef .tc main_v103) = (w128x256 0 a.a17 : FVec F S128x256 .f32)) :
    after opsP2 V (Proc.devRef .tc main_v149) = (proj (H1 a) (w128 1 a.a10) : FVec F S32768x4x32 .f32) := by
  after_results_simp
  try simp only [TRef.ofBuf, TRef.toBuf, cast_eq]
  rw [h_v101, h_v103, hA.2.2.2.2.2.2.2.2.2.2.1, hA.2.2.2.2.2.2.2.2.2.2.2.2.2.2.2.2.2.2.1, hA.2.2.2.2.2.2.2.2.2.2.2.2.2.2.2.2.2.2.2.1, hA.2.2.2.2.2.2.2.2.2.2.2.2.2.2.2.2.2.2.2.2.1, hA.2.2.2.2.2.2.2.2.2.2.2.2.2.2.2.2.2.2.2.2.2.1, hA.2.2.2.2.2.2.2.2.2.2.2.2.2.2.2.2.2.2.2.2.2.2.1]
  all_goals rfl

set_option maxHeartbeats 4000000 in
set_option maxRecDepth 8192 in
theorem s2_v153 (V : Valuation τ sig (Elt F)) (hA : Args a V)
    (h_v101 : V (Proc.devRef .tc main_v101) = (mid a 0 (H0 a) : FVec F S32768x128 .f32))
    (h_v103 : V (Proc.devRef .tc main_v103) = (w128x256 0 a.a17 : FVec F S128x256 .f32)) :
    after opsP2 V (Proc.devRef .tc main_v153) = (proj (H1 a) (w128 1 a.a11) : FVec F S32768x4x32 .f32) := by
  after_results_simp
  try simp only [TRef.ofBuf, TRef.toBuf, cast_eq]
  rw [h_v101, h_v103, hA.2.2.2.2.2.2.2.2.2.2.2.1, hA.2.2.2.2.2.2.2.2.2.2.2.2.2.2.2.2.2.2.1, hA.2.2.2.2.2.2.2.2.2.2.2.2.2.2.2.2.2.2.2.1, hA.2.2.2.2.2.2.2.2.2.2.2.2.2.2.2.2.2.2.2.2.1, hA.2.2.2.2.2.2.2.2.2.2.2.2.2.2.2.2.2.2.2.2.2.1, hA.2.2.2.2.2.2.2.2.2.2.2.2.2.2.2.2.2.2.2.2.2.2.1]
  all_goals rfl

set_option maxHeartbeats 4000000 in
set_option maxRecDepth 8192 in
theorem s2_v157 (V : Valuation τ sig (Elt F)) (hA : Args a V)
    (h_v12 : V (Proc.devRef .tc main_v12) = (E a : FVec F S524288x128 .f32)) :
    after opsP2 V (Proc.devRef .tc main_v157) = (eproj (E a) (w128 1 a.a12) : FVec F S524288x4x32 .f32) := by
  after_results_simp
  try simp only [TRef.ofBuf, TRef.toBuf, cast_eq]
  rw [h_v12, hA.2.2.2.2.2.2.2.2.2.2.2.2.1]
  all_goals rfl

set_option maxHeartbeats 4000000 in
set_option maxRecDepth 8192 in
theorem s2_v158 (V : Valuation τ sig (Elt F)) :
    after opsP2 V (Proc.devRef .tc main_v158) = ((broadcastInDim S524288 ![] bcast_S_S524288 (constantI S_ 32 0#32)) : IVec S524288 32) := by
  after_results_simp
  all_goals rfl

theorem s2_v12 (V : Valuation τ sig (Elt F)) (h_v12 : V (Proc.devRef .tc main_v12) = (E a : FVec F S524288x128 .f32)) :
    after opsP2 V (Proc.devRef .tc main_v12) = (E a : FVec F S524288x128 .f32) :=
  (frame2 V (by decide)).trans h_v12

theorem opsP3_ge : (opsP3 : List (HloOp τ sig (Elt F))).Forall fun op =>
    ∀ r : Ref sig .tc, r.idx.val < 38 → Proc.devRef (τ := τ) .tc r ∉ op.writes :=
  ⟨writes_ge 38 (y := main_v159) rfl (by decide),
    writes_ge 38 (y := main_c_19) rfl (by decide),
    writes_ge 38 (y := main_v160) rfl (by decide),
    writes_ge 38 (y := main_v161) rfl (by decide),
    writes_ge 38 (y := main_v162) rfl (by decide),
    writes_ge 38 (y := main_v163) rfl (by decide),
    writes_ge 38 (y := main_v164) rfl (by decide),
    writes_ge 38 (y := main_c_20) rfl (by decide),
    writes_ge 38 (y := main_v165) rfl (by decide),
    writes_ge 38 (y := main_v166) rfl (by decide),
    writes_ge 38 (y := main_c_21) rfl (by decide),
    writes_ge 38 (y := main_v167) rfl (by decide),
    writes_ge 38 (y := main_v168) rfl (by decide),
    writes_ge 38 (y := main_v169) rfl (by decide),
    writes_ge 38 (y := main_v170) rfl (by decide),
    writes_ge 38 (y := main_v171) rfl (by decide),
    writes_ge 38 (y := main_v172) rfl (by decide),
    writes_ge 38 (y := main_cst_22) rfl (by decide),
    writes_ge 38 (y := main_v173) rfl (by decide),
    writes_ge 38 (y := main_v174) rfl (by decide),
    writes_ge 38 (y := main_cst_23) rfl (by decide),
    writes_ge 38 (y := main_v175) rfl (by decide),
    writes_ge 38 (y := main_v176) rfl (by decide),
    writes_ge 38 (y := main_cst_24) rfl (by decide),
    writes_ge 38 (y := main_v177) rfl (by decide),
    writes_ge 38 (y := main_v178) rfl (by decide),
    writes_ge 38 (y := main_v179) rfl (by decide),
    writes_ge 38 (y := main_v180) rfl (by decide),
    writes_ge 38 (y := main_v181) rfl (by decide),
    writes_ge 38 (y := main_cst_25) rfl (by decide),
    writes_ge 38 (y := main_v182) rfl (by decide),
    writes_ge 38 (y := main_v183) rfl (by decide),
    writes_ge 38 (y := main_v184) rfl (by decide),
    writes_ge 38 (y := main_cst_26) rfl (by decide),
    writes_ge 38 (y := main_v185) rfl (by decide),
    writes_ge 38 (y := main_v186) rfl (by decide),
    writes_ge 38 (y := main_c_27) rfl (by decide),
    writes_ge 38 (y := main_v187) rfl (by decide),
    writes_ge 38 (y := main_v188) rfl (by decide),
    writes_ge 38 (y := main_c_28) rfl (by decide),
    writes_ge 38 (y := main_v189) rfl (by decide),
    writes_ge 38 (y := main_v190) rfl (by decide),
    writes_ge 38 (y := main_v191) rfl (by decide),
    writes_ge 38 (y := main_v192) rfl (by decide),
    writes_ge 38 (y := main_v193) rfl (by decide),
    writes_ge 38 (y := main_v194) rfl (by decide),
    writes_ge 38 (y := main_cst_29) rfl (by decide),
    writes_ge 38 (y := main_v195) rfl (by decide),
    writes_ge 38 (y := main_v196) rfl (by decide),
    writes_ge 38 (y := main_v197) rfl (by decide),
    writes_ge 38 (y := main_v198) rfl (by decide),
    writes_ge 38 (y := main_v199) rfl (by decide),
    writes_ge 38 (y := main_v200) rfl (by decide),
    writes_ge 38 (y := main_v201) rfl (by decide),
    writes_ge 38 (y := main_v202) rfl (by decide),
    writes_ge 38 (y := main_v203) rfl (by decide),
    writes_ge 38 (y := main_v204) rfl (by decide),
    writes_ge 38 (y := main_v205) rfl (by decide),
    writes_ge 38 (y := main_v206) rfl (by decide),
    writes_ge 38 (y := main_v207) rfl (by decide)⟩

theorem frame3 (V : Valuation τ sig (Elt F)) {r : Ref sig .tc} (hr : r.idx.val < 38) :
    after opsP3 V (Proc.devRef .tc r) = V (Proc.devRef .tc r) :=
  after_of_forall_not_mem opsP3 V fun op hop => List.forall_iff_forall_mem.1 opsP3_ge op hop r hr

theorem args3 {V : Valuation τ sig (Elt F)} (h : Args a V) : Args a (after opsP3 V) :=
  Args.of_frame a (fun _ hr => frame3 V (Nat.lt_of_lt_of_le hr (by decide))) h

set_option maxHeartbeats 4000000 in
set_option maxRecDepth 8192 in
theorem s3_v203 (V : Valuation τ sig (Elt F)) (hA : Args a V)
    (h_v141 : V (Proc.devRef .tc main_v141) = (H1 a : FVec F S32768x128 .f32))
    (h_v153 : V (Proc.devRef .tc main_v153) = (proj (H1 a) (w128 1 a.a11) : FVec F S32768x4x32 .f32))
    (h_v149 : V (Proc.devRef .tc main_v149) = (proj (H1 a) (w128 1 a.a10) : FVec F S32768x4x32 .f32))
    (h_v158 : V (Proc.devRef .tc main_v158) = ((broadcastInDim S524288 ![] bcast_S_S524288 (constantI S_ 32 0#32)) : IVec S524288 32))
    (h_v145 : V (Proc.devRef .tc main_v145) = (proj (H1 a) (w128 1 a.a9) : FVec F S32768x4x32 .f32))
    (h_v157 : V (Proc.devRef .tc main_v157) = (eproj (E a) (w128 1 a.a12) : FVec F S524288x4x32 .f32)) :
    after opsP3 V (Proc.devRef .tc main_v203) = ((addf (H1 a) (Host.dotGeneral dot_S32768x128_S128x128_S32768x128_1_0_0_1_n_n none (attnL a 1 (H1 a)) (w128 1 a.a13))) : FVec F S32768x128 .f32) := by
  after_results_simp
  try simp only [TRef.ofBuf, TRef.toBuf, cast_eq]
  rw [h_v141, h_v153, h_v149, h_v158, h_v145, h_v157, hA.2.2.2.2.2.2.2.2.2.2.2.2.2.1, hA.2.2.2.2.2.2.2.2.2.2.2.2.2.2.2.2.2.2.2.2.2.2.2.1, hA.2.2.2.2.2.2.2.2.2.2.2.2.2.2.2.2.2.2.2.2.2.2.2.2]
  all_goals rfl

set_option maxHeartbeats 4000000 in
set_option maxRecDepth 8192 in
theorem s3_v207 (V : Valuation τ sig (Elt F)) (hA : Args a V) :
    after opsP3 V (Proc.devRef .tc main_v207) = ((broadcastInDim S32768x128 ![0, 1] bcast_S1x128_S32768x128_0_1 (broadcastInDim S1x128 ![1] bcast_S128_S1x128_1 (b128 1 a.a14))) : FVec F S32768x128 .f32) := by
  after_results_simp
  try simp only [TRef.ofBuf, TRef.toBuf, cast_eq]
  rw [hA.2.2.2.2.2.2.2.2.2.2.2.2.2.2.1]
  all_goals rfl

theorem s3_v12 (V : Valuation τ sig (Elt F)) (h_v12 : V (Proc.devRef .tc main_v12) = (E a : FVec F S524288x128 .f32)) :
    after opsP3 V (Proc.devRef .tc main_v12) = (E a : FVec F S524288x128 .f32) :=
  (frame3 V (by decide)).trans h_v12

theorem opsP4_ge : (opsP4 : List (HloOp τ sig (Elt F))).Forall fun op =>
    ∀ r : Ref sig .tc, r.idx.val < 38 → Proc.devRef (τ := τ) .tc r ∉ op.writes :=
  ⟨writes_ge 38 (y := main_v208) rfl (by decide),
    writes_ge 38 (y := main_v209) rfl (by decide),
    writes_ge 38 (y := main_v210) rfl (by decide),
    writes_ge 38 (y := main_v211) rfl (by decide),
    writes_ge 38 (y := main_v212) rfl (by decide),
    writes_ge 38 (y := main_cst_30) rfl (by decide),
    writes_ge 38 (y := main_v213) rfl (by decide),
    writes_ge 38 (y := main_v214) rfl (by decide),
    writes_ge 38 (y := main_cst_31) rfl (by decide),
    writes_ge 38 (y := main_v215) rfl (by decide),
    writes_ge 38 (y := main_v216) rfl (by decide),
    writes_ge 38 (y := main_c_32) rfl (by decide),
    writes_ge 38 (y := main_call3_cst) rfl (by decide),
    writes_ge 38 (y := main_call3_v0) rfl (by decide),
    writes_ge 38 (y := main_call3_v1) rfl (by decide),
    writes_ge 38 (y := main_call3_cst_0) rfl (by decide),
    writes_ge 38 (y := main_call3_v2) rfl (by decide),
    writes_ge 38 (y := main_call3_v3) rfl (by decide),
    writes_ge 38 (y := main_call3_v4) rfl (by decide),
    writes_ge 38 (y := main_call3_v5) rfl (by decide),
    writes_ge 38 (y := main_call3_v6) rfl (by decide),
    writes_ge 38 (y := main_call3_v7) rfl (by decide),
    writes_ge 38 (y := main_call3_cst_1) rfl (by decide),
    writes_ge 38 (y := main_call3_v8) rfl (by decide),
    writes_ge 38 (y := main_call3_cst_2) rfl (by decide),
    writes_ge 38 (y := main_call3_v9) rfl (by decide),
    writes_ge 38 (y := main_call3_v10) rfl (by decide),
    writes_ge 38 (y := main_call3_v11) rfl (by decide),
    writes_ge 38 (y := main_call3_v12) rfl (by decide),
    writes_ge 38 (y := main_call3_cst_3) rfl (by decide),
    writes_ge 38 (y := main_call3_v13) rfl (by decide),
    writes_ge 38 (y := main_call3_cst_4) rfl (by decide),
    writes_ge 38 (y := main_call3_call0_v0) rfl (by decide),
    writes_ge 38 (y := main_call3_call0_v1) rfl (by decide),
    writes_ge 38 (y := main_v217) rfl (by decide),
    writes_ge 38 (y := main_v218) rfl (by decide),
    writes_ge 38 (y := main_v219) rfl (by decide),
    writes_ge 38 (y := main_cst_33) rfl (by decide),
    writes_ge 38 (y := main_v220) rfl (by decide),
    writes_ge 38 (y := main_v221) rfl (by decide),
    writes_ge 38 (y := main_v222) rfl (by decide),
    writes_ge 38 (y := main_v223) rfl (by decide),
    writes_ge 38 (y := main_v224) rfl (by decide),
    writes_ge 38 (y := main_v225) rfl (by decide),
    writes_ge 38 (y := main_v226) rfl (by decide),
    writes_ge 38 (y := main_v227) rfl (by decide),
    writes_ge 38 (y := main_v228) rfl (by decide),
    writes_ge 38 (y := main_v229) rfl (by decide),
    writes_ge 38 (y := main_v230) rfl (by decide),
    writes_ge 38 (y := main_v231) rfl (by decide),
    writes_ge 38 (y := main_v232) rfl (by decide),
    writes_ge 38 (y := main_v233) rfl (by decide),
    writes_ge 38 (y := main_v234) rfl (by decide),
    writes_ge 38 (y := main_v235) rfl (by decide),
    writes_ge 38 (y := main_v236) rfl (by decide),
    writes_ge 38 (y := main_v237) rfl (by decide),
    writes_ge 38 (y := main_v238) rfl (by decide),
    writes_ge 38 (y := main_call4_cst) rfl (by decide),
    writes_ge 38 (y := main_call4_v0) rfl (by decide),
    writes_ge 38 (y := main_v239) rfl (by decide),
    writes_ge 38 (y := main_v240) rfl (by decide),
    writes_ge 38 (y := main_v241) rfl (by decide),
    writes_ge 38 (y := main_v242) rfl (by decide),
    writes_ge 38 (y := main_v243) rfl (by decide),
    writes_ge 38 (y := main_v244) rfl (by decide),
    writes_ge 38 (y := main_v245) rfl (by decide),
    writes_ge 38 (y := main_v246) rfl (by decide),
    writes_ge 38 (y := main_v247) rfl (by decide),
    writes_ge 38 (y := main_v248) rfl (by decide),
    writes_ge 38 (y := main_v249) rfl (by decide),
    writes_ge 38 (y := main_v250) rfl (by decide),
    writes_ge 38 (y := main_v251) rfl (by decide),
    writes_ge 38 (y := main_v252) rfl (by decide),
    writes_ge 38 (y := main_cst_34) rfl (by decide),
    writes_ge 38 (y := main_v253) rfl (by decide),
    writes_ge 38 (y := main_v254) rfl (by decide),
    writes_ge 38 (y := main_cst_35) rfl (by decide),
    writes_ge 38 (y := main_v255) rfl (by decide),
    writes_ge 38 (y := main_v256) rfl (by decide),
    writes_ge 38 (y := main_c_36) rfl (by decide),
    writes_ge 38 (y := main_call5_cst) rfl (by decide),
    writes_ge 38 (y := main_call5_v0) rfl (by decide),
    writes_ge 38 (y := main_call5_v1) rfl (by decide),
    writes_ge 38 (y := main_call5_cst_0) rfl (by decide),
    writes_ge 38 (y := main_call5_v2) rfl (by decide),
    writes_ge 38 (y := main_call5_v3) rfl (by decide),
    writes_ge 38 (y := main_call5_v4) rfl (by decide),
    writes_ge 38 (y := main_call5_v5) rfl (by decide),
    writes_ge 38 (y := main_call5_v6) rfl (by decide),
    writes_ge 38 (y := main_call5_v7) rfl (by decide),
    writes_ge 38 (y := main_call5_cst_1) rfl (by decide),
    writes_ge 38 (y := main_call5_v8) rfl (by decide),
    writes_ge 38 (y := main_call5_cst_2) rfl (by decide),
    writes_ge 38 (y := main_call5_v9) rfl (by decide),
    writes_ge 38 (y := main_call5_v10) rfl (by decide),
    writes_ge 38 (y := main_call5_v11) rfl (by decide),
    writes_ge 38 (y := main_call5_v12) rfl (by decide),
    writes_ge 38 (y := main_call5_cst_3) rfl (by decide),
    writes_ge 38 (y := main_call5_v13) rfl (by decide),
    writes_ge 38 (y := main_call5_cst_4) rfl (by decide),
    writes_ge 38 (y := main_call5_call0_v0) rfl (by decide),
    writes_ge 38 (y := main_call5_call0_v1) rfl (by decide),
    writes_ge 38 (y := main_v257) rfl (by decide),
    writes_ge 38 (y := main_v258) rfl (by decide),
    writes_ge 38 (y := main_v259) rfl (by decide),
    writes_ge 38 (y := main_cst_37) rfl (by decide)⟩

theorem frame4 (V : Valuation τ sig (Elt F)) {r : Ref sig .tc} (hr : r.idx.val < 38) :
    after opsP4 V (Proc.devRef .tc r) = V (Proc.devRef .tc r) :=
  after_of_forall_not_mem opsP4 V fun op hop => List.forall_iff_forall_mem.1 opsP4_ge op hop r hr

theorem args4 {V : Valuation τ sig (Elt F)} (h : Args a V) : Args a (after opsP4 V) :=
  Args.of_frame a (fun _ hr => frame4 V (Nat.lt_of_lt_of_le hr (by decide))) h

set_option maxHeartbeats 4000000 in
set_option maxRecDepth 8192 in
theorem s4_cst_37 (V : Valuation τ sig (Elt F)) :
    after opsP4 V (Proc.devRef .tc main_cst_37) = ((constant S_ .f32 0x3727C5AC#32) : FVec F S_ .f32) := by
  after_results_simp
  all_goals rfl

set_option maxHeartbeats 4000000 in
set_option maxRecDepth 8192 in
theorem s4_v250 (V : Valuation τ sig (Elt F)) (hA : Args a V) :
    after opsP4 V (Proc.devRef .tc main_v250) = (b128 1 a.a21 : FVec F S128 .f32) := by
  after_results_simp
  try simp only [TRef.ofBuf, TRef.toBuf, cast_eq]
  rw [hA.2.2.2.2.2.2.2.2.2.2.2.2.2.2.2.2.2.2.2.2.2.1]
  all_goals rfl

set_option maxHeartbeats 4000000 in
set_option maxRecDepth 8192 in
theorem s4_v252 (V : Valuation τ sig (Elt F)) (hA : Args a V) :
    after opsP4 V (Proc.devRef .tc main_v252) = (b128 1 a.a22 : FVec F S128 .f32) := by
  after_results_simp
  try simp only [TRef.ofBuf, TRef.toBuf, cast_eq]
  rw [hA.2.2.2.2.2.2.2.2.2.2.2.2.2.2.2.2.2.2.2.2.2.2.1]
  all_goals rfl

set_option maxHeartbeats 4000000 in
set_option maxRecDepth 8192 in
theorem s4_v257 (V : Valuation τ sig (Elt F)) (hA : Args a V)
    (h_v203 : V (Proc.devRef .tc main_v203) = ((addf (H1 a) (Host.dotGeneral dot_S32768x128_S128x128_S32768x128_1_0_0_1_n_n none (attnL a 1 (H1 a)) (w128 1 a.a13))) : FVec F S32768x128 .f32))
    (h_v207 : V (Proc.devRef .tc main_v207) = ((broadcastInDim S32768x128 ![0, 1] bcast_S1x128_S32768x128_0_1 (broadcastInDim S1x128 ![1] bcast_S128_S1x128_1 (b128 1 a.a14))) : FVec F S32768x128 .f32)) :
    after opsP4 V (Proc.devRef .tc main_v257) = (lnVar (pre2 a 1 (H1 a)) : FVec F S32768x1 .f32) := by
  after_results_simp
  try simp only [TRef.ofBuf, TRef.toBuf, cast_eq]
  rw [h_v203, h_v207, hA.2.2.2.2.2.2.2.2.2.2.2.2.2.2.2.1, hA.2.2.2.2.2.2.2.2.2.2.2.2.2.2.2.2.1, hA.2.2.2.2.2.2.2.2.2.2.2.2.2.2.2.2.2.1, hA.2.2.2.2.2.2.2.2.2.2.2.2.2.2.2.2.2.2.1, hA.2.2.2.2.2.2.2.2.2.2.2.2.2.2.2.2.2.2.2.1, hA.2.2.2.2.2.2.2.2.2.2.2.2.2.2.2.2.2.2.2.2.1]
  all_goals rfl

set_option maxHeartbeats 4000000 in
set_option maxRecDepth 8192 in
theorem s4_v259 (V : Valuation τ sig (Elt F)) (hA : Args a V)
    (h_v203 : V (Proc.devRef .tc main_v203) = ((addf (H1 a) (Host.dotGeneral dot_S32768x128_S128x128_S32768x128_1_0_0_1_n_n none (attnL a 1 (H1 a)) (w128 1 a.a13))) : FVec F S32768x128 .f32))
    (h_v207 : V (Proc.devRef .tc main_v207) = ((broadcastInDim S32768x128 ![0, 1] bcast_S1x128_S32768x128_0_1 (broadcastInDim S1x128 ![1] bcast_S128_S1x128_1 (b128 1 a.a14))) : FVec F S32768x128 .f32)) :
    after opsP4 V (Proc.devRef .tc main_v259) = ((subf (pre2 a 1 (H1 a)) (broadcastInDim S32768x128 ![0, 1] bcast_S32768x1_S32768x128_0_1 (Host.divf (broadcastInDim S32768x1 ![0] bcast_S32768_S32768x1_0 (Host.reduceAdd (pre2 a 1 (H1 a)) (constant S_ .f32 0x00000000#32) reducesTo_S32768x128_S32768_d1 h_S_)) (broadcastInDim S32768x1 ![] bcast_S_S32768x1 (constant S_ .f32 0x43000000#32))))) : FVec F S32768x128 .f32) := by
  after_results_simp
  try simp only [TRef.ofBuf, TRef.toBuf, cast_eq]
  rw [h_v203, h_v207, hA.2.2.2.2.2.2.2.2.2.2.2.2.2.2.2.1, hA.2.2.2.2.2.2.2.2.2.2.2.2.2.2.2.2.1, hA.2.2.2.2.2.2.2.2.2.2.2.2.2.2.2.2.2.1, hA.2.2.2.2.2.2.2.2.2.2.2.2.2.2.2.2.2.2.1, hA.2.2.2.2.2.2.2.2.2.2.2.2.2.2.2.2.2.2.2.1, hA.2.2.2.2.2.2.2.2.2.2.2.2.2.2.2.2.2.2.2.2.1]
  all_goals rfl

theorem s4_v12 (V : Valuation τ sig (Elt F)) (h_v12 : V (Proc.devRef .tc main_v12) = (E a : FVec F S524288x128 .f32)) :
    after opsP4 V (Proc.devRef .tc main_v12) = (E a : FVec F S524288x128 .f32) :=
  (frame4 V (by decide)).trans h_v12

theorem opsP5_ge : (opsP5 : List (HloOp τ sig (Elt F))).Forall fun op =>
    ∀ r : Ref sig .tc, r.idx.val < 25 → Proc.devRef (τ := τ) .tc r ∉ op.writes :=
  ⟨writes_ge 25 (y := main_v260) rfl (by decide),
    writes_ge 25 (y := main_v261) rfl (by decide),
    writes_ge 25 (y := main_v262) rfl (by decide),
    writes_ge 25 (y := main_v263) rfl (by decide),
    writes_ge 25 (y := main_v264) rfl (by decide),
    writes_ge 25 (y := main_v265) rfl (by decide),
    writes_ge 25 (y := main_v266) rfl (by decide),
    writes_ge 25 (y := main_v267) rfl (by decide),
    writes_ge 25 (y := main_v268) rfl (by decide),
    writes_ge 25 (y := main_v269) rfl (by decide),
    writes_ge 25 (y := main_v270) rfl (by decide),
    writes_ge 25 (y := main_v271) rfl (by decide),
    writes_ge 25 (y := main_v272) rfl (by decide),
    writes_ge 25 (y := main_v273) rfl (by decide),
    writes_ge 25 (y := main_v274) rfl (by decide),
    writes_ge 25 (y := main_v275) rfl (by decide),
    writes_ge 25 (y := main_v276) rfl (by decide),
    writes_ge 25 (y := main_v277) rfl (by decide),
    writes_ge 25 (y := main_v278) rfl (by decide),
    writes_ge 25 (y := main_v279) rfl (by decide),
    writes_ge 25 (y := main_v280) rfl (by decide),
    writes_ge 25 (y := main_v281) rfl (by decide),
    writes_ge 25 (y := main_v282) rfl (by decide),
    writes_ge 25 (y := main_v283) rfl (by decide),
    writes_ge 25 (y := main_v284) rfl (by decide),
    writes_ge 25 (y := main_v285) rfl (by decide),
    writes_ge 25 (y := main_v286) rfl (by decide),
    writes_ge 25 (y := main_c_38) rfl (by decide),
    writes_ge 25 (y := main_v287) rfl (by decide),
    writes_ge 25 (y := main_v288) rfl (by decide),
    writes_ge 25 (y := main_c_39) rfl (by decide),
    writes_ge 25 (y := main_v289) rfl (by decide),
    writes_ge 25 (y := main_v290) rfl (by decide),
    writes_ge 25 (y := main_v291) rfl (by decide),
    writes_ge 25 (y := main_v292) rfl (by decide),
    writes_ge 25 (y := main_v293) rfl (by decide),
    writes_ge 25 (y := main_c_40) rfl (by decide),
    writes_ge 25 (y := main_v294) rfl (by decide),
    writes_ge 25 (y := main_v295) rfl (by decide),
    writes_ge 25 (y := main_c_41) rfl (by decide),
    writes_ge 25 (y := main_v296) rfl (by decide),
    writes_ge 25 (y := main_v297) rfl (by decide),
    writes_ge 25 (y := main_v298) rfl (by decide),
    writes_ge 25 (y := main_v299) rfl (by decide),
    writes_ge 25 (y := main_v300) rfl (by decide),
    writes_ge 25 (y := main_v301) rfl (by decide),
    writes_ge 25 (y := main_cst_42) rfl (by decide),
    writes_ge 25 (y := main_v302) rfl (by decide),
    writes_ge 25 (y := main_v303) rfl (by decide),
    writes_ge 25 (y := main_cst_43) rfl (by decide),
    writes_ge 25 (y := main_v304) rfl (by decide),
    writes_ge 25 (y := main_v305) rfl (by decide),
    writes_ge 25 (y := main_cst_44) rfl (by decide),
    writes_ge 25 (y := main_v306) rfl (by decide),
    writes_ge 25 (y := main_v307) rfl (by decide),
    writes_ge 25 (y := main_v308) rfl (by decide),
    writes_ge 25 (y := main_v309) rfl (by decide),
    writes_ge 25 (y := main_v310) rfl (by decide),
    writes_ge 25 (y := main_cst_45) rfl (by decide),
    writes_ge 25 (y := main_v311) rfl (by decide)⟩

theorem frame5 (V : Valuation τ sig (Elt F)) {r : Ref sig .tc} (hr : r.idx.val < 25) :
    after opsP5 V (Proc.devRef .tc r) = V (Proc.devRef .tc r) :=
  after_of_forall_not_mem opsP5 V fun op hop => List.forall_iff_forall_mem.1 opsP5_ge op hop r hr

theorem args5 {V : Valuation τ sig (Elt F)} (h : Args a V) : Args a (after opsP5 V) :=
  Args.of_frame a (fun _ hr => frame5 V hr) h

set_option maxHeartbeats 4000000 in
set_option maxRecDepth 8192 in
theorem s5_v270 (V : Valuation τ sig (Elt F))
    (h_v259 : V (Proc.devRef .tc main_v259) = ((subf (pre2 a 1 (H1 a)) (broadcastInDim S32768x128 ![0, 1] bcast_S32768x1_S32768x128_0_1 (Host.divf (broadcastInDim S32768x1 ![0] bcast_S32768_S32768x1_0 (Host.reduceAdd (pre2 a 1 (H1 a)) (constant S_ .f32 0x00000000#32) reducesTo_S32768x128_S32768_d1 h_S_)) (broadcastInDim S32768x1 ![] bcast_S_S32768x1 (constant S_ .f32 0x43000000#32))))) : FVec F S32768x128 .f32))
    (h_v257 : V (Proc.devRef .tc main_v257) = (lnVar (pre2 a 1 (H1 a)) : FVec F S32768x1 .f32))
    (h_cst_37 : V (Proc.devRef .tc main_cst_37) = ((constant S_ .f32 0x3727C5AC#32) : FVec F S_ .f32))
    (h_v250 : V (Proc.devRef .tc main_v250) = (b128 1 a.a21 : FVec F S128 .f32))
    (h_v252 : V (Proc.devRef .tc main_v252) = (b128 1 a.a22 : FVec F S128 .f32)) :
    after opsP5 V (Proc.devRef .tc main_v270) = (H2 a : FVec F S32768x128 .f32) := by
  after_results_simp
  try simp only [TRef.ofBuf, TRef.toBuf, cast_eq]
  rw [h_v259, h_v257, h_cst_37, h_v250, h_v252]
  all_goals rfl

set_option maxHeartbeats 4000000 in
set_option maxRecDepth 8192 in
theorem s5_v282 (V : Valuation τ sig (Elt F)) (hA : Args a V)
    (h_v259 : V (Proc.devRef .tc main_v259) = ((subf (pre2 a 1 (H1 a)) (broadcastInDim S32768x128 ![0, 1] bcast_S32768x1_S32768x128_0_1 (Host.divf (broadcastInDim S32768x1 ![0] bcast_S32768_S32768x1_0 (Host.reduceAdd (pre2 a 1 (H1 a)) (constant S_ .f32 0x00000000#32) reducesTo_S32768x128_S32768_d1 h_S_)) (broadcastInDim S32768x1 ![] bcast_S_S32768x1 (constant S_ .f32 0x43000000#32))))) : FVec F S32768x128 .f32))
    (h_v257 : V (Proc.devRef .tc main_v257) = (lnVar (pre2 a 1 (H1 a)) : FVec F S32768x1 .f32))
    (h_cst_37 : V (Proc.devRef .tc main_cst_37) = ((constant S_ .f32 0x3727C5AC#32) : FVec F S_ .f32))
    (h_v250 : V (Proc.devRef .tc main_v250) = (b128 1 a.a21 : FVec F S128 .f32))
    (h_v252 : V (Proc.devRef .tc main_v252) = (b128 1 a.a22 : FVec F S128 .f32)) :
    after opsP5 V (Proc.devRef .tc main_v282) = (proj (H2 a) (w128 2 a.a11) : FVec F S32768x4x32 .f32) := by
  after_results_simp
  try simp only [TRef.ofBuf, TRef.toBuf, cast_eq]
  rw [h_v259, h_v257, h_cst_37, h_v250, h_v252, hA.2.2.2.2.2.2.2.2.2.2.2.1]
  all_goals rfl

set_option maxHeartbeats 4000000 in
set_option maxRecDepth 8192 in
theorem s5_v310 (V : Valuation τ sig (Elt F)) (hA : Args a V)
    (h_v259 : V (Proc.devRef .tc main_v259) = ((subf (pre2 a 1 (H1 a)) (broadcastInDim S32768x128 ![0, 1] bcast_S32768x1_S32768x128_0_1 (Host.divf (broadcastInDim S32768x1 ![0] bcast_S32768_S32768x1_0 (Host.reduceAdd (pre2 a 1 (H1 a)) (constant S_ .f32 0x00000000#32) reducesTo_S32768x128_S32768_d1 h_S_)) (broadcastInDim S32768x1 ![] bcast_S_S32768x1 (constant S_ .f32 0x43000000#32))))) : FVec F S32768x128 .f32))
    (h_v257 : V (Proc.devRef .tc main_v257) = (lnVar (pre2 a 1 (H1 a)) : FVec F S32768x1 .f32))
    (h_cst_37 : V (Proc.devRef .tc main_cst_37) = ((constant S_ .f32 0x3727C5AC#32) : FVec F S_ .f32))
    (h_v250 : V (Proc.devRef .tc main_v250) = (b128 1 a.a21 : FVec F S128 .f32))
    (h_v252 : V (Proc.devRef .tc main_v252) = (b128 1 a.a22 : FVec F S128 .f32))
    (h_v12 : V (Proc.devRef .tc main_v12) = (E a : FVec F S524288x128 .f32)) :
    after opsP5 V (Proc.devRef .tc main_v310) = (attnWL a 2 (H2 a) : FVec F S524288x4x32 .f32) := by
  after_results_simp
  try simp only [TRef.ofBuf, TRef.toBuf, cast_eq]
  rw [h_v259, h_v257, h_cst_37, h_v250, h_v252, h_v12, hA.2.2.2.2.2.2.2.2.2.1, hA.2.2.2.2.2.2.2.2.2.2.1, hA.2.2.2.2.2.2.2.2.2.2.2.2.1, hA.2.2.2.2.2.2.2.2.2.2.2.2.2.2.2.2.2.2.2.2.2.2.2.1, hA.2.2.2.2.2.2.2.2.2.2.2.2.2.2.2.2.2.2.2.2.2.2.2.2]
  all_goals rfl

set_option maxHeartbeats 4000000 in
set_option maxRecDepth 8192 in
theorem s5_v311 (V : Valuation τ sig (Elt F)) :
    after opsP5 V (Proc.devRef .tc main_v311) = ((broadcastInDim S32768x4x32 ![] bcast_S_S32768x4x32 (constant S_ .f32 0x00000000#32)) : FVec F S32768x4x32 .f32) := by
  after_results_simp
  all_goals rfl

theorem opsP6_ge : (opsP6 : List (HloOp τ sig (Elt F))).Forall fun op =>
    ∀ r : Ref sig .tc, r.idx.val < 25 → Proc.devRef (τ := τ) .tc r ∉ op.writes :=
  ⟨writes_ge 25 (y := main_v312) rfl (by decide),
    writes_ge 25 (y := main_v313) rfl (by decide),
    writes_ge 25 (y := main_cst_46) rfl (by decide),
    writes_ge 25 (y := main_v314) rfl (by decide),
    writes_ge 25 (y := main_v315) rfl (by decide),
    writes_ge 25 (y := main_c_47) rfl (by decide),
    writes_ge 25 (y := main_v316) rfl (by decide),
    writes_ge 25 (y := main_v317) rfl (by decide),
    writes_ge 25 (y := main_c_48) rfl (by decide),
    writes_ge 25 (y := main_v318) rfl (by decide),
    writes_ge 25 (y := main_v319) rfl (by decide),
    writes_ge 25 (y := main_v320) rfl (by decide),
    writes_ge 25 (y := main_v321) rfl (by decide),
    writes_ge 25 (y := main_v322) rfl (by decide),
    writes_ge 25 (y := main_v323) rfl (by decide),
    writes_ge 25 (y := main_cst_49) rfl (by decide),
    writes_ge 25 (y := main_v324) rfl (by decide),
    writes_ge 25 (y := main_v325) rfl (by decide),
    writes_ge 25 (y := main_v326) rfl (by decide),
    writes_ge 25 (y := main_v327) rfl (by decide),
    writes_ge 25 (y := main_v328) rfl (by decide),
    writes_ge 25 (y := main_v329) rfl (by decide),
    writes_ge 25 (y := main_v330) rfl (by decide),
    writes_ge 25 (y := main_v331) rfl (by decide),
    writes_ge 25 (y := main_v332) rfl (by decide),
    writes_ge 25 (y := main_v333) rfl (by decide),
    writes_ge 25 (y := main_v334) rfl (by decide),
    writes_ge 25 (y := main_v335) rfl (by decide),
    writes_ge 25 (y := main_v336) rfl (by decide),
    writes_ge 25 (y := main_v337) rfl (by decide),
    writes_ge 25 (y := main_v338) rfl (by decide),
    writes_ge 25 (y := main_v339) rfl (by decide),
    writes_ge 25 (y := main_v340) rfl (by decide),
    writes_ge 25 (y := main_v341) rfl (by decide),
    writes_ge 25 (y := main_cst_50) rfl (by decide),
    writes_ge 25 (y := main_v342) rfl (by decide),
    writes_ge 25 (y := main_v343) rfl (by decide),
    writes_ge 25 (y := main_cst_51) rfl (by decide),
    writes_ge 25 (y := main_v344) rfl (by decide),
    writes_ge 25 (y := main_v345) rfl (by decide),
    writes_ge 25 (y := main_c_52) rfl (by decide),
    writes_ge 25 (y := main_call6_cst) rfl (by decide),
    writes_ge 25 (y := main_call6_v0) rfl (by decide),
    writes_ge 25 (y := main_call6_v1) rfl (by decide),
    writes_ge 25 (y := main_call6_cst_0) rfl (by decide),
    writes_ge 25 (y := main_call6_v2) rfl (by decide),
    writes_ge 25 (y := main_call6_v3) rfl (by decide),
    writes_ge 25 (y := main_call6_v4) rfl (by decide),
    writes_ge 25 (y := main_call6_v5) rfl (by decide),
    writes_ge 25 (y := main_call6_v6) rfl (by decide),
    writes_ge 25 (y := main_call6_v7) rfl (by decide),
    writes_ge 25 (y := main_call6_cst_1) rfl (by decide),
    writes_ge 25 (y := main_call6_v8) rfl (by decide),
    writes_ge 25 (y := main_call6_cst_2) rfl (by decide),
    writes_ge 25 (y := main_call6_v9) rfl (by decide),
    writes_ge 25 (y := main_call6_v10) rfl (by decide),
    writes_ge 25 (y := main_call6_v11) rfl (by decide),
    writes_ge 25 (y := main_call6_v12) rfl (by decide),
    writes_ge 25 (y := main_call6_cst_3) rfl (by decide),
    writes_ge 25 (y := main_call6_v13) rfl (by decide),
    writes_ge 25 (y := main_call6_cst_4) rfl (by decide),
    writes_ge 25 (y := main_call6_call0_v0) rfl (by decide),
    writes_ge 25 (y := main_call6_call0_v1) rfl (by decide),
    writes_ge 25 (y := main_v346) rfl (by decide),
    writes_ge 25 (y := main_v347) rfl (by decide),
    writes_ge 25 (y := main_v348) rfl (by decide),
    writes_ge 25 (y := main_cst_53) rfl (by decide),
    writes_ge 25 (y := main_v349) rfl (by decide),
    writes_ge 25 (y := main_v350) rfl (by decide),
    writes_ge 25 (y := main_v351) rfl (by decide),
    writes_ge 25 (y := main_v352) rfl (by decide),
    writes_ge 25 (y := main_v353) rfl (by decide),
    writes_ge 25 (y := main_v354) rfl (by decide),
    writes_ge 25 (y := main_v355) rfl (by decide),
    writes_ge 25 (y := main_v356) rfl (by decide),
    writes_ge 25 (y := main_v357) rfl (by decide),
    writes_ge 25 (y := main_v358) rfl (by decide),
    writes_ge 25 (y := main_v359) rfl (by decide),
    writes_ge 25 (y := main_v360) rfl (by decide),
    writes_ge 25 (y := main_v361) rfl (by decide),
    writes_ge 25 (y := main_v362) rfl (by decide),
    writes_ge 25 (y := main_v363) rfl (by decide)⟩

theorem frame6 (V : Valuation τ sig (Elt F)) {r : Ref sig .tc} (hr : r.idx.val < 25) :
    after opsP6 V (Proc.devRef .tc r) = V (Proc.devRef .tc r) :=
  after_of_forall_not_mem opsP6 V fun op hop => List.forall_iff_forall_mem.1 opsP6_ge op hop r hr

theorem args6 {V : Valuation τ sig (Elt F)} (h : Args a V) : Args a (after opsP6 V) :=
  Args.of_frame a (fun _ hr => frame6 V hr) h

set_option maxHeartbeats 4000000 in
set_option maxRecDepth 8192 in
theorem s6_v359 (V : Valuation τ sig (Elt F)) (hA : Args a V)
    (h_v270 : V (Proc.devRef .tc main_v270) = (H2 a : FVec F S32768x128 .f32))
    (h_v282 : V (Proc.devRef .tc main_v282) = (proj (H2 a) (w128 2 a.a11) : FVec F S32768x4x32 .f32))
    (h_v310 : V (Proc.devRef .tc main_v310) = (attnWL a 2 (H2 a) : FVec F S524288x4x32 .f32))
    (h_v311 : V (Proc.devRef .tc main_v311) = ((broadcastInDim S32768x4x32 ![] bcast_S_S32768x4x32 (constant S_ .f32 0x00000000#32)) : FVec F S32768x4x32 .f32)) :
    after opsP6 V (Proc.devRef .tc main_v359) = (mid a 2 (H2 a) : FVec F S32768x128 .f32) := by
  after_results_simp
  try simp only [TRef.ofBuf, TRef.toBuf, cast_eq]
  rw [h_v270, h_v282, h_v310, h_v311, hA.2.2.2.2.2.2.2.2.2.2.2.2.2.1, hA.2.2.2.2.2.2.2.2.2.2.2.2.2.2.1, hA.2.2.2.2.2.2.2.2.2.2.2.2.2.2.2.1, hA.2.2.2.2.2.2.2.2.2.2.2.2.2.2.2.2.1, hA.2.2.2.2.2.2.2.2.2.2.2.2.2.2.2.2.2.2.2.2.2.2.2.1, hA.2.2.2.2.2.2.2.2.2.2.2.2.2.2.2.2.2.2.2.2.2.2.2.2]
  all_goals rfl

set_option maxHeartbeats 4000000 in
set_option maxRecDepth 8192 in
theorem s6_v362 (V : Valuation τ sig (Elt F)) (hA : Args a V)
    (h_v270 : V (Proc.devRef .tc main_v270) = (H2 a : FVec F S32768x128 .f32))
    (h_v282 : V (Proc.devRef .tc main_v282) = (proj (H2 a) (w128 2 a.a11) : FVec F S32768x4x32 .f32))
    (h_v310 : V (Proc.devRef .tc main_v310) = (attnWL a 2 (H2 a) : FVec F S524288x4x32 .f32))
    (h_v311 : V (Proc.devRef .tc main_v311) = ((broadcastInDim S32768x4x32 ![] bcast_S_S32768x4x32 (constant S_ .f32 0x00000000#32)) : FVec F S32768x4x32 .f32)) :
    after opsP6 V (Proc.devRef .tc main_v362) = ((Host.dotGeneral dot_S32768x128_S128x256_S32768x256_1_0_0_1_n_n none (mid a 2 (H2 a)) (w128x256 2 a.a17)) : FVec F S32768x256 .f32) := by
  after_results_simp
  try simp only [TRef.ofBuf, TRef.toBuf, cast_eq]
  rw [h_v270, h_v282, h_v310, h_v311, hA.2.2.2.2.2.2.2.2.2.2.2.2.2.1, hA.2.2.2.2.2.2.2.2.2.2.2.2.2.2.1, hA.2.2.2.2.2.2.2.2.2.2.2.2.2.2.2.1, hA.2.2.2.2.2.2.2.2.2.2.2.2.2.2.2.2.1, hA.2.2.2.2.2.2.2.2.2.2.2.2.2.2.2.2.2.1, hA.2.2.2.2.2.2.2.2.2.2.2.2.2.2.2.2.2.2.2.2.2.2.2.1, hA.2.2.2.2.2.2.2.2.2.2.2.2.2.2.2.2.2.2.2.2.2.2.2.2]
  all_goals rfl

set_option maxHeartbeats 4000000 in
set_option maxRecDepth 8192 in
theorem s6_v363 (V : Valuation τ sig (Elt F)) (hA : Args a V) :
    after opsP6 V (Proc.devRef .tc main_v363) = ((extractStridedSlice S1x256 ![2, 0] a.a18 slices_S3x256_S1x256_2_0) : FVec F S1x256 .f32) := by
  after_results_simp
  try simp only [TRef.ofBuf, TRef.toBuf, cast_eq]
  rw [hA.2.2.2.2.2.2.2.2.2.2.2.2.2.2.2.2.2.2.1]
  all_goals rfl

theorem opsP7_ge : (opsP7 : List (HloOp τ sig (Elt F))).Forall fun op =>
    ∀ r : Ref sig .tc, r.idx.val < 25 → Proc.devRef (τ := τ) .tc r ∉ op.writes :=
  ⟨writes_ge 25 (y := main_v364) rfl (by decide),
    writes_ge 25 (y := main_v365) rfl (by decide),
    writes_ge 25 (y := main_v366) rfl (by decide),
    writes_ge 25 (y := main_v367) rfl (by decide),
    writes_ge 25 (y := main_call7_cst) rfl (by decide),
    writes_ge 25 (y := main_call7_v0) rfl (by decide),
    writes_ge 25 (y := main_v368) rfl (by decide),
    writes_ge 25 (y := main_v369) rfl (by decide),
    writes_ge 25 (y := main_v370) rfl (by decide),
    writes_ge 25 (y := main_v371) rfl (by decide),
    writes_ge 25 (y := main_v372) rfl (by decide),
    writes_ge 25 (y := main_v373) rfl (by decide),
    writes_ge 25 (y := main_v374) rfl (by decide),
    writes_ge 25 (y := main_v375) rfl (by decide),
    writes_ge 25 (y := main_v376) rfl (by decide),
    writes_ge 25 (y := main_v377) rfl (by decide),
    writes_ge 25 (y := main_v378) rfl (by decide),
    writes_ge 25 (y := main_v379) rfl (by decide),
    writes_ge 25 (y := main_v380) rfl (by decide),
    writes_ge 25 (y := main_v381) rfl (by decide),
    writes_ge 25 (y := main_cst_54) rfl (by decide),
    writes_ge 25 (y := main_v382) rfl (by decide),
    writes_ge 25 (y := main_v383) rfl (by decide),
    writes_ge 25 (y := main_cst_55) rfl (by decide),
    writes_ge 25 (y := main_v384) rfl (by decide),
    writes_ge 25 (y := main_v385) rfl (by decide),
    writes_ge 25 (y := main_c_56) rfl (by decide),
    writes_ge 25 (y := main_call8_cst) rfl (by decide),
    writes_ge 25 (y := main_call8_v0) rfl (by decide),
    writes_ge 25 (y := main_call8_v1) rfl (by decide),
    writes_ge 25 (y := main_call8_cst_0) rfl (by decide),
    writes_ge 25 (y := main_call8_v2) rfl (by decide),
    writes_ge 25 (y := main_call8_v3) rfl (by decide),
    writes_ge 25 (y := main_call8_v4) rfl (by decide),
    writes_ge 25 (y := main_call8_v5) rfl (by decide),
    writes_ge 25 (y := main_call8_v6) rfl (by decide),
    writes_ge 25 (y := main_call8_v7) rfl (by decide),
    writes_ge 25 (y := main_call8_cst_1) rfl (by decide),
    writes_ge 25 (y := main_call8_v8) rfl (by decide),
    writes_ge 25 (y := main_call8_cst_2) rfl (by decide),
    writes_ge 25 (y := main_call8_v9) rfl (by decide),
    writes_ge 25 (y := main_call8_v10) rfl (by decide),
    writes_ge 25 (y := main_call8_v11) rfl (by decide),
    writes_ge 25 (y := main_call8_v12) rfl (by decide),
    writes_ge 25 (y := main_call8_cst_3) rfl (by decide),
    writes_ge 25 (y := main_call8_v13) rfl (by decide),
    writes_ge 25 (y := main_call8_cst_4) rfl (by decide),
    writes_ge 25 (y := main_call8_call0_v0) rfl (by decide),
    writes_ge 25 (y := main_call8_call0_v1) rfl (by decide),
    writes_ge 25 (y := main_v386) rfl (by decide),
    writes_ge 25 (y := main_v387) rfl (by decide),
    writes_ge 25 (y := main_v388) rfl (by decide),
    writes_ge 25 (y := main_cst_57) rfl (by decide),
    writes_ge 25 (y := main_v389) rfl (by decide),
    writes_ge 25 (y := main_v390) rfl (by decide),
    writes_ge 25 (y := main_v391) rfl (by decide),
    writes_ge 25 (y := main_v392) rfl (by decide),
    writes_ge 25 (y := main_v393) rfl (by decide),
    writes_ge 25 (y := main_v394) rfl (by decide),
    writes_ge 25 (y := main_v395) rfl (by decide),
    writes_ge 25 (y := main_v396) rfl (by decide),
    writes_ge 25 (y := main_v397) rfl (by decide),
    writes_ge 25 (y := main_v398) rfl (by decide),
    writes_ge 25 (y := main_v399) rfl (by decide),
    writes_ge 25 (y := main_cst_58) rfl (by decide),
    writes_ge 25 (y := main_v400) rfl (by decide),
    writes_ge 25 (y := main_v401) rfl (by decide),
    writes_ge 25 (y := main_cst_59) rfl (by decide),
    writes_ge 25 (y := main_v402) rfl (by decide),
    writes_ge 25 (y := main_v403) rfl (by decide)⟩

theorem frame7 (V : Valuation τ sig (Elt F)) {r : Ref sig .tc} (hr : r.idx.val < 25) :
    after opsP7 V (Proc.devRef .tc r) = V (Proc.devRef .tc r) :=
  after_of_forall_not_mem opsP7 V fun op hop => List.forall_iff_forall_mem.1 opsP7_ge op hop r hr

theorem args7 {V : Valuation τ sig (Elt F)} (h : Args a V) : Args a (after opsP7 V) :=
  Args.of_frame a (fun _ hr => frame7 V hr) h

set_option maxHeartbeats 4000000 in
set_option maxRecDepth 8192 in
theorem s7_v403 (V : Valuation τ sig (Elt F)) (hA : Args a V)
    (h_v359 : V (Proc.devRef .tc main_v359) = (mid a 2 (H2 a) : FVec F S32768x128 .f32))
    (h_v362 : V (Proc.devRef .tc main_v362) = ((Host.dotGeneral dot_S32768x128_S128x256_S32768x256_1_0_0_1_n_n none (mid a 2 (H2 a)) (w128x256 2 a.a17)) : FVec F S32768x256 .f32))
    (h_v363 : V (Proc.devRef .tc main_v363) = ((extractStridedSlice S1x256 ![2, 0] a.a18 slices_S3x256_S1x256_2_0) : FVec F S1x256 .f32)) :
    after opsP7 V (Proc.devRef .tc main_v403) = (readout (H3 a) : FVec F S1x128 .f32) := by
  after_results_simp
  try simp only [TRef.ofBuf, TRef.toBuf, cast_eq]
  rw [h_v359, h_v362, h_v363, hA.2.2.2.2.2.2.2.2.2.2.2.2.2.2.2.2.2.2.2.1, hA.2.2.2.2.2.2.2.2.2.2.2.2.2.2.2.2.2.2.2.2.1, hA.2.2.2.2.2.2.2.2.2.2.2.2.2.2.2.2.2.2.2.2.2.1, hA.2.2.2.2.2.2.2.2.2.2.2.2.2.2.2.2.2.2.2.2.2.2.1]
  all_goals rfl

def argsOf (V : Valuation τ sig (Elt F)) : ArgVals F :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16), V (Proc.devRef .tc main_arg17), V (Proc.devRef .tc main_arg18), V (Proc.devRef .tc main_arg19), V (Proc.devRef .tc main_arg20), V (Proc.devRef .tc main_arg21), V (Proc.devRef .tc main_arg22), V (Proc.devRef .tc main_arg23), V (Proc.devRef .tc main_arg24)⟩

theorem args_argsOf (V : Valuation τ sig (Elt F)) : Args (argsOf V) V :=
  ⟨rfl, rfl, rfl, rfl, rfl, rfl, rfl, rfl, rfl, rfl, rfl, rfl, rfl, rfl, rfl, rfl, rfl, rfl, rfl, rfl, rfl, rfl, rfl, rfl, rfl⟩

theorem readout_H3 : readout (H3 a) = result a.a0 a.a1 a.a2 a.a3 a.a4 a.a5 a.a6 a.a7 a.a8 a.a9 a.a10 a.a11 a.a12 a.a13 a.a14 a.a15 a.a16 a.a17 a.a18 a.a19 a.a20 a.a21 a.a22 a.a23 a.a24 := rfl

theorem after_ops_eq (V : Valuation τ sig (Elt F)) : after ops V = after opsP7 (after opsP6 (after opsP5 (after opsP4 (after opsP3 (after opsP2 (after opsP1 (after opsP0 V))))))) := by
  show after (opsP0 ++ (opsP1 ++ (opsP2 ++ (opsP3 ++ (opsP4 ++ (opsP5 ++ (opsP6 ++ opsP7))))))) V = _
  rw [after_app, after_app, after_app, after_app, after_app, after_app, after_app]

set_option maxHeartbeats 1000000 in
theorem after_ops (V : Valuation τ sig (Elt F)) :
    after ops V (Proc.devRef .tc main_v403) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24))
    ∧ Args (argsOf V) (after ops V) := by
  have A0 := args_argsOf V
  have A1 := args0 (argsOf V) A0
  have i1_v8 := s0_v8 (argsOf V) V A0
  have i1_v12 := s0_v12 (argsOf V) V A0
  have i1_v24 := s0_v24 (argsOf V) V A0
  have i1_v52 := s0_v52 (argsOf V) V A0
  have A2 := args1 (argsOf V) A1
  have i2_v101 := s1_v101 (argsOf V) _ A1 i1_v8 i1_v24 i1_v52
  have i2_v103 := s1_v103 (argsOf V) _ A1
  have i2_v12 := s1_v12 (argsOf V) _ i1_v12
  have A3 := args2 (argsOf V) A2
  have i3_v141 := s2_v141 (argsOf V) _ A2 i2_v101 i2_v103
  have i3_v145 := s2_v145 (argsOf V) _ A2 i2_v101 i2_v103
  have i3_v149 := s2_v149 (argsOf V) _ A2 i2_v101 i2_v103
  have i3_v153 := s2_v153 (argsOf V) _ A2 i2_v101 i2_v103
  have i3_v157 := s2_v157 (argsOf V) _ A2 i2_v12
  have i3_v158 := s2_v158 (after opsP1 (after opsP0 V))
  have i3_v12 := s2_v12 (argsOf V) _ i2_v12
  have A4 := args3 (argsOf V) A3
  have i4_v203 := s3_v203 (argsOf V) _ A3 i3_v141 i3_v153 i3_v149 i3_v158 i3_v145 i3_v157
  have i4_v207 := s3_v207 (argsOf V) _ A3
  have i4_v12 := s3_v12 (argsOf V) _ i3_v12
  have A5 := args4 (argsOf V) A4
  have i5_cst_37 := s4_cst_37 (after opsP3 (after opsP2 (after opsP1 (after opsP0 V))))
  have i5_v250 := s4_v250 (argsOf V) _ A4
  have i5_v252 := s4_v252 (argsOf V) _ A4
  have i5_v257 := s4_v257 (argsOf V) _ A4 i4_v203 i4_v207
  have i5_v259 := s4_v259 (argsOf V) _ A4 i4_v203 i4_v207
  have i5_v12 := s4_v12 (argsOf V) _ i4_v12
  have A6 := args5 (argsOf V) A5
  have i6_v270 := s5_v270 (argsOf V) _ i5_v259 i5_v257 i5_cst_37 i5_v250 i5_v252
  have i6_v282 := s5_v282 (argsOf V) _ A5 i5_v259 i5_v257 i5_cst_37 i5_v250 i5_v252
  have i6_v310 := s5_v310 (argsOf V) _ A5 i5_v259 i5_v257 i5_cst_37 i5_v250 i5_v252 i5_v12
  have i6_v311 := s5_v311 (after opsP4 (after opsP3 (after opsP2 (after opsP1 (after opsP0 V)))))
  have A7 := args6 (argsOf V) A6
  have i7_v359 := s6_v359 (argsOf V) _ A6 i6_v270 i6_v282 i6_v310 i6_v311
  have i7_v362 := s6_v362 (argsOf V) _ A6 i6_v270 i6_v282 i6_v310 i6_v311
  have i7_v363 := s6_v363 (argsOf V) _ A6
  have A8 := args7 (argsOf V) A7
  have i8_v403 := s7_v403 (argsOf V) _ A7 i7_v359 i7_v362 i7_v363
  rw [after_ops_eq]
  exact ⟨i8_v403.trans (readout_H3 (argsOf V)), A8⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v403) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono
    (fun _ h c =>
      have H := after_ops (launchContents m c)
      ⟨(h c main_v403).trans H.1,
       (h c main_arg0).trans H.2.1,
       (h c main_arg1).trans H.2.2.1,
       (h c main_arg2).trans H.2.2.2.1,
       (h c main_arg3).trans H.2.2.2.2.1,
       (h c main_arg4).trans H.2.2.2.2.2.1,
       (h c main_arg5).trans H.2.2.2.2.2.2.1,
       (h c main_arg6).trans H.2.2.2.2.2.2.2.1,
       (h c main_arg7).trans H.2.2.2.2.2.2.2.2.1,
       (h c main_arg8).trans H.2.2.2.2.2.2.2.2.2.1,
       (h c main_arg9).trans H.2.2.2.2.2.2.2.2.2.2.1,
       (h c main_arg10).trans H.2.2.2.2.2.2.2.2.2.2.2.1,
       (h c main_arg11).trans H.2.2.2.2.2.2.2.2.2.2.2.2.1,
       (h c main_arg12).trans H.2.2.2.2.2.2.2.2.2.2.2.2.2.1,
       (h c main_arg13).trans H.2.2.2.2.2.2.2.2.2.2.2.2.2.2.1,
       (h c main_arg14).trans H.2.2.2.2.2.2.2.2.2.2.2.2.2.2.2.1,
       (h c main_arg15).trans H.2.2.2.2.2.2.2.2.2.2.2.2.2.2.2.2.1,
       (h c main_arg16).trans H.2.2.2.2.2.2.2.2.2.2.2.2.2.2.2.2.2.1,
       (h c main_arg17).trans H.2.2.2.2.2.2.2.2.2.2.2.2.2.2.2.2.2.2.1,
       (h c main_arg18).trans H.2.2.2.2.2.2.2.2.2.2.2.2.2.2.2.2.2.2.2.1,
       (h c main_arg19).trans H.2.2.2.2.2.2.2.2.2.2.2.2.2.2.2.2.2.2.2.2.1,
       (h c main_arg20).trans H.2.2.2.2.2.2.2.2.2.2.2.2.2.2.2.2.2.2.2.2.2.1,
       (h c main_arg21).trans H.2.2.2.2.2.2.2.2.2.2.2.2.2.2.2.2.2.2.2.2.2.2.1,
       (h c main_arg22).trans H.2.2.2.2.2.2.2.2.2.2.2.2.2.2.2.2.2.2.2.2.2.2.2.1,
       (h c main_arg23).trans H.2.2.2.2.2.2.2.2.2.2.2.2.2.2.2.2.2.2.2.2.2.2.2.2.1,
       (h c main_arg24).trans H.2.2.2.2.2.2.2.2.2.2.2.2.2.2.2.2.2.2.2.2.2.2.2.2.2⟩)
    (run_after m ρ)

end Cert.ReferenceIdeal.Hand

end
-- ==== Proof.lean ====
import proofs.«113847_j61718680043593_1_alg».proof.Defs
import proofs.«113847_j61718680043593_1_alg».proof.Proof.Gen.Kernel
import proofs.«113847_j61718680043593_1_alg».proof.Proof.Gen.KernelIdeal
import proofs.«113847_j61718680043593_1_alg».proof.Proof.Gen.ReferenceIdeal
import proofs.«113847_j61718680043593_1_alg».proof.Proof.Gen.Pre_finite_inputs
import proofs.«113847_j61718680043593_1_alg».proof.Proof.K.Run
import proofs.«113847_j61718680043593_1_alg».proof.Proof.KI.Value
import proofs.«113847_j61718680043593_1_alg».proof.Proof.Ref.Value
import Idealize.ShloMosaic.Adequacy
import Idealize.ShloMosaic.Init

noncomputable section

namespace Cert.Proof

open Idealize.ShloMosaic Idealize.SL.Sem

theorem frame_k : Cert.frame_Kernel := fun m ρ _ => Cert.Kernel.Hand.run_main m ρ

theorem frame_ki : Cert.frame_KernelIdeal := fun m ρ _ =>
  (θ_run Cert.KernelIdeal.defs _ _).mono (fun _ h c => (h c).2) (Cert.KernelIdeal.Hand.run_main m ρ)

theorem frame_ri : Cert.frame_ReferenceIdeal := fun m ρ _ =>
  (θ_run Cert.ReferenceIdeal.defs _ _).mono (fun _ h c => (h c).2) (Cert.ReferenceIdeal.Hand.run (F := Ideal) m ρ)

-- Both runs end with the reference's result function of the arguments in the result buffer, and the arguments agree.
theorem algebraic : Cert.algebraic_KernelIdeal_ReferenceIdeal := by
  intro m ρ m' ρ' _ hagree
  refine ⟨_, (θ_run Cert.KernelIdeal.defs _ _).mono (fun _ h c => ⟨(h c).1.trans (Cert.KernelIdeal.Hand.value m c), (h c).2⟩)
    (Cert.KernelIdeal.Hand.run_main m ρ), ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10, e11, e12, e13, e14, e15, e16, e17, e18, e19, e20, e21, e22, e23, e24⟩ := hagree c
  rw [e0, e1, e2, e3, e4, e5, e6, e7, e8, e9, e10, e11, e12, e13, e14, e15, e16, e17, e18, e19, e20, e21, e22, e23, e24]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
